-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v205)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v205) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v275) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x10 : Shape := ⟨2, ![16, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S16x10 .f32) (main_arg14 : FVec F S10 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x10 .f32 := Host.absf main_arg13
  let main_cst_20 : FVec F S_ .f32 := constant S_ .f32 0x7F800000#32
  let main_v55 : FVec F S16x10 .f32 := broadcastInDim S16x10 ![] bcast_S_S16x10 main_cst_20
  let main_v56 : IVec S16x10 1 := cmpf .olt main_v54 main_v55
  let main_c_21 : IVec S_ 1 := constantI S_ 1 1#1
  let main_v57 : IVec S_ 1 := (fun x v => Host.reduce IntOp.andi x v reducesTo_S16x10_S_d0_1 h_S_) main_v56 main_c_21
  let main_v58 : IVec S_ 1 := andi main_v53 main_v57
  let main_v59 : FVec F S10 .f32 := Host.absf main_arg14
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg9 : FVec F S64x32 .f32) (main_arg10 : FVec F S32 .f32) (main_arg11 : FVec F S32x16 .f32) (main_arg12 : FVec F S16 .f32) (main_arg13 : FVec F S16x10 .f32) (main_arg14 : FVec F S10 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x16 .f32 := Host.absf main_arg11
  let main_cst_16 : FVec F S_ .f32 := constant S_ .f32 0x7F800000#32
  let main_v45 : FVec F S32x16 .f32 := broadcastInDim S32x16 ![] bcast_S_S32x16 main_cst_16
  let main_v46 : IVec S32x16 1 := cmpf .olt main_v44 main_v45
  let main_c_17 : IVec S_ 1 := constantI S_ 1 1#1
  let main_v47 : IVec S_ 1 := (fun x v => Host.reduce IntOp.andi x v reducesTo_S32x16_S_d0_1 h_S_) main_v46 main_c_17
  let main_v48 : IVec S_ 1 := andi main_v43 main_v47
  let main_v49 : FVec F S16 .f32 := Host.absf main_arg12
  let main_cst_18 : FVec F S_ .f32 := constant S_ .f32 0x7F800000#32
  let main_v50 : FVec F S16 .f32 := broadcastInDim S16 ![] bcast_S_S16 main_cst_18
  fn_part3 (F := F) main_arg13 main_arg14 main_v48 main_v49 main_v50

def fn_part1 {F : FTy → Type} [FloatOps F] (main_arg6 : FVec F S3x64 .f32) (main_arg7 : FVec F S64 .f32) (main_arg8 : FVec F S64 .f32) (main_arg9 : FVec F S64x32 .f32) (main_arg10 : FVec F S32 .f32) (main_arg11 : FVec F S32x16 .f32) (main_arg12 : FVec F S16 .f32) (main_arg13 : FVec F S16x10 .f32) (main_arg14 : FVec F S10 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S3x64x64 .f32) (main_arg6 : FVec F S3x64 .f32) (main_arg7 : FVec F S64 .f32) (main_arg8 : FVec F S64 .f32) (main_arg9 : FVec F S64x32 .f32) (main_arg10 : FVec F S32 .f32) (main_arg11 : FVec F S32x16 .f32) (main_arg12 : FVec F S16 .f32) (main_arg13 : FVec F S16x10 .f32) (main_arg14 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x10 : Shape := ⟨2, ![16, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S50000x64 : Shape := ⟨2, ![50000, 64]⟩
abbrev S5000x128 : Shape := ⟨2, ![5000, 128]⟩
abbrev S5000x64 : Shape := ⟨2, ![5000, 64]⟩
abbrev S800000x64 : Shape := ⟨2, ![800000, 64]⟩
abbrev S1x64 : Shape := ⟨2, ![1, 64]⟩
abbrev S5000x1 : Shape := ⟨2, ![5000, 1]⟩
abbrev S1x64x64 : Shape := ⟨3, ![1, 64, 64]⟩
abbrev S64x64 : Shape := ⟨2, ![64, 64]⟩
abbrev S64x1 : Shape := ⟨2, ![64, 1]⟩
abbrev S1x32 : Shape := ⟨2, ![1, 32]⟩
abbrev S1x16 : Shape := ⟨2, ![1, 16]⟩
abbrev S1x10 : Shape := ⟨2, ![1, 10]⟩
abbrev S64x10 : Shape := ⟨2, ![64, 10]⟩
abbrev S64x16 : Shape := ⟨2, ![64, 16]⟩

abbrev nBuf : Space → Nat
  | .hbm => 267
  | .vmem => 94
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S3x64x64, .f32⟩
  | 6 => ⟨S3x64, .f32⟩
  | 7 => ⟨S64, .f32⟩
  | 8 => ⟨S64, .f32⟩
  | 9 => ⟨S64x32, .f32⟩
  | 10 => ⟨S32, .f32⟩
  | 11 => ⟨S32x16, .f32⟩
  | 12 => ⟨S16, .f32⟩
  | 13 => ⟨S16x10, .f32⟩
  | 14 => ⟨S10, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S50000, .f32⟩
  | 30 => ⟨S50000x1, .f32⟩
  | 31 => ⟨S50000x64, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000, .f32⟩
  | 59 => ⟨S800000, .f32⟩
  | 60 => ⟨S800000x1, .f32⟩
  | 61 => ⟨S800000x64, .f32⟩
  | 62 => ⟨S800000x64, .f32⟩
  | 63 => ⟨S_, .f32⟩
  | 64 => ⟨S50000x64, .f32⟩
  | 65 => ⟨S800000x1, .i32⟩
  | 66 => ⟨S50000x64, .f32⟩
  | 67 => ⟨S1x64, .f32⟩
  | 68 => ⟨S50000x64, .f32⟩
  | 69 => ⟨S1x64x64, .f32⟩
  | 70 => ⟨S64x64, .f32⟩
  | 71 => ⟨S1x64, .f32⟩
  | 72 => ⟨S64, .f32⟩
  | 73 => ⟨S50000x64, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x64, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000, .f32⟩
  | 101 => ⟨S800000, .f32⟩
  | 102 => ⟨S800000x1, .f32⟩
  | 103 => ⟨S800000x64, .f32⟩
  | 104 => ⟨S800000x64, .f32⟩
  | 105 => ⟨S_, .f32⟩
  | 106 => ⟨S50000x64, .f32⟩
  | 107 => ⟨S800000x1, .i32⟩
  | 108 => ⟨S50000x64, .f32⟩
  | 109 => ⟨S1x64, .f32⟩
  | 110 => ⟨S50000x64, .f32⟩
  | 111 => ⟨S_, .f32⟩
  | 112 => ⟨S64, .f32⟩
  | 113 => ⟨S1x64, .f32⟩
  | 114 => ⟨S_, .f32⟩
  | 115 => ⟨S1x64, .f32⟩
  | 116 => ⟨S1x64, .f32⟩
  | 117 => ⟨S50000x64, .f32⟩
  | 118 => ⟨S50000x64, .f32⟩
  | 119 => ⟨S50000x64, .f32⟩
  | 120 => ⟨S_, .f32⟩
  | 121 => ⟨S64, .f32⟩
  | 122 => ⟨S1x64, .f32⟩
  | 123 => ⟨S_, .f32⟩
  | 124 => ⟨S1x64, .f32⟩
  | 125 => ⟨S1x64, .f32⟩
  | 126 => ⟨S1x64, .f32⟩
  | 127 => ⟨S1x64, .f32⟩
  | _ => ⟨S50000x128, .f32⟩

abbrev hbmTy0_1 (i : Nat) : BufTy := match i % 128 with
  | 0 => ⟨S50000x64, .f32⟩
  | 1 => ⟨S1x64x64, .f32⟩
  | 2 => ⟨S64x64, .f32⟩
  | 3 => ⟨S1x64, .f32⟩
  | 4 => ⟨S64, .f32⟩
  | 5 => ⟨S50000x64, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x64, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S800000, .f32⟩
  | 34 => ⟨S800000x1, .f32⟩
  | 35 => ⟨S800000x64, .f32⟩
  | 36 => ⟨S800000x64, .f32⟩
  | 37 => ⟨S_, .f32⟩
  | 38 => ⟨S50000x64, .f32⟩
  | 39 => ⟨S800000x1, .i32⟩
  | 40 => ⟨S50000x64, .f32⟩
  | 41 => ⟨S1x64, .f32⟩
  | 42 => ⟨S50000x64, .f32⟩
  | 43 => ⟨S_, .f32⟩
  | 44 => ⟨S64, .f32⟩
  | 45 => ⟨S1x64, .f32⟩
  | 46 => ⟨S_, .f32⟩
  | 47 => ⟨S1x64, .f32⟩
  | 48 => ⟨S1x64, .f32⟩
  | 49 => ⟨S50000x64, .f32⟩
  | 50 => ⟨S50000x64, .f32⟩
  | 51 => ⟨S50000x64, .f32⟩
  | 52 => ⟨S_, .f32⟩
  | 53 => ⟨S64, .f32⟩
  | 54 => ⟨S1x64, .f32⟩
  | 55 => ⟨S_, .f32⟩
  | 56 => ⟨S1x64, .f32⟩
  | 57 => ⟨S1x64, .f32⟩
  | 58 => ⟨S1x64, .f32⟩
  | 59 => ⟨S1x64, .f32⟩
  | 60 => ⟨S50000x64, .f32⟩
  | 61 => ⟨S1x64x64, .f32⟩
  | 62 => ⟨S64x64, .f32⟩
  | 63 => ⟨S1x64, .f32⟩
  | 64 => ⟨S64, .f32⟩
  | 65 => ⟨S50000x64, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x64, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000, .f32⟩
  | 93 => ⟨S800000, .f32⟩
  | 94 => ⟨S800000x1, .f32⟩
  | 95 => ⟨S800000x64, .f32⟩
  | 96 => ⟨S800000x64, .f32⟩
  | 97 => ⟨S_, .f32⟩
  | 98 => ⟨S50000x64, .f32⟩
  | 99 => ⟨S800000x1, .i32⟩
  | 100 => ⟨S50000x64, .f32⟩
  | 101 => ⟨S1x64, .f32⟩
  | 102 => ⟨S50000x64, .f32⟩
  | 103 => ⟨S_, .f32⟩
  | 104 => ⟨S64, .f32⟩
  | 105 => ⟨S1x64, .f32⟩
  | 106 => ⟨S_, .f32⟩
  | 107 => ⟨S1x64, .f32⟩
  | 108 => ⟨S1x64, .f32⟩
  | 109 => ⟨S50000x64, .f32⟩
  | 110 => ⟨S50000x64, .f32⟩
  | 111 => ⟨S50000x64, .f32⟩
  | 112 => ⟨S_, .f32⟩
  | 113 => ⟨S64, .f32⟩
  | 114 => ⟨S1x64, .f32⟩
  | 115 => ⟨S_, .f32⟩
  | 116 => ⟨S1x64, .f32⟩
  | 117 => ⟨S1x64, .f32⟩
  | 118 => ⟨S1x64, .f32⟩
  | 119 => ⟨S1x64, .f32⟩
  | 120 => ⟨S50000x64, .f32⟩
  | 121 => ⟨S50000x1, .i32⟩
  | 122 => ⟨S64x64, .f32⟩
  | 123 => ⟨S_, .f32⟩
  | 124 => ⟨S50000, .f32⟩
  | 125 => ⟨S_, .f32⟩
  | 126 => ⟨S64, .f32⟩
  | 127 => ⟨S50000x1, .i32⟩
  | _ => ⟨S50000x128, .f32⟩

abbrev hbmTy0_2 (i : Nat) : BufTy := match i % 128 with
  | 0 => ⟨S64, .f32⟩
  | 1 => ⟨S_, .f32⟩
  | 2 => ⟨S64, .f32⟩
  | 3 => ⟨S64, .f32⟩
  | 4 => ⟨S64x1, .f32⟩
  | 5 => ⟨S64x64, .f32⟩
  | 6 => ⟨S64x64, .f32⟩
  | 7 => ⟨S1x32, .f32⟩
  | 8 => ⟨S1x16, .f32⟩
  | 9 => ⟨S1x10, .f32⟩
  | 10 => ⟨S64x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x1, .f32⟩
  | .local _ .vmem, ⟨46, _⟩ => ⟨S5000x1, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S1x64, .f32⟩
  | .local _ .vmem, ⟨53, _⟩ => ⟨S1x64, .f32⟩
  | .local _ .vmem, ⟨54, _⟩ => ⟨S1x64, .f32⟩
  | .local _ .vmem, ⟨55, _⟩ => ⟨S1x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x64, .f32⟩
  | .local _ .vmem, ⟨60, _⟩ => ⟨S64x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S5000x64, .f32⟩
  | .local _ .vmem, ⟨66, _⟩ => ⟨S5000x64, .f32⟩
  | .local _ .vmem, ⟨67, _⟩ => ⟨S5000x1, .f32⟩
  | .local _ .vmem, ⟨68, _⟩ => ⟨S5000x1, .f32⟩
  | .local _ .vmem, ⟨69, _⟩ => ⟨S1x64, .f32⟩
  | .local _ .vmem, ⟨70, _⟩ => ⟨S5000x64, .f32⟩
  | .local _ .vmem, ⟨71, _⟩ => ⟨S5000x64, .f32⟩
  | .local _ .vmem, ⟨72, _⟩ => ⟨S5000x64, .f32⟩
  | .local _ .vmem, ⟨73, _⟩ => ⟨S5000x64, .f32⟩
  | .local _ .vmem, ⟨74, _⟩ => ⟨S1x64, .f32⟩
  | .local _ .vmem, ⟨75, _⟩ => ⟨S1x64, .f32⟩
  | .local _ .vmem, ⟨76, _⟩ => ⟨S1x64, .f32⟩
  | .local _ .vmem, ⟨77, _⟩ => ⟨S1x64, .f32⟩
  | .local _ .vmem, ⟨78, _⟩ => ⟨S5000x64, .f32⟩
  | .local _ .vmem, ⟨79, _⟩ => ⟨S5000x64, .f32⟩
  | .local _ .vmem, ⟨80, _⟩ => ⟨S5000x64, .f32⟩
  | .local _ .vmem, ⟨81, _⟩ => ⟨S5000x64, .f32⟩
  | .local _ .vmem, ⟨82, _⟩ => ⟨S5000x1, .i32⟩
  | .local _ .vmem, ⟨83, _⟩ => ⟨S5000x1, .i32⟩
  | .local _ .vmem, ⟨84, _⟩ => ⟨S64x64, .f32⟩
  | .local _ .vmem, ⟨85, _⟩ => ⟨S64x64, .f32⟩
  | .local _ .vmem, ⟨86, _⟩ => ⟨S64x64, .f32⟩
  | .local _ .vmem, ⟨87, _⟩ => ⟨S64x32, .f32⟩
  | .local _ .vmem, ⟨88, _⟩ => ⟨S1x32, .f32⟩
  | .local _ .vmem, ⟨89, _⟩ => ⟨S32x16, .f32⟩
  | .local _ .vmem, ⟨90, _⟩ => ⟨S1x16, .f32⟩
  | .local _ .vmem, ⟨91, _⟩ => ⟨S16x10, .f32⟩
  | .local _ .vmem, ⟨92, _⟩ => ⟨S1x10, .f32⟩
  | .local _ .vmem, ⟨93, _⟩ => ⟨S64x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | _, _ => false

abbrev semScoped : Fin 0 → Bool
  | ⟨_, h⟩ => absurd h (Nat.not_lt_zero _)

abbrev dmaSemScoped : Fin 93 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | _ => false

abbrev sig : RefSig :=
  ofTc nBuf bufTy 0 93 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_8 : Ref sig .tc := ⟨.hbm, 74, rfl⟩
abbrev main_v49 : Ref sig .tc := ⟨.hbm, 75, rfl⟩
abbrev main_v50 : Ref sig .tc := ⟨.hbm, 76, rfl⟩
abbrev main_c_9 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_12 : Ref sig .tc := ⟨.hbm, 92, rfl⟩
abbrev main_v63 : Ref sig .tc := ⟨.hbm, 93, rfl⟩
abbrev main_v64 : Ref sig .tc := ⟨.hbm, 94, rfl⟩
abbrev main_c_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_14 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_15 : Ref sig .tc := ⟨.hbm, 111, rfl⟩
abbrev main_v79 : Ref sig .tc := ⟨.hbm, 112, rfl⟩
abbrev main_v80 : Ref sig .tc := ⟨.hbm, 113, rfl⟩
abbrev main_cst_16 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_17 : Ref sig .tc := ⟨.hbm, 120, rfl⟩
abbrev main_v86 : Ref sig .tc := ⟨.hbm, 121, rfl⟩
abbrev main_v87 : Ref sig .tc := ⟨.hbm, 122, rfl⟩
abbrev main_cst_18 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_19 : Ref sig .tc := ⟨.hbm, 134, rfl⟩
abbrev main_v98 : Ref sig .tc := ⟨.hbm, 135, rfl⟩
abbrev main_v99 : Ref sig .tc := ⟨.hbm, 136, rfl⟩
abbrev main_c_20 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_c_21 : Ref sig .tc := ⟨.hbm, 143, rfl⟩
abbrev main_v105 : Ref sig .tc := ⟨.hbm, 144, rfl⟩
abbrev main_v106 : Ref sig .tc := ⟨.hbm, 145, rfl⟩
abbrev main_c_22 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_c_23 : Ref sig .tc := ⟨.hbm, 152, rfl⟩
abbrev main_v112 : Ref sig .tc := ⟨.hbm, 153, rfl⟩
abbrev main_v113 : Ref sig .tc := ⟨.hbm, 154, rfl⟩
abbrev main_c_24 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_25 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_26 : Ref sig .tc := ⟨.hbm, 171, rfl⟩
abbrev main_v128 : Ref sig .tc := ⟨.hbm, 172, rfl⟩
abbrev main_v129 : Ref sig .tc := ⟨.hbm, 173, rfl⟩
abbrev main_cst_27 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_28 : Ref sig .tc := ⟨.hbm, 180, rfl⟩
abbrev main_v135 : Ref sig .tc := ⟨.hbm, 181, rfl⟩
abbrev main_v136 : Ref sig .tc := ⟨.hbm, 182, rfl⟩
abbrev main_cst_29 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_c_30 : Ref sig .tc := ⟨.hbm, 194, rfl⟩
abbrev main_v147 : Ref sig .tc := ⟨.hbm, 195, rfl⟩
abbrev main_v148 : Ref sig .tc := ⟨.hbm, 196, rfl⟩
abbrev main_c_31 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_c_32 : Ref sig .tc := ⟨.hbm, 203, rfl⟩
abbrev main_v154 : Ref sig .tc := ⟨.hbm, 204, rfl⟩
abbrev main_v155 : Ref sig .tc := ⟨.hbm, 205, rfl⟩
abbrev main_c_33 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_c_34 : Ref sig .tc := ⟨.hbm, 212, rfl⟩
abbrev main_v161 : Ref sig .tc := ⟨.hbm, 213, rfl⟩
abbrev main_v162 : Ref sig .tc := ⟨.hbm, 214, rfl⟩
abbrev main_c_35 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_cst_36 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_cst_37 : Ref sig .tc := ⟨.hbm, 231, rfl⟩
abbrev main_v177 : Ref sig .tc := ⟨.hbm, 232, rfl⟩
abbrev main_v178 : Ref sig .tc := ⟨.hbm, 233, rfl⟩
abbrev main_cst_38 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_cst_39 : Ref sig .tc := ⟨.hbm, 240, rfl⟩
abbrev main_v184 : Ref sig .tc := ⟨.hbm, 241, rfl⟩
abbrev main_v185 : Ref sig .tc := ⟨.hbm, 242, rfl⟩
abbrev main_cst_40 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_cst_41 : Ref sig .tc := ⟨.hbm, 251, rfl⟩
abbrev main_v193 : Ref sig .tc := ⟨.hbm, 252, rfl⟩
abbrev main_cst_42 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_cst_43 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg2_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg2_1 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg4_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg4_0 : Ref sig .tc := ⟨.vmem, 55, rfl⟩
abbrev cc7_stg5_0 : Ref sig .tc := ⟨.vmem, 56, rfl⟩
abbrev cc7_stg5_1 : Ref sig .tc := ⟨.vmem, 57, rfl⟩
abbrev cc8_stg0_0 : Ref sig .tc := ⟨.vmem, 58, rfl⟩
abbrev cc8_stg0_1 : Ref sig .tc := ⟨.vmem, 59, rfl⟩
abbrev cc8_stg1_0 : Ref sig .tc := ⟨.vmem, 60, rfl⟩
abbrev cc8_stg2_0 : Ref sig .tc := ⟨.vmem, 61, rfl⟩
abbrev cc8_stg2_1 : Ref sig .tc := ⟨.vmem, 62, rfl⟩
abbrev cc9_stg0_0 : Ref sig .tc := ⟨.vmem, 63, rfl⟩
abbrev cc9_stg0_1 : Ref sig .tc := ⟨.vmem, 64, rfl⟩
abbrev cc9_stg1_0 : Ref sig .tc := ⟨.vmem, 65, rfl⟩
abbrev cc9_stg1_1 : Ref sig .tc := ⟨.vmem, 66, rfl⟩
abbrev cc9_stg2_0 : Ref sig .tc := ⟨.vmem, 67, rfl⟩
abbrev cc9_stg2_1 : Ref sig .tc := ⟨.vmem, 68, rfl⟩
abbrev cc9_stg3_0 : Ref sig .tc := ⟨.vmem, 69, rfl⟩
abbrev cc9_stg4_0 : Ref sig .tc := ⟨.vmem, 70, rfl⟩
abbrev cc9_stg4_1 : Ref sig .tc := ⟨.vmem, 71, rfl⟩
abbrev cc10_stg0_0 : Ref sig .tc := ⟨.vmem, 72, rfl⟩
abbrev cc10_stg0_1 : Ref sig .tc := ⟨.vmem, 73, rfl⟩
abbrev cc10_stg1_0 : Ref sig .tc := ⟨.vmem, 74, rfl⟩
abbrev cc10_stg2_0 : Ref sig .tc := ⟨.vmem, 75, rfl⟩
abbrev cc10_stg3_0 : Ref sig .tc := ⟨.vmem, 76, rfl⟩
abbrev cc10_stg4_0 : Ref sig .tc := ⟨.vmem, 77, rfl⟩
abbrev cc10_stg5_0 : Ref sig .tc := ⟨.vmem, 78, rfl⟩
abbrev cc10_stg5_1 : Ref sig .tc := ⟨.vmem, 79, rfl⟩
abbrev cc11_stg0_0 : Ref sig .tc := ⟨.vmem, 80, rfl⟩
abbrev cc11_stg0_1 : Ref sig .tc := ⟨.vmem, 81, rfl⟩
abbrev cc11_stg1_0 : Ref sig .tc := ⟨.vmem, 82, rfl⟩
abbrev cc11_stg1_1 : Ref sig .tc := ⟨.vmem, 83, rfl⟩
abbrev cc11_stg2_0 : Ref sig .tc := ⟨.vmem, 84, rfl⟩
abbrev cc11_scratch0 : Ref sig .tc := ⟨.vmem, 85, rfl⟩
abbrev cc12_stg0_0 : Ref sig .tc := ⟨.vmem, 86, rfl⟩
abbrev cc12_stg1_0 : Ref sig .tc := ⟨.vmem, 87, rfl⟩
abbrev cc12_stg2_0 : Ref sig .tc := ⟨.vmem, 88, rfl⟩
abbrev cc12_stg3_0 : Ref sig .tc := ⟨.vmem, 89, rfl⟩
abbrev cc12_stg4_0 : Ref sig .tc := ⟨.vmem, 90, rfl⟩
abbrev cc12_stg5_0 : Ref sig .tc := ⟨.vmem, 91, rfl⟩
abbrev cc12_stg6_0 : Ref sig .tc := ⟨.vmem, 92, rfl⟩
abbrev cc12_stg7_0 : Ref sig .tc := ⟨.vmem, 93, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem2_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem2_1 : DmaSem sig := 46
abbrev cc6_sem3_0 : DmaSem sig := 47
abbrev cc6_sem4_0 : DmaSem sig := 48
abbrev cc6_sem4_1 : DmaSem sig := 49
abbrev cc7_sem0_0 : DmaSem sig := 50
abbrev cc7_sem0_1 : DmaSem sig := 51
abbrev cc7_sem1_0 : DmaSem sig := 52
abbrev cc7_sem2_0 : DmaSem sig := 53
abbrev cc7_sem3_0 : DmaSem sig := 54
abbrev cc7_sem4_0 : DmaSem sig := 55
abbrev cc7_sem5_0 : DmaSem sig := 56
abbrev cc7_sem5_1 : DmaSem sig := 57
abbrev cc8_sem0_0 : DmaSem sig := 58
abbrev cc8_sem0_1 : DmaSem sig := 59
abbrev cc8_sem1_0 : DmaSem sig := 60
abbrev cc8_sem2_0 : DmaSem sig := 61
abbrev cc8_sem2_1 : DmaSem sig := 62
abbrev cc9_sem0_0 : DmaSem sig := 63
abbrev cc9_sem0_1 : DmaSem sig := 64
abbrev cc9_sem1_0 : DmaSem sig := 65
abbrev cc9_sem1_1 : DmaSem sig := 66
abbrev cc9_sem2_0 : DmaSem sig := 67
abbrev cc9_sem2_1 : DmaSem sig := 68
abbrev cc9_sem3_0 : DmaSem sig := 69
abbrev cc9_sem4_0 : DmaSem sig := 70
abbrev cc9_sem4_1 : DmaSem sig := 71
abbrev cc10_sem0_0 : DmaSem sig := 72
abbrev cc10_sem0_1 : DmaSem sig := 73
abbrev cc10_sem1_0 : DmaSem sig := 74
abbrev cc10_sem2_0 : DmaSem sig := 75
abbrev cc10_sem3_0 : DmaSem sig := 76
abbrev cc10_sem4_0 : DmaSem sig := 77
abbrev cc10_sem5_0 : DmaSem sig := 78
abbrev cc10_sem5_1 : DmaSem sig := 79
abbrev cc11_sem0_0 : DmaSem sig := 80
abbrev cc11_sem0_1 : DmaSem sig := 81
abbrev cc11_sem1_0 : DmaSem sig := 82
abbrev cc11_sem1_1 : DmaSem sig := 83
abbrev cc11_sem2_0 : DmaSem sig := 84
abbrev cc12_sem0_0 : DmaSem sig := 85
abbrev cc12_sem1_0 : DmaSem sig := 86
abbrev cc12_sem2_0 : DmaSem sig := 87
abbrev cc12_sem3_0 : DmaSem sig := 88
abbrev cc12_sem4_0 : DmaSem sig := 89
abbrev cc12_sem5_0 : DmaSem sig := 90
abbrev cc12_sem6_0 : DmaSem sig := 91
abbrev cc12_sem7_0 : DmaSem sig := 92

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x64 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![10], ![false]⟩

def k11_cond2 (i : grid11.Coords) : BitVec 1 :=
  let arg0 : BitVec 32 := BitVec.ofNat 32 (i 0).val
  let c9_i32 : BitVec 32 := 9#32
  let v21 : BitVec 1 := Scalar.cmpi .eq arg0 c9_i32
  let v22 : BitVec 32 := Scalar.extui v21
  let c0_i32_8 : BitVec 32 := 0#32
  let v23 : BitVec 1 := Scalar.cmpi .ne v22 c0_i32_8
  v23

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x1 .i32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S64x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 1 → Memref sig .tc .vmem S64x64 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![false]

abbrev stage12_1 : Fin 1 → Memref sig .tc .vmem S64x32 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x32 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S32x16 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x16 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S16x10 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x10 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 1 → Memref sig .tc .vmem S64x10 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reducesTo_S50000x64_S64_d0 : S50000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  iota_S1x64_d1_w32 : S1x64.Iotas .tc 32 [1]
  natLt_1_32 : 1 < 32
  bcast_S_S64 : S_.BroadcastsInDim S64 (![] : Fin 0 → Fin S64.rank)
  bcast_S50000_S50000x1_0 : S50000.BroadcastsInDim S50000x1 (![0] : Fin 1 → Fin S50000x1.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S32_S1x32 : S32.ShapeCasts S1x32
  shapeCasts_S16_S1x16 : S16.ShapeCasts S1x16
  shapeCasts_S10_S1x10 : S10.ShapeCasts S1x10
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  inb_S16x10_S16x10_0_0 : ∀ a, (![0, 0] : Fin 2 → Nat) a + S16x10.size a ≤ S16x10.size a
  h_S16x10 : 0 < S16x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  gather_S50000_S800000x1_S800000_n_0_n_n_0_1_1_wf : GatherDims.WF S50000 S800000x1 S800000 [] [0] [] [0] [] 1 ![1]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S5000x64_S64x64_0_0_1_1_n_n_wf : DotDims.WF S5000x64 S5000x64 S64x64 [0] [0] [1] [1] [] []
  scatter_S64_S50000x1_S50000_n_0_0_1_wf : ScatterDims.WF S64 S50000x1 S50000 [] [0] [0] 1
  dot_S64x64_S64x32_S64x32_1_0_0_1_n_n_wf : DotDims.WF S64x64 S64x32 S64x32 [1] [0] [0] [1] [] []
  dot_S64x32_S32x16_S64x16_1_0_0_1_n_n_wf : DotDims.WF S64x32 S32x16 S64x16 [1] [0] [0] [1] [] []
  dot_S64x16_S16x10_S64x10_1_0_0_1_n_n_wf : DotDims.WF S64x16 S16x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S50000x64.size a
  hwx4_5 : ∀ i : grid4.Coords, EltTy.bits .f32 = 32 ∨ (Rect.block (s := S50000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S50000x1.size a
  hwx6_2 : ∀ i : grid6.Coords, EltTy.bits .f32 = 32 ∨ (Rect.block (s := S50000x1) S5000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S50000x64.size a
  hwx6_4 : ∀ i : grid6.Coords, EltTy.bits .f32 = 32 ∨ (Rect.block (s := S50000x64) S5000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S50000x64.size a
  hwx7_5 : ∀ i : grid7.Coords, EltTy.bits .f32 = 32 ∨ (Rect.block (s := S50000x64) S5000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x64.size a ≤ S50000x64.size a
  hwx8_2 : ∀ i : grid8.Coords, EltTy.bits .f32 = 32 ∨ (Rect.block (s := S50000x64) S5000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x64.size a ≤ S50000x64.size a
  hwx9_1 : ∀ i : grid9.Coords, EltTy.bits .f32 = 32 ∨ (Rect.block (s := S50000x64) S5000x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x1.size a ≤ S50000x1.size a
  hwx9_2 : ∀ i : grid9.Coords, EltTy.bits .f32 = 32 ∨ (Rect.block (s := S50000x1) S5000x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x64.size a ≤ S50000x64.size a
  hwx9_4 : ∀ i : grid9.Coords, EltTy.bits .f32 = 32 ∨ (Rect.block (s := S50000x64) S5000x64.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S50000x64.size a
  hwx10_0 : ∀ i : grid10.Coords, EltTy.bits .f32 = 32 ∨ (Rect.block (s := S50000x64) S5000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x64.size a ≤ S1x64.size a
  hwx10_1 : ∀ i : grid10.Coords, EltTy.bits .f32 = 32 ∨ (Rect.block (s := S1x64) S1x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x64.size a ≤ S1x64.size a
  hwx10_4 : ∀ i : grid10.Coords, EltTy.bits .f32 = 32 ∨ (Rect.block (s := S1x64) S1x64.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x64.size a ≤ S50000x64.size a
  hwx10_5 : ∀ i : grid10.Coords, EltTy.bits .f32 = 32 ∨ (Rect.block (s := S50000x64) S5000x64.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S50000x64.size a
  hwx11_0 : ∀ i : grid11.Coords, EltTy.bits .f32 = 32 ∨ (Rect.block (s := S50000x64) S5000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x1.size a ≤ S50000x1.size a
  hwx11_1 : ∀ i : grid11.Coords, EltTy.bits .i32 = 32 ∨ (Rect.block (s := S50000x1) S5000x1.size (cc11_transform_1 i) (hinb11_1 i)).WholeWords (EltTy.packing .i32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S64x64.size a ≤ S64x64.size a
  hwx11_2 : ∀ i : grid11.Coords, EltTy.bits .f32 = 32 ∨ (Rect.block (s := S64x64) S64x64.size (cc11_transform_2 i) (hinb11_2 i)).WholeWords (EltTy.packing .f32)
  hrank12 : 0 < grid12.rank
  hstage12_0 : ∀ j, (stage12_0 j).IsWhole
  nbuf12_0 : grid12.bufCount reads12_0 true = 1
  hreads12_0 : ∀ i i' : grid12.Coords, (∀ a, reads12_0 a = true → i a = i' a) → cc12_transform_0 i = cc12_transform_0 i'
  hinb12_0 : ∀ (i : grid12.Coords) a, (cc12_transform_0 i a + 1) * S64x64.size a ≤ S64x64.size a
  hwx12_0 : ∀ i : grid12.Coords, EltTy.bits .f32 = 32 ∨ (Rect.block (s := S64x64) S64x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x32.size a ≤ S64x32.size a
  hwx12_1 : ∀ i : grid12.Coords, EltTy.bits .f32 = 32 ∨ (Rect.block (s := S64x32) S64x32.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x32.size a ≤ S1x32.size a
  hwx12_2 : ∀ i : grid12.Coords, EltTy.bits .f32 = 32 ∨ (Rect.block (s := S1x32) S1x32.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S32x16.size a ≤ S32x16.size a
  hwx12_3 : ∀ i : grid12.Coords, EltTy.bits .f32 = 32 ∨ (Rect.block (s := S32x16) S32x16.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x16.size a ≤ S1x16.size a
  hwx12_4 : ∀ i : grid12.Coords, EltTy.bits .f32 = 32 ∨ (Rect.block (s := S1x16) S1x16.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S16x10.size a ≤ S16x10.size a
  hwx12_5 : ∀ i : grid12.Coords, EltTy.bits .f32 = 32 ∨ (Rect.block (s := S16x10) S16x10.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x10.size a ≤ S1x10.size a
  hwx12_6 : ∀ i : grid12.Coords, EltTy.bits .f32 = 32 ∨ (Rect.block (s := S1x10) S1x10.size (cc12_transform_6 i) (hinb12_6 i)).WholeWords (EltTy.packing .f32)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S64x10.size a ≤ S64x10.size a
  hwx12_7 : ∀ i : grid12.Coords, EltTy.bits .f32 = 32 ∨ (Rect.block (s := S64x10) S64x10.size (cc12_transform_7 i) (hinb12_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x16_S64x16_1_0_0_1_n_n : DotDims S64x32 S32x16 S64x16 where
  lhsContracting := [1]
  rhsContracting := [0]
  lhsNonContracting := [0]
  rhsNonContracting := [1]
  lhsBatch := []
  rhsBatch := []
  wf := dot_S64x32_S32x16_S64x16_1_0_0_1_n_n_wf
def dot_S64x16_S16x10_S64x10_1_0_0_1_n_n : DotDims S64x16 S16x10 S64x10 where
  lhsContracting := [1]
  rhsContracting := [0]
  lhsNonContracting := [0]
  rhsNonContracting := [1]
  lhsBatch := []
  rhsBatch := []
  wf := dot_S64x16_S16x10_S64x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v76) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v77) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v78) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v90) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v91) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v82) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v89) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v92) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v92) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v94) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v97) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v125) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v97) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v12) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v126) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v127) S5000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v127) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v139) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v140) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v131) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v138) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v141) S5000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v141) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v143) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v146) S5000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v174) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v146) S5000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v12) S5000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v175) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v176) S5000x64.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v176) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v188) S1x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v189) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v180) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v187) S1x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v190) S5000x64.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v190) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v191) S5000x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v192) S64x64.size cc11_transform_2 reads11_2 true true 1 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev idle11 : Fin 3 → grid11.Coords → Bool := fun | 0 => fun _ => false | 1 => fun _ => false | 2 => fun i => !(k11_cond2 i == 1#1) | ⟨_ + 3, h⟩ => absurd h (Nat.not_lt.2 (Nat.le_add_left _ _))

abbrev win12_0 : Pipeline.Window sig grid12 :=
  Pipeline.Window.ofSpec (Memref.whole main_v201) S64x64.size cc12_transform_0 reads12_0 false true 1 stage12_0 sem12_0
    hrank12 hreads12_0 hinb12_0 nbuf12_0 (Memref.isWhole_whole _) hwx12_0 hstage12_0

abbrev win12_1 : Pipeline.Window sig grid12 :=
  Pipeline.Window.ofSpec (Memref.whole main_arg9) S64x32.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v202) S1x32.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_arg11) S32x16.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v203) S1x16.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_arg13) S16x10.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v204) S1x10.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v205) S64x10.size cc12_transform_7 reads12_7 true true 1 stage12_7 sem12_7
    hrank12 hreads12_7 hinb12_7 nbuf12_7 (Memref.isWhole_whole _) hwx12_7 hstage12_7

abbrev win12 : Fin 8 → Pipeline.Window sig grid12 := fun | 0 => win12_0 | 1 => win12_1 | 2 => win12_2 | 3 => win12_3 | 4 => win12_4 | 5 => win12_5 | 6 => win12_6 | 7 => win12_7 | ⟨_ + 8, h⟩ => absurd h (Nat.not_lt.2 (Nat.le_add_left _ _))
abbrev spec12 : Fin 8 → Pipeline.WinSpec sig grid12.rank := fun w => (win12 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x10 : Shape := ⟨2, ![16, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x64 : Shape := ⟨2, ![50000, 64]⟩
abbrev S800000x64 : Shape := ⟨2, ![800000, 64]⟩
abbrev S50000x1 : Shape := ⟨2, ![50000, 1]⟩
abbrev S1x64 : Shape := ⟨2, ![1, 64]⟩
abbrev S1x64x64 : Shape := ⟨3, ![1, 64, 64]⟩
abbrev S64x64 : Shape := ⟨2, ![64, 64]⟩
abbrev S64x1 : Shape := ⟨2, ![64, 1]⟩
abbrev S1x32 : Shape := ⟨2, ![1, 32]⟩
abbrev S64x16 : Shape := ⟨2, ![64, 16]⟩
abbrev S1x16 : Shape := ⟨2, ![1, 16]⟩
abbrev S64x10 : Shape := ⟨2, ![64, 10]⟩
abbrev S1x10 : Shape := ⟨2, ![1, 10]⟩

abbrev nBuf : Space → Nat
  | .hbm => 353
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S3x64x64, .f32⟩
  | 6 => ⟨S3x64, .f32⟩
  | 7 => ⟨S64, .f32⟩
  | 8 => ⟨S64, .f32⟩
  | 9 => ⟨S64x32, .f32⟩
  | 10 => ⟨S32, .f32⟩
  | 11 => ⟨S32x16, .f32⟩
  | 12 => ⟨S16, .f32⟩
  | 13 => ⟨S16x10, .f32⟩
  | 14 => ⟨S10, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S50000x64, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S800000x1, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x64, .f32⟩
  | 59 => ⟨S800000x64, .f32⟩
  | 60 => ⟨S800000x64, .f32⟩
  | 61 => ⟨S_, .f32⟩
  | 62 => ⟨S50000x64, .f32⟩
  | 63 => ⟨S800000x1, .i32⟩
  | 64 => ⟨S50000x64, .f32⟩
  | 65 => ⟨S50000, .f32⟩
  | 66 => ⟨S50000x1, .f32⟩
  | 67 => ⟨S50000x64, .f32⟩
  | 68 => ⟨S50000x64, .f32⟩
  | 69 => ⟨S50000x64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S1x64x64, .f32⟩
  | 77 => ⟨S64x64, .f32⟩
  | 78 => ⟨S1x64, .f32⟩
  | 79 => ⟨S64, .f32⟩
  | 80 => ⟨S50000x64, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000, .f32⟩
  | 99 => ⟨S800000, .f32⟩
  | 100 => ⟨S800000x1, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x64, .f32⟩
  | 110 => ⟨S800000x64, .f32⟩
  | 111 => ⟨S800000x64, .f32⟩
  | 112 => ⟨S_, .f32⟩
  | 113 => ⟨S50000x64, .f32⟩
  | 114 => ⟨S800000x1, .i32⟩
  | 115 => ⟨S50000x64, .f32⟩
  | 116 => ⟨S50000, .f32⟩
  | 117 => ⟨S50000x1, .f32⟩
  | 118 => ⟨S50000x64, .f32⟩
  | 119 => ⟨S50000x64, .f32⟩
  | 120 => ⟨S50000x64, .f32⟩
  | 121 => ⟨S1x64, .f32⟩
  | 122 => ⟨S50000x64, .f32⟩
  | 123 => ⟨S50000x64, .f32⟩
  | 124 => ⟨S_, .f32⟩
  | 125 => ⟨S64, .f32⟩
  | 126 => ⟨S_, .f32⟩
  | 127 => ⟨S64, .f32⟩
  | _ => ⟨S50000x128, .f32⟩

abbrev hbmTy0_1 (i : Nat) : BufTy := match i % 128 with
  | 0 => ⟨S64, .f32⟩
  | 1 => ⟨S1x64, .f32⟩
  | 2 => ⟨S50000x64, .f32⟩
  | 3 => ⟨S50000x64, .f32⟩
  | 4 => ⟨S50000x64, .f32⟩
  | 5 => ⟨S_, .f32⟩
  | 6 => ⟨S64, .f32⟩
  | 7 => ⟨S_, .f32⟩
  | 8 => ⟨S64, .f32⟩
  | 9 => ⟨S64, .f32⟩
  | 10 => ⟨S1x64, .f32⟩
  | 11 => ⟨S50000x64, .f32⟩
  | 12 => ⟨S50000x64, .f32⟩
  | 13 => ⟨S_, .f32⟩
  | 14 => ⟨S64, .f32⟩
  | 15 => ⟨S64, .f32⟩
  | 16 => ⟨S64, .f32⟩
  | 17 => ⟨S1x64, .f32⟩
  | 18 => ⟨S50000x64, .f32⟩
  | 19 => ⟨S50000x64, .f32⟩
  | 20 => ⟨S1x64, .f32⟩
  | 21 => ⟨S50000x64, .f32⟩
  | 22 => ⟨S50000x64, .f32⟩
  | 23 => ⟨S1x64, .f32⟩
  | 24 => ⟨S50000x64, .f32⟩
  | 25 => ⟨S50000x64, .f32⟩
  | 26 => ⟨S_, .f32⟩
  | 27 => ⟨S50000x64, .f32⟩
  | 28 => ⟨S50000x64, .f32⟩
  | 29 => ⟨S1x64x64, .f32⟩
  | 30 => ⟨S64x64, .f32⟩
  | 31 => ⟨S1x64, .f32⟩
  | 32 => ⟨S64, .f32⟩
  | 33 => ⟨S50000x64, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S800000x1, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x64, .f32⟩
  | 63 => ⟨S800000x64, .f32⟩
  | 64 => ⟨S800000x64, .f32⟩
  | 65 => ⟨S_, .f32⟩
  | 66 => ⟨S50000x64, .f32⟩
  | 67 => ⟨S800000x1, .i32⟩
  | 68 => ⟨S50000x64, .f32⟩
  | 69 => ⟨S50000, .f32⟩
  | 70 => ⟨S50000x1, .f32⟩
  | 71 => ⟨S50000x64, .f32⟩
  | 72 => ⟨S50000x64, .f32⟩
  | 73 => ⟨S50000x64, .f32⟩
  | 74 => ⟨S1x64, .f32⟩
  | 75 => ⟨S50000x64, .f32⟩
  | 76 => ⟨S50000x64, .f32⟩
  | 77 => ⟨S_, .f32⟩
  | 78 => ⟨S64, .f32⟩
  | 79 => ⟨S_, .f32⟩
  | 80 => ⟨S64, .f32⟩
  | 81 => ⟨S64, .f32⟩
  | 82 => ⟨S1x64, .f32⟩
  | 83 => ⟨S50000x64, .f32⟩
  | 84 => ⟨S50000x64, .f32⟩
  | 85 => ⟨S50000x64, .f32⟩
  | 86 => ⟨S_, .f32⟩
  | 87 => ⟨S64, .f32⟩
  | 88 => ⟨S_, .f32⟩
  | 89 => ⟨S64, .f32⟩
  | 90 => ⟨S64, .f32⟩
  | 91 => ⟨S1x64, .f32⟩
  | 92 => ⟨S50000x64, .f32⟩
  | 93 => ⟨S50000x64, .f32⟩
  | 94 => ⟨S_, .f32⟩
  | 95 => ⟨S64, .f32⟩
  | 96 => ⟨S64, .f32⟩
  | 97 => ⟨S64, .f32⟩
  | 98 => ⟨S1x64, .f32⟩
  | 99 => ⟨S50000x64, .f32⟩
  | 100 => ⟨S50000x64, .f32⟩
  | 101 => ⟨S1x64, .f32⟩
  | 102 => ⟨S50000x64, .f32⟩
  | 103 => ⟨S50000x64, .f32⟩
  | 104 => ⟨S1x64, .f32⟩
  | 105 => ⟨S50000x64, .f32⟩
  | 106 => ⟨S50000x64, .f32⟩
  | 107 => ⟨S_, .f32⟩
  | 108 => ⟨S50000x64, .f32⟩
  | 109 => ⟨S50000x64, .f32⟩
  | 110 => ⟨S1x64x64, .f32⟩
  | 111 => ⟨S64x64, .f32⟩
  | 112 => ⟨S1x64, .f32⟩
  | 113 => ⟨S64, .f32⟩
  | 114 => ⟨S50000x64, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000, .f32⟩
  | 124 => ⟨S_, .i32⟩
  | 125 => ⟨S800000, .i32⟩
  | 126 => ⟨S800000, .i1⟩
  | 127 => ⟨S_, .i32⟩
  | _ => ⟨S50000x128, .f32⟩

abbrev hbmTy0_2 (i : Nat) : BufTy := match i % 128 with
  | 0 => ⟨S800000, .i32⟩
  | 1 => ⟨S800000, .i32⟩
  | 2 => ⟨S800000, .i32⟩
  | 3 => ⟨S800000x1, .i32⟩
  | 4 => ⟨S800000, .f32⟩
  | 5 => ⟨S800000, .f32⟩
  | 6 => ⟨S800000x1, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x64, .f32⟩
  | 16 => ⟨S800000x64, .f32⟩
  | 17 => ⟨S800000x64, .f32⟩
  | 18 => ⟨S_, .f32⟩
  | 19 => ⟨S50000x64, .f32⟩
  | 20 => ⟨S800000x1, .i32⟩
  | 21 => ⟨S50000x64, .f32⟩
  | 22 => ⟨S50000, .f32⟩
  | 23 => ⟨S50000x1, .f32⟩
  | 24 => ⟨S50000x64, .f32⟩
  | 25 => ⟨S50000x64, .f32⟩
  | 26 => ⟨S50000x64, .f32⟩
  | 27 => ⟨S1x64, .f32⟩
  | 28 => ⟨S50000x64, .f32⟩
  | 29 => ⟨S50000x64, .f32⟩
  | 30 => ⟨S_, .f32⟩
  | 31 => ⟨S64, .f32⟩
  | 32 => ⟨S_, .f32⟩
  | 33 => ⟨S64, .f32⟩
  | 34 => ⟨S64, .f32⟩
  | 35 => ⟨S1x64, .f32⟩
  | 36 => ⟨S50000x64, .f32⟩
  | 37 => ⟨S50000x64, .f32⟩
  | 38 => ⟨S50000x64, .f32⟩
  | 39 => ⟨S_, .f32⟩
  | 40 => ⟨S64, .f32⟩
  | 41 => ⟨S_, .f32⟩
  | 42 => ⟨S64, .f32⟩
  | 43 => ⟨S64, .f32⟩
  | 44 => ⟨S1x64, .f32⟩
  | 45 => ⟨S50000x64, .f32⟩
  | 46 => ⟨S50000x64, .f32⟩
  | 47 => ⟨S_, .f32⟩
  | 48 => ⟨S64, .f32⟩
  | 49 => ⟨S64, .f32⟩
  | 50 => ⟨S64, .f32⟩
  | 51 => ⟨S1x64, .f32⟩
  | 52 => ⟨S50000x64, .f32⟩
  | 53 => ⟨S50000x64, .f32⟩
  | 54 => ⟨S1x64, .f32⟩
  | 55 => ⟨S50000x64, .f32⟩
  | 56 => ⟨S50000x64, .f32⟩
  | 57 => ⟨S1x64, .f32⟩
  | 58 => ⟨S50000x64, .f32⟩
  | 59 => ⟨S50000x64, .f32⟩
  | 60 => ⟨S_, .f32⟩
  | 61 => ⟨S50000x64, .f32⟩
  | 62 => ⟨S50000x64, .f32⟩
  | 63 => ⟨S_, .f32⟩
  | 64 => ⟨S64x64, .f32⟩
  | 65 => ⟨S50000x1, .i32⟩
  | 66 => ⟨S64x64, .f32⟩
  | 67 => ⟨S_, .f32⟩
  | 68 => ⟨S50000, .f32⟩
  | 69 => ⟨S_, .f32⟩
  | 70 => ⟨S64, .f32⟩
  | 71 => ⟨S50000x1, .i32⟩
  | 72 => ⟨S64, .f32⟩
  | 73 => ⟨S_, .f32⟩
  | 74 => ⟨S64, .f32⟩
  | 75 => ⟨S64, .f32⟩
  | 76 => ⟨S64x1, .f32⟩
  | 77 => ⟨S64x64, .f32⟩
  | 78 => ⟨S64x64, .f32⟩
  | 79 => ⟨S64x32, .f32⟩
  | 80 => ⟨S1x32, .f32⟩
  | 81 => ⟨S64x32, .f32⟩
  | 82 => ⟨S64x32, .f32⟩
  | 83 => ⟨S_, .f32⟩
  | 84 => ⟨S64x32, .f32⟩
  | 85 => ⟨S64x32, .f32⟩
  | 86 => ⟨S64x16, .f32⟩
  | 87 => ⟨S1x16, .f32⟩
  | 88 => ⟨S64x16, .f32⟩
  | 89 => ⟨S64x16, .f32⟩
  | 90 => ⟨S_, .f32⟩
  | 91 => ⟨S64x16, .f32⟩
  | 92 => ⟨S64x16, .f32⟩
  | 93 => ⟨S64x10, .f32⟩
  | 94 => ⟨S1x10, .f32⟩
  | 95 => ⟨S64x10, .f32⟩
  | 96 => ⟨S64x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call0_cst : Ref sig .tc := ⟨.hbm, 73, rfl⟩
abbrev main_call0_v0 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_8 : Ref sig .tc := ⟨.hbm, 81, rfl⟩
abbrev main_v54 : Ref sig .tc := ⟨.hbm, 82, rfl⟩
abbrev main_v55 : Ref sig .tc := ⟨.hbm, 83, rfl⟩
abbrev main_c_9 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_10 : Ref sig .tc := ⟨.hbm, 90, rfl⟩
abbrev main_v61 : Ref sig .tc := ⟨.hbm, 91, rfl⟩
abbrev main_v62 : Ref sig .tc := ⟨.hbm, 92, rfl⟩
abbrev main_c_11 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_12 : Ref sig .tc := ⟨.hbm, 101, rfl⟩
abbrev main_v70 : Ref sig .tc := ⟨.hbm, 102, rfl⟩
abbrev main_v71 : Ref sig .tc := ⟨.hbm, 103, rfl⟩
abbrev main_c_13 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_14 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_15 : Ref sig .tc := ⟨.hbm, 124, rfl⟩
abbrev main_v90 : Ref sig .tc := ⟨.hbm, 125, rfl⟩
abbrev main_cst_16 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_17 : Ref sig .tc := ⟨.hbm, 133, rfl⟩
abbrev main_v97 : Ref sig .tc := ⟨.hbm, 134, rfl⟩
abbrev main_cst_18 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_19 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_call1_cst : Ref sig .tc := ⟨.hbm, 154, rfl⟩
abbrev main_call1_v0 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_c_20 : Ref sig .tc := ⟨.hbm, 162, rfl⟩
abbrev main_v121 : Ref sig .tc := ⟨.hbm, 163, rfl⟩
abbrev main_v122 : Ref sig .tc := ⟨.hbm, 164, rfl⟩
abbrev main_c_21 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_c_22 : Ref sig .tc := ⟨.hbm, 171, rfl⟩
abbrev main_v128 : Ref sig .tc := ⟨.hbm, 172, rfl⟩
abbrev main_v129 : Ref sig .tc := ⟨.hbm, 173, rfl⟩
abbrev main_c_23 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_c_24 : Ref sig .tc := ⟨.hbm, 182, rfl⟩
abbrev main_v137 : Ref sig .tc := ⟨.hbm, 183, rfl⟩
abbrev main_v138 : Ref sig .tc := ⟨.hbm, 184, rfl⟩
abbrev main_c_25 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_cst_26 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_cst_27 : Ref sig .tc := ⟨.hbm, 205, rfl⟩
abbrev main_v157 : Ref sig .tc := ⟨.hbm, 206, rfl⟩
abbrev main_cst_28 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_cst_29 : Ref sig .tc := ⟨.hbm, 214, rfl⟩
abbrev main_v164 : Ref sig .tc := ⟨.hbm, 215, rfl⟩
abbrev main_cst_30 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_cst_31 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_call2_cst : Ref sig .tc := ⟨.hbm, 235, rfl⟩
abbrev main_call2_v0 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_c_32 : Ref sig .tc := ⟨.hbm, 243, rfl⟩
abbrev main_v188 : Ref sig .tc := ⟨.hbm, 244, rfl⟩
abbrev main_v189 : Ref sig .tc := ⟨.hbm, 245, rfl⟩
abbrev main_c_33 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_c_34 : Ref sig .tc := ⟨.hbm, 252, rfl⟩
abbrev main_v195 : Ref sig .tc := ⟨.hbm, 253, rfl⟩
abbrev main_v196 : Ref sig .tc := ⟨.hbm, 254, rfl⟩
abbrev main_c_35 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_c_36 : Ref sig .tc := ⟨.hbm, 263, rfl⟩
abbrev main_v204 : Ref sig .tc := ⟨.hbm, 264, rfl⟩
abbrev main_v205 : Ref sig .tc := ⟨.hbm, 265, rfl⟩
abbrev main_c_37 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_cst_38 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_cst_39 : Ref sig .tc := ⟨.hbm, 286, rfl⟩
abbrev main_v224 : Ref sig .tc := ⟨.hbm, 287, rfl⟩
abbrev main_cst_40 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_cst_41 : Ref sig .tc := ⟨.hbm, 295, rfl⟩
abbrev main_v231 : Ref sig .tc := ⟨.hbm, 296, rfl⟩
abbrev main_cst_42 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_cst_43 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_v245 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_call3_cst : Ref sig .tc := ⟨.hbm, 316, rfl⟩
abbrev main_call3_v0 : Ref sig .tc := ⟨.hbm, 317, rfl⟩
abbrev main_v249 : Ref sig .tc := ⟨.hbm, 318, rfl⟩
abbrev main_cst_44 : Ref sig .tc := ⟨.hbm, 319, rfl⟩
abbrev main_v250 : Ref sig .tc := ⟨.hbm, 320, rfl⟩
abbrev main_v251 : Ref sig .tc := ⟨.hbm, 321, rfl⟩
abbrev main_v252 : Ref sig .tc := ⟨.hbm, 322, rfl⟩
abbrev main_cst_45 : Ref sig .tc := ⟨.hbm, 323, rfl⟩
abbrev main_v253 : Ref sig .tc := ⟨.hbm, 324, rfl⟩
abbrev main_cst_46 : Ref sig .tc := ⟨.hbm, 325, rfl⟩
abbrev main_v254 : Ref sig .tc := ⟨.hbm, 326, rfl⟩
abbrev main_v255 : Ref sig .tc := ⟨.hbm, 327, rfl⟩
abbrev main_v256 : Ref sig .tc := ⟨.hbm, 328, rfl⟩
abbrev main_cst_47 : Ref sig .tc := ⟨.hbm, 329, rfl⟩
abbrev main_v257 : Ref sig .tc := ⟨.hbm, 330, rfl⟩
abbrev main_v258 : Ref sig .tc := ⟨.hbm, 331, rfl⟩
abbrev main_v259 : Ref sig .tc := ⟨.hbm, 332, rfl⟩
abbrev main_v260 : Ref sig .tc := ⟨.hbm, 333, rfl⟩
abbrev main_v261 : Ref sig .tc := ⟨.hbm, 334, rfl⟩
abbrev main_v262 : Ref sig .tc := ⟨.hbm, 335, rfl⟩
abbrev main_v263 : Ref sig .tc := ⟨.hbm, 336, rfl⟩
abbrev main_v264 : Ref sig .tc := ⟨.hbm, 337, rfl⟩
abbrev main_v265 : Ref sig .tc := ⟨.hbm, 338, rfl⟩
abbrev main_call4_cst : Ref sig .tc := ⟨.hbm, 339, rfl⟩
abbrev main_call4_v0 : Ref sig .tc := ⟨.hbm, 340, rfl⟩
abbrev main_v266 : Ref sig .tc := ⟨.hbm, 341, rfl⟩
abbrev main_v267 : Ref sig .tc := ⟨.hbm, 342, rfl⟩
abbrev main_v268 : Ref sig .tc := ⟨.hbm, 343, rfl⟩
abbrev main_v269 : Ref sig .tc := ⟨.hbm, 344, rfl⟩
abbrev main_v270 : Ref sig .tc := ⟨.hbm, 345, rfl⟩
abbrev main_call5_cst : Ref sig .tc := ⟨.hbm, 346, rfl⟩
abbrev main_call5_v0 : Ref sig .tc := ⟨.hbm, 347, rfl⟩
abbrev main_v271 : Ref sig .tc := ⟨.hbm, 348, rfl⟩
abbrev main_v272 : Ref sig .tc := ⟨.hbm, 349, rfl⟩
abbrev main_v273 : Ref sig .tc := ⟨.hbm, 350, rfl⟩
abbrev main_v274 : Ref sig .tc := ⟨.hbm, 351, rfl⟩
abbrev main_v275 : Ref sig .tc := ⟨.hbm, 352, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  reducesTo_S50000x64_S64_d0 : S50000x64.ReducesTo [0] S64
  h_S_ : 0 < S_.numel
  bcast_S_S64 : S_.BroadcastsInDim S64 (![] : Fin 0 → Fin S64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x32_S64x32_1_0_0_1_n_n_wf : DotDims.WF S64x64 S64x32 S64x32 [1] [0] [0] [1] [] []
  dot_S64x32_S32x16_S64x16_1_0_0_1_n_n_wf : DotDims.WF S64x32 S32x16 S64x16 [1] [0] [0] [1] [] []
  dot_S64x16_S16x10_S64x10_1_0_0_1_n_n_wf : DotDims.WF S64x16 S16x10 S64x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x16_S64x16_1_0_0_1_n_n : DotDims S64x32 S32x16 S64x16 where
  lhsContracting := [1]
  rhsContracting := [0]
  lhsNonContracting := [0]
  rhsNonContracting := [1]
  lhsBatch := []
  rhsBatch := []
  wf := dot_S64x32_S32x16_S64x16_1_0_0_1_n_n_wf
def dot_S64x16_S16x10_S64x10_1_0_0_1_n_n : DotDims S64x16 S16x10 S64x10 where
  lhsContracting := [1]
  rhsContracting := [0]
  lhsNonContracting := [0]
  rhsNonContracting := [1]
  lhsBatch := []
  rhsBatch := []
  wf := dot_S64x16_S16x10_S64x10_1_0_0_1_n_n_wf

class Facts : Prop extends Facts₀ where

variable [Facts]
-- ==== Proof.K.Reg0.lean ====
import proofs.«420664_j68839735820523_2_alg».proof.Proof.Gen.Kernel.Launch
import proofs.«420664_j68839735820523_2_alg».proof.Proof.Gen.Kernel.Skeleton
import proofs.«420664_j68839735820523_2_alg».proof.Proof.Gen.Kernel.Points
import Idealize.ShloMosaic.Lib.Pipeline.FrameBody
import Idealize.ShloMosaic.Lib.Tactic

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0

abbrev r0_1 : Rect S128x64 := Rect.unit (s := S128x64) ![0, 0] S128x64.size inb_S128x64_S128x64_0_0

abbrev r0_2 : Rect S5000x64 := Rect.unit (s := S5000x64) ![0, 0] S5000x64.size inb_S5000x64_S5000x64_0_0

def out0_2 (x0 : Vec F S5000x128 .f32) (x1 : Vec F S128x64 .f32) : Vec F S5000x64 .f32 :=
  View.canon [⟨r0_2, k0_pay1 (View.ld x0 r0_0) (View.ld x1 r0_1)⟩]

theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

set_option maxHeartbeats 1000000 in
theorem sound_kernel0 (c : Dev nD) (E : Set ℕ) (i : grid0.Coords) (ax : Memref sig .tc .vmem S5000x128 .f32) (hax : ax.IsWhole) (aw : Memref sig .tc .vmem S128x64 .f32) (haw : aw.IsWhole) (ay : Memref sig .tc .vmem S5000x64 .f32) (hay : ay.IsWhole)
    (x0 : Vec F S5000x128 .f32) (x1 : Vec F S128x64 .f32) (K : PUnit → sProp 𝕄) :
    iprop(owns (c : Thread nD τ) ax fullShare x0 ∗ owns (c : Thread nD τ) aw fullShare x1 ∗ (∃ d, owns (c : Thread nD τ) ay fullShare d)
        ∗ (iprop(owns (c : Thread nD τ) ax fullShare x0 ∗ owns (c : Thread nD τ) aw fullShare x1 ∗ owns (c : Thread nD τ) ay fullShare (out0_2 x0 x1)) -∗ K ⟨⟩))
      ⊢ wp frame (wpE (defs₀ (F := F)) Variants.none c none) E (cc0__linear_kernel i ax hax aw haw ay hay) K := by
  simp only [cc0__linear_kernel_eq_skeleton]; unfold cc0__linear_kernel_skel
  unfold owns
  iintro ⟨⟨%fx, %hfx, Hx⟩, ⟨%fw, %hfw, Hw⟩, ⟨%dy, %fy, -, Hy⟩, Hk⟩
  subst hfx hfw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Hy
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]

theorem after0_1 (c : Dev nD) (t : Fin cfg0.N) : (dat0 V c).after 1 t = iblk0 V c 1 t := by dsimp only [dat0]

theorem after0_2 (c : Dev nD) (t : Fin cfg0.N) : (dat0 V c).after 2 t = out0_2 (iblk0 V c 0 t) (iblk0 V c 1 t) := by dsimp only [dat0]

theorem before0 (c : Dev nD) (t : Fin cfg0.N) :
    (∀ d, (dat0 V c).before 0 t d = iblk0 V c 0 t) ∧
    (∀ d, (dat0 V c).before 1 t d = iblk0 V c 1 t) := by
  refine ⟨?_, ?_⟩ <;> intro d <;>
    exact ((dat0 V c).before_in_eq_fetched _ rfl (fun _ => rfl) (fun _ _ _ => rfl)
      (fun t => by rw [show (dat0 V c).after _ t = iblk0 V c _ t from rfl]; unfold Dat.blockOf iblk0; rw [A_eq0]; try rfl) t d).trans
      (by unfold Dat.fetched Dat.blockOf iblk0; rw [A_eq0]; try rfl)

theorem body_obligation0 (c : Dev nD) : BodyObligation (dat0 (F := F) V c) (defs₀ (F := F)) Variants.none () Set.univ := fun t => by
  rw [bigSep_W0, bigSep_W0]
  show (_ : sProp 𝕄) ⊢ wp frame _ Set.univ (bodyAt0 t) _
  unfold bodyAt0
  obtain ⟨hb0, hb1⟩ := before0 V c t
  simp only [hb0, hb1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%dx, Hx⟩, ⟨%dw, Hw⟩, ⟨%dy, Hy⟩⟩
  iapply (sound_kernel0 c Set.univ _ _ _ _ _ _ _ (iblk0 V c 0 t) (iblk0 V c 1 t) _)
  isplitl [Hx]; · iexact Hx
  isplitl [Hw]; · iexact Hw
  isplitl [Hy]; · iexists _; iexact Hy
  iintro ⟨Hx, Hw, Hy⟩
  isplitl [HΦ]; · iexact HΦ
  isplitl [Ho]; · iexact Ho
  isplitl [Hx]; · iexact Hx
  isplitl [Hw]; · iexact Hw
  iexact Hy

end Cert.Kernel.Net
-- ==== Proof.K.Reg1.lean ====
import proofs.«420664_j68839735820523_2_alg».proof.Proof.Gen.Kernel.Launch
import proofs.«420664_j68839735820523_2_alg».proof.Proof.Gen.Kernel.Skeleton
import proofs.«420664_j68839735820523_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x64 := Rect.unit (s := S5000x64) ![0, 0] S5000x64.size inb_S5000x64_S5000x64_0_0

abbrev r1_2 : Rect S5000x1 := Rect.unit (s := S5000x1) ![0, 0] S5000x1.size inb_S5000x1_S5000x1_0_0

abbrev r1_3 : Rect S1x64 := Rect.unit (s := S1x64) ![0, 0] S1x64.size inb_S1x64_S1x64_0_0

def out1_4 (x0 : Vec F S5000x64 .f32) (x1 : Vec F S5000x64 .f32) (x2 : Vec F S5000x1 .f32) (x3 : Vec F S1x64 .f32) : Vec F S5000x64 .f32 :=
  View.canon [⟨r1_0, k1_pay1 (View.ld x0 r1_0) (View.ld x1 r1_0) (View.ld x2 r1_2) (View.ld x3 r1_3)⟩]

theorem cover1_4 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

set_option maxHeartbeats 1000000 in
theorem sound_kernel1 (c : Dev nD) (E : Set ℕ) (i : grid1.Coords)
    (arg0 : Memref sig .tc .vmem S5000x64 .f32) (harg0 : arg0.IsWhole) (arg1 : Memref sig .tc .vmem S5000x64 .f32) (harg1 : arg1.IsWhole)
    (arg2 : Memref sig .tc .vmem S5000x1 .f32) (harg2 : arg2.IsWhole) (arg3 : Memref sig .tc .vmem S1x64 .f32) (harg3 : arg3.IsWhole)
    (arg4 : Memref sig .tc .vmem S5000x64 .f32) (harg4 : arg4.IsWhole)
    (x0 : Vec F S5000x64 .f32) (x1 : Vec F S5000x64 .f32) (x2 : Vec F S5000x1 .f32) (x3 : Vec F S1x64 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__combine_relu_kernel i arg0 harg0 arg1 harg1 arg2 harg2 arg3 harg3 arg4 harg4) K := by
  simp only [cc1__combine_relu_kernel_eq_skeleton]; unfold cc1__combine_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]

theorem after1_1 (c : Dev nD) (t : Fin cfg1.N) : (dat1 V c).after 1 t = iblk1 V c 1 t := by dsimp only [dat1]

theorem after1_2 (c : Dev nD) (t : Fin cfg1.N) : (dat1 V c).after 2 t = iblk1 V c 2 t := by dsimp only [dat1]

theorem after1_3 (c : Dev nD) (t : Fin cfg1.N) : (dat1 V c).after 3 t = iblk1 V c 3 t := by dsimp only [dat1]

theorem after1_4 (c : Dev nD) (t : Fin cfg1.N) :
    (dat1 V c).after 4 t = out1_4 (iblk1 V c 0 t) (iblk1 V c 1 t) (iblk1 V c 2 t) (iblk1 V c 3 t) := by dsimp only [dat1]

theorem before1 (c : Dev nD) (t : Fin cfg1.N) :
    (∀ d, (dat1 V c).before 0 t d = iblk1 V c 0 t) ∧
    (∀ d, (dat1 V c).before 1 t d = iblk1 V c 1 t) ∧
    (∀ d, (dat1 V c).before 2 t d = iblk1 V c 2 t) ∧
    (∀ d, (dat1 V c).before 3 t d = iblk1 V c 3 t) := by
  refine ⟨?_, ?_, ?_, ?_⟩ <;> intro d <;>
    exact ((dat1 V c).before_in_eq_fetched _ rfl (fun _ => rfl) (fun _ _ _ => rfl)
      (fun t => by rw [show (dat1 V c).after _ t = iblk1 V c _ t from rfl]; unfold Dat.blockOf iblk1; rw [A_eq1]; try rfl) t d).trans
      (by unfold Dat.fetched Dat.blockOf iblk1; rw [A_eq1]; try rfl)

theorem body_obligation1 (c : Dev nD) : BodyObligation (dat1 (F := F) V c) (defs₀ (F := F)) Variants.none () Set.univ := fun t => by
  rw [bigSep_W1, bigSep_W1]
  show (_ : sProp 𝕄) ⊢ wp frame _ Set.univ (bodyAt1 t) _
  unfold bodyAt1
  obtain ⟨hb0, hb1, hb2, hb3⟩ := before1 V c t
  simp only [hb0, hb1, hb2, hb3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.Kernel.Net
-- ==== Proof.K.Reg2.lean ====
import proofs.«420664_j68839735820523_2_alg».proof.Proof.Gen.Kernel.Launch
import proofs.«420664_j68839735820523_2_alg».proof.Proof.Gen.Kernel.Skeleton
import proofs.«420664_j68839735820523_2_alg».proof.Proof.Gen.Kernel.Points
import Idealize.ShloMosaic.Lib.Pipeline.FrameBody
import Idealize.ShloMosaic.Lib.Tactic

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x64 := Rect.unit (s := S5000x64) ![0, 0] S5000x64.size inb_S5000x64_S5000x64_0_0

abbrev r2_1 : Rect S64x64 := Rect.unit (s := S64x64) ![0, 0] S64x64.size inb_S64x64_S64x64_0_0

abbrev r2_2 : Rect S5000x64 := Rect.unit (s := S5000x64) ![0, 0] S5000x64.size inb_S5000x64_S5000x64_0_0

def out2_2 (x0 : Vec F S5000x64 .f32) (x1 : Vec F S64x64 .f32) : Vec F S5000x64 .f32 :=
  View.canon [⟨r2_2, k2_pay1 (View.ld x0 r2_0) (View.ld x1 r2_1)⟩]

theorem cover2_2 (p0 : Vec F S5000x64 .f32) (y : S5000x64.Idx) :
    ∃ pc ∈ ([⟨r2_2, p0⟩] : List (View.Piece (Elt F) S5000x64 .f32)), y ∈ pc.1.set :=
  View.cover_of_tiled [⟨r2_2, p0⟩] S5000x64.size (by rfl) y

set_option maxHeartbeats 1000000 in
theorem sound_kernel2 (c : Dev nD) (E : Set ℕ) (i : grid2.Coords) (ax : Memref sig .tc .vmem S5000x64 .f32) (hax : ax.IsWhole) (aw : Memref sig .tc .vmem S64x64 .f32) (haw : aw.IsWhole) (ay : Memref sig .tc .vmem S5000x64 .f32) (hay : ay.IsWhole)
    (x0 : Vec F S5000x64 .f32) (x1 : Vec F S64x64 .f32) (K : PUnit → sProp 𝕄) :
    iprop(owns (c : Thread nD τ) ax fullShare x0 ∗ owns (c : Thread nD τ) aw fullShare x1 ∗ (∃ d, owns (c : Thread nD τ) ay fullShare d)
        ∗ (iprop(owns (c : Thread nD τ) ax fullShare x0 ∗ owns (c : Thread nD τ) aw fullShare x1 ∗ owns (c : Thread nD τ) ay fullShare (out2_2 x0 x1)) -∗ K ⟨⟩))
      ⊢ wp frame (wpE (defs₀ (F := F)) Variants.none c none) E (cc2__linear_kernel i ax hax aw haw ay hay) K := by
  simp only [cc2__linear_kernel_eq_skeleton]; unfold cc2__linear_kernel_skel
  unfold owns
  iintro ⟨⟨%fx, %hfx, Hx⟩, ⟨%fw, %hfw, Hw⟩, ⟨%dy, %fy, -, Hy⟩, Hk⟩
  subst hfx hfw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Hy
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]

theorem after2_1 (c : Dev nD) (t : Fin cfg2.N) : (dat2 V c).after 1 t = iblk2 V c 1 t := by dsimp only [dat2]

theorem after2_2 (c : Dev nD) (t : Fin cfg2.N) : (dat2 V c).after 2 t = out2_2 (iblk2 V c 0 t) (iblk2 V c 1 t) := by dsimp only [dat2]

theorem before2 (c : Dev nD) (t : Fin cfg2.N) :
    (∀ d, (dat2 V c).before 0 t d = iblk2 V c 0 t) ∧
    (∀ d, (dat2 V c).before 1 t d = iblk2 V c 1 t) := by
  refine ⟨?_, ?_⟩ <;> intro d <;>
    exact ((dat2 V c).before_in_eq_fetched _ rfl (fun _ => rfl) (fun _ _ _ => rfl)
      (fun t => by rw [show (dat2 V c).after _ t = iblk2 V c _ t from rfl]; unfold Dat.blockOf iblk2; rw [A_eq2]; try rfl) t d).trans
      (by unfold Dat.fetched Dat.blockOf iblk2; rw [A_eq2]; try rfl)

theorem body_obligation2 (c : Dev nD) : BodyObligation (dat2 (F := F) V c) (defs₀ (F := F)) Variants.none () Set.univ := fun t => by
  rw [bigSep_W2, bigSep_W2]
  show (_ : sProp 𝕄) ⊢ wp frame _ Set.univ (bodyAt2 t) _
  unfold bodyAt2
  obtain ⟨hb0, hb1⟩ := before2 V c t
  simp only [hb0, hb1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%dx, Hx⟩, ⟨%dw, Hw⟩, ⟨%dy, Hy⟩⟩
  iapply (sound_kernel2 c Set.univ _ _ _ _ _ _ _ (iblk2 V c 0 t) (iblk2 V c 1 t) _)
  isplitl [Hx]; · iexact Hx
  isplitl [Hw]; · iexact Hw
  isplitl [Hy]; · iexists _; iexact Hy
  iintro ⟨Hx, Hw, Hy⟩
  isplitl [HΦ]; · iexact HΦ
  isplitl [Ho]; · iexact Ho
  isplitl [Hx]; · iexact Hx
  isplitl [Hw]; · iexact Hw
  iexact Hy

end Cert.Kernel.Net
-- ==== Proof.K.Reg3.lean ====
import proofs.«420664_j68839735820523_2_alg».proof.Proof.Gen.Kernel.Launch
import proofs.«420664_j68839735820523_2_alg».proof.Proof.Gen.Kernel.Skeleton
import proofs.«420664_j68839735820523_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x64 := Rect.unit (s := S5000x64) ![0, 0] S5000x64.size inb_S5000x64_S5000x64_0_0

abbrev r3_2 : Rect S5000x1 := Rect.unit (s := S5000x1) ![0, 0] S5000x1.size inb_S5000x1_S5000x1_0_0

abbrev r3_3 : Rect S1x64 := Rect.unit (s := S1x64) ![0, 0] S1x64.size inb_S1x64_S1x64_0_0

def out3_4 (x0 : Vec F S5000x64 .f32) (x1 : Vec F S5000x64 .f32) (x2 : Vec F S5000x1 .f32) (x3 : Vec F S1x64 .f32) : Vec F S5000x64 .f32 :=
  View.canon [⟨r3_0, k3_pay1 (View.ld x0 r3_0) (View.ld x1 r3_0) (View.ld x2 r3_2) (View.ld x3 r3_3)⟩]

theorem cover3_4 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

set_option maxHeartbeats 1000000 in
theorem sound_kernel3 (c : Dev nD) (E : Set ℕ) (i : grid3.Coords)
    (arg0 : Memref sig .tc .vmem S5000x64 .f32) (harg0 : arg0.IsWhole) (arg1 : Memref sig .tc .vmem S5000x64 .f32) (harg1 : arg1.IsWhole)
    (arg2 : Memref sig .tc .vmem S5000x1 .f32) (harg2 : arg2.IsWhole) (arg3 : Memref sig .tc .vmem S1x64 .f32) (harg3 : arg3.IsWhole)
    (arg4 : Memref sig .tc .vmem S5000x64 .f32) (harg4 : arg4.IsWhole)
    (x0 : Vec F S5000x64 .f32) (x1 : Vec F S5000x64 .f32) (x2 : Vec F S5000x1 .f32) (x3 : Vec F S1x64 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out3_4 x0 x1 x2 x3)) -∗ K ⟨⟩))
      ⊢ wp frame (wpE (defs₀ (F := F)) Variants.none c none) E (cc3__combine_kernel i arg0 harg0 arg1 harg1 arg2 harg2 arg3 harg3 arg4 harg4) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]

theorem after3_1 (c : Dev nD) (t : Fin cfg3.N) : (dat3 V c).after 1 t = iblk3 V c 1 t := by dsimp only [dat3]

theorem after3_2 (c : Dev nD) (t : Fin cfg3.N) : (dat3 V c).after 2 t = iblk3 V c 2 t := by dsimp only [dat3]

theorem after3_3 (c : Dev nD) (t : Fin cfg3.N) : (dat3 V c).after 3 t = iblk3 V c 3 t := by dsimp only [dat3]

theorem after3_4 (c : Dev nD) (t : Fin cfg3.N) :
    (dat3 V c).after 4 t = out3_4 (iblk3 V c 0 t) (iblk3 V c 1 t) (iblk3 V c 2 t) (iblk3 V c 3 t) := by dsimp only [dat3]

theorem before3 (c : Dev nD) (t : Fin cfg3.N) :
    (∀ d, (dat3 V c).before 0 t d = iblk3 V c 0 t) ∧
    (∀ d, (dat3 V c).before 1 t d = iblk3 V c 1 t) ∧
    (∀ d, (dat3 V c).before 2 t d = iblk3 V c 2 t) ∧
    (∀ d, (dat3 V c).before 3 t d = iblk3 V c 3 t) := by
  refine ⟨?_, ?_, ?_, ?_⟩ <;> intro d <;>
    exact ((dat3 V c).before_in_eq_fetched _ rfl (fun _ => rfl) (fun _ _ _ => rfl)
      (fun t => by rw [show (dat3 V c).after _ t = iblk3 V c _ t from rfl]; unfold Dat.blockOf iblk3; rw [A_eq3]; try rfl) t d).trans
      (by unfold Dat.fetched Dat.blockOf iblk3; rw [A_eq3]; try rfl)

theorem body_obligation3 (c : Dev nD) : BodyObligation (dat3 (F := F) V c) (defs₀ (F := F)) Variants.none () Set.univ := fun t => by
  rw [bigSep_W3, bigSep_W3]
  show (_ : sProp 𝕄) ⊢ wp frame _ Set.univ (bodyAt3 t) _
  unfold bodyAt3
  obtain ⟨hb0, hb1, hb2, hb3⟩ := before3 V c t
  simp only [hb0, hb1, hb2, hb3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.Kernel.Net
-- ==== Proof.K.Reg4.lean ====
import proofs.«420664_j68839735820523_2_alg».proof.Proof.Gen.Kernel.Launch
import proofs.«420664_j68839735820523_2_alg».proof.Proof.Gen.Kernel.Skeleton
import proofs.«420664_j68839735820523_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x64 := Rect.unit (s := S5000x64) ![0, 0] S5000x64.size inb_S5000x64_S5000x64_0_0

abbrev r4_1 : Rect S1x64 := Rect.unit (s := S1x64) ![0, 0] S1x64.size inb_S1x64_S1x64_0_0

def out4_5 (x0 : Vec F S5000x64 .f32) (x1 : Vec F S1x64 .f32) (x2 : Vec F S1x64 .f32) (x3 : Vec F S1x64 .f32) (x4 : Vec F S1x64 .f32) : Vec F S5000x64 .f32 :=
  View.canon [⟨r4_0, k4_pay1 (View.ld x4 r4_1) (View.ld x0 r4_0) (View.ld x3 r4_1) (View.ld x1 r4_1) (View.ld x2 r4_1)⟩]

theorem cover4_5 (p0 : Vec F S5000x64 .f32) (y : S5000x64.Idx) :
    ∃ pc ∈ ([⟨r4_0, p0⟩] : List (View.Piece (Elt F) S5000x64 .f32)), y ∈ pc.1.set :=
  View.cover_of_tiled [⟨r4_0, p0⟩] S5000x64.size (by rfl) y

set_option maxHeartbeats 1000000 in
theorem sound_kernel4 (c : Dev nD) (E : Set ℕ) (i : grid4.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__bn_relu_kernel i arg1 harg1 arg2 harg2 arg3 harg3 arg4 harg4 arg5 harg5 arg6 harg6) K := by
  simp only [cc4__bn_relu_kernel_eq_skeleton]; unfold cc4__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]

theorem after4_1 (c : Dev nD) (t : Fin cfg4.N) : (dat4 V c).after 1 t = iblk4 V c 1 t := by dsimp only [dat4]

theorem after4_2 (c : Dev nD) (t : Fin cfg4.N) : (dat4 V c).after 2 t = iblk4 V c 2 t := by dsimp only [dat4]

theorem after4_3 (c : Dev nD) (t : Fin cfg4.N) : (dat4 V c).after 3 t = iblk4 V c 3 t := by dsimp only [dat4]

theorem after4_4 (c : Dev nD) (t : Fin cfg4.N) : (dat4 V c).after 4 t = iblk4 V c 4 t := by dsimp only [dat4]

theorem after4_5 (c : Dev nD) (t : Fin cfg4.N) : (dat4 V c).after 5 t =
    out4_5 (iblk4 V c 0 t) (iblk4 V c 1 t) (iblk4 V c 2 t) (iblk4 V c 3 t) (iblk4 V c 4 t) := by dsimp only [dat4]

theorem before4 (c : Dev nD) (t : Fin cfg4.N) :
    (∀ d, (dat4 V c).before 0 t d = iblk4 V c 0 t) ∧
    (∀ d, (dat4 V c).before 1 t d = iblk4 V c 1 t) ∧
    (∀ d, (dat4 V c).before 2 t d = iblk4 V c 2 t) ∧
    (∀ d, (dat4 V c).before 3 t d = iblk4 V c 3 t) ∧
    (∀ d, (dat4 V c).before 4 t d = iblk4 V c 4 t) := by
  refine ⟨?_, ?_, ?_, ?_, ?_⟩ <;> intro d <;>
    exact ((dat4 V c).before_in_eq_fetched _ rfl (fun _ => rfl) (fun _ _ _ => rfl)
      (fun t => by rw [show (dat4 V c).after _ t = iblk4 V c _ t from rfl]; unfold Dat.blockOf iblk4; rw [A_eq4]; try rfl) t d).trans
      (by unfold Dat.fetched Dat.blockOf iblk4; rw [A_eq4]; try rfl)

theorem body_obligation4 (c : Dev nD) : BodyObligation (dat4 (F := F) V c) (defs₀ (F := F)) Variants.none () Set.univ := fun t => by
  rw [bigSep_W4, bigSep_W4]
  show (_ : sProp 𝕄) ⊢ wp frame _ Set.univ (bodyAt4 t) _
  unfold bodyAt4
  obtain ⟨hb0, hb1, hb2, hb3, hb4⟩ := before4 V c t
  simp only [hb0, hb1, hb2, hb3, hb4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

end Cert.Kernel.Net
-- ==== Proof.K.Reg5.lean ====
import proofs.«420664_j68839735820523_2_alg».proof.Proof.Gen.Kernel.Launch
import proofs.«420664_j68839735820523_2_alg».proof.Proof.Gen.Kernel.Skeleton
import proofs.«420664_j68839735820523_2_alg».proof.Proof.Gen.Kernel.Points
import proofs.«420664_j68839735820523_2_alg».proof.Proof.K.Reg2
import Idealize.ShloMosaic.Lib.Pipeline.FrameBody
import Idealize.ShloMosaic.Lib.Tactic

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem cc5_eq : cc5__linear_kernel (F := F) = cc2__linear_kernel := rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out2_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]

theorem after5_1 (c : Dev nD) (t : Fin cfg5.N) : (dat5 V c).after 1 t = iblk5 V c 1 t := by dsimp only [dat5]

theorem after5_2 (c : Dev nD) (t : Fin cfg5.N) : (dat5 V c).after 2 t = out2_2 (iblk5 V c 0 t) (iblk5 V c 1 t) := by dsimp only [dat5]

theorem before5 (c : Dev nD) (t : Fin cfg5.N) :
    (∀ d, (dat5 V c).before 0 t d = iblk5 V c 0 t) ∧
    (∀ d, (dat5 V c).before 1 t d = iblk5 V c 1 t) := by
  refine ⟨?_, ?_⟩ <;> intro d <;>
    exact ((dat5 V c).before_in_eq_fetched _ rfl (fun _ => rfl) (fun _ _ _ => rfl)
      (fun t => by rw [show (dat5 V c).after _ t = iblk5 V c _ t from rfl]; unfold Dat.blockOf iblk5; rw [A_eq5]; try rfl) t d).trans
      (by unfold Dat.fetched Dat.blockOf iblk5; rw [A_eq5]; try rfl)

theorem body_obligation5 (c : Dev nD) : BodyObligation (dat5 (F := F) V c) (defs₀ (F := F)) Variants.none () Set.univ := fun t => by
  rw [bigSep_W5, bigSep_W5]
  show (_ : sProp 𝕄) ⊢ wp frame _ Set.univ (bodyAt5 t) _
  unfold bodyAt5
  rw [cc5_eq]
  obtain ⟨hb0, hb1⟩ := before5 V c t
  simp only [hb0, hb1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%dx, Hx⟩, ⟨%dw, Hw⟩, ⟨%dy, Hy⟩⟩
  iapply (sound_kernel2 c Set.univ _ _ _ _ _ _ _ (iblk5 V c 0 t) (iblk5 V c 1 t) _)
  isplitl [Hx]; · iexact Hx
  isplitl [Hw]; · iexact Hw
  isplitl [Hy]; · iexists _; iexact Hy
  iintro ⟨Hx, Hw, Hy⟩
  isplitl [HΦ]; · iexact HΦ
  isplitl [Ho]; · iexact Ho
  isplitl [Hx]; · iexact Hx
  isplitl [Hw]; · iexact Hw
  iexact Hy

end Cert.Kernel.Net
-- ==== Proof.K.Reg6.lean ====
import proofs.«420664_j68839735820523_2_alg».proof.Proof.Gen.Kernel.Launch
import proofs.«420664_j68839735820523_2_alg».proof.Proof.Gen.Kernel.Skeleton
import proofs.«420664_j68839735820523_2_alg».proof.Proof.Gen.Kernel.Points
import proofs.«420664_j68839735820523_2_alg».proof.Proof.K.Reg3
import Idealize.ShloMosaic.Lib.Pipeline.FrameBody
import Idealize.ShloMosaic.Lib.Ring
import Idealize.ShloMosaic.Lib.Tactic

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem cc6_eq : cc6__combine_kernel (F := F) = cc3__combine_kernel := rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out3_4 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]

theorem after6_1 (c : Dev nD) (t : Fin cfg6.N) : (dat6 V c).after 1 t = iblk6 V c 1 t := by dsimp only [dat6]

theorem after6_2 (c : Dev nD) (t : Fin cfg6.N) : (dat6 V c).after 2 t = iblk6 V c 2 t := by dsimp only [dat6]

theorem after6_3 (c : Dev nD) (t : Fin cfg6.N) : (dat6 V c).after 3 t = iblk6 V c 3 t := by dsimp only [dat6]

theorem after6_4 (c : Dev nD) (t : Fin cfg6.N) :
    (dat6 V c).after 4 t = out3_4 (iblk6 V c 0 t) (iblk6 V c 1 t) (iblk6 V c 2 t) (iblk6 V c 3 t) := by dsimp only [dat6]

theorem before6 (c : Dev nD) (t : Fin cfg6.N) :
    (∀ d, (dat6 V c).before 0 t d = iblk6 V c 0 t) ∧
    (∀ d, (dat6 V c).before 1 t d = iblk6 V c 1 t) ∧
    (∀ d, (dat6 V c).before 2 t d = iblk6 V c 2 t) ∧
    (∀ d, (dat6 V c).before 3 t d = iblk6 V c 3 t) := by
  refine ⟨?_, ?_, ?_, ?_⟩ <;> intro d <;>
    exact ((dat6 V c).before_in_eq_fetched _ rfl (fun _ => rfl) (fun _ _ _ => rfl)
      (fun t => by rw [show (dat6 V c).after _ t = iblk6 V c _ t from rfl]; unfold Dat.blockOf iblk6; rw [A_eq6]; try rfl) t d).trans
      (by unfold Dat.fetched Dat.blockOf iblk6; rw [A_eq6]; try rfl)

theorem body_obligation6 (c : Dev nD) : BodyObligation (dat6 (F := F) V c) (defs₀ (F := F)) Variants.none () Set.univ := fun t => by
  rw [bigSep_W6, bigSep_W6]
  show (_ : sProp 𝕄) ⊢ wp frame _ Set.univ (bodyAt6 t) _
  unfold bodyAt6
  rw [cc6_eq]
  obtain ⟨hb0, hb1, hb2, hb3⟩ := before6 V c t
  simp only [hb0, hb1, hb2, hb3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.Kernel.Net
-- ==== Proof.K.Reg7.lean ====
import proofs.«420664_j68839735820523_2_alg».proof.Proof.Gen.Kernel.Launch
import proofs.«420664_j68839735820523_2_alg».proof.Proof.Gen.Kernel.Skeleton
import proofs.«420664_j68839735820523_2_alg».proof.Proof.Gen.Kernel.Points
import proofs.«420664_j68839735820523_2_alg».proof.Proof.K.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem cc7_eq : cc7__bn_relu_kernel (F := F) = cc4__bn_relu_kernel := rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out4_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]

theorem after7_1 (c : Dev nD) (t : Fin cfg7.N) : (dat7 V c).after 1 t = iblk7 V c 1 t := by dsimp only [dat7]

theorem after7_2 (c : Dev nD) (t : Fin cfg7.N) : (dat7 V c).after 2 t = iblk7 V c 2 t := by dsimp only [dat7]

theorem after7_3 (c : Dev nD) (t : Fin cfg7.N) : (dat7 V c).after 3 t = iblk7 V c 3 t := by dsimp only [dat7]

theorem after7_4 (c : Dev nD) (t : Fin cfg7.N) : (dat7 V c).after 4 t = iblk7 V c 4 t := by dsimp only [dat7]

theorem after7_5 (c : Dev nD) (t : Fin cfg7.N) : (dat7 V c).after 5 t =
    out4_5 (iblk7 V c 0 t) (iblk7 V c 1 t) (iblk7 V c 2 t) (iblk7 V c 3 t) (iblk7 V c 4 t) := by dsimp only [dat7]

theorem before7 (c : Dev nD) (t : Fin cfg7.N) :
    (∀ d, (dat7 V c).before 0 t d = iblk7 V c 0 t) ∧
    (∀ d, (dat7 V c).before 1 t d = iblk7 V c 1 t) ∧
    (∀ d, (dat7 V c).before 2 t d = iblk7 V c 2 t) ∧
    (∀ d, (dat7 V c).before 3 t d = iblk7 V c 3 t) ∧
    (∀ d, (dat7 V c).before 4 t d = iblk7 V c 4 t) := by
  refine ⟨?_, ?_, ?_, ?_, ?_⟩ <;> intro d <;>
    exact ((dat7 V c).before_in_eq_fetched _ rfl (fun _ => rfl) (fun _ _ _ => rfl)
      (fun t => by rw [show (dat7 V c).after _ t = iblk7 V c _ t from rfl]; unfold Dat.blockOf iblk7; rw [A_eq7]; try rfl) t d).trans
      (by unfold Dat.fetched Dat.blockOf iblk7; rw [A_eq7]; try rfl)

theorem body_obligation7 (c : Dev nD) : BodyObligation (dat7 (F := F) V c) (defs₀ (F := F)) Variants.none () Set.univ := fun t => by
  rw [bigSep_W7, bigSep_W7]
  show (_ : sProp 𝕄) ⊢ wp frame _ Set.univ (bodyAt7 t) _
  unfold bodyAt7
  rw [cc7_eq]
  obtain ⟨hb0, hb1, hb2, hb3, hb4⟩ := before7 V c t
  simp only [hb0, hb1, hb2, hb3, hb4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

end Cert.Kernel.Net
-- ==== Proof.K.Reg8.lean ====
import proofs.«420664_j68839735820523_2_alg».proof.Proof.Gen.Kernel.Launch
import proofs.«420664_j68839735820523_2_alg».proof.Proof.Gen.Kernel.Skeleton
import proofs.«420664_j68839735820523_2_alg».proof.Proof.Gen.Kernel.Points
import proofs.«420664_j68839735820523_2_alg».proof.Proof.K.Reg2
import Idealize.ShloMosaic.Lib.Pipeline.FrameBody
import Idealize.ShloMosaic.Lib.Tactic

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem cc8_eq : cc8__linear_kernel (F := F) = cc2__linear_kernel := rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out2_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]

theorem after8_1 (c : Dev nD) (t : Fin cfg8.N) : (dat8 V c).after 1 t = iblk8 V c 1 t := by dsimp only [dat8]

theorem after8_2 (c : Dev nD) (t : Fin cfg8.N) : (dat8 V c).after 2 t = out2_2 (iblk8 V c 0 t) (iblk8 V c 1 t) := by dsimp only [dat8]

theorem before8 (c : Dev nD) (t : Fin cfg8.N) :
    (∀ d, (dat8 V c).before 0 t d = iblk8 V c 0 t) ∧
    (∀ d, (dat8 V c).before 1 t d = iblk8 V c 1 t) := by
  refine ⟨?_, ?_⟩ <;> intro d <;>
    exact ((dat8 V c).before_in_eq_fetched _ rfl (fun _ => rfl) (fun _ _ _ => rfl)
      (fun t => by rw [show (dat8 V c).after _ t = iblk8 V c _ t from rfl]; unfold Dat.blockOf iblk8; rw [A_eq8]; try rfl) t d).trans
      (by unfold Dat.fetched Dat.blockOf iblk8; rw [A_eq8]; try rfl)

theorem body_obligation8 (c : Dev nD) : BodyObligation (dat8 (F := F) V c) (defs₀ (F := F)) Variants.none () Set.univ := fun t => by
  rw [bigSep_W8, bigSep_W8]
  show (_ : sProp 𝕄) ⊢ wp frame _ Set.univ (bodyAt8 t) _
  unfold bodyAt8
  rw [cc8_eq]
  obtain ⟨hb0, hb1⟩ := before8 V c t
  simp only [hb0, hb1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%dx, Hx⟩, ⟨%dw, Hw⟩, ⟨%dy, Hy⟩⟩
  iapply (sound_kernel2 c Set.univ _ _ _ _ _ _ _ (iblk8 V c 0 t) (iblk8 V c 1 t) _)
  isplitl [Hx]; · iexact Hx
  isplitl [Hw]; · iexact Hw
  isplitl [Hy]; · iexists _; iexact Hy
  iintro ⟨Hx, Hw, Hy⟩
  isplitl [HΦ]; · iexact HΦ
  isplitl [Ho]; · iexact Ho
  isplitl [Hx]; · iexact Hx
  isplitl [Hw]; · iexact Hw
  iexact Hy

end Cert.Kernel.Net
-- ==== Proof.K.Reg9.lean ====
import proofs.«420664_j68839735820523_2_alg».proof.Proof.Gen.Kernel.Launch
import proofs.«420664_j68839735820523_2_alg».proof.Proof.Gen.Kernel.Skeleton
import proofs.«420664_j68839735820523_2_alg».proof.Proof.Gen.Kernel.Points
import proofs.«420664_j68839735820523_2_alg».proof.Proof.K.Reg3
import Idealize.ShloMosaic.Lib.Pipeline.FrameBody
import Idealize.ShloMosaic.Lib.Ring
import Idealize.ShloMosaic.Lib.Tactic

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem cc9_eq : cc9__combine_kernel (F := F) = cc3__combine_kernel := rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out3_4 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]

theorem after9_1 (c : Dev nD) (t : Fin cfg9.N) : (dat9 V c).after 1 t = iblk9 V c 1 t := by dsimp only [dat9]

theorem after9_2 (c : Dev nD) (t : Fin cfg9.N) : (dat9 V c).after 2 t = iblk9 V c 2 t := by dsimp only [dat9]

theorem after9_3 (c : Dev nD) (t : Fin cfg9.N) : (dat9 V c).after 3 t = iblk9 V c 3 t := by dsimp only [dat9]

theorem after9_4 (c : Dev nD) (t : Fin cfg9.N) :
    (dat9 V c).after 4 t = out3_4 (iblk9 V c 0 t) (iblk9 V c 1 t) (iblk9 V c 2 t) (iblk9 V c 3 t) := by dsimp only [dat9]

theorem before9 (c : Dev nD) (t : Fin cfg9.N) :
    (∀ d, (dat9 V c).before 0 t d = iblk9 V c 0 t) ∧
    (∀ d, (dat9 V c).before 1 t d = iblk9 V c 1 t) ∧
    (∀ d, (dat9 V c).before 2 t d = iblk9 V c 2 t) ∧
    (∀ d, (dat9 V c).before 3 t d = iblk9 V c 3 t) := by
  refine ⟨?_, ?_, ?_, ?_⟩ <;> intro d <;>
    exact ((dat9 V c).before_in_eq_fetched _ rfl (fun _ => rfl) (fun _ _ _ => rfl)
      (fun t => by rw [show (dat9 V c).after _ t = iblk9 V c _ t from rfl]; unfold Dat.blockOf iblk9; rw [A_eq9]; try rfl) t d).trans
      (by unfold Dat.fetched Dat.blockOf iblk9; rw [A_eq9]; try rfl)

theorem body_obligation9 (c : Dev nD) : BodyObligation (dat9 (F := F) V c) (defs₀ (F := F)) Variants.none () Set.univ := fun t => by
  rw [bigSep_W9, bigSep_W9]
  show (_ : sProp 𝕄) ⊢ wp frame _ Set.univ (bodyAt9 t) _
  unfold bodyAt9
  rw [cc9_eq]
  obtain ⟨hb0, hb1, hb2, hb3⟩ := before9 V c t
  simp only [hb0, hb1, hb2, hb3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.Kernel.Net
-- ==== Proof.K.Reg10.lean ====
import proofs.«420664_j68839735820523_2_alg».proof.Proof.Gen.Kernel.Launch
import proofs.«420664_j68839735820523_2_alg».proof.Proof.Gen.Kernel.Skeleton
import proofs.«420664_j68839735820523_2_alg».proof.Proof.Gen.Kernel.Points
import proofs.«420664_j68839735820523_2_alg».proof.Proof.K.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem cc10_eq : cc10__bn_relu_kernel (F := F) = cc4__bn_relu_kernel := rfl

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out4_5 (iblk10 V c 0 t) (iblk10 V c 1 t) (iblk10 V c 2 t) (iblk10 V c 3 t) (iblk10 V c 4 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]

theorem after10_1 (c : Dev nD) (t : Fin cfg10.N) : (dat10 V c).after 1 t = iblk10 V c 1 t := by dsimp only [dat10]

theorem after10_2 (c : Dev nD) (t : Fin cfg10.N) : (dat10 V c).after 2 t = iblk10 V c 2 t := by dsimp only [dat10]

theorem after10_3 (c : Dev nD) (t : Fin cfg10.N) : (dat10 V c).after 3 t = iblk10 V c 3 t := by dsimp only [dat10]

theorem after10_4 (c : Dev nD) (t : Fin cfg10.N) : (dat10 V c).after 4 t = iblk10 V c 4 t := by dsimp only [dat10]

theorem after10_5 (c : Dev nD) (t : Fin cfg10.N) : (dat10 V c).after 5 t =
    out4_5 (iblk10 V c 0 t) (iblk10 V c 1 t) (iblk10 V c 2 t) (iblk10 V c 3 t) (iblk10 V c 4 t) := by dsimp only [dat10]

theorem before10 (c : Dev nD) (t : Fin cfg10.N) :
    (∀ d, (dat10 V c).before 0 t d = iblk10 V c 0 t) ∧
    (∀ d, (dat10 V c).before 1 t d = iblk10 V c 1 t) ∧
    (∀ d, (dat10 V c).before 2 t d = iblk10 V c 2 t) ∧
    (∀ d, (dat10 V c).before 3 t d = iblk10 V c 3 t) ∧
    (∀ d, (dat10 V c).before 4 t d = iblk10 V c 4 t) := by
  refine ⟨?_, ?_, ?_, ?_, ?_⟩ <;> intro d <;>
    exact ((dat10 V c).before_in_eq_fetched _ rfl (fun _ => rfl) (fun _ _ _ => rfl)
      (fun t => by rw [show (dat10 V c).after _ t = iblk10 V c _ t from rfl]; unfold Dat.blockOf iblk10; rw [A_eq10]; try rfl) t d).trans
      (by unfold Dat.fetched Dat.blockOf iblk10; rw [A_eq10]; try rfl)

theorem body_obligation10 (c : Dev nD) : BodyObligation (dat10 (F := F) V c) (defs₀ (F := F)) Variants.none () Set.univ := fun t => by
  rw [bigSep_W10, bigSep_W10]
  show (_ : sProp 𝕄) ⊢ wp frame _ Set.univ (bodyAt10 t) _
  unfold bodyAt10
  rw [cc10_eq]
  obtain ⟨hb0, hb1, hb2, hb3, hb4⟩ := before10 V c t
  simp only [hb0, hb1, hb2, hb3, hb4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

end Cert.Kernel.Net
-- ==== Proof.K.Reg11.lean ====
import proofs.«420664_j68839735820523_2_alg».proof.Proof.Gen.Kernel.Launch
import proofs.«420664_j68839735820523_2_alg».proof.Proof.Gen.Kernel.Skeleton
import proofs.«420664_j68839735820523_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz11 : (![0, 0] : Fin 2 → Nat) = fun _ => 0 := funext fun a => by fin_cases a <;> rfl

abbrev cond11_0 (i : grid11.Coords) : Prop := (Scalar.cmpi .ne (Scalar.extui (Scalar.cmpi .eq (BitVec.ofNat 32 (i 0).val) 0#32)) 0#32) = 1#1

theorem hcond11_0 : ∀ t : Fin cfg11.N, cond11_0 (grid11.coords t) ↔ t.val = 0 :=
  (by decide +kernel : ∀ t : Fin grid11.N, cond11_0 (grid11.coords t) ↔ t.val = 0)

abbrev cond11_1 (i : grid11.Coords) : Prop := k11_cond2 i = 1#1

theorem hcond11_1 : ∀ t : Fin cfg11.N, cond11_1 (grid11.coords t) ↔ t.val = 9 :=
  (by decide +kernel : ∀ t : Fin grid11.N, cond11_1 (grid11.coords t) ↔ t.val = 9)

theorem liveAt11_0 : ∀ t : Fin cfg11.N, cfg11.idle 0 (grid11.coords t) = false := by decide +kernel

theorem liveAt11_1 : ∀ t : Fin cfg11.N, cfg11.idle 1 (grid11.coords t) = false := by decide +kernel

theorem idleAt11_2 : ∀ t : Fin cfg11.N, ¬cond11_1 (grid11.coords t) → cfg11.idle 2 (grid11.coords t) = true := by decide +kernel

theorem noFlush11_2 : ∀ t : Fin cfg11.N, ¬cond11_1 (grid11.coords t) → (cfg11.win 2).flush t = false := by decide +kernel

theorem liveAt11_2 : ∀ t : Fin cfg11.N, cond11_1 (grid11.coords t) → cfg11.idle 2 (grid11.coords t) = false := by decide +kernel

set_option maxHeartbeats 1000000 in
theorem run11_first (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S64x64 .f32) (harg3 : arg3.IsWhole) (arg4 : Memref sig .tc .vmem S64x64 .f32) (harg4 : arg4.IsWhole)
    (hc0 : cond11_0 i) (hc1 : ¬cond11_1 i)
    (x0 : Vec F S5000x64 .f32) (x1 : Vec F S5000x1 .i32) (xi2 : Vec F S64x64 .f32) (E : Set ℕ) (K : PUnit → sProp 𝕄) :
    iprop(owns (c : Thread nD τ) arg1 fullShare x0 ∗ owns (c : Thread nD τ) arg2 fullShare x1 ∗ owns (c : Thread nD τ) arg3 fullShare xi2 ∗ (∃ d, owns (c : Thread nD τ) arg4 fullShare d)
        ∗ (iprop(owns (c : Thread nD τ) arg1 fullShare x0 ∗ owns (c : Thread nD τ) arg2 fullShare x1 ∗ owns (c : Thread nD τ) arg3 fullShare xi2 ∗ owns (c : Thread nD τ) arg4 fullShare (k11_pay2 x1 x0 k11_pay1)) -∗ K ⟨⟩))
      ⊢ wp frame (wpE (defs₀ (F := F)) Variants.none c none) E (cc11__pool_kernel i arg1 harg1 arg2 harg2 arg3 harg3 arg4 harg4) K := by
  simp only [cc11__pool_kernel_eq_skeleton]; unfold cc11__pool_kernel_skel
  unfold owns
  iintro ⟨⟨%f0, %hf0, H0⟩, ⟨%f1, %hf1, H1⟩, ⟨%f2, %hf2, H2⟩, ⟨%ds, %fs, -, HS⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  try sl_unfold_words
  rw [View.read_writes_eq_canon _ _ _ (fun y => ⟨_, List.mem_cons_self, View.mem_set_unit_zero hz11 inb_S64x64_S64x64_0_0 y⟩), View.canon_cons_unit_zero hz11]
  simp only [View.readAt_eq_ld, harg1.read_unread, harg2.read_unread, harg4.read_unread, View.ld_unit_zero (S := S5000x64) hz11, View.ld_unit_zero (S := S5000x1) hz11, View.ld_unit_zero (S := S64x64) hz11, View.readCov_unit_zero (S := S64x64) _ hz11]

set_option maxHeartbeats 1000000 in
theorem run11_mid (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S64x64 .f32) (harg3 : arg3.IsWhole) (arg4 : Memref sig .tc .vmem S64x64 .f32) (harg4 : arg4.IsWhole)
    (hc0 : ¬cond11_0 i) (hc1 : ¬cond11_1 i)
    (x0 : Vec F S5000x64 .f32) (x1 : Vec F S5000x1 .i32) (xi2 xs : Vec F S64x64 .f32) (E : Set ℕ) (K : PUnit → sProp 𝕄) :
    iprop(owns (c : Thread nD τ) arg1 fullShare x0 ∗ owns (c : Thread nD τ) arg2 fullShare x1 ∗ owns (c : Thread nD τ) arg3 fullShare xi2 ∗ owns (c : Thread nD τ) arg4 fullShare xs
        ∗ (iprop(owns (c : Thread nD τ) arg1 fullShare x0 ∗ owns (c : Thread nD τ) arg2 fullShare x1 ∗ owns (c : Thread nD τ) arg3 fullShare xi2 ∗ owns (c : Thread nD τ) arg4 fullShare (k11_pay2 x1 x0 xs)) -∗ K ⟨⟩))
      ⊢ wp frame (wpE (defs₀ (F := F)) Variants.none c none) E (cc11__pool_kernel i arg1 harg1 arg2 harg2 arg3 harg3 arg4 harg4) K := by
  simp only [cc11__pool_kernel_eq_skeleton]; unfold cc11__pool_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  try sl_unfold_words
  rw [View.read_writes_eq_canon _ _ _ (fun y => ⟨_, List.mem_singleton_self _, View.mem_set_unit_zero hz11 inb_S64x64_S64x64_0_0 y⟩), View.canon_unit_zero hz11]
  simp only [View.readAt_eq_ld, harg1.read_unread, harg2.read_unread, harg4.read_unread, View.ld_unit_zero (S := S5000x64) hz11, View.ld_unit_zero (S := S5000x1) hz11, View.ld_unit_zero (S := S64x64) hz11, View.readCov_unit_zero (S := S64x64) _ hz11]

set_option maxHeartbeats 1000000 in
theorem run11_last (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S64x64 .f32) (harg3 : arg3.IsWhole) (arg4 : Memref sig .tc .vmem S64x64 .f32) (harg4 : arg4.IsWhole)
    (hc0 : ¬cond11_0 i) (hc1 : cond11_1 i)
    (x0 : Vec F S5000x64 .f32) (x1 : Vec F S5000x1 .i32) (xs : Vec F S64x64 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1 ∗ owns (c : Thread nD τ) arg3 fullShare (k11_pay2 x1 x0 xs) ∗ owns (c : Thread nD τ) arg4 fullShare (k11_pay2 x1 x0 xs)) -∗ K ⟨⟩))
      ⊢ wp frame (wpE (defs₀ (F := F)) Variants.none c none) E (cc11__pool_kernel i arg1 harg1 arg2 harg2 arg3 harg3 arg4 harg4) K := by
  simp only [cc11__pool_kernel_eq_skeleton]; unfold cc11__pool_kernel_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    try sl_unfold_words
    rw [View.read_writes_eq_canon _ _ _ (fun y => ⟨_, List.mem_singleton_self _, View.mem_set_unit_zero hz11 inb_S64x64_S64x64_0_0 y⟩), View.canon_unit_zero hz11]
    simp only [View.readAt_eq_ld, harg1.read_unread, harg2.read_unread, harg4.read_unread, View.ld_unit_zero (S := S5000x64) hz11, View.ld_unit_zero (S := S5000x1) hz11, View.ld_unit_zero (S := S64x64) hz11, View.readCov_unit_zero (S := S64x64) _ hz11]
  iexists _; isplitr
  swap; · iexact HS
  ipureintro
  try sl_unfold_words
  rw [View.read_writes_eq_canon _ _ _ (fun y => ⟨_, List.mem_singleton_self _, View.mem_set_unit_zero hz11 inb_S64x64_S64x64_0_0 y⟩), View.canon_unit_zero hz11]
  simp only [View.readAt_eq_ld, harg1.read_unread, harg2.read_unread, harg4.read_unread, View.ld_unit_zero (S := S5000x64) hz11, View.ld_unit_zero (S := S5000x1) hz11, View.ld_unit_zero (S := S64x64) hz11, View.readCov_unit_zero (S := S64x64) _ hz11]
section Region

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

def pt11 (n : ℕ) : Fin cfg11.N := if h : n < cfg11.N then ⟨n, h⟩ else t11_0

theorem pt11_val (t : Fin cfg11.N) : pt11 t.val = t := dif_pos t.isLt

def step11 (c : Dev nD) (t : Fin cfg11.N) (a : Vec F S64x64 .f32) : Vec F S64x64 .f32 :=
  k11_pay2 (iblk11 V c 1 t) (iblk11 V c 0 t) a

def acc11 (c : Dev nD) : ℕ → Vec F S64x64 .f32
  | 0 => k11_pay1
  | n + 1 => step11 V c (pt11 n) (acc11 c n)

theorem acc11_zero (c : Dev nD) : acc11 V c 0 = k11_pay1 := rfl

theorem acc11_succ_nat (c : Dev nD) (n : ℕ) : acc11 V c (n + 1) = step11 V c (pt11 n) (acc11 V c n) := rfl

theorem acc11_of_eq_zero (c : Dev nD) (n : ℕ) (h : n = 0) : acc11 V c n = k11_pay1 := by subst h; rfl

theorem acc11_succ (c : Dev nD) (t : Fin cfg11.N) :
    acc11 V c (t.val + 1) = k11_pay2 (iblk11 V c 1 t) (iblk11 V c 0 t) (acc11 V c t.val) := by
  rw [acc11_succ_nat, pt11_val]; rfl

abbrev scM11 : Memref sig .tc .vmem S64x64 .f32 := Memref.whole cc11_scratch0

abbrev rest11 (c : Dev nD) : sProp 𝕄 :=
  Pipeline.scopedRestBut (Ix := Unit) (Name := ℕ) (U := UR sig nD τ) (Lvl := ℕ) (Val := Elt F) spec11 c [cc11_scratch0]

def Phi11 (c : Dev nD) : ℕ → sProp 𝕄
  | 0 => iprop((∃ d, owns (c : Thread nD τ) scM11 fullShare d) ∗ rest11 c ∗ (∃ r, prngReg c r))
  | n + 1 => iprop(owns (c : Thread nD τ) scM11 fullShare (acc11 V c (n + 1)) ∗ rest11 c ∗ (∃ r, prngReg c r))

theorem Phi11_zero (c : Dev nD) (n : ℕ) (h : n = 0) :
    Phi11 V c n = iprop((∃ d, owns (c : Thread nD τ) scM11 fullShare d) ∗ rest11 c ∗ (∃ r, prngReg c r)) := by subst h; rfl

theorem Phi11_succ (c : Dev nD) (n : ℕ) :
    Phi11 V c (n + 1) = iprop(owns (c : Thread nD τ) scM11 fullShare (acc11 V c (n + 1)) ∗ rest11 c ∗ (∃ r, prngReg c r)) := rfl

theorem Phi11_pos (c : Dev nD) (n : ℕ) (h : n ≠ 0) :
    Phi11 V c n = iprop(owns (c : Thread nD τ) scM11 fullShare (acc11 V c n) ∗ rest11 c ∗ (∃ r, prngReg c r)) := by
  cases n with
  | zero => exact absurd rfl h
  | succ n => rfl

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => acc11 V c (t.val + 1)
  Φ t := Phi11 V c t.val
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]

theorem after11_1 (c : Dev nD) (t : Fin cfg11.N) : (dat11 V c).after 1 t = iblk11 V c 1 t := by dsimp only [dat11]

theorem after11_2 (c : Dev nD) (t : Fin cfg11.N) : (dat11 V c).after 2 t = acc11 V c (t.val + 1) := by dsimp only [dat11]

theorem after11_2_last (c : Dev nD) : (dat11 V c).after 2 t11_9 = acc11 V c 10 := by dsimp only [dat11]; rfl

theorem Phi11_castSucc (c : Dev nD) (t : Fin cfg11.N) : (dat11 V c).Φ t.castSucc = Phi11 V c t.val := by
  dsimp only [dat11]; simp only [Fin.coe_castSucc]

theorem Phi11_at_succ (c : Dev nD) (t : Fin cfg11.N) : (dat11 V c).Φ t.succ = Phi11 V c (t.val + 1) := rfl

theorem before11 (c : Dev nD) (t : Fin cfg11.N) :
    (∀ d, (dat11 V c).before 0 t d = iblk11 V c 0 t) ∧
    (∀ d, (dat11 V c).before 1 t d = iblk11 V c 1 t) := by
  refine ⟨?_, ?_⟩ <;> intro d <;>
    exact ((dat11 V c).before_in_eq_fetched _ rfl (fun _ => rfl) (fun _ _ _ => rfl)
      (fun t => by rw [show (dat11 V c).after _ t = iblk11 V c _ t from rfl]; unfold Dat.blockOf iblk11; rw [A_eq11]; try rfl) t d).trans
      (by unfold Dat.fetched Dat.blockOf iblk11; rw [A_eq11]; try rfl)

abbrev ms11_0 (t : Fin cfg11.N) : Memref sig .tc .vmem S5000x64 .f32 := win11_0.stage (cfg11.slots t 0)

abbrev ms11_1 (t : Fin cfg11.N) : Memref sig .tc .vmem S5000x1 .i32 := win11_1.stage (cfg11.slots t 1)

abbrev ms11_2 (t : Fin cfg11.N) : Memref sig .tc .vmem S64x64 .f32 := win11_2.stage (cfg11.slots t 2)

def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d)))

def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t)

set_option maxHeartbeats 4800000 in
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  obtain ⟨hb0, hb1⟩ := before11 V c t
  simp only [hb0, hb1]
  rw [show (dat11 V c).owesAt () t.succ = (dat11 V c).owesAt () t.castSucc from rfl]
  rw [Phi11_at_succ, Phi11_succ, Phi11_castSucc]
  rw [show (dat11 V c).leavesExact 0 t = owns (c : Thread nD τ) (ms11_0 t) fullShare ((dat11 V c).after 0 t) from by
      unfold Dat.leavesExact; rw [liveAt11_0 t], after11_0]
  rw [show (dat11 V c).leavesExact 1 t = owns (c : Thread nD τ) (ms11_1 t) fullShare ((dat11 V c).after 1 t) from by
      unfold Dat.leavesExact; rw [liveAt11_1 t], after11_1]
  have hN : t.val < 10 := lt_of_lt_of_eq t.isLt (show cfg11.N = 10 from N_11)
  by_cases h9 : t.val = 9
  · have h0 : ¬ t.val = 0 := by omega
    rw [show (dat11 V c).leavesExact 2 t = owns (c : Thread nD τ) (ms11_2 t) fullShare ((dat11 V c).after 2 t) from by
      unfold Dat.leavesExact; rw [liveAt11_2 t ((hcond11_1 t).mpr h9)], after11_2]
    rw [Phi11_pos V c _ h0, acc11_succ V c t]
    iintro ⟨⟨HS, Hr, Hg⟩, Ho, ⟨%d0, H0⟩, ⟨%d1, H1⟩, ⟨%d2, H2⟩⟩
    iapply (run11_last c (grid11.coords t) _ _ _ _ _ _ _ _ (fun h => h0 ((hcond11_0 t).mp h)) ((hcond11_1 t).mpr h9) (iblk11 V c 0 t) (iblk11 V c 1 t) (acc11 V c t.val) Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · rw [Dat.leavesExact_idle (dat11 V c) 2 t (idleAt11_2 t (fun h => h9 ((hcond11_1 t).mp h))) (noFlush11_2 t (fun h => h9 ((hcond11_1 t).mp h)))]
    rw [acc11_succ V c t]
    by_cases h0 : t.val = 0
    · rw [Phi11_zero V c _ h0, acc11_of_eq_zero V c _ h0]
      iintro ⟨⟨HS, Hr, Hg⟩, Ho, ⟨%d0, H0⟩, ⟨%d1, H1⟩, ⟨%d2, H2⟩⟩
      iapply (run11_first c (grid11.coords t) _ _ _ _ _ _ _ _ ((hcond11_0 t).mpr h0) (fun h => h9 ((hcond11_1 t).mp h)) (iblk11 V c 0 t) (iblk11 V c 1 t) _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2
    · rw [Phi11_pos V c _ h0]
      iintro ⟨⟨HS, Hr, Hg⟩, Ho, ⟨%d0, H0⟩, ⟨%d1, H1⟩, ⟨%d2, H2⟩⟩
      iapply (run11_mid c (grid11.coords t) _ _ _ _ _ _ _ _ (fun h => h0 ((hcond11_0 t).mp h)) (fun h => h9 ((hcond11_1 t).mp h)) (iblk11 V c 0 t) (iblk11 V c 1 t) _ (acc11 V c t.val) Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

theorem body_obligation11 (c : Dev nD) : BodyObligation (dat11 (F := F) V c) (defs₀ (F := F)) Variants.none () Set.univ := fun t => by
  rw [bigSep_W11, bigSep_W11]
  exact sound_body11 V c t

theorem hin11 (c : Dev nD) :
    (iprop((∃ r, prngReg c r) ∗ Pipeline.scopedRest (Ix := Unit) (Name := ℕ) (U := UR sig nD τ) (Lvl := ℕ) spec11 c) : sProp 𝕄) ⊢ (dat11 V c).Φ 0 := by
  rw [show (dat11 V c).Φ 0 = Phi11 V c 0 from rfl, Phi11_zero V c 0 rfl, scopedRest11_split]
  simp only [scM11, owns_whole]
  iintro ⟨Hp, Hs, Hr⟩
  isplitl [Hs]; · iexact Hs
  isplitl [Hr]; · iexact Hr
  iexact Hp

theorem hout11 (c : Dev nD) :
    (dat11 V c).Φ (Fin.last _) ⊢ (iprop((∃ r, prngReg c r) ∗ Pipeline.scopedRest (Ix := Unit) (Name := ℕ) (U := UR sig nD τ) (Lvl := ℕ) spec11 c) : sProp 𝕄) := by
  rw [show (dat11 V c).Φ (Fin.last _) = Phi11 V c cfg11.N from rfl,
    Phi11_pos V c _ (by rw [show cfg11.N = 10 from N_11]; decide), scopedRest11_split]
  simp only [scM11, owns_whole]
  iintro ⟨Hs, Hr, Hp⟩
  isplitl [Hp]; · iexact Hp
  isplitl [Hs]; · iexists _; iexact Hs
  iexact Hr

end Region

end Cert.Kernel.Net

end
-- ==== Proof.K.Reg12.lean ====
import proofs.«420664_j68839735820523_2_alg».proof.Proof.Gen.Kernel.Launch
import proofs.«420664_j68839735820523_2_alg».proof.Proof.Gen.Kernel.Skeleton
import proofs.«420664_j68839735820523_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_0 : Rect S64x10 := Rect.unit (s := S64x10) ![0, 0] S64x10.size inb_S64x10_S64x10_0_0

abbrev r12_1 : Rect S64x64 := Rect.unit (s := S64x64) ![0, 0] S64x64.size inb_S64x64_S64x64_0_0

abbrev r12_2 : Rect S64x32 := Rect.unit (s := S64x32) ![0, 0] S64x32.size inb_S64x32_S64x32_0_0

abbrev r12_3 : Rect S1x32 := Rect.unit (s := S1x32) ![0, 0] S1x32.size inb_S1x32_S1x32_0_0

abbrev r12_4 : Rect S32x16 := Rect.unit (s := S32x16) ![0, 0] S32x16.size inb_S32x16_S32x16_0_0

abbrev r12_5 : Rect S1x16 := Rect.unit (s := S1x16) ![0, 0] S1x16.size inb_S1x16_S1x16_0_0

abbrev r12_6 : Rect S16x10 := Rect.unit (s := S16x10) ![0, 0] S16x10.size inb_S16x10_S16x10_0_0

abbrev r12_7 : Rect S1x10 := Rect.unit (s := S1x10) ![0, 0] S1x10.size inb_S1x10_S1x10_0_0

def out12_7 (x0 : Vec F S64x64 .f32) (x1 : Vec F S64x32 .f32) (x2 : Vec F S1x32 .f32) (x3 : Vec F S32x16 .f32) (x4 : Vec F S1x16 .f32) (x5 : Vec F S16x10 .f32) (x6 : Vec F S1x10 .f32) : Vec F S64x10 .f32 :=
  View.canon [⟨r12_0, k12_pay1 (View.ld x0 r12_1) (View.ld x1 r12_2) (View.ld x2 r12_3) (View.ld x3 r12_4) (View.ld x4 r12_5) (View.ld x5 r12_6) (View.ld x6 r12_7)⟩]

theorem cover12_7 (p0 : Vec F S64x10 .f32) (y : S64x10.Idx) :
    ∃ pc ∈ ([⟨r12_0, p0⟩] : List (View.Piece (Elt F) S64x10 .f32)), y ∈ pc.1.set :=
  View.cover_of_tiled [⟨r12_0, p0⟩] S64x10.size (by rfl) y

set_option maxHeartbeats 1000000 in
theorem sound_kernel12 (c : Dev nD) (E : Set ℕ) (i : grid12.Coords)
    (arg1 : Memref sig .tc .vmem S64x64 .f32) (harg1 : arg1.IsWhole)
    (arg2 : Memref sig .tc .vmem S64x32 .f32) (harg2 : arg2.IsWhole)
    (arg3 : Memref sig .tc .vmem S1x32 .f32) (harg3 : arg3.IsWhole)
    (arg4 : Memref sig .tc .vmem S32x16 .f32) (harg4 : arg4.IsWhole)
    (arg5 : Memref sig .tc .vmem S1x16 .f32) (harg5 : arg5.IsWhole)
    (arg6 : Memref sig .tc .vmem S16x10 .f32) (harg6 : arg6.IsWhole)
    (arg7 : Memref sig .tc .vmem S1x10 .f32) (harg7 : arg7.IsWhole)
    (arg8 : Memref sig .tc .vmem S64x10 .f32) (harg8 : arg8.IsWhole)
    (x0 : Vec F S64x64 .f32) (x1 : Vec F S64x32 .f32) (x2 : Vec F S1x32 .f32) (x3 : Vec F S32x16 .f32) (x4 : Vec F S1x16 .f32) (x5 : Vec F S16x10 .f32) (x6 : Vec F S1x10 .f32)
    (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare (out12_7 x0 x1 x2 x3 x4 x5 x6)) -∗ K ⟨⟩))
      ⊢ wp frame (wpE (defs₀ (F := F)) Variants.none c none) E (cc12__mlp_kernel i arg1 harg1 arg2 harg2 arg3 harg3 arg4 harg4 arg5 harg5 arg6 harg6 arg7 harg7 arg8 harg8) K := by
  simp only [cc12__mlp_kernel_eq_skeleton]; unfold cc12__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover12_7 _)

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => out12_7 (iblk12 V c 0 t) (iblk12 V c 1 t) (iblk12 V c 2 t) (iblk12 V c 3 t) (iblk12 V c 4 t) (iblk12 V c 5 t) (iblk12 V c 6 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]

theorem after12_1 (c : Dev nD) (t : Fin cfg12.N) : (dat12 V c).after 1 t = iblk12 V c 1 t := by dsimp only [dat12]

theorem after12_2 (c : Dev nD) (t : Fin cfg12.N) : (dat12 V c).after 2 t = iblk12 V c 2 t := by dsimp only [dat12]

theorem after12_3 (c : Dev nD) (t : Fin cfg12.N) : (dat12 V c).after 3 t = iblk12 V c 3 t := by dsimp only [dat12]

theorem after12_4 (c : Dev nD) (t : Fin cfg12.N) : (dat12 V c).after 4 t = iblk12 V c 4 t := by dsimp only [dat12]

theorem after12_5 (c : Dev nD) (t : Fin cfg12.N) : (dat12 V c).after 5 t = iblk12 V c 5 t := by dsimp only [dat12]

theorem after12_6 (c : Dev nD) (t : Fin cfg12.N) : (dat12 V c).after 6 t = iblk12 V c 6 t := by dsimp only [dat12]

theorem after12_7 (c : Dev nD) (t : Fin cfg12.N) : (dat12 V c).after 7 t =
    out12_7 (iblk12 V c 0 t) (iblk12 V c 1 t) (iblk12 V c 2 t) (iblk12 V c 3 t) (iblk12 V c 4 t) (iblk12 V c 5 t) (iblk12 V c 6 t) := by dsimp only [dat12]

theorem before12 (c : Dev nD) (t : Fin cfg12.N) :
    (∀ d, (dat12 V c).before 0 t d = iblk12 V c 0 t) ∧
    (∀ d, (dat12 V c).before 1 t d = iblk12 V c 1 t) ∧
    (∀ d, (dat12 V c).before 2 t d = iblk12 V c 2 t) ∧
    (∀ d, (dat12 V c).before 3 t d = iblk12 V c 3 t) ∧
    (∀ d, (dat12 V c).before 4 t d = iblk12 V c 4 t) ∧
    (∀ d, (dat12 V c).before 5 t d = iblk12 V c 5 t) ∧
    (∀ d, (dat12 V c).before 6 t d = iblk12 V c 6 t) := by
  refine ⟨?_, ?_, ?_, ?_, ?_, ?_, ?_⟩ <;> intro d <;>
    exact ((dat12 V c).before_in_eq_fetched _ rfl (fun _ => rfl) (fun _ _ _ => rfl)
      (fun t => by rw [show (dat12 V c).after _ t = iblk12 V c _ t from rfl]; unfold Dat.blockOf iblk12; rw [A_eq12]; try rfl) t d).trans
      (by unfold Dat.fetched Dat.blockOf iblk12; rw [A_eq12]; try rfl)

theorem body_obligation12 (c : Dev nD) : BodyObligation (dat12 (F := F) V c) (defs₀ (F := F)) Variants.none () Set.univ := fun t => by
  rw [bigSep_W12, bigSep_W12]
  show (_ : sProp 𝕄) ⊢ wp frame _ Set.univ (bodyAt12 t) _
  unfold bodyAt12
  obtain ⟨hb0, hb1, hb2, hb3, hb4, hb5, hb6⟩ := before12 V c t
  simp only [hb0, hb1, hb2, hb3, hb4, hb5, hb6]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel12 c Set.univ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Kernel.Net
-- ==== Proof.K.Fold.lean ====
import proofs.«420664_j68839735820523_2_alg».proof.Proof.K.Reg0
import proofs.«420664_j68839735820523_2_alg».proof.Proof.K.Reg1
import proofs.«420664_j68839735820523_2_alg».proof.Proof.K.Reg2
import proofs.«420664_j68839735820523_2_alg».proof.Proof.K.Reg3
import proofs.«420664_j68839735820523_2_alg».proof.Proof.K.Reg4
import proofs.«420664_j68839735820523_2_alg».proof.Proof.K.Reg5
import proofs.«420664_j68839735820523_2_alg».proof.Proof.K.Reg6
import proofs.«420664_j68839735820523_2_alg».proof.Proof.K.Reg7
import proofs.«420664_j68839735820523_2_alg».proof.Proof.K.Reg8
import proofs.«420664_j68839735820523_2_alg».proof.Proof.K.Reg9
import proofs.«420664_j68839735820523_2_alg».proof.Proof.K.Reg10
import proofs.«420664_j68839735820523_2_alg».proof.Proof.K.Reg11
import proofs.«420664_j68839735820523_2_alg».proof.Proof.K.Reg12
import proofs.«420664_j68839735820523_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m ((c : Dev nD), b)

abbrev W1 : Dev nD → Valuation τ sig (Elt F) := fun c => StableHlo.after hostOps0 (W0 m c)

abbrev E1 : (c : Dev nD) → (b : Ref sig .tc) → Buf (Elt F) ((c : Thread nD τ).loc b) := fun c b => W1 m c b

theorem W1_of (c : Dev nD) (r : Ref sig .tc) (h : r ∉ hostOps0_W) : W1 m c r = W0 m c r :=
  StableHlo.after_of_writes_sub hostOps0 _ hostOps0_writes h

def W2 (c : Dev nD) : Valuation τ sig (Elt F) :=
  Pipeline.withArrays spec0 c (W1 m c) fun w => (dat0 (E1 m) c).arrAt w cfg0.N

theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w

theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

theorem W2_in0 (c : Dev nD) : W2 m c (Proc.devRef .tc main_arg0) = W1 m c (Proc.devRef .tc main_arg0) :=
  (W2_arr m c 0).trans (((dat0 (E1 m) c).arrAt_in 0 rfl _).trans (A_eq0 (E1 m) c 0))

theorem W2_in1 (c : Dev nD) : W2 m c (Proc.devRef .tc main_arg3) = W1 m c (Proc.devRef .tc main_arg3) :=
  (W2_arr m c 1).trans (((dat0 (E1 m) c).arrAt_in 1 rfl _).trans (A_eq0 (E1 m) c 1))

theorem W2_out (c : Dev nD) : W2 m c (Proc.devRef .tc main_v13) = (dat0 (E1 m) c).arrAt 2 cfg0.N :=
  W2_arr m c 2

abbrev W3 : Dev nD → Valuation τ sig (Elt F) := fun c => StableHlo.after hostOps1 (W2 m c)

abbrev E3 : (c : Dev nD) → (b : Ref sig .tc) → Buf (Elt F) ((c : Thread nD τ).loc b) := fun c b => W3 m c b

theorem W3_of (c : Dev nD) (r : Ref sig .tc) (h : r ∉ hostOps1_W) : W3 m c r = W2 m c r :=
  StableHlo.after_of_writes_sub hostOps1 _ hostOps1_writes h

def W4 (c : Dev nD) : Valuation τ sig (Elt F) :=
  Pipeline.withArrays spec1 c (W3 m c) fun w => (dat1 (E3 m) c).arrAt w cfg1.N

theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w

theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

theorem W4_in2 (c : Dev nD) : W4 m c (Proc.devRef .tc main_v12) = W3 m c (Proc.devRef .tc main_v12) :=
  (W4_arr m c 2).trans (((dat1 (E3 m) c).arrAt_in 2 rfl _).trans (A_eq1 (E3 m) c 2))

theorem W4_out (c : Dev nD) : W4 m c (Proc.devRef .tc main_v43) = (dat1 (E3 m) c).arrAt 4 cfg1.N :=
  W4_arr m c 4

abbrev W5 : Dev nD → Valuation τ sig (Elt F) := fun c => StableHlo.after hostOps2 (W4 m c)

abbrev E5 : (c : Dev nD) → (b : Ref sig .tc) → Buf (Elt F) ((c : Thread nD τ).loc b) := fun c b => W5 m c b

theorem W5_of (c : Dev nD) (r : Ref sig .tc) (h : r ∉ hostOps2_W) : W5 m c r = W4 m c r :=
  StableHlo.after_of_writes_sub hostOps2 _ hostOps2_writes h

def W6 (c : Dev nD) : Valuation τ sig (Elt F) :=
  Pipeline.withArrays spec2 c (W5 m c) fun w => (dat2 (E5 m) c).arrAt w cfg2.N

theorem W6_arr (c : Dev nD) (w : Fin cfg2.W) :
    W6 m c (Proc.devRef .tc (Pipeline.arrRef spec2 w)) = (dat2 (E5 m) c).arrAt w cfg2.N := by
  unfold W6; exact Pipeline.withArrays_arr spec2 launch2.win.arr_inj c _ _ w

theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

theorem W6_out (c : Dev nD) : W6 m c (Proc.devRef .tc main_v48) = (dat2 (E5 m) c).arrAt 2 cfg2.N :=
  W6_arr m c 2

abbrev W7 : Dev nD → Valuation τ sig (Elt F) := fun c => StableHlo.after hostOps3 (W6 m c)

abbrev E7 : (c : Dev nD) → (b : Ref sig .tc) → Buf (Elt F) ((c : Thread nD τ).loc b) := fun c b => W7 m c b

theorem W7_of (c : Dev nD) (r : Ref sig .tc) (h : r ∉ hostOps3_W) : W7 m c r = W6 m c r :=
  StableHlo.after_of_writes_sub hostOps3 _ hostOps3_writes h

def W8 (c : Dev nD) : Valuation τ sig (Elt F) :=
  Pipeline.withArrays spec3 c (W7 m c) fun w => (dat3 (E7 m) c).arrAt w cfg3.N

theorem W8_arr (c : Dev nD) (w : Fin cfg3.W) :
    W8 m c (Proc.devRef .tc (Pipeline.arrRef spec3 w)) = (dat3 (E7 m) c).arrAt w cfg3.N := by
  unfold W8; exact Pipeline.withArrays_arr spec3 launch3.win.arr_inj c _ _ w

theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb

theorem W8_in2 (c : Dev nD) : W8 m c (Proc.devRef .tc main_v12) = W7 m c (Proc.devRef .tc main_v12) :=
  (W8_arr m c 2).trans (((dat3 (E7 m) c).arrAt_in 2 rfl _).trans (A_eq3 (E7 m) c 2))

theorem W8_out (c : Dev nD) : W8 m c (Proc.devRef .tc main_v78) = (dat3 (E7 m) c).arrAt 4 cfg3.N :=
  W8_arr m c 4

abbrev W9 : Dev nD → Valuation τ sig (Elt F) := fun c => StableHlo.after hostOps4 (W8 m c)

abbrev E9 : (c : Dev nD) → (b : Ref sig .tc) → Buf (Elt F) ((c : Thread nD τ).loc b) := fun c b => W9 m c b

theorem W9_of (c : Dev nD) (r : Ref sig .tc) (h : r ∉ hostOps4_W) : W9 m c r = W8 m c r :=
  StableHlo.after_of_writes_sub hostOps4 _ hostOps4_writes h

def W10 (c : Dev nD) : Valuation τ sig (Elt F) :=
  Pipeline.withArrays spec4 c (W9 m c) fun w => (dat4 (E9 m) c).arrAt w cfg4.N

theorem W10_arr (c : Dev nD) (w : Fin cfg4.W) :
    W10 m c (Proc.devRef .tc (Pipeline.arrRef spec4 w)) = (dat4 (E9 m) c).arrAt w cfg4.N := by
  unfold W10; exact Pipeline.withArrays_arr spec4 launch4.win.arr_inj c _ _ w

theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb

theorem W10_out (c : Dev nD) : W10 m c (Proc.devRef .tc main_v92) = (dat4 (E9 m) c).arrAt 5 cfg4.N :=
  W10_arr m c 5

abbrev W11 : Dev nD → Valuation τ sig (Elt F) := fun c => StableHlo.after hostOps5 (W10 m c)

abbrev E11 : (c : Dev nD) → (b : Ref sig .tc) → Buf (Elt F) ((c : Thread nD τ).loc b) := fun c b => W11 m c b

theorem W11_of (c : Dev nD) (r : Ref sig .tc) (h : r ∉ hostOps5_W) : W11 m c r = W10 m c r :=
  StableHlo.after_of_writes_sub hostOps5 _ hostOps5_writes h

def W12 (c : Dev nD) : Valuation τ sig (Elt F) :=
  Pipeline.withArrays spec5 c (W11 m c) fun w => (dat5 (E11 m) c).arrAt w cfg5.N

theorem W12_arr (c : Dev nD) (w : Fin cfg5.W) :
    W12 m c (Proc.devRef .tc (Pipeline.arrRef spec5 w)) = (dat5 (E11 m) c).arrAt w cfg5.N := by
  unfold W12; exact Pipeline.withArrays_arr spec5 launch5.win.arr_inj c _ _ w

theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb

theorem W12_out (c : Dev nD) : W12 m c (Proc.devRef .tc main_v97) = (dat5 (E11 m) c).arrAt 2 cfg5.N :=
  W12_arr m c 2

abbrev W13 : Dev nD → Valuation τ sig (Elt F) := fun c => StableHlo.after hostOps6 (W12 m c)

abbrev E13 : (c : Dev nD) → (b : Ref sig .tc) → Buf (Elt F) ((c : Thread nD τ).loc b) := fun c b => W13 m c b

theorem W13_of (c : Dev nD) (r : Ref sig .tc) (h : r ∉ hostOps6_W) : W13 m c r = W12 m c r :=
  StableHlo.after_of_writes_sub hostOps6 _ hostOps6_writes h

def W14 (c : Dev nD) : Valuation τ sig (Elt F) :=
  Pipeline.withArrays spec6 c (W13 m c) fun w => (dat6 (E13 m) c).arrAt w cfg6.N

theorem W14_arr (c : Dev nD) (w : Fin cfg6.W) :
    W14 m c (Proc.devRef .tc (Pipeline.arrRef spec6 w)) = (dat6 (E13 m) c).arrAt w cfg6.N := by
  unfold W14; exact Pipeline.withArrays_arr spec6 launch6.win.arr_inj c _ _ w

theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb

theorem W14_in2 (c : Dev nD) : W14 m c (Proc.devRef .tc main_v12) = W13 m c (Proc.devRef .tc main_v12) :=
  (W14_arr m c 2).trans (((dat6 (E13 m) c).arrAt_in 2 rfl _).trans (A_eq6 (E13 m) c 2))

theorem W14_out (c : Dev nD) : W14 m c (Proc.devRef .tc main_v127) = (dat6 (E13 m) c).arrAt 4 cfg6.N :=
  W14_arr m c 4

abbrev W15 : Dev nD → Valuation τ sig (Elt F) := fun c => StableHlo.after hostOps7 (W14 m c)

abbrev E15 : (c : Dev nD) → (b : Ref sig .tc) → Buf (Elt F) ((c : Thread nD τ).loc b) := fun c b => W15 m c b

theorem W15_of (c : Dev nD) (r : Ref sig .tc) (h : r ∉ hostOps7_W) : W15 m c r = W14 m c r :=
  StableHlo.after_of_writes_sub hostOps7 _ hostOps7_writes h

def W16 (c : Dev nD) : Valuation τ sig (Elt F) :=
  Pipeline.withArrays spec7 c (W15 m c) fun w => (dat7 (E15 m) c).arrAt w cfg7.N

theorem W16_arr (c : Dev nD) (w : Fin cfg7.W) :
    W16 m c (Proc.devRef .tc (Pipeline.arrRef spec7 w)) = (dat7 (E15 m) c).arrAt w cfg7.N := by
  unfold W16; exact Pipeline.withArrays_arr spec7 launch7.win.arr_inj c _ _ w

theorem W16_of_ne (c : Dev nD) (b : Ref sig .tc) (hb : ∀ w, Pipeline.arrRef spec7 w ≠ b) :
    W16 m c (Proc.devRef .tc b) = W15 m c (Proc.devRef .tc b) := by
  unfold W16; exact Pipeline.withArrays_of_ne spec7 c _ _ b hb

theorem W16_out (c : Dev nD) : W16 m c (Proc.devRef .tc main_v141) = (dat7 (E15 m) c).arrAt 5 cfg7.N :=
  W16_arr m c 5

abbrev W17 : Dev nD → Valuation τ sig (Elt F) := fun c => StableHlo.after hostOps8 (W16 m c)

abbrev E17 : (c : Dev nD) → (b : Ref sig .tc) → Buf (Elt F) ((c : Thread nD τ).loc b) := fun c b => W17 m c b

theorem W17_of (c : Dev nD) (r : Ref sig .tc) (h : r ∉ hostOps8_W) : W17 m c r = W16 m c r :=
  StableHlo.after_of_writes_sub hostOps8 _ hostOps8_writes h

def W18 (c : Dev nD) : Valuation τ sig (Elt F) :=
  Pipeline.withArrays spec8 c (W17 m c) fun w => (dat8 (E17 m) c).arrAt w cfg8.N

theorem W18_arr (c : Dev nD) (w : Fin cfg8.W) :
    W18 m c (Proc.devRef .tc (Pipeline.arrRef spec8 w)) = (dat8 (E17 m) c).arrAt w cfg8.N := by
  unfold W18; exact Pipeline.withArrays_arr spec8 launch8.win.arr_inj c _ _ w

theorem W18_of_ne (c : Dev nD) (b : Ref sig .tc) (hb : ∀ w, Pipeline.arrRef spec8 w ≠ b) :
    W18 m c (Proc.devRef .tc b) = W17 m c (Proc.devRef .tc b) := by
  unfold W18; exact Pipeline.withArrays_of_ne spec8 c _ _ b hb

theorem W18_out (c : Dev nD) : W18 m c (Proc.devRef .tc main_v146) = (dat8 (E17 m) c).arrAt 2 cfg8.N :=
  W18_arr m c 2

abbrev W19 : Dev nD → Valuation τ sig (Elt F) := fun c => StableHlo.after hostOps9 (W18 m c)

abbrev E19 : (c : Dev nD) → (b : Ref sig .tc) → Buf (Elt F) ((c : Thread nD τ).loc b) := fun c b => W19 m c b

theorem W19_of (c : Dev nD) (r : Ref sig .tc) (h : r ∉ hostOps9_W) : W19 m c r = W18 m c r :=
  StableHlo.after_of_writes_sub hostOps9 _ hostOps9_writes h

def W20 (c : Dev nD) : Valuation τ sig (Elt F) :=
  Pipeline.withArrays spec9 c (W19 m c) fun w => (dat9 (E19 m) c).arrAt w cfg9.N

theorem W20_arr (c : Dev nD) (w : Fin cfg9.W) :
    W20 m c (Proc.devRef .tc (Pipeline.arrRef spec9 w)) = (dat9 (E19 m) c).arrAt w cfg9.N := by
  unfold W20; exact Pipeline.withArrays_arr spec9 launch9.win.arr_inj c _ _ w

theorem W20_of_ne (c : Dev nD) (b : Ref sig .tc) (hb : ∀ w, Pipeline.arrRef spec9 w ≠ b) :
    W20 m c (Proc.devRef .tc b) = W19 m c (Proc.devRef .tc b) := by
  unfold W20; exact Pipeline.withArrays_of_ne spec9 c _ _ b hb

theorem W20_out (c : Dev nD) : W20 m c (Proc.devRef .tc main_v176) = (dat9 (E19 m) c).arrAt 4 cfg9.N :=
  W20_arr m c 4

abbrev W21 : Dev nD → Valuation τ sig (Elt F) := fun c => StableHlo.after hostOps10 (W20 m c)

abbrev E21 : (c : Dev nD) → (b : Ref sig .tc) → Buf (Elt F) ((c : Thread nD τ).loc b) := fun c b => W21 m c b

theorem W21_of (c : Dev nD) (r : Ref sig .tc) (h : r ∉ hostOps10_W) : W21 m c r = W20 m c r :=
  StableHlo.after_of_writes_sub hostOps10 _ hostOps10_writes h

def W22 (c : Dev nD) : Valuation τ sig (Elt F) :=
  Pipeline.withArrays spec10 c (W21 m c) fun w => (dat10 (E21 m) c).arrAt w cfg10.N

theorem W22_arr (c : Dev nD) (w : Fin cfg10.W) :
    W22 m c (Proc.devRef .tc (Pipeline.arrRef spec10 w)) = (dat10 (E21 m) c).arrAt w cfg10.N := by
  unfold W22; exact Pipeline.withArrays_arr spec10 launch10.win.arr_inj c _ _ w

theorem W22_of_ne (c : Dev nD) (b : Ref sig .tc) (hb : ∀ w, Pipeline.arrRef spec10 w ≠ b) :
    W22 m c (Proc.devRef .tc b) = W21 m c (Proc.devRef .tc b) := by
  unfold W22; exact Pipeline.withArrays_of_ne spec10 c _ _ b hb

theorem W22_out (c : Dev nD) : W22 m c (Proc.devRef .tc main_v190) = (dat10 (E21 m) c).arrAt 5 cfg10.N :=
  W22_arr m c 5

abbrev W23 : Dev nD → Valuation τ sig (Elt F) := fun c => StableHlo.after hostOps11 (W22 m c)

abbrev E23 : (c : Dev nD) → (b : Ref sig .tc) → Buf (Elt F) ((c : Thread nD τ).loc b) := fun c b => W23 m c b

theorem W23_of (c : Dev nD) (r : Ref sig .tc) (h : r ∉ hostOps11_W) : W23 m c r = W22 m c r :=
  StableHlo.after_of_writes_sub hostOps11 _ hostOps11_writes h

def W24 (c : Dev nD) : Valuation τ sig (Elt F) :=
  Pipeline.withArrays spec11 c (W23 m c) fun w => (dat11 (E23 m) c).arrAt w cfg11.N

theorem W24_arr (c : Dev nD) (w : Fin cfg11.W) :
    W24 m c (Proc.devRef .tc (Pipeline.arrRef spec11 w)) = (dat11 (E23 m) c).arrAt w cfg11.N := by
  unfold W24; exact Pipeline.withArrays_arr spec11 launch11.win.arr_inj c _ _ w

theorem W24_of_ne (c : Dev nD) (b : Ref sig .tc) (hb : ∀ w, Pipeline.arrRef spec11 w ≠ b) :
    W24 m c (Proc.devRef .tc b) = W23 m c (Proc.devRef .tc b) := by
  unfold W24; exact Pipeline.withArrays_of_ne spec11 c _ _ b hb

theorem W24_out (c : Dev nD) : W24 m c (Proc.devRef .tc main_v192) = (dat11 (E23 m) c).arrAt 2 cfg11.N :=
  W24_arr m c 2

abbrev W25 : Dev nD → Valuation τ sig (Elt F) := fun c => StableHlo.after hostOps12 (W24 m c)

abbrev E25 : (c : Dev nD) → (b : Ref sig .tc) → Buf (Elt F) ((c : Thread nD τ).loc b) := fun c b => W25 m c b

theorem W25_of (c : Dev nD) (r : Ref sig .tc) (h : r ∉ hostOps12_W) : W25 m c r = W24 m c r :=
  StableHlo.after_of_writes_sub hostOps12 _ hostOps12_writes h

def W26 (c : Dev nD) : Valuation τ sig (Elt F) :=
  Pipeline.withArrays spec12 c (W25 m c) fun w => (dat12 (E25 m) c).arrAt w cfg12.N

theorem W26_arr (c : Dev nD) (w : Fin cfg12.W) :
    W26 m c (Proc.devRef .tc (Pipeline.arrRef spec12 w)) = (dat12 (E25 m) c).arrAt w cfg12.N := by
  unfold W26; exact Pipeline.withArrays_arr spec12 launch12.win.arr_inj c _ _ w

theorem W26_of_ne (c : Dev nD) (b : Ref sig .tc) (hb : ∀ w, Pipeline.arrRef spec12 w ≠ b) :
    W26 m c (Proc.devRef .tc b) = W25 m c (Proc.devRef .tc b) := by
  unfold W26; exact Pipeline.withArrays_of_ne spec12 c _ _ b hb

theorem W26_in1 (c : Dev nD) : W26 m c (Proc.devRef .tc main_arg9) = W25 m c (Proc.devRef .tc main_arg9) :=
  (W26_arr m c 1).trans (((dat12 (E25 m) c).arrAt_in 1 rfl _).trans (A_eq12 (E25 m) c 1))

theorem W26_in3 (c : Dev nD) : W26 m c (Proc.devRef .tc main_arg11) = W25 m c (Proc.devRef .tc main_arg11) :=
  (W26_arr m c 3).trans (((dat12 (E25 m) c).arrAt_in 3 rfl _).trans (A_eq12 (E25 m) c 3))

theorem W26_in5 (c : Dev nD) : W26 m c (Proc.devRef .tc main_arg13) = W25 m c (Proc.devRef .tc main_arg13) :=
  (W26_arr m c 5).trans (((dat12 (E25 m) c).arrAt_in 5 rfl _).trans (A_eq12 (E25 m) c 5))

theorem W26_out (c : Dev nD) : W26 m c (Proc.devRef .tc main_v205) = (dat12 (E25 m) c).arrAt 7 cfg12.N :=
  W26_arr m c 7

theorem W26_keep (c : Dev nD) (r : Ref sig .tc)
    (hh : r ∉ hostOps0_W ∧ r ∉ hostOps1_W ∧ r ∉ hostOps2_W ∧ r ∉ hostOps3_W ∧ r ∉ hostOps4_W ∧ r ∉ hostOps5_W ∧ r ∉ hostOps6_W ∧ r ∉ hostOps7_W ∧ r ∉ hostOps8_W ∧ r ∉ hostOps9_W ∧ r ∉ hostOps10_W ∧ r ∉ hostOps11_W ∧ r ∉ hostOps12_W)
    (hn : (∀ w, Pipeline.arrRef spec1 w ≠ r) ∧ (∀ w, Pipeline.arrRef spec2 w ≠ r) ∧ (∀ w, Pipeline.arrRef spec3 w ≠ r) ∧ (∀ w, Pipeline.arrRef spec4 w ≠ r) ∧ (∀ w, Pipeline.arrRef spec5 w ≠ r) ∧ (∀ w, Pipeline.arrRef spec6 w ≠ r) ∧ (∀ w, Pipeline.arrRef spec7 w ≠ r) ∧ (∀ w, Pipeline.arrRef spec8 w ≠ r) ∧ (∀ w, Pipeline.arrRef spec9 w ≠ r) ∧ (∀ w, Pipeline.arrRef spec10 w ≠ r) ∧ (∀ w, Pipeline.arrRef spec11 w ≠ r))
    (h0 : W2 m c (Proc.devRef .tc r) = W1 m c (Proc.devRef .tc r))
    (h12 : W26 m c (Proc.devRef .tc r) = W25 m c (Proc.devRef .tc r)) :
    W26 m c (Proc.devRef .tc r) = m ((c : Thread nD τ).loc r) := by
  obtain ⟨a0, a1, a2, a3, a4, a5, a6, a7, a8, a9, a10, a11, a12⟩ := hh
  obtain ⟨b1, b2, b3, b4, b5, b6, b7, b8, b9, b10, b11⟩ := hn
  exact h12.trans <| (W25_of m c r a12).trans <| (W24_of_ne m c r b11).trans <| (W23_of m c r a11).trans <| (W22_of_ne m c r b10).trans <| (W21_of m c r a10).trans <| (W20_of_ne m c r b9).trans <| (W19_of m c r a9).trans <| (W18_of_ne m c r b8).trans <| (W17_of m c r a8).trans <| (W16_of_ne m c r b7).trans <| (W15_of m c r a7).trans <| (W14_of_ne m c r b6).trans <| (W13_of m c r a6).trans <| (W12_of_ne m c r b5).trans <| (W11_of m c r a5).trans <| (W10_of_ne m c r b4).trans <| (W9_of m c r a4).trans <| (W8_of_ne m c r b3).trans <| (W7_of m c r a3).trans <| (W6_of_ne m c r b2).trans <| (W5_of m c r a2).trans <| (W4_of_ne m c r b1).trans <| (W3_of m c r a1).trans <| h0.trans (W1_of m c r a0)

theorem W26_main_arg0 (c : Dev nD) : W26 m c (Proc.devRef .tc main_arg0) = m ((c : Thread nD τ).loc main_arg0) :=
  W26_keep m c main_arg0 (by decide) (by decide) (W2_in0 m c) (W26_of_ne m c _ (by decide))

theorem W26_main_arg1 (c : Dev nD) : W26 m c (Proc.devRef .tc main_arg1) = m ((c : Thread nD τ).loc main_arg1) :=
  W26_keep m c main_arg1 (by decide) (by decide) (W2_of_ne m c _ (by decide)) (W26_of_ne m c _ (by decide))

theorem W26_main_arg2 (c : Dev nD) : W26 m c (Proc.devRef .tc main_arg2) = m ((c : Thread nD τ).loc main_arg2) :=
  W26_keep m c main_arg2 (by decide) (by decide) (W2_of_ne m c _ (by decide)) (W26_of_ne m c _ (by decide))

theorem W26_main_arg3 (c : Dev nD) : W26 m c (Proc.devRef .tc main_arg3) = m ((c : Thread nD τ).loc main_arg3) :=
  W26_keep m c main_arg3 (by decide) (by decide) (W2_in1 m c) (W26_of_ne m c _ (by decide))

theorem W26_main_arg4 (c : Dev nD) : W26 m c (Proc.devRef .tc main_arg4) = m ((c : Thread nD τ).loc main_arg4) :=
  W26_keep m c main_arg4 (by decide) (by decide) (W2_of_ne m c _ (by decide)) (W26_of_ne m c _ (by decide))

theorem W26_main_arg5 (c : Dev nD) : W26 m c (Proc.devRef .tc main_arg5) = m ((c : Thread nD τ).loc main_arg5) :=
  W26_keep m c main_arg5 (by decide) (by decide) (W2_of_ne m c _ (by decide)) (W26_of_ne m c _ (by decide))

theorem W26_main_arg6 (c : Dev nD) : W26 m c (Proc.devRef .tc main_arg6) = m ((c : Thread nD τ).loc main_arg6) :=
  W26_keep m c main_arg6 (by decide) (by decide) (W2_of_ne m c _ (by decide)) (W26_of_ne m c _ (by decide))

theorem W26_main_arg7 (c : Dev nD) : W26 m c (Proc.devRef .tc main_arg7) = m ((c : Thread nD τ).loc main_arg7) :=
  W26_keep m c main_arg7 (by decide) (by decide) (W2_of_ne m c _ (by decide)) (W26_of_ne m c _ (by decide))

theorem W26_main_arg8 (c : Dev nD) : W26 m c (Proc.devRef .tc main_arg8) = m ((c : Thread nD τ).loc main_arg8) :=
  W26_keep m c main_arg8 (by decide) (by decide) (W2_of_ne m c _ (by decide)) (W26_of_ne m c _ (by decide))

theorem W26_main_arg9 (c : Dev nD) : W26 m c (Proc.devRef .tc main_arg9) = m ((c : Thread nD τ).loc main_arg9) :=
  W26_keep m c main_arg9 (by decide) (by decide) (W2_of_ne m c _ (by decide)) (W26_in1 m c)

theorem W26_main_arg10 (c : Dev nD) : W26 m c (Proc.devRef .tc main_arg10) = m ((c : Thread nD τ).loc main_arg10) :=
  W26_keep m c main_arg10 (by decide) (by decide) (W2_of_ne m c _ (by decide)) (W26_of_ne m c _ (by decide))

theorem W26_main_arg11 (c : Dev nD) : W26 m c (Proc.devRef .tc main_arg11) = m ((c : Thread nD τ).loc main_arg11) :=
  W26_keep m c main_arg11 (by decide) (by decide) (W2_of_ne m c _ (by decide)) (W26_in3 m c)

theorem W26_main_arg12 (c : Dev nD) : W26 m c (Proc.devRef .tc main_arg12) = m ((c : Thread nD τ).loc main_arg12) :=
  W26_keep m c main_arg12 (by decide) (by decide) (W2_of_ne m c _ (by decide)) (W26_of_ne m c _ (by decide))

theorem W26_main_arg13 (c : Dev nD) : W26 m c (Proc.devRef .tc main_arg13) = m ((c : Thread nD τ).loc main_arg13) :=
  W26_keep m c main_arg13 (by decide) (by decide) (W2_of_ne m c _ (by decide)) (W26_in5 m c)

theorem W26_main_arg14 (c : Dev nD) : W26 m c (Proc.devRef .tc main_arg14) = m ((c : Thread nD τ).loc main_arg14) :=
  W26_keep m c main_arg14 (by decide) (by decide) (W2_of_ne m c _ (by decide)) (W26_of_ne m c _ (by decide))

end Cert.Kernel.Net

end
-- ==== Proof.K.Run.lean ====
import proofs.«420664_j68839735820523_2_alg».proof.Proof.K.Fold

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev admN : (p : Fin 13) → (pcfgs (F := F) p).Adm := fun p => (cfgs p).toPCfg_adm

def pdatsN : (p : Fin 13) → (c : Dev nD) → Dat τ (Elt F) Unit ℕ (UR sig nD τ) ℕ (Pipeline.pin (pcfgs (F := F)) admN p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c
  | ⟨6, _⟩ => fun c => dat6 (E13 m) c
  | ⟨7, _⟩ => fun c => dat7 (E15 m) c
  | ⟨8, _⟩ => fun c => dat8 (E17 m) c
  | ⟨9, _⟩ => fun c => dat9 (E19 m) c
  | ⟨10, _⟩ => fun c => dat10 (E21 m) c
  | ⟨11, _⟩ => fun c => dat11 (E23 m) c
  | ⟨12, _⟩ => fun c => dat12 (E25 m) c

abbrev 𝒱N : Variants := Variants.none

abbrev LN : GSem nD τ sig → Finset Unit := fun _ => ∅

abbrev lvN : GSem nD τ sig → Unit → ℕ := fun _ _ => 0

abbrev RN (c : Dev nD) : sProp 𝕄 := iprop((∃ r, prngReg c r) ∗ ∃ W, owes (c : Thread nD τ) (0 : CellTallies nD τ sig Unit) W)

abbrev hsegN (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱N LN lvN :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RN

theorem mem_ucN (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev TnN (c : Dev nD) : sProp 𝕄 := iprop(StableHlo.held (c : Thread nD τ) (Pipeline.ucRefs τ sig) (W26 m c) ∗ ∃ r, prngReg c r)

theorem ΦA_in {gr W : ℕ} (win : Fin W → Pipeline.WinSpec sig gr) (c : Dev nD) :
    (iprop((∃ r, prngReg c r) ∗ Pipeline.scopedRest (Ix := Unit) (Name := ℕ) (U := UR sig nD τ) (Lvl := ℕ) win c) : sProp 𝕄) ⊢ Pipeline.ΦA win c := by
  unfold Pipeline.ΦA
  iintro ⟨Hp, Hr⟩
  isplitl [Hr]; · iexact Hr
  iexact Hp

theorem ΦA_out {gr W : ℕ} (win : Fin W → Pipeline.WinSpec sig gr) (c : Dev nD) :
    Pipeline.ΦA win c ⊢ (iprop((∃ r, prngReg c r) ∗ Pipeline.scopedRest (Ix := Unit) (Name := ℕ) (U := UR sig nD τ) (Lvl := ℕ) win c) : sProp 𝕄) := by
  unfold Pipeline.ΦA
  iintro ⟨Hr, Hp⟩
  isplitl [Hp]; · iexact Hp
  iexact Hr

set_option backward.isDefEq.respectTransparency.types false in
def regOf (p : Fin 13) (L : Pipeline.LaunchFacts (nD := nD) (τ := τ) cfgs p) (Win Wout : Dev nD → Valuation τ sig (Elt F))
    (hbody : ∀ c, BodyObligation (pdatsN m p c) (defs₀ (F := F)) Variants.none () Set.univ)
    (hq : ∀ c w, (pdatsN m p c).q w = fullShare) (howed : ∀ c t, (pdatsN m p c).owed t = 0)
    (hrec : ∀ c, (pdatsN m p c).recorded 0 = Set.univ)
    (hin : ∀ c, (iprop((∃ r, prngReg c r) ∗ Pipeline.scopedRest (Ix := Unit) (Name := ℕ) (U := UR sig nD τ) (Lvl := ℕ) (cfgs p).spec c) : sProp 𝕄) ⊢ (pdatsN m p c).Φ 0)
    (hout : ∀ c, (pdatsN m p c).Φ (Fin.last _) ⊢ (iprop((∃ r, prngReg c r) ∗ Pipeline.scopedRest (Ix := Unit) (Name := ℕ) (U := UR sig nD τ) (Lvl := ℕ) (cfgs p).spec c) : sProp 𝕄))
    (hA : ∀ c w, (pdatsN m p c).A w = Win c (Proc.devRef .tc (Pipeline.arrRef (cfgs p).spec w)))
    (harr : ∀ c w, Wout c (Proc.devRef .tc (Pipeline.arrRef (cfgs p).spec w)) = (pdatsN m p c).arrAt w (cfgs p).N)
    (hne : ∀ c (b : Ref sig .tc), (∀ w, Pipeline.arrRef (cfgs p).spec w ≠ b) → Wout c (Proc.devRef .tc b) = Win c (Proc.devRef .tc b)) :
    Pipeline.RegionSeg (pcfgs (F := F)) admN (pdatsN m) () defs₀ 𝒱N LN lvN p where
  win := L.win.to₀
  block_pos := L.block_pos
  stage_whole := L.stage_whole
  K := PEmpty
  osem k := k.elim
  ho := Pipeline.OwnSemFacts.none _
  hbody c := (hbody c).loose
  hwaits := Pipeline.hwaits_of_owed_zero _ _ _ _ LN lvN p howed
  pre c := iprop(StableHlo.held (c : Thread nD τ) (Pipeline.ucRefs τ sig) (Win c) ∗ RN c)
  post c := iprop(StableHlo.held (c : Thread nD τ) (Pipeline.ucRefs τ sig) (Wout c) ∗ RN c)
  X c := iprop(∃ r, prngReg c r)
  Y c := iprop(∃ r, prngReg c r)
  Z c := Pipeline.unscopedRest (Ix := Unit) (Name := ℕ) (U := UR sig nD τ) (Lvl := ℕ) (cfgs p).spec c (fun b => Win c (Proc.devRef .tc b))
  hentry c := by
    rw [Pipeline.ownSems0_none]
    have hsplit := Pipeline.arrays_of_unscopedBufs (p := p) (pcfgs (F := F)) admN (pdatsN m) L.win L.arr_whole c
      ((pdatsN m p c).share_full (hq c)) (fun b => Win c (Proc.devRef .tc b)) (hA c)
    rw [Pipeline.unscopedBufs_held c (Win c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun _ _ => Or.inl ((hrec c).symm ▸ Set.mem_univ _)
      iexact HO
    isplitl [Hp]; · iexact Hp
    iexact Hrest
  hin c := by
    iintro ⟨Hp, -, Hr⟩
    iapply (hin c)
    isplitl [Hp]; · iexact Hp
    iexact Hr
  hout c := by
    rw [Pipeline.ownSems0_none]
    iintro H
    ihave H' := (hout c) $$ H
    icases H' with ⟨Hp, Hr⟩
    isplitl [Hp]; · iexact Hp
    isplitr; · iempintro
    iexact Hr
  hexit c := by
    have hjoin := Pipeline.unscopedBufs_of_arrays (p := p) (pcfgs (F := F)) admN (Ix := Unit) (Name := ℕ) (U := UR sig nD τ) (Lvl := ℕ)
      L.win L.arr_whole c (pdatsN m) ((pdatsN m p c).share_full (hq c))
      (fun b => Win c (Proc.devRef .tc b)) (fun b => Wout c (Proc.devRef .tc b)) ((pdatsN m p c).arrAt · (cfgs p).N) (fun w => (harr c w).symm)
      (fun b hb => hne c b fun w e => hb (Finset.mem_image.mpr ⟨w, Finset.mem_univ _, e⟩))
    rw [Pipeline.unscopedBufs_held c (Wout c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

def regN0 := regOf m 0 launch0 (W1 m) (W2 m) (body_obligation0 (E1 m)) (fun _ _ => rfl) (fun _ _ => rfl) (fun _ => rfl) (ΦA_in _) (ΦA_out _) (fun _ _ => rfl) (W2_arr m) (W2_of_ne m)

def regN1 := regOf m 1 launch1 (W3 m) (W4 m) (body_obligation1 (E3 m)) (fun _ _ => rfl) (fun _ _ => rfl) (fun _ => rfl) (ΦA_in _) (ΦA_out _) (fun _ _ => rfl) (W4_arr m) (W4_of_ne m)

def regN2 := regOf m 2 launch2 (W5 m) (W6 m) (body_obligation2 (E5 m)) (fun _ _ => rfl) (fun _ _ => rfl) (fun _ => rfl) (ΦA_in _) (ΦA_out _) (fun _ _ => rfl) (W6_arr m) (W6_of_ne m)

def regN3 := regOf m 3 launch3 (W7 m) (W8 m) (body_obligation3 (E7 m)) (fun _ _ => rfl) (fun _ _ => rfl) (fun _ => rfl) (ΦA_in _) (ΦA_out _) (fun _ _ => rfl) (W8_arr m) (W8_of_ne m)

def regN4 := regOf m 4 launch4 (W9 m) (W10 m) (body_obligation4 (E9 m)) (fun _ _ => rfl) (fun _ _ => rfl) (fun _ => rfl) (ΦA_in _) (ΦA_out _) (fun _ _ => rfl) (W10_arr m) (W10_of_ne m)

def regN5 := regOf m 5 launch5 (W11 m) (W12 m) (body_obligation5 (E11 m)) (fun _ _ => rfl) (fun _ _ => rfl) (fun _ => rfl) (ΦA_in _) (ΦA_out _) (fun _ _ => rfl) (W12_arr m) (W12_of_ne m)

def regN6 := regOf m 6 launch6 (W13 m) (W14 m) (body_obligation6 (E13 m)) (fun _ _ => rfl) (fun _ _ => rfl) (fun _ => rfl) (ΦA_in _) (ΦA_out _) (fun _ _ => rfl) (W14_arr m) (W14_of_ne m)

def regN7 := regOf m 7 launch7 (W15 m) (W16 m) (body_obligation7 (E15 m)) (fun _ _ => rfl) (fun _ _ => rfl) (fun _ => rfl) (ΦA_in _) (ΦA_out _) (fun _ _ => rfl) (W16_arr m) (W16_of_ne m)

def regN8 := regOf m 8 launch8 (W17 m) (W18 m) (body_obligation8 (E17 m)) (fun _ _ => rfl) (fun _ _ => rfl) (fun _ => rfl) (ΦA_in _) (ΦA_out _) (fun _ _ => rfl) (W18_arr m) (W18_of_ne m)

def regN9 := regOf m 9 launch9 (W19 m) (W20 m) (body_obligation9 (E19 m)) (fun _ _ => rfl) (fun _ _ => rfl) (fun _ => rfl) (ΦA_in _) (ΦA_out _) (fun _ _ => rfl) (W20_arr m) (W20_of_ne m)

def regN10 := regOf m 10 launch10 (W21 m) (W22 m) (body_obligation10 (E21 m)) (fun _ _ => rfl) (fun _ _ => rfl) (fun _ => rfl) (ΦA_in _) (ΦA_out _) (fun _ _ => rfl) (W22_arr m) (W22_of_ne m)

def regN11 := regOf m 11 launch11 (W23 m) (W24 m) (body_obligation11 (E23 m)) (fun _ _ => rfl) (fun _ _ => rfl) (fun _ => rfl) (hin11 (E23 m)) (hout11 (E23 m)) (fun _ _ => rfl) (W24_arr m) (W24_of_ne m)

def regN12 := regOf m 12 launch12 (W25 m) (W26 m) (body_obligation12 (E25 m)) (fun _ _ => rfl) (fun _ _ => rfl) (fun _ => rfl) (ΦA_in _) (ΦA_out _) (fun _ _ => rfl) (W26_arr m) (W26_of_ne m)

abbrev segsN : List (Pipeline.Seg (pcfgs (F := F)) admN (pdatsN m) () defs₀ 𝒱N LN lvN) :=
  [ .host (hsegN hostOps0 hostOps0_sub hostOps0_fresh (W0 m)),
    .region (regN0 m),
    .host (hsegN hostOps1 hostOps1_sub hostOps1_fresh (W2 m)),
    .region (regN1 m),
    .host (hsegN hostOps2 hostOps2_sub hostOps2_fresh (W4 m)),
    .region (regN2 m),
    .host (hsegN hostOps3 hostOps3_sub hostOps3_fresh (W6 m)),
    .region (regN3 m),
    .host (hsegN hostOps4 hostOps4_sub hostOps4_fresh (W8 m)),
    .region (regN4 m),
    .host (hsegN hostOps5 hostOps5_sub hostOps5_fresh (W10 m)),
    .region (regN5 m),
    .host (hsegN hostOps6 hostOps6_sub hostOps6_fresh (W12 m)),
    .region (regN6 m),
    .host (hsegN hostOps7 hostOps7_sub hostOps7_fresh (W14 m)),
    .region (regN7 m),
    .host (hsegN hostOps8 hostOps8_sub hostOps8_fresh (W16 m)),
    .region (regN8 m),
    .host (hsegN hostOps9 hostOps9_sub hostOps9_fresh (W18 m)),
    .region (regN9 m),
    .host (hsegN hostOps10 hostOps10_sub hostOps10_fresh (W20 m)),
    .region (regN10 m),
    .host (hsegN hostOps11 hostOps11_sub hostOps11_fresh (W22 m)),
    .region (regN11 m),
    .host (hsegN hostOps12 hostOps12_sub hostOps12_fresh (W24 m)),
    .region (regN12 m) ]

theorem main_runN (c : Dev nD) : main (F := F) c = Pipeline.Seg.run (segsN m) := (main_chain c).trans (by chain_rfl)

set_option backward.isDefEq.respectTransparency.types false in
theorem run : θ_run defs (onTc (τ := τ) (main (F := F))) ⟨m, fun _ => 0, ρ⟩ (fun r => ∀ c : Dev nD,
      r.2.mem ((c.tc : Thread nD τ).loc main_v205) = W26 m c (Proc.devRef .tc main_v205)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) admN (pdatsN m) () cellOf_inj emb₁ defs₀ 𝒱N LN lvN m ρ main (segsN m)
    (fun c Q => by rw [main_runN m c])
    (by simp only [segsN, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RN c)) (Tₙ := TnN m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W26 m c) ∗ RN c) ⊢ iprop(TnN m c ∗ ∃ W, owes (c : Thread nD τ) (0 : CellTallies nD τ sig Unit) W)
      iintro ⟨Hh, Hp, HO⟩
      isplitl [Hh Hp]
      · isplitl [Hh]
        · iexact Hh
        iexact Hp
      iexact HO⟩)
    (hinit := by
      refine Pipeline.initEach LN lvN fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m c b)
    (hfin := fun c s' => by
      iintro ⟨⟨Hh, -⟩, HSI⟩
      unfold StableHlo.held
      imodintro
      iapply (pointsTo_read_all (Pipeline.ucRefs τ sig) (fun b => (((c : Thread nD τ)).1, b)) (W26 m c) s')
      isplitl [Hh] <;> iassumption)
    (hQ := fun s h c =>
      ⟨h c _ (mem_ucN main_v205 (by decide)),
       (h c _ (mem_ucN main_arg0 (by decide))).trans (W26_main_arg0 m c),
       (h c _ (mem_ucN main_arg1 (by decide))).trans (W26_main_arg1 m c),
       (h c _ (mem_ucN main_arg2 (by decide))).trans (W26_main_arg2 m c),
       (h c _ (mem_ucN main_arg3 (by decide))).trans (W26_main_arg3 m c),
       (h c _ (mem_ucN main_arg4 (by decide))).trans (W26_main_arg4 m c),
       (h c _ (mem_ucN main_arg5 (by decide))).trans (W26_main_arg5 m c),
       (h c _ (mem_ucN main_arg6 (by decide))).trans (W26_main_arg6 m c),
       (h c _ (mem_ucN main_arg7 (by decide))).trans (W26_main_arg7 m c),
       (h c _ (mem_ucN main_arg8 (by decide))).trans (W26_main_arg8 m c),
       (h c _ (mem_ucN main_arg9 (by decide))).trans (W26_main_arg9 m c),
       (h c _ (mem_ucN main_arg10 (by decide))).trans (W26_main_arg10 m c),
       (h c _ (mem_ucN main_arg11 (by decide))).trans (W26_main_arg11 m c),
       (h c _ (mem_ucN main_arg12 (by decide))).trans (W26_main_arg12 m c),
       (h c _ (mem_ucN main_arg13 (by decide))).trans (W26_main_arg13 m c),
       (h c _ (mem_ucN main_arg14 (by decide))).trans (W26_main_arg14 m c)⟩)

end Cert.Kernel.Net

end
-- ==== Proof.KI.Reg0.lean ====
import proofs.«420664_j68839735820523_2_alg».proof.Proof.Gen.KernelIdeal.Launch
import proofs.«420664_j68839735820523_2_alg».proof.Proof.Gen.KernelIdeal.Skeleton
import proofs.«420664_j68839735820523_2_alg».proof.Proof.Gen.KernelIdeal.Points
import Idealize.ShloMosaic.Lib.Pipeline.FrameBody
import Idealize.ShloMosaic.Lib.Tactic

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0

abbrev r0_1 : Rect S128x64 := Rect.unit (s := S128x64) ![0, 0] S128x64.size inb_S128x64_S128x64_0_0

abbrev r0_2 : Rect S5000x64 := Rect.unit (s := S5000x64) ![0, 0] S5000x64.size inb_S5000x64_S5000x64_0_0

def out0_2 (x0 : Vec F S5000x128 .f32) (x1 : Vec F S128x64 .f32) : Vec F S5000x64 .f32 :=
  View.canon [⟨r0_2, k0_pay1 (View.ld x0 r0_0) (View.ld x1 r0_1)⟩]

theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

set_option maxHeartbeats 1000000 in
theorem sound_kernel0 (c : Dev nD) (E : Set ℕ) (i : grid0.Coords) (ax : Memref sig .tc .vmem S5000x128 .f32) (hax : ax.IsWhole) (aw : Memref sig .tc .vmem S128x64 .f32) (haw : aw.IsWhole) (ay : Memref sig .tc .vmem S5000x64 .f32) (hay : ay.IsWhole)
    (x0 : Vec F S5000x128 .f32) (x1 : Vec F S128x64 .f32) (K : PUnit → sProp 𝕄) :
    iprop(owns (c : Thread nD τ) ax fullShare x0 ∗ owns (c : Thread nD τ) aw fullShare x1 ∗ (∃ d, owns (c : Thread nD τ) ay fullShare d)
        ∗ (iprop(owns (c : Thread nD τ) ax fullShare x0 ∗ owns (c : Thread nD τ) aw fullShare x1 ∗ owns (c : Thread nD τ) ay fullShare (out0_2 x0 x1)) -∗ K ⟨⟩))
      ⊢ wp frame (wpE (defs₀ (F := F)) Variants.none c none) E (cc0__linear_kernel i ax hax aw haw ay hay) K := by
  simp only [cc0__linear_kernel_eq_skeleton]; unfold cc0__linear_kernel_skel
  unfold owns
  iintro ⟨⟨%fx, %hfx, Hx⟩, ⟨%fw, %hfw, Hw⟩, ⟨%dy, %fy, -, Hy⟩, Hk⟩
  subst hfx hfw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Hy
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]

theorem after0_1 (c : Dev nD) (t : Fin cfg0.N) : (dat0 V c).after 1 t = iblk0 V c 1 t := by dsimp only [dat0]

theorem after0_2 (c : Dev nD) (t : Fin cfg0.N) : (dat0 V c).after 2 t = out0_2 (iblk0 V c 0 t) (iblk0 V c 1 t) := by dsimp only [dat0]

theorem before0 (c : Dev nD) (t : Fin cfg0.N) :
    (∀ d, (dat0 V c).before 0 t d = iblk0 V c 0 t) ∧
    (∀ d, (dat0 V c).before 1 t d = iblk0 V c 1 t) := by
  refine ⟨?_, ?_⟩ <;> intro d <;>
    exact ((dat0 V c).before_in_eq_fetched _ rfl (fun _ => rfl) (fun _ _ _ => rfl)
      (fun t => by rw [show (dat0 V c).after _ t = iblk0 V c _ t from rfl]; unfold Dat.blockOf iblk0; rw [A_eq0]; try rfl) t d).trans
      (by unfold Dat.fetched Dat.blockOf iblk0; rw [A_eq0]; try rfl)

theorem body_obligation0 (c : Dev nD) : BodyObligation (dat0 (F := F) V c) (defs₀ (F := F)) Variants.none () Set.univ := fun t => by
  rw [bigSep_W0, bigSep_W0]
  show (_ : sProp 𝕄) ⊢ wp frame _ Set.univ (bodyAt0 t) _
  unfold bodyAt0
  obtain ⟨hb0, hb1⟩ := before0 V c t
  simp only [hb0, hb1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%dx, Hx⟩, ⟨%dw, Hw⟩, ⟨%dy, Hy⟩⟩
  iapply (sound_kernel0 c Set.univ _ _ _ _ _ _ _ (iblk0 V c 0 t) (iblk0 V c 1 t) _)
  isplitl [Hx]; · iexact Hx
  isplitl [Hw]; · iexact Hw
  isplitl [Hy]; · iexists _; iexact Hy
  iintro ⟨Hx, Hw, Hy⟩
  isplitl [HΦ]; · iexact HΦ
  isplitl [Ho]; · iexact Ho
  isplitl [Hx]; · iexact Hx
  isplitl [Hw]; · iexact Hw
  iexact Hy

end Cert.KernelIdeal.Net
-- ==== Proof.KI.Reg1.lean ====
import proofs.«420664_j68839735820523_2_alg».proof.Proof.Gen.KernelIdeal.Launch
import proofs.«420664_j68839735820523_2_alg».proof.Proof.Gen.KernelIdeal.Skeleton
import proofs.«420664_j68839735820523_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x64 := Rect.unit (s := S5000x64) ![0, 0] S5000x64.size inb_S5000x64_S5000x64_0_0

abbrev r1_2 : Rect S5000x1 := Rect.unit (s := S5000x1) ![0, 0] S5000x1.size inb_S5000x1_S5000x1_0_0

abbrev r1_3 : Rect S1x64 := Rect.unit (s := S1x64) ![0, 0] S1x64.size inb_S1x64_S1x64_0_0

def out1_4 (x0 : Vec F S5000x64 .f32) (x1 : Vec F S5000x64 .f32) (x2 : Vec F S5000x1 .f32) (x3 : Vec F S1x64 .f32) : Vec F S5000x64 .f32 :=
  View.canon [⟨r1_0, k1_pay1 (View.ld x0 r1_0) (View.ld x1 r1_0) (View.ld x2 r1_2) (View.ld x3 r1_3)⟩]

theorem cover1_4 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

set_option maxHeartbeats 1000000 in
theorem sound_kernel1 (c : Dev nD) (E : Set ℕ) (i : grid1.Coords)
    (arg0 : Memref sig .tc .vmem S5000x64 .f32) (harg0 : arg0.IsWhole) (arg1 : Memref sig .tc .vmem S5000x64 .f32) (harg1 : arg1.IsWhole)
    (arg2 : Memref sig .tc .vmem S5000x1 .f32) (harg2 : arg2.IsWhole) (arg3 : Memref sig .tc .vmem S1x64 .f32) (harg3 : arg3.IsWhole)
    (arg4 : Memref sig .tc .vmem S5000x64 .f32) (harg4 : arg4.IsWhole)
    (x0 : Vec F S5000x64 .f32) (x1 : Vec F S5000x64 .f32) (x2 : Vec F S5000x1 .f32) (x3 : Vec F S1x64 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__combine_relu_kernel i arg0 harg0 arg1 harg1 arg2 harg2 arg3 harg3 arg4 harg4) K := by
  simp only [cc1__combine_relu_kernel_eq_skeleton]; unfold cc1__combine_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]

theorem after1_1 (c : Dev nD) (t : Fin cfg1.N) : (dat1 V c).after 1 t = iblk1 V c 1 t := by dsimp only [dat1]

theorem after1_2 (c : Dev nD) (t : Fin cfg1.N) : (dat1 V c).after 2 t = iblk1 V c 2 t := by dsimp only [dat1]

theorem after1_3 (c : Dev nD) (t : Fin cfg1.N) : (dat1 V c).after 3 t = iblk1 V c 3 t := by dsimp only [dat1]

theorem after1_4 (c : Dev nD) (t : Fin cfg1.N) :
    (dat1 V c).after 4 t = out1_4 (iblk1 V c 0 t) (iblk1 V c 1 t) (iblk1 V c 2 t) (iblk1 V c 3 t) := by dsimp only [dat1]

theorem before1 (c : Dev nD) (t : Fin cfg1.N) :
    (∀ d, (dat1 V c).before 0 t d = iblk1 V c 0 t) ∧
    (∀ d, (dat1 V c).before 1 t d = iblk1 V c 1 t) ∧
    (∀ d, (dat1 V c).before 2 t d = iblk1 V c 2 t) ∧
    (∀ d, (dat1 V c).before 3 t d = iblk1 V c 3 t) := by
  refine ⟨?_, ?_, ?_, ?_⟩ <;> intro d <;>
    exact ((dat1 V c).before_in_eq_fetched _ rfl (fun _ => rfl) (fun _ _ _ => rfl)
      (fun t => by rw [show (dat1 V c).after _ t = iblk1 V c _ t from rfl]; unfold Dat.blockOf iblk1; rw [A_eq1]; try rfl) t d).trans
      (by unfold Dat.fetched Dat.blockOf iblk1; rw [A_eq1]; try rfl)

theorem body_obligation1 (c : Dev nD) : BodyObligation (dat1 (F := F) V c) (defs₀ (F := F)) Variants.none () Set.univ := fun t => by
  rw [bigSep_W1, bigSep_W1]
  show (_ : sProp 𝕄) ⊢ wp frame _ Set.univ (bodyAt1 t) _
  unfold bodyAt1
  obtain ⟨hb0, hb1, hb2, hb3⟩ := before1 V c t
  simp only [hb0, hb1, hb2, hb3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.KernelIdeal.Net
-- ==== Proof.KI.Reg2.lean ====
import proofs.«420664_j68839735820523_2_alg».proof.Proof.Gen.KernelIdeal.Launch
import proofs.«420664_j68839735820523_2_alg».proof.Proof.Gen.KernelIdeal.Skeleton
import proofs.«420664_j68839735820523_2_alg».proof.Proof.Gen.KernelIdeal.Points
import Idealize.ShloMosaic.Lib.Pipeline.FrameBody
import Idealize.ShloMosaic.Lib.Tactic

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x64 := Rect.unit (s := S5000x64) ![0, 0] S5000x64.size inb_S5000x64_S5000x64_0_0

abbrev r2_1 : Rect S64x64 := Rect.unit (s := S64x64) ![0, 0] S64x64.size inb_S64x64_S64x64_0_0

abbrev r2_2 : Rect S5000x64 := Rect.unit (s := S5000x64) ![0, 0] S5000x64.size inb_S5000x64_S5000x64_0_0

def out2_2 (x0 : Vec F S5000x64 .f32) (x1 : Vec F S64x64 .f32) : Vec F S5000x64 .f32 :=
  View.canon [⟨r2_2, k2_pay1 (View.ld x0 r2_0) (View.ld x1 r2_1)⟩]

theorem cover2_2 (p0 : Vec F S5000x64 .f32) (y : S5000x64.Idx) :
    ∃ pc ∈ ([⟨r2_2, p0⟩] : List (View.Piece (Elt F) S5000x64 .f32)), y ∈ pc.1.set :=
  View.cover_of_tiled [⟨r2_2, p0⟩] S5000x64.size (by rfl) y

set_option maxHeartbeats 1000000 in
theorem sound_kernel2 (c : Dev nD) (E : Set ℕ) (i : grid2.Coords) (ax : Memref sig .tc .vmem S5000x64 .f32) (hax : ax.IsWhole) (aw : Memref sig .tc .vmem S64x64 .f32) (haw : aw.IsWhole) (ay : Memref sig .tc .vmem S5000x64 .f32) (hay : ay.IsWhole)
    (x0 : Vec F S5000x64 .f32) (x1 : Vec F S64x64 .f32) (K : PUnit → sProp 𝕄) :
    iprop(owns (c : Thread nD τ) ax fullShare x0 ∗ owns (c : Thread nD τ) aw fullShare x1 ∗ (∃ d, owns (c : Thread nD τ) ay fullShare d)
        ∗ (iprop(owns (c : Thread nD τ) ax fullShare x0 ∗ owns (c : Thread nD τ) aw fullShare x1 ∗ owns (c : Thread nD τ) ay fullShare (out2_2 x0 x1)) -∗ K ⟨⟩))
      ⊢ wp frame (wpE (defs₀ (F := F)) Variants.none c none) E (cc2__linear_kernel i ax hax aw haw ay hay) K := by
  simp only [cc2__linear_kernel_eq_skeleton]; unfold cc2__linear_kernel_skel
  unfold owns
  iintro ⟨⟨%fx, %hfx, Hx⟩, ⟨%fw, %hfw, Hw⟩, ⟨%dy, %fy, -, Hy⟩, Hk⟩
  subst hfx hfw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Hy
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]

theorem after2_1 (c : Dev nD) (t : Fin cfg2.N) : (dat2 V c).after 1 t = iblk2 V c 1 t := by dsimp only [dat2]

theorem after2_2 (c : Dev nD) (t : Fin cfg2.N) : (dat2 V c).after 2 t = out2_2 (iblk2 V c 0 t) (iblk2 V c 1 t) := by dsimp only [dat2]

theorem before2 (c : Dev nD) (t : Fin cfg2.N) :
    (∀ d, (dat2 V c).before 0 t d = iblk2 V c 0 t) ∧
    (∀ d, (dat2 V c).before 1 t d = iblk2 V c 1 t) := by
  refine ⟨?_, ?_⟩ <;> intro d <;>
    exact ((dat2 V c).before_in_eq_fetched _ rfl (fun _ => rfl) (fun _ _ _ => rfl)
      (fun t => by rw [show (dat2 V c).after _ t = iblk2 V c _ t from rfl]; unfold Dat.blockOf iblk2; rw [A_eq2]; try rfl) t d).trans
      (by unfold Dat.fetched Dat.blockOf iblk2; rw [A_eq2]; try rfl)

theorem body_obligation2 (c : Dev nD) : BodyObligation (dat2 (F := F) V c) (defs₀ (F := F)) Variants.none () Set.univ := fun t => by
  rw [bigSep_W2, bigSep_W2]
  show (_ : sProp 𝕄) ⊢ wp frame _ Set.univ (bodyAt2 t) _
  unfold bodyAt2
  obtain ⟨hb0, hb1⟩ := before2 V c t
  simp only [hb0, hb1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%dx, Hx⟩, ⟨%dw, Hw⟩, ⟨%dy, Hy⟩⟩
  iapply (sound_kernel2 c Set.univ _ _ _ _ _ _ _ (iblk2 V c 0 t) (iblk2 V c 1 t) _)
  isplitl [Hx]; · iexact Hx
  isplitl [Hw]; · iexact Hw
  isplitl [Hy]; · iexists _; iexact Hy
  iintro ⟨Hx, Hw, Hy⟩
  isplitl [HΦ]; · iexact HΦ
  isplitl [Ho]; · iexact Ho
  isplitl [Hx]; · iexact Hx
  isplitl [Hw]; · iexact Hw
  iexact Hy

end Cert.KernelIdeal.Net
-- ==== Proof.KI.Reg3.lean ====
import proofs.«420664_j68839735820523_2_alg».proof.Proof.Gen.KernelIdeal.Launch
import proofs.«420664_j68839735820523_2_alg».proof.Proof.Gen.KernelIdeal.Skeleton
import proofs.«420664_j68839735820523_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x64 := Rect.unit (s := S5000x64) ![0, 0] S5000x64.size inb_S5000x64_S5000x64_0_0

abbrev r3_2 : Rect S5000x1 := Rect.unit (s := S5000x1) ![0, 0] S5000x1.size inb_S5000x1_S5000x1_0_0

abbrev r3_3 : Rect S1x64 := Rect.unit (s := S1x64) ![0, 0] S1x64.size inb_S1x64_S1x64_0_0

def out3_4 (x0 : Vec F S5000x64 .f32) (x1 : Vec F S5000x64 .f32) (x2 : Vec F S5000x1 .f32) (x3 : Vec F S1x64 .f32) : Vec F S5000x64 .f32 :=
  View.canon [⟨r3_0, k3_pay1 (View.ld x0 r3_0) (View.ld x1 r3_0) (View.ld x2 r3_2) (View.ld x3 r3_3)⟩]

theorem cover3_4 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

set_option maxHeartbeats 1000000 in
theorem sound_kernel3 (c : Dev nD) (E : Set ℕ) (i : grid3.Coords)
    (arg0 : Memref sig .tc .vmem S5000x64 .f32) (harg0 : arg0.IsWhole) (arg1 : Memref sig .tc .vmem S5000x64 .f32) (harg1 : arg1.IsWhole)
    (arg2 : Memref sig .tc .vmem S5000x1 .f32) (harg2 : arg2.IsWhole) (arg3 : Memref sig .tc .vmem S1x64 .f32) (harg3 : arg3.IsWhole)
    (arg4 : Memref sig .tc .vmem S5000x64 .f32) (harg4 : arg4.IsWhole)
    (x0 : Vec F S5000x64 .f32) (x1 : Vec F S5000x64 .f32) (x2 : Vec F S5000x1 .f32) (x3 : Vec F S1x64 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out3_4 x0 x1 x2 x3)) -∗ K ⟨⟩))
      ⊢ wp frame (wpE (defs₀ (F := F)) Variants.none c none) E (cc3__combine_kernel i arg0 harg0 arg1 harg1 arg2 harg2 arg3 harg3 arg4 harg4) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]

theorem after3_1 (c : Dev nD) (t : Fin cfg3.N) : (dat3 V c).after 1 t = iblk3 V c 1 t := by dsimp only [dat3]

theorem after3_2 (c : Dev nD) (t : Fin cfg3.N) : (dat3 V c).after 2 t = iblk3 V c 2 t := by dsimp only [dat3]

theorem after3_3 (c : Dev nD) (t : Fin cfg3.N) : (dat3 V c).after 3 t = iblk3 V c 3 t := by dsimp only [dat3]

theorem after3_4 (c : Dev nD) (t : Fin cfg3.N) :
    (dat3 V c).after 4 t = out3_4 (iblk3 V c 0 t) (iblk3 V c 1 t) (iblk3 V c 2 t) (iblk3 V c 3 t) := by dsimp only [dat3]

theorem before3 (c : Dev nD) (t : Fin cfg3.N) :
    (∀ d, (dat3 V c).before 0 t d = iblk3 V c 0 t) ∧
    (∀ d, (dat3 V c).before 1 t d = iblk3 V c 1 t) ∧
    (∀ d, (dat3 V c).before 2 t d = iblk3 V c 2 t) ∧
    (∀ d, (dat3 V c).before 3 t d = iblk3 V c 3 t) := by
  refine ⟨?_, ?_, ?_, ?_⟩ <;> intro d <;>
    exact ((dat3 V c).before_in_eq_fetched _ rfl (fun _ => rfl) (fun _ _ _ => rfl)
      (fun t => by rw [show (dat3 V c).after _ t = iblk3 V c _ t from rfl]; unfold Dat.blockOf iblk3; rw [A_eq3]; try rfl) t d).trans
      (by unfold Dat.fetched Dat.blockOf iblk3; rw [A_eq3]; try rfl)

theorem body_obligation3 (c : Dev nD) : BodyObligation (dat3 (F := F) V c) (defs₀ (F := F)) Variants.none () Set.univ := fun t => by
  rw [bigSep_W3, bigSep_W3]
  show (_ : sProp 𝕄) ⊢ wp frame _ Set.univ (bodyAt3 t) _
  unfold bodyAt3
  obtain ⟨hb0, hb1, hb2, hb3⟩ := before3 V c t
  simp only [hb0, hb1, hb2, hb3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.KernelIdeal.Net
-- ==== Proof.KI.Reg4.lean ====
import proofs.«420664_j68839735820523_2_alg».proof.Proof.Gen.KernelIdeal.Launch
import proofs.«420664_j68839735820523_2_alg».proof.Proof.Gen.KernelIdeal.Skeleton
import proofs.«420664_j68839735820523_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x64 := Rect.unit (s := S5000x64) ![0, 0] S5000x64.size inb_S5000x64_S5000x64_0_0

abbrev r4_1 : Rect S1x64 := Rect.unit (s := S1x64) ![0, 0] S1x64.size inb_S1x64_S1x64_0_0

def out4_5 (x0 : Vec F S5000x64 .f32) (x1 : Vec F S1x64 .f32) (x2 : Vec F S1x64 .f32) (x3 : Vec F S1x64 .f32) (x4 : Vec F S1x64 .f32) : Vec F S5000x64 .f32 :=
  View.canon [⟨r4_0, k4_pay1 (View.ld x4 r4_1) (View.ld x0 r4_0) (View.ld x3 r4_1) (View.ld x1 r4_1) (View.ld x2 r4_1)⟩]

theorem cover4_5 (p0 : Vec F S5000x64 .f32) (y : S5000x64.Idx) :
    ∃ pc ∈ ([⟨r4_0, p0⟩] : List (View.Piece (Elt F) S5000x64 .f32)), y ∈ pc.1.set :=
  View.cover_of_tiled [⟨r4_0, p0⟩] S5000x64.size (by rfl) y

set_option maxHeartbeats 1000000 in
theorem sound_kernel4 (c : Dev nD) (E : Set ℕ) (i : grid4.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__bn_relu_kernel i arg1 harg1 arg2 harg2 arg3 harg3 arg4 harg4 arg5 harg5 arg6 harg6) K := by
  simp only [cc4__bn_relu_kernel_eq_skeleton]; unfold cc4__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]

theorem after4_1 (c : Dev nD) (t : Fin cfg4.N) : (dat4 V c).after 1 t = iblk4 V c 1 t := by dsimp only [dat4]

theorem after4_2 (c : Dev nD) (t : Fin cfg4.N) : (dat4 V c).after 2 t = iblk4 V c 2 t := by dsimp only [dat4]

theorem after4_3 (c : Dev nD) (t : Fin cfg4.N) : (dat4 V c).after 3 t = iblk4 V c 3 t := by dsimp only [dat4]

theorem after4_4 (c : Dev nD) (t : Fin cfg4.N) : (dat4 V c).after 4 t = iblk4 V c 4 t := by dsimp only [dat4]

theorem after4_5 (c : Dev nD) (t : Fin cfg4.N) : (dat4 V c).after 5 t =
    out4_5 (iblk4 V c 0 t) (iblk4 V c 1 t) (iblk4 V c 2 t) (iblk4 V c 3 t) (iblk4 V c 4 t) := by dsimp only [dat4]

theorem before4 (c : Dev nD) (t : Fin cfg4.N) :
    (∀ d, (dat4 V c).before 0 t d = iblk4 V c 0 t) ∧
    (∀ d, (dat4 V c).before 1 t d = iblk4 V c 1 t) ∧
    (∀ d, (dat4 V c).before 2 t d = iblk4 V c 2 t) ∧
    (∀ d, (dat4 V c).before 3 t d = iblk4 V c 3 t) ∧
    (∀ d, (dat4 V c).before 4 t d = iblk4 V c 4 t) := by
  refine ⟨?_, ?_, ?_, ?_, ?_⟩ <;> intro d <;>
    exact ((dat4 V c).before_in_eq_fetched _ rfl (fun _ => rfl) (fun _ _ _ => rfl)
      (fun t => by rw [show (dat4 V c).after _ t = iblk4 V c _ t from rfl]; unfold Dat.blockOf iblk4; rw [A_eq4]; try rfl) t d).trans
      (by unfold Dat.fetched Dat.blockOf iblk4; rw [A_eq4]; try rfl)

theorem body_obligation4 (c : Dev nD) : BodyObligation (dat4 (F := F) V c) (defs₀ (F := F)) Variants.none () Set.univ := fun t => by
  rw [bigSep_W4, bigSep_W4]
  show (_ : sProp 𝕄) ⊢ wp frame _ Set.univ (bodyAt4 t) _
  unfold bodyAt4
  obtain ⟨hb0, hb1, hb2, hb3, hb4⟩ := before4 V c t
  simp only [hb0, hb1, hb2, hb3, hb4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

end Cert.KernelIdeal.Net
-- ==== Proof.KI.Reg5.lean ====
import proofs.«420664_j68839735820523_2_alg».proof.Proof.Gen.KernelIdeal.Launch
import proofs.«420664_j68839735820523_2_alg».proof.Proof.Gen.KernelIdeal.Skeleton
import proofs.«420664_j68839735820523_2_alg».proof.Proof.Gen.KernelIdeal.Points
import proofs.«420664_j68839735820523_2_alg».proof.Proof.KI.Reg2
import Idealize.ShloMosaic.Lib.Pipeline.FrameBody
import Idealize.ShloMosaic.Lib.Tactic

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem cc5_eq : cc5__linear_kernel (F := F) = cc2__linear_kernel := rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out2_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]

theorem after5_1 (c : Dev nD) (t : Fin cfg5.N) : (dat5 V c).after 1 t = iblk5 V c 1 t := by dsimp only [dat5]

theorem after5_2 (c : Dev nD) (t : Fin cfg5.N) : (dat5 V c).after 2 t = out2_2 (iblk5 V c 0 t) (iblk5 V c 1 t) := by dsimp only [dat5]

theorem before5 (c : Dev nD) (t : Fin cfg5.N) :
    (∀ d, (dat5 V c).before 0 t d = iblk5 V c 0 t) ∧
    (∀ d, (dat5 V c).before 1 t d = iblk5 V c 1 t) := by
  refine ⟨?_, ?_⟩ <;> intro d <;>
    exact ((dat5 V c).before_in_eq_fetched _ rfl (fun _ => rfl) (fun _ _ _ => rfl)
      (fun t => by rw [show (dat5 V c).after _ t = iblk5 V c _ t from rfl]; unfold Dat.blockOf iblk5; rw [A_eq5]; try rfl) t d).trans
      (by unfold Dat.fetched Dat.blockOf iblk5; rw [A_eq5]; try rfl)

theorem body_obligation5 (c : Dev nD) : BodyObligation (dat5 (F := F) V c) (defs₀ (F := F)) Variants.none () Set.univ := fun t => by
  rw [bigSep_W5, bigSep_W5]
  show (_ : sProp 𝕄) ⊢ wp frame _ Set.univ (bodyAt5 t) _
  unfold bodyAt5
  rw [cc5_eq]
  obtain ⟨hb0, hb1⟩ := before5 V c t
  simp only [hb0, hb1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%dx, Hx⟩, ⟨%dw, Hw⟩, ⟨%dy, Hy⟩⟩
  iapply (sound_kernel2 c Set.univ _ _ _ _ _ _ _ (iblk5 V c 0 t) (iblk5 V c 1 t) _)
  isplitl [Hx]; · iexact Hx
  isplitl [Hw]; · iexact Hw
  isplitl [Hy]; · iexists _; iexact Hy
  iintro ⟨Hx, Hw, Hy⟩
  isplitl [HΦ]; · iexact HΦ
  isplitl [Ho]; · iexact Ho
  isplitl [Hx]; · iexact Hx
  isplitl [Hw]; · iexact Hw
  iexact Hy

end Cert.KernelIdeal.Net
-- ==== Proof.KI.Reg6.lean ====
import proofs.«420664_j68839735820523_2_alg».proof.Proof.Gen.KernelIdeal.Launch
import proofs.«420664_j68839735820523_2_alg».proof.Proof.Gen.KernelIdeal.Skeleton
import proofs.«420664_j68839735820523_2_alg».proof.Proof.Gen.KernelIdeal.Points
import proofs.«420664_j68839735820523_2_alg».proof.Proof.KI.Reg3
import Idealize.ShloMosaic.Lib.Pipeline.FrameBody
import Idealize.ShloMosaic.Lib.Ring
import Idealize.ShloMosaic.Lib.Tactic

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem cc6_eq : cc6__combine_kernel (F := F) = cc3__combine_kernel := rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out3_4 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]

theorem after6_1 (c : Dev nD) (t : Fin cfg6.N) : (dat6 V c).after 1 t = iblk6 V c 1 t := by dsimp only [dat6]

theorem after6_2 (c : Dev nD) (t : Fin cfg6.N) : (dat6 V c).after 2 t = iblk6 V c 2 t := by dsimp only [dat6]

theorem after6_3 (c : Dev nD) (t : Fin cfg6.N) : (dat6 V c).after 3 t = iblk6 V c 3 t := by dsimp only [dat6]

theorem after6_4 (c : Dev nD) (t : Fin cfg6.N) :
    (dat6 V c).after 4 t = out3_4 (iblk6 V c 0 t) (iblk6 V c 1 t) (iblk6 V c 2 t) (iblk6 V c 3 t) := by dsimp only [dat6]

theorem before6 (c : Dev nD) (t : Fin cfg6.N) :
    (∀ d, (dat6 V c).before 0 t d = iblk6 V c 0 t) ∧
    (∀ d, (dat6 V c).before 1 t d = iblk6 V c 1 t) ∧
    (∀ d, (dat6 V c).before 2 t d = iblk6 V c 2 t) ∧
    (∀ d, (dat6 V c).before 3 t d = iblk6 V c 3 t) := by
  refine ⟨?_, ?_, ?_, ?_⟩ <;> intro d <;>
    exact ((dat6 V c).before_in_eq_fetched _ rfl (fun _ => rfl) (fun _ _ _ => rfl)
      (fun t => by rw [show (dat6 V c).after _ t = iblk6 V c _ t from rfl]; unfold Dat.blockOf iblk6; rw [A_eq6]; try rfl) t d).trans
      (by unfold Dat.fetched Dat.blockOf iblk6; rw [A_eq6]; try rfl)

theorem body_obligation6 (c : Dev nD) : BodyObligation (dat6 (F := F) V c) (defs₀ (F := F)) Variants.none () Set.univ := fun t => by
  rw [bigSep_W6, bigSep_W6]
  show (_ : sProp 𝕄) ⊢ wp frame _ Set.univ (bodyAt6 t) _
  unfold bodyAt6
  rw [cc6_eq]
  obtain ⟨hb0, hb1, hb2, hb3⟩ := before6 V c t
  simp only [hb0, hb1, hb2, hb3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.KernelIdeal.Net
-- ==== Proof.KI.Reg7.lean ====
import proofs.«420664_j68839735820523_2_alg».proof.Proof.Gen.KernelIdeal.Launch
import proofs.«420664_j68839735820523_2_alg».proof.Proof.Gen.KernelIdeal.Skeleton
import proofs.«420664_j68839735820523_2_alg».proof.Proof.Gen.KernelIdeal.Points
import proofs.«420664_j68839735820523_2_alg».proof.Proof.KI.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem cc7_eq : cc7__bn_relu_kernel (F := F) = cc4__bn_relu_kernel := rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out4_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]

theorem after7_1 (c : Dev nD) (t : Fin cfg7.N) : (dat7 V c).after 1 t = iblk7 V c 1 t := by dsimp only [dat7]

theorem after7_2 (c : Dev nD) (t : Fin cfg7.N) : (dat7 V c).after 2 t = iblk7 V c 2 t := by dsimp only [dat7]

theorem after7_3 (c : Dev nD) (t : Fin cfg7.N) : (dat7 V c).after 3 t = iblk7 V c 3 t := by dsimp only [dat7]

theorem after7_4 (c : Dev nD) (t : Fin cfg7.N) : (dat7 V c).after 4 t = iblk7 V c 4 t := by dsimp only [dat7]

theorem after7_5 (c : Dev nD) (t : Fin cfg7.N) : (dat7 V c).after 5 t =
    out4_5 (iblk7 V c 0 t) (iblk7 V c 1 t) (iblk7 V c 2 t) (iblk7 V c 3 t) (iblk7 V c 4 t) := by dsimp only [dat7]

theorem before7 (c : Dev nD) (t : Fin cfg7.N) :
    (∀ d, (dat7 V c).before 0 t d = iblk7 V c 0 t) ∧
    (∀ d, (dat7 V c).before 1 t d = iblk7 V c 1 t) ∧
    (∀ d, (dat7 V c).before 2 t d = iblk7 V c 2 t) ∧
    (∀ d, (dat7 V c).before 3 t d = iblk7 V c 3 t) ∧
    (∀ d, (dat7 V c).before 4 t d = iblk7 V c 4 t) := by
  refine ⟨?_, ?_, ?_, ?_, ?_⟩ <;> intro d <;>
    exact ((dat7 V c).before_in_eq_fetched _ rfl (fun _ => rfl) (fun _ _ _ => rfl)
      (fun t => by rw [show (dat7 V c).after _ t = iblk7 V c _ t from rfl]; unfold Dat.blockOf iblk7; rw [A_eq7]; try rfl) t d).trans
      (by unfold Dat.fetched Dat.blockOf iblk7; rw [A_eq7]; try rfl)

theorem body_obligation7 (c : Dev nD) : BodyObligation (dat7 (F := F) V c) (defs₀ (F := F)) Variants.none () Set.univ := fun t => by
  rw [bigSep_W7, bigSep_W7]
  show (_ : sProp 𝕄) ⊢ wp frame _ Set.univ (bodyAt7 t) _
  unfold bodyAt7
  rw [cc7_eq]
  obtain ⟨hb0, hb1, hb2, hb3, hb4⟩ := before7 V c t
  simp only [hb0, hb1, hb2, hb3, hb4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

end Cert.KernelIdeal.Net
-- ==== Proof.KI.Reg8.lean ====
import proofs.«420664_j68839735820523_2_alg».proof.Proof.Gen.KernelIdeal.Launch
import proofs.«420664_j68839735820523_2_alg».proof.Proof.Gen.KernelIdeal.Skeleton
import proofs.«420664_j68839735820523_2_alg».proof.Proof.Gen.KernelIdeal.Points
import proofs.«420664_j68839735820523_2_alg».proof.Proof.KI.Reg2
import Idealize.ShloMosaic.Lib.Pipeline.FrameBody
import Idealize.ShloMosaic.Lib.Tactic

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem cc8_eq : cc8__linear_kernel (F := F) = cc2__linear_kernel := rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out2_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]

theorem after8_1 (c : Dev nD) (t : Fin cfg8.N) : (dat8 V c).after 1 t = iblk8 V c 1 t := by dsimp only [dat8]

theorem after8_2 (c : Dev nD) (t : Fin cfg8.N) : (dat8 V c).after 2 t = out2_2 (iblk8 V c 0 t) (iblk8 V c 1 t) := by dsimp only [dat8]

theorem before8 (c : Dev nD) (t : Fin cfg8.N) :
    (∀ d, (dat8 V c).before 0 t d = iblk8 V c 0 t) ∧
    (∀ d, (dat8 V c).before 1 t d = iblk8 V c 1 t) := by
  refine ⟨?_, ?_⟩ <;> intro d <;>
    exact ((dat8 V c).before_in_eq_fetched _ rfl (fun _ => rfl) (fun _ _ _ => rfl)
      (fun t => by rw [show (dat8 V c).after _ t = iblk8 V c _ t from rfl]; unfold Dat.blockOf iblk8; rw [A_eq8]; try rfl) t d).trans
      (by unfold Dat.fetched Dat.blockOf iblk8; rw [A_eq8]; try rfl)

theorem body_obligation8 (c : Dev nD) : BodyObligation (dat8 (F := F) V c) (defs₀ (F := F)) Variants.none () Set.univ := fun t => by
  rw [bigSep_W8, bigSep_W8]
  show (_ : sProp 𝕄) ⊢ wp frame _ Set.univ (bodyAt8 t) _
  unfold bodyAt8
  rw [cc8_eq]
  obtain ⟨hb0, hb1⟩ := before8 V c t
  simp only [hb0, hb1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%dx, Hx⟩, ⟨%dw, Hw⟩, ⟨%dy, Hy⟩⟩
  iapply (sound_kernel2 c Set.univ _ _ _ _ _ _ _ (iblk8 V c 0 t) (iblk8 V c 1 t) _)
  isplitl [Hx]; · iexact Hx
  isplitl [Hw]; · iexact Hw
  isplitl [Hy]; · iexists _; iexact Hy
  iintro ⟨Hx, Hw, Hy⟩
  isplitl [HΦ]; · iexact HΦ
  isplitl [Ho]; · iexact Ho
  isplitl [Hx]; · iexact Hx
  isplitl [Hw]; · iexact Hw
  iexact Hy

end Cert.KernelIdeal.Net
-- ==== Proof.KI.Reg9.lean ====
import proofs.«420664_j68839735820523_2_alg».proof.Proof.Gen.KernelIdeal.Launch
import proofs.«420664_j68839735820523_2_alg».proof.Proof.Gen.KernelIdeal.Skeleton
import proofs.«420664_j68839735820523_2_alg».proof.Proof.Gen.KernelIdeal.Points
import proofs.«420664_j68839735820523_2_alg».proof.Proof.KI.Reg3
import Idealize.ShloMosaic.Lib.Pipeline.FrameBody
import Idealize.ShloMosaic.Lib.Ring
import Idealize.ShloMosaic.Lib.Tactic

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem cc9_eq : cc9__combine_kernel (F := F) = cc3__combine_kernel := rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out3_4 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]

theorem after9_1 (c : Dev nD) (t : Fin cfg9.N) : (dat9 V c).after 1 t = iblk9 V c 1 t := by dsimp only [dat9]

theorem after9_2 (c : Dev nD) (t : Fin cfg9.N) : (dat9 V c).after 2 t = iblk9 V c 2 t := by dsimp only [dat9]

theorem after9_3 (c : Dev nD) (t : Fin cfg9.N) : (dat9 V c).after 3 t = iblk9 V c 3 t := by dsimp only [dat9]

theorem after9_4 (c : Dev nD) (t : Fin cfg9.N) :
    (dat9 V c).after 4 t = out3_4 (iblk9 V c 0 t) (iblk9 V c 1 t) (iblk9 V c 2 t) (iblk9 V c 3 t) := by dsimp only [dat9]

theorem before9 (c : Dev nD) (t : Fin cfg9.N) :
    (∀ d, (dat9 V c).before 0 t d = iblk9 V c 0 t) ∧
    (∀ d, (dat9 V c).before 1 t d = iblk9 V c 1 t) ∧
    (∀ d, (dat9 V c).before 2 t d = iblk9 V c 2 t) ∧
    (∀ d, (dat9 V c).before 3 t d = iblk9 V c 3 t) := by
  refine ⟨?_, ?_, ?_, ?_⟩ <;> intro d <;>
    exact ((dat9 V c).before_in_eq_fetched _ rfl (fun _ => rfl) (fun _ _ _ => rfl)
      (fun t => by rw [show (dat9 V c).after _ t = iblk9 V c _ t from rfl]; unfold Dat.blockOf iblk9; rw [A_eq9]; try rfl) t d).trans
      (by unfold Dat.fetched Dat.blockOf iblk9; rw [A_eq9]; try rfl)

theorem body_obligation9 (c : Dev nD) : BodyObligation (dat9 (F := F) V c) (defs₀ (F := F)) Variants.none () Set.univ := fun t => by
  rw [bigSep_W9, bigSep_W9]
  show (_ : sProp 𝕄) ⊢ wp frame _ Set.univ (bodyAt9 t) _
  unfold bodyAt9
  rw [cc9_eq]
  obtain ⟨hb0, hb1, hb2, hb3⟩ := before9 V c t
  simp only [hb0, hb1, hb2, hb3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.KernelIdeal.Net
-- ==== Proof.KI.Reg10.lean ====
import proofs.«420664_j68839735820523_2_alg».proof.Proof.Gen.KernelIdeal.Launch
import proofs.«420664_j68839735820523_2_alg».proof.Proof.Gen.KernelIdeal.Skeleton
import proofs.«420664_j68839735820523_2_alg».proof.Proof.Gen.KernelIdeal.Points
import proofs.«420664_j68839735820523_2_alg».proof.Proof.KI.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem cc10_eq : cc10__bn_relu_kernel (F := F) = cc4__bn_relu_kernel := rfl

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out4_5 (iblk10 V c 0 t) (iblk10 V c 1 t) (iblk10 V c 2 t) (iblk10 V c 3 t) (iblk10 V c 4 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]

theorem after10_1 (c : Dev nD) (t : Fin cfg10.N) : (dat10 V c).after 1 t = iblk10 V c 1 t := by dsimp only [dat10]

theorem after10_2 (c : Dev nD) (t : Fin cfg10.N) : (dat10 V c).after 2 t = iblk10 V c 2 t := by dsimp only [dat10]

theorem after10_3 (c : Dev nD) (t : Fin cfg10.N) : (dat10 V c).after 3 t = iblk10 V c 3 t := by dsimp only [dat10]

theorem after10_4 (c : Dev nD) (t : Fin cfg10.N) : (dat10 V c).after 4 t = iblk10 V c 4 t := by dsimp only [dat10]

theorem after10_5 (c : Dev nD) (t : Fin cfg10.N) : (dat10 V c).after 5 t =
    out4_5 (iblk10 V c 0 t) (iblk10 V c 1 t) (iblk10 V c 2 t) (iblk10 V c 3 t) (iblk10 V c 4 t) := by dsimp only [dat10]

theorem before10 (c : Dev nD) (t : Fin cfg10.N) :
    (∀ d, (dat10 V c).before 0 t d = iblk10 V c 0 t) ∧
    (∀ d, (dat10 V c).before 1 t d = iblk10 V c 1 t) ∧
    (∀ d, (dat10 V c).before 2 t d = iblk10 V c 2 t) ∧
    (∀ d, (dat10 V c).before 3 t d = iblk10 V c 3 t) ∧
    (∀ d, (dat10 V c).before 4 t d = iblk10 V c 4 t) := by
  refine ⟨?_, ?_, ?_, ?_, ?_⟩ <;> intro d <;>
    exact ((dat10 V c).before_in_eq_fetched _ rfl (fun _ => rfl) (fun _ _ _ => rfl)
      (fun t => by rw [show (dat10 V c).after _ t = iblk10 V c _ t from rfl]; unfold Dat.blockOf iblk10; rw [A_eq10]; try rfl) t d).trans
      (by unfold Dat.fetched Dat.blockOf iblk10; rw [A_eq10]; try rfl)

theorem body_obligation10 (c : Dev nD) : BodyObligation (dat10 (F := F) V c) (defs₀ (F := F)) Variants.none () Set.univ := fun t => by
  rw [bigSep_W10, bigSep_W10]
  show (_ : sProp 𝕄) ⊢ wp frame _ Set.univ (bodyAt10 t) _
  unfold bodyAt10
  rw [cc10_eq]
  obtain ⟨hb0, hb1, hb2, hb3, hb4⟩ := before10 V c t
  simp only [hb0, hb1, hb2, hb3, hb4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

end Cert.KernelIdeal.Net
-- ==== Proof.KI.Reg11.lean ====
import proofs.«420664_j68839735820523_2_alg».proof.Proof.Gen.KernelIdeal.Launch
import proofs.«420664_j68839735820523_2_alg».proof.Proof.Gen.KernelIdeal.Skeleton
import proofs.«420664_j68839735820523_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz11 : (![0, 0] : Fin 2 → Nat) = fun _ => 0 := funext fun a => by fin_cases a <;> rfl

abbrev cond11_0 (i : grid11.Coords) : Prop := (Scalar.cmpi .ne (Scalar.extui (Scalar.cmpi .eq (BitVec.ofNat 32 (i 0).val) 0#32)) 0#32) = 1#1

theorem hcond11_0 : ∀ t : Fin cfg11.N, cond11_0 (grid11.coords t) ↔ t.val = 0 :=
  (by decide +kernel : ∀ t : Fin grid11.N, cond11_0 (grid11.coords t) ↔ t.val = 0)

abbrev cond11_1 (i : grid11.Coords) : Prop := k11_cond2 i = 1#1

theorem hcond11_1 : ∀ t : Fin cfg11.N, cond11_1 (grid11.coords t) ↔ t.val = 9 :=
  (by decide +kernel : ∀ t : Fin grid11.N, cond11_1 (grid11.coords t) ↔ t.val = 9)

theorem liveAt11_0 : ∀ t : Fin cfg11.N, cfg11.idle 0 (grid11.coords t) = false := by decide +kernel

theorem liveAt11_1 : ∀ t : Fin cfg11.N, cfg11.idle 1 (grid11.coords t) = false := by decide +kernel

theorem idleAt11_2 : ∀ t : Fin cfg11.N, ¬cond11_1 (grid11.coords t) → cfg11.idle 2 (grid11.coords t) = true := by decide +kernel

theorem noFlush11_2 : ∀ t : Fin cfg11.N, ¬cond11_1 (grid11.coords t) → (cfg11.win 2).flush t = false := by decide +kernel

theorem liveAt11_2 : ∀ t : Fin cfg11.N, cond11_1 (grid11.coords t) → cfg11.idle 2 (grid11.coords t) = false := by decide +kernel

set_option maxHeartbeats 1000000 in
theorem run11_first (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S64x64 .f32) (harg3 : arg3.IsWhole) (arg4 : Memref sig .tc .vmem S64x64 .f32) (harg4 : arg4.IsWhole)
    (hc0 : cond11_0 i) (hc1 : ¬cond11_1 i)
    (x0 : Vec F S5000x64 .f32) (x1 : Vec F S5000x1 .i32) (xi2 : Vec F S64x64 .f32) (E : Set ℕ) (K : PUnit → sProp 𝕄) :
    iprop(owns (c : Thread nD τ) arg1 fullShare x0 ∗ owns (c : Thread nD τ) arg2 fullShare x1 ∗ owns (c : Thread nD τ) arg3 fullShare xi2 ∗ (∃ d, owns (c : Thread nD τ) arg4 fullShare d)
        ∗ (iprop(owns (c : Thread nD τ) arg1 fullShare x0 ∗ owns (c : Thread nD τ) arg2 fullShare x1 ∗ owns (c : Thread nD τ) arg3 fullShare xi2 ∗ owns (c : Thread nD τ) arg4 fullShare (k11_pay2 x1 x0 k11_pay1)) -∗ K ⟨⟩))
      ⊢ wp frame (wpE (defs₀ (F := F)) Variants.none c none) E (cc11__pool_kernel i arg1 harg1 arg2 harg2 arg3 harg3 arg4 harg4) K := by
  simp only [cc11__pool_kernel_eq_skeleton]; unfold cc11__pool_kernel_skel
  unfold owns
  iintro ⟨⟨%f0, %hf0, H0⟩, ⟨%f1, %hf1, H1⟩, ⟨%f2, %hf2, H2⟩, ⟨%ds, %fs, -, HS⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  try sl_unfold_words
  rw [View.read_writes_eq_canon _ _ _ (fun y => ⟨_, List.mem_cons_self, View.mem_set_unit_zero hz11 inb_S64x64_S64x64_0_0 y⟩), View.canon_cons_unit_zero hz11]
  simp only [View.readAt_eq_ld, harg1.read_unread, harg2.read_unread, harg4.read_unread, View.ld_unit_zero (S := S5000x64) hz11, View.ld_unit_zero (S := S5000x1) hz11, View.ld_unit_zero (S := S64x64) hz11, View.readCov_unit_zero (S := S64x64) _ hz11]

set_option maxHeartbeats 1000000 in
theorem run11_mid (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S64x64 .f32) (harg3 : arg3.IsWhole) (arg4 : Memref sig .tc .vmem S64x64 .f32) (harg4 : arg4.IsWhole)
    (hc0 : ¬cond11_0 i) (hc1 : ¬cond11_1 i)
    (x0 : Vec F S5000x64 .f32) (x1 : Vec F S5000x1 .i32) (xi2 xs : Vec F S64x64 .f32) (E : Set ℕ) (K : PUnit → sProp 𝕄) :
    iprop(owns (c : Thread nD τ) arg1 fullShare x0 ∗ owns (c : Thread nD τ) arg2 fullShare x1 ∗ owns (c : Thread nD τ) arg3 fullShare xi2 ∗ owns (c : Thread nD τ) arg4 fullShare xs
        ∗ (iprop(owns (c : Thread nD τ) arg1 fullShare x0 ∗ owns (c : Thread nD τ) arg2 fullShare x1 ∗ owns (c : Thread nD τ) arg3 fullShare xi2 ∗ owns (c : Thread nD τ) arg4 fullShare (k11_pay2 x1 x0 xs)) -∗ K ⟨⟩))
      ⊢ wp frame (wpE (defs₀ (F := F)) Variants.none c none) E (cc11__pool_kernel i arg1 harg1 arg2 harg2 arg3 harg3 arg4 harg4) K := by
  simp only [cc11__pool_kernel_eq_skeleton]; unfold cc11__pool_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  try sl_unfold_words
  rw [View.read_writes_eq_canon _ _ _ (fun y => ⟨_, List.mem_singleton_self _, View.mem_set_unit_zero hz11 inb_S64x64_S64x64_0_0 y⟩), View.canon_unit_zero hz11]
  simp only [View.readAt_eq_ld, harg1.read_unread, harg2.read_unread, harg4.read_unread, View.ld_unit_zero (S := S5000x64) hz11, View.ld_unit_zero (S := S5000x1) hz11, View.ld_unit_zero (S := S64x64) hz11, View.readCov_unit_zero (S := S64x64) _ hz11]

set_option maxHeartbeats 1000000 in
theorem run11_last (c : Dev nD) (i : grid11.Coords) (arg1 : Memref sig .tc .vmem S5000x64 .f32) (harg1 : arg1.IsWhole) (arg2 : Memref sig .tc .vmem S5000x1 .i32) (harg2 : arg2.IsWhole) (arg3 : Memref sig .tc .vmem S64x64 .f32) (harg3 : arg3.IsWhole) (arg4 : Memref sig .tc .vmem S64x64 .f32) (harg4 : arg4.IsWhole)
    (hc0 : ¬cond11_0 i) (hc1 : cond11_1 i)
    (x0 : Vec F S5000x64 .f32) (x1 : Vec F S5000x1 .i32) (xs : Vec F S64x64 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1 ∗ owns (c : Thread nD τ) arg3 fullShare (k11_pay2 x1 x0 xs) ∗ owns (c : Thread nD τ) arg4 fullShare (k11_pay2 x1 x0 xs)) -∗ K ⟨⟩))
      ⊢ wp frame (wpE (defs₀ (F := F)) Variants.none c none) E (cc11__pool_kernel i arg1 harg1 arg2 harg2 arg3 harg3 arg4 harg4) K := by
  simp only [cc11__pool_kernel_eq_skeleton]; unfold cc11__pool_kernel_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    try sl_unfold_words
    rw [View.read_writes_eq_canon _ _ _ (fun y => ⟨_, List.mem_singleton_self _, View.mem_set_unit_zero hz11 inb_S64x64_S64x64_0_0 y⟩), View.canon_unit_zero hz11]
    simp only [View.readAt_eq_ld, harg1.read_unread, harg2.read_unread, harg4.read_unread, View.ld_unit_zero (S := S5000x64) hz11, View.ld_unit_zero (S := S5000x1) hz11, View.ld_unit_zero (S := S64x64) hz11, View.readCov_unit_zero (S := S64x64) _ hz11]
  iexists _; isplitr
  swap; · iexact HS
  ipureintro
  try sl_unfold_words
  rw [View.read_writes_eq_canon _ _ _ (fun y => ⟨_, List.mem_singleton_self _, View.mem_set_unit_zero hz11 inb_S64x64_S64x64_0_0 y⟩), View.canon_unit_zero hz11]
  simp only [View.readAt_eq_ld, harg1.read_unread, harg2.read_unread, harg4.read_unread, View.ld_unit_zero (S := S5000x64) hz11, View.ld_unit_zero (S := S5000x1) hz11, View.ld_unit_zero (S := S64x64) hz11, View.readCov_unit_zero (S := S64x64) _ hz11]
section Region

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

def pt11 (n : ℕ) : Fin cfg11.N := if h : n < cfg11.N then ⟨n, h⟩ else t11_0

theorem pt11_val (t : Fin cfg11.N) : pt11 t.val = t := dif_pos t.isLt

def step11 (c : Dev nD) (t : Fin cfg11.N) (a : Vec F S64x64 .f32) : Vec F S64x64 .f32 :=
  k11_pay2 (iblk11 V c 1 t) (iblk11 V c 0 t) a

def acc11 (c : Dev nD) : ℕ → Vec F S64x64 .f32
  | 0 => k11_pay1
  | n + 1 => step11 V c (pt11 n) (acc11 c n)

theorem acc11_zero (c : Dev nD) : acc11 V c 0 = k11_pay1 := rfl

theorem acc11_succ_nat (c : Dev nD) (n : ℕ) : acc11 V c (n + 1) = step11 V c (pt11 n) (acc11 V c n) := rfl

theorem acc11_of_eq_zero (c : Dev nD) (n : ℕ) (h : n = 0) : acc11 V c n = k11_pay1 := by subst h; rfl

theorem acc11_succ (c : Dev nD) (t : Fin cfg11.N) :
    acc11 V c (t.val + 1) = k11_pay2 (iblk11 V c 1 t) (iblk11 V c 0 t) (acc11 V c t.val) := by
  rw [acc11_succ_nat, pt11_val]; rfl

abbrev scM11 : Memref sig .tc .vmem S64x64 .f32 := Memref.whole cc11_scratch0

abbrev rest11 (c : Dev nD) : sProp 𝕄 :=
  Pipeline.scopedRestBut (Ix := Unit) (Name := ℕ) (U := UR sig nD τ) (Lvl := ℕ) (Val := Elt F) spec11 c [cc11_scratch0]

def Phi11 (c : Dev nD) : ℕ → sProp 𝕄
  | 0 => iprop((∃ d, owns (c : Thread nD τ) scM11 fullShare d) ∗ rest11 c ∗ (∃ r, prngReg c r))
  | n + 1 => iprop(owns (c : Thread nD τ) scM11 fullShare (acc11 V c (n + 1)) ∗ rest11 c ∗ (∃ r, prngReg c r))

theorem Phi11_zero (c : Dev nD) (n : ℕ) (h : n = 0) :
    Phi11 V c n = iprop((∃ d, owns (c : Thread nD τ) scM11 fullShare d) ∗ rest11 c ∗ (∃ r, prngReg c r)) := by subst h; rfl

theorem Phi11_succ (c : Dev nD) (n : ℕ) :
    Phi11 V c (n + 1) = iprop(owns (c : Thread nD τ) scM11 fullShare (acc11 V c (n + 1)) ∗ rest11 c ∗ (∃ r, prngReg c r)) := rfl

theorem Phi11_pos (c : Dev nD) (n : ℕ) (h : n ≠ 0) :
    Phi11 V c n = iprop(owns (c : Thread nD τ) scM11 fullShare (acc11 V c n) ∗ rest11 c ∗ (∃ r, prngReg c r)) := by
  cases n with
  | zero => exact absurd rfl h
  | succ n => rfl

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => acc11 V c (t.val + 1)
  Φ t := Phi11 V c t.val
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]

theorem after11_1 (c : Dev nD) (t : Fin cfg11.N) : (dat11 V c).after 1 t = iblk11 V c 1 t := by dsimp only [dat11]

theorem after11_2 (c : Dev nD) (t : Fin cfg11.N) : (dat11 V c).after 2 t = acc11 V c (t.val + 1) := by dsimp only [dat11]

theorem after11_2_last (c : Dev nD) : (dat11 V c).after 2 t11_9 = acc11 V c 10 := by dsimp only [dat11]; rfl

theorem Phi11_castSucc (c : Dev nD) (t : Fin cfg11.N) : (dat11 V c).Φ t.castSucc = Phi11 V c t.val := by
  dsimp only [dat11]; simp only [Fin.coe_castSucc]

theorem Phi11_at_succ (c : Dev nD) (t : Fin cfg11.N) : (dat11 V c).Φ t.succ = Phi11 V c (t.val + 1) := rfl

theorem before11 (c : Dev nD) (t : Fin cfg11.N) :
    (∀ d, (dat11 V c).before 0 t d = iblk11 V c 0 t) ∧
    (∀ d, (dat11 V c).before 1 t d = iblk11 V c 1 t) := by
  refine ⟨?_, ?_⟩ <;> intro d <;>
    exact ((dat11 V c).before_in_eq_fetched _ rfl (fun _ => rfl) (fun _ _ _ => rfl)
      (fun t => by rw [show (dat11 V c).after _ t = iblk11 V c _ t from rfl]; unfold Dat.blockOf iblk11; rw [A_eq11]; try rfl) t d).trans
      (by unfold Dat.fetched Dat.blockOf iblk11; rw [A_eq11]; try rfl)

abbrev ms11_0 (t : Fin cfg11.N) : Memref sig .tc .vmem S5000x64 .f32 := win11_0.stage (cfg11.slots t 0)

abbrev ms11_1 (t : Fin cfg11.N) : Memref sig .tc .vmem S5000x1 .i32 := win11_1.stage (cfg11.slots t 1)

abbrev ms11_2 (t : Fin cfg11.N) : Memref sig .tc .vmem S64x64 .f32 := win11_2.stage (cfg11.slots t 2)

def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d)))

def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t)

set_option maxHeartbeats 4800000 in
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  obtain ⟨hb0, hb1⟩ := before11 V c t
  simp only [hb0, hb1]
  rw [show (dat11 V c).owesAt () t.succ = (dat11 V c).owesAt () t.castSucc from rfl]
  rw [Phi11_at_succ, Phi11_succ, Phi11_castSucc]
  rw [show (dat11 V c).leavesExact 0 t = owns (c : Thread nD τ) (ms11_0 t) fullShare ((dat11 V c).after 0 t) from by
      unfold Dat.leavesExact; rw [liveAt11_0 t], after11_0]
  rw [show (dat11 V c).leavesExact 1 t = owns (c : Thread nD τ) (ms11_1 t) fullShare ((dat11 V c).after 1 t) from by
      unfold Dat.leavesExact; rw [liveAt11_1 t], after11_1]
  have hN : t.val < 10 := lt_of_lt_of_eq t.isLt (show cfg11.N = 10 from N_11)
  by_cases h9 : t.val = 9
  · have h0 : ¬ t.val = 0 := by omega
    rw [show (dat11 V c).leavesExact 2 t = owns (c : Thread nD τ) (ms11_2 t) fullShare ((dat11 V c).after 2 t) from by
      unfold Dat.leavesExact; rw [liveAt11_2 t ((hcond11_1 t).mpr h9)], after11_2]
    rw [Phi11_pos V c _ h0, acc11_succ V c t]
    iintro ⟨⟨HS, Hr, Hg⟩, Ho, ⟨%d0, H0⟩, ⟨%d1, H1⟩, ⟨%d2, H2⟩⟩
    iapply (run11_last c (grid11.coords t) _ _ _ _ _ _ _ _ (fun h => h0 ((hcond11_0 t).mp h)) ((hcond11_1 t).mpr h9) (iblk11 V c 0 t) (iblk11 V c 1 t) (acc11 V c t.val) Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · rw [Dat.leavesExact_idle (dat11 V c) 2 t (idleAt11_2 t (fun h => h9 ((hcond11_1 t).mp h))) (noFlush11_2 t (fun h => h9 ((hcond11_1 t).mp h)))]
    rw [acc11_succ V c t]
    by_cases h0 : t.val = 0
    · rw [Phi11_zero V c _ h0, acc11_of_eq_zero V c _ h0]
      iintro ⟨⟨HS, Hr, Hg⟩, Ho, ⟨%d0, H0⟩, ⟨%d1, H1⟩, ⟨%d2, H2⟩⟩
      iapply (run11_first c (grid11.coords t) _ _ _ _ _ _ _ _ ((hcond11_0 t).mpr h0) (fun h => h9 ((hcond11_1 t).mp h)) (iblk11 V c 0 t) (iblk11 V c 1 t) _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2
    · rw [Phi11_pos V c _ h0]
      iintro ⟨⟨HS, Hr, Hg⟩, Ho, ⟨%d0, H0⟩, ⟨%d1, H1⟩, ⟨%d2, H2⟩⟩
      iapply (run11_mid c (grid11.coords t) _ _ _ _ _ _ _ _ (fun h => h0 ((hcond11_0 t).mp h)) (fun h => h9 ((hcond11_1 t).mp h)) (iblk11 V c 0 t) (iblk11 V c 1 t) _ (acc11 V c t.val) Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

theorem body_obligation11 (c : Dev nD) : BodyObligation (dat11 (F := F) V c) (defs₀ (F := F)) Variants.none () Set.univ := fun t => by
  rw [bigSep_W11, bigSep_W11]
  exact sound_body11 V c t

theorem hin11 (c : Dev nD) :
    (iprop((∃ r, prngReg c r) ∗ Pipeline.scopedRest (Ix := Unit) (Name := ℕ) (U := UR sig nD τ) (Lvl := ℕ) spec11 c) : sProp 𝕄) ⊢ (dat11 V c).Φ 0 := by
  rw [show (dat11 V c).Φ 0 = Phi11 V c 0 from rfl, Phi11_zero V c 0 rfl, scopedRest11_split]
  simp only [scM11, owns_whole]
  iintro ⟨Hp, Hs, Hr⟩
  isplitl [Hs]; · iexact Hs
  isplitl [Hr]; · iexact Hr
  iexact Hp

theorem hout11 (c : Dev nD) :
    (dat11 V c).Φ (Fin.last _) ⊢ (iprop((∃ r, prngReg c r) ∗ Pipeline.scopedRest (Ix := Unit) (Name := ℕ) (U := UR sig nD τ) (Lvl := ℕ) spec11 c) : sProp 𝕄) := by
  rw [show (dat11 V c).Φ (Fin.last _) = Phi11 V c cfg11.N from rfl,
    Phi11_pos V c _ (by rw [show cfg11.N = 10 from N_11]; decide), scopedRest11_split]
  simp only [scM11, owns_whole]
  iintro ⟨Hs, Hr, Hp⟩
  isplitl [Hp]; · iexact Hp
  isplitl [Hs]; · iexists _; iexact Hs
  iexact Hr

end Region

end Cert.KernelIdeal.Net

end
-- ==== Proof.KI.Reg12.lean ====
import proofs.«420664_j68839735820523_2_alg».proof.Proof.Gen.KernelIdeal.Launch
import proofs.«420664_j68839735820523_2_alg».proof.Proof.Gen.KernelIdeal.Skeleton
import proofs.«420664_j68839735820523_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_0 : Rect S64x10 := Rect.unit (s := S64x10) ![0, 0] S64x10.size inb_S64x10_S64x10_0_0

abbrev r12_1 : Rect S64x64 := Rect.unit (s := S64x64) ![0, 0] S64x64.size inb_S64x64_S64x64_0_0

abbrev r12_2 : Rect S64x32 := Rect.unit (s := S64x32) ![0, 0] S64x32.size inb_S64x32_S64x32_0_0

abbrev r12_3 : Rect S1x32 := Rect.unit (s := S1x32) ![0, 0] S1x32.size inb_S1x32_S1x32_0_0

abbrev r12_4 : Rect S32x16 := Rect.unit (s := S32x16) ![0, 0] S32x16.size inb_S32x16_S32x16_0_0

abbrev r12_5 : Rect S1x16 := Rect.unit (s := S1x16) ![0, 0] S1x16.size inb_S1x16_S1x16_0_0

abbrev r12_6 : Rect S16x10 := Rect.unit (s := S16x10) ![0, 0] S16x10.size inb_S16x10_S16x10_0_0

abbrev r12_7 : Rect S1x10 := Rect.unit (s := S1x10) ![0, 0] S1x10.size inb_S1x10_S1x10_0_0

def out12_7 (x0 : Vec F S64x64 .f32) (x1 : Vec F S64x32 .f32) (x2 : Vec F S1x32 .f32) (x3 : Vec F S32x16 .f32) (x4 : Vec F S1x16 .f32) (x5 : Vec F S16x10 .f32) (x6 : Vec F S1x10 .f32) : Vec F S64x10 .f32 :=
  View.canon [⟨r12_0, k12_pay1 (View.ld x0 r12_1) (View.ld x1 r12_2) (View.ld x2 r12_3) (View.ld x3 r12_4) (View.ld x4 r12_5) (View.ld x5 r12_6) (View.ld x6 r12_7)⟩]

theorem cover12_7 (p0 : Vec F S64x10 .f32) (y : S64x10.Idx) :
    ∃ pc ∈ ([⟨r12_0, p0⟩] : List (View.Piece (Elt F) S64x10 .f32)), y ∈ pc.1.set :=
  View.cover_of_tiled [⟨r12_0, p0⟩] S64x10.size (by rfl) y

set_option maxHeartbeats 1000000 in
theorem sound_kernel12 (c : Dev nD) (E : Set ℕ) (i : grid12.Coords)
    (arg1 : Memref sig .tc .vmem S64x64 .f32) (harg1 : arg1.IsWhole)
    (arg2 : Memref sig .tc .vmem S64x32 .f32) (harg2 : arg2.IsWhole)
    (arg3 : Memref sig .tc .vmem S1x32 .f32) (harg3 : arg3.IsWhole)
    (arg4 : Memref sig .tc .vmem S32x16 .f32) (harg4 : arg4.IsWhole)
    (arg5 : Memref sig .tc .vmem S1x16 .f32) (harg5 : arg5.IsWhole)
    (arg6 : Memref sig .tc .vmem S16x10 .f32) (harg6 : arg6.IsWhole)
    (arg7 : Memref sig .tc .vmem S1x10 .f32) (harg7 : arg7.IsWhole)
    (arg8 : Memref sig .tc .vmem S64x10 .f32) (harg8 : arg8.IsWhole)
    (x0 : Vec F S64x64 .f32) (x1 : Vec F S64x32 .f32) (x2 : Vec F S1x32 .f32) (x3 : Vec F S32x16 .f32) (x4 : Vec F S1x16 .f32) (x5 : Vec F S16x10 .f32) (x6 : Vec F S1x10 .f32)
    (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare (out12_7 x0 x1 x2 x3 x4 x5 x6)) -∗ K ⟨⟩))
      ⊢ wp frame (wpE (defs₀ (F := F)) Variants.none c none) E (cc12__mlp_kernel i arg1 harg1 arg2 harg2 arg3 harg3 arg4 harg4 arg5 harg5 arg6 harg6 arg7 harg7 arg8 harg8) K := by
  simp only [cc12__mlp_kernel_eq_skeleton]; unfold cc12__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover12_7 _)

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => out12_7 (iblk12 V c 0 t) (iblk12 V c 1 t) (iblk12 V c 2 t) (iblk12 V c 3 t) (iblk12 V c 4 t) (iblk12 V c 5 t) (iblk12 V c 6 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]

theorem after12_1 (c : Dev nD) (t : Fin cfg12.N) : (dat12 V c).after 1 t = iblk12 V c 1 t := by dsimp only [dat12]

theorem after12_2 (c : Dev nD) (t : Fin cfg12.N) : (dat12 V c).after 2 t = iblk12 V c 2 t := by dsimp only [dat12]

theorem after12_3 (c : Dev nD) (t : Fin cfg12.N) : (dat12 V c).after 3 t = iblk12 V c 3 t := by dsimp only [dat12]

theorem after12_4 (c : Dev nD) (t : Fin cfg12.N) : (dat12 V c).after 4 t = iblk12 V c 4 t := by dsimp only [dat12]

theorem after12_5 (c : Dev nD) (t : Fin cfg12.N) : (dat12 V c).after 5 t = iblk12 V c 5 t := by dsimp only [dat12]

theorem after12_6 (c : Dev nD) (t : Fin cfg12.N) : (dat12 V c).after 6 t = iblk12 V c 6 t := by dsimp only [dat12]

theorem after12_7 (c : Dev nD) (t : Fin cfg12.N) : (dat12 V c).after 7 t =
    out12_7 (iblk12 V c 0 t) (iblk12 V c 1 t) (iblk12 V c 2 t) (iblk12 V c 3 t) (iblk12 V c 4 t) (iblk12 V c 5 t) (iblk12 V c 6 t) := by dsimp only [dat12]

theorem before12 (c : Dev nD) (t : Fin cfg12.N) :
    (∀ d, (dat12 V c).before 0 t d = iblk12 V c 0 t) ∧
    (∀ d, (dat12 V c).before 1 t d = iblk12 V c 1 t) ∧
    (∀ d, (dat12 V c).before 2 t d = iblk12 V c 2 t) ∧
    (∀ d, (dat12 V c).before 3 t d = iblk12 V c 3 t) ∧
    (∀ d, (dat12 V c).before 4 t d = iblk12 V c 4 t) ∧
    (∀ d, (dat12 V c).before 5 t d = iblk12 V c 5 t) ∧
    (∀ d, (dat12 V c).before 6 t d = iblk12 V c 6 t) := by
  refine ⟨?_, ?_, ?_, ?_, ?_, ?_, ?_⟩ <;> intro d <;>
    exact ((dat12 V c).before_in_eq_fetched _ rfl (fun _ => rfl) (fun _ _ _ => rfl)
      (fun t => by rw [show (dat12 V c).after _ t = iblk12 V c _ t from rfl]; unfold Dat.blockOf iblk12; rw [A_eq12]; try rfl) t d).trans
      (by unfold Dat.fetched Dat.blockOf iblk12; rw [A_eq12]; try rfl)

theorem body_obligation12 (c : Dev nD) : BodyObligation (dat12 (F := F) V c) (defs₀ (F := F)) Variants.none () Set.univ := fun t => by
  rw [bigSep_W12, bigSep_W12]
  show (_ : sProp 𝕄) ⊢ wp frame _ Set.univ (bodyAt12 t) _
  unfold bodyAt12
  obtain ⟨hb0, hb1, hb2, hb3, hb4, hb5, hb6⟩ := before12 V c t
  simp only [hb0, hb1, hb2, hb3, hb4, hb5, hb6]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel12 c Set.univ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.KernelIdeal.Net
-- ==== Proof.KI.Fold.lean ====
import proofs.«420664_j68839735820523_2_alg».proof.Proof.KI.Reg0
import proofs.«420664_j68839735820523_2_alg».proof.Proof.KI.Reg1
import proofs.«420664_j68839735820523_2_alg».proof.Proof.KI.Reg2
import proofs.«420664_j68839735820523_2_alg».proof.Proof.KI.Reg3
import proofs.«420664_j68839735820523_2_alg».proof.Proof.KI.Reg4
import proofs.«420664_j68839735820523_2_alg».proof.Proof.KI.Reg5
import proofs.«420664_j68839735820523_2_alg».proof.Proof.KI.Reg6
import proofs.«420664_j68839735820523_2_alg».proof.Proof.KI.Reg7
import proofs.«420664_j68839735820523_2_alg».proof.Proof.KI.Reg8
import proofs.«420664_j68839735820523_2_alg».proof.Proof.KI.Reg9
import proofs.«420664_j68839735820523_2_alg».proof.Proof.KI.Reg10
import proofs.«420664_j68839735820523_2_alg».proof.Proof.KI.Reg11
import proofs.«420664_j68839735820523_2_alg».proof.Proof.KI.Reg12
import proofs.«420664_j68839735820523_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m ((c : Dev nD), b)

abbrev W1 : Dev nD → Valuation τ sig (Elt F) := fun c => StableHlo.after hostOps0 (W0 m c)

abbrev E1 : (c : Dev nD) → (b : Ref sig .tc) → Buf (Elt F) ((c : Thread nD τ).loc b) := fun c b => W1 m c b

theorem W1_of (c : Dev nD) (r : Ref sig .tc) (h : r ∉ hostOps0_W) : W1 m c r = W0 m c r :=
  StableHlo.after_of_writes_sub hostOps0 _ hostOps0_writes h

def W2 (c : Dev nD) : Valuation τ sig (Elt F) :=
  Pipeline.withArrays spec0 c (W1 m c) fun w => (dat0 (E1 m) c).arrAt w cfg0.N

theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w

theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

theorem W2_in0 (c : Dev nD) : W2 m c (Proc.devRef .tc main_arg0) = W1 m c (Proc.devRef .tc main_arg0) :=
  (W2_arr m c 0).trans (((dat0 (E1 m) c).arrAt_in 0 rfl _).trans (A_eq0 (E1 m) c 0))

theorem W2_in1 (c : Dev nD) : W2 m c (Proc.devRef .tc main_arg3) = W1 m c (Proc.devRef .tc main_arg3) :=
  (W2_arr m c 1).trans (((dat0 (E1 m) c).arrAt_in 1 rfl _).trans (A_eq0 (E1 m) c 1))

theorem W2_out (c : Dev nD) : W2 m c (Proc.devRef .tc main_v13) = (dat0 (E1 m) c).arrAt 2 cfg0.N :=
  W2_arr m c 2

abbrev W3 : Dev nD → Valuation τ sig (Elt F) := fun c => StableHlo.after hostOps1 (W2 m c)

abbrev E3 : (c : Dev nD) → (b : Ref sig .tc) → Buf (Elt F) ((c : Thread nD τ).loc b) := fun c b => W3 m c b

theorem W3_of (c : Dev nD) (r : Ref sig .tc) (h : r ∉ hostOps1_W) : W3 m c r = W2 m c r :=
  StableHlo.after_of_writes_sub hostOps1 _ hostOps1_writes h

def W4 (c : Dev nD) : Valuation τ sig (Elt F) :=
  Pipeline.withArrays spec1 c (W3 m c) fun w => (dat1 (E3 m) c).arrAt w cfg1.N

theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w

theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

theorem W4_in2 (c : Dev nD) : W4 m c (Proc.devRef .tc main_v12) = W3 m c (Proc.devRef .tc main_v12) :=
  (W4_arr m c 2).trans (((dat1 (E3 m) c).arrAt_in 2 rfl _).trans (A_eq1 (E3 m) c 2))

theorem W4_out (c : Dev nD) : W4 m c (Proc.devRef .tc main_v43) = (dat1 (E3 m) c).arrAt 4 cfg1.N :=
  W4_arr m c 4

abbrev W5 : Dev nD → Valuation τ sig (Elt F) := fun c => StableHlo.after hostOps2 (W4 m c)

abbrev E5 : (c : Dev nD) → (b : Ref sig .tc) → Buf (Elt F) ((c : Thread nD τ).loc b) := fun c b => W5 m c b

theorem W5_of (c : Dev nD) (r : Ref sig .tc) (h : r ∉ hostOps2_W) : W5 m c r = W4 m c r :=
  StableHlo.after_of_writes_sub hostOps2 _ hostOps2_writes h

def W6 (c : Dev nD) : Valuation τ sig (Elt F) :=
  Pipeline.withArrays spec2 c (W5 m c) fun w => (dat2 (E5 m) c).arrAt w cfg2.N

theorem W6_arr (c : Dev nD) (w : Fin cfg2.W) :
    W6 m c (Proc.devRef .tc (Pipeline.arrRef spec2 w)) = (dat2 (E5 m) c).arrAt w cfg2.N := by
  unfold W6; exact Pipeline.withArrays_arr spec2 launch2.win.arr_inj c _ _ w

theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

theorem W6_out (c : Dev nD) : W6 m c (Proc.devRef .tc main_v48) = (dat2 (E5 m) c).arrAt 2 cfg2.N :=
  W6_arr m c 2

abbrev W7 : Dev nD → Valuation τ sig (Elt F) := fun c => StableHlo.after hostOps3 (W6 m c)

abbrev E7 : (c : Dev nD) → (b : Ref sig .tc) → Buf (Elt F) ((c : Thread nD τ).loc b) := fun c b => W7 m c b

theorem W7_of (c : Dev nD) (r : Ref sig .tc) (h : r ∉ hostOps3_W) : W7 m c r = W6 m c r :=
  StableHlo.after_of_writes_sub hostOps3 _ hostOps3_writes h

def W8 (c : Dev nD) : Valuation τ sig (Elt F) :=
  Pipeline.withArrays spec3 c (W7 m c) fun w => (dat3 (E7 m) c).arrAt w cfg3.N

theorem W8_arr (c : Dev nD) (w : Fin cfg3.W) :
    W8 m c (Proc.devRef .tc (Pipeline.arrRef spec3 w)) = (dat3 (E7 m) c).arrAt w cfg3.N := by
  unfold W8; exact Pipeline.withArrays_arr spec3 launch3.win.arr_inj c _ _ w

theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb

theorem W8_in2 (c : Dev nD) : W8 m c (Proc.devRef .tc main_v12) = W7 m c (Proc.devRef .tc main_v12) :=
  (W8_arr m c 2).trans (((dat3 (E7 m) c).arrAt_in 2 rfl _).trans (A_eq3 (E7 m) c 2))

theorem W8_out (c : Dev nD) : W8 m c (Proc.devRef .tc main_v78) = (dat3 (E7 m) c).arrAt 4 cfg3.N :=
  W8_arr m c 4

abbrev W9 : Dev nD → Valuation τ sig (Elt F) := fun c => StableHlo.after hostOps4 (W8 m c)

abbrev E9 : (c : Dev nD) → (b : Ref sig .tc) → Buf (Elt F) ((c : Thread nD τ).loc b) := fun c b => W9 m c b

theorem W9_of (c : Dev nD) (r : Ref sig .tc) (h : r ∉ hostOps4_W) : W9 m c r = W8 m c r :=
  StableHlo.after_of_writes_sub hostOps4 _ hostOps4_writes h

def W10 (c : Dev nD) : Valuation τ sig (Elt F) :=
  Pipeline.withArrays spec4 c (W9 m c) fun w => (dat4 (E9 m) c).arrAt w cfg4.N

theorem W10_arr (c : Dev nD) (w : Fin cfg4.W) :
    W10 m c (Proc.devRef .tc (Pipeline.arrRef spec4 w)) = (dat4 (E9 m) c).arrAt w cfg4.N := by
  unfold W10; exact Pipeline.withArrays_arr spec4 launch4.win.arr_inj c _ _ w

theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb

theorem W10_out (c : Dev nD) : W10 m c (Proc.devRef .tc main_v92) = (dat4 (E9 m) c).arrAt 5 cfg4.N :=
  W10_arr m c 5

abbrev W11 : Dev nD → Valuation τ sig (Elt F) := fun c => StableHlo.after hostOps5 (W10 m c)

abbrev E11 : (c : Dev nD) → (b : Ref sig .tc) → Buf (Elt F) ((c : Thread nD τ).loc b) := fun c b => W11 m c b

theorem W11_of (c : Dev nD) (r : Ref sig .tc) (h : r ∉ hostOps5_W) : W11 m c r = W10 m c r :=
  StableHlo.after_of_writes_sub hostOps5 _ hostOps5_writes h

def W12 (c : Dev nD) : Valuation τ sig (Elt F) :=
  Pipeline.withArrays spec5 c (W11 m c) fun w => (dat5 (E11 m) c).arrAt w cfg5.N

theorem W12_arr (c : Dev nD) (w : Fin cfg5.W) :
    W12 m c (Proc.devRef .tc (Pipeline.arrRef spec5 w)) = (dat5 (E11 m) c).arrAt w cfg5.N := by
  unfold W12; exact Pipeline.withArrays_arr spec5 launch5.win.arr_inj c _ _ w

theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb

theorem W12_out (c : Dev nD) : W12 m c (Proc.devRef .tc main_v97) = (dat5 (E11 m) c).arrAt 2 cfg5.N :=
  W12_arr m c 2

abbrev W13 : Dev nD → Valuation τ sig (Elt F) := fun c => StableHlo.after hostOps6 (W12 m c)

abbrev E13 : (c : Dev nD) → (b : Ref sig .tc) → Buf (Elt F) ((c : Thread nD τ).loc b) := fun c b => W13 m c b

theorem W13_of (c : Dev nD) (r : Ref sig .tc) (h : r ∉ hostOps6_W) : W13 m c r = W12 m c r :=
  StableHlo.after_of_writes_sub hostOps6 _ hostOps6_writes h

def W14 (c : Dev nD) : Valuation τ sig (Elt F) :=
  Pipeline.withArrays spec6 c (W13 m c) fun w => (dat6 (E13 m) c).arrAt w cfg6.N

theorem W14_arr (c : Dev nD) (w : Fin cfg6.W) :
    W14 m c (Proc.devRef .tc (Pipeline.arrRef spec6 w)) = (dat6 (E13 m) c).arrAt w cfg6.N := by
  unfold W14; exact Pipeline.withArrays_arr spec6 launch6.win.arr_inj c _ _ w

theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb

theorem W14_in2 (c : Dev nD) : W14 m c (Proc.devRef .tc main_v12) = W13 m c (Proc.devRef .tc main_v12) :=
  (W14_arr m c 2).trans (((dat6 (E13 m) c).arrAt_in 2 rfl _).trans (A_eq6 (E13 m) c 2))

theorem W14_out (c : Dev nD) : W14 m c (Proc.devRef .tc main_v127) = (dat6 (E13 m) c).arrAt 4 cfg6.N :=
  W14_arr m c 4

abbrev W15 : Dev nD → Valuation τ sig (Elt F) := fun c => StableHlo.after hostOps7 (W14 m c)

abbrev E15 : (c : Dev nD) → (b : Ref sig .tc) → Buf (Elt F) ((c : Thread nD τ).loc b) := fun c b => W15 m c b

theorem W15_of (c : Dev nD) (r : Ref sig .tc) (h : r ∉ hostOps7_W) : W15 m c r = W14 m c r :=
  StableHlo.after_of_writes_sub hostOps7 _ hostOps7_writes h

def W16 (c : Dev nD) : Valuation τ sig (Elt F) :=
  Pipeline.withArrays spec7 c (W15 m c) fun w => (dat7 (E15 m) c).arrAt w cfg7.N

theorem W16_arr (c : Dev nD) (w : Fin cfg7.W) :
    W16 m c (Proc.devRef .tc (Pipeline.arrRef spec7 w)) = (dat7 (E15 m) c).arrAt w cfg7.N := by
  unfold W16; exact Pipeline.withArrays_arr spec7 launch7.win.arr_inj c _ _ w

theorem W16_of_ne (c : Dev nD) (b : Ref sig .tc) (hb : ∀ w, Pipeline.arrRef spec7 w ≠ b) :
    W16 m c (Proc.devRef .tc b) = W15 m c (Proc.devRef .tc b) := by
  unfold W16; exact Pipeline.withArrays_of_ne spec7 c _ _ b hb

theorem W16_out (c : Dev nD) : W16 m c (Proc.devRef .tc main_v141) = (dat7 (E15 m) c).arrAt 5 cfg7.N :=
  W16_arr m c 5

abbrev W17 : Dev nD → Valuation τ sig (Elt F) := fun c => StableHlo.after hostOps8 (W16 m c)

abbrev E17 : (c : Dev nD) → (b : Ref sig .tc) → Buf (Elt F) ((c : Thread nD τ).loc b) := fun c b => W17 m c b

theorem W17_of (c : Dev nD) (r : Ref sig .tc) (h : r ∉ hostOps8_W) : W17 m c r = W16 m c r :=
  StableHlo.after_of_writes_sub hostOps8 _ hostOps8_writes h

def W18 (c : Dev nD) : Valuation τ sig (Elt F) :=
  Pipeline.withArrays spec8 c (W17 m c) fun w => (dat8 (E17 m) c).arrAt w cfg8.N

theorem W18_arr (c : Dev nD) (w : Fin cfg8.W) :
    W18 m c (Proc.devRef .tc (Pipeline.arrRef spec8 w)) = (dat8 (E17 m) c).arrAt w cfg8.N := by
  unfold W18; exact Pipeline.withArrays_arr spec8 launch8.win.arr_inj c _ _ w

theorem W18_of_ne (c : Dev nD) (b : Ref sig .tc) (hb : ∀ w, Pipeline.arrRef spec8 w ≠ b) :
    W18 m c (Proc.devRef .tc b) = W17 m c (Proc.devRef .tc b) := by
  unfold W18; exact Pipeline.withArrays_of_ne spec8 c _ _ b hb

theorem W18_out (c : Dev nD) : W18 m c (Proc.devRef .tc main_v146) = (dat8 (E17 m) c).arrAt 2 cfg8.N :=
  W18_arr m c 2

abbrev W19 : Dev nD → Valuation τ sig (Elt F) := fun c => StableHlo.after hostOps9 (W18 m c)

abbrev E19 : (c : Dev nD) → (b : Ref sig .tc) → Buf (Elt F) ((c : Thread nD τ).loc b) := fun c b => W19 m c b

theorem W19_of (c : Dev nD) (r : Ref sig .tc) (h : r ∉ hostOps9_W) : W19 m c r = W18 m c r :=
  StableHlo.after_of_writes_sub hostOps9 _ hostOps9_writes h

def W20 (c : Dev nD) : Valuation τ sig (Elt F) :=
  Pipeline.withArrays spec9 c (W19 m c) fun w => (dat9 (E19 m) c).arrAt w cfg9.N

theorem W20_arr (c : Dev nD) (w : Fin cfg9.W) :
    W20 m c (Proc.devRef .tc (Pipeline.arrRef spec9 w)) = (dat9 (E19 m) c).arrAt w cfg9.N := by
  unfold W20; exact Pipeline.withArrays_arr spec9 launch9.win.arr_inj c _ _ w

theorem W20_of_ne (c : Dev nD) (b : Ref sig .tc) (hb : ∀ w, Pipeline.arrRef spec9 w ≠ b) :
    W20 m c (Proc.devRef .tc b) = W19 m c (Proc.devRef .tc b) := by
  unfold W20; exact Pipeline.withArrays_of_ne spec9 c _ _ b hb

theorem W20_out (c : Dev nD) : W20 m c (Proc.devRef .tc main_v176) = (dat9 (E19 m) c).arrAt 4 cfg9.N :=
  W20_arr m c 4

abbrev W21 : Dev nD → Valuation τ sig (Elt F) := fun c => StableHlo.after hostOps10 (W20 m c)

abbrev E21 : (c : Dev nD) → (b : Ref sig .tc) → Buf (Elt F) ((c : Thread nD τ).loc b) := fun c b => W21 m c b

theorem W21_of (c : Dev nD) (r : Ref sig .tc) (h : r ∉ hostOps10_W) : W21 m c r = W20 m c r :=
  StableHlo.after_of_writes_sub hostOps10 _ hostOps10_writes h

def W22 (c : Dev nD) : Valuation τ sig (Elt F) :=
  Pipeline.withArrays spec10 c (W21 m c) fun w => (dat10 (E21 m) c).arrAt w cfg10.N

theorem W22_arr (c : Dev nD) (w : Fin cfg10.W) :
    W22 m c (Proc.devRef .tc (Pipeline.arrRef spec10 w)) = (dat10 (E21 m) c).arrAt w cfg10.N := by
  unfold W22; exact Pipeline.withArrays_arr spec10 launch10.win.arr_inj c _ _ w

theorem W22_of_ne (c : Dev nD) (b : Ref sig .tc) (hb : ∀ w, Pipeline.arrRef spec10 w ≠ b) :
    W22 m c (Proc.devRef .tc b) = W21 m c (Proc.devRef .tc b) := by
  unfold W22; exact Pipeline.withArrays_of_ne spec10 c _ _ b hb

theorem W22_out (c : Dev nD) : W22 m c (Proc.devRef .tc main_v190) = (dat10 (E21 m) c).arrAt 5 cfg10.N :=
  W22_arr m c 5

abbrev W23 : Dev nD → Valuation τ sig (Elt F) := fun c => StableHlo.after hostOps11 (W22 m c)

abbrev E23 : (c : Dev nD) → (b : Ref sig .tc) → Buf (Elt F) ((c : Thread nD τ).loc b) := fun c b => W23 m c b

theorem W23_of (c : Dev nD) (r : Ref sig .tc) (h : r ∉ hostOps11_W) : W23 m c r = W22 m c r :=
  StableHlo.after_of_writes_sub hostOps11 _ hostOps11_writes h

def W24 (c : Dev nD) : Valuation τ sig (Elt F) :=
  Pipeline.withArrays spec11 c (W23 m c) fun w => (dat11 (E23 m) c).arrAt w cfg11.N

theorem W24_arr (c : Dev nD) (w : Fin cfg11.W) :
    W24 m c (Proc.devRef .tc (Pipeline.arrRef spec11 w)) = (dat11 (E23 m) c).arrAt w cfg11.N := by
  unfold W24; exact Pipeline.withArrays_arr spec11 launch11.win.arr_inj c _ _ w

theorem W24_of_ne (c : Dev nD) (b : Ref sig .tc) (hb : ∀ w, Pipeline.arrRef spec11 w ≠ b) :
    W24 m c (Proc.devRef .tc b) = W23 m c (Proc.devRef .tc b) := by
  unfold W24; exact Pipeline.withArrays_of_ne spec11 c _ _ b hb

theorem W24_out (c : Dev nD) : W24 m c (Proc.devRef .tc main_v192) = (dat11 (E23 m) c).arrAt 2 cfg11.N :=
  W24_arr m c 2

abbrev W25 : Dev nD → Valuation τ sig (Elt F) := fun c => StableHlo.after hostOps12 (W24 m c)

abbrev E25 : (c : Dev nD) → (b : Ref sig .tc) → Buf (Elt F) ((c : Thread nD τ).loc b) := fun c b => W25 m c b

theorem W25_of (c : Dev nD) (r : Ref sig .tc) (h : r ∉ hostOps12_W) : W25 m c r = W24 m c r :=
  StableHlo.after_of_writes_sub hostOps12 _ hostOps12_writes h

def W26 (c : Dev nD) : Valuation τ sig (Elt F) :=
  Pipeline.withArrays spec12 c (W25 m c) fun w => (dat12 (E25 m) c).arrAt w cfg12.N

theorem W26_arr (c : Dev nD) (w : Fin cfg12.W) :
    W26 m c (Proc.devRef .tc (Pipeline.arrRef spec12 w)) = (dat12 (E25 m) c).arrAt w cfg12.N := by
  unfold W26; exact Pipeline.withArrays_arr spec12 launch12.win.arr_inj c _ _ w

theorem W26_of_ne (c : Dev nD) (b : Ref sig .tc) (hb : ∀ w, Pipeline.arrRef spec12 w ≠ b) :
    W26 m c (Proc.devRef .tc b) = W25 m c (Proc.devRef .tc b) := by
  unfold W26; exact Pipeline.withArrays_of_ne spec12 c _ _ b hb

theorem W26_in1 (c : Dev nD) : W26 m c (Proc.devRef .tc main_arg9) = W25 m c (Proc.devRef .tc main_arg9) :=
  (W26_arr m c 1).trans (((dat12 (E25 m) c).arrAt_in 1 rfl _).trans (A_eq12 (E25 m) c 1))

theorem W26_in3 (c : Dev nD) : W26 m c (Proc.devRef .tc main_arg11) = W25 m c (Proc.devRef .tc main_arg11) :=
  (W26_arr m c 3).trans (((dat12 (E25 m) c).arrAt_in 3 rfl _).trans (A_eq12 (E25 m) c 3))

theorem W26_in5 (c : Dev nD) : W26 m c (Proc.devRef .tc main_arg13) = W25 m c (Proc.devRef .tc main_arg13) :=
  (W26_arr m c 5).trans (((dat12 (E25 m) c).arrAt_in 5 rfl _).trans (A_eq12 (E25 m) c 5))

theorem W26_out (c : Dev nD) : W26 m c (Proc.devRef .tc main_v205) = (dat12 (E25 m) c).arrAt 7 cfg12.N :=
  W26_arr m c 7

theorem W26_keep (c : Dev nD) (r : Ref sig .tc)
    (hh : r ∉ hostOps0_W ∧ r ∉ hostOps1_W ∧ r ∉ hostOps2_W ∧ r ∉ hostOps3_W ∧ r ∉ hostOps4_W ∧ r ∉ hostOps5_W ∧ r ∉ hostOps6_W ∧ r ∉ hostOps7_W ∧ r ∉ hostOps8_W ∧ r ∉ hostOps9_W ∧ r ∉ hostOps10_W ∧ r ∉ hostOps11_W ∧ r ∉ hostOps12_W)
    (hn : (∀ w, Pipeline.arrRef spec1 w ≠ r) ∧ (∀ w, Pipeline.arrRef spec2 w ≠ r) ∧ (∀ w, Pipeline.arrRef spec3 w ≠ r) ∧ (∀ w, Pipeline.arrRef spec4 w ≠ r) ∧ (∀ w, Pipeline.arrRef spec5 w ≠ r) ∧ (∀ w, Pipeline.arrRef spec6 w ≠ r) ∧ (∀ w, Pipeline.arrRef spec7 w ≠ r) ∧ (∀ w, Pipeline.arrRef spec8 w ≠ r) ∧ (∀ w, Pipeline.arrRef spec9 w ≠ r) ∧ (∀ w, Pipeline.arrRef spec10 w ≠ r) ∧ (∀ w, Pipeline.arrRef spec11 w ≠ r))
    (h0 : W2 m c (Proc.devRef .tc r) = W1 m c (Proc.devRef .tc r))
    (h12 : W26 m c (Proc.devRef .tc r) = W25 m c (Proc.devRef .tc r)) :
    W26 m c (Proc.devRef .tc r) = m ((c : Thread nD τ).loc r) := by
  obtain ⟨a0, a1, a2, a3, a4, a5, a6, a7, a8, a9, a10, a11, a12⟩ := hh
  obtain ⟨b1, b2, b3, b4, b5, b6, b7, b8, b9, b10, b11⟩ := hn
  exact h12.trans <| (W25_of m c r a12).trans <| (W24_of_ne m c r b11).trans <| (W23_of m c r a11).trans <| (W22_of_ne m c r b10).trans <| (W21_of m c r a10).trans <| (W20_of_ne m c r b9).trans <| (W19_of m c r a9).trans <| (W18_of_ne m c r b8).trans <| (W17_of m c r a8).trans <| (W16_of_ne m c r b7).trans <| (W15_of m c r a7).trans <| (W14_of_ne m c r b6).trans <| (W13_of m c r a6).trans <| (W12_of_ne m c r b5).trans <| (W11_of m c r a5).trans <| (W10_of_ne m c r b4).trans <| (W9_of m c r a4).trans <| (W8_of_ne m c r b3).trans <| (W7_of m c r a3).trans <| (W6_of_ne m c r b2).trans <| (W5_of m c r a2).trans <| (W4_of_ne m c r b1).trans <| (W3_of m c r a1).trans <| h0.trans (W1_of m c r a0)

theorem W26_main_arg0 (c : Dev nD) : W26 m c (Proc.devRef .tc main_arg0) = m ((c : Thread nD τ).loc main_arg0) :=
  W26_keep m c main_arg0 (by decide) (by decide) (W2_in0 m c) (W26_of_ne m c _ (by decide))

theorem W26_main_arg1 (c : Dev nD) : W26 m c (Proc.devRef .tc main_arg1) = m ((c : Thread nD τ).loc main_arg1) :=
  W26_keep m c main_arg1 (by decide) (by decide) (W2_of_ne m c _ (by decide)) (W26_of_ne m c _ (by decide))

theorem W26_main_arg2 (c : Dev nD) : W26 m c (Proc.devRef .tc main_arg2) = m ((c : Thread nD τ).loc main_arg2) :=
  W26_keep m c main_arg2 (by decide) (by decide) (W2_of_ne m c _ (by decide)) (W26_of_ne m c _ (by decide))

theorem W26_main_arg3 (c : Dev nD) : W26 m c (Proc.devRef .tc main_arg3) = m ((c : Thread nD τ).loc main_arg3) :=
  W26_keep m c main_arg3 (by decide) (by decide) (W2_in1 m c) (W26_of_ne m c _ (by decide))

theorem W26_main_arg4 (c : Dev nD) : W26 m c (Proc.devRef .tc main_arg4) = m ((c : Thread nD τ).loc main_arg4) :=
  W26_keep m c main_arg4 (by decide) (by decide) (W2_of_ne m c _ (by decide)) (W26_of_ne m c _ (by decide))

theorem W26_main_arg5 (c : Dev nD) : W26 m c (Proc.devRef .tc main_arg5) = m ((c : Thread nD τ).loc main_arg5) :=
  W26_keep m c main_arg5 (by decide) (by decide) (W2_of_ne m c _ (by decide)) (W26_of_ne m c _ (by decide))

theorem W26_main_arg6 (c : Dev nD) : W26 m c (Proc.devRef .tc main_arg6) = m ((c : Thread nD τ).loc main_arg6) :=
  W26_keep m c main_arg6 (by decide) (by decide) (W2_of_ne m c _ (by decide)) (W26_of_ne m c _ (by decide))

theorem W26_main_arg7 (c : Dev nD) : W26 m c (Proc.devRef .tc main_arg7) = m ((c : Thread nD τ).loc main_arg7) :=
  W26_keep m c main_arg7 (by decide) (by decide) (W2_of_ne m c _ (by decide)) (W26_of_ne m c _ (by decide))

theorem W26_main_arg8 (c : Dev nD) : W26 m c (Proc.devRef .tc main_arg8) = m ((c : Thread nD τ).loc main_arg8) :=
  W26_keep m c main_arg8 (by decide) (by decide) (W2_of_ne m c _ (by decide)) (W26_of_ne m c _ (by decide))

theorem W26_main_arg9 (c : Dev nD) : W26 m c (Proc.devRef .tc main_arg9) = m ((c : Thread nD τ).loc main_arg9) :=
  W26_keep m c main_arg9 (by decide) (by decide) (W2_of_ne m c _ (by decide)) (W26_in1 m c)

theorem W26_main_arg10 (c : Dev nD) : W26 m c (Proc.devRef .tc main_arg10) = m ((c : Thread nD τ).loc main_arg10) :=
  W26_keep m c main_arg10 (by decide) (by decide) (W2_of_ne m c _ (by decide)) (W26_of_ne m c _ (by decide))

theorem W26_main_arg11 (c : Dev nD) : W26 m c (Proc.devRef .tc main_arg11) = m ((c : Thread nD τ).loc main_arg11) :=
  W26_keep m c main_arg11 (by decide) (by decide) (W2_of_ne m c _ (by decide)) (W26_in3 m c)

theorem W26_main_arg12 (c : Dev nD) : W26 m c (Proc.devRef .tc main_arg12) = m ((c : Thread nD τ).loc main_arg12) :=
  W26_keep m c main_arg12 (by decide) (by decide) (W2_of_ne m c _ (by decide)) (W26_of_ne m c _ (by decide))

theorem W26_main_arg13 (c : Dev nD) : W26 m c (Proc.devRef .tc main_arg13) = m ((c : Thread nD τ).loc main_arg13) :=
  W26_keep m c main_arg13 (by decide) (by decide) (W2_of_ne m c _ (by decide)) (W26_in5 m c)

theorem W26_main_arg14 (c : Dev nD) : W26 m c (Proc.devRef .tc main_arg14) = m ((c : Thread nD τ).loc main_arg14) :=
  W26_keep m c main_arg14 (by decide) (by decide) (W2_of_ne m c _ (by decide)) (W26_of_ne m c _ (by decide))

end Cert.KernelIdeal.Net

end
-- ==== Proof.KI.Run.lean ====
import proofs.«420664_j68839735820523_2_alg».proof.Proof.KI.Fold

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev admN : (p : Fin 13) → (pcfgs (F := F) p).Adm := fun p => (cfgs p).toPCfg_adm

def pdatsN : (p : Fin 13) → (c : Dev nD) → Dat τ (Elt F) Unit ℕ (UR sig nD τ) ℕ (Pipeline.pin (pcfgs (F := F)) admN p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c
  | ⟨6, _⟩ => fun c => dat6 (E13 m) c
  | ⟨7, _⟩ => fun c => dat7 (E15 m) c
  | ⟨8, _⟩ => fun c => dat8 (E17 m) c
  | ⟨9, _⟩ => fun c => dat9 (E19 m) c
  | ⟨10, _⟩ => fun c => dat10 (E21 m) c
  | ⟨11, _⟩ => fun c => dat11 (E23 m) c
  | ⟨12, _⟩ => fun c => dat12 (E25 m) c

abbrev 𝒱N : Variants := Variants.none

abbrev LN : GSem nD τ sig → Finset Unit := fun _ => ∅

abbrev lvN : GSem nD τ sig → Unit → ℕ := fun _ _ => 0

abbrev RN (c : Dev nD) : sProp 𝕄 := iprop((∃ r, prngReg c r) ∗ ∃ W, owes (c : Thread nD τ) (0 : CellTallies nD τ sig Unit) W)

abbrev hsegN (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱N LN lvN :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RN

theorem mem_ucN (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev TnN (c : Dev nD) : sProp 𝕄 := iprop(StableHlo.held (c : Thread nD τ) (Pipeline.ucRefs τ sig) (W26 m c) ∗ ∃ r, prngReg c r)

theorem ΦA_in {gr W : ℕ} (win : Fin W → Pipeline.WinSpec sig gr) (c : Dev nD) :
    (iprop((∃ r, prngReg c r) ∗ Pipeline.scopedRest (Ix := Unit) (Name := ℕ) (U := UR sig nD τ) (Lvl := ℕ) win c) : sProp 𝕄) ⊢ Pipeline.ΦA win c := by
  unfold Pipeline.ΦA
  iintro ⟨Hp, Hr⟩
  isplitl [Hr]; · iexact Hr
  iexact Hp

theorem ΦA_out {gr W : ℕ} (win : Fin W → Pipeline.WinSpec sig gr) (c : Dev nD) :
    Pipeline.ΦA win c ⊢ (iprop((∃ r, prngReg c r) ∗ Pipeline.scopedRest (Ix := Unit) (Name := ℕ) (U := UR sig nD τ) (Lvl := ℕ) win c) : sProp 𝕄) := by
  unfold Pipeline.ΦA
  iintro ⟨Hr, Hp⟩
  isplitl [Hp]; · iexact Hp
  iexact Hr

set_option backward.isDefEq.respectTransparency.types false in
def regOf (p : Fin 13) (L : Pipeline.LaunchFacts (nD := nD) (τ := τ) cfgs p) (Win Wout : Dev nD → Valuation τ sig (Elt F))
    (hbody : ∀ c, BodyObligation (pdatsN m p c) (defs₀ (F := F)) Variants.none () Set.univ)
    (hq : ∀ c w, (pdatsN m p c).q w = fullShare) (howed : ∀ c t, (pdatsN m p c).owed t = 0)
    (hrec : ∀ c, (pdatsN m p c).recorded 0 = Set.univ)
    (hin : ∀ c, (iprop((∃ r, prngReg c r) ∗ Pipeline.scopedRest (Ix := Unit) (Name := ℕ) (U := UR sig nD τ) (Lvl := ℕ) (cfgs p).spec c) : sProp 𝕄) ⊢ (pdatsN m p c).Φ 0)
    (hout : ∀ c, (pdatsN m p c).Φ (Fin.last _) ⊢ (iprop((∃ r, prngReg c r) ∗ Pipeline.scopedRest (Ix := Unit) (Name := ℕ) (U := UR sig nD τ) (Lvl := ℕ) (cfgs p).spec c) : sProp 𝕄))
    (hA : ∀ c w, (pdatsN m p c).A w = Win c (Proc.devRef .tc (Pipeline.arrRef (cfgs p).spec w)))
    (harr : ∀ c w, Wout c (Proc.devRef .tc (Pipeline.arrRef (cfgs p).spec w)) = (pdatsN m p c).arrAt w (cfgs p).N)
    (hne : ∀ c (b : Ref sig .tc), (∀ w, Pipeline.arrRef (cfgs p).spec w ≠ b) → Wout c (Proc.devRef .tc b) = Win c (Proc.devRef .tc b)) :
    Pipeline.RegionSeg (pcfgs (F := F)) admN (pdatsN m) () defs₀ 𝒱N LN lvN p where
  win := L.win.to₀
  block_pos := L.block_pos
  stage_whole := L.stage_whole
  K := PEmpty
  osem k := k.elim
  ho := Pipeline.OwnSemFacts.none _
  hbody c := (hbody c).loose
  hwaits := Pipeline.hwaits_of_owed_zero _ _ _ _ LN lvN p howed
  pre c := iprop(StableHlo.held (c : Thread nD τ) (Pipeline.ucRefs τ sig) (Win c) ∗ RN c)
  post c := iprop(StableHlo.held (c : Thread nD τ) (Pipeline.ucRefs τ sig) (Wout c) ∗ RN c)
  X c := iprop(∃ r, prngReg c r)
  Y c := iprop(∃ r, prngReg c r)
  Z c := Pipeline.unscopedRest (Ix := Unit) (Name := ℕ) (U := UR sig nD τ) (Lvl := ℕ) (cfgs p).spec c (fun b => Win c (Proc.devRef .tc b))
  hentry c := by
    rw [Pipeline.ownSems0_none]
    have hsplit := Pipeline.arrays_of_unscopedBufs (p := p) (pcfgs (F := F)) admN (pdatsN m) L.win L.arr_whole c
      ((pdatsN m p c).share_full (hq c)) (fun b => Win c (Proc.devRef .tc b)) (hA c)
    rw [Pipeline.unscopedBufs_held c (Win c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun _ _ => Or.inl ((hrec c).symm ▸ Set.mem_univ _)
      iexact HO
    isplitl [Hp]; · iexact Hp
    iexact Hrest
  hin c := by
    iintro ⟨Hp, -, Hr⟩
    iapply (hin c)
    isplitl [Hp]; · iexact Hp
    iexact Hr
  hout c := by
    rw [Pipeline.ownSems0_none]
    iintro H
    ihave H' := (hout c) $$ H
    icases H' with ⟨Hp, Hr⟩
    isplitl [Hp]; · iexact Hp
    isplitr; · iempintro
    iexact Hr
  hexit c := by
    have hjoin := Pipeline.unscopedBufs_of_arrays (p := p) (pcfgs (F := F)) admN (Ix := Unit) (Name := ℕ) (U := UR sig nD τ) (Lvl := ℕ)
      L.win L.arr_whole c (pdatsN m) ((pdatsN m p c).share_full (hq c))
      (fun b => Win c (Proc.devRef .tc b)) (fun b => Wout c (Proc.devRef .tc b)) ((pdatsN m p c).arrAt · (cfgs p).N) (fun w => (harr c w).symm)
      (fun b hb => hne c b fun w e => hb (Finset.mem_image.mpr ⟨w, Finset.mem_univ _, e⟩))
    rw [Pipeline.unscopedBufs_held c (Wout c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

def regN0 := regOf m 0 launch0 (W1 m) (W2 m) (body_obligation0 (E1 m)) (fun _ _ => rfl) (fun _ _ => rfl) (fun _ => rfl) (ΦA_in _) (ΦA_out _) (fun _ _ => rfl) (W2_arr m) (W2_of_ne m)

def regN1 := regOf m 1 launch1 (W3 m) (W4 m) (body_obligation1 (E3 m)) (fun _ _ => rfl) (fun _ _ => rfl) (fun _ => rfl) (ΦA_in _) (ΦA_out _) (fun _ _ => rfl) (W4_arr m) (W4_of_ne m)

def regN2 := regOf m 2 launch2 (W5 m) (W6 m) (body_obligation2 (E5 m)) (fun _ _ => rfl) (fun _ _ => rfl) (fun _ => rfl) (ΦA_in _) (ΦA_out _) (fun _ _ => rfl) (W6_arr m) (W6_of_ne m)

def regN3 := regOf m 3 launch3 (W7 m) (W8 m) (body_obligation3 (E7 m)) (fun _ _ => rfl) (fun _ _ => rfl) (fun _ => rfl) (ΦA_in _) (ΦA_out _) (fun _ _ => rfl) (W8_arr m) (W8_of_ne m)

def regN4 := regOf m 4 launch4 (W9 m) (W10 m) (body_obligation4 (E9 m)) (fun _ _ => rfl) (fun _ _ => rfl) (fun _ => rfl) (ΦA_in _) (ΦA_out _) (fun _ _ => rfl) (W10_arr m) (W10_of_ne m)

def regN5 := regOf m 5 launch5 (W11 m) (W12 m) (body_obligation5 (E11 m)) (fun _ _ => rfl) (fun _ _ => rfl) (fun _ => rfl) (ΦA_in _) (ΦA_out _) (fun _ _ => rfl) (W12_arr m) (W12_of_ne m)

def regN6 := regOf m 6 launch6 (W13 m) (W14 m) (body_obligation6 (E13 m)) (fun _ _ => rfl) (fun _ _ => rfl) (fun _ => rfl) (ΦA_in _) (ΦA_out _) (fun _ _ => rfl) (W14_arr m) (W14_of_ne m)

def regN7 := regOf m 7 launch7 (W15 m) (W16 m) (body_obligation7 (E15 m)) (fun _ _ => rfl) (fun _ _ => rfl) (fun _ => rfl) (ΦA_in _) (ΦA_out _) (fun _ _ => rfl) (W16_arr m) (W16_of_ne m)

def regN8 := regOf m 8 launch8 (W17 m) (W18 m) (body_obligation8 (E17 m)) (fun _ _ => rfl) (fun _ _ => rfl) (fun _ => rfl) (ΦA_in _) (ΦA_out _) (fun _ _ => rfl) (W18_arr m) (W18_of_ne m)

def regN9 := regOf m 9 launch9 (W19 m) (W20 m) (body_obligation9 (E19 m)) (fun _ _ => rfl) (fun _ _ => rfl) (fun _ => rfl) (ΦA_in _) (ΦA_out _) (fun _ _ => rfl) (W20_arr m) (W20_of_ne m)

def regN10 := regOf m 10 launch10 (W21 m) (W22 m) (body_obligation10 (E21 m)) (fun _ _ => rfl) (fun _ _ => rfl) (fun _ => rfl) (ΦA_in _) (ΦA_out _) (fun _ _ => rfl) (W22_arr m) (W22_of_ne m)

def regN11 := regOf m 11 launch11 (W23 m) (W24 m) (body_obligation11 (E23 m)) (fun _ _ => rfl) (fun _ _ => rfl) (fun _ => rfl) (hin11 (E23 m)) (hout11 (E23 m)) (fun _ _ => rfl) (W24_arr m) (W24_of_ne m)

def regN12 := regOf m 12 launch12 (W25 m) (W26 m) (body_obligation12 (E25 m)) (fun _ _ => rfl) (fun _ _ => rfl) (fun _ => rfl) (ΦA_in _) (ΦA_out _) (fun _ _ => rfl) (W26_arr m) (W26_of_ne m)

abbrev segsN : List (Pipeline.Seg (pcfgs (F := F)) admN (pdatsN m) () defs₀ 𝒱N LN lvN) :=
  [ .host (hsegN hostOps0 hostOps0_sub hostOps0_fresh (W0 m)),
    .region (regN0 m),
    .host (hsegN hostOps1 hostOps1_sub hostOps1_fresh (W2 m)),
    .region (regN1 m),
    .host (hsegN hostOps2 hostOps2_sub hostOps2_fresh (W4 m)),
    .region (regN2 m),
    .host (hsegN hostOps3 hostOps3_sub hostOps3_fresh (W6 m)),
    .region (regN3 m),
    .host (hsegN hostOps4 hostOps4_sub hostOps4_fresh (W8 m)),
    .region (regN4 m),
    .host (hsegN hostOps5 hostOps5_sub hostOps5_fresh (W10 m)),
    .region (regN5 m),
    .host (hsegN hostOps6 hostOps6_sub hostOps6_fresh (W12 m)),
    .region (regN6 m),
    .host (hsegN hostOps7 hostOps7_sub hostOps7_fresh (W14 m)),
    .region (regN7 m),
    .host (hsegN hostOps8 hostOps8_sub hostOps8_fresh (W16 m)),
    .region (regN8 m),
    .host (hsegN hostOps9 hostOps9_sub hostOps9_fresh (W18 m)),
    .region (regN9 m),
    .host (hsegN hostOps10 hostOps10_sub hostOps10_fresh (W20 m)),
    .region (regN10 m),
    .host (hsegN hostOps11 hostOps11_sub hostOps11_fresh (W22 m)),
    .region (regN11 m),
    .host (hsegN hostOps12 hostOps12_sub hostOps12_fresh (W24 m)),
    .region (regN12 m) ]

theorem main_runN (c : Dev nD) : main (F := F) c = Pipeline.Seg.run (segsN m) := (main_chain c).trans (by chain_rfl)

set_option backward.isDefEq.respectTransparency.types false in
theorem run : θ_run defs (onTc (τ := τ) (main (F := F))) ⟨m, fun _ => 0, ρ⟩ (fun r => ∀ c : Dev nD,
      r.2.mem ((c.tc : Thread nD τ).loc main_v205) = W26 m c (Proc.devRef .tc main_v205)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) admN (pdatsN m) () cellOf_inj emb₁ defs₀ 𝒱N LN lvN m ρ main (segsN m)
    (fun c Q => by rw [main_runN m c])
    (by simp only [segsN, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RN c)) (Tₙ := TnN m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W26 m c) ∗ RN c) ⊢ iprop(TnN m c ∗ ∃ W, owes (c : Thread nD τ) (0 : CellTallies nD τ sig Unit) W)
      iintro ⟨Hh, Hp, HO⟩
      isplitl [Hh Hp]
      · isplitl [Hh]
        · iexact Hh
        iexact Hp
      iexact HO⟩)
    (hinit := by
      refine Pipeline.initEach LN lvN fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m c b)
    (hfin := fun c s' => by
      iintro ⟨⟨Hh, -⟩, HSI⟩
      unfold StableHlo.held
      imodintro
      iapply (pointsTo_read_all (Pipeline.ucRefs τ sig) (fun b => (((c : Thread nD τ)).1, b)) (W26 m c) s')
      isplitl [Hh] <;> iassumption)
    (hQ := fun s h c =>
      ⟨h c _ (mem_ucN main_v205 (by decide)),
       (h c _ (mem_ucN main_arg0 (by decide))).trans (W26_main_arg0 m c),
       (h c _ (mem_ucN main_arg1 (by decide))).trans (W26_main_arg1 m c),
       (h c _ (mem_ucN main_arg2 (by decide))).trans (W26_main_arg2 m c),
       (h c _ (mem_ucN main_arg3 (by decide))).trans (W26_main_arg3 m c),
       (h c _ (mem_ucN main_arg4 (by decide))).trans (W26_main_arg4 m c),
       (h c _ (mem_ucN main_arg5 (by decide))).trans (W26_main_arg5 m c),
       (h c _ (mem_ucN main_arg6 (by decide))).trans (W26_main_arg6 m c),
       (h c _ (mem_ucN main_arg7 (by decide))).trans (W26_main_arg7 m c),
       (h c _ (mem_ucN main_arg8 (by decide))).trans (W26_main_arg8 m c),
       (h c _ (mem_ucN main_arg9 (by decide))).trans (W26_main_arg9 m c),
       (h c _ (mem_ucN main_arg10 (by decide))).trans (W26_main_arg10 m c),
       (h c _ (mem_ucN main_arg11 (by decide))).trans (W26_main_arg11 m c),
       (h c _ (mem_ucN main_arg12 (by decide))).trans (W26_main_arg12 m c),
       (h c _ (mem_ucN main_arg13 (by decide))).trans (W26_main_arg13 m c),
       (h c _ (mem_ucN main_arg14 (by decide))).trans (W26_main_arg14 m c)⟩)

end Cert.KernelIdeal.Net

end
-- ==== Proof.RefRead.lean ====
import proofs.«420664_j68839735820523_2_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

def val_main_v0 (x1 : (⟨S2x800000, .i32⟩ : BufTy).Contents (Elt F)) : (⟨S1x800000, .i32⟩ : BufTy).Contents (Elt F) :=
  extractStridedSlice S1x800000 ![0, 0] (x1) slices_S2x800000_S1x800000_0_0

def val_main_v1 (x1 : (⟨S2x800000, .i32⟩ : BufTy).Contents (Elt F)) : (⟨S800000, .i32⟩ : BufTy).Contents (Elt F) :=
  shapeCast _ (val_main_v0 (F := F) x1) shapeCasts_S1x800000_S800000

def val_main_v2 (x1 : (⟨S2x800000, .i32⟩ : BufTy).Contents (Elt F)) : (⟨S1x800000, .i32⟩ : BufTy).Contents (Elt F) :=
  extractStridedSlice S1x800000 ![1, 0] (x1) slices_S2x800000_S1x800000_1_0

def val_main_v3 (x1 : (⟨S2x800000, .i32⟩ : BufTy).Contents (Elt F)) : (⟨S800000, .i32⟩ : BufTy).Contents (Elt F) :=
  shapeCast _ (val_main_v2 (F := F) x1) shapeCasts_S1x800000_S800000

def val_main_cst : (⟨S_, .f32⟩ : BufTy).Contents (Elt F) :=
  constant S_ .f32 0x3F800000#32

def val_main_v4 : (⟨S800000, .f32⟩ : BufTy).Contents (Elt F) :=
  broadcastInDim S800000 ![] bcast_S_S800000 (val_main_cst (F := F))

def val_main_cst_0 : (⟨S_, .f32⟩ : BufTy).Contents (Elt F) :=
  constant S_ .f32 0x00000000#32

def val_main_v5 : (⟨S50000, .f32⟩ : BufTy).Contents (Elt F) :=
  broadcastInDim S50000 ![] bcast_S_S50000 (val_main_cst_0 (F := F))

def val_main_v6 (x1 : (⟨S2x800000, .i32⟩ : BufTy).Contents (Elt F)) : (⟨S800000x1, .i32⟩ : BufTy).Contents (Elt F) :=
  broadcastInDim S800000x1 ![0] bcast_S800000_S800000x1_0 (val_main_v3 (F := F) x1)

def val_main_v7 (x1 : (⟨S2x800000, .i32⟩ : BufTy).Contents (Elt F)) : (⟨S50000, .f32⟩ : BufTy).Contents (Elt F) :=
  Host.scatterAdd scatter_S50000_S800000x1_S800000_n_0_0_1 (val_main_v5 (F := F)) (val_main_v6 (F := F) x1) (val_main_v4 (F := F))

def val_main_cst_1 : (⟨S_, .f32⟩ : BufTy).Contents (Elt F) :=
  constant S_ .f32 0x3F800000#32

def val_main_v8 : (⟨S50000, .f32⟩ : BufTy).Contents (Elt F) :=
  broadcastInDim S50000 ![] bcast_S_S50000 (val_main_cst_1 (F := F))

def val_main_v9 (x1 : (⟨S2x800000, .i32⟩ : BufTy).Contents (Elt F)) : (⟨S50000, .f32⟩ : BufTy).Contents (Elt F) :=
  addf (val_main_v7 (F := F) x1) (val_main_v8 (F := F))

def val_main_v10 (x1 : (⟨S2x800000, .i32⟩ : BufTy).Contents (Elt F)) : (⟨S50000, .f32⟩ : BufTy).Contents (Elt F) :=
  Host.rsqrt (val_main_v9 (F := F) x1)

def val_main_v11 (x0 : (⟨S50000x128, .f32⟩ : BufTy).Contents (Elt F)) (x3 : (⟨S128x64, .f32⟩ : BufTy).Contents (Elt F)) : (⟨S50000x64, .f32⟩ : BufTy).Contents (Elt F) :=
  Host.dotGeneral dot_S50000x128_S128x64_S50000x64_1_0_0_1_n_n none (x0) (x3)

theorem lhs_main_v11_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl

theorem lhs_main_v11_1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q

theorem rhs_main_v11_0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q

theorem rhs_main_v11_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

abbrev lidx_main_v11 (i : S50000x64.Idx) (k : Fin 128) : S50000x128.Idx := fun a => match a with
  | ⟨0, _⟩ => ⟨(i 0).val, (i 0).isLt⟩
  | ⟨1, _⟩ => ⟨k.val, k.isLt⟩

abbrev ridx_main_v11 (i : S50000x64.Idx) (k : Fin 128) : S128x64.Idx := fun a => match a with
  | ⟨0, _⟩ => ⟨k.val, k.isLt⟩
  | ⟨1, _⟩ => ⟨(i 1).val, (i 1).isLt⟩

theorem val_main_v11_apply (x0 : (⟨S50000x128, .f32⟩ : BufTy).Contents (Elt Ideal)) (x3 : (⟨S128x64, .f32⟩ : BufTy).Contents (Elt Ideal)) (i : S50000x64.Idx) :
    val_main_v11 (F := Ideal) x0 x3 i = ∑ k : Fin 128, x0 (lidx_main_v11 i k) * x3 (ridx_main_v11 i k) := by
  unfold val_main_v11
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = lidx_main_v11 i k := funext fun a => Fin.ext (by
    match a with
    | ⟨0, _⟩ => exact lhs_main_v11_0 _ _
    | ⟨1, _⟩ => exact (lhs_main_v11_1 _ _).trans hk)
  have er : dot_S50000x128_S128x64_S50000x64_1_0_0_1_n_n.rhsIdx i ((ValueIdx.contrEquiv1 dot_S50000x128_S128x64_S50000x64_1_0_0_1_n_n 128 rfl rfl).symm k) = ridx_main_v11 i k := funext fun a => Fin.ext (by
    match a with
    | ⟨0, _⟩ => exact (rhs_main_v11_0 _ _).trans hk
    | ⟨1, _⟩ => exact rhs_main_v11_1 _ _)
  rw [el, er]

def val_main_c : (⟨S_, .i32⟩ : BufTy).Contents (Elt F) :=
  constantI S_ 32 0#32

def val_main_v12 : (⟨S800000, .i32⟩ : BufTy).Contents (Elt F) :=
  broadcastInDim S800000 ![] bcast_S_S800000 (val_main_c (F := F))

def val_main_v13 (x1 : (⟨S2x800000, .i32⟩ : BufTy).Contents (Elt F)) : (⟨S800000, .i1⟩ : BufTy).Contents (Elt F) :=
  cmpi .slt (val_main_v1 (F := F) x1) (val_main_v12 (F := F))

def val_main_c_2 : (⟨S_, .i32⟩ : BufTy).Contents (Elt F) :=
  constantI S_ 32 50000#32

def val_main_v14 : (⟨S800000, .i32⟩ : BufTy).Contents (Elt F) :=
  broadcastInDim S800000 ![] bcast_S_S800000 (val_main_c_2 (F := F))

def val_main_v15 (x1 : (⟨S2x800000, .i32⟩ : BufTy).Contents (Elt F)) : (⟨S800000, .i32⟩ : BufTy).Contents (Elt F) :=
  addi (val_main_v1 (F := F) x1) (val_main_v14 (F := F))

def val_main_v16 (x1 : (⟨S2x800000, .i32⟩ : BufTy).Contents (Elt F)) : (⟨S800000, .i32⟩ : BufTy).Contents (Elt F) :=
  select (val_main_v13 (F := F) x1) (val_main_v15 (F := F) x1) (val_main_v1 (F := F) x1)

def val_main_v17 (x1 : (⟨S2x800000, .i32⟩ : BufTy).Contents (Elt F)) : (⟨S800000x1, .i32⟩ : BufTy).Contents (Elt F) :=
  broadcastInDim S800000x1 ![0] bcast_S800000_S800000x1_0 (val_main_v16 (F := F) x1)

def val_main_v18 (x1 : (⟨S2x800000, .i32⟩ : BufTy).Contents (Elt F)) : (⟨S800000, .f32⟩ : BufTy).Contents (Elt F) :=
  Host.gather gather_S50000_S800000x1_S800000_n_0_n_n_0_1_1 (val_main_v10 (F := F) x1) (val_main_v17 (F := F) x1)

def val_main_c_3 : (⟨S_, .i32⟩ : BufTy).Contents (Elt F) :=
  constantI S_ 32 0#32

def val_main_v19 : (⟨S800000, .i32⟩ : BufTy).Contents (Elt F) :=
  broadcastInDim S800000 ![] bcast_S_S800000 (val_main_c_3 (F := F))

def val_main_v20 (x1 : (⟨S2x800000, .i32⟩ : BufTy).Contents (Elt F)) : (⟨S800000, .i1⟩ : BufTy).Contents (Elt F) :=
  cmpi .slt (val_main_v3 (F := F) x1) (val_main_v19 (F := F))

def val_main_c_4 : (⟨S_, .i32⟩ : BufTy).Contents (Elt F) :=
  constantI S_ 32 50000#32

def val_main_v21 : (⟨S800000, .i32⟩ : BufTy).Contents (Elt F) :=
  broadcastInDim S800000 ![] bcast_S_S800000 (val_main_c_4 (F := F))

def val_main_v22 (x1 : (⟨S2x800000, .i32⟩ : BufTy).Contents (Elt F)) : (⟨S800000, .i32⟩ : BufTy).Contents (Elt F) :=
  addi (val_main_v3 (F := F) x1) (val_main_v21 (F := F))

def val_main_v23 (x1 : (⟨S2x800000, .i32⟩ : BufTy).Contents (Elt F)) : (⟨S800000, .i32⟩ : BufTy).Contents (Elt F) :=
  select (val_main_v20 (F := F) x1) (val_main_v22 (F := F) x1) (val_main_v3 (F := F) x1)

def val_main_v24 (x1 : (⟨S2x800000, .i32⟩ : BufTy).Contents (Elt F)) : (⟨S800000x1, .i32⟩ : BufTy).Contents (Elt F) :=
  broadcastInDim S800000x1 ![0] bcast_S800000_S800000x1_0 (val_main_v23 (F := F) x1)

def val_main_v25 (x1 : (⟨S2x800000, .i32⟩ : BufTy).Contents (Elt F)) : (⟨S800000, .f32⟩ : BufTy).Contents (Elt F) :=
  Host.gather gather_S50000_S800000x1_S800000_n_0_n_n_0_1_1 (val_main_v10 (F := F) x1) (val_main_v24 (F := F) x1)

def val_main_v26 (x1 : (⟨S2x800000, .i32⟩ : BufTy).Contents (Elt F)) : (⟨S800000, .f32⟩ : BufTy).Contents (Elt F) :=
  mulf (val_main_v18 (F := F) x1) (val_main_v25 (F := F) x1)

def val_main_v27 (x1 : (⟨S2x800000, .i32⟩ : BufTy).Contents (Elt F)) : (⟨S800000x1, .f32⟩ : BufTy).Contents (Elt F) :=
  broadcastInDim S800000x1 ![0] bcast_S800000_S800000x1_0 (val_main_v26 (F := F) x1)

def val_main_c_5 : (⟨S_, .i32⟩ : BufTy).Contents (Elt F) :=
  constantI S_ 32 0#32

def val_main_v28 : (⟨S800000, .i32⟩ : BufTy).Contents (Elt F) :=
  broadcastInDim S800000 ![] bcast_S_S800000 (val_main_c_5 (F := F))

def val_main_v29 (x1 : (⟨S2x800000, .i32⟩ : BufTy).Contents (Elt F)) : (⟨S800000, .i1⟩ : BufTy).Contents (Elt F) :=
  cmpi .slt (val_main_v1 (F := F) x1) (val_main_v28 (F := F))

def val_main_c_6 : (⟨S_, .i32⟩ : BufTy).Contents (Elt F) :=
  constantI S_ 32 50000#32

def val_main_v30 : (⟨S800000, .i32⟩ : BufTy).Contents (Elt F) :=
  broadcastInDim S800000 ![] bcast_S_S800000 (val_main_c_6 (F := F))

def val_main_v31 (x1 : (⟨S2x800000, .i32⟩ : BufTy).Contents (Elt F)) : (⟨S800000, .i32⟩ : BufTy).Contents (Elt F) :=
  addi (val_main_v1 (F := F) x1) (val_main_v30 (F := F))

def val_main_v32 (x1 : (⟨S2x800000, .i32⟩ : BufTy).Contents (Elt F)) : (⟨S800000, .i32⟩ : BufTy).Contents (Elt F) :=
  select (val_main_v29 (F := F) x1) (val_main_v31 (F := F) x1) (val_main_v1 (F := F) x1)

def val_main_v33 (x1 : (⟨S2x800000, .i32⟩ : BufTy).Contents (Elt F)) : (⟨S800000x1, .i32⟩ : BufTy).Contents (Elt F) :=
  broadcastInDim S800000x1 ![0] bcast_S800000_S800000x1_0 (val_main_v32 (F := F) x1)

def val_main_v34 (x0 : (⟨S50000x128, .f32⟩ : BufTy).Contents (Elt F)) (x1 : (⟨S2x800000, .i32⟩ : BufTy).Contents (Elt F)) (x3 : (⟨S128x64, .f32⟩ : BufTy).Contents (Elt F)) : (⟨S800000x64, .f32⟩ : BufTy).Contents (Elt F) :=
  Host.gather gather_S50000x64_S800000x1_S800000x64_1_0_n_n_0_1_164 (val_main_v11 (F := F) x0 x3) (val_main_v33 (F := F) x1)

def val_main_v35 (x1 : (⟨S2x800000, .i32⟩ : BufTy).Contents (Elt F)) : (⟨S800000x64, .f32⟩ : BufTy).Contents (Elt F) :=
  broadcastInDim S800000x64 ![0, 1] bcast_S800000x1_S800000x64_0_1 (val_main_v27 (F := F) x1)

def val_main_v36 (x0 : (⟨S50000x128, .f32⟩ : BufTy).Contents (Elt F)) (x1 : (⟨S2x800000, .i32⟩ : BufTy).Contents (Elt F)) (x3 : (⟨S128x64, .f32⟩ : BufTy).Contents (Elt F)) : (⟨S800000x64, .f32⟩ : BufTy).Contents (Elt F) :=
  mulf (val_main_v34 (F := F) x0 x1 x3) (val_main_v35 (F := F) x1)

def val_main_cst_7 : (⟨S_, .f32⟩ : BufTy).Contents (Elt F) :=
  constant S_ .f32 0x00000000#32

def val_main_v37 : (⟨S50000x64, .f32⟩ : BufTy).Contents (Elt F) :=
  broadcastInDim S50000x64 ![] bcast_S_S50000x64 (val_main_cst_7 (F := F))

def val_main_v38 (x1 : (⟨S2x800000, .i32⟩ : BufTy).Contents (Elt F)) : (⟨S800000x1, .i32⟩ : BufTy).Contents (Elt F) :=
  broadcastInDim S800000x1 ![0] bcast_S800000_S800000x1_0 (val_main_v3 (F := F) x1)

def val_main_v39 (x0 : (⟨S50000x128, .f32⟩ : BufTy).Contents (Elt F)) (x1 : (⟨S2x800000, .i32⟩ : BufTy).Contents (Elt F)) (x3 : (⟨S128x64, .f32⟩ : BufTy).Contents (Elt F)) : (⟨S50000x64, .f32⟩ : BufTy).Contents (Elt F) :=
  Host.scatterAdd scatter_S50000x64_S800000x1_S800000x64_1_0_0_1 (val_main_v37 (F := F)) (val_main_v38 (F := F) x1) (val_main_v36 (F := F) x0 x1 x3)

def val_main_v40 (x1 : (⟨S2x800000, .i32⟩ : BufTy).Contents (Elt F)) : (⟨S50000, .f32⟩ : BufTy).Contents (Elt F) :=
  mulf (val_main_v10 (F := F) x1) (val_main_v10 (F := F) x1)

def val_main_v41 (x1 : (⟨S2x800000, .i32⟩ : BufTy).Contents (Elt F)) : (⟨S50000x1, .f32⟩ : BufTy).Contents (Elt F) :=
  broadcastInDim S50000x1 ![0] bcast_S50000_S50000x1_0 (val_main_v40 (F := F) x1)

abbrev idx_main_v41 (i : S50000x1.Idx) : S50000.Idx := fun a => match a with
  | ⟨0, _⟩ => ⟨(i 0).val, (i 0).isLt⟩

theorem val_main_v41_apply (x1 : (⟨S2x800000, .i32⟩ : BufTy).Contents (Elt F)) (i : S50000x1.Idx) :
    val_main_v41 (F := F) x1 i = val_main_v40 (F := F) x1 (idx_main_v41 i) := by
  unfold val_main_v41
  generalize val_main_v40 (F := F) x1 = y
  exact broadcastInDim_apply _ bcast_S50000_S50000x1_0 y i (idx_main_v41 i) (fun a => match a with
    | ⟨0, _⟩ => by show (i 0).val = if (50000 : Nat) = 1 then 0 else (i 0).val; rw [if_neg (by decide)])

def val_main_v42 (x1 : (⟨S2x800000, .i32⟩ : BufTy).Contents (Elt F)) : (⟨S50000x64, .f32⟩ : BufTy).Contents (Elt F) :=
  broadcastInDim S50000x64 ![0, 1] bcast_S50000x1_S50000x64_0_1 (val_main_v41 (F := F) x1)

abbrev idx_main_v42 (i : S50000x64.Idx) : S50000x1.Idx := fun a => match a with
  | ⟨0, _⟩ => ⟨(i 0).val, (i 0).isLt⟩
  | ⟨1, _⟩ => ⟨0, Nat.one_pos⟩

theorem val_main_v42_apply (x1 : (⟨S2x800000, .i32⟩ : BufTy).Contents (Elt F)) (i : S50000x64.Idx) :
    val_main_v42 (F := F) x1 i = val_main_v41 (F := F) x1 (idx_main_v42 i) := by
  unfold val_main_v42
  generalize val_main_v41 (F := F) x1 = y
  exact broadcastInDim_apply _ bcast_S50000x1_S50000x64_0_1 y i (idx_main_v42 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

def val_main_v43 (x0 : (⟨S50000x128, .f32⟩ : BufTy).Contents (Elt F)) (x1 : (⟨S2x800000, .i32⟩ : BufTy).Contents (Elt F)) (x3 : (⟨S128x64, .f32⟩ : BufTy).Contents (Elt F)) : (⟨S50000x64, .f32⟩ : BufTy).Contents (Elt F) :=
  mulf (val_main_v11 (F := F) x0 x3) (val_main_v42 (F := F) x1)

theorem val_main_v43_apply (x0 : (⟨S50000x128, .f32⟩ : BufTy).Contents (Elt F)) (x1 : (⟨S2x800000, .i32⟩ : BufTy).Contents (Elt F)) (x3 : (⟨S128x64, .f32⟩ : BufTy).Contents (Elt F)) (i : S50000x64.Idx) :
    val_main_v43 (F := F) x0 x1 x3 i = FloatOps.mulf (val_main_v11 (F := F) x0 x3 i) (val_main_v42 (F := F) x1 i) := rfl

def val_main_v44 (x0 : (⟨S50000x128, .f32⟩ : BufTy).Contents (Elt F)) (x1 : (⟨S2x800000, .i32⟩ : BufTy).Contents (Elt F)) (x3 : (⟨S128x64, .f32⟩ : BufTy).Contents (Elt F)) : (⟨S50000x64, .f32⟩ : BufTy).Contents (Elt F) :=
  addf (val_main_v39 (F := F) x0 x1 x3) (val_main_v43 (F := F) x0 x1 x3)

theorem val_main_v44_apply (x0 : (⟨S50000x128, .f32⟩ : BufTy).Contents (Elt F)) (x1 : (⟨S2x800000, .i32⟩ : BufTy).Contents (Elt F)) (x3 : (⟨S128x64, .f32⟩ : BufTy).Contents (Elt F)) (i : S50000x64.Idx) :
    val_main_v44 (F := F) x0 x1 x3 i = FloatOps.addf (val_main_v39 (F := F) x0 x1 x3 i) (val_main_v43 (F := F) x0 x1 x3 i) := rfl

def val_main_v45 (x4 : (⟨S64, .f32⟩ : BufTy).Contents (Elt F)) : (⟨S1x64, .f32⟩ : BufTy).Contents (Elt F) :=
  broadcastInDim S1x64 ![1] bcast_S64_S1x64_1 (x4)

abbrev idx_main_v45 (i : S1x64.Idx) : S64.Idx := fun a => match a with
  | ⟨0, _⟩ => ⟨(i 1).val, (i 1).isLt⟩

theorem val_main_v45_apply (x4 : (⟨S64, .f32⟩ : BufTy).Contents (Elt F)) (i : S1x64.Idx) :
    val_main_v45 (F := F) x4 i = x4 (idx_main_v45 i) := by
  unfold val_main_v45
  exact broadcastInDim_apply _ bcast_S64_S1x64_1 x4 i (idx_main_v45 i) (fun a => match a with
    | ⟨0, _⟩ => by show (i 1).val = if (64 : Nat) = 1 then 0 else (i 1).val; rw [if_neg (by decide)])

def val_main_v46 (x4 : (⟨S64, .f32⟩ : BufTy).Contents (Elt F)) : (⟨S50000x64, .f32⟩ : BufTy).Contents (Elt F) :=
  broadcastInDim S50000x64 ![0, 1] bcast_S1x64_S50000x64_0_1 (val_main_v45 (F := F) x4)

abbrev idx_main_v46 (i : S50000x64.Idx) : S1x64.Idx := fun a => match a with
  | ⟨0, _⟩ => ⟨0, Nat.one_pos⟩
  | ⟨1, _⟩ => ⟨(i 1).val, (i 1).isLt⟩

theorem val_main_v46_apply (x4 : (⟨S64, .f32⟩ : BufTy).Contents (Elt F)) (i : S50000x64.Idx) :
    val_main_v46 (F := F) x4 i = val_main_v45 (F := F) x4 (idx_main_v46 i) := by
  unfold val_main_v46
  generalize val_main_v45 (F := F) x4 = y
  exact broadcastInDim_apply _ bcast_S1x64_S50000x64_0_1 y i (idx_main_v46 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v47 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) : (⟨S50000x64, .f32⟩ : BufTy).Contents (Elt F) :=
  addf (val_main_v44 (F := F) x0 x1 x3) (val_main_v46 (F := F) x4)

theorem val_main_v47_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (i : S50000x64.Idx) :
    val_main_v47 (F := F) x0 x1 x3 x4 i = FloatOps.addf (val_main_v44 (F := F) x0 x1 x3 i) (val_main_v46 (F := F) x4 i) := rfl

def val_main_call0_cst : (⟨S_, .f32⟩ : BufTy).Contents (Elt F) :=
  constant S_ .f32 0x00000000#32

theorem val_main_call0_cst_apply (i : S_.Idx) :
    val_main_call0_cst (F := F) i = FloatOps.ofBits .f32 0x00000000#32 := rfl

def val_main_call0_v0 : (⟨S50000x64, .f32⟩ : BufTy).Contents (Elt F) :=
  broadcastInDim S50000x64 ![] bcast_S_S50000x64 (val_main_call0_cst (F := F))

abbrev idx_main_call0_v0 (i : S50000x64.Idx) : S_.Idx := fun a => a.elim0

theorem val_main_call0_v0_apply (i : S50000x64.Idx) :
    val_main_call0_v0 (F := F) i = val_main_call0_cst (F := F) (idx_main_call0_v0 i) := by
  unfold val_main_call0_v0
  generalize val_main_call0_cst (F := F) = y
  exact broadcastInDim_apply _ bcast_S_S50000x64 y i (idx_main_call0_v0 i) (fun a => a.elim0)

def val_main_v48 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) : (⟨S50000x64, .f32⟩ : BufTy).Contents (Elt F) :=
  maximumf (val_main_v47 (F := F) x0 x1 x3 x4) (val_main_call0_v0 (F := F))

theorem val_main_v48_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (i : S50000x64.Idx) :
    val_main_v48 (F := F) x0 x1 x3 x4 i = FloatOps.maximumf (val_main_v47 (F := F) x0 x1 x3 x4 i) (val_main_call0_v0 (F := F) i) := rfl

def val_main_v49 (x5 : (⟨S3x64x64, .f32⟩ : BufTy).Contents (Elt F)) : (⟨S1x64x64, .f32⟩ : BufTy).Contents (Elt F) :=
  extractStridedSlice S1x64x64 ![0, 0, 0] (x5) slices_S3x64x64_S1x64x64_0_0_0

def val_main_v50 (x5 : (⟨S3x64x64, .f32⟩ : BufTy).Contents (Elt F)) : (⟨S64x64, .f32⟩ : BufTy).Contents (Elt F) :=
  shapeCast _ (val_main_v49 (F := F) x5) shapeCasts_S1x64x64_S64x64

def val_main_v51 (x6 : (⟨S3x64, .f32⟩ : BufTy).Contents (Elt F)) : (⟨S1x64, .f32⟩ : BufTy).Contents (Elt F) :=
  extractStridedSlice S1x64 ![0, 0] (x6) slices_S3x64_S1x64_0_0

def val_main_v52 (x6 : (⟨S3x64, .f32⟩ : BufTy).Contents (Elt F)) : (⟨S64, .f32⟩ : BufTy).Contents (Elt F) :=
  shapeCast _ (val_main_v51 (F := F) x6) shapeCasts_S1x64_S64

def val_main_v53 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) : (⟨S50000x64, .f32⟩ : BufTy).Contents (Elt F) :=
  Host.dotGeneral dot_S50000x64_S64x64_S50000x64_1_0_0_1_n_n none (val_main_v48 (F := F) x0 x1 x3 x4) (val_main_v50 (F := F) x5)

theorem lhs_main_v53_0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl

theorem lhs_main_v53_1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q

theorem rhs_main_v53_0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q

theorem rhs_main_v53_1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

abbrev lidx_main_v53 (i : S50000x64.Idx) (k : Fin 64) : S50000x64.Idx := fun a => match a with
  | ⟨0, _⟩ => ⟨(i 0).val, (i 0).isLt⟩
  | ⟨1, _⟩ => ⟨k.val, k.isLt⟩

abbrev ridx_main_v53 (i : S50000x64.Idx) (k : Fin 64) : S64x64.Idx := fun a => match a with
  | ⟨0, _⟩ => ⟨k.val, k.isLt⟩
  | ⟨1, _⟩ => ⟨(i 1).val, (i 1).isLt⟩

theorem val_main_v53_apply (x0 : (⟨S50000x128, .f32⟩ : BufTy).Contents (Elt Ideal)) (x1 : (⟨S2x800000, .i32⟩ : BufTy).Contents (Elt Ideal)) (x3 : (⟨S128x64, .f32⟩ : BufTy).Contents (Elt Ideal)) (x4 : (⟨S64, .f32⟩ : BufTy).Contents (Elt Ideal)) (x5 : (⟨S3x64x64, .f32⟩ : BufTy).Contents (Elt Ideal)) (i : S50000x64.Idx) :
    val_main_v53 (F := Ideal) x0 x1 x3 x4 x5 i = ∑ k : Fin 64, (val_main_v48 (F := Ideal) x0 x1 x3 x4) (lidx_main_v53 i k) * (val_main_v50 (F := Ideal) x5) (ridx_main_v53 i k) := by
  unfold val_main_v53
  generalize val_main_v48 (F := Ideal) x0 x1 x3 x4 = y0
  generalize val_main_v50 (F := Ideal) x5 = y1
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx i ((ValueIdx.contrEquiv1 dot_S50000x64_S64x64_S50000x64_1_0_0_1_n_n 64 rfl rfl).symm k) = lidx_main_v53 i k := funext fun a => Fin.ext (by
    match a with
    | ⟨0, _⟩ => exact lhs_main_v53_0 _ _
    | ⟨1, _⟩ => exact (lhs_main_v53_1 _ _).trans hk)
  have er : dot_S50000x64_S64x64_S50000x64_1_0_0_1_n_n.rhsIdx i ((ValueIdx.contrEquiv1 dot_S50000x64_S64x64_S50000x64_1_0_0_1_n_n 64 rfl rfl).symm k) = ridx_main_v53 i k := funext fun a => Fin.ext (by
    match a with
    | ⟨0, _⟩ => exact (rhs_main_v53_0 _ _).trans hk
    | ⟨1, _⟩ => exact rhs_main_v53_1 _ _)
  rw [el, er]

def val_main_c_8 : (⟨S_, .i32⟩ : BufTy).Contents (Elt F) :=
  constantI S_ 32 0#32

def val_main_v54 : (⟨S800000, .i32⟩ : BufTy).Contents (Elt F) :=
  broadcastInDim S800000 ![] bcast_S_S800000 (val_main_c_8 (F := F))

def val_main_v55 (x1 : (⟨S2x800000, .i32⟩ : BufTy).Contents (Elt F)) : (⟨S800000, .i1⟩ : BufTy).Contents (Elt F) :=
  cmpi .slt (val_main_v1 (F := F) x1) (val_main_v54 (F := F))

def val_main_c_9 : (⟨S_, .i32⟩ : BufTy).Contents (Elt F) :=
  constantI S_ 32 50000#32

def val_main_v56 : (⟨S800000, .i32⟩ : BufTy).Contents (Elt F) :=
  broadcastInDim S800000 ![] bcast_S_S800000 (val_main_c_9 (F := F))

def val_main_v57 (x1 : (⟨S2x800000, .i32⟩ : BufTy).Contents (Elt F)) : (⟨S800000, .i32⟩ : BufTy).Contents (Elt F) :=
  addi (val_main_v1 (F := F) x1) (val_main_v56 (F := F))

def val_main_v58 (x1 : (⟨S2x800000, .i32⟩ : BufTy).Contents (Elt F)) : (⟨S800000, .i32⟩ : BufTy).Contents (Elt F) :=
  select (val_main_v55 (F := F) x1) (val_main_v57 (F := F) x1) (val_main_v1 (F := F) x1)

def val_main_v59 (x1 : (⟨S2x800000, .i32⟩ : BufTy).Contents (Elt F)) : (⟨S800000x1, .i32⟩ : BufTy).Contents (Elt F) :=
  broadcastInDim S800000x1 ![0] bcast_S800000_S800000x1_0 (val_main_v58 (F := F) x1)

def val_main_v60 (x1 : (⟨S2x800000, .i32⟩ : BufTy).Contents (Elt F)) : (⟨S800000, .f32⟩ : BufTy).Contents (Elt F) :=
  Host.gather gather_S50000_S800000x1_S800000_n_0_n_n_0_1_1 (val_main_v10 (F := F) x1) (val_main_v59 (F := F) x1)

def val_main_c_10 : (⟨S_, .i32⟩ : BufTy).Contents (Elt F) :=
  constantI S_ 32 0#32

def val_main_v61 : (⟨S800000, .i32⟩ : BufTy).Contents (Elt F) :=
  broadcastInDim S800000 ![] bcast_S_S800000 (val_main_c_10 (F := F))

def val_main_v62 (x1 : (⟨S2x800000, .i32⟩ : BufTy).Contents (Elt F)) : (⟨S800000, .i1⟩ : BufTy).Contents (Elt F) :=
  cmpi .slt (val_main_v3 (F := F) x1) (val_main_v61 (F := F))

def val_main_c_11 : (⟨S_, .i32⟩ : BufTy).Contents (Elt F) :=
  constantI S_ 32 50000#32

def val_main_v63 : (⟨S800000, .i32⟩ : BufTy).Contents (Elt F) :=
  broadcastInDim S800000 ![] bcast_S_S800000 (val_main_c_11 (F := F))

def val_main_v64 (x1 : (⟨S2x800000, .i32⟩ : BufTy).Contents (Elt F)) : (⟨S800000, .i32⟩ : BufTy).Contents (Elt F) :=
  addi (val_main_v3 (F := F) x1) (val_main_v63 (F := F))

def val_main_v65 (x1 : (⟨S2x800000, .i32⟩ : BufTy).Contents (Elt F)) : (⟨S800000, .i32⟩ : BufTy).Contents (Elt F) :=
  select (val_main_v62 (F := F) x1) (val_main_v64 (F := F) x1) (val_main_v3 (F := F) x1)

def val_main_v66 (x1 : (⟨S2x800000, .i32⟩ : BufTy).Contents (Elt F)) : (⟨S800000x1, .i32⟩ : BufTy).Contents (Elt F) :=
  broadcastInDim S800000x1 ![0] bcast_S800000_S800000x1_0 (val_main_v65 (F := F) x1)

def val_main_v67 (x1 : (⟨S2x800000, .i32⟩ : BufTy).Contents (Elt F)) : (⟨S800000, .f32⟩ : BufTy).Contents (Elt F) :=
  Host.gather gather_S50000_S800000x1_S800000_n_0_n_n_0_1_1 (val_main_v10 (F := F) x1) (val_main_v66 (F := F) x1)

def val_main_v68 (x1 : (⟨S2x800000, .i32⟩ : BufTy).Contents (Elt F)) : (⟨S800000, .f32⟩ : BufTy).Contents (Elt F) :=
  mulf (val_main_v60 (F := F) x1) (val_main_v67 (F := F) x1)

def val_main_v69 (x1 : (⟨S2x800000, .i32⟩ : BufTy).Contents (Elt F)) : (⟨S800000x1, .f32⟩ : BufTy).Contents (Elt F) :=
  broadcastInDim S800000x1 ![0] bcast_S800000_S800000x1_0 (val_main_v68 (F := F) x1)

def val_main_c_12 : (⟨S_, .i32⟩ : BufTy).Contents (Elt F) :=
  constantI S_ 32 0#32

def val_main_v70 : (⟨S800000, .i32⟩ : BufTy).Contents (Elt F) :=
  broadcastInDim S800000 ![] bcast_S_S800000 (val_main_c_12 (F := F))

def val_main_v71 (x1 : (⟨S2x800000, .i32⟩ : BufTy).Contents (Elt F)) : (⟨S800000, .i1⟩ : BufTy).Contents (Elt F) :=
  cmpi .slt (val_main_v1 (F := F) x1) (val_main_v70 (F := F))

def val_main_c_13 : (⟨S_, .i32⟩ : BufTy).Contents (Elt F) :=
  constantI S_ 32 50000#32

def val_main_v72 : (⟨S800000, .i32⟩ : BufTy).Contents (Elt F) :=
  broadcastInDim S800000 ![] bcast_S_S800000 (val_main_c_13 (F := F))

def val_main_v73 (x1 : (⟨S2x800000, .i32⟩ : BufTy).Contents (Elt F)) : (⟨S800000, .i32⟩ : BufTy).Contents (Elt F) :=
  addi (val_main_v1 (F := F) x1) (val_main_v72 (F := F))

def val_main_v74 (x1 : (⟨S2x800000, .i32⟩ : BufTy).Contents (Elt F)) : (⟨S800000, .i32⟩ : BufTy).Contents (Elt F) :=
  select (val_main_v71 (F := F) x1) (val_main_v73 (F := F) x1) (val_main_v1 (F := F) x1)

def val_main_v75 (x1 : (⟨S2x800000, .i32⟩ : BufTy).Contents (Elt F)) : (⟨S800000x1, .i32⟩ : BufTy).Contents (Elt F) :=
  broadcastInDim S800000x1 ![0] bcast_S800000_S800000x1_0 (val_main_v74 (F := F) x1)

def val_main_v76 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) : (⟨S800000x64, .f32⟩ : BufTy).Contents (Elt F) :=
  Host.gather gather_S50000x64_S800000x1_S800000x64_1_0_n_n_0_1_164 (val_main_v53 (F := F) x0 x1 x3 x4 x5) (val_main_v75 (F := F) x1)

def val_main_v77 (x1 : (⟨S2x800000, .i32⟩ : BufTy).Contents (Elt F)) : (⟨S800000x64, .f32⟩ : BufTy).Contents (Elt F) :=
  broadcastInDim S800000x64 ![0, 1] bcast_S800000x1_S800000x64_0_1 (val_main_v69 (F := F) x1)

def val_main_v78 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) : (⟨S800000x64, .f32⟩ : BufTy).Contents (Elt F) :=
  mulf (val_main_v76 (F := F) x0 x1 x3 x4 x5) (val_main_v77 (F := F) x1)

def val_main_cst_14 : (⟨S_, .f32⟩ : BufTy).Contents (Elt F) :=
  constant S_ .f32 0x00000000#32

def val_main_v79 : (⟨S50000x64, .f32⟩ : BufTy).Contents (Elt F) :=
  broadcastInDim S50000x64 ![] bcast_S_S50000x64 (val_main_cst_14 (F := F))

def val_main_v80 (x1 : (⟨S2x800000, .i32⟩ : BufTy).Contents (Elt F)) : (⟨S800000x1, .i32⟩ : BufTy).Contents (Elt F) :=
  broadcastInDim S800000x1 ![0] bcast_S800000_S800000x1_0 (val_main_v3 (F := F) x1)

def val_main_v81 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) : (⟨S50000x64, .f32⟩ : BufTy).Contents (Elt F) :=
  Host.scatterAdd scatter_S50000x64_S800000x1_S800000x64_1_0_0_1 (val_main_v79 (F := F)) (val_main_v80 (F := F) x1) (val_main_v78 (F := F) x0 x1 x3 x4 x5)

def val_main_v82 (x1 : (⟨S2x800000, .i32⟩ : BufTy).Contents (Elt F)) : (⟨S50000, .f32⟩ : BufTy).Contents (Elt F) :=
  mulf (val_main_v10 (F := F) x1) (val_main_v10 (F := F) x1)

def val_main_v83 (x1 : (⟨S2x800000, .i32⟩ : BufTy).Contents (Elt F)) : (⟨S50000x1, .f32⟩ : BufTy).Contents (Elt F) :=
  broadcastInDim S50000x1 ![0] bcast_S50000_S50000x1_0 (val_main_v82 (F := F) x1)

abbrev idx_main_v83 (i : S50000x1.Idx) : S50000.Idx := fun a => match a with
  | ⟨0, _⟩ => ⟨(i 0).val, (i 0).isLt⟩

theorem val_main_v83_apply (x1 : (⟨S2x800000, .i32⟩ : BufTy).Contents (Elt F)) (i : S50000x1.Idx) :
    val_main_v83 (F := F) x1 i = val_main_v82 (F := F) x1 (idx_main_v83 i) := by
  unfold val_main_v83
  generalize val_main_v82 (F := F) x1 = y
  exact broadcastInDim_apply _ bcast_S50000_S50000x1_0 y i (idx_main_v83 i) (fun a => match a with
    | ⟨0, _⟩ => by show (i 0).val = if (50000 : Nat) = 1 then 0 else (i 0).val; rw [if_neg (by decide)])

def val_main_v84 (x1 : (⟨S2x800000, .i32⟩ : BufTy).Contents (Elt F)) : (⟨S50000x64, .f32⟩ : BufTy).Contents (Elt F) :=
  broadcastInDim S50000x64 ![0, 1] bcast_S50000x1_S50000x64_0_1 (val_main_v83 (F := F) x1)

abbrev idx_main_v84 (i : S50000x64.Idx) : S50000x1.Idx := fun a => match a with
  | ⟨0, _⟩ => ⟨(i 0).val, (i 0).isLt⟩
  | ⟨1, _⟩ => ⟨0, Nat.one_pos⟩

theorem val_main_v84_apply (x1 : (⟨S2x800000, .i32⟩ : BufTy).Contents (Elt F)) (i : S50000x64.Idx) :
    val_main_v84 (F := F) x1 i = val_main_v83 (F := F) x1 (idx_main_v84 i) := by
  unfold val_main_v84
  generalize val_main_v83 (F := F) x1 = y
  exact broadcastInDim_apply _ bcast_S50000x1_S50000x64_0_1 y i (idx_main_v84 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

def val_main_v85 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) : (⟨S50000x64, .f32⟩ : BufTy).Contents (Elt F) :=
  mulf (val_main_v53 (F := F) x0 x1 x3 x4 x5) (val_main_v84 (F := F) x1)

theorem val_main_v85_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (i : S50000x64.Idx) :
    val_main_v85 (F := F) x0 x1 x3 x4 x5 i = FloatOps.mulf (val_main_v53 (F := F) x0 x1 x3 x4 x5 i) (val_main_v84 (F := F) x1 i) := rfl

def val_main_v86 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) : (⟨S50000x64, .f32⟩ : BufTy).Contents (Elt F) :=
  addf (val_main_v81 (F := F) x0 x1 x3 x4 x5) (val_main_v85 (F := F) x0 x1 x3 x4 x5)

theorem val_main_v86_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (i : S50000x64.Idx) :
    val_main_v86 (F := F) x0 x1 x3 x4 x5 i = FloatOps.addf (val_main_v81 (F := F) x0 x1 x3 x4 x5 i) (val_main_v85 (F := F) x0 x1 x3 x4 x5 i) := rfl

def val_main_v87 (x6 : (⟨S3x64, .f32⟩ : BufTy).Contents (Elt F)) : (⟨S1x64, .f32⟩ : BufTy).Contents (Elt F) :=
  broadcastInDim S1x64 ![1] bcast_S64_S1x64_1 (val_main_v52 (F := F) x6)

abbrev idx_main_v87 (i : S1x64.Idx) : S64.Idx := fun a => match a with
  | ⟨0, _⟩ => ⟨(i 1).val, (i 1).isLt⟩

theorem val_main_v87_apply (x6 : (⟨S3x64, .f32⟩ : BufTy).Contents (Elt F)) (i : S1x64.Idx) :
    val_main_v87 (F := F) x6 i = val_main_v52 (F := F) x6 (idx_main_v87 i) := by
  unfold val_main_v87
  generalize val_main_v52 (F := F) x6 = y
  exact broadcastInDim_apply _ bcast_S64_S1x64_1 y i (idx_main_v87 i) (fun a => match a with
    | ⟨0, _⟩ => by show (i 1).val = if (64 : Nat) = 1 then 0 else (i 1).val; rw [if_neg (by decide)])

def val_main_v88 (x6 : (⟨S3x64, .f32⟩ : BufTy).Contents (Elt F)) : (⟨S50000x64, .f32⟩ : BufTy).Contents (Elt F) :=
  broadcastInDim S50000x64 ![0, 1] bcast_S1x64_S50000x64_0_1 (val_main_v87 (F := F) x6)

abbrev idx_main_v88 (i : S50000x64.Idx) : S1x64.Idx := fun a => match a with
  | ⟨0, _⟩ => ⟨0, Nat.one_pos⟩
  | ⟨1, _⟩ => ⟨(i 1).val, (i 1).isLt⟩

theorem val_main_v88_apply (x6 : (⟨S3x64, .f32⟩ : BufTy).Contents (Elt F)) (i : S50000x64.Idx) :
    val_main_v88 (F := F) x6 i = val_main_v87 (F := F) x6 (idx_main_v88 i) := by
  unfold val_main_v88
  generalize val_main_v87 (F := F) x6 = y
  exact broadcastInDim_apply _ bcast_S1x64_S50000x64_0_1 y i (idx_main_v88 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v89 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) : (⟨S50000x64, .f32⟩ : BufTy).Contents (Elt F) :=
  addf (val_main_v86 (F := F) x0 x1 x3 x4 x5) (val_main_v88 (F := F) x6)

theorem val_main_v89_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (i : S50000x64.Idx) :
    val_main_v89 (F := F) x0 x1 x3 x4 x5 x6 i = FloatOps.addf (val_main_v86 (F := F) x0 x1 x3 x4 x5 i) (val_main_v88 (F := F) x6 i) := rfl

def val_main_cst_15 : (⟨S_, .f32⟩ : BufTy).Contents (Elt F) :=
  constant S_ .f32 0x00000000#32

def val_main_v90 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) : (⟨S64, .f32⟩ : BufTy).Contents (Elt F) :=
  Host.reduceAdd (val_main_v89 (F := F) x0 x1 x3 x4 x5 x6) (val_main_cst_15 (F := F)) reducesTo_S50000x64_S64_d0 h_S_

def val_main_cst_16 : (⟨S_, .f32⟩ : BufTy).Contents (Elt F) :=
  constant S_ .f32 0x47435000#32

def val_main_v91 : (⟨S64, .f32⟩ : BufTy).Contents (Elt F) :=
  broadcastInDim S64 ![] bcast_S_S64 (val_main_cst_16 (F := F))

def val_main_v92 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) : (⟨S64, .f32⟩ : BufTy).Contents (Elt F) :=
  Host.divf (val_main_v90 (F := F) x0 x1 x3 x4 x5 x6) (val_main_v91 (F := F))

def val_main_v93 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) : (⟨S1x64, .f32⟩ : BufTy).Contents (Elt F) :=
  broadcastInDim S1x64 ![1] bcast_S64_S1x64_1 (val_main_v92 (F := F) x0 x1 x3 x4 x5 x6)

abbrev idx_main_v93 (i : S1x64.Idx) : S64.Idx := fun a => match a with
  | ⟨0, _⟩ => ⟨(i 1).val, (i 1).isLt⟩

theorem val_main_v93_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (i : S1x64.Idx) :
    val_main_v93 (F := F) x0 x1 x3 x4 x5 x6 i = val_main_v92 (F := F) x0 x1 x3 x4 x5 x6 (idx_main_v93 i) := by
  unfold val_main_v93
  generalize val_main_v92 (F := F) x0 x1 x3 x4 x5 x6 = y
  exact broadcastInDim_apply _ bcast_S64_S1x64_1 y i (idx_main_v93 i) (fun a => match a with
    | ⟨0, _⟩ => by show (i 1).val = if (64 : Nat) = 1 then 0 else (i 1).val; rw [if_neg (by decide)])

def val_main_v94 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) : (⟨S50000x64, .f32⟩ : BufTy).Contents (Elt F) :=
  broadcastInDim S50000x64 ![0, 1] bcast_S1x64_S50000x64_0_1 (val_main_v93 (F := F) x0 x1 x3 x4 x5 x6)

def val_main_v95 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) : (⟨S50000x64, .f32⟩ : BufTy).Contents (Elt F) :=
  subf (val_main_v89 (F := F) x0 x1 x3 x4 x5 x6) (val_main_v94 (F := F) x0 x1 x3 x4 x5 x6)

def val_main_v96 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) : (⟨S50000x64, .f32⟩ : BufTy).Contents (Elt F) :=
  mulf (val_main_v95 (F := F) x0 x1 x3 x4 x5 x6) (val_main_v95 (F := F) x0 x1 x3 x4 x5 x6)

def val_main_cst_17 : (⟨S_, .f32⟩ : BufTy).Contents (Elt F) :=
  constant S_ .f32 0x00000000#32

def val_main_v97 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) : (⟨S64, .f32⟩ : BufTy).Contents (Elt F) :=
  Host.reduceAdd (val_main_v96 (F := F) x0 x1 x3 x4 x5 x6) (val_main_cst_17 (F := F)) reducesTo_S50000x64_S64_d0 h_S_

def val_main_cst_18 : (⟨S_, .f32⟩ : BufTy).Contents (Elt F) :=
  constant S_ .f32 0x47435000#32

def val_main_v98 : (⟨S64, .f32⟩ : BufTy).Contents (Elt F) :=
  broadcastInDim S64 ![] bcast_S_S64 (val_main_cst_18 (F := F))

def val_main_v99 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) : (⟨S64, .f32⟩ : BufTy).Contents (Elt F) :=
  Host.divf (val_main_v97 (F := F) x0 x1 x3 x4 x5 x6) (val_main_v98 (F := F))

def val_main_v100 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) : (⟨S1x64, .f32⟩ : BufTy).Contents (Elt F) :=
  broadcastInDim S1x64 ![1] bcast_S64_S1x64_1 (val_main_v92 (F := F) x0 x1 x3 x4 x5 x6)

abbrev idx_main_v100 (i : S1x64.Idx) : S64.Idx := fun a => match a with
  | ⟨0, _⟩ => ⟨(i 1).val, (i 1).isLt⟩

theorem val_main_v100_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (i : S1x64.Idx) :
    val_main_v100 (F := F) x0 x1 x3 x4 x5 x6 i = val_main_v92 (F := F) x0 x1 x3 x4 x5 x6 (idx_main_v100 i) := by
  unfold val_main_v100
  generalize val_main_v92 (F := F) x0 x1 x3 x4 x5 x6 = y
  exact broadcastInDim_apply _ bcast_S64_S1x64_1 y i (idx_main_v100 i) (fun a => match a with
    | ⟨0, _⟩ => by show (i 1).val = if (64 : Nat) = 1 then 0 else (i 1).val; rw [if_neg (by decide)])

def val_main_v101 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) : (⟨S50000x64, .f32⟩ : BufTy).Contents (Elt F) :=
  broadcastInDim S50000x64 ![0, 1] bcast_S1x64_S50000x64_0_1 (val_main_v100 (F := F) x0 x1 x3 x4 x5 x6)

abbrev idx_main_v101 (i : S50000x64.Idx) : S1x64.Idx := fun a => match a with
  | ⟨0, _⟩ => ⟨0, Nat.one_pos⟩
  | ⟨1, _⟩ => ⟨(i 1).val, (i 1).isLt⟩

theorem val_main_v101_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (i : S50000x64.Idx) :
    val_main_v101 (F := F) x0 x1 x3 x4 x5 x6 i = val_main_v100 (F := F) x0 x1 x3 x4 x5 x6 (idx_main_v101 i) := by
  unfold val_main_v101
  generalize val_main_v100 (F := F) x0 x1 x3 x4 x5 x6 = y
  exact broadcastInDim_apply _ bcast_S1x64_S50000x64_0_1 y i (idx_main_v101 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v102 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) : (⟨S50000x64, .f32⟩ : BufTy).Contents (Elt F) :=
  subf (val_main_v89 (F := F) x0 x1 x3 x4 x5 x6) (val_main_v101 (F := F) x0 x1 x3 x4 x5 x6)

theorem val_main_v102_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (i : S50000x64.Idx) :
    val_main_v102 (F := F) x0 x1 x3 x4 x5 x6 i = FloatOps.subf (val_main_v89 (F := F) x0 x1 x3 x4 x5 x6 i) (val_main_v101 (F := F) x0 x1 x3 x4 x5 x6 i) := rfl

def val_main_cst_19 : (⟨S_, .f32⟩ : BufTy).Contents (Elt F) :=
  constant S_ .f32 0x3727C5AC#32

theorem val_main_cst_19_apply (i : S_.Idx) :
    val_main_cst_19 (F := F) i = FloatOps.ofBits .f32 0x3727C5AC#32 := rfl

def val_main_v103 : (⟨S64, .f32⟩ : BufTy).Contents (Elt F) :=
  broadcastInDim S64 ![] bcast_S_S64 (val_main_cst_19 (F := F))

abbrev idx_main_v103 (i : S64.Idx) : S_.Idx := fun a => a.elim0

theorem val_main_v103_apply (i : S64.Idx) :
    val_main_v103 (F := F) i = val_main_cst_19 (F := F) (idx_main_v103 i) := by
  unfold val_main_v103
  generalize val_main_cst_19 (F := F) = y
  exact broadcastInDim_apply _ bcast_S_S64 y i (idx_main_v103 i) (fun a => a.elim0)

def val_main_v104 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) : (⟨S64, .f32⟩ : BufTy).Contents (Elt F) :=
  addf (val_main_v99 (F := F) x0 x1 x3 x4 x5 x6) (val_main_v103 (F := F))

theorem val_main_v104_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (i : S64.Idx) :
    val_main_v104 (F := F) x0 x1 x3 x4 x5 x6 i = FloatOps.addf (val_main_v99 (F := F) x0 x1 x3 x4 x5 x6 i) (val_main_v103 (F := F) i) := rfl

def val_main_v105 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) : (⟨S64, .f32⟩ : BufTy).Contents (Elt F) :=
  Host.rsqrt (val_main_v104 (F := F) x0 x1 x3 x4 x5 x6)

theorem val_main_v105_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (i : S64.Idx) :
    val_main_v105 (F := F) x0 x1 x3 x4 x5 x6 i = FloatOps.hostUnary .rsqrt (val_main_v104 (F := F) x0 x1 x3 x4 x5 x6 i) := rfl

def val_main_v106 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) : (⟨S1x64, .f32⟩ : BufTy).Contents (Elt F) :=
  broadcastInDim S1x64 ![1] bcast_S64_S1x64_1 (val_main_v105 (F := F) x0 x1 x3 x4 x5 x6)

abbrev idx_main_v106 (i : S1x64.Idx) : S64.Idx := fun a => match a with
  | ⟨0, _⟩ => ⟨(i 1).val, (i 1).isLt⟩

theorem val_main_v106_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (i : S1x64.Idx) :
    val_main_v106 (F := F) x0 x1 x3 x4 x5 x6 i = val_main_v105 (F := F) x0 x1 x3 x4 x5 x6 (idx_main_v106 i) := by
  unfold val_main_v106
  generalize val_main_v105 (F := F) x0 x1 x3 x4 x5 x6 = y
  exact broadcastInDim_apply _ bcast_S64_S1x64_1 y i (idx_main_v106 i) (fun a => match a with
    | ⟨0, _⟩ => by show (i 1).val = if (64 : Nat) = 1 then 0 else (i 1).val; rw [if_neg (by decide)])

def val_main_v107 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) : (⟨S50000x64, .f32⟩ : BufTy).Contents (Elt F) :=
  broadcastInDim S50000x64 ![0, 1] bcast_S1x64_S50000x64_0_1 (val_main_v106 (F := F) x0 x1 x3 x4 x5 x6)

abbrev idx_main_v107 (i : S50000x64.Idx) : S1x64.Idx := fun a => match a with
  | ⟨0, _⟩ => ⟨0, Nat.one_pos⟩
  | ⟨1, _⟩ => ⟨(i 1).val, (i 1).isLt⟩

theorem val_main_v107_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (i : S50000x64.Idx) :
    val_main_v107 (F := F) x0 x1 x3 x4 x5 x6 i = val_main_v106 (F := F) x0 x1 x3 x4 x5 x6 (idx_main_v107 i) := by
  unfold val_main_v107
  generalize val_main_v106 (F := F) x0 x1 x3 x4 x5 x6 = y
  exact broadcastInDim_apply _ bcast_S1x64_S50000x64_0_1 y i (idx_main_v107 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v108 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) : (⟨S50000x64, .f32⟩ : BufTy).Contents (Elt F) :=
  mulf (val_main_v102 (F := F) x0 x1 x3 x4 x5 x6) (val_main_v107 (F := F) x0 x1 x3 x4 x5 x6)

theorem val_main_v108_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (i : S50000x64.Idx) :
    val_main_v108 (F := F) x0 x1 x3 x4 x5 x6 i = FloatOps.mulf (val_main_v102 (F := F) x0 x1 x3 x4 x5 x6 i) (val_main_v107 (F := F) x0 x1 x3 x4 x5 x6 i) := rfl

def val_main_v109 (x7 : (⟨S64, .f32⟩ : BufTy).Contents (Elt F)) : (⟨S1x64, .f32⟩ : BufTy).Contents (Elt F) :=
  broadcastInDim S1x64 ![1] bcast_S64_S1x64_1 (x7)

abbrev idx_main_v109 (i : S1x64.Idx) : S64.Idx := fun a => match a with
  | ⟨0, _⟩ => ⟨(i 1).val, (i 1).isLt⟩

theorem val_main_v109_apply (x7 : (⟨S64, .f32⟩ : BufTy).Contents (Elt F)) (i : S1x64.Idx) :
    val_main_v109 (F := F) x7 i = x7 (idx_main_v109 i) := by
  unfold val_main_v109
  exact broadcastInDim_apply _ bcast_S64_S1x64_1 x7 i (idx_main_v109 i) (fun a => match a with
    | ⟨0, _⟩ => by show (i 1).val = if (64 : Nat) = 1 then 0 else (i 1).val; rw [if_neg (by decide)])

def val_main_v110 (x7 : (⟨S64, .f32⟩ : BufTy).Contents (Elt F)) : (⟨S50000x64, .f32⟩ : BufTy).Contents (Elt F) :=
  broadcastInDim S50000x64 ![0, 1] bcast_S1x64_S50000x64_0_1 (val_main_v109 (F := F) x7)

abbrev idx_main_v110 (i : S50000x64.Idx) : S1x64.Idx := fun a => match a with
  | ⟨0, _⟩ => ⟨0, Nat.one_pos⟩
  | ⟨1, _⟩ => ⟨(i 1).val, (i 1).isLt⟩

theorem val_main_v110_apply (x7 : (⟨S64, .f32⟩ : BufTy).Contents (Elt F)) (i : S50000x64.Idx) :
    val_main_v110 (F := F) x7 i = val_main_v109 (F := F) x7 (idx_main_v110 i) := by
  unfold val_main_v110
  generalize val_main_v109 (F := F) x7 = y
  exact broadcastInDim_apply _ bcast_S1x64_S50000x64_0_1 y i (idx_main_v110 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v111 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 : (⟨S64, .f32⟩ : BufTy).Contents (Elt F)) : (⟨S50000x64, .f32⟩ : BufTy).Contents (Elt F) :=
  mulf (val_main_v108 (F := F) x0 x1 x3 x4 x5 x6) (val_main_v110 (F := F) x7)

theorem val_main_v111_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 : (⟨S64, .f32⟩ : BufTy).Contents (Elt F)) (i : S50000x64.Idx) :
    val_main_v111 (F := F) x0 x1 x3 x4 x5 x6 x7 i = FloatOps.mulf (val_main_v108 (F := F) x0 x1 x3 x4 x5 x6 i) (val_main_v110 (F := F) x7 i) := rfl

def val_main_v112 (x8 : (⟨S64, .f32⟩ : BufTy).Contents (Elt F)) : (⟨S1x64, .f32⟩ : BufTy).Contents (Elt F) :=
  broadcastInDim S1x64 ![1] bcast_S64_S1x64_1 (x8)

abbrev idx_main_v112 (i : S1x64.Idx) : S64.Idx := fun a => match a with
  | ⟨0, _⟩ => ⟨(i 1).val, (i 1).isLt⟩

theorem val_main_v112_apply (x8 : (⟨S64, .f32⟩ : BufTy).Contents (Elt F)) (i : S1x64.Idx) :
    val_main_v112 (F := F) x8 i = x8 (idx_main_v112 i) := by
  unfold val_main_v112
  exact broadcastInDim_apply _ bcast_S64_S1x64_1 x8 i (idx_main_v112 i) (fun a => match a with
    | ⟨0, _⟩ => by show (i 1).val = if (64 : Nat) = 1 then 0 else (i 1).val; rw [if_neg (by decide)])

def val_main_v113 (x8 : (⟨S64, .f32⟩ : BufTy).Contents (Elt F)) : (⟨S50000x64, .f32⟩ : BufTy).Contents (Elt F) :=
  broadcastInDim S50000x64 ![0, 1] bcast_S1x64_S50000x64_0_1 (val_main_v112 (F := F) x8)

abbrev idx_main_v113 (i : S50000x64.Idx) : S1x64.Idx := fun a => match a with
  | ⟨0, _⟩ => ⟨0, Nat.one_pos⟩
  | ⟨1, _⟩ => ⟨(i 1).val, (i 1).isLt⟩

theorem val_main_v113_apply (x8 : (⟨S64, .f32⟩ : BufTy).Contents (Elt F)) (i : S50000x64.Idx) :
    val_main_v113 (F := F) x8 i = val_main_v112 (F := F) x8 (idx_main_v113 i) := by
  unfold val_main_v113
  generalize val_main_v112 (F := F) x8 = y
  exact broadcastInDim_apply _ bcast_S1x64_S50000x64_0_1 y i (idx_main_v113 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v114 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  addf (val_main_v111 (F := F) x0 x1 x3 x4 x5 x6 x7) (val_main_v113 (F := F) x8)

theorem val_main_v114_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S50000x64.Idx) :
    val_main_v114 (F := F) x0 x1 x3 x4 x5 x6 x7 x8 i = FloatOps.addf (val_main_v111 (F := F) x0 x1 x3 x4 x5 x6 x7 i) (val_main_v113 (F := F) x8 i) := rfl

def val_main_call1_cst : (⟨S_, .f32⟩ : BufTy).Contents (Elt F) :=
  constant S_ .f32 0x00000000#32

theorem val_main_call1_cst_apply (i : S_.Idx) :
    val_main_call1_cst (F := F) i = FloatOps.ofBits .f32 0x00000000#32 := rfl

def val_main_call1_v0 : (⟨S50000x64, .f32⟩ : BufTy).Contents (Elt F) :=
  broadcastInDim S50000x64 ![] bcast_S_S50000x64 (val_main_call1_cst (F := F))

abbrev idx_main_call1_v0 (i : S50000x64.Idx) : S_.Idx := fun a => a.elim0

theorem val_main_call1_v0_apply (i : S50000x64.Idx) :
    val_main_call1_v0 (F := F) i = val_main_call1_cst (F := F) (idx_main_call1_v0 i) := by
  unfold val_main_call1_v0
  generalize val_main_call1_cst (F := F) = y
  exact broadcastInDim_apply _ bcast_S_S50000x64 y i (idx_main_call1_v0 i) (fun a => a.elim0)

def val_main_v115 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  maximumf (val_main_v114 (F := F) x0 x1 x3 x4 x5 x6 x7 x8) (val_main_call1_v0 (F := F))

theorem val_main_v115_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S50000x64.Idx) :
    val_main_v115 (F := F) x0 x1 x3 x4 x5 x6 x7 x8 i = FloatOps.maximumf (val_main_v114 (F := F) x0 x1 x3 x4 x5 x6 x7 x8 i) (val_main_call1_v0 (F := F) i) := rfl

def val_main_v116 (x5 : (⟨S3x64x64, .f32⟩ : BufTy).Contents (Elt F)) : (⟨S1x64x64, .f32⟩ : BufTy).Contents (Elt F) :=
  extractStridedSlice S1x64x64 ![1, 0, 0] (x5) slices_S3x64x64_S1x64x64_1_0_0

def val_main_v117 (x5 : (⟨S3x64x64, .f32⟩ : BufTy).Contents (Elt F)) : (⟨S64x64, .f32⟩ : BufTy).Contents (Elt F) :=
  shapeCast _ (val_main_v116 (F := F) x5) shapeCasts_S1x64x64_S64x64

def val_main_v118 (x6 : (⟨S3x64, .f32⟩ : BufTy).Contents (Elt F)) : (⟨S1x64, .f32⟩ : BufTy).Contents (Elt F) :=
  extractStridedSlice S1x64 ![1, 0] (x6) slices_S3x64_S1x64_1_0

def val_main_v119 (x6 : (⟨S3x64, .f32⟩ : BufTy).Contents (Elt F)) : (⟨S64, .f32⟩ : BufTy).Contents (Elt F) :=
  shapeCast _ (val_main_v118 (F := F) x6) shapeCasts_S1x64_S64

def val_main_v120 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  Host.dotGeneral dot_S50000x64_S64x64_S50000x64_1_0_0_1_n_n none (val_main_v115 (F := F) x0 x1 x3 x4 x5 x6 x7 x8) (val_main_v117 (F := F) x5)

theorem lhs_main_v120_0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl

theorem lhs_main_v120_1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q

theorem rhs_main_v120_0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q

theorem rhs_main_v120_1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

abbrev lidx_main_v120 (i : S50000x64.Idx) (k : Fin 64) : S50000x64.Idx := fun a => match a with
  | ⟨0, _⟩ => ⟨(i 0).val, (i 0).isLt⟩
  | ⟨1, _⟩ => ⟨k.val, k.isLt⟩

abbrev ridx_main_v120 (i : S50000x64.Idx) (k : Fin 64) : S64x64.Idx := fun a => match a with
  | ⟨0, _⟩ => ⟨k.val, k.isLt⟩
  | ⟨1, _⟩ => ⟨(i 1).val, (i 1).isLt⟩

theorem val_main_v120_apply (x0 : (⟨S50000x128, .f32⟩ : BufTy).Contents (Elt Ideal)) (x1 : (⟨S2x800000, .i32⟩ : BufTy).Contents (Elt Ideal)) (x3 : (⟨S128x64, .f32⟩ : BufTy).Contents (Elt Ideal)) (x4 : (⟨S64, .f32⟩ : BufTy).Contents (Elt Ideal)) (x5 : (⟨S3x64x64, .f32⟩ : BufTy).Contents (Elt Ideal)) (x6 : (⟨S3x64, .f32⟩ : BufTy).Contents (Elt Ideal)) (x7 x8 : (⟨S64, .f32⟩ : BufTy).Contents (Elt Ideal)) (i : S50000x64.Idx) :
    val_main_v120 (F := Ideal) x0 x1 x3 x4 x5 x6 x7 x8 i = ∑ k : Fin 64, (val_main_v115 (F := Ideal) x0 x1 x3 x4 x5 x6 x7 x8) (lidx_main_v120 i k) * (val_main_v117 (F := Ideal) x5) (ridx_main_v120 i k) := by
  unfold val_main_v120
  generalize val_main_v115 (F := Ideal) x0 x1 x3 x4 x5 x6 x7 x8 = y0
  generalize val_main_v117 (F := Ideal) x5 = y1
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx i ((ValueIdx.contrEquiv1 dot_S50000x64_S64x64_S50000x64_1_0_0_1_n_n 64 rfl rfl).symm k) = lidx_main_v120 i k := funext fun a => Fin.ext (by
    match a with
    | ⟨0, _⟩ => exact lhs_main_v120_0 _ _
    | ⟨1, _⟩ => exact (lhs_main_v120_1 _ _).trans hk)
  have er : dot_S50000x64_S64x64_S50000x64_1_0_0_1_n_n.rhsIdx i ((ValueIdx.contrEquiv1 dot_S50000x64_S64x64_S50000x64_1_0_0_1_n_n 64 rfl rfl).symm k) = ridx_main_v120 i k := funext fun a => Fin.ext (by
    match a with
    | ⟨0, _⟩ => exact (rhs_main_v120_0 _ _).trans hk
    | ⟨1, _⟩ => exact rhs_main_v120_1 _ _)
  rw [el, er]

def val_main_c_20 : (⟨S_, .i32⟩ : BufTy).Contents (Elt F) :=
  constantI S_ 32 0#32

def val_main_v121 : (⟨S800000, .i32⟩ : BufTy).Contents (Elt F) :=
  broadcastInDim S800000 ![] bcast_S_S800000 (val_main_c_20 (F := F))

def val_main_v122 (x1 : (⟨S2x800000, .i32⟩ : BufTy).Contents (Elt F)) : (⟨S800000, .i1⟩ : BufTy).Contents (Elt F) :=
  cmpi .slt (val_main_v1 (F := F) x1) (val_main_v121 (F := F))

def val_main_c_21 : (⟨S_, .i32⟩ : BufTy).Contents (Elt F) :=
  constantI S_ 32 50000#32

def val_main_v123 : (⟨S800000, .i32⟩ : BufTy).Contents (Elt F) :=
  broadcastInDim S800000 ![] bcast_S_S800000 (val_main_c_21 (F := F))

def val_main_v124 (x1 : (⟨S2x800000, .i32⟩ : BufTy).Contents (Elt F)) : (⟨S800000, .i32⟩ : BufTy).Contents (Elt F) :=
  addi (val_main_v1 (F := F) x1) (val_main_v123 (F := F))

def val_main_v125 (x1 : (⟨S2x800000, .i32⟩ : BufTy).Contents (Elt F)) : (⟨S800000, .i32⟩ : BufTy).Contents (Elt F) :=
  select (val_main_v122 (F := F) x1) (val_main_v124 (F := F) x1) (val_main_v1 (F := F) x1)

def val_main_v126 (x1 : (⟨S2x800000, .i32⟩ : BufTy).Contents (Elt F)) : (⟨S800000x1, .i32⟩ : BufTy).Contents (Elt F) :=
  broadcastInDim S800000x1 ![0] bcast_S800000_S800000x1_0 (val_main_v125 (F := F) x1)

def val_main_v127 (x1 : (⟨S2x800000, .i32⟩ : BufTy).Contents (Elt F)) : (⟨S800000, .f32⟩ : BufTy).Contents (Elt F) :=
  Host.gather gather_S50000_S800000x1_S800000_n_0_n_n_0_1_1 (val_main_v10 (F := F) x1) (val_main_v126 (F := F) x1)

def val_main_c_22 : (⟨S_, .i32⟩ : BufTy).Contents (Elt F) :=
  constantI S_ 32 0#32

def val_main_v128 : (⟨S800000, .i32⟩ : BufTy).Contents (Elt F) :=
  broadcastInDim S800000 ![] bcast_S_S800000 (val_main_c_22 (F := F))

def val_main_v129 (x1 : (⟨S2x800000, .i32⟩ : BufTy).Contents (Elt F)) : (⟨S800000, .i1⟩ : BufTy).Contents (Elt F) :=
  cmpi .slt (val_main_v3 (F := F) x1) (val_main_v128 (F := F))

def val_main_c_23 : (⟨S_, .i32⟩ : BufTy).Contents (Elt F) :=
  constantI S_ 32 50000#32

def val_main_v130 : (⟨S800000, .i32⟩ : BufTy).Contents (Elt F) :=
  broadcastInDim S800000 ![] bcast_S_S800000 (val_main_c_23 (F := F))

def val_main_v131 (x1 : (⟨S2x800000, .i32⟩ : BufTy).Contents (Elt F)) : (⟨S800000, .i32⟩ : BufTy).Contents (Elt F) :=
  addi (val_main_v3 (F := F) x1) (val_main_v130 (F := F))

def val_main_v132 (x1 : (⟨S2x800000, .i32⟩ : BufTy).Contents (Elt F)) : (⟨S800000, .i32⟩ : BufTy).Contents (Elt F) :=
  select (val_main_v129 (F := F) x1) (val_main_v131 (F := F) x1) (val_main_v3 (F := F) x1)

def val_main_v133 (x1 : (⟨S2x800000, .i32⟩ : BufTy).Contents (Elt F)) : (⟨S800000x1, .i32⟩ : BufTy).Contents (Elt F) :=
  broadcastInDim S800000x1 ![0] bcast_S800000_S800000x1_0 (val_main_v132 (F := F) x1)

def val_main_v134 (x1 : (⟨S2x800000, .i32⟩ : BufTy).Contents (Elt F)) : (⟨S800000, .f32⟩ : BufTy).Contents (Elt F) :=
  Host.gather gather_S50000_S800000x1_S800000_n_0_n_n_0_1_1 (val_main_v10 (F := F) x1) (val_main_v133 (F := F) x1)

def val_main_v135 (x1 : (⟨S2x800000, .i32⟩ : BufTy).Contents (Elt F)) : (⟨S800000, .f32⟩ : BufTy).Contents (Elt F) :=
  mulf (val_main_v127 (F := F) x1) (val_main_v134 (F := F) x1)

def val_main_v136 (x1 : (⟨S2x800000, .i32⟩ : BufTy).Contents (Elt F)) : (⟨S800000x1, .f32⟩ : BufTy).Contents (Elt F) :=
  broadcastInDim S800000x1 ![0] bcast_S800000_S800000x1_0 (val_main_v135 (F := F) x1)

def val_main_c_24 : (⟨S_, .i32⟩ : BufTy).Contents (Elt F) :=
  constantI S_ 32 0#32

def val_main_v137 : (⟨S800000, .i32⟩ : BufTy).Contents (Elt F) :=
  broadcastInDim S800000 ![] bcast_S_S800000 (val_main_c_24 (F := F))

def val_main_v138 (x1 : (⟨S2x800000, .i32⟩ : BufTy).Contents (Elt F)) : (⟨S800000, .i1⟩ : BufTy).Contents (Elt F) :=
  cmpi .slt (val_main_v1 (F := F) x1) (val_main_v137 (F := F))

def val_main_c_25 : (⟨S_, .i32⟩ : BufTy).Contents (Elt F) :=
  constantI S_ 32 50000#32

def val_main_v139 : (⟨S800000, .i32⟩ : BufTy).Contents (Elt F) :=
  broadcastInDim S800000 ![] bcast_S_S800000 (val_main_c_25 (F := F))

def val_main_v140 (x1 : (⟨S2x800000, .i32⟩ : BufTy).Contents (Elt F)) : (⟨S800000, .i32⟩ : BufTy).Contents (Elt F) :=
  addi (val_main_v1 (F := F) x1) (val_main_v139 (F := F))

def val_main_v141 (x1 : (⟨S2x800000, .i32⟩ : BufTy).Contents (Elt F)) : (⟨S800000, .i32⟩ : BufTy).Contents (Elt F) :=
  select (val_main_v138 (F := F) x1) (val_main_v140 (F := F) x1) (val_main_v1 (F := F) x1)

def val_main_v142 (x1 : (⟨S2x800000, .i32⟩ : BufTy).Contents (Elt F)) : (⟨S800000x1, .i32⟩ : BufTy).Contents (Elt F) :=
  broadcastInDim S800000x1 ![0] bcast_S800000_S800000x1_0 (val_main_v141 (F := F) x1)

def val_main_v143 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S800000x64, .f32⟩ : BufTy).Contents (Elt F) :=
  Host.gather gather_S50000x64_S800000x1_S800000x64_1_0_n_n_0_1_164 (val_main_v120 (F := F) x0 x1 x3 x4 x5 x6 x7 x8) (val_main_v142 (F := F) x1)

def val_main_v144 (x1 : (⟨S2x800000, .i32⟩ : BufTy).Contents (Elt F)) : (⟨S800000x64, .f32⟩ : BufTy).Contents (Elt F) :=
  broadcastInDim S800000x64 ![0, 1] bcast_S800000x1_S800000x64_0_1 (val_main_v136 (F := F) x1)

def val_main_v145 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S800000x64, .f32⟩ : BufTy).Contents (Elt F) :=
  mulf (val_main_v143 (F := F) x0 x1 x3 x4 x5 x6 x7 x8) (val_main_v144 (F := F) x1)

def val_main_cst_26 : (⟨S_, .f32⟩ : BufTy).Contents (Elt F) :=
  constant S_ .f32 0x00000000#32

def val_main_v146 : (⟨S50000x64, .f32⟩ : BufTy).Contents (Elt F) :=
  broadcastInDim S50000x64 ![] bcast_S_S50000x64 (val_main_cst_26 (F := F))

def val_main_v147 (x1 : (⟨S2x800000, .i32⟩ : BufTy).Contents (Elt F)) : (⟨S800000x1, .i32⟩ : BufTy).Contents (Elt F) :=
  broadcastInDim S800000x1 ![0] bcast_S800000_S800000x1_0 (val_main_v3 (F := F) x1)

def val_main_v148 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  Host.scatterAdd scatter_S50000x64_S800000x1_S800000x64_1_0_0_1 (val_main_v146 (F := F)) (val_main_v147 (F := F) x1) (val_main_v145 (F := F) x0 x1 x3 x4 x5 x6 x7 x8)

def val_main_v149 (x1 : (⟨S2x800000, .i32⟩ : BufTy).Contents (Elt F)) : (⟨S50000, .f32⟩ : BufTy).Contents (Elt F) :=
  mulf (val_main_v10 (F := F) x1) (val_main_v10 (F := F) x1)

def val_main_v150 (x1 : (⟨S2x800000, .i32⟩ : BufTy).Contents (Elt F)) : (⟨S50000x1, .f32⟩ : BufTy).Contents (Elt F) :=
  broadcastInDim S50000x1 ![0] bcast_S50000_S50000x1_0 (val_main_v149 (F := F) x1)

abbrev idx_main_v150 (i : S50000x1.Idx) : S50000.Idx := fun a => match a with
  | ⟨0, _⟩ => ⟨(i 0).val, (i 0).isLt⟩

theorem val_main_v150_apply (x1 : (⟨S2x800000, .i32⟩ : BufTy).Contents (Elt F)) (i : S50000x1.Idx) :
    val_main_v150 (F := F) x1 i = val_main_v149 (F := F) x1 (idx_main_v150 i) := by
  unfold val_main_v150
  generalize val_main_v149 (F := F) x1 = y
  exact broadcastInDim_apply _ bcast_S50000_S50000x1_0 y i (idx_main_v150 i) (fun a => match a with
    | ⟨0, _⟩ => by show (i 0).val = if (50000 : Nat) = 1 then 0 else (i 0).val; rw [if_neg (by decide)])

def val_main_v151 (x1 : (⟨S2x800000, .i32⟩ : BufTy).Contents (Elt F)) : (⟨S50000x64, .f32⟩ : BufTy).Contents (Elt F) :=
  broadcastInDim S50000x64 ![0, 1] bcast_S50000x1_S50000x64_0_1 (val_main_v150 (F := F) x1)

abbrev idx_main_v151 (i : S50000x64.Idx) : S50000x1.Idx := fun a => match a with
  | ⟨0, _⟩ => ⟨(i 0).val, (i 0).isLt⟩
  | ⟨1, _⟩ => ⟨0, Nat.one_pos⟩

theorem val_main_v151_apply (x1 : (⟨S2x800000, .i32⟩ : BufTy).Contents (Elt F)) (i : S50000x64.Idx) :
    val_main_v151 (F := F) x1 i = val_main_v150 (F := F) x1 (idx_main_v151 i) := by
  unfold val_main_v151
  generalize val_main_v150 (F := F) x1 = y
  exact broadcastInDim_apply _ bcast_S50000x1_S50000x64_0_1 y i (idx_main_v151 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

def val_main_v152 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  mulf (val_main_v120 (F := F) x0 x1 x3 x4 x5 x6 x7 x8) (val_main_v151 (F := F) x1)

theorem val_main_v152_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S50000x64.Idx) :
    val_main_v152 (F := F) x0 x1 x3 x4 x5 x6 x7 x8 i = FloatOps.mulf (val_main_v120 (F := F) x0 x1 x3 x4 x5 x6 x7 x8 i) (val_main_v151 (F := F) x1 i) := rfl

def val_main_v153 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  addf (val_main_v148 (F := F) x0 x1 x3 x4 x5 x6 x7 x8) (val_main_v152 (F := F) x0 x1 x3 x4 x5 x6 x7 x8)

theorem val_main_v153_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S50000x64.Idx) :
    val_main_v153 (F := F) x0 x1 x3 x4 x5 x6 x7 x8 i = FloatOps.addf (val_main_v148 (F := F) x0 x1 x3 x4 x5 x6 x7 x8 i) (val_main_v152 (F := F) x0 x1 x3 x4 x5 x6 x7 x8 i) := rfl

def val_main_v154 (x6 : (⟨S3x64, .f32⟩ : BufTy).Contents (Elt F)) : (⟨S1x64, .f32⟩ : BufTy).Contents (Elt F) :=
  broadcastInDim S1x64 ![1] bcast_S64_S1x64_1 (val_main_v119 (F := F) x6)

abbrev idx_main_v154 (i : S1x64.Idx) : S64.Idx := fun a => match a with
  | ⟨0, _⟩ => ⟨(i 1).val, (i 1).isLt⟩

theorem val_main_v154_apply (x6 : (⟨S3x64, .f32⟩ : BufTy).Contents (Elt F)) (i : S1x64.Idx) :
    val_main_v154 (F := F) x6 i = val_main_v119 (F := F) x6 (idx_main_v154 i) := by
  unfold val_main_v154
  generalize val_main_v119 (F := F) x6 = y
  exact broadcastInDim_apply _ bcast_S64_S1x64_1 y i (idx_main_v154 i) (fun a => match a with
    | ⟨0, _⟩ => by show (i 1).val = if (64 : Nat) = 1 then 0 else (i 1).val; rw [if_neg (by decide)])

def val_main_v155 (x6 : (⟨S3x64, .f32⟩ : BufTy).Contents (Elt F)) : (⟨S50000x64, .f32⟩ : BufTy).Contents (Elt F) :=
  broadcastInDim S50000x64 ![0, 1] bcast_S1x64_S50000x64_0_1 (val_main_v154 (F := F) x6)

abbrev idx_main_v155 (i : S50000x64.Idx) : S1x64.Idx := fun a => match a with
  | ⟨0, _⟩ => ⟨0, Nat.one_pos⟩
  | ⟨1, _⟩ => ⟨(i 1).val, (i 1).isLt⟩

theorem val_main_v155_apply (x6 : (⟨S3x64, .f32⟩ : BufTy).Contents (Elt F)) (i : S50000x64.Idx) :
    val_main_v155 (F := F) x6 i = val_main_v154 (F := F) x6 (idx_main_v155 i) := by
  unfold val_main_v155
  generalize val_main_v154 (F := F) x6 = y
  exact broadcastInDim_apply _ bcast_S1x64_S50000x64_0_1 y i (idx_main_v155 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v156 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  addf (val_main_v153 (F := F) x0 x1 x3 x4 x5 x6 x7 x8) (val_main_v155 (F := F) x6)

theorem val_main_v156_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S50000x64.Idx) :
    val_main_v156 (F := F) x0 x1 x3 x4 x5 x6 x7 x8 i = FloatOps.addf (val_main_v153 (F := F) x0 x1 x3 x4 x5 x6 x7 x8 i) (val_main_v155 (F := F) x6 i) := rfl

def val_main_cst_27 : (⟨S_, .f32⟩ : BufTy).Contents (Elt F) :=
  constant S_ .f32 0x00000000#32

def val_main_v157 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S64, .f32⟩ : BufTy).Contents (Elt F) :=
  Host.reduceAdd (val_main_v156 (F := F) x0 x1 x3 x4 x5 x6 x7 x8) (val_main_cst_27 (F := F)) reducesTo_S50000x64_S64_d0 h_S_

def val_main_cst_28 : (⟨S_, .f32⟩ : BufTy).Contents (Elt F) :=
  constant S_ .f32 0x47435000#32

theorem val_main_cst_28_apply (i : S_.Idx) :
    val_main_cst_28 (F := F) i = FloatOps.ofBits .f32 0x47435000#32 := rfl

def val_main_v158 : (⟨S64, .f32⟩ : BufTy).Contents (Elt F) :=
  broadcastInDim S64 ![] bcast_S_S64 (val_main_cst_28 (F := F))

abbrev idx_main_v158 (i : S64.Idx) : S_.Idx := fun a => a.elim0

theorem val_main_v158_apply (i : S64.Idx) :
    val_main_v158 (F := F) i = val_main_cst_28 (F := F) (idx_main_v158 i) := by
  unfold val_main_v158
  generalize val_main_cst_28 (F := F) = y
  exact broadcastInDim_apply _ bcast_S_S64 y i (idx_main_v158 i) (fun a => a.elim0)

def val_main_v159 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S64, .f32⟩ : BufTy).Contents (Elt F) :=
  Host.divf (val_main_v157 (F := F) x0 x1 x3 x4 x5 x6 x7 x8) (val_main_v158 (F := F))

theorem val_main_v159_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S64.Idx) :
    val_main_v159 (F := F) x0 x1 x3 x4 x5 x6 x7 x8 i = FloatOps.hostDivf (val_main_v157 (F := F) x0 x1 x3 x4 x5 x6 x7 x8 i) (val_main_v158 (F := F) i) := rfl

def val_main_v160 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S1x64, .f32⟩ : BufTy).Contents (Elt F) :=
  broadcastInDim S1x64 ![1] bcast_S64_S1x64_1 (val_main_v159 (F := F) x0 x1 x3 x4 x5 x6 x7 x8)

def val_main_v161 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  broadcastInDim S50000x64 ![0, 1] bcast_S1x64_S50000x64_0_1 (val_main_v160 (F := F) x0 x1 x3 x4 x5 x6 x7 x8)

def val_main_v162 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  subf (val_main_v156 (F := F) x0 x1 x3 x4 x5 x6 x7 x8) (val_main_v161 (F := F) x0 x1 x3 x4 x5 x6 x7 x8)

def val_main_v163 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  mulf (val_main_v162 (F := F) x0 x1 x3 x4 x5 x6 x7 x8) (val_main_v162 (F := F) x0 x1 x3 x4 x5 x6 x7 x8)

def val_main_cst_29 : (⟨S_, .f32⟩ : BufTy).Contents (Elt F) :=
  constant S_ .f32 0x00000000#32

def val_main_v164 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S64, .f32⟩ : BufTy).Contents (Elt F) :=
  Host.reduceAdd (val_main_v163 (F := F) x0 x1 x3 x4 x5 x6 x7 x8) (val_main_cst_29 (F := F)) reducesTo_S50000x64_S64_d0 h_S_

def val_main_cst_30 : (⟨S_, .f32⟩ : BufTy).Contents (Elt F) :=
  constant S_ .f32 0x47435000#32

theorem val_main_cst_30_apply (i : S_.Idx) :
    val_main_cst_30 (F := F) i = FloatOps.ofBits .f32 0x47435000#32 := rfl

def val_main_v165 : (⟨S64, .f32⟩ : BufTy).Contents (Elt F) :=
  broadcastInDim S64 ![] bcast_S_S64 (val_main_cst_30 (F := F))

abbrev idx_main_v165 (i : S64.Idx) : S_.Idx := fun a => a.elim0

theorem val_main_v165_apply (i : S64.Idx) :
    val_main_v165 (F := F) i = val_main_cst_30 (F := F) (idx_main_v165 i) := by
  unfold val_main_v165
  generalize val_main_cst_30 (F := F) = y
  exact broadcastInDim_apply _ bcast_S_S64 y i (idx_main_v165 i) (fun a => a.elim0)

def val_main_v166 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S64, .f32⟩ : BufTy).Contents (Elt F) :=
  Host.divf (val_main_v164 (F := F) x0 x1 x3 x4 x5 x6 x7 x8) (val_main_v165 (F := F))

theorem val_main_v166_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S64.Idx) :
    val_main_v166 (F := F) x0 x1 x3 x4 x5 x6 x7 x8 i = FloatOps.hostDivf (val_main_v164 (F := F) x0 x1 x3 x4 x5 x6 x7 x8 i) (val_main_v165 (F := F) i) := rfl

def val_main_v167 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S1x64, .f32⟩ : BufTy).Contents (Elt F) :=
  broadcastInDim S1x64 ![1] bcast_S64_S1x64_1 (val_main_v159 (F := F) x0 x1 x3 x4 x5 x6 x7 x8)

abbrev idx_main_v167 (i : S1x64.Idx) : S64.Idx := fun a => match a with
  | ⟨0, _⟩ => ⟨(i 1).val, (i 1).isLt⟩

theorem val_main_v167_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S1x64.Idx) :
    val_main_v167 (F := F) x0 x1 x3 x4 x5 x6 x7 x8 i = val_main_v159 (F := F) x0 x1 x3 x4 x5 x6 x7 x8 (idx_main_v167 i) := by
  unfold val_main_v167
  generalize val_main_v159 (F := F) x0 x1 x3 x4 x5 x6 x7 x8 = y
  exact broadcastInDim_apply _ bcast_S64_S1x64_1 y i (idx_main_v167 i) (fun a => match a with
    | ⟨0, _⟩ => by show (i 1).val = if (64 : Nat) = 1 then 0 else (i 1).val; rw [if_neg (by decide)])

def val_main_v168 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  broadcastInDim S50000x64 ![0, 1] bcast_S1x64_S50000x64_0_1 (val_main_v167 (F := F) x0 x1 x3 x4 x5 x6 x7 x8)

abbrev idx_main_v168 (i : S50000x64.Idx) : S1x64.Idx := fun a => match a with
  | ⟨0, _⟩ => ⟨0, Nat.one_pos⟩
  | ⟨1, _⟩ => ⟨(i 1).val, (i 1).isLt⟩

theorem val_main_v168_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S50000x64.Idx) :
    val_main_v168 (F := F) x0 x1 x3 x4 x5 x6 x7 x8 i = val_main_v167 (F := F) x0 x1 x3 x4 x5 x6 x7 x8 (idx_main_v168 i) := by
  unfold val_main_v168
  generalize val_main_v167 (F := F) x0 x1 x3 x4 x5 x6 x7 x8 = y
  exact broadcastInDim_apply _ bcast_S1x64_S50000x64_0_1 y i (idx_main_v168 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v169 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  subf (val_main_v156 (F := F) x0 x1 x3 x4 x5 x6 x7 x8) (val_main_v168 (F := F) x0 x1 x3 x4 x5 x6 x7 x8)

theorem val_main_v169_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S50000x64.Idx) :
    val_main_v169 (F := F) x0 x1 x3 x4 x5 x6 x7 x8 i = FloatOps.subf (val_main_v156 (F := F) x0 x1 x3 x4 x5 x6 x7 x8 i) (val_main_v168 (F := F) x0 x1 x3 x4 x5 x6 x7 x8 i) := rfl

def val_main_cst_31 : (⟨S_, .f32⟩ : BufTy).Contents (Elt F) :=
  constant S_ .f32 0x3727C5AC#32

theorem val_main_cst_31_apply (i : S_.Idx) :
    val_main_cst_31 (F := F) i = FloatOps.ofBits .f32 0x3727C5AC#32 := rfl

def val_main_v170 : (⟨S64, .f32⟩ : BufTy).Contents (Elt F) :=
  broadcastInDim S64 ![] bcast_S_S64 (val_main_cst_31 (F := F))

abbrev idx_main_v170 (i : S64.Idx) : S_.Idx := fun a => a.elim0

theorem val_main_v170_apply (i : S64.Idx) :
    val_main_v170 (F := F) i = val_main_cst_31 (F := F) (idx_main_v170 i) := by
  unfold val_main_v170
  generalize val_main_cst_31 (F := F) = y
  exact broadcastInDim_apply _ bcast_S_S64 y i (idx_main_v170 i) (fun a => a.elim0)

def val_main_v171 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S64, .f32⟩ : BufTy).Contents (Elt F) :=
  addf (val_main_v166 (F := F) x0 x1 x3 x4 x5 x6 x7 x8) (val_main_v170 (F := F))

theorem val_main_v171_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S64.Idx) :
    val_main_v171 (F := F) x0 x1 x3 x4 x5 x6 x7 x8 i = FloatOps.addf (val_main_v166 (F := F) x0 x1 x3 x4 x5 x6 x7 x8 i) (val_main_v170 (F := F) i) := rfl

def val_main_v172 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S64, .f32⟩ : BufTy).Contents (Elt F) :=
  Host.rsqrt (val_main_v171 (F := F) x0 x1 x3 x4 x5 x6 x7 x8)

theorem val_main_v172_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S64.Idx) :
    val_main_v172 (F := F) x0 x1 x3 x4 x5 x6 x7 x8 i = FloatOps.hostUnary .rsqrt (val_main_v171 (F := F) x0 x1 x3 x4 x5 x6 x7 x8 i) := rfl

def val_main_v173 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S1x64, .f32⟩ : BufTy).Contents (Elt F) :=
  broadcastInDim S1x64 ![1] bcast_S64_S1x64_1 (val_main_v172 (F := F) x0 x1 x3 x4 x5 x6 x7 x8)

abbrev idx_main_v173 (i : S1x64.Idx) : S64.Idx := fun a => match a with
  | ⟨0, _⟩ => ⟨(i 1).val, (i 1).isLt⟩

theorem val_main_v173_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S1x64.Idx) :
    val_main_v173 (F := F) x0 x1 x3 x4 x5 x6 x7 x8 i = val_main_v172 (F := F) x0 x1 x3 x4 x5 x6 x7 x8 (idx_main_v173 i) := by
  unfold val_main_v173
  generalize val_main_v172 (F := F) x0 x1 x3 x4 x5 x6 x7 x8 = y
  exact broadcastInDim_apply _ bcast_S64_S1x64_1 y i (idx_main_v173 i) (fun a => match a with
    | ⟨0, _⟩ => by show (i 1).val = if (64 : Nat) = 1 then 0 else (i 1).val; rw [if_neg (by decide)])

def val_main_v174 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  broadcastInDim S50000x64 ![0, 1] bcast_S1x64_S50000x64_0_1 (val_main_v173 (F := F) x0 x1 x3 x4 x5 x6 x7 x8)

abbrev idx_main_v174 (i : S50000x64.Idx) : S1x64.Idx := fun a => match a with
  | ⟨0, _⟩ => ⟨0, Nat.one_pos⟩
  | ⟨1, _⟩ => ⟨(i 1).val, (i 1).isLt⟩

theorem val_main_v174_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S50000x64.Idx) :
    val_main_v174 (F := F) x0 x1 x3 x4 x5 x6 x7 x8 i = val_main_v173 (F := F) x0 x1 x3 x4 x5 x6 x7 x8 (idx_main_v174 i) := by
  unfold val_main_v174
  generalize val_main_v173 (F := F) x0 x1 x3 x4 x5 x6 x7 x8 = y
  exact broadcastInDim_apply _ bcast_S1x64_S50000x64_0_1 y i (idx_main_v174 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v175 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  mulf (val_main_v169 (F := F) x0 x1 x3 x4 x5 x6 x7 x8) (val_main_v174 (F := F) x0 x1 x3 x4 x5 x6 x7 x8)

theorem val_main_v175_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S50000x64.Idx) :
    val_main_v175 (F := F) x0 x1 x3 x4 x5 x6 x7 x8 i = FloatOps.mulf (val_main_v169 (F := F) x0 x1 x3 x4 x5 x6 x7 x8 i) (val_main_v174 (F := F) x0 x1 x3 x4 x5 x6 x7 x8 i) := rfl

def val_main_v176 (x7 : (⟨S64, .f32⟩ : BufTy).Contents (Elt F)) : (⟨S1x64, .f32⟩ : BufTy).Contents (Elt F) :=
  broadcastInDim S1x64 ![1] bcast_S64_S1x64_1 (x7)

abbrev idx_main_v176 (i : S1x64.Idx) : S64.Idx := fun a => match a with
  | ⟨0, _⟩ => ⟨(i 1).val, (i 1).isLt⟩

theorem val_main_v176_apply (x7 : (⟨S64, .f32⟩ : BufTy).Contents (Elt F)) (i : S1x64.Idx) :
    val_main_v176 (F := F) x7 i = x7 (idx_main_v176 i) := by
  unfold val_main_v176
  exact broadcastInDim_apply _ bcast_S64_S1x64_1 x7 i (idx_main_v176 i) (fun a => match a with
    | ⟨0, _⟩ => by show (i 1).val = if (64 : Nat) = 1 then 0 else (i 1).val; rw [if_neg (by decide)])

def val_main_v177 (x7 : (⟨S64, .f32⟩ : BufTy).Contents (Elt F)) : (⟨S50000x64, .f32⟩ : BufTy).Contents (Elt F) :=
  broadcastInDim S50000x64 ![0, 1] bcast_S1x64_S50000x64_0_1 (val_main_v176 (F := F) x7)

abbrev idx_main_v177 (i : S50000x64.Idx) : S1x64.Idx := fun a => match a with
  | ⟨0, _⟩ => ⟨0, Nat.one_pos⟩
  | ⟨1, _⟩ => ⟨(i 1).val, (i 1).isLt⟩

theorem val_main_v177_apply (x7 : (⟨S64, .f32⟩ : BufTy).Contents (Elt F)) (i : S50000x64.Idx) :
    val_main_v177 (F := F) x7 i = val_main_v176 (F := F) x7 (idx_main_v177 i) := by
  unfold val_main_v177
  generalize val_main_v176 (F := F) x7 = y
  exact broadcastInDim_apply _ bcast_S1x64_S50000x64_0_1 y i (idx_main_v177 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v178 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  mulf (val_main_v175 (F := F) x0 x1 x3 x4 x5 x6 x7 x8) (val_main_v177 (F := F) x7)

theorem val_main_v178_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S50000x64.Idx) :
    val_main_v178 (F := F) x0 x1 x3 x4 x5 x6 x7 x8 i = FloatOps.mulf (val_main_v175 (F := F) x0 x1 x3 x4 x5 x6 x7 x8 i) (val_main_v177 (F := F) x7 i) := rfl

def val_main_v179 (x8 : (⟨S64, .f32⟩ : BufTy).Contents (Elt F)) : (⟨S1x64, .f32⟩ : BufTy).Contents (Elt F) :=
  broadcastInDim S1x64 ![1] bcast_S64_S1x64_1 (x8)

abbrev idx_main_v179 (i : S1x64.Idx) : S64.Idx := fun a => match a with
  | ⟨0, _⟩ => ⟨(i 1).val, (i 1).isLt⟩

theorem val_main_v179_apply (x8 : (⟨S64, .f32⟩ : BufTy).Contents (Elt F)) (i : S1x64.Idx) :
    val_main_v179 (F := F) x8 i = x8 (idx_main_v179 i) := by
  unfold val_main_v179
  exact broadcastInDim_apply _ bcast_S64_S1x64_1 x8 i (idx_main_v179 i) (fun a => match a with
    | ⟨0, _⟩ => by show (i 1).val = if (64 : Nat) = 1 then 0 else (i 1).val; rw [if_neg (by decide)])

def val_main_v180 (x8 : (⟨S64, .f32⟩ : BufTy).Contents (Elt F)) : (⟨S50000x64, .f32⟩ : BufTy).Contents (Elt F) :=
  broadcastInDim S50000x64 ![0, 1] bcast_S1x64_S50000x64_0_1 (val_main_v179 (F := F) x8)

abbrev idx_main_v180 (i : S50000x64.Idx) : S1x64.Idx := fun a => match a with
  | ⟨0, _⟩ => ⟨0, Nat.one_pos⟩
  | ⟨1, _⟩ => ⟨(i 1).val, (i 1).isLt⟩

theorem val_main_v180_apply (x8 : (⟨S64, .f32⟩ : BufTy).Contents (Elt F)) (i : S50000x64.Idx) :
    val_main_v180 (F := F) x8 i = val_main_v179 (F := F) x8 (idx_main_v180 i) := by
  unfold val_main_v180
  generalize val_main_v179 (F := F) x8 = y
  exact broadcastInDim_apply _ bcast_S1x64_S50000x64_0_1 y i (idx_main_v180 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v181 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  addf (val_main_v178 (F := F) x0 x1 x3 x4 x5 x6 x7 x8) (val_main_v180 (F := F) x8)

theorem val_main_v181_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S50000x64.Idx) :
    val_main_v181 (F := F) x0 x1 x3 x4 x5 x6 x7 x8 i = FloatOps.addf (val_main_v178 (F := F) x0 x1 x3 x4 x5 x6 x7 x8 i) (val_main_v180 (F := F) x8 i) := rfl

def val_main_call2_cst : (⟨S_, .f32⟩ : BufTy).Contents (Elt F) :=
  constant S_ .f32 0x00000000#32

theorem val_main_call2_cst_apply (i : S_.Idx) :
    val_main_call2_cst (F := F) i = FloatOps.ofBits .f32 0x00000000#32 := rfl

def val_main_call2_v0 : (⟨S50000x64, .f32⟩ : BufTy).Contents (Elt F) :=
  broadcastInDim S50000x64 ![] bcast_S_S50000x64 (val_main_call2_cst (F := F))

abbrev idx_main_call2_v0 (i : S50000x64.Idx) : S_.Idx := fun a => a.elim0

theorem val_main_call2_v0_apply (i : S50000x64.Idx) :
    val_main_call2_v0 (F := F) i = val_main_call2_cst (F := F) (idx_main_call2_v0 i) := by
  unfold val_main_call2_v0
  generalize val_main_call2_cst (F := F) = y
  exact broadcastInDim_apply _ bcast_S_S50000x64 y i (idx_main_call2_v0 i) (fun a => a.elim0)

def val_main_v182 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  maximumf (val_main_v181 (F := F) x0 x1 x3 x4 x5 x6 x7 x8) (val_main_call2_v0 (F := F))

theorem val_main_v182_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S50000x64.Idx) :
    val_main_v182 (F := F) x0 x1 x3 x4 x5 x6 x7 x8 i = FloatOps.maximumf (val_main_v181 (F := F) x0 x1 x3 x4 x5 x6 x7 x8 i) (val_main_call2_v0 (F := F) i) := rfl

def val_main_v183 (x5 : (⟨S3x64x64, .f32⟩ : BufTy).Contents (Elt F)) : (⟨S1x64x64, .f32⟩ : BufTy).Contents (Elt F) :=
  extractStridedSlice S1x64x64 ![2, 0, 0] (x5) slices_S3x64x64_S1x64x64_2_0_0

def val_main_v184 (x5 : (⟨S3x64x64, .f32⟩ : BufTy).Contents (Elt F)) : (⟨S64x64, .f32⟩ : BufTy).Contents (Elt F) :=
  shapeCast _ (val_main_v183 (F := F) x5) shapeCasts_S1x64x64_S64x64

def val_main_v185 (x6 : (⟨S3x64, .f32⟩ : BufTy).Contents (Elt F)) : (⟨S1x64, .f32⟩ : BufTy).Contents (Elt F) :=
  extractStridedSlice S1x64 ![2, 0] (x6) slices_S3x64_S1x64_2_0

def val_main_v186 (x6 : (⟨S3x64, .f32⟩ : BufTy).Contents (Elt F)) : (⟨S64, .f32⟩ : BufTy).Contents (Elt F) :=
  shapeCast _ (val_main_v185 (F := F) x6) shapeCasts_S1x64_S64

def val_main_v187 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  Host.dotGeneral dot_S50000x64_S64x64_S50000x64_1_0_0_1_n_n none (val_main_v182 (F := F) x0 x1 x3 x4 x5 x6 x7 x8) (val_main_v184 (F := F) x5)

theorem lhs_main_v187_0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl

theorem lhs_main_v187_1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q

theorem rhs_main_v187_0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q

theorem rhs_main_v187_1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

abbrev lidx_main_v187 (i : S50000x64.Idx) (k : Fin 64) : S50000x64.Idx := fun a => match a with
  | ⟨0, _⟩ => ⟨(i 0).val, (i 0).isLt⟩
  | ⟨1, _⟩ => ⟨k.val, k.isLt⟩

abbrev ridx_main_v187 (i : S50000x64.Idx) (k : Fin 64) : S64x64.Idx := fun a => match a with
  | ⟨0, _⟩ => ⟨k.val, k.isLt⟩
  | ⟨1, _⟩ => ⟨(i 1).val, (i 1).isLt⟩

theorem val_main_v187_apply (x0 : (⟨S50000x128, .f32⟩ : BufTy).Contents (Elt Ideal)) (x1 : (⟨S2x800000, .i32⟩ : BufTy).Contents (Elt Ideal)) (x3 : (⟨S128x64, .f32⟩ : BufTy).Contents (Elt Ideal)) (x4 : (⟨S64, .f32⟩ : BufTy).Contents (Elt Ideal)) (x5 : (⟨S3x64x64, .f32⟩ : BufTy).Contents (Elt Ideal)) (x6 : (⟨S3x64, .f32⟩ : BufTy).Contents (Elt Ideal)) (x7 x8 : (⟨S64, .f32⟩ : BufTy).Contents (Elt Ideal)) (i : S50000x64.Idx) :
    val_main_v187 (F := Ideal) x0 x1 x3 x4 x5 x6 x7 x8 i = ∑ k : Fin 64, (val_main_v182 (F := Ideal) x0 x1 x3 x4 x5 x6 x7 x8) (lidx_main_v187 i k) * (val_main_v184 (F := Ideal) x5) (ridx_main_v187 i k) := by
  unfold val_main_v187
  generalize val_main_v182 (F := Ideal) x0 x1 x3 x4 x5 x6 x7 x8 = y0
  generalize val_main_v184 (F := Ideal) x5 = y1
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx i ((ValueIdx.contrEquiv1 dot_S50000x64_S64x64_S50000x64_1_0_0_1_n_n 64 rfl rfl).symm k) = lidx_main_v187 i k := funext fun a => Fin.ext (by
    match a with
    | ⟨0, _⟩ => exact lhs_main_v187_0 _ _
    | ⟨1, _⟩ => exact (lhs_main_v187_1 _ _).trans hk)
  have er : dot_S50000x64_S64x64_S50000x64_1_0_0_1_n_n.rhsIdx i ((ValueIdx.contrEquiv1 dot_S50000x64_S64x64_S50000x64_1_0_0_1_n_n 64 rfl rfl).symm k) = ridx_main_v187 i k := funext fun a => Fin.ext (by
    match a with
    | ⟨0, _⟩ => exact (rhs_main_v187_0 _ _).trans hk
    | ⟨1, _⟩ => exact rhs_main_v187_1 _ _)
  rw [el, er]

def val_main_c_32 : (⟨S_, .i32⟩ : BufTy).Contents (Elt F) :=
  constantI S_ 32 0#32

def val_main_v188 : (⟨S800000, .i32⟩ : BufTy).Contents (Elt F) :=
  broadcastInDim S800000 ![] bcast_S_S800000 (val_main_c_32 (F := F))

def val_main_v189 (x1 : (⟨S2x800000, .i32⟩ : BufTy).Contents (Elt F)) : (⟨S800000, .i1⟩ : BufTy).Contents (Elt F) :=
  cmpi .slt (val_main_v1 (F := F) x1) (val_main_v188 (F := F))

def val_main_c_33 : (⟨S_, .i32⟩ : BufTy).Contents (Elt F) :=
  constantI S_ 32 50000#32

def val_main_v190 : (⟨S800000, .i32⟩ : BufTy).Contents (Elt F) :=
  broadcastInDim S800000 ![] bcast_S_S800000 (val_main_c_33 (F := F))

def val_main_v191 (x1 : (⟨S2x800000, .i32⟩ : BufTy).Contents (Elt F)) : (⟨S800000, .i32⟩ : BufTy).Contents (Elt F) :=
  addi (val_main_v1 (F := F) x1) (val_main_v190 (F := F))

def val_main_v192 (x1 : (⟨S2x800000, .i32⟩ : BufTy).Contents (Elt F)) : (⟨S800000, .i32⟩ : BufTy).Contents (Elt F) :=
  select (val_main_v189 (F := F) x1) (val_main_v191 (F := F) x1) (val_main_v1 (F := F) x1)

def val_main_v193 (x1 : (⟨S2x800000, .i32⟩ : BufTy).Contents (Elt F)) : (⟨S800000x1, .i32⟩ : BufTy).Contents (Elt F) :=
  broadcastInDim S800000x1 ![0] bcast_S800000_S800000x1_0 (val_main_v192 (F := F) x1)

def val_main_v194 (x1 : (⟨S2x800000, .i32⟩ : BufTy).Contents (Elt F)) : (⟨S800000, .f32⟩ : BufTy).Contents (Elt F) :=
  Host.gather gather_S50000_S800000x1_S800000_n_0_n_n_0_1_1 (val_main_v10 (F := F) x1) (val_main_v193 (F := F) x1)

def val_main_c_34 : (⟨S_, .i32⟩ : BufTy).Contents (Elt F) :=
  constantI S_ 32 0#32

def val_main_v195 : (⟨S800000, .i32⟩ : BufTy).Contents (Elt F) :=
  broadcastInDim S800000 ![] bcast_S_S800000 (val_main_c_34 (F := F))

def val_main_v196 (x1 : (⟨S2x800000, .i32⟩ : BufTy).Contents (Elt F)) : (⟨S800000, .i1⟩ : BufTy).Contents (Elt F) :=
  cmpi .slt (val_main_v3 (F := F) x1) (val_main_v195 (F := F))

def val_main_c_35 : (⟨S_, .i32⟩ : BufTy).Contents (Elt F) :=
  constantI S_ 32 50000#32

def val_main_v197 : (⟨S800000, .i32⟩ : BufTy).Contents (Elt F) :=
  broadcastInDim S800000 ![] bcast_S_S800000 (val_main_c_35 (F := F))

def val_main_v198 (x1 : (⟨S2x800000, .i32⟩ : BufTy).Contents (Elt F)) : (⟨S800000, .i32⟩ : BufTy).Contents (Elt F) :=
  addi (val_main_v3 (F := F) x1) (val_main_v197 (F := F))

def val_main_v199 (x1 : (⟨S2x800000, .i32⟩ : BufTy).Contents (Elt F)) : (⟨S800000, .i32⟩ : BufTy).Contents (Elt F) :=
  select (val_main_v196 (F := F) x1) (val_main_v198 (F := F) x1) (val_main_v3 (F := F) x1)

def val_main_v200 (x1 : (⟨S2x800000, .i32⟩ : BufTy).Contents (Elt F)) : (⟨S800000x1, .i32⟩ : BufTy).Contents (Elt F) :=
  broadcastInDim S800000x1 ![0] bcast_S800000_S800000x1_0 (val_main_v199 (F := F) x1)

def val_main_v201 (x1 : (⟨S2x800000, .i32⟩ : BufTy).Contents (Elt F)) : (⟨S800000, .f32⟩ : BufTy).Contents (Elt F) :=
  Host.gather gather_S50000_S800000x1_S800000_n_0_n_n_0_1_1 (val_main_v10 (F := F) x1) (val_main_v200 (F := F) x1)

def val_main_v202 (x1 : (⟨S2x800000, .i32⟩ : BufTy).Contents (Elt F)) : (⟨S800000, .f32⟩ : BufTy).Contents (Elt F) :=
  mulf (val_main_v194 (F := F) x1) (val_main_v201 (F := F) x1)

def val_main_v203 (x1 : (⟨S2x800000, .i32⟩ : BufTy).Contents (Elt F)) : (⟨S800000x1, .f32⟩ : BufTy).Contents (Elt F) :=
  broadcastInDim S800000x1 ![0] bcast_S800000_S800000x1_0 (val_main_v202 (F := F) x1)

def val_main_c_36 : (⟨S_, .i32⟩ : BufTy).Contents (Elt F) :=
  constantI S_ 32 0#32

def val_main_v204 : (⟨S800000, .i32⟩ : BufTy).Contents (Elt F) :=
  broadcastInDim S800000 ![] bcast_S_S800000 (val_main_c_36 (F := F))

def val_main_v205 (x1 : (⟨S2x800000, .i32⟩ : BufTy).Contents (Elt F)) : (⟨S800000, .i1⟩ : BufTy).Contents (Elt F) :=
  cmpi .slt (val_main_v1 (F := F) x1) (val_main_v204 (F := F))

def val_main_c_37 : (⟨S_, .i32⟩ : BufTy).Contents (Elt F) :=
  constantI S_ 32 50000#32

def val_main_v206 : (⟨S800000, .i32⟩ : BufTy).Contents (Elt F) :=
  broadcastInDim S800000 ![] bcast_S_S800000 (val_main_c_37 (F := F))

def val_main_v207 (x1 : (⟨S2x800000, .i32⟩ : BufTy).Contents (Elt F)) : (⟨S800000, .i32⟩ : BufTy).Contents (Elt F) :=
  addi (val_main_v1 (F := F) x1) (val_main_v206 (F := F))

def val_main_v208 (x1 : (⟨S2x800000, .i32⟩ : BufTy).Contents (Elt F)) : (⟨S800000, .i32⟩ : BufTy).Contents (Elt F) :=
  select (val_main_v205 (F := F) x1) (val_main_v207 (F := F) x1) (val_main_v1 (F := F) x1)

def val_main_v209 (x1 : (⟨S2x800000, .i32⟩ : BufTy).Contents (Elt F)) : (⟨S800000x1, .i32⟩ : BufTy).Contents (Elt F) :=
  broadcastInDim S800000x1 ![0] bcast_S800000_S800000x1_0 (val_main_v208 (F := F) x1)

def val_main_v210 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S800000x64, .f32⟩ : BufTy).Contents (Elt F) :=
  Host.gather gather_S50000x64_S800000x1_S800000x64_1_0_n_n_0_1_164 (val_main_v187 (F := F) x0 x1 x3 x4 x5 x6 x7 x8) (val_main_v209 (F := F) x1)

def val_main_v211 (x1 : (⟨S2x800000, .i32⟩ : BufTy).Contents (Elt F)) : (⟨S800000x64, .f32⟩ : BufTy).Contents (Elt F) :=
  broadcastInDim S800000x64 ![0, 1] bcast_S800000x1_S800000x64_0_1 (val_main_v203 (F := F) x1)

def val_main_v212 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S800000x64, .f32⟩ : BufTy).Contents (Elt F) :=
  mulf (val_main_v210 (F := F) x0 x1 x3 x4 x5 x6 x7 x8) (val_main_v211 (F := F) x1)

def val_main_cst_38 : (⟨S_, .f32⟩ : BufTy).Contents (Elt F) :=
  constant S_ .f32 0x00000000#32

def val_main_v213 : (⟨S50000x64, .f32⟩ : BufTy).Contents (Elt F) :=
  broadcastInDim S50000x64 ![] bcast_S_S50000x64 (val_main_cst_38 (F := F))

def val_main_v214 (x1 : (⟨S2x800000, .i32⟩ : BufTy).Contents (Elt F)) : (⟨S800000x1, .i32⟩ : BufTy).Contents (Elt F) :=
  broadcastInDim S800000x1 ![0] bcast_S800000_S800000x1_0 (val_main_v3 (F := F) x1)

def val_main_v215 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  Host.scatterAdd scatter_S50000x64_S800000x1_S800000x64_1_0_0_1 (val_main_v213 (F := F)) (val_main_v214 (F := F) x1) (val_main_v212 (F := F) x0 x1 x3 x4 x5 x6 x7 x8)

def val_main_v216 (x1 : (⟨S2x800000, .i32⟩ : BufTy).Contents (Elt F)) : (⟨S50000, .f32⟩ : BufTy).Contents (Elt F) :=
  mulf (val_main_v10 (F := F) x1) (val_main_v10 (F := F) x1)

def val_main_v217 (x1 : (⟨S2x800000, .i32⟩ : BufTy).Contents (Elt F)) : (⟨S50000x1, .f32⟩ : BufTy).Contents (Elt F) :=
  broadcastInDim S50000x1 ![0] bcast_S50000_S50000x1_0 (val_main_v216 (F := F) x1)

abbrev idx_main_v217 (i : S50000x1.Idx) : S50000.Idx := fun a => match a with
  | ⟨0, _⟩ => ⟨(i 0).val, (i 0).isLt⟩

theorem val_main_v217_apply (x1 : (⟨S2x800000, .i32⟩ : BufTy).Contents (Elt F)) (i : S50000x1.Idx) :
    val_main_v217 (F := F) x1 i = val_main_v216 (F := F) x1 (idx_main_v217 i) := by
  unfold val_main_v217
  generalize val_main_v216 (F := F) x1 = y
  exact broadcastInDim_apply _ bcast_S50000_S50000x1_0 y i (idx_main_v217 i) (fun a => match a with
    | ⟨0, _⟩ => by show (i 0).val = if (50000 : Nat) = 1 then 0 else (i 0).val; rw [if_neg (by decide)])

def val_main_v218 (x1 : (⟨S2x800000, .i32⟩ : BufTy).Contents (Elt F)) : (⟨S50000x64, .f32⟩ : BufTy).Contents (Elt F) :=
  broadcastInDim S50000x64 ![0, 1] bcast_S50000x1_S50000x64_0_1 (val_main_v217 (F := F) x1)

abbrev idx_main_v218 (i : S50000x64.Idx) : S50000x1.Idx := fun a => match a with
  | ⟨0, _⟩ => ⟨(i 0).val, (i 0).isLt⟩
  | ⟨1, _⟩ => ⟨0, Nat.one_pos⟩

theorem val_main_v218_apply (x1 : (⟨S2x800000, .i32⟩ : BufTy).Contents (Elt F)) (i : S50000x64.Idx) :
    val_main_v218 (F := F) x1 i = val_main_v217 (F := F) x1 (idx_main_v218 i) := by
  unfold val_main_v218
  generalize val_main_v217 (F := F) x1 = y
  exact broadcastInDim_apply _ bcast_S50000x1_S50000x64_0_1 y i (idx_main_v218 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

def val_main_v219 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  mulf (val_main_v187 (F := F) x0 x1 x3 x4 x5 x6 x7 x8) (val_main_v218 (F := F) x1)

theorem val_main_v219_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S50000x64.Idx) :
    val_main_v219 (F := F) x0 x1 x3 x4 x5 x6 x7 x8 i = FloatOps.mulf (val_main_v187 (F := F) x0 x1 x3 x4 x5 x6 x7 x8 i) (val_main_v218 (F := F) x1 i) := rfl

def val_main_v220 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  addf (val_main_v215 (F := F) x0 x1 x3 x4 x5 x6 x7 x8) (val_main_v219 (F := F) x0 x1 x3 x4 x5 x6 x7 x8)

theorem val_main_v220_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S50000x64.Idx) :
    val_main_v220 (F := F) x0 x1 x3 x4 x5 x6 x7 x8 i = FloatOps.addf (val_main_v215 (F := F) x0 x1 x3 x4 x5 x6 x7 x8 i) (val_main_v219 (F := F) x0 x1 x3 x4 x5 x6 x7 x8 i) := rfl

def val_main_v221 (x6 : (⟨S3x64, .f32⟩ : BufTy).Contents (Elt F)) : (⟨S1x64, .f32⟩ : BufTy).Contents (Elt F) :=
  broadcastInDim S1x64 ![1] bcast_S64_S1x64_1 (val_main_v186 (F := F) x6)

abbrev idx_main_v221 (i : S1x64.Idx) : S64.Idx := fun a => match a with
  | ⟨0, _⟩ => ⟨(i 1).val, (i 1).isLt⟩

theorem val_main_v221_apply (x6 : (⟨S3x64, .f32⟩ : BufTy).Contents (Elt F)) (i : S1x64.Idx) :
    val_main_v221 (F := F) x6 i = val_main_v186 (F := F) x6 (idx_main_v221 i) := by
  unfold val_main_v221
  generalize val_main_v186 (F := F) x6 = y
  exact broadcastInDim_apply _ bcast_S64_S1x64_1 y i (idx_main_v221 i) (fun a => match a with
    | ⟨0, _⟩ => by show (i 1).val = if (64 : Nat) = 1 then 0 else (i 1).val; rw [if_neg (by decide)])

def val_main_v222 (x6 : (⟨S3x64, .f32⟩ : BufTy).Contents (Elt F)) : (⟨S50000x64, .f32⟩ : BufTy).Contents (Elt F) :=
  broadcastInDim S50000x64 ![0, 1] bcast_S1x64_S50000x64_0_1 (val_main_v221 (F := F) x6)

abbrev idx_main_v222 (i : S50000x64.Idx) : S1x64.Idx := fun a => match a with
  | ⟨0, _⟩ => ⟨0, Nat.one_pos⟩
  | ⟨1, _⟩ => ⟨(i 1).val, (i 1).isLt⟩

theorem val_main_v222_apply (x6 : (⟨S3x64, .f32⟩ : BufTy).Contents (Elt F)) (i : S50000x64.Idx) :
    val_main_v222 (F := F) x6 i = val_main_v221 (F := F) x6 (idx_main_v222 i) := by
  unfold val_main_v222
  generalize val_main_v221 (F := F) x6 = y
  exact broadcastInDim_apply _ bcast_S1x64_S50000x64_0_1 y i (idx_main_v222 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v223 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  addf (val_main_v220 (F := F) x0 x1 x3 x4 x5 x6 x7 x8) (val_main_v222 (F := F) x6)

theorem val_main_v223_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S50000x64.Idx) :
    val_main_v223 (F := F) x0 x1 x3 x4 x5 x6 x7 x8 i = FloatOps.addf (val_main_v220 (F := F) x0 x1 x3 x4 x5 x6 x7 x8 i) (val_main_v222 (F := F) x6 i) := rfl

def val_main_cst_39 : (⟨S_, .f32⟩ : BufTy).Contents (Elt F) :=
  constant S_ .f32 0x00000000#32

def val_main_v224 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S64, .f32⟩ : BufTy).Contents (Elt F) :=
  Host.reduceAdd (val_main_v223 (F := F) x0 x1 x3 x4 x5 x6 x7 x8) (val_main_cst_39 (F := F)) reducesTo_S50000x64_S64_d0 h_S_

def val_main_cst_40 : (⟨S_, .f32⟩ : BufTy).Contents (Elt F) :=
  constant S_ .f32 0x47435000#32

theorem val_main_cst_40_apply (i : S_.Idx) :
    val_main_cst_40 (F := F) i = FloatOps.ofBits .f32 0x47435000#32 := rfl

def val_main_v225 : (⟨S64, .f32⟩ : BufTy).Contents (Elt F) :=
  broadcastInDim S64 ![] bcast_S_S64 (val_main_cst_40 (F := F))

abbrev idx_main_v225 (i : S64.Idx) : S_.Idx := fun a => a.elim0

theorem val_main_v225_apply (i : S64.Idx) :
    val_main_v225 (F := F) i = val_main_cst_40 (F := F) (idx_main_v225 i) := by
  unfold val_main_v225
  generalize val_main_cst_40 (F := F) = y
  exact broadcastInDim_apply _ bcast_S_S64 y i (idx_main_v225 i) (fun a => a.elim0)

def val_main_v226 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S64, .f32⟩ : BufTy).Contents (Elt F) :=
  Host.divf (val_main_v224 (F := F) x0 x1 x3 x4 x5 x6 x7 x8) (val_main_v225 (F := F))

theorem val_main_v226_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S64.Idx) :
    val_main_v226 (F := F) x0 x1 x3 x4 x5 x6 x7 x8 i = FloatOps.hostDivf (val_main_v224 (F := F) x0 x1 x3 x4 x5 x6 x7 x8 i) (val_main_v225 (F := F) i) := rfl

def val_main_v227 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S1x64, .f32⟩ : BufTy).Contents (Elt F) :=
  broadcastInDim S1x64 ![1] bcast_S64_S1x64_1 (val_main_v226 (F := F) x0 x1 x3 x4 x5 x6 x7 x8)

def val_main_v228 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  broadcastInDim S50000x64 ![0, 1] bcast_S1x64_S50000x64_0_1 (val_main_v227 (F := F) x0 x1 x3 x4 x5 x6 x7 x8)

def val_main_v229 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  subf (val_main_v223 (F := F) x0 x1 x3 x4 x5 x6 x7 x8) (val_main_v228 (F := F) x0 x1 x3 x4 x5 x6 x7 x8)

def val_main_v230 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  mulf (val_main_v229 (F := F) x0 x1 x3 x4 x5 x6 x7 x8) (val_main_v229 (F := F) x0 x1 x3 x4 x5 x6 x7 x8)

def val_main_cst_41 : (⟨S_, .f32⟩ : BufTy).Contents (Elt F) :=
  constant S_ .f32 0x00000000#32

def val_main_v231 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S64, .f32⟩ : BufTy).Contents (Elt F) :=
  Host.reduceAdd (val_main_v230 (F := F) x0 x1 x3 x4 x5 x6 x7 x8) (val_main_cst_41 (F := F)) reducesTo_S50000x64_S64_d0 h_S_

def val_main_cst_42 : (⟨S_, .f32⟩ : BufTy).Contents (Elt F) :=
  constant S_ .f32 0x47435000#32

theorem val_main_cst_42_apply (i : S_.Idx) :
    val_main_cst_42 (F := F) i = FloatOps.ofBits .f32 0x47435000#32 := rfl

def val_main_v232 : (⟨S64, .f32⟩ : BufTy).Contents (Elt F) :=
  broadcastInDim S64 ![] bcast_S_S64 (val_main_cst_42 (F := F))

abbrev idx_main_v232 (i : S64.Idx) : S_.Idx := fun a => a.elim0

theorem val_main_v232_apply (i : S64.Idx) :
    val_main_v232 (F := F) i = val_main_cst_42 (F := F) (idx_main_v232 i) := by
  unfold val_main_v232
  generalize val_main_cst_42 (F := F) = y
  exact broadcastInDim_apply _ bcast_S_S64 y i (idx_main_v232 i) (fun a => a.elim0)

def val_main_v233 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S64, .f32⟩ : BufTy).Contents (Elt F) :=
  Host.divf (val_main_v231 (F := F) x0 x1 x3 x4 x5 x6 x7 x8) (val_main_v232 (F := F))

theorem val_main_v233_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S64.Idx) :
    val_main_v233 (F := F) x0 x1 x3 x4 x5 x6 x7 x8 i = FloatOps.hostDivf (val_main_v231 (F := F) x0 x1 x3 x4 x5 x6 x7 x8 i) (val_main_v232 (F := F) i) := rfl

def val_main_v234 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S1x64, .f32⟩ : BufTy).Contents (Elt F) :=
  broadcastInDim S1x64 ![1] bcast_S64_S1x64_1 (val_main_v226 (F := F) x0 x1 x3 x4 x5 x6 x7 x8)

abbrev idx_main_v234 (i : S1x64.Idx) : S64.Idx := fun a => match a with
  | ⟨0, _⟩ => ⟨(i 1).val, (i 1).isLt⟩

theorem val_main_v234_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S1x64.Idx) :
    val_main_v234 (F := F) x0 x1 x3 x4 x5 x6 x7 x8 i = val_main_v226 (F := F) x0 x1 x3 x4 x5 x6 x7 x8 (idx_main_v234 i) := by
  unfold val_main_v234
  generalize val_main_v226 (F := F) x0 x1 x3 x4 x5 x6 x7 x8 = y
  exact broadcastInDim_apply _ bcast_S64_S1x64_1 y i (idx_main_v234 i) (fun a => match a with
    | ⟨0, _⟩ => by show (i 1).val = if (64 : Nat) = 1 then 0 else (i 1).val; rw [if_neg (by decide)])

def val_main_v235 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  broadcastInDim S50000x64 ![0, 1] bcast_S1x64_S50000x64_0_1 (val_main_v234 (F := F) x0 x1 x3 x4 x5 x6 x7 x8)

abbrev idx_main_v235 (i : S50000x64.Idx) : S1x64.Idx := fun a => match a with
  | ⟨0, _⟩ => ⟨0, Nat.one_pos⟩
  | ⟨1, _⟩ => ⟨(i 1).val, (i 1).isLt⟩

theorem val_main_v235_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S50000x64.Idx) :
    val_main_v235 (F := F) x0 x1 x3 x4 x5 x6 x7 x8 i = val_main_v234 (F := F) x0 x1 x3 x4 x5 x6 x7 x8 (idx_main_v235 i) := by
  unfold val_main_v235
  generalize val_main_v234 (F := F) x0 x1 x3 x4 x5 x6 x7 x8 = y
  exact broadcastInDim_apply _ bcast_S1x64_S50000x64_0_1 y i (idx_main_v235 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v236 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  subf (val_main_v223 (F := F) x0 x1 x3 x4 x5 x6 x7 x8) (val_main_v235 (F := F) x0 x1 x3 x4 x5 x6 x7 x8)

theorem val_main_v236_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S50000x64.Idx) :
    val_main_v236 (F := F) x0 x1 x3 x4 x5 x6 x7 x8 i = FloatOps.subf (val_main_v223 (F := F) x0 x1 x3 x4 x5 x6 x7 x8 i) (val_main_v235 (F := F) x0 x1 x3 x4 x5 x6 x7 x8 i) := rfl

def val_main_cst_43 : (⟨S_, .f32⟩ : BufTy).Contents (Elt F) :=
  constant S_ .f32 0x3727C5AC#32

theorem val_main_cst_43_apply (i : S_.Idx) :
    val_main_cst_43 (F := F) i = FloatOps.ofBits .f32 0x3727C5AC#32 := rfl

def val_main_v237 : (⟨S64, .f32⟩ : BufTy).Contents (Elt F) :=
  broadcastInDim S64 ![] bcast_S_S64 (val_main_cst_43 (F := F))

abbrev idx_main_v237 (i : S64.Idx) : S_.Idx := fun a => a.elim0

theorem val_main_v237_apply (i : S64.Idx) :
    val_main_v237 (F := F) i = val_main_cst_43 (F := F) (idx_main_v237 i) := by
  unfold val_main_v237
  generalize val_main_cst_43 (F := F) = y
  exact broadcastInDim_apply _ bcast_S_S64 y i (idx_main_v237 i) (fun a => a.elim0)

def val_main_v238 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S64, .f32⟩ : BufTy).Contents (Elt F) :=
  addf (val_main_v233 (F := F) x0 x1 x3 x4 x5 x6 x7 x8) (val_main_v237 (F := F))

theorem val_main_v238_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S64.Idx) :
    val_main_v238 (F := F) x0 x1 x3 x4 x5 x6 x7 x8 i = FloatOps.addf (val_main_v233 (F := F) x0 x1 x3 x4 x5 x6 x7 x8 i) (val_main_v237 (F := F) i) := rfl

def val_main_v239 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S64, .f32⟩ : BufTy).Contents (Elt F) :=
  Host.rsqrt (val_main_v238 (F := F) x0 x1 x3 x4 x5 x6 x7 x8)

theorem val_main_v239_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S64.Idx) :
    val_main_v239 (F := F) x0 x1 x3 x4 x5 x6 x7 x8 i = FloatOps.hostUnary .rsqrt (val_main_v238 (F := F) x0 x1 x3 x4 x5 x6 x7 x8 i) := rfl

def val_main_v240 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S1x64, .f32⟩ : BufTy).Contents (Elt F) :=
  broadcastInDim S1x64 ![1] bcast_S64_S1x64_1 (val_main_v239 (F := F) x0 x1 x3 x4 x5 x6 x7 x8)

abbrev idx_main_v240 (i : S1x64.Idx) : S64.Idx := fun a => match a with
  | ⟨0, _⟩ => ⟨(i 1).val, (i 1).isLt⟩

theorem val_main_v240_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S1x64.Idx) :
    val_main_v240 (F := F) x0 x1 x3 x4 x5 x6 x7 x8 i = val_main_v239 (F := F) x0 x1 x3 x4 x5 x6 x7 x8 (idx_main_v240 i) := by
  unfold val_main_v240
  generalize val_main_v239 (F := F) x0 x1 x3 x4 x5 x6 x7 x8 = y
  exact broadcastInDim_apply _ bcast_S64_S1x64_1 y i (idx_main_v240 i) (fun a => match a with
    | ⟨0, _⟩ => by show (i 1).val = if (64 : Nat) = 1 then 0 else (i 1).val; rw [if_neg (by decide)])

def val_main_v241 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  broadcastInDim S50000x64 ![0, 1] bcast_S1x64_S50000x64_0_1 (val_main_v240 (F := F) x0 x1 x3 x4 x5 x6 x7 x8)

abbrev idx_main_v241 (i : S50000x64.Idx) : S1x64.Idx := fun a => match a with
  | ⟨0, _⟩ => ⟨0, Nat.one_pos⟩
  | ⟨1, _⟩ => ⟨(i 1).val, (i 1).isLt⟩

theorem val_main_v241_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S50000x64.Idx) :
    val_main_v241 (F := F) x0 x1 x3 x4 x5 x6 x7 x8 i = val_main_v240 (F := F) x0 x1 x3 x4 x5 x6 x7 x8 (idx_main_v241 i) := by
  unfold val_main_v241
  generalize val_main_v240 (F := F) x0 x1 x3 x4 x5 x6 x7 x8 = y
  exact broadcastInDim_apply _ bcast_S1x64_S50000x64_0_1 y i (idx_main_v241 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v242 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  mulf (val_main_v236 (F := F) x0 x1 x3 x4 x5 x6 x7 x8) (val_main_v241 (F := F) x0 x1 x3 x4 x5 x6 x7 x8)

theorem val_main_v242_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S50000x64.Idx) :
    val_main_v242 (F := F) x0 x1 x3 x4 x5 x6 x7 x8 i = FloatOps.mulf (val_main_v236 (F := F) x0 x1 x3 x4 x5 x6 x7 x8 i) (val_main_v241 (F := F) x0 x1 x3 x4 x5 x6 x7 x8 i) := rfl

def val_main_v243 (x7 : (⟨S64, .f32⟩ : BufTy).Contents (Elt F)) : (⟨S1x64, .f32⟩ : BufTy).Contents (Elt F) :=
  broadcastInDim S1x64 ![1] bcast_S64_S1x64_1 (x7)

abbrev idx_main_v243 (i : S1x64.Idx) : S64.Idx := fun a => match a with
  | ⟨0, _⟩ => ⟨(i 1).val, (i 1).isLt⟩

theorem val_main_v243_apply (x7 : (⟨S64, .f32⟩ : BufTy).Contents (Elt F)) (i : S1x64.Idx) :
    val_main_v243 (F := F) x7 i = x7 (idx_main_v243 i) := by
  unfold val_main_v243
  exact broadcastInDim_apply _ bcast_S64_S1x64_1 x7 i (idx_main_v243 i) (fun a => match a with
    | ⟨0, _⟩ => by show (i 1).val = if (64 : Nat) = 1 then 0 else (i 1).val; rw [if_neg (by decide)])

def val_main_v244 (x7 : (⟨S64, .f32⟩ : BufTy).Contents (Elt F)) : (⟨S50000x64, .f32⟩ : BufTy).Contents (Elt F) :=
  broadcastInDim S50000x64 ![0, 1] bcast_S1x64_S50000x64_0_1 (val_main_v243 (F := F) x7)

abbrev idx_main_v244 (i : S50000x64.Idx) : S1x64.Idx := fun a => match a with
  | ⟨0, _⟩ => ⟨0, Nat.one_pos⟩
  | ⟨1, _⟩ => ⟨(i 1).val, (i 1).isLt⟩

theorem val_main_v244_apply (x7 : (⟨S64, .f32⟩ : BufTy).Contents (Elt F)) (i : S50000x64.Idx) :
    val_main_v244 (F := F) x7 i = val_main_v243 (F := F) x7 (idx_main_v244 i) := by
  unfold val_main_v244
  generalize val_main_v243 (F := F) x7 = y
  exact broadcastInDim_apply _ bcast_S1x64_S50000x64_0_1 y i (idx_main_v244 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v245 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  mulf (val_main_v242 (F := F) x0 x1 x3 x4 x5 x6 x7 x8) (val_main_v244 (F := F) x7)

theorem val_main_v245_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S50000x64.Idx) :
    val_main_v245 (F := F) x0 x1 x3 x4 x5 x6 x7 x8 i = FloatOps.mulf (val_main_v242 (F := F) x0 x1 x3 x4 x5 x6 x7 x8 i) (val_main_v244 (F := F) x7 i) := rfl

def val_main_v246 (x8 : (⟨S64, .f32⟩ : BufTy).Contents (Elt F)) : (⟨S1x64, .f32⟩ : BufTy).Contents (Elt F) :=
  broadcastInDim S1x64 ![1] bcast_S64_S1x64_1 (x8)

abbrev idx_main_v246 (i : S1x64.Idx) : S64.Idx := fun a => match a with
  | ⟨0, _⟩ => ⟨(i 1).val, (i 1).isLt⟩

theorem val_main_v246_apply (x8 : (⟨S64, .f32⟩ : BufTy).Contents (Elt F)) (i : S1x64.Idx) :
    val_main_v246 (F := F) x8 i = x8 (idx_main_v246 i) := by
  unfold val_main_v246
  exact broadcastInDim_apply _ bcast_S64_S1x64_1 x8 i (idx_main_v246 i) (fun a => match a with
    | ⟨0, _⟩ => by show (i 1).val = if (64 : Nat) = 1 then 0 else (i 1).val; rw [if_neg (by decide)])

def val_main_v247 (x8 : (⟨S64, .f32⟩ : BufTy).Contents (Elt F)) : (⟨S50000x64, .f32⟩ : BufTy).Contents (Elt F) :=
  broadcastInDim S50000x64 ![0, 1] bcast_S1x64_S50000x64_0_1 (val_main_v246 (F := F) x8)

abbrev idx_main_v247 (i : S50000x64.Idx) : S1x64.Idx := fun a => match a with
  | ⟨0, _⟩ => ⟨0, Nat.one_pos⟩
  | ⟨1, _⟩ => ⟨(i 1).val, (i 1).isLt⟩

theorem val_main_v247_apply (x8 : (⟨S64, .f32⟩ : BufTy).Contents (Elt F)) (i : S50000x64.Idx) :
    val_main_v247 (F := F) x8 i = val_main_v246 (F := F) x8 (idx_main_v247 i) := by
  unfold val_main_v247
  generalize val_main_v246 (F := F) x8 = y
  exact broadcastInDim_apply _ bcast_S1x64_S50000x64_0_1 y i (idx_main_v247 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v248 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  addf (val_main_v245 (F := F) x0 x1 x3 x4 x5 x6 x7 x8) (val_main_v247 (F := F) x8)

theorem val_main_v248_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S50000x64.Idx) :
    val_main_v248 (F := F) x0 x1 x3 x4 x5 x6 x7 x8 i = FloatOps.addf (val_main_v245 (F := F) x0 x1 x3 x4 x5 x6 x7 x8 i) (val_main_v247 (F := F) x8 i) := rfl

def val_main_call3_cst : (⟨S_, .f32⟩ : BufTy).Contents (Elt F) :=
  constant S_ .f32 0x00000000#32

theorem val_main_call3_cst_apply (i : S_.Idx) :
    val_main_call3_cst (F := F) i = FloatOps.ofBits .f32 0x00000000#32 := rfl

def val_main_call3_v0 : (⟨S50000x64, .f32⟩ : BufTy).Contents (Elt F) :=
  broadcastInDim S50000x64 ![] bcast_S_S50000x64 (val_main_call3_cst (F := F))

abbrev idx_main_call3_v0 (i : S50000x64.Idx) : S_.Idx := fun a => a.elim0

theorem val_main_call3_v0_apply (i : S50000x64.Idx) :
    val_main_call3_v0 (F := F) i = val_main_call3_cst (F := F) (idx_main_call3_v0 i) := by
  unfold val_main_call3_v0
  generalize val_main_call3_cst (F := F) = y
  exact broadcastInDim_apply _ bcast_S_S50000x64 y i (idx_main_call3_v0 i) (fun a => a.elim0)

def val_main_v249 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S50000x64, .f32⟩ : BufTy).Contents (Elt F) :=
  maximumf (val_main_v248 (F := F) x0 x1 x3 x4 x5 x6 x7 x8) (val_main_call3_v0 (F := F))

theorem val_main_v249_apply (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (i : S50000x64.Idx) :
    val_main_v249 (F := F) x0 x1 x3 x4 x5 x6 x7 x8 i = FloatOps.maximumf (val_main_v248 (F := F) x0 x1 x3 x4 x5 x6 x7 x8 i) (val_main_call3_v0 (F := F) i) := rfl

def val_main_cst_44 : (⟨S_, .f32⟩ : BufTy).Contents (Elt F) :=
  constant S_ .f32 0x00000000#32

theorem val_main_cst_44_apply (i : S_.Idx) :
    val_main_cst_44 (F := F) i = FloatOps.ofBits .f32 0x00000000#32 := rfl

def val_main_v250 : (⟨S64x64, .f32⟩ : BufTy).Contents (Elt F) :=
  broadcastInDim S64x64 ![] bcast_S_S64x64 (val_main_cst_44 (F := F))

abbrev idx_main_v250 (i : S64x64.Idx) : S_.Idx := fun a => a.elim0

theorem val_main_v250_apply (i : S64x64.Idx) :
    val_main_v250 (F := F) i = val_main_cst_44 (F := F) (idx_main_v250 i) := by
  unfold val_main_v250
  generalize val_main_cst_44 (F := F) = y
  exact broadcastInDim_apply _ bcast_S_S64x64 y i (idx_main_v250 i) (fun a => a.elim0)

def val_main_v251 (x2 : (⟨S50000, .i32⟩ : BufTy).Contents (Elt F)) : (⟨S50000x1, .i32⟩ : BufTy).Contents (Elt F) :=
  broadcastInDim S50000x1 ![0] bcast_S50000_S50000x1_0 (x2)

abbrev idx_main_v251 (i : S50000x1.Idx) : S50000.Idx := fun a => match a with
  | ⟨0, _⟩ => ⟨(i 0).val, (i 0).isLt⟩

theorem val_main_v251_apply (x2 : (⟨S50000, .i32⟩ : BufTy).Contents (Elt F)) (i : S50000x1.Idx) :
    val_main_v251 (F := F) x2 i = x2 (idx_main_v251 i) := by
  unfold val_main_v251
  exact broadcastInDim_apply _ bcast_S50000_S50000x1_0 x2 i (idx_main_v251 i) (fun a => match a with
    | ⟨0, _⟩ => by show (i 0).val = if (50000 : Nat) = 1 then 0 else (i 0).val; rw [if_neg (by decide)])

def val_main_v252 (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S64x64, .f32⟩ : BufTy).Contents (Elt F) :=
  Host.scatterAdd scatter_S64x64_S50000x1_S50000x64_1_0_0_1 (val_main_v250 (F := F)) (val_main_v251 (F := F) x2) (val_main_v249 (F := F) x0 x1 x3 x4 x5 x6 x7 x8)

def val_main_cst_45 : (⟨S_, .f32⟩ : BufTy).Contents (Elt F) :=
  constant S_ .f32 0x3F800000#32

def val_main_v253 : (⟨S50000, .f32⟩ : BufTy).Contents (Elt F) :=
  broadcastInDim S50000 ![] bcast_S_S50000 (val_main_cst_45 (F := F))

def val_main_cst_46 : (⟨S_, .f32⟩ : BufTy).Contents (Elt F) :=
  constant S_ .f32 0x00000000#32

def val_main_v254 : (⟨S64, .f32⟩ : BufTy).Contents (Elt F) :=
  broadcastInDim S64 ![] bcast_S_S64 (val_main_cst_46 (F := F))

def val_main_v255 (x2 : (⟨S50000, .i32⟩ : BufTy).Contents (Elt F)) : (⟨S50000x1, .i32⟩ : BufTy).Contents (Elt F) :=
  broadcastInDim S50000x1 ![0] bcast_S50000_S50000x1_0 (x2)

def val_main_v256 (x2 : (⟨S50000, .i32⟩ : BufTy).Contents (Elt F)) : (⟨S64, .f32⟩ : BufTy).Contents (Elt F) :=
  Host.scatterAdd scatter_S64_S50000x1_S50000_n_0_0_1 (val_main_v254 (F := F)) (val_main_v255 (F := F) x2) (val_main_v253 (F := F))

def val_main_cst_47 : (⟨S_, .f32⟩ : BufTy).Contents (Elt F) :=
  constant S_ .f32 0x3F800000#32

def val_main_v257 : (⟨S64, .f32⟩ : BufTy).Contents (Elt F) :=
  broadcastInDim S64 ![] bcast_S_S64 (val_main_cst_47 (F := F))

def val_main_v258 (x2 : (⟨S50000, .i32⟩ : BufTy).Contents (Elt F)) : (⟨S64, .f32⟩ : BufTy).Contents (Elt F) :=
  maximumf (val_main_v256 (F := F) x2) (val_main_v257 (F := F))

def val_main_v259 (x2 : (⟨S50000, .i32⟩ : BufTy).Contents (Elt F)) : (⟨S64x1, .f32⟩ : BufTy).Contents (Elt F) :=
  broadcastInDim S64x1 ![0] bcast_S64_S64x1_0 (val_main_v258 (F := F) x2)

def val_main_v260 (x2 : (⟨S50000, .i32⟩ : BufTy).Contents (Elt F)) : (⟨S64x64, .f32⟩ : BufTy).Contents (Elt F) :=
  broadcastInDim S64x64 ![0, 1] bcast_S64x1_S64x64_0_1 (val_main_v259 (F := F) x2)

def val_main_v261 (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) : (⟨S64x64, .f32⟩ : BufTy).Contents (Elt F) :=
  Host.divf (val_main_v252 (F := F) x0 x1 x2 x3 x4 x5 x6 x7 x8) (val_main_v260 (F := F) x2)

def val_main_v262 (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (x9 : (⟨S64x32, .f32⟩ : BufTy).Contents (Elt F)) : (⟨S64x32, .f32⟩ : BufTy).Contents (Elt F) :=
  Host.dotGeneral dot_S64x64_S64x32_S64x32_1_0_0_1_n_n none (val_main_v261 (F := F) x0 x1 x2 x3 x4 x5 x6 x7 x8) (x9)

theorem lhs_main_v262_0 (i : S64x32.Idx) (q : dot_S64x64_S64x32_S64x32_1_0_0_1_n_n.contr.Idx) :
    (dot_S64x64_S64x32_S64x32_1_0_0_1_n_n.lhsIdx i q 0).val = (i 0).val := by
  unfold DotDims.lhsIdx
  rw [dif_neg (show ¬(0 : Fin S64x64.rank) ∈ dot_S64x64_S64x32_S64x32_1_0_0_1_n_n.lhsBatch by decide), dif_pos (show (0 : Fin S64x64.rank) ∈ dot_S64x64_S64x32_S64x32_1_0_0_1_n_n.lhsNonContracting by decide)]
  rfl

theorem lhs_main_v262_1 (i : S64x32.Idx) (q : dot_S64x64_S64x32_S64x32_1_0_0_1_n_n.contr.Idx) :
    (dot_S64x64_S64x32_S64x32_1_0_0_1_n_n.lhsIdx i q 1).val = (q ⟨0, by decide⟩).val :=
  dot_S64x64_S64x32_S64x32_1_0_0_1_n_n.lhsIdx_val_of_single rfl i q

theorem rhs_main_v262_0 (i : S64x32.Idx) (q : dot_S64x64_S64x32_S64x32_1_0_0_1_n_n.contr.Idx) :
    (dot_S64x64_S64x32_S64x32_1_0_0_1_n_n.rhsIdx i q 0).val = (q ⟨0, by decide⟩).val :=
  dot_S64x64_S64x32_S64x32_1_0_0_1_n_n.rhsIdx_val_of_single rfl i q

theorem rhs_main_v262_1 (i : S64x32.Idx) (q : dot_S64x64_S64x32_S64x32_1_0_0_1_n_n.contr.Idx) :
    (dot_S64x64_S64x32_S64x32_1_0_0_1_n_n.rhsIdx i q 1).val = (i 1).val := by
  unfold DotDims.rhsIdx
  rw [dif_neg (show ¬(1 : Fin S64x32.rank) ∈ dot_S64x64_S64x32_S64x32_1_0_0_1_n_n.rhsBatch by decide), dif_pos (show (1 : Fin S64x32.rank) ∈ dot_S64x64_S64x32_S64x32_1_0_0_1_n_n.rhsNonContracting by decide)]
  rfl

abbrev lidx_main_v262 (i : S64x32.Idx) (k : Fin 64) : S64x64.Idx := fun a => match a with
  | ⟨0, _⟩ => ⟨(i 0).val, (i 0).isLt⟩
  | ⟨1, _⟩ => ⟨k.val, k.isLt⟩

abbrev ridx_main_v262 (i : S64x32.Idx) (k : Fin 64) : S64x32.Idx := fun a => match a with
  | ⟨0, _⟩ => ⟨k.val, k.isLt⟩
  | ⟨1, _⟩ => ⟨(i 1).val, (i 1).isLt⟩

theorem val_main_v262_apply (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x64, .f32⟩ : BufTy).Contents (Elt Ideal)) (x4 : (⟨S64, .f32⟩ : BufTy).Contents (Elt Ideal)) (x5 : (⟨S3x64x64, .f32⟩ : BufTy).Contents (Elt Ideal)) (x6 : (⟨S3x64, .f32⟩ : BufTy).Contents (Elt Ideal)) (x7 x8 : (⟨S64, .f32⟩ : BufTy).Contents (Elt Ideal)) (x9 : (⟨S64x32, .f32⟩ : BufTy).Contents (Elt Ideal)) (i : S64x32.Idx) :
    val_main_v262 (F := Ideal) x0 x1 x2 x3 x4 x5 x6 x7 x8 x9 i = ∑ k : Fin 64, (val_main_v261 (F := Ideal) x0 x1 x2 x3 x4 x5 x6 x7 x8) (lidx_main_v262 i k) * x9 (ridx_main_v262 i k) := by
  unfold val_main_v262
  generalize val_main_v261 (F := Ideal) x0 x1 x2 x3 x4 x5 x6 x7 x8 = y0
  simp only [Host.dotGeneral]
  rw [Ideal.dotGeneral_apply, ← Equiv.sum_comp (ValueIdx.contrEquiv1 dot_S64x64_S64x32_S64x32_1_0_0_1_n_n 64 rfl rfl).symm]
  refine Finset.sum_congr rfl fun k _ => ?_
  have hk := ValueIdx.contrEquiv1_symm_val dot_S64x64_S64x32_S64x32_1_0_0_1_n_n 64 rfl rfl k
  have el : dot_S64x64_S64x32_S64x32_1_0_0_1_n_n.lhsIdx i ((ValueIdx.contrEquiv1 dot_S64x64_S64x32_S64x32_1_0_0_1_n_n 64 rfl rfl).symm k) = lidx_main_v262 i k := funext fun a => Fin.ext (by
    match a with
    | ⟨0, _⟩ => exact lhs_main_v262_0 _ _
    | ⟨1, _⟩ => exact (lhs_main_v262_1 _ _).trans hk)
  have er : dot_S64x64_S64x32_S64x32_1_0_0_1_n_n.rhsIdx i ((ValueIdx.contrEquiv1 dot_S64x64_S64x32_S64x32_1_0_0_1_n_n 64 rfl rfl).symm k) = ridx_main_v262 i k := funext fun a => Fin.ext (by
    match a with
    | ⟨0, _⟩ => exact (rhs_main_v262_0 _ _).trans hk
    | ⟨1, _⟩ => exact rhs_main_v262_1 _ _)
  rw [el, er]

def val_main_v263 (x10 : (⟨S32, .f32⟩ : BufTy).Contents (Elt F)) : (⟨S1x32, .f32⟩ : BufTy).Contents (Elt F) :=
  broadcastInDim S1x32 ![1] bcast_S32_S1x32_1 (x10)

abbrev idx_main_v263 (i : S1x32.Idx) : S32.Idx := fun a => match a with
  | ⟨0, _⟩ => ⟨(i 1).val, (i 1).isLt⟩

theorem val_main_v263_apply (x10 : (⟨S32, .f32⟩ : BufTy).Contents (Elt F)) (i : S1x32.Idx) :
    val_main_v263 (F := F) x10 i = x10 (idx_main_v263 i) := by
  unfold val_main_v263
  exact broadcastInDim_apply _ bcast_S32_S1x32_1 x10 i (idx_main_v263 i) (fun a => match a with
    | ⟨0, _⟩ => by show (i 1).val = if (32 : Nat) = 1 then 0 else (i 1).val; rw [if_neg (by decide)])

def val_main_v264 (x10 : (⟨S32, .f32⟩ : BufTy).Contents (Elt F)) : (⟨S64x32, .f32⟩ : BufTy).Contents (Elt F) :=
  broadcastInDim S64x32 ![0, 1] bcast_S1x32_S64x32_0_1 (val_main_v263 (F := F) x10)

abbrev idx_main_v264 (i : S64x32.Idx) : S1x32.Idx := fun a => match a with
  | ⟨0, _⟩ => ⟨0, Nat.one_pos⟩
  | ⟨1, _⟩ => ⟨(i 1).val, (i 1).isLt⟩

theorem val_main_v264_apply (x10 : (⟨S32, .f32⟩ : BufTy).Contents (Elt F)) (i : S64x32.Idx) :
    val_main_v264 (F := F) x10 i = val_main_v263 (F := F) x10 (idx_main_v264 i) := by
  unfold val_main_v264
  generalize val_main_v263 (F := F) x10 = y
  exact broadcastInDim_apply _ bcast_S1x32_S64x32_0_1 y i (idx_main_v264 i) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])

def val_main_v265 (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (x9 : (⟨S64x32, .f32⟩ : BufTy).Contents (Elt F)) (x10 : (⟨S32, .f32⟩ : BufTy).Contents (Elt F)) : (⟨S64x32, .f32⟩ : BufTy).Contents (Elt F) :=
  addf (val_main_v262 (F := F) x0 x1 x2 x3 x4 x5 x6 x7 x8 x9) (val_main_v264 (F := F) x10)

theorem val_main_v265_apply (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (x9 : (⟨S64x32, .f32⟩ : BufTy).Contents (Elt F)) (x10 : (⟨S32, .f32⟩ : BufTy).Contents (Elt F)) (i : S64x32.Idx) :
    val_main_v265 (F := F) x0 x1 x2 x3 x4 x5 x6 x7 x8 x9 x10 i = FloatOps.addf (val_main_v262 (F := F) x0 x1 x2 x3 x4 x5 x6 x7 x8 x9 i) (val_main_v264 (F := F) x10 i) := rfl

def val_main_call4_cst : (⟨S_, .f32⟩ : BufTy).Contents (Elt F) :=
  constant S_ .f32 0x00000000#32

theorem val_main_call4_cst_apply (i : S_.Idx) :
    val_main_call4_cst (F := F) i = FloatOps.ofBits .f32 0x00000000#32 := rfl

def val_main_call4_v0 : (⟨S64x32, .f32⟩ : BufTy).Contents (Elt F) :=
  broadcastInDim S64x32 ![] bcast_S_S64x32 (val_main_call4_cst (F := F))

abbrev idx_main_call4_v0 (i : S64x32.Idx) : S_.Idx := fun a => a.elim0

theorem val_main_call4_v0_apply (i : S64x32.Idx) :
    val_main_call4_v0 (F := F) i = val_main_call4_cst (F := F) (idx_main_call4_v0 i) := by
  unfold val_main_call4_v0
  generalize val_main_call4_cst (F := F) = y
  exact broadcastInDim_apply _ bcast_S_S64x32 y i (idx_main_call4_v0 i) (fun a => a.elim0)

def val_main_v266 (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (x9 : (⟨S64x32, .f32⟩ : BufTy).Contents (Elt F)) (x10 : (⟨S32, .f32⟩ : BufTy).Contents (Elt F)) : (⟨S64x32, .f32⟩ : BufTy).Contents (Elt F) :=
  maximumf (val_main_v265 (F := F) x0 x1 x2 x3 x4 x5 x6 x7 x8 x9 x10) (val_main_call4_v0 (F := F))

theorem val_main_v266_apply (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (x9 : (⟨S64x32, .f32⟩ : BufTy).Contents (Elt F)) (x10 : (⟨S32, .f32⟩ : BufTy).Contents (Elt F)) (i : S64x32.Idx) :
    val_main_v266 (F := F) x0 x1 x2 x3 x4 x5 x6 x7 x8 x9 x10 i = FloatOps.maximumf (val_main_v265 (F := F) x0 x1 x2 x3 x4 x5 x6 x7 x8 x9 x10 i) (val_main_call4_v0 (F := F) i) := rfl

def val_main_v267 (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (x9 : (⟨S64x32, .f32⟩ : BufTy).Contents (Elt F)) (x10 : (⟨S32, .f32⟩ : BufTy).Contents (Elt F)) (x11 : (⟨S32x16, .f32⟩ : BufTy).Contents (Elt F)) : (⟨S64x16, .f32⟩ : BufTy).Contents (Elt F) :=
  Host.dotGeneral dot_S64x32_S32x16_S64x16_1_0_0_1_n_n none (val_main_v266 (F := F) x0 x1 x2 x3 x4 x5 x6 x7 x8 x9 x10) (x11)

theorem lhs_main_v267_0 (i : S64x16.Idx) (q : dot_S64x32_S32x16_S64x16_1_0_0_1_n_n.contr.Idx) :
    (dot_S64x32_S32x16_S64x16_1_0_0_1_n_n.lhsIdx i q 0).val = (i 0).val := by
  unfold DotDims.lhsIdx
  rw [dif_neg (show ¬(0 : Fin S64x32.rank) ∈ dot_S64x32_S32x16_S64x16_1_0_0_1_n_n.lhsBatch by decide), dif_pos (show (0 : Fin S64x32.rank) ∈ dot_S64x32_S32x16_S64x16_1_0_0_1_n_n.lhsNonContracting by decide)]
  rfl

theorem lhs_main_v267_1 (i : S64x16.Idx) (q : dot_S64x32_S32x16_S64x16_1_0_0_1_n_n.contr.Idx) :
    (dot_S64x32_S32x16_S64x16_1_0_0_1_n_n.lhsIdx i q 1).val = (q ⟨0, by decide⟩).val :=
  dot_S64x32_S32x16_S64x16_1_0_0_1_n_n.lhsIdx_val_of_single rfl i q

theorem rhs_main_v267_0 (i : S64x16.Idx) (q : dot_S64x32_S32x16_S64x16_1_0_0_1_n_n.contr.Idx) :
    (dot_S64x32_S32x16_S64x16_1_0_0_1_n_n.rhsIdx i q 0).val = (q ⟨0, by decide⟩).val :=
  dot_S64x32_S32x16_S64x16_1_0_0_1_n_n.rhsIdx_val_of_single rfl i q

theorem rhs_main_v267_1 (i : S64x16.Idx) (q : dot_S64x32_S32x16_S64x16_1_0_0_1_n_n.contr.Idx) :
    (dot_S64x32_S32x16_S64x16_1_0_0_1_n_n.rhsIdx i q 1).val = (i 1).val := by
  unfold DotDims.rhsIdx
  rw [dif_neg (show ¬(1 : Fin S32x16.rank) ∈ dot_S64x32_S32x16_S64x16_1_0_0_1_n_n.rhsBatch by decide), dif_pos (show (1 : Fin S32x16.rank) ∈ dot_S64x32_S32x16_S64x16_1_0_0_1_n_n.rhsNonContracting by decide)]
  rfl

abbrev lidx_main_v267 (i : S64x16.Idx) (k : Fin 32) : S64x32.Idx := fun a => match a with
  | ⟨0, _⟩ => ⟨(i 0).val, (i 0).isLt⟩
  | ⟨1, _⟩ => ⟨k.val, k.isLt⟩

abbrev ridx_main_v267 (i : S64x16.Idx) (k : Fin 32) : S32x16.Idx := fun a => match a with
  | ⟨0, _⟩ => ⟨k.val, k.isLt⟩
  | ⟨1, _⟩ => ⟨(i 1).val, (i 1).isLt⟩

theorem val_main_v267_apply (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x64, .f32⟩ : BufTy).Contents (Elt Ideal)) (x4 : (⟨S64, .f32⟩ : BufTy).Contents (Elt Ideal)) (x5 : (⟨S3x64x64, .f32⟩ : BufTy).Contents (Elt Ideal)) (x6 : (⟨S3x64, .f32⟩ : BufTy).Contents (Elt Ideal)) (x7 x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S32x16, .f32⟩ : BufTy).Contents (Elt Ideal)) (i : S64x16.Idx) :
    val_main_v267 (F := Ideal) x0 x1 x2 x3 x4 x5 x6 x7 x8 x9 x10 x11 i = ∑ k : Fin 32, (val_main_v266 (F := Ideal) x0 x1 x2 x3 x4 x5 x6 x7 x8 x9 x10) (lidx_main_v267 i k) * x11 (ridx_main_v267 i k) := by
  unfold val_main_v267
  generalize val_main_v266 (F := Ideal) x0 x1 x2 x3 x4 x5 x6 x7 x8 x9 x10 = y0
  simp only [Host.dotGeneral]
  rw [Ideal.dotGeneral_apply, ← Equiv.sum_comp (ValueIdx.contrEquiv1 dot_S64x32_S32x16_S64x16_1_0_0_1_n_n 32 rfl rfl).symm]
  refine Finset.sum_congr rfl fun k _ => ?_
  have hk := ValueIdx.contrEquiv1_symm_val dot_S64x32_S32x16_S64x16_1_0_0_1_n_n 32 rfl rfl k
  have el : dot_S64x32_S32x16_S64x16_1_0_0_1_n_n.lhsIdx i ((ValueIdx.contrEquiv1 dot_S64x32_S32x16_S64x16_1_0_0_1_n_n 32 rfl rfl).symm k) = lidx_main_v267 i k := funext fun a => Fin.ext (by
    match a with
    | ⟨0, _⟩ => exact lhs_main_v267_0 _ _
    | ⟨1, _⟩ => exact (lhs_main_v267_1 _ _).trans hk)
  have er : dot_S64x32_S32x16_S64x16_1_0_0_1_n_n.rhsIdx i ((ValueIdx.contrEquiv1 dot_S64x32_S32x16_S64x16_1_0_0_1_n_n 32 rfl rfl).symm k) = ridx_main_v267 i k := funext fun a => Fin.ext (by
    match a with
    | ⟨0, _⟩ => exact (rhs_main_v267_0 _ _).trans hk
    | ⟨1, _⟩ => exact rhs_main_v267_1 _ _)
  rw [el, er]

def val_main_v268 (x12 : (⟨S16, .f32⟩ : BufTy).Contents (Elt F)) : (⟨S1x16, .f32⟩ : BufTy).Contents (Elt F) :=
  broadcastInDim S1x16 ![1] bcast_S16_S1x16_1 (x12)

abbrev idx_main_v268 (i : S1x16.Idx) : S16.Idx := fun a => match a with
  | ⟨0, _⟩ => ⟨(i 1).val, (i 1).isLt⟩

theorem val_main_v268_apply (x12 : (⟨S16, .f32⟩ : BufTy).Contents (Elt F)) (i : S1x16.Idx) :
    val_main_v268 (F := F) x12 i = x12 (idx_main_v268 i) := by
  unfold val_main_v268
  exact broadcastInDim_apply _ bcast_S16_S1x16_1 x12 i (idx_main_v268 i) (fun a => match a with
    | ⟨0, _⟩ => by show (i 1).val = if (16 : Nat) = 1 then 0 else (i 1).val; rw [if_neg (by decide)])

def val_main_v269 (x12 : (⟨S16, .f32⟩ : BufTy).Contents (Elt F)) : (⟨S64x16, .f32⟩ : BufTy).Contents (Elt F) :=
  broadcastInDim S64x16 ![0, 1] bcast_S1x16_S64x16_0_1 (val_main_v268 (F := F) x12)

abbrev idx_main_v269 (i : S64x16.Idx) : S1x16.Idx := fun a => match a with
  | ⟨0, _⟩ => ⟨0, Nat.one_pos⟩
  | ⟨1, _⟩ => ⟨(i 1).val, (i 1).isLt⟩

theorem val_main_v269_apply (x12 : (⟨S16, .f32⟩ : BufTy).Contents (Elt F)) (i : S64x16.Idx) :
    val_main_v269 (F := F) x12 i = val_main_v268 (F := F) x12 (idx_main_v269 i) := by
  unfold val_main_v269
  generalize val_main_v268 (F := F) x12 = y
  exact broadcastInDim_apply _ bcast_S1x16_S64x16_0_1 y i (idx_main_v269 i) (fun a => match a with
    | ⟨0, _⟩ => by show 0 = if (1 : Nat) = 1 then 0 else (i 0).val; rw [if_pos rfl]
    | ⟨1, _⟩ => by show (i 1).val = if (16 : Nat) = 1 then 0 else (i 1).val; rw [if_neg (by decide)])

def val_main_v270 (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (x9 : (⟨S64x32, .f32⟩ : BufTy).Contents (Elt F)) (x10 : (⟨S32, .f32⟩ : BufTy).Contents (Elt F)) (x11 : (⟨S32x16, .f32⟩ : BufTy).Contents (Elt F)) (x12 : (⟨S16, .f32⟩ : BufTy).Contents (Elt F)) : (⟨S64x16, .f32⟩ : BufTy).Contents (Elt F) :=
  addf (val_main_v267 (F := F) x0 x1 x2 x3 x4 x5 x6 x7 x8 x9 x10 x11) (val_main_v269 (F := F) x12)

theorem val_main_v270_apply (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (x9 : (⟨S64x32, .f32⟩ : BufTy).Contents (Elt F)) (x10 : (⟨S32, .f32⟩ : BufTy).Contents (Elt F)) (x11 : (⟨S32x16, .f32⟩ : BufTy).Contents (Elt F)) (x12 : (⟨S16, .f32⟩ : BufTy).Contents (Elt F)) (i : S64x16.Idx) :
    val_main_v270 (F := F) x0 x1 x2 x3 x4 x5 x6 x7 x8 x9 x10 x11 x12 i = FloatOps.addf (val_main_v267 (F := F) x0 x1 x2 x3 x4 x5 x6 x7 x8 x9 x10 x11 i) (val_main_v269 (F := F) x12 i) := rfl

def val_main_call5_cst : (⟨S_, .f32⟩ : BufTy).Contents (Elt F) :=
  constant S_ .f32 0x00000000#32

theorem val_main_call5_cst_apply (i : S_.Idx) :
    val_main_call5_cst (F := F) i = FloatOps.ofBits .f32 0x00000000#32 := rfl

def val_main_call5_v0 : (⟨S64x16, .f32⟩ : BufTy).Contents (Elt F) :=
  broadcastInDim S64x16 ![] bcast_S_S64x16 (val_main_call5_cst (F := F))

abbrev idx_main_call5_v0 (i : S64x16.Idx) : S_.Idx := fun a => a.elim0

theorem val_main_call5_v0_apply (i : S64x16.Idx) :
    val_main_call5_v0 (F := F) i = val_main_call5_cst (F := F) (idx_main_call5_v0 i) := by
  unfold val_main_call5_v0
  generalize val_main_call5_cst (F := F) = y
  exact broadcastInDim_apply _ bcast_S_S64x16 y i (idx_main_call5_v0 i) (fun a => a.elim0)

def val_main_v271 (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (x9 : (⟨S64x32, .f32⟩ : BufTy).Contents (Elt F)) (x10 : (⟨S32, .f32⟩ : BufTy).Contents (Elt F)) (x11 : (⟨S32x16, .f32⟩ : BufTy).Contents (Elt F)) (x12 : (⟨S16, .f32⟩ : BufTy).Contents (Elt F)) : (⟨S64x16, .f32⟩ : BufTy).Contents (Elt F) :=
  maximumf (val_main_v270 (F := F) x0 x1 x2 x3 x4 x5 x6 x7 x8 x9 x10 x11 x12) (val_main_call5_v0 (F := F))

theorem val_main_v271_apply (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (x9 : (⟨S64x32, .f32⟩ : BufTy).Contents (Elt F)) (x10 : (⟨S32, .f32⟩ : BufTy).Contents (Elt F)) (x11 : (⟨S32x16, .f32⟩ : BufTy).Contents (Elt F)) (x12 : (⟨S16, .f32⟩ : BufTy).Contents (Elt F)) (i : S64x16.Idx) :
    val_main_v271 (F := F) x0 x1 x2 x3 x4 x5 x6 x7 x8 x9 x10 x11 x12 i = FloatOps.maximumf (val_main_v270 (F := F) x0 x1 x2 x3 x4 x5 x6 x7 x8 x9 x10 x11 x12 i) (val_main_call5_v0 (F := F) i) := rfl

def val_main_v272 (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (x9 : (⟨S64x32, .f32⟩ : BufTy).Contents (Elt F)) (x10 : (⟨S32, .f32⟩ : BufTy).Contents (Elt F)) (x11 : (⟨S32x16, .f32⟩ : BufTy).Contents (Elt F)) (x12 : (⟨S16, .f32⟩ : BufTy).Contents (Elt F)) (x13 : (⟨S16x10, .f32⟩ : BufTy).Contents (Elt F)) : (⟨S64x10, .f32⟩ : BufTy).Contents (Elt F) :=
  Host.dotGeneral dot_S64x16_S16x10_S64x10_1_0_0_1_n_n none (val_main_v271 (F := F) x0 x1 x2 x3 x4 x5 x6 x7 x8 x9 x10 x11 x12) (x13)

theorem lhs_main_v272_0 (i : S64x10.Idx) (q : dot_S64x16_S16x10_S64x10_1_0_0_1_n_n.contr.Idx) :
    (dot_S64x16_S16x10_S64x10_1_0_0_1_n_n.lhsIdx i q 0).val = (i 0).val := by
  unfold DotDims.lhsIdx
  rw [dif_neg (show ¬(0 : Fin S64x16.rank) ∈ dot_S64x16_S16x10_S64x10_1_0_0_1_n_n.lhsBatch by decide), dif_pos (show (0 : Fin S64x16.rank) ∈ dot_S64x16_S16x10_S64x10_1_0_0_1_n_n.lhsNonContracting by decide)]
  rfl

theorem lhs_main_v272_1 (i : S64x10.Idx) (q : dot_S64x16_S16x10_S64x10_1_0_0_1_n_n.contr.Idx) :
    (dot_S64x16_S16x10_S64x10_1_0_0_1_n_n.lhsIdx i q 1).val = (q ⟨0, by decide⟩).val :=
  dot_S64x16_S16x10_S64x10_1_0_0_1_n_n.lhsIdx_val_of_single rfl i q

theorem rhs_main_v272_0 (i : S64x10.Idx) (q : dot_S64x16_S16x10_S64x10_1_0_0_1_n_n.contr.Idx) :
    (dot_S64x16_S16x10_S64x10_1_0_0_1_n_n.rhsIdx i q 0).val = (q ⟨0, by decide⟩).val :=
  dot_S64x16_S16x10_S64x10_1_0_0_1_n_n.rhsIdx_val_of_single rfl i q

theorem rhs_main_v272_1 (i : S64x10.Idx) (q : dot_S64x16_S16x10_S64x10_1_0_0_1_n_n.contr.Idx) :
    (dot_S64x16_S16x10_S64x10_1_0_0_1_n_n.rhsIdx i q 1).val = (i 1).val := by
  unfold DotDims.rhsIdx
  rw [dif_neg (show ¬(1 : Fin S16x10.rank) ∈ dot_S64x16_S16x10_S64x10_1_0_0_1_n_n.rhsBatch by decide), dif_pos (show (1 : Fin S16x10.rank) ∈ dot_S64x16_S16x10_S64x10_1_0_0_1_n_n.rhsNonContracting by decide)]
  rfl

abbrev lidx_main_v272 (i : S64x10.Idx) (k : Fin 16) : S64x16.Idx := fun a => match a with
  | ⟨0, _⟩ => ⟨(i 0).val, (i 0).isLt⟩
  | ⟨1, _⟩ => ⟨k.val, k.isLt⟩

abbrev ridx_main_v272 (i : S64x10.Idx) (k : Fin 16) : S16x10.Idx := fun a => match a with
  | ⟨0, _⟩ => ⟨k.val, k.isLt⟩
  | ⟨1, _⟩ => ⟨(i 1).val, (i 1).isLt⟩

theorem val_main_v272_apply (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x64, .f32⟩ : BufTy).Contents (Elt Ideal)) (x4 : (⟨S64, .f32⟩ : BufTy).Contents (Elt Ideal)) (x5 : (⟨S3x64x64, .f32⟩ : BufTy).Contents (Elt Ideal)) (x6 : (⟨S3x64, .f32⟩ : BufTy).Contents (Elt Ideal)) (x7 x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S32x16, .f32⟩ : BufTy).Contents (Elt Ideal)) (x12 : (⟨S16, .f32⟩ : BufTy).Contents (Elt Ideal)) (x13 : (⟨S16x10, .f32⟩ : BufTy).Contents (Elt Ideal)) (i : S64x10.Idx) :
    val_main_v272 (F := Ideal) x0 x1 x2 x3 x4 x5 x6 x7 x8 x9 x10 x11 x12 x13 i = ∑ k : Fin 16, (val_main_v271 (F := Ideal) x0 x1 x2 x3 x4 x5 x6 x7 x8 x9 x10 x11 x12) (lidx_main_v272 i k) * x13 (ridx_main_v272 i k) := by
  unfold val_main_v272
  generalize val_main_v271 (F := Ideal) x0 x1 x2 x3 x4 x5 x6 x7 x8 x9 x10 x11 x12 = y0
  simp only [Host.dotGeneral]
  rw [Ideal.dotGeneral_apply, ← Equiv.sum_comp (ValueIdx.contrEquiv1 dot_S64x16_S16x10_S64x10_1_0_0_1_n_n 16 rfl rfl).symm]
  refine Finset.sum_congr rfl fun k _ => ?_
  have hk := ValueIdx.contrEquiv1_symm_val dot_S64x16_S16x10_S64x10_1_0_0_1_n_n 16 rfl rfl k
  have el : dot_S64x16_S16x10_S64x10_1_0_0_1_n_n.lhsIdx i ((ValueIdx.contrEquiv1 dot_S64x16_S16x10_S64x10_1_0_0_1_n_n 16 rfl rfl).symm k) = lidx_main_v272 i k := funext fun a => Fin.ext (by
    match a with
    | ⟨0, _⟩ => exact lhs_main_v272_0 _ _
    | ⟨1, _⟩ => exact (lhs_main_v272_1 _ _).trans hk)
  have er : dot_S64x16_S16x10_S64x10_1_0_0_1_n_n.rhsIdx i ((ValueIdx.contrEquiv1 dot_S64x16_S16x10_S64x10_1_0_0_1_n_n 16 rfl rfl).symm k) = ridx_main_v272 i k := funext fun a => Fin.ext (by
    match a with
    | ⟨0, _⟩ => exact (rhs_main_v272_0 _ _).trans hk
    | ⟨1, _⟩ => exact rhs_main_v272_1 _ _)
  rw [el, er]

def val_main_v273 (x14 : (⟨S10, .f32⟩ : BufTy).Contents (Elt F)) : (⟨S1x10, .f32⟩ : BufTy).Contents (Elt F) :=
  broadcastInDim S1x10 ![1] bcast_S10_S1x10_1 (x14)

abbrev idx_main_v273 (i : S1x10.Idx) : S10.Idx := fun a => match a with
  | ⟨0, _⟩ => ⟨(i 1).val, (i 1).isLt⟩

theorem val_main_v273_apply (x14 : (⟨S10, .f32⟩ : BufTy).Contents (Elt F)) (i : S1x10.Idx) :
    val_main_v273 (F := F) x14 i = x14 (idx_main_v273 i) := by
  unfold val_main_v273
  exact broadcastInDim_apply _ bcast_S10_S1x10_1 x14 i (idx_main_v273 i) (fun a => match a with
    | ⟨0, _⟩ => by show (i 1).val = if (10 : Nat) = 1 then 0 else (i 1).val; rw [if_neg (by decide)])

def val_main_v274 (x14 : (⟨S10, .f32⟩ : BufTy).Contents (Elt F)) : (⟨S64x10, .f32⟩ : BufTy).Contents (Elt F) :=
  broadcastInDim S64x10 ![0, 1] bcast_S1x10_S64x10_0_1 (val_main_v273 (F := F) x14)

abbrev idx_main_v274 (i : S64x10.Idx) : S1x10.Idx := fun a => match a with
  | ⟨0, _⟩ => ⟨0, Nat.one_pos⟩
  | ⟨1, _⟩ => ⟨(i 1).val, (i 1).isLt⟩

theorem val_main_v274_apply (x14 : (⟨S10, .f32⟩ : BufTy).Contents (Elt F)) (i : S64x10.Idx) :
    val_main_v274 (F := F) x14 i = val_main_v273 (F := F) x14 (idx_main_v274 i) := by
  unfold val_main_v274
  generalize val_main_v273 (F := F) x14 = y
  exact broadcastInDim_apply _ bcast_S1x10_S64x10_0_1 y i (idx_main_v274 i) (fun a => match a with
    | ⟨0, _⟩ => by show 0 = if (1 : Nat) = 1 then 0 else (i 0).val; rw [if_pos rfl]
    | ⟨1, _⟩ => by show (i 1).val = if (10 : Nat) = 1 then 0 else (i 1).val; rw [if_neg (by decide)])

def val_main_v275 (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (x9 : (⟨S64x32, .f32⟩ : BufTy).Contents (Elt F)) (x10 : (⟨S32, .f32⟩ : BufTy).Contents (Elt F)) (x11 : (⟨S32x16, .f32⟩ : BufTy).Contents (Elt F)) (x12 : (⟨S16, .f32⟩ : BufTy).Contents (Elt F)) (x13 : (⟨S16x10, .f32⟩ : BufTy).Contents (Elt F)) (x14 : (⟨S10, .f32⟩ : BufTy).Contents (Elt F)) : (⟨S64x10, .f32⟩ : BufTy).Contents (Elt F) :=
  addf (val_main_v272 (F := F) x0 x1 x2 x3 x4 x5 x6 x7 x8 x9 x10 x11 x12 x13) (val_main_v274 (F := F) x14)

theorem val_main_v275_apply (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S3x64x64, .f32⟩ : BufTy).Contents (Elt F)) (x6 : (⟨S3x64, .f32⟩ : BufTy).Contents (Elt F)) (x7 x8 : (⟨S64, .f32⟩ : BufTy).Contents (Elt F)) (x9 : (⟨S64x32, .f32⟩ : BufTy).Contents (Elt F)) (x10 : (⟨S32, .f32⟩ : BufTy).Contents (Elt F)) (x11 : (⟨S32x16, .f32⟩ : BufTy).Contents (Elt F)) (x12 : (⟨S16, .f32⟩ : BufTy).Contents (Elt F)) (x13 : (⟨S16x10, .f32⟩ : BufTy).Contents (Elt F)) (x14 : (⟨S10, .f32⟩ : BufTy).Contents (Elt F)) (i : S64x10.Idx) :
    val_main_v275 (F := F) x0 x1 x2 x3 x4 x5 x6 x7 x8 x9 x10 x11 x12 x13 x14 i = FloatOps.addf (val_main_v272 (F := F) x0 x1 x2 x3 x4 x5 x6 x7 x8 x9 x10 x11 x12 x13 i) (val_main_v274 (F := F) x14 i) := rfl

end Cert.ReferenceIdeal.ReadP

end
-- ==== Proof.KI.Stretch5.lean ====
import proofs.«420664_j68839735820523_2_alg».proof.Proof.Gen.KernelIdeal.Launch
import proofs.«420664_j68839735820523_2_alg».proof.Proof.RefRead
import Idealize.ShloMosaic.Lib.StableHlo.Run
import Idealize.ShloMosaic.Lib.ValueIdx
import Idealize.ShloMosaic.Lib.ValueLayout

noncomputable section

namespace Cert.KernelIdeal.Net

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.ReadP

variable {F : FTy → Type} [FloatOps F]

theorem row64_apply (s : (⟨S64, .f32⟩ : BufTy).Contents (Elt F)) (u : Fin 1) (j : Fin 64) :
    shapeCast S1x64 s shapeCasts_S64_S1x64 (ix2 u j) = s (ix1 j) :=
  shapeCast_a_1a_apply s shapeCasts_S64_S1x64 u j

theorem row32_apply (s : (⟨S32, .f32⟩ : BufTy).Contents (Elt F)) (u : Fin 1) (j : Fin 32) :
    shapeCast S1x32 s shapeCasts_S32_S1x32 (ix2 u j) = s (ix1 j) :=
  shapeCast_a_1a_apply s shapeCasts_S32_S1x32 u j

theorem row16_apply (s : (⟨S16, .f32⟩ : BufTy).Contents (Elt F)) (u : Fin 1) (j : Fin 16) :
    shapeCast S1x16 s shapeCasts_S16_S1x16 (ix2 u j) = s (ix1 j) :=
  shapeCast_a_1a_apply s shapeCasts_S16_S1x16 u j

theorem row10_apply (s : (⟨S10, .f32⟩ : BufTy).Contents (Elt F)) (u : Fin 1) (j : Fin 10) :
    shapeCast S1x10 s shapeCasts_S10_S1x10 (ix2 u j) = s (ix1 j) :=
  shapeCast_a_1a_apply s shapeCasts_S10_S1x10 u j

theorem col50000_apply (s : (⟨S50000, .i32⟩ : BufTy).Contents (Elt F)) (p : Fin 50000) (u : Fin 1) :
    shapeCast S50000x1 s shapeCasts_S50000_S50000x1 (ix2 p u) = s (ix1 p) :=
  shapeCast_apply s shapeCasts_S50000_S50000x1 _ _ (by
    have hu : u.val = 0 := by omega
    rw [Shape.rowMajor_val_two, Shape.rowMajor_val_one]
    show p.val = p.val * 1 + u.val
    rw [hu, Nat.mul_one, Nat.add_zero])

def rowDiv (s : (⟨S64, .f32⟩ : BufTy).Contents (Elt F)) : (⟨S1x64, .f32⟩ : BufTy).Contents (Elt F) :=
  Host.divf (broadcastInDim S1x64 ![1] bcast_S64_S1x64_1 s)
    (broadcastInDim S1x64 ![] bcast_S_S1x64 (constant S_ .f32 0x47435000#32))

theorem rowDiv_apply (s : (⟨S64, .f32⟩ : BufTy).Contents (Elt F)) (u : Fin 1) (j : Fin 64) :
    rowDiv s (ix2 u j) = FloatOps.hostDivf (s (ix1 j)) (FloatOps.ofBits .f32 0x47435000#32) := by
  unfold rowDiv
  show FloatOps.hostDivf (broadcastInDim S1x64 ![1] bcast_S64_S1x64_1 s (ix2 u j))
      (broadcastInDim S1x64 ![] bcast_S_S1x64 (constant (F := F) S_ .f32 0x47435000#32) (ix2 u j)) = _
  rw [broadcastInDim_apply _ bcast_S64_S1x64_1 s (ix2 u j) (ix1 j) (fun a => match a with
        | ⟨0, _⟩ => by show j.val = if (64 : Nat) = 1 then 0 else j.val; rw [if_neg (by decide)]),
    broadcastInDim_apply _ bcast_S_S1x64 (constant (F := F) S_ .f32 0x47435000#32) (ix2 u j) ix0 (fun a => a.elim0)]
  rfl

theorem bcast_rowDiv (s : (⟨S64, .f32⟩ : BufTy).Contents (Elt F)) :
    broadcastInDim S50000x64 ![0, 1] bcast_S1x64_S50000x64_0_1 (rowDiv s)
      = broadcastInDim S50000x64 ![0, 1] bcast_S1x64_S50000x64_0_1
          (broadcastInDim S1x64 ![1] bcast_S64_S1x64_1
            (Host.divf s (broadcastInDim S64 ![] bcast_S_S64 (constant S_ .f32 0x47435000#32)))) := by
  refine congrArg (fun y : (⟨S1x64, .f32⟩ : BufTy).Contents (Elt F) =>
    broadcastInDim S50000x64 ![0, 1] bcast_S1x64_S50000x64_0_1 y) (funext fun i => ?_)
  obtain ⟨u, j, rfl⟩ : ∃ u j, i = ix2 u j := ⟨i 0, i 1, eq_ix2 i⟩
  rw [rowDiv_apply,
    broadcastInDim_apply _ bcast_S64_S1x64_1 _ (ix2 u j) (ix1 j) (fun a => match a with
        | ⟨0, _⟩ => by show j.val = if (64 : Nat) = 1 then 0 else j.val; rw [if_neg (by decide)])]
  show _ = FloatOps.hostDivf (s (ix1 j))
      (broadcastInDim S64 ![] bcast_S_S64 (constant (F := F) S_ .f32 0x47435000#32) (ix1 j))
  rw [broadcastInDim_apply _ bcast_S_S64 (constant (F := F) S_ .f32 0x47435000#32) (ix1 j) ix0 (fun a => a.elim0)]
  rfl

theorem stretch5_v94 (X : Valuation τ sig (Elt F))
    (x5 : (⟨S3x64x64, .f32⟩ : BufTy).Contents (Elt F))
    (h5 : X (Proc.devRef .tc main_arg5) = x5) :
    StableHlo.after hostOps5 X (Proc.devRef .tc main_v94) = val_main_v117 x5 := by
  show StableHlo.after hostOps5 X _ = _
  unfold hostOps5
  after_results
  rw [h5]
  unfold val_main_v117 val_main_v116
  rfl

theorem stretch5_v96 (X : Valuation τ sig (Elt F))
    (x6 : (⟨S3x64, .f32⟩ : BufTy).Contents (Elt F))
    (h6 : X (Proc.devRef .tc main_arg6) = x6) :
    StableHlo.after hostOps5 X (Proc.devRef .tc main_v96) = val_main_v119 x6 := by
  show StableHlo.after hostOps5 X _ = _
  unfold hostOps5
  after_results
  rw [h6]
  unfold val_main_v119 val_main_v118
  rfl

theorem stretch6_v125 (X : Valuation τ sig (Elt F))
    (x0 : (⟨S50000x128, .f32⟩ : BufTy).Contents (Elt F)) (x1 : (⟨S2x800000, .i32⟩ : BufTy).Contents (Elt F))
    (x3 : (⟨S128x64, .f32⟩ : BufTy).Contents (Elt F)) (x4 : (⟨S64, .f32⟩ : BufTy).Contents (Elt F))
    (x5 : (⟨S3x64x64, .f32⟩ : BufTy).Contents (Elt F)) (x6 : (⟨S3x64, .f32⟩ : BufTy).Contents (Elt F))
    (x7 x8 : (⟨S64, .f32⟩ : BufTy).Contents (Elt F))
    (h97 : X (Proc.devRef .tc main_v97) = val_main_v120 x0 x1 x3 x4 x5 x6 x7 x8)
    (h1 : X (Proc.devRef .tc main_v1) = val_main_v1 x1)
    (h3 : X (Proc.devRef .tc main_v3) = val_main_v3 x1)
    (h10 : X (Proc.devRef .tc main_v10) = val_main_v10 x1) :
    StableHlo.after hostOps6 X (Proc.devRef .tc main_v125) = val_main_v148 x0 x1 x3 x4 x5 x6 x7 x8 := by
  show StableHlo.after hostOps6 X _ = _
  unfold hostOps6
  after_results_simp
  rw [h97, h1, h3, h10]
  unfold val_main_v148 val_main_v146 val_main_cst_26 val_main_v147 val_main_v145 val_main_v143 val_main_v142
    val_main_v141 val_main_v138 val_main_v137 val_main_c_24 val_main_v140 val_main_v139 val_main_c_25
    val_main_v144 val_main_v136 val_main_v135 val_main_v127 val_main_v126 val_main_v125 val_main_v122
    val_main_v121 val_main_c_20 val_main_v124 val_main_v123 val_main_c_21 val_main_v134 val_main_v133
    val_main_v132 val_main_v129 val_main_v128 val_main_c_22 val_main_v131 val_main_v130 val_main_c_23
  rfl

theorem stretch6_v126 (X : Valuation τ sig (Elt F))
    (x6 : (⟨S3x64, .f32⟩ : BufTy).Contents (Elt F))
    (h96 : X (Proc.devRef .tc main_v96) = val_main_v119 x6) :
    StableHlo.after hostOps6 X (Proc.devRef .tc main_v126)
      = shapeCast S1x64 (val_main_v119 x6) shapeCasts_S64_S1x64 := by
  show StableHlo.after hostOps6 X _ = _
  unfold hostOps6
  after_results_simp
  rw [h96]
  rfl

theorem stretch7_v131 (X : Valuation τ sig (Elt F))
    (x0 : (⟨S50000x128, .f32⟩ : BufTy).Contents (Elt F)) (x1 : (⟨S2x800000, .i32⟩ : BufTy).Contents (Elt F))
    (x3 : (⟨S128x64, .f32⟩ : BufTy).Contents (Elt F)) (x4 : (⟨S64, .f32⟩ : BufTy).Contents (Elt F))
    (x5 : (⟨S3x64x64, .f32⟩ : BufTy).Contents (Elt F)) (x6 : (⟨S3x64, .f32⟩ : BufTy).Contents (Elt F))
    (x7 x8 : (⟨S64, .f32⟩ : BufTy).Contents (Elt F))
    (h127 : X (Proc.devRef .tc main_v127) = val_main_v156 x0 x1 x3 x4 x5 x6 x7 x8) :
    StableHlo.after hostOps7 X (Proc.devRef .tc main_v131) = rowDiv (val_main_v157 x0 x1 x3 x4 x5 x6 x7 x8) := by
  show StableHlo.after hostOps7 X _ = _
  unfold hostOps7
  after_results_simp
  rw [h127]
  unfold val_main_v157 val_main_cst_27
  rfl

theorem bcast_rowDiv_v157 (x0 : (⟨S50000x128, .f32⟩ : BufTy).Contents (Elt F)) (x1 : (⟨S2x800000, .i32⟩ : BufTy).Contents (Elt F))
    (x3 : (⟨S128x64, .f32⟩ : BufTy).Contents (Elt F)) (x4 : (⟨S64, .f32⟩ : BufTy).Contents (Elt F))
    (x5 : (⟨S3x64x64, .f32⟩ : BufTy).Contents (Elt F)) (x6 : (⟨S3x64, .f32⟩ : BufTy).Contents (Elt F))
    (x7 x8 : (⟨S64, .f32⟩ : BufTy).Contents (Elt F)) :
    broadcastInDim S50000x64 ![0, 1] bcast_S1x64_S50000x64_0_1 (rowDiv (val_main_v157 (F := F) x0 x1 x3 x4 x5 x6 x7 x8))
      = val_main_v161 x0 x1 x3 x4 x5 x6 x7 x8 := by
  rw [bcast_rowDiv]
  unfold val_main_v161 val_main_v160 val_main_v159 val_main_v158 val_main_cst_28
  rfl

theorem stretch7_v138 (X : Valuation τ sig (Elt F))
    (x0 : (⟨S50000x128, .f32⟩ : BufTy).Contents (Elt F)) (x1 : (⟨S2x800000, .i32⟩ : BufTy).Contents (Elt F))
    (x3 : (⟨S128x64, .f32⟩ : BufTy).Contents (Elt F)) (x4 : (⟨S64, .f32⟩ : BufTy).Contents (Elt F))
    (x5 : (⟨S3x64x64, .f32⟩ : BufTy).Contents (Elt F)) (x6 : (⟨S3x64, .f32⟩ : BufTy).Contents (Elt F))
    (x7 x8 : (⟨S64, .f32⟩ : BufTy).Contents (Elt F))
    (h127 : X (Proc.devRef .tc main_v127) = val_main_v156 x0 x1 x3 x4 x5 x6 x7 x8) :
    StableHlo.after hostOps7 X (Proc.devRef .tc main_v138) = rowDiv (val_main_v164 x0 x1 x3 x4 x5 x6 x7 x8) := by
  show StableHlo.after hostOps7 X _ = _
  unfold hostOps7
  after_results_simp
  rw [h127]
  unfold val_main_v164 val_main_v163 val_main_v162 val_main_cst_29
  rw [← bcast_rowDiv_v157]
  unfold val_main_v157 val_main_cst_27
  rfl

theorem stretch7_v139 (X : Valuation τ sig (Elt F))
    (x7 : (⟨S64, .f32⟩ : BufTy).Contents (Elt F))
    (h7 : X (Proc.devRef .tc main_arg7) = x7) :
    StableHlo.after hostOps7 X (Proc.devRef .tc main_v139) = shapeCast S1x64 x7 shapeCasts_S64_S1x64 := by
  show StableHlo.after hostOps7 X _ = _
  unfold hostOps7
  after_results_simp
  rw [h7]
  rfl

theorem stretch7_v140 (X : Valuation τ sig (Elt F))
    (x8 : (⟨S64, .f32⟩ : BufTy).Contents (Elt F))
    (h8 : X (Proc.devRef .tc main_arg8) = x8) :
    StableHlo.after hostOps7 X (Proc.devRef .tc main_v140) = shapeCast S1x64 x8 shapeCasts_S64_S1x64 := by
  show StableHlo.after hostOps7 X _ = _
  unfold hostOps7
  after_results_simp
  rw [h8]
  rfl

theorem rowDiv_v157 (x0 : (⟨S50000x128, .f32⟩ : BufTy).Contents (Elt F)) (x1 : (⟨S2x800000, .i32⟩ : BufTy).Contents (Elt F))
    (x3 : (⟨S128x64, .f32⟩ : BufTy).Contents (Elt F)) (x4 : (⟨S64, .f32⟩ : BufTy).Contents (Elt F))
    (x5 : (⟨S3x64x64, .f32⟩ : BufTy).Contents (Elt F)) (x6 : (⟨S3x64, .f32⟩ : BufTy).Contents (Elt F))
    (x7 x8 : (⟨S64, .f32⟩ : BufTy).Contents (Elt F)) (u : Fin 1) (j : Fin 64) :
    rowDiv (val_main_v157 (F := F) x0 x1 x3 x4 x5 x6 x7 x8) (ix2 u j) = val_main_v159 x0 x1 x3 x4 x5 x6 x7 x8 (ix1 j) := by
  rw [rowDiv_apply, val_main_v159_apply, val_main_v158_apply, val_main_cst_28_apply]

theorem rowDiv_v164 (x0 : (⟨S50000x128, .f32⟩ : BufTy).Contents (Elt F)) (x1 : (⟨S2x800000, .i32⟩ : BufTy).Contents (Elt F))
    (x3 : (⟨S128x64, .f32⟩ : BufTy).Contents (Elt F)) (x4 : (⟨S64, .f32⟩ : BufTy).Contents (Elt F))
    (x5 : (⟨S3x64x64, .f32⟩ : BufTy).Contents (Elt F)) (x6 : (⟨S3x64, .f32⟩ : BufTy).Contents (Elt F))
    (x7 x8 : (⟨S64, .f32⟩ : BufTy).Contents (Elt F)) (u : Fin 1) (j : Fin 64) :
    rowDiv (val_main_v164 (F := F) x0 x1 x3 x4 x5 x6 x7 x8) (ix2 u j) = val_main_v166 x0 x1 x3 x4 x5 x6 x7 x8 (ix1 j) := by
  rw [rowDiv_apply, val_main_v166_apply, val_main_v165_apply, val_main_cst_30_apply]

theorem stretch8_v143 (X : Valuation τ sig (Elt F))
    (x5 : (⟨S3x64x64, .f32⟩ : BufTy).Contents (Elt F))
    (h5 : X (Proc.devRef .tc main_arg5) = x5) :
    StableHlo.after hostOps8 X (Proc.devRef .tc main_v143) = val_main_v184 x5 := by
  show StableHlo.after hostOps8 X _ = _
  unfold hostOps8
  after_results
  rw [h5]
  unfold val_main_v184 val_main_v183
  rfl

theorem stretch8_v145 (X : Valuation τ sig (Elt F))
    (x6 : (⟨S3x64, .f32⟩ : BufTy).Contents (Elt F))
    (h6 : X (Proc.devRef .tc main_arg6) = x6) :
    StableHlo.after hostOps8 X (Proc.devRef .tc main_v145) = val_main_v186 x6 := by
  show StableHlo.after hostOps8 X _ = _
  unfold hostOps8
  after_results
  rw [h6]
  unfold val_main_v186 val_main_v185
  rfl

theorem stretch9_v174 (X : Valuation τ sig (Elt F))
    (x0 : (⟨S50000x128, .f32⟩ : BufTy).Contents (Elt F)) (x1 : (⟨S2x800000, .i32⟩ : BufTy).Contents (Elt F))
    (x3 : (⟨S128x64, .f32⟩ : BufTy).Contents (Elt F)) (x4 : (⟨S64, .f32⟩ : BufTy).Contents (Elt F))
    (x5 : (⟨S3x64x64, .f32⟩ : BufTy).Contents (Elt F)) (x6 : (⟨S3x64, .f32⟩ : BufTy).Contents (Elt F))
    (x7 x8 : (⟨S64, .f32⟩ : BufTy).Contents (Elt F))
    (h146 : X (Proc.devRef .tc main_v146) = val_main_v187 x0 x1 x3 x4 x5 x6 x7 x8)
    (h1 : X (Proc.devRef .tc main_v1) = val_main_v1 x1)
    (h3 : X (Proc.devRef .tc main_v3) = val_main_v3 x1)
    (h10 : X (Proc.devRef .tc main_v10) = val_main_v10 x1) :
    StableHlo.after hostOps9 X (Proc.devRef .tc main_v174) = val_main_v215 x0 x1 x3 x4 x5 x6 x7 x8 := by
  show StableHlo.after hostOps9 X _ = _
  unfold hostOps9
  after_results_simp
  rw [h146, h1, h3, h10]
  unfold val_main_v215 val_main_v213 val_main_cst_38 val_main_v214 val_main_v212 val_main_v210 val_main_v209
    val_main_v208 val_main_v205 val_main_v204 val_main_c_36 val_main_v207 val_main_v206 val_main_c_37
    val_main_v211 val_main_v203 val_main_v202 val_main_v194 val_main_v193 val_main_v192 val_main_v189
    val_main_v188 val_main_c_32 val_main_v191 val_main_v190 val_main_c_33 val_main_v201 val_main_v200
    val_main_v199 val_main_v196 val_main_v195 val_main_c_34 val_main_v198 val_main_v197 val_main_c_35
  rfl

theorem stretch9_v175 (X : Valuation τ sig (Elt F))
    (x6 : (⟨S3x64, .f32⟩ : BufTy).Contents (Elt F))
    (h145 : X (Proc.devRef .tc main_v145) = val_main_v186 x6) :
    StableHlo.after hostOps9 X (Proc.devRef .tc main_v175)
      = shapeCast S1x64 (val_main_v186 x6) shapeCasts_S64_S1x64 := by
  show StableHlo.after hostOps9 X _ = _
  unfold hostOps9
  after_results_simp
  rw [h145]
  rfl

theorem stretch10_v180 (X : Valuation τ sig (Elt F))
    (x0 : (⟨S50000x128, .f32⟩ : BufTy).Contents (Elt F)) (x1 : (⟨S2x800000, .i32⟩ : BufTy).Contents (Elt F))
    (x3 : (⟨S128x64, .f32⟩ : BufTy).Contents (Elt F)) (x4 : (⟨S64, .f32⟩ : BufTy).Contents (Elt F))
    (x5 : (⟨S3x64x64, .f32⟩ : BufTy).Contents (Elt F)) (x6 : (⟨S3x64, .f32⟩ : BufTy).Contents (Elt F))
    (x7 x8 : (⟨S64, .f32⟩ : BufTy).Contents (Elt F))
    (h176 : X (Proc.devRef .tc main_v176) = val_main_v223 x0 x1 x3 x4 x5 x6 x7 x8) :
    StableHlo.after hostOps10 X (Proc.devRef .tc main_v180) = rowDiv (val_main_v224 x0 x1 x3 x4 x5 x6 x7 x8) := by
  show StableHlo.after hostOps10 X _ = _
  unfold hostOps10
  after_results_simp
  rw [h176]
  unfold val_main_v224 val_main_cst_39
  rfl

theorem bcast_rowDiv_v224 (x0 : (⟨S50000x128, .f32⟩ : BufTy).Contents (Elt F)) (x1 : (⟨S2x800000, .i32⟩ : BufTy).Contents (Elt F))
    (x3 : (⟨S128x64, .f32⟩ : BufTy).Contents (Elt F)) (x4 : (⟨S64, .f32⟩ : BufTy).Contents (Elt F))
    (x5 : (⟨S3x64x64, .f32⟩ : BufTy).Contents (Elt F)) (x6 : (⟨S3x64, .f32⟩ : BufTy).Contents (Elt F))
    (x7 x8 : (⟨S64, .f32⟩ : BufTy).Contents (Elt F)) :
    broadcastInDim S50000x64 ![0, 1] bcast_S1x64_S50000x64_0_1 (rowDiv (val_main_v224 (F := F) x0 x1 x3 x4 x5 x6 x7 x8))
      = val_main_v228 x0 x1 x3 x4 x5 x6 x7 x8 := by
  rw [bcast_rowDiv]
  unfold val_main_v228 val_main_v227 val_main_v226 val_main_v225 val_main_cst_40
  rfl

theorem stretch10_v187 (X : Valuation τ sig (Elt F))
    (x0 : (⟨S50000x128, .f32⟩ : BufTy).Contents (Elt F)) (x1 : (⟨S2x800000, .i32⟩ : BufTy).Contents (Elt F))
    (x3 : (⟨S128x64, .f32⟩ : BufTy).Contents (Elt F)) (x4 : (⟨S64, .f32⟩ : BufTy).Contents (Elt F))
    (x5 : (⟨S3x64x64, .f32⟩ : BufTy).Contents (Elt F)) (x6 : (⟨S3x64, .f32⟩ : BufTy).Contents (Elt F))
    (x7 x8 : (⟨S64, .f32⟩ : BufTy).Contents (Elt F))
    (h176 : X (Proc.devRef .tc main_v176) = val_main_v223 x0 x1 x3 x4 x5 x6 x7 x8) :
    StableHlo.after hostOps10 X (Proc.devRef .tc main_v187) = rowDiv (val_main_v231 x0 x1 x3 x4 x5 x6 x7 x8) := by
  show StableHlo.after hostOps10 X _ = _
  unfold hostOps10
  after_results_simp
  rw [h176]
  unfold val_main_v231 val_main_v230 val_main_v229 val_main_cst_41
  rw [← bcast_rowDiv_v224]
  unfold val_main_v224 val_main_cst_39
  rfl

theorem stretch10_v188 (X : Valuation τ sig (Elt F))
    (x7 : (⟨S64, .f32⟩ : BufTy).Contents (Elt F))
    (h7 : X (Proc.devRef .tc main_arg7) = x7) :
    StableHlo.after hostOps10 X (Proc.devRef .tc main_v188) = shapeCast S1x64 x7 shapeCasts_S64_S1x64 := by
  show StableHlo.after hostOps10 X _ = _
  unfold hostOps10
  after_results_simp
  rw [h7]
  rfl

theorem stretch10_v189 (X : Valuation τ sig (Elt F))
    (x8 : (⟨S64, .f32⟩ : BufTy).Contents (Elt F))
    (h8 : X (Proc.devRef .tc main_arg8) = x8) :
    StableHlo.after hostOps10 X (Proc.devRef .tc main_v189) = shapeCast S1x64 x8 shapeCasts_S64_S1x64 := by
  show StableHlo.after hostOps10 X _ = _
  unfold hostOps10
  after_results_simp
  rw [h8]
  rfl

theorem rowDiv_v224 (x0 : (⟨S50000x128, .f32⟩ : BufTy).Contents (Elt F)) (x1 : (⟨S2x800000, .i32⟩ : BufTy).Contents (Elt F))
    (x3 : (⟨S128x64, .f32⟩ : BufTy).Contents (Elt F)) (x4 : (⟨S64, .f32⟩ : BufTy).Contents (Elt F))
    (x5 : (⟨S3x64x64, .f32⟩ : BufTy).Contents (Elt F)) (x6 : (⟨S3x64, .f32⟩ : BufTy).Contents (Elt F))
    (x7 x8 : (⟨S64, .f32⟩ : BufTy).Contents (Elt F)) (u : Fin 1) (j : Fin 64) :
    rowDiv (val_main_v224 (F := F) x0 x1 x3 x4 x5 x6 x7 x8) (ix2 u j) = val_main_v226 x0 x1 x3 x4 x5 x6 x7 x8 (ix1 j) := by
  rw [rowDiv_apply, val_main_v226_apply, val_main_v225_apply, val_main_cst_40_apply]

theorem rowDiv_v231 (x0 : (⟨S50000x128, .f32⟩ : BufTy).Contents (Elt F)) (x1 : (⟨S2x800000, .i32⟩ : BufTy).Contents (Elt F))
    (x3 : (⟨S128x64, .f32⟩ : BufTy).Contents (Elt F)) (x4 : (⟨S64, .f32⟩ : BufTy).Contents (Elt F))
    (x5 : (⟨S3x64x64, .f32⟩ : BufTy).Contents (Elt F)) (x6 : (⟨S3x64, .f32⟩ : BufTy).Contents (Elt F))
    (x7 x8 : (⟨S64, .f32⟩ : BufTy).Contents (Elt F)) (u : Fin 1) (j : Fin 64) :
    rowDiv (val_main_v231 (F := F) x0 x1 x3 x4 x5 x6 x7 x8) (ix2 u j) = val_main_v233 x0 x1 x3 x4 x5 x6 x7 x8 (ix1 j) := by
  rw [rowDiv_apply, val_main_v233_apply, val_main_v232_apply, val_main_cst_42_apply]

theorem stretch11_v191 (X : Valuation τ sig (Elt F))
    (x2 : (⟨S50000, .i32⟩ : BufTy).Contents (Elt F))
    (h2 : X (Proc.devRef .tc main_arg2) = x2) :
    StableHlo.after hostOps11 X (Proc.devRef .tc main_v191) = shapeCast S50000x1 x2 shapeCasts_S50000_S50000x1 := by
  show StableHlo.after hostOps11 X _ = _
  unfold hostOps11
  after_results
  rw [h2]
  rfl

theorem stretch12_v201 (X : Valuation τ sig (Elt F))
    (x0 : (⟨S50000x128, .f32⟩ : BufTy).Contents (Elt F)) (x1 : (⟨S2x800000, .i32⟩ : BufTy).Contents (Elt F))
    (x2 : (⟨S50000, .i32⟩ : BufTy).Contents (Elt F))
    (x3 : (⟨S128x64, .f32⟩ : BufTy).Contents (Elt F)) (x4 : (⟨S64, .f32⟩ : BufTy).Contents (Elt F))
    (x5 : (⟨S3x64x64, .f32⟩ : BufTy).Contents (Elt F)) (x6 : (⟨S3x64, .f32⟩ : BufTy).Contents (Elt F))
    (x7 x8 : (⟨S64, .f32⟩ : BufTy).Contents (Elt F))
    (h192 : X (Proc.devRef .tc main_v192) = val_main_v252 x0 x1 x2 x3 x4 x5 x6 x7 x8)
    (h2 : X (Proc.devRef .tc main_arg2) = x2) :
    StableHlo.after hostOps12 X (Proc.devRef .tc main_v201) = val_main_v261 x0 x1 x2 x3 x4 x5 x6 x7 x8 := by
  show StableHlo.after hostOps12 X _ = _
  unfold hostOps12
  after_results_simp
  rw [h192, h2]
  unfold val_main_v261 val_main_v260 val_main_v259 val_main_v258 val_main_v257 val_main_cst_47 val_main_v256
    val_main_v255 val_main_v254 val_main_cst_46 val_main_v253 val_main_cst_45
  rfl

theorem stretch12_v202 (X : Valuation τ sig (Elt F))
    (x10 : (⟨S32, .f32⟩ : BufTy).Contents (Elt F))
    (h : X (Proc.devRef .tc main_arg10) = x10) :
    StableHlo.after hostOps12 X (Proc.devRef .tc main_v202) = shapeCast S1x32 x10 shapeCasts_S32_S1x32 := by
  show StableHlo.after hostOps12 X _ = _
  unfold hostOps12
  after_results_simp
  rw [h]
  rfl

theorem stretch12_v203 (X : Valuation τ sig (Elt F))
    (x12 : (⟨S16, .f32⟩ : BufTy).Contents (Elt F))
    (h : X (Proc.devRef .tc main_arg12) = x12) :
    StableHlo.after hostOps12 X (Proc.devRef .tc main_v203) = shapeCast S1x16 x12 shapeCasts_S16_S1x16 := by
  show StableHlo.after hostOps12 X _ = _
  unfold hostOps12
  after_results_simp
  rw [h]
  rfl

theorem stretch12_v204 (X : Valuation τ sig (Elt F))
    (x14 : (⟨S10, .f32⟩ : BufTy).Contents (Elt F))
    (h : X (Proc.devRef .tc main_arg14) = x14) :
    StableHlo.after hostOps12 X (Proc.devRef .tc main_v204) = shapeCast S1x10 x14 shapeCasts_S10_S1x10 := by
  show StableHlo.after hostOps12 X _ = _
  unfold hostOps12
  after_results_simp
  rw [h]
  rfl

end Cert.KernelIdeal.Net
-- ==== Proof.Spec.lean ====
import Idealize.ShloMosaic.PureOps.Ideal
import Idealize.ShloMosaic.Lib.ValueIdx

noncomputable section

namespace Cert.Spec

open Idealize.ShloMosaic Idealize.ShloMosaic.ValueIdx

abbrev Mat (a b : Nat) : Type := (⟨2, ![a, b]⟩ : Shape).Idx → EReal

abbrev ICol (a : Nat) : Type := (⟨2, ![a, 1]⟩ : Shape).Idx → BitVec 32

abbrev zeroE : EReal := Ideal.ofBits .f32 0x00000000#32

abbrev epsE : EReal := Ideal.ofBits .f32 0x3727C5AC#32

def mm {a k b : Nat} (x : Mat a k) (w : Mat k b) (p : Fin a) (q : Fin b) : EReal :=
  ∑ r : Fin k, x (ix2 p r) * w (ix2 r q)

def relu (v : EReal) : EReal := max v zeroE

def comb {n h : Nat} (agg hh : Mat n h) (d2 : Mat n 1) (b2 : Mat 1 h) (p : Fin n) (q : Fin h) : EReal :=
  agg (ix2 p q) + hh (ix2 p q) * d2 (ix2 p 0) + b2 (ix2 0 q)

def combRelu {n h : Nat} (agg hh : Mat n h) (d2 : Mat n 1) (b2 : Mat 1 h) (p : Fin n) (q : Fin h) : EReal :=
  relu (comb agg hh d2 b2 p q)

def bnRelu {n h : Nat} (pre : Mat n h) (g b mu var : Mat 1 h) (p : Fin n) (q : Fin h) : EReal :=
  relu ((pre (ix2 p q) - mu (ix2 0 q)) * Ideal.rsqrt (var (ix2 0 q) + epsE) * g (ix2 0 q) + b (ix2 0 q))

def pool {n gs h : Nat} (hh : Mat n h) (ids : ICol n) (g : Fin gs) (q : Fin h) : EReal :=
  ∑ p : Fin n, (if ids (ix2 p 0) = BitVec.ofNat 32 g.val then hh (ix2 p q) else 0)

def affine {a k b : Nat} (x : Mat a k) (w : Mat k b) (bias : Mat 1 b) (p : Fin a) (q : Fin b) : EReal :=
  mm x w p q + bias (ix2 0 q)

def hidden {a k b : Nat} (x : Mat a k) (w : Mat k b) (bias : Mat 1 b) : Mat a b :=
  fun i => relu (affine x w bias (i 0) (i 1))

def mlp (x : Mat 64 64) (w1 : Mat 64 32) (b1 : Mat 1 32) (w2 : Mat 32 16) (b2 : Mat 1 16) (w3 : Mat 16 10) (b3 : Mat 1 10)
    (p : Fin 64) (q : Fin 10) : EReal :=
  affine (hidden (hidden x w1 b1) w2 b2) w3 b3 p q

end Cert.Spec

end
-- ==== Proof.KI.PayMat.lean ====
import proofs.«420664_j68839735820523_2_alg».proof.Proof.Gen.KernelIdeal.Skeleton
import proofs.«420664_j68839735820523_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Net

open Cert.KernelIdeal Cert.KernelIdeal.Gen Idealize.ShloMosaic Idealize.ShloMosaic.ValueIdx Idealize.SL.Sem

theorem lhs_lin128_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl

theorem lhs_lin128_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q

theorem rhs_lin128_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q

theorem rhs_lin128_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

theorem matmul_lin128 (a : FVec Ideal S5000x128 .bf16) (b : FVec Ideal S128x64 .bf16) (y : Fin 5000) (q : Fin 64) :
    matmul dot_S5000x128_S128x64_S5000x64_1_0_0_1_n_n none a b (constant (F := Ideal) S5000x64 .f32 0x00000000#32) (ix2 y q)
      = ∑ r : Fin 128, a (ix2 y r) * b (ix2 r q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 y q) ((contrEquiv1 dot_S5000x128_S128x64_S5000x64_1_0_0_1_n_n 128 rfl rfl).symm k) = ix2 y k := funext fun ax => Fin.ext (by
    match ax with
    | ⟨0, _⟩ => exact lhs_lin128_0 _ _
    | ⟨1, _⟩ => exact (lhs_lin128_1 _ _).trans hk)
  have er : dot_S5000x128_S128x64_S5000x64_1_0_0_1_n_n.rhsIdx (ix2 y q) ((contrEquiv1 dot_S5000x128_S128x64_S5000x64_1_0_0_1_n_n 128 rfl rfl).symm k) = ix2 k q := funext fun ax => Fin.ext (by
    match ax with
    | ⟨0, _⟩ => exact (rhs_lin128_0 _ _).trans hk
    | ⟨1, _⟩ => exact rhs_lin128_1 _ _)
  rw [el, er]

theorem lhs_lin64_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

theorem lhs_lin64_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q

theorem rhs_lin64_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q

theorem rhs_lin64_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem matmul_lin64 (a : FVec Ideal S5000x64 .bf16) (b : FVec Ideal S64x64 .bf16) (y : Fin 5000) (q : Fin 64) :
    matmul dot_S5000x64_S64x64_S5000x64_1_0_0_1_n_n none a b (constant (F := Ideal) S5000x64 .f32 0x00000000#32) (ix2 y q)
      = ∑ r : Fin 64, a (ix2 y r) * b (ix2 r q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 y q) ((contrEquiv1 dot_S5000x64_S64x64_S5000x64_1_0_0_1_n_n 64 rfl rfl).symm k) = ix2 y k := funext fun ax => Fin.ext (by
    match ax with
    | ⟨0, _⟩ => exact lhs_lin64_0 _ _
    | ⟨1, _⟩ => exact (lhs_lin64_1 _ _).trans hk)
  have er : dot_S5000x64_S64x64_S5000x64_1_0_0_1_n_n.rhsIdx (ix2 y q) ((contrEquiv1 dot_S5000x64_S64x64_S5000x64_1_0_0_1_n_n 64 rfl rfl).symm k) = ix2 k q := funext fun ax => Fin.ext (by
    match ax with
    | ⟨0, _⟩ => exact (rhs_lin64_0 _ _).trans hk
    | ⟨1, _⟩ => exact rhs_lin64_1 _ _)
  rw [el, er]

theorem lhs_mlp1_0 (i : S64x32.Idx) (q : dot_S64x64_S64x32_S64x32_1_0_0_1_n_n.contr.Idx) :
    (dot_S64x64_S64x32_S64x32_1_0_0_1_n_n.lhsIdx i q 0).val = (i 0).val := by
  unfold DotDims.lhsIdx
  rw [dif_neg (show ¬(0 : Fin S64x64.rank) ∈ dot_S64x64_S64x32_S64x32_1_0_0_1_n_n.lhsBatch by decide), dif_pos (show (0 : Fin S64x64.rank) ∈ dot_S64x64_S64x32_S64x32_1_0_0_1_n_n.lhsNonContracting by decide)]
  rfl

theorem lhs_mlp1_1 (i : S64x32.Idx) (q : dot_S64x64_S64x32_S64x32_1_0_0_1_n_n.contr.Idx) :
    (dot_S64x64_S64x32_S64x32_1_0_0_1_n_n.lhsIdx i q 1).val = (q ⟨0, by decide⟩).val :=
  dot_S64x64_S64x32_S64x32_1_0_0_1_n_n.lhsIdx_val_of_single rfl i q

theorem rhs_mlp1_0 (i : S64x32.Idx) (q : dot_S64x64_S64x32_S64x32_1_0_0_1_n_n.contr.Idx) :
    (dot_S64x64_S64x32_S64x32_1_0_0_1_n_n.rhsIdx i q 0).val = (q ⟨0, by decide⟩).val :=
  dot_S64x64_S64x32_S64x32_1_0_0_1_n_n.rhsIdx_val_of_single rfl i q

theorem rhs_mlp1_1 (i : S64x32.Idx) (q : dot_S64x64_S64x32_S64x32_1_0_0_1_n_n.contr.Idx) :
    (dot_S64x64_S64x32_S64x32_1_0_0_1_n_n.rhsIdx i q 1).val = (i 1).val := by
  unfold DotDims.rhsIdx
  rw [dif_neg (show ¬(1 : Fin S64x32.rank) ∈ dot_S64x64_S64x32_S64x32_1_0_0_1_n_n.rhsBatch by decide), dif_pos (show (1 : Fin S64x32.rank) ∈ dot_S64x64_S64x32_S64x32_1_0_0_1_n_n.rhsNonContracting by decide)]
  rfl

theorem matmul_mlp1 (a : FVec Ideal S64x64 .bf16) (b : FVec Ideal S64x32 .bf16) (y : Fin 64) (q : Fin 32) :
    matmul dot_S64x64_S64x32_S64x32_1_0_0_1_n_n none a b (constant (F := Ideal) S64x32 .f32 0x00000000#32) (ix2 y q)
      = ∑ r : Fin 64, a (ix2 y r) * b (ix2 r q) := by
  simp only [matmul]
  rw [Ideal.matmul_constant_zero_apply, ← Equiv.sum_comp (contrEquiv1 dot_S64x64_S64x32_S64x32_1_0_0_1_n_n 64 rfl rfl).symm]
  refine Finset.sum_congr rfl fun k _ => ?_
  have hk := contrEquiv1_symm_val dot_S64x64_S64x32_S64x32_1_0_0_1_n_n 64 rfl rfl k
  have el : dot_S64x64_S64x32_S64x32_1_0_0_1_n_n.lhsIdx (ix2 y q) ((contrEquiv1 dot_S64x64_S64x32_S64x32_1_0_0_1_n_n 64 rfl rfl).symm k) = ix2 y k := funext fun ax => Fin.ext (by
    match ax with
    | ⟨0, _⟩ => exact lhs_mlp1_0 _ _
    | ⟨1, _⟩ => exact (lhs_mlp1_1 _ _).trans hk)
  have er : dot_S64x64_S64x32_S64x32_1_0_0_1_n_n.rhsIdx (ix2 y q) ((contrEquiv1 dot_S64x64_S64x32_S64x32_1_0_0_1_n_n 64 rfl rfl).symm k) = ix2 k q := funext fun ax => Fin.ext (by
    match ax with
    | ⟨0, _⟩ => exact (rhs_mlp1_0 _ _).trans hk
    | ⟨1, _⟩ => exact rhs_mlp1_1 _ _)
  rw [el, er]

theorem lhs_mlp2_0 (i : S64x16.Idx) (q : dot_S64x32_S32x16_S64x16_1_0_0_1_n_n.contr.Idx) :
    (dot_S64x32_S32x16_S64x16_1_0_0_1_n_n.lhsIdx i q 0).val = (i 0).val := by
  unfold DotDims.lhsIdx
  rw [dif_neg (show ¬(0 : Fin S64x32.rank) ∈ dot_S64x32_S32x16_S64x16_1_0_0_1_n_n.lhsBatch by decide), dif_pos (show (0 : Fin S64x32.rank) ∈ dot_S64x32_S32x16_S64x16_1_0_0_1_n_n.lhsNonContracting by decide)]
  rfl

theorem lhs_mlp2_1 (i : S64x16.Idx) (q : dot_S64x32_S32x16_S64x16_1_0_0_1_n_n.contr.Idx) :
    (dot_S64x32_S32x16_S64x16_1_0_0_1_n_n.lhsIdx i q 1).val = (q ⟨0, by decide⟩).val :=
  dot_S64x32_S32x16_S64x16_1_0_0_1_n_n.lhsIdx_val_of_single rfl i q

theorem rhs_mlp2_0 (i : S64x16.Idx) (q : dot_S64x32_S32x16_S64x16_1_0_0_1_n_n.contr.Idx) :
    (dot_S64x32_S32x16_S64x16_1_0_0_1_n_n.rhsIdx i q 0).val = (q ⟨0, by decide⟩).val :=
  dot_S64x32_S32x16_S64x16_1_0_0_1_n_n.rhsIdx_val_of_single rfl i q

theorem rhs_mlp2_1 (i : S64x16.Idx) (q : dot_S64x32_S32x16_S64x16_1_0_0_1_n_n.contr.Idx) :
    (dot_S64x32_S32x16_S64x16_1_0_0_1_n_n.rhsIdx i q 1).val = (i 1).val := by
  unfold DotDims.rhsIdx
  rw [dif_neg (show ¬(1 : Fin S32x16.rank) ∈ dot_S64x32_S32x16_S64x16_1_0_0_1_n_n.rhsBatch by decide), dif_pos (show (1 : Fin S32x16.rank) ∈ dot_S64x32_S32x16_S64x16_1_0_0_1_n_n.rhsNonContracting by decide)]
  rfl

theorem matmul_mlp2 (a : FVec Ideal S64x32 .bf16) (b : FVec Ideal S32x16 .bf16) (y : Fin 64) (q : Fin 16) :
    matmul dot_S64x32_S32x16_S64x16_1_0_0_1_n_n none a b (constant (F := Ideal) S64x16 .f32 0x00000000#32) (ix2 y q)
      = ∑ r : Fin 32, a (ix2 y r) * b (ix2 r q) := by
  simp only [matmul]
  rw [Ideal.matmul_constant_zero_apply, ← Equiv.sum_comp (contrEquiv1 dot_S64x32_S32x16_S64x16_1_0_0_1_n_n 32 rfl rfl).symm]
  refine Finset.sum_congr rfl fun k _ => ?_
  have hk := contrEquiv1_symm_val dot_S64x32_S32x16_S64x16_1_0_0_1_n_n 32 rfl rfl k
  have el : dot_S64x32_S32x16_S64x16_1_0_0_1_n_n.lhsIdx (ix2 y q) ((contrEquiv1 dot_S64x32_S32x16_S64x16_1_0_0_1_n_n 32 rfl rfl).symm k) = ix2 y k := funext fun ax => Fin.ext (by
    match ax with
    | ⟨0, _⟩ => exact lhs_mlp2_0 _ _
    | ⟨1, _⟩ => exact (lhs_mlp2_1 _ _).trans hk)
  have er : dot_S64x32_S32x16_S64x16_1_0_0_1_n_n.rhsIdx (ix2 y q) ((contrEquiv1 dot_S64x32_S32x16_S64x16_1_0_0_1_n_n 32 rfl rfl).symm k) = ix2 k q := funext fun ax => Fin.ext (by
    match ax with
    | ⟨0, _⟩ => exact (rhs_mlp2_0 _ _).trans hk
    | ⟨1, _⟩ => exact rhs_mlp2_1 _ _)
  rw [el, er]

theorem lhs_mlp3_0 (i : S64x10.Idx) (q : dot_S64x16_S16x10_S64x10_1_0_0_1_n_n.contr.Idx) :
    (dot_S64x16_S16x10_S64x10_1_0_0_1_n_n.lhsIdx i q 0).val = (i 0).val := by
  unfold DotDims.lhsIdx
  rw [dif_neg (show ¬(0 : Fin S64x16.rank) ∈ dot_S64x16_S16x10_S64x10_1_0_0_1_n_n.lhsBatch by decide), dif_pos (show (0 : Fin S64x16.rank) ∈ dot_S64x16_S16x10_S64x10_1_0_0_1_n_n.lhsNonContracting by decide)]
  rfl

theorem lhs_mlp3_1 (i : S64x10.Idx) (q : dot_S64x16_S16x10_S64x10_1_0_0_1_n_n.contr.Idx) :
    (dot_S64x16_S16x10_S64x10_1_0_0_1_n_n.lhsIdx i q 1).val = (q ⟨0, by decide⟩).val :=
  dot_S64x16_S16x10_S64x10_1_0_0_1_n_n.lhsIdx_val_of_single rfl i q

theorem rhs_mlp3_0 (i : S64x10.Idx) (q : dot_S64x16_S16x10_S64x10_1_0_0_1_n_n.contr.Idx) :
    (dot_S64x16_S16x10_S64x10_1_0_0_1_n_n.rhsIdx i q 0).val = (q ⟨0, by decide⟩).val :=
  dot_S64x16_S16x10_S64x10_1_0_0_1_n_n.rhsIdx_val_of_single rfl i q

theorem rhs_mlp3_1 (i : S64x10.Idx) (q : dot_S64x16_S16x10_S64x10_1_0_0_1_n_n.contr.Idx) :
    (dot_S64x16_S16x10_S64x10_1_0_0_1_n_n.rhsIdx i q 1).val = (i 1).val := by
  unfold DotDims.rhsIdx
  rw [dif_neg (show ¬(1 : Fin S16x10.rank) ∈ dot_S64x16_S16x10_S64x10_1_0_0_1_n_n.rhsBatch by decide), dif_pos (show (1 : Fin S16x10.rank) ∈ dot_S64x16_S16x10_S64x10_1_0_0_1_n_n.rhsNonContracting by decide)]
  rfl

theorem matmul_mlp3 (a : FVec Ideal S64x16 .bf16) (b : FVec Ideal S16x10 .bf16) (y : Fin 64) (q : Fin 10) :
    matmul dot_S64x16_S16x10_S64x10_1_0_0_1_n_n none a b (constant (F := Ideal) S64x10 .f32 0x00000000#32) (ix2 y q)
      = ∑ r : Fin 16, a (ix2 y r) * b (ix2 r q) := by
  simp only [matmul]
  rw [Ideal.matmul_constant_zero_apply, ← Equiv.sum_comp (contrEquiv1 dot_S64x16_S16x10_S64x10_1_0_0_1_n_n 16 rfl rfl).symm]
  refine Finset.sum_congr rfl fun k _ => ?_
  have hk := contrEquiv1_symm_val dot_S64x16_S16x10_S64x10_1_0_0_1_n_n 16 rfl rfl k
  have el : dot_S64x16_S16x10_S64x10_1_0_0_1_n_n.lhsIdx (ix2 y q) ((contrEquiv1 dot_S64x16_S16x10_S64x10_1_0_0_1_n_n 16 rfl rfl).symm k) = ix2 y k := funext fun ax => Fin.ext (by
    match ax with
    | ⟨0, _⟩ => exact lhs_mlp3_0 _ _
    | ⟨1, _⟩ => exact (lhs_mlp3_1 _ _).trans hk)
  have er : dot_S64x16_S16x10_S64x10_1_0_0_1_n_n.rhsIdx (ix2 y q) ((contrEquiv1 dot_S64x16_S16x10_S64x10_1_0_0_1_n_n 16 rfl rfl).symm k) = ix2 k q := funext fun ax => Fin.ext (by
    match ax with
    | ⟨0, _⟩ => exact (rhs_mlp3_0 _ _).trans hk
    | ⟨1, _⟩ => exact rhs_mlp3_1 _ _)
  rw [el, er]

theorem pay0 (x : Vec Ideal S5000x128 .f32) (w : Vec Ideal S128x64 .f32) (y : Fin 5000) (q : Fin 64) :
    k0_pay1 (F := Ideal) x w (ix2 y q) = ∑ r : Fin 128, x (ix2 y r) * w (ix2 r q) := by
  unfold k0_pay1
  exact matmul_lin128 (truncf .bf16 x bitsLt_bf16_f32) (truncf .bf16 w bitsLt_bf16_f32) y q

theorem pay2 (x : Vec Ideal S5000x64 .f32) (w : Vec Ideal S64x64 .f32) (y : Fin 5000) (q : Fin 64) :
    k2_pay1 (F := Ideal) x w (ix2 y q) = ∑ r : Fin 64, x (ix2 y r) * w (ix2 r q) := by
  unfold k2_pay1
  simp only [shapeCast_self]
  exact matmul_lin64 (truncf .bf16 x bitsLt_bf16_f32) (truncf .bf16 w bitsLt_bf16_f32) y q

theorem layer1_apply (x : FVec Ideal S64x64 .f32) (w : FVec Ideal S64x32 .f32) (b : FVec Ideal S1x32 .f32) (p : Fin 64) (r : Fin 32) :
    maximumf (addf (matmul dot_S64x64_S64x32_S64x32_1_0_0_1_n_n none (truncf .bf16 x bitsLt_bf16_f32) (truncf .bf16 w bitsLt_bf16_f32) (constant (F := Ideal) S64x32 .f32 0x00000000#32))
        (broadcastTo S64x32 b broadcasts_S1x32_S64x32)) (broadcast S64x32 (Scalar.ofBits (F := Ideal) .f32 0x00000000#32)) (ix2 p r)
      = Cert.Spec.hidden x w b (ix2 p r) := by
  rw [maximumf_apply, addf_apply, broadcast_apply, matmul_mlp1, broadcastTo_1b_ab_apply]
  rfl

theorem layer1_eq (x : FVec Ideal S64x64 .f32) (w : FVec Ideal S64x32 .f32) (b : FVec Ideal S1x32 .f32) :
    maximumf (addf (matmul dot_S64x64_S64x32_S64x32_1_0_0_1_n_n none (truncf .bf16 x bitsLt_bf16_f32) (truncf .bf16 w bitsLt_bf16_f32) (constant (F := Ideal) S64x32 .f32 0x00000000#32))
        (broadcastTo S64x32 b broadcasts_S1x32_S64x32)) (broadcast S64x32 (Scalar.ofBits (F := Ideal) .f32 0x00000000#32))
      = Cert.Spec.hidden x w b := by
  funext i
  obtain ⟨p, r, rfl⟩ : ∃ (p : Fin 64) (r : Fin 32), i = ix2 p r := ⟨i 0, i 1, eq_ix2 i⟩
  exact layer1_apply x w b p r

theorem layer2_apply (x : FVec Ideal S64x32 .f32) (w : FVec Ideal S32x16 .f32) (b : FVec Ideal S1x16 .f32) (p : Fin 64) (r : Fin 16) :
    maximumf (addf (matmul dot_S64x32_S32x16_S64x16_1_0_0_1_n_n none (truncf .bf16 x bitsLt_bf16_f32) (truncf .bf16 w bitsLt_bf16_f32) (constant (F := Ideal) S64x16 .f32 0x00000000#32))
        (broadcastTo S64x16 b broadcasts_S1x16_S64x16)) (broadcast S64x16 (Scalar.ofBits (F := Ideal) .f32 0x00000000#32)) (ix2 p r)
      = Cert.Spec.hidden x w b (ix2 p r) := by
  rw [maximumf_apply, addf_apply, broadcast_apply, matmul_mlp2, broadcastTo_1b_ab_apply]
  rfl

theorem layer2_eq (x : FVec Ideal S64x32 .f32) (w : FVec Ideal S32x16 .f32) (b : FVec Ideal S1x16 .f32) :
    maximumf (addf (matmul dot_S64x32_S32x16_S64x16_1_0_0_1_n_n none (truncf .bf16 x bitsLt_bf16_f32) (truncf .bf16 w bitsLt_bf16_f32) (constant (F := Ideal) S64x16 .f32 0x00000000#32))
        (broadcastTo S64x16 b broadcasts_S1x16_S64x16)) (broadcast S64x16 (Scalar.ofBits (F := Ideal) .f32 0x00000000#32))
      = Cert.Spec.hidden x w b := by
  funext i
  obtain ⟨p, r, rfl⟩ : ∃ (p : Fin 64) (r : Fin 16), i = ix2 p r := ⟨i 0, i 1, eq_ix2 i⟩
  exact layer2_apply x w b p r

theorem layer3_apply (x : FVec Ideal S64x16 .f32) (w : FVec Ideal S16x10 .f32) (b : FVec Ideal S1x10 .f32) (p : Fin 64) (q : Fin 10) :
    addf (matmul dot_S64x16_S16x10_S64x10_1_0_0_1_n_n none (truncf .bf16 x bitsLt_bf16_f32) (truncf .bf16 w bitsLt_bf16_f32) (constant (F := Ideal) S64x10 .f32 0x00000000#32))
        (broadcastTo S64x10 b broadcasts_S1x10_S64x10) (ix2 p q)
      = Cert.Spec.affine x w b p q := by
  rw [addf_apply, matmul_mlp3, broadcastTo_1b_ab_apply]
  rfl

theorem pay12 (x : Vec Ideal S64x64 .f32) (w1 : Vec Ideal S64x32 .f32) (b1 : Vec Ideal S1x32 .f32) (w2 : Vec Ideal S32x16 .f32) (b2 : Vec Ideal S1x16 .f32)
    (w3 : Vec Ideal S16x10 .f32) (b3 : Vec Ideal S1x10 .f32) (p : Fin 64) (q : Fin 10) :
    k12_pay1 (F := Ideal) x w1 b1 w2 b2 w3 b3 (ix2 p q) = Cert.Spec.mlp x w1 b1 w2 b2 w3 b3 p q := by
  unfold k12_pay1
  simp only [shapeCast_self]
  rw [layer1_eq, layer2_eq, layer3_apply]
  rfl

end Cert.KernelIdeal.Net

end
-- ==== Proof.KI.Val0.lean ====
import proofs.«420664_j68839735820523_2_alg».proof.Proof.KI.Reg0
import proofs.«420664_j68839735820523_2_alg».proof.Proof.KI.PayMat
import proofs.«420664_j68839735820523_2_alg».proof.Proof.Spec
import Idealize.ShloMosaic.Lib.Pipeline.Value
import Idealize.ShloMosaic.Lib.ValueIdx

noncomputable section

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

abbrev G0 (ax : S50000x128.Idx → EReal) (aw : S128x64.Idx → EReal) : S50000x64.Idx → EReal :=
  fun i => Cert.Spec.mm (a := 50000) (k := 128) (b := 64) ax aw (i 0) (i 1)

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem tile_entry0 (x : Vec Ideal S5000x128 .f32) (w : Vec Ideal S128x64 .f32)
    (ax : S50000x128.Idx → EReal) (aw : S128x64.Idx → EReal) (n : Nat)
    (hx : ∀ (y : Fin 5000) (r : Fin 128) (p : Fin 50000), p.val = n * 5000 + y.val → x (ix2 y r) = ax (ix2 p r))
    (hw : ∀ k, w k = aw k)
    (j : S5000x64.Idx) (i : S50000x64.Idx) (hr : (i 0).val = n * 5000 + (j 0).val) (hc : (i 1).val = (j 1).val) :
    k0_pay1 (F := Ideal) x w j = G0 ax aw i := by
  obtain ⟨y, q, rfl⟩ : ∃ (y : Fin 5000) (q : Fin 64), j = ix2 y q := ⟨j 0, j 1, eq_ix2 j⟩
  obtain ⟨p, q', rfl⟩ : ∃ (p : Fin 50000) (q' : Fin 64), i = ix2 p q' := ⟨i 0, i 1, eq_ix2 i⟩
  obtain rfl : q' = q := Fin.ext hc
  rw [pay0]
  show _ = ∑ r : Fin 128, ax (ix2 p r) * aw (ix2 r q')
  exact Finset.sum_congr rfl fun r _ => by rw [hx y r p hr, hw]

theorem flushed_eq0 (c : Dev nD) (t : Fin cfg0.N) :
    (dat0 (F := Ideal) V c).flushed 2 t = ((cfg0.win 2).blk t).view.read (Elt Ideal) (G0 (V c main_arg0) (V c main_arg3)) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x64) hz0]
  obtain ⟨hxr, hxc, hwr, hwc, hyr, hyc⟩ := idx_facts0 t
  funext j
  show k0_pay1 (F := Ideal) (iblk0 V c 0 t) (iblk0 V c 1 t) j = G0 (V c main_arg0) (V c main_arg3) (((cfg0.win 2).blk t).view.emb j)
  refine tile_entry0 (iblk0 V c 0 t) (iblk0 V c 1 t) (V c main_arg0) (V c main_arg3) t.val ?_ ?_ j (((cfg0.win 2).blk t).view.emb j) ?_ ?_
  ·
    intro y r p hp
    show V c main_arg0 (((cfg0.win 0).blk t).view.emb (ix2 y r)) = V c main_arg0 (ix2 p r)
    refine congrArg (V c main_arg0) (funext fun a => Fin.ext ?_)
    match a with
    | ⟨0, _⟩ => show win0_0.index t (0 : Fin 2) * 5000 + 1 * y.val = p.val; omega
    | ⟨1, _⟩ => show win0_0.index t (1 : Fin 2) * 128 + 1 * r.val = r.val; omega
  ·
    intro k
    show V c main_arg3 (((cfg0.win 1).blk t).view.emb k) = V c main_arg3 k
    refine congrArg (V c main_arg3) (funext fun a => Fin.ext ?_)
    match a with
    | ⟨0, _⟩ => show win0_1.index t (0 : Fin 2) * 128 + 1 * (k 0).val = (k 0).val; omega
    | ⟨1, _⟩ => show win0_1.index t (1 : Fin 2) * 64 + 1 * (k 1).val = (k 1).val; omega
  · show win0_2.index t (0 : Fin 2) * 5000 + 1 * (j 0).val = t.val * 5000 + (j 0).val; omega
  · show win0_2.index t (1 : Fin 2) * 64 + 1 * (j 1).val = (j 1).val; omega

theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v13).slice (win0_2.rect t)).set ↔ _
  rw [View.set_slice_whole, Rect.mem_set_unit]
  exact Iff.rfl

theorem covered0 (i : S50000x64.Idx) : ∃ t : Fin cfg0.N, (cfg0.win 2).flush t = true ∧ i ∈ ((cfg0.win 2).blk t).view.set := by
  have hir : (i 0).val < 50000 := (i 0).isLt
  have hic : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, hyr, hyc⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

theorem final0 (c : Dev nD) (p : Fin 50000) (q : Fin 64) :
    (dat0 (F := Ideal) V c).arrAt 2 cfg0.N (ix2 p q) = Cert.Spec.mm (V c main_arg0) (V c main_arg3) p q :=
  congrFun ((dat0 (F := Ideal) V c).arrAt_eq_of_cover 2 (G0 (V c main_arg0) (V c main_arg3)) (fun t _ => flushed_eq0 V c t) covered0) (ix2 p q)

end Cert.KernelIdeal.Net
-- ==== Proof.KI.PayElt.lean ====
import proofs.«420664_j68839735820523_2_alg».proof.Proof.Gen.KernelIdeal.Skeleton
import proofs.«420664_j68839735820523_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Net

open Cert.KernelIdeal Cert.KernelIdeal.Gen
open Idealize.ShloMosaic Idealize.ShloMosaic.ValueIdx

private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

private theorem rsqrt_apply {s : Shape} {φ : FTy} (a : FVec Ideal s φ) (i : s.Idx) : rsqrt a i = Ideal.rsqrt (a i) := rfl

theorem pay1 (agg hh : Vec Ideal S5000x64 .f32) (d2 : Vec Ideal S5000x1 .f32) (b2 : Vec Ideal S1x64 .f32)
    (y : Fin 5000) (q : Fin 64) :
    k1_pay1 (F := Ideal) agg hh d2 b2 (ix2 y q)
      = Cert.Spec.relu (agg (ix2 y q) + hh (ix2 y q) * d2 (ix2 y 0) + b2 (ix2 0 q)) := by
  unfold k1_pay1
  simp only [shapeCast_self]
  rw [maximumf_apply, broadcast_apply, addf_apply, addf_apply, mulf_apply, broadcastTo_a1_ab_apply, broadcastTo_1b_ab_apply]
  rfl

theorem pay3 (agg hh : Vec Ideal S5000x64 .f32) (d2 : Vec Ideal S5000x1 .f32) (b2 : Vec Ideal S1x64 .f32)
    (y : Fin 5000) (q : Fin 64) :
    k3_pay1 (F := Ideal) agg hh d2 b2 (ix2 y q)
      = agg (ix2 y q) + hh (ix2 y q) * d2 (ix2 y 0) + b2 (ix2 0 q) := by
  unfold k3_pay1
  simp only [shapeCast_self]
  rw [addf_apply, addf_apply, mulf_apply, broadcastTo_a1_ab_apply, broadcastTo_1b_ab_apply]

theorem pay4 (var : Vec Ideal S1x64 .f32) (pre : Vec Ideal S5000x64 .f32) (mu g b : Vec Ideal S1x64 .f32)
    (y : Fin 5000) (q : Fin 64) :
    k4_pay1 (F := Ideal) var pre mu g b (ix2 y q)
      = Cert.Spec.relu ((pre (ix2 y q) - mu (ix2 0 q)) * Ideal.rsqrt (var (ix2 0 q) + Cert.Spec.epsE) * g (ix2 0 q)
          + b (ix2 0 q)) := by
  unfold k4_pay1
  simp only [shapeCast_self]
  rw [maximumf_apply, broadcast_apply, addf_apply, mulf_apply, mulf_apply, subf_apply,
    broadcastTo_1b_ab_apply, broadcastTo_1b_ab_apply, broadcastTo_1b_ab_apply, broadcastTo_1b_ab_apply,
    rsqrt_apply, addf_apply, broadcast_apply]
  rfl

end Cert.KernelIdeal.Net

end
-- ==== Proof.KI.Val1.lean ====
import proofs.«420664_j68839735820523_2_alg».proof.Proof.KI.Reg1
import proofs.«420664_j68839735820523_2_alg».proof.Proof.KI.PayElt
import proofs.«420664_j68839735820523_2_alg».proof.Proof.Spec
import Idealize.ShloMosaic.Lib.Pipeline.Value
import Idealize.ShloMosaic.Lib.ValueIdx

noncomputable section

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

abbrev G1 (a0 a1 : S50000x64.Idx → EReal) (a2 : S50000x1.Idx → EReal) (a3 : S1x64.Idx → EReal) : S50000x64.Idx → EReal :=
  fun i => Cert.Spec.combRelu (n := 50000) (h := 64) a0 a1 a2 a3 (i 0) (i 1)

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem tile_entry1 (x0 x1 : Vec Ideal S5000x64 .f32) (x2 : Vec Ideal S5000x1 .f32) (x3 : Vec Ideal S1x64 .f32)
    (a0 a1 : S50000x64.Idx → EReal) (a2 : S50000x1.Idx → EReal) (a3 : S1x64.Idx → EReal) (n : Nat)
    (h0 : ∀ (y : Fin 5000) (q : Fin 64) (p : Fin 50000), p.val = n * 5000 + y.val → x0 (ix2 y q) = a0 (ix2 p q))
    (h1 : ∀ (y : Fin 5000) (q : Fin 64) (p : Fin 50000), p.val = n * 5000 + y.val → x1 (ix2 y q) = a1 (ix2 p q))
    (h2 : ∀ (y : Fin 5000) (p : Fin 50000), p.val = n * 5000 + y.val → x2 (ix2 y 0) = a2 (ix2 p 0))
    (h3 : ∀ k, x3 k = a3 k)
    (j : S5000x64.Idx) (i : S50000x64.Idx) (e0 : (i 0).val = n * 5000 + (j 0).val) (e1 : (i 1).val = (j 1).val) :
    k1_pay1 (F := Ideal) x0 x1 x2 x3 j = G1 a0 a1 a2 a3 i := by
  obtain ⟨y, q, rfl⟩ : ∃ (y : Fin 5000) (q : Fin 64), j = ix2 y q := ⟨j 0, j 1, eq_ix2 j⟩
  obtain ⟨p, q', rfl⟩ : ∃ (p : Fin 50000) (q' : Fin 64), i = ix2 p q' := ⟨i 0, i 1, eq_ix2 i⟩
  obtain rfl : q' = q := Fin.ext e1
  rw [pay1]
  show _ = Cert.Spec.relu (a0 (ix2 p q') + a1 (ix2 p q') * a2 (ix2 p 0) + a3 (ix2 0 q'))
  rw [h0 y q' p e0, h1 y q' p e0, h2 y p e0, h3]

theorem flushed_eq1 (c : Dev nD) (t : Fin cfg1.N) :
    (dat1 (F := Ideal) V c).flushed 4 t
      = ((cfg1.win 4).blk t).view.read (Elt Ideal) (G1 (V c main_v41) (V c main_v13) (V c main_v12) (V c main_v42)) := by
  show (cfg1.win 4).cut (grid1.coords t) ((dat1 V c).after 4 t) = _
  rw [after1_4]
  unfold out1_4
  rw [View.canon_unit_zero hz1]
  simp only [View.ld_unit_zero (S := S5000x64) hz1, View.ld_unit_zero (S := S5000x1) hz1, View.ld_unit_zero (S := S1x64) hz1]
  obtain ⟨e00, e01, e10, e11, e20, e21, e30, e31, e40, e41⟩ := idx_facts1 t
  funext j
  show k1_pay1 (F := Ideal) (iblk1 V c 0 t) (iblk1 V c 1 t) (iblk1 V c 2 t) (iblk1 V c 3 t) j
    = G1 (V c main_v41) (V c main_v13) (V c main_v12) (V c main_v42) (((cfg1.win 4).blk t).view.emb j)
  refine tile_entry1 (iblk1 V c 0 t) (iblk1 V c 1 t) (iblk1 V c 2 t) (iblk1 V c 3 t)
    (V c main_v41) (V c main_v13) (V c main_v12) (V c main_v42) t.val ?_ ?_ ?_ ?_ j (((cfg1.win 4).blk t).view.emb j) ?_ ?_
  ·
    intro y q p hp
    show V c main_v41 (((cfg1.win 0).blk t).view.emb (ix2 y q)) = V c main_v41 (ix2 p q)
    refine congrArg (V c main_v41) (funext fun a => Fin.ext ?_)
    match a with
    | ⟨0, _⟩ => show win1_0.index t (0 : Fin 2) * 5000 + 1 * y.val = p.val; omega
    | ⟨1, _⟩ => show win1_0.index t (1 : Fin 2) * 64 + 1 * q.val = q.val; omega
  ·
    intro y q p hp
    show V c main_v13 (((cfg1.win 1).blk t).view.emb (ix2 y q)) = V c main_v13 (ix2 p q)
    refine congrArg (V c main_v13) (funext fun a => Fin.ext ?_)
    match a with
    | ⟨0, _⟩ => show win1_1.index t (0 : Fin 2) * 5000 + 1 * y.val = p.val; omega
    | ⟨1, _⟩ => show win1_1.index t (1 : Fin 2) * 64 + 1 * q.val = q.val; omega
  ·
    intro y p hp
    show V c main_v12 (((cfg1.win 2).blk t).view.emb (ix2 y 0)) = V c main_v12 (ix2 p 0)
    refine congrArg (V c main_v12) (funext fun a => Fin.ext ?_)
    match a with
    | ⟨0, _⟩ => show win1_2.index t (0 : Fin 2) * 5000 + 1 * y.val = p.val; omega
    | ⟨1, _⟩ => show win1_2.index t (1 : Fin 2) * 1 + 1 * 0 = 0; omega
  ·
    intro k
    show V c main_v42 (((cfg1.win 3).blk t).view.emb k) = V c main_v42 k
    refine congrArg (V c main_v42) (funext fun a => Fin.ext ?_)
    match a with
    | ⟨0, _⟩ => show win1_3.index t (0 : Fin 2) * 1 + 1 * (k 0).val = (k 0).val; omega
    | ⟨1, _⟩ => show win1_3.index t (1 : Fin 2) * 64 + 1 * (k 1).val = (k 1).val; omega
  · show win1_4.index t (0 : Fin 2) * 5000 + 1 * (j 0).val = t.val * 5000 + (j 0).val; omega
  · show win1_4.index t (1 : Fin 2) * 64 + 1 * (j 1).val = (j 1).val; omega

theorem mem_blk1 (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v43).slice (win1_4.rect t)).set ↔ _
  rw [View.set_slice_whole, Rect.mem_set_unit]
  exact Iff.rfl

theorem covered1 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, e40, e41⟩ := idx_facts1 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

theorem final1 (c : Dev nD) (p : Fin 50000) (q : Fin 64) :
    (dat1 (F := Ideal) V c).arrAt 4 cfg1.N (ix2 p q)
      = Cert.Spec.combRelu (V c main_v41) (V c main_v13) (V c main_v12) (V c main_v42) p q :=
  congrFun ((dat1 (F := Ideal) V c).arrAt_eq_of_cover 4 (G1 (V c main_v41) (V c main_v13) (V c main_v12) (V c main_v42))
    (fun t _ => flushed_eq1 V c t) (covered1)) (ix2 p q)
-- ==== Proof.KI.Val2.lean ====
import proofs.«420664_j68839735820523_2_alg».proof.Proof.KI.Reg2
import proofs.«420664_j68839735820523_2_alg».proof.Proof.KI.PayMat
import proofs.«420664_j68839735820523_2_alg».proof.Proof.Spec
import Idealize.ShloMosaic.Lib.Pipeline.Value
import Idealize.ShloMosaic.Lib.ValueIdx

noncomputable section

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

abbrev G2 (ax : S50000x64.Idx → EReal) (aw : S64x64.Idx → EReal) : S50000x64.Idx → EReal :=
  fun i => Cert.Spec.mm (a := 50000) (k := 64) (b := 64) ax aw (i 0) (i 1)

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem tile_entry2 (x : Vec Ideal S5000x64 .f32) (w : Vec Ideal S64x64 .f32)
    (ax : S50000x64.Idx → EReal) (aw : S64x64.Idx → EReal) (n : Nat)
    (hx : ∀ (y : Fin 5000) (r : Fin 64) (p : Fin 50000), p.val = n * 5000 + y.val → x (ix2 y r) = ax (ix2 p r))
    (hw : ∀ k, w k = aw k)
    (j : S5000x64.Idx) (i : S50000x64.Idx) (hr : (i 0).val = n * 5000 + (j 0).val) (hc : (i 1).val = (j 1).val) :
    k2_pay1 (F := Ideal) x w j = G2 ax aw i := by
  obtain ⟨y, q, rfl⟩ : ∃ (y : Fin 5000) (q : Fin 64), j = ix2 y q := ⟨j 0, j 1, eq_ix2 j⟩
  obtain ⟨p, q', rfl⟩ : ∃ (p : Fin 50000) (q' : Fin 64), i = ix2 p q' := ⟨i 0, i 1, eq_ix2 i⟩
  obtain rfl : q' = q := Fin.ext hc
  rw [pay2]
  show _ = ∑ r : Fin 64, ax (ix2 p r) * aw (ix2 r q')
  exact Finset.sum_congr rfl fun r _ => by rw [hx y r p hr, hw]

theorem flushed_eq2 (c : Dev nD) (t : Fin cfg2.N) :
    (dat2 (F := Ideal) V c).flushed 2 t = ((cfg2.win 2).blk t).view.read (Elt Ideal) (G2 (V c main_v43) (V c main_v45)) := by
  show (cfg2.win 2).cut (grid2.coords t) ((dat2 V c).after 2 t) = _
  rw [after2_2]
  unfold out2_2
  rw [View.canon_unit_zero hz2]
  simp only [View.ld_unit_zero (S := S5000x64) hz2, View.ld_unit_zero (S := S64x64) hz2]
  obtain ⟨hxr, hxc, hwr, hwc, hyr, hyc⟩ := idx_facts2 t
  funext j
  show k2_pay1 (F := Ideal) (iblk2 V c 0 t) (iblk2 V c 1 t) j = G2 (V c main_v43) (V c main_v45) (((cfg2.win 2).blk t).view.emb j)
  refine tile_entry2 (iblk2 V c 0 t) (iblk2 V c 1 t) (V c main_v43) (V c main_v45) t.val ?_ ?_ j (((cfg2.win 2).blk t).view.emb j) ?_ ?_
  ·
    intro y r p hp
    show V c main_v43 (((cfg2.win 0).blk t).view.emb (ix2 y r)) = V c main_v43 (ix2 p r)
    refine congrArg (V c main_v43) (funext fun a => Fin.ext ?_)
    match a with
    | ⟨0, _⟩ => show win2_0.index t (0 : Fin 2) * 5000 + 1 * y.val = p.val; omega
    | ⟨1, _⟩ => show win2_0.index t (1 : Fin 2) * 64 + 1 * r.val = r.val; omega
  ·
    intro k
    show V c main_v45 (((cfg2.win 1).blk t).view.emb k) = V c main_v45 k
    refine congrArg (V c main_v45) (funext fun a => Fin.ext ?_)
    match a with
    | ⟨0, _⟩ => show win2_1.index t (0 : Fin 2) * 64 + 1 * (k 0).val = (k 0).val; omega
    | ⟨1, _⟩ => show win2_1.index t (1 : Fin 2) * 64 + 1 * (k 1).val = (k 1).val; omega
  · show win2_2.index t (0 : Fin 2) * 5000 + 1 * (j 0).val = t.val * 5000 + (j 0).val; omega
  · show win2_2.index t (1 : Fin 2) * 64 + 1 * (j 1).val = (j 1).val; omega

theorem mem_blk2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v48).slice (win2_2.rect t)).set ↔ _
  rw [View.set_slice_whole, Rect.mem_set_unit]
  exact Iff.rfl

theorem covered2 (i : S50000x64.Idx) : ∃ t : Fin cfg2.N, (cfg2.win 2).flush t = true ∧ i ∈ ((cfg2.win 2).blk t).view.set := by
  have hir : (i 0).val < 50000 := (i 0).isLt
  have hic : (i 1).val < 64 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, hyr, hyc⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

theorem final2 (c : Dev nD) (p : Fin 50000) (q : Fin 64) :
    (dat2 (F := Ideal) V c).arrAt 2 cfg2.N (ix2 p q) = Cert.Spec.mm (V c main_v43) (V c main_v45) p q :=
  congrFun ((dat2 (F := Ideal) V c).arrAt_eq_of_cover 2 (G2 (V c main_v43) (V c main_v45)) (fun t _ => flushed_eq2 V c t) covered2) (ix2 p q)

end Cert.KernelIdeal.Net
-- ==== Proof.KI.Val3.lean ====
import proofs.«420664_j68839735820523_2_alg».proof.Proof.KI.Reg3
import proofs.«420664_j68839735820523_2_alg».proof.Proof.KI.PayElt
import proofs.«420664_j68839735820523_2_alg».proof.Proof.Spec
import Idealize.ShloMosaic.Lib.Pipeline.Value
import Idealize.ShloMosaic.Lib.ValueIdx

noncomputable section

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

abbrev G3 (a0 a1 : S50000x64.Idx → EReal) (a2 : S50000x1.Idx → EReal) (a3 : S1x64.Idx → EReal) : S50000x64.Idx → EReal :=
  fun i => Cert.Spec.comb (n := 50000) (h := 64) a0 a1 a2 a3 (i 0) (i 1)

theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem tile_entry3 (agg hh : Vec Ideal S5000x64 .f32) (d2 : Vec Ideal S5000x1 .f32) (b2 : Vec Ideal S1x64 .f32)
    (a0 a1 : S50000x64.Idx → EReal) (a2 : S50000x1.Idx → EReal) (a3 : S1x64.Idx → EReal) (n : Nat)
    (h0 : ∀ (y : Fin 5000) (q : Fin 64) (p : Fin 50000), p.val = n * 5000 + y.val → agg (ix2 y q) = a0 (ix2 p q))
    (h1 : ∀ (y : Fin 5000) (q : Fin 64) (p : Fin 50000), p.val = n * 5000 + y.val → hh (ix2 y q) = a1 (ix2 p q))
    (h2 : ∀ (y : Fin 5000) (p : Fin 50000), p.val = n * 5000 + y.val → d2 (ix2 y 0) = a2 (ix2 p 0))
    (h3 : ∀ k, b2 k = a3 k)
    (j : S5000x64.Idx) (i : S50000x64.Idx) (e0 : (i 0).val = n * 5000 + (j 0).val) (e1 : (i 1).val = (j 1).val) :
    k3_pay1 (F := Ideal) agg hh d2 b2 j = G3 a0 a1 a2 a3 i := by
  obtain ⟨y, q, rfl⟩ : ∃ (y : Fin 5000) (q : Fin 64), j = ix2 y q := ⟨j 0, j 1, eq_ix2 j⟩
  obtain ⟨p, q', rfl⟩ : ∃ (p : Fin 50000) (q' : Fin 64), i = ix2 p q' := ⟨i 0, i 1, eq_ix2 i⟩
  obtain rfl : q' = q := Fin.ext e1
  rw [pay3]
  show _ = a0 (ix2 p q') + a1 (ix2 p q') * a2 (ix2 p 0) + a3 (ix2 0 q')
  rw [h0 y q' p e0, h1 y q' p e0, h2 y p e0, h3]

theorem flushed_eq3 (c : Dev nD) (t : Fin cfg3.N) :
    (dat3 (F := Ideal) V c).flushed 4 t
      = ((cfg3.win 4).blk t).view.read (Elt Ideal) (G3 (V c main_v76) (V c main_v48) (V c main_v12) (V c main_v77)) := by
  show (cfg3.win 4).cut (grid3.coords t) ((dat3 V c).after 4 t) = _
  rw [after3_4]
  unfold out3_4
  rw [View.canon_unit_zero hz3]
  simp only [View.ld_unit_zero (S := S5000x64) hz3, View.ld_unit_zero (S := S5000x1) hz3, View.ld_unit_zero (S := S1x64) hz3]
  obtain ⟨e0, e1, e2, e3, e4, e5, e6, e7, e8, e9⟩ := idx_facts3 t
  funext j
  show k3_pay1 (F := Ideal) (iblk3 V c 0 t) (iblk3 V c 1 t) (iblk3 V c 2 t) (iblk3 V c 3 t) j
    = G3 (V c main_v76) (V c main_v48) (V c main_v12) (V c main_v77) (((cfg3.win 4).blk t).view.emb j)
  refine tile_entry3 (iblk3 V c 0 t) (iblk3 V c 1 t) (iblk3 V c 2 t) (iblk3 V c 3 t)
    (V c main_v76) (V c main_v48) (V c main_v12) (V c main_v77) t.val ?_ ?_ ?_ ?_ j (((cfg3.win 4).blk t).view.emb j) ?_ ?_
  ·
    intro y q p hp
    show V c main_v76 (((cfg3.win 0).blk t).view.emb (ix2 y q)) = V c main_v76 (ix2 p q)
    refine congrArg (V c main_v76) (funext fun a => Fin.ext ?_)
    match a with
    | ⟨0, _⟩ => show win3_0.index t (0 : Fin 2) * 5000 + 1 * y.val = p.val; omega
    | ⟨1, _⟩ => show win3_0.index t (1 : Fin 2) * 64 + 1 * q.val = q.val; omega
  ·
    intro y q p hp
    show V c main_v48 (((cfg3.win 1).blk t).view.emb (ix2 y q)) = V c main_v48 (ix2 p q)
    refine congrArg (V c main_v48) (funext fun a => Fin.ext ?_)
    match a with
    | ⟨0, _⟩ => show win3_1.index t (0 : Fin 2) * 5000 + 1 * y.val = p.val; omega
    | ⟨1, _⟩ => show win3_1.index t (1 : Fin 2) * 64 + 1 * q.val = q.val; omega
  ·
    intro y p hp
    show V c main_v12 (((cfg3.win 2).blk t).view.emb (ix2 y 0)) = V c main_v12 (ix2 p 0)
    refine congrArg (V c main_v12) (funext fun a => Fin.ext ?_)
    match a with
    | ⟨0, _⟩ => show win3_2.index t (0 : Fin 2) * 5000 + 1 * y.val = p.val; omega
    | ⟨1, _⟩ => show win3_2.index t (1 : Fin 2) * 1 + 1 * 0 = 0; omega
  ·
    intro k
    show V c main_v77 (((cfg3.win 3).blk t).view.emb k) = V c main_v77 k
    refine congrArg (V c main_v77) (funext fun a => Fin.ext ?_)
    match a with
    | ⟨0, _⟩ => show win3_3.index t (0 : Fin 2) * 1 + 1 * (k 0).val = (k 0).val; omega
    | ⟨1, _⟩ => show win3_3.index t (1 : Fin 2) * 64 + 1 * (k 1).val = (k 1).val; omega
  · show win3_4.index t (0 : Fin 2) * 5000 + 1 * (j 0).val = t.val * 5000 + (j 0).val; omega
  · show win3_4.index t (1 : Fin 2) * 64 + 1 * (j 1).val = (j 1).val; omega

theorem mem_blk3 (t : Fin cfg3.N) (i : S50000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v78).slice (win3_4.rect t)).set ↔ _
  rw [View.set_slice_whole, Rect.mem_set_unit]
  exact Iff.rfl

theorem covered3 (i : S50000x64.Idx) : ∃ t : Fin cfg3.N, (cfg3.win 4).flush t = true ∧ i ∈ ((cfg3.win 4).blk t).view.set := by
  have hi0 : (i 0).val < 50000 := (i 0).isLt
  have hi1 : (i 1).val < 64 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, -, -, e8, e9⟩ := idx_facts3 t
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

theorem final3 (c : Dev nD) (p : Fin 50000) (q : Fin 64) :
    (dat3 (F := Ideal) V c).arrAt 4 cfg3.N (ix2 p q)
      = Cert.Spec.comb (V c main_v76) (V c main_v48) (V c main_v12) (V c main_v77) p q :=
  congrFun ((dat3 (F := Ideal) V c).arrAt_eq_of_cover 4 (G3 (V c main_v76) (V c main_v48) (V c main_v12) (V c main_v77))
    (fun t _ => flushed_eq3 V c t) covered3) (ix2 p q)

end Cert.KernelIdeal.Net
-- ==== Proof.KI.Val4.lean ====
import proofs.«420664_j68839735820523_2_alg».proof.Proof.KI.Reg4
import proofs.«420664_j68839735820523_2_alg».proof.Proof.KI.PayElt
import proofs.«420664_j68839735820523_2_alg».proof.Proof.Spec
import Idealize.ShloMosaic.Lib.Pipeline.Value
import Idealize.ShloMosaic.Lib.ValueIdx

noncomputable section

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

abbrev pre4 (c : Dev nD) : Cert.Spec.Mat 50000 64 := V c main_v78

abbrev gam4 (c : Dev nD) : Cert.Spec.Mat 1 64 := V c main_v90

abbrev bet4 (c : Dev nD) : Cert.Spec.Mat 1 64 := V c main_v91

abbrev mu4 (c : Dev nD) : Cert.Spec.Mat 1 64 := V c main_v82

abbrev var4 (c : Dev nD) : Cert.Spec.Mat 1 64 := V c main_v89

theorem hz4 : (![0, 0] : Fin 2 → Nat) = fun _ => 0 := funext fun a => by fin_cases a <;> rfl

abbrev G4 (c : Dev nD) : S50000x64.Idx → Elt Ideal .f32 := fun j =>
  Cert.Spec.bnRelu (pre4 V c) (gam4 V c) (bet4 V c) (mu4 V c) (var4 V c) (j 0) (j 1)

theorem idx_facts4 : ∀ t : Fin cfg4.N,
      win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

theorem flushedEq4 (c : Dev nD) (t : Fin cfg4.N) :
    (dat4 (F := Ideal) V c).flushed 5 t = ((cfg4.win 5).blk t).view.read (Elt Ideal) (G4 V c) := by
  show (cfg4.win 5).cut (grid4.coords t) ((dat4 V c).after 5 t) = _
  rw [after4_5]
  unfold out4_5
  rw [View.canon_unit_zero hz4]
  simp only [View.ld_unit_zero (S := S5000x64) hz4, View.ld_unit_zero (S := S1x64) hz4]
  obtain ⟨e00, e01, e10, e11, e20, e21, e30, e31, e40, e41, e50, e51⟩ := idx_facts4 t
  have htN : t.val < 10 := Nat.lt_of_lt_of_eq t.isLt (N_4 : cfg4.N = 10)
  funext j
  obtain ⟨y, q, rfl⟩ : ∃ (y : Fin 5000) (q : Fin 64), j = ix2 y q := ⟨j 0, j 1, eq_ix2 j⟩
  have hP : t.val * 5000 + y.val < 50000 := by have := y.isLt; omega
  show k4_pay1 (F := Ideal) (iblk4 V c 4 t) (iblk4 V c 0 t) (iblk4 V c 3 t) (iblk4 V c 1 t) (iblk4 V c 2 t) (ix2 y q)
    = G4 V c (((cfg4.win 5).blk t).view.emb (ix2 y q))
  refine (pay4 (iblk4 V c 4 t) (iblk4 V c 0 t) (iblk4 V c 3 t) (iblk4 V c 1 t) (iblk4 V c 2 t) y q).trans ?_
  have hE : ((cfg4.win 5).blk t).view.emb (ix2 y q) = ix2 (⟨t.val * 5000 + y.val, hP⟩ : Fin 50000) q := by
    funext a; apply Fin.ext
    match a with
    | ⟨0, _⟩ => show win4_5.index t (0 : Fin 2) * 5000 + 1 * y.val = t.val * 5000 + y.val; omega
    | ⟨1, _⟩ => show win4_5.index t (1 : Fin 2) * 64 + 1 * q.val = q.val; omega
  have h0 : ((cfg4.win 0).blk t).view.emb (ix2 y q) = ix2 (⟨t.val * 5000 + y.val, hP⟩ : Fin 50000) q := by
    funext a; apply Fin.ext
    match a with
    | ⟨0, _⟩ => show win4_0.index t (0 : Fin 2) * 5000 + 1 * y.val = t.val * 5000 + y.val; omega
    | ⟨1, _⟩ => show win4_0.index t (1 : Fin 2) * 64 + 1 * q.val = q.val; omega
  have h1 : ((cfg4.win 1).blk t).view.emb (ix2 (0 : Fin 1) q) = ix2 (0 : Fin 1) q := by
    funext a; apply Fin.ext
    match a with
    | ⟨0, _⟩ => show win4_1.index t (0 : Fin 2) * 1 + 1 * 0 = 0; omega
    | ⟨1, _⟩ => show win4_1.index t (1 : Fin 2) * 64 + 1 * q.val = q.val; omega
  have h2 : ((cfg4.win 2).blk t).view.emb (ix2 (0 : Fin 1) q) = ix2 (0 : Fin 1) q := by
    funext a; apply Fin.ext
    match a with
    | ⟨0, _⟩ => show win4_2.index t (0 : Fin 2) * 1 + 1 * 0 = 0; omega
    | ⟨1, _⟩ => show win4_2.index t (1 : Fin 2) * 64 + 1 * q.val = q.val; omega
  have h3 : ((cfg4.win 3).blk t).view.emb (ix2 (0 : Fin 1) q) = ix2 (0 : Fin 1) q := by
    funext a; apply Fin.ext
    match a with
    | ⟨0, _⟩ => show win4_3.index t (0 : Fin 2) * 1 + 1 * 0 = 0; omega
    | ⟨1, _⟩ => show win4_3.index t (1 : Fin 2) * 64 + 1 * q.val = q.val; omega
  have h4 : ((cfg4.win 4).blk t).view.emb (ix2 (0 : Fin 1) q) = ix2 (0 : Fin 1) q := by
    funext a; apply Fin.ext
    match a with
    | ⟨0, _⟩ => show win4_4.index t (0 : Fin 2) * 1 + 1 * 0 = 0; omega
    | ⟨1, _⟩ => show win4_4.index t (1 : Fin 2) * 64 + 1 * q.val = q.val; omega
  rw [hE]
  show Cert.Spec.relu ((pre4 V c (((cfg4.win 0).blk t).view.emb (ix2 y q)) - mu4 V c (((cfg4.win 3).blk t).view.emb (ix2 (0 : Fin 1) q)))
        * Ideal.rsqrt (var4 V c (((cfg4.win 4).blk t).view.emb (ix2 (0 : Fin 1) q)) + Cert.Spec.epsE)
        * gam4 V c (((cfg4.win 1).blk t).view.emb (ix2 (0 : Fin 1) q))
        + bet4 V c (((cfg4.win 2).blk t).view.emb (ix2 (0 : Fin 1) q)))
      = Cert.Spec.relu ((pre4 V c (ix2 (⟨t.val * 5000 + y.val, hP⟩ : Fin 50000) q) - mu4 V c (ix2 (0 : Fin 1) q))
        * Ideal.rsqrt (var4 V c (ix2 (0 : Fin 1) q) + Cert.Spec.epsE)
        * gam4 V c (ix2 (0 : Fin 1) q)
        + bet4 V c (ix2 (0 : Fin 1) q))
  rw [h0, h1, h2, h3, h4]

theorem mem_blk4 (t : Fin cfg4.N) (i : S50000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v92).slice (win4_5.rect t)).set ↔ _
  rw [View.set_slice_whole, Rect.mem_set_unit]
  exact Iff.rfl

theorem cover4 (i : S50000x64.Idx) :
    ∃ t : Fin cfg4.N, (cfg4.win 5).flush t = true ∧ i ∈ ((cfg4.win 5).blk t).view.set := by
  have hi0 : (i 0).val < 50000 := (i 0).isLt
  have hi1 : (i 1).val < 64 := (i 1).isLt
  obtain ⟨t, ht⟩ : ∃ t : Fin cfg4.N, t.val = (i 0).val / 5000 :=
    ⟨⟨(i 0).val / 5000, by rw [show cfg4.N = 10 from N_4]; omega⟩, rfl⟩
  obtain ⟨e00, e01, e10, e11, e20, e21, e30, e31, e40, e41, e50, e51⟩ := idx_facts4 t
  refine ⟨t, flush4_5 t, ?_⟩
  rw [mem_blk4]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 64 ≤ (i 1).val ∧ (i 1).val < win4_5.index t (1 : Fin 2) * 64 + 64; omega

theorem final4 (c : Dev nD) (p : Fin 50000) (q : Fin 64) :
    (dat4 (F := Ideal) V c).arrAt 5 cfg4.N (ix2 p q)
      = Cert.Spec.bnRelu (V c main_v78) (V c main_v90) (V c main_v91) (V c main_v82) (V c main_v89) p q :=
  congrFun ((dat4 (F := Ideal) V c).arrAt_eq_of_cover 5 (G4 V c) (fun t _ => flushedEq4 V c t) cover4) (ix2 p q)

end Cert.KernelIdeal.Net
-- ==== Proof.KI.Val5.lean ====
import proofs.«420664_j68839735820523_2_alg».proof.Proof.KI.Reg5
import proofs.«420664_j68839735820523_2_alg».proof.Proof.KI.Val2
import proofs.«420664_j68839735820523_2_alg».proof.Proof.KI.PayMat
import proofs.«420664_j68839735820523_2_alg».proof.Proof.Spec
import Idealize.ShloMosaic.Lib.Pipeline.Value
import Idealize.ShloMosaic.Lib.ValueIdx

noncomputable section

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem flushed_eq5 (c : Dev nD) (t : Fin cfg5.N) :
    (dat5 (F := Ideal) V c).flushed 2 t = ((cfg5.win 2).blk t).view.read (Elt Ideal) (G2 (V c main_v92) (V c main_v94)) := by
  show (cfg5.win 2).cut (grid5.coords t) ((dat5 V c).after 2 t) = _
  rw [after5_2]
  unfold out2_2
  rw [View.canon_unit_zero hz2]
  simp only [View.ld_unit_zero (S := S5000x64) hz2, View.ld_unit_zero (S := S64x64) hz2]
  obtain ⟨hxr, hxc, hwr, hwc, hyr, hyc⟩ := idx_facts5 t
  funext j
  show k2_pay1 (F := Ideal) (iblk5 V c 0 t) (iblk5 V c 1 t) j = G2 (V c main_v92) (V c main_v94) (((cfg5.win 2).blk t).view.emb j)
  refine tile_entry2 (iblk5 V c 0 t) (iblk5 V c 1 t) (V c main_v92) (V c main_v94) t.val ?_ ?_ j (((cfg5.win 2).blk t).view.emb j) ?_ ?_
  ·
    intro y r p hp
    show V c main_v92 (((cfg5.win 0).blk t).view.emb (ix2 y r)) = V c main_v92 (ix2 p r)
    refine congrArg (V c main_v92) (funext fun a => Fin.ext ?_)
    match a with
    | ⟨0, _⟩ => show win5_0.index t (0 : Fin 2) * 5000 + 1 * y.val = p.val; omega
    | ⟨1, _⟩ => show win5_0.index t (1 : Fin 2) * 64 + 1 * r.val = r.val; omega
  ·
    intro k
    show V c main_v94 (((cfg5.win 1).blk t).view.emb k) = V c main_v94 k
    refine congrArg (V c main_v94) (funext fun a => Fin.ext ?_)
    match a with
    | ⟨0, _⟩ => show win5_1.index t (0 : Fin 2) * 64 + 1 * (k 0).val = (k 0).val; omega
    | ⟨1, _⟩ => show win5_1.index t (1 : Fin 2) * 64 + 1 * (k 1).val = (k 1).val; omega
  · show win5_2.index t (0 : Fin 2) * 5000 + 1 * (j 0).val = t.val * 5000 + (j 0).val; omega
  · show win5_2.index t (1 : Fin 2) * 64 + 1 * (j 1).val = (j 1).val; omega

theorem mem_blk5 (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v97).slice (win5_2.rect t)).set ↔ _
  rw [View.set_slice_whole, Rect.mem_set_unit]
  exact Iff.rfl

theorem covered5 (i : S50000x64.Idx) : ∃ t : Fin cfg5.N, (cfg5.win 2).flush t = true ∧ i ∈ ((cfg5.win 2).blk t).view.set := by
  have hir : (i 0).val < 50000 := (i 0).isLt
  have hic : (i 1).val < 64 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨-, -, -, -, hyr, hyc⟩ := idx_facts5 t
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

theorem final5 (c : Dev nD) (p : Fin 50000) (q : Fin 64) :
    (dat5 (F := Ideal) V c).arrAt 2 cfg5.N (ix2 p q) = Cert.Spec.mm (V c main_v92) (V c main_v94) p q :=
  congrFun ((dat5 (F := Ideal) V c).arrAt_eq_of_cover 2 (G2 (V c main_v92) (V c main_v94)) (fun t _ => flushed_eq5 V c t) covered5) (ix2 p q)

end Cert.KernelIdeal.Net
-- ==== Proof.KI.Val6.lean ====
import proofs.«420664_j68839735820523_2_alg».proof.Proof.KI.Reg6
import proofs.«420664_j68839735820523_2_alg».proof.Proof.KI.Val3
import proofs.«420664_j68839735820523_2_alg».proof.Proof.KI.PayElt
import proofs.«420664_j68839735820523_2_alg».proof.Proof.Spec
import Idealize.ShloMosaic.Lib.Pipeline.Value
import Idealize.ShloMosaic.Lib.ValueIdx

noncomputable section

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

theorem flushed_eq6 (c : Dev nD) (t : Fin cfg6.N) :
    (dat6 (F := Ideal) V c).flushed 4 t
      = ((cfg6.win 4).blk t).view.read (Elt Ideal) (G3 (V c main_v125) (V c main_v97) (V c main_v12) (V c main_v126)) := by
  show (cfg6.win 4).cut (grid6.coords t) ((dat6 V c).after 4 t) = _
  rw [after6_4]
  unfold out3_4
  rw [View.canon_unit_zero hz3]
  simp only [View.ld_unit_zero (S := S5000x64) hz3, View.ld_unit_zero (S := S5000x1) hz3, View.ld_unit_zero (S := S1x64) hz3]
  obtain ⟨e0, e1, e2, e3, e4, e5, e6, e7, e8, e9⟩ := idx_facts6 t
  funext j
  show k3_pay1 (F := Ideal) (iblk6 V c 0 t) (iblk6 V c 1 t) (iblk6 V c 2 t) (iblk6 V c 3 t) j
    = G3 (V c main_v125) (V c main_v97) (V c main_v12) (V c main_v126) (((cfg6.win 4).blk t).view.emb j)
  refine tile_entry3 (iblk6 V c 0 t) (iblk6 V c 1 t) (iblk6 V c 2 t) (iblk6 V c 3 t)
    (V c main_v125) (V c main_v97) (V c main_v12) (V c main_v126) t.val ?_ ?_ ?_ ?_ j (((cfg6.win 4).blk t).view.emb j) ?_ ?_
  ·
    intro y q p hp
    show V c main_v125 (((cfg6.win 0).blk t).view.emb (ix2 y q)) = V c main_v125 (ix2 p q)
    refine congrArg (V c main_v125) (funext fun a => Fin.ext ?_)
    match a with
    | ⟨0, _⟩ => show win6_0.index t (0 : Fin 2) * 5000 + 1 * y.val = p.val; omega
    | ⟨1, _⟩ => show win6_0.index t (1 : Fin 2) * 64 + 1 * q.val = q.val; omega
  ·
    intro y q p hp
    show V c main_v97 (((cfg6.win 1).blk t).view.emb (ix2 y q)) = V c main_v97 (ix2 p q)
    refine congrArg (V c main_v97) (funext fun a => Fin.ext ?_)
    match a with
    | ⟨0, _⟩ => show win6_1.index t (0 : Fin 2) * 5000 + 1 * y.val = p.val; omega
    | ⟨1, _⟩ => show win6_1.index t (1 : Fin 2) * 64 + 1 * q.val = q.val; omega
  ·
    intro y p hp
    show V c main_v12 (((cfg6.win 2).blk t).view.emb (ix2 y 0)) = V c main_v12 (ix2 p 0)
    refine congrArg (V c main_v12) (funext fun a => Fin.ext ?_)
    match a with
    | ⟨0, _⟩ => show win6_2.index t (0 : Fin 2) * 5000 + 1 * y.val = p.val; omega
    | ⟨1, _⟩ => show win6_2.index t (1 : Fin 2) * 1 + 1 * 0 = 0; omega
  ·
    intro k
    show V c main_v126 (((cfg6.win 3).blk t).view.emb k) = V c main_v126 k
    refine congrArg (V c main_v126) (funext fun a => Fin.ext ?_)
    match a with
    | ⟨0, _⟩ => show win6_3.index t (0 : Fin 2) * 1 + 1 * (k 0).val = (k 0).val; omega
    | ⟨1, _⟩ => show win6_3.index t (1 : Fin 2) * 64 + 1 * (k 1).val = (k 1).val; omega
  · show win6_4.index t (0 : Fin 2) * 5000 + 1 * (j 0).val = t.val * 5000 + (j 0).val; omega
  · show win6_4.index t (1 : Fin 2) * 64 + 1 * (j 1).val = (j 1).val; omega

theorem mem_blk6 (t : Fin cfg6.N) (i : S50000x64.Idx) :
    i ∈ ((cfg6.win 4).blk t).view.set ↔ ∀ a : Fin 2, win6_4.index t a * S5000x64.size a ≤ (i a).val ∧ (i a).val < win6_4.index t a * S5000x64.size a + S5000x64.size a := by
  show i ∈ ((View.whole main_v127).slice (win6_4.rect t)).set ↔ _
  rw [View.set_slice_whole, Rect.mem_set_unit]
  exact Iff.rfl

theorem covered6 (i : S50000x64.Idx) : ∃ t : Fin cfg6.N, (cfg6.win 4).flush t = true ∧ i ∈ ((cfg6.win 4).blk t).view.set := by
  have hi0 : (i 0).val < 50000 := (i 0).isLt
  have hi1 : (i 1).val < 64 := (i 1).isLt
  have hN : cfg6.N = 10 := N_6
  obtain ⟨t, ht⟩ : ∃ t : Fin cfg6.N, t.val = (i 0).val / 5000 := ⟨⟨(i 0).val / 5000, by rw [hN]; omega⟩, rfl⟩
  obtain ⟨-, -, -, -, -, -, -, -, e8, e9⟩ := idx_facts6 t
  refine ⟨t, flush6_4 t, ?_⟩
  rw [mem_blk6]
  intro a
  match a with
  | ⟨0, _⟩ => show win6_4.index t (0 : Fin 2) * 5000 ≤ (i 0).val ∧ (i 0).val < win6_4.index t (0 : Fin 2) * 5000 + 5000; omega
  | ⟨1, _⟩ => show win6_4.index t (1 : Fin 2) * 64 ≤ (i 1).val ∧ (i 1).val < win6_4.index t (1 : Fin 2) * 64 + 64; omega

theorem final6 (c : Dev nD) (p : Fin 50000) (q : Fin 64) :
    (dat6 (F := Ideal) V c).arrAt 4 cfg6.N (ix2 p q)
      = Cert.Spec.comb (V c main_v125) (V c main_v97) (V c main_v12) (V c main_v126) p q :=
  congrFun ((dat6 (F := Ideal) V c).arrAt_eq_of_cover 4 (G3 (V c main_v125) (V c main_v97) (V c main_v12) (V c main_v126))
    (fun t _ => flushed_eq6 V c t) covered6) (ix2 p q)

end Cert.KernelIdeal.Net
-- ==== Proof.KI.Val7.lean ====
import proofs.«420664_j68839735820523_2_alg».proof.Proof.KI.Reg7
import proofs.«420664_j68839735820523_2_alg».proof.Proof.KI.Val4
import proofs.«420664_j68839735820523_2_alg».proof.Proof.KI.PayElt
import proofs.«420664_j68839735820523_2_alg».proof.Proof.Spec
import Idealize.ShloMosaic.Lib.Pipeline.Value
import Idealize.ShloMosaic.Lib.ValueIdx

noncomputable section

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

abbrev pre7 (c : Dev nD) : Cert.Spec.Mat 50000 64 := V c main_v127

abbrev gam7 (c : Dev nD) : Cert.Spec.Mat 1 64 := V c main_v139

abbrev bet7 (c : Dev nD) : Cert.Spec.Mat 1 64 := V c main_v140

abbrev mu7 (c : Dev nD) : Cert.Spec.Mat 1 64 := V c main_v131

abbrev var7 (c : Dev nD) : Cert.Spec.Mat 1 64 := V c main_v138

abbrev G7 (c : Dev nD) : S50000x64.Idx → Elt Ideal .f32 := fun j =>
  Cert.Spec.bnRelu (pre7 V c) (gam7 V c) (bet7 V c) (mu7 V c) (var7 V c) (j 0) (j 1)

theorem idx_facts7 : ∀ t : Fin cfg7.N,
      win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

theorem flushedEq7 (c : Dev nD) (t : Fin cfg7.N) :
    (dat7 (F := Ideal) V c).flushed 5 t = ((cfg7.win 5).blk t).view.read (Elt Ideal) (G7 V c) := by
  show (cfg7.win 5).cut (grid7.coords t) ((dat7 V c).after 5 t) = _
  rw [after7_5]
  unfold out4_5
  rw [View.canon_unit_zero hz4]
  simp only [View.ld_unit_zero (S := S5000x64) hz4, View.ld_unit_zero (S := S1x64) hz4]
  obtain ⟨e00, e01, e10, e11, e20, e21, e30, e31, e40, e41, e50, e51⟩ := idx_facts7 t
  have htN : t.val < 10 := Nat.lt_of_lt_of_eq t.isLt (N_7 : cfg7.N = 10)
  funext j
  obtain ⟨y, q, rfl⟩ : ∃ (y : Fin 5000) (q : Fin 64), j = ix2 y q := ⟨j 0, j 1, eq_ix2 j⟩
  have hP : t.val * 5000 + y.val < 50000 := by have := y.isLt; omega
  show k4_pay1 (F := Ideal) (iblk7 V c 4 t) (iblk7 V c 0 t) (iblk7 V c 3 t) (iblk7 V c 1 t) (iblk7 V c 2 t) (ix2 y q)
    = G7 V c (((cfg7.win 5).blk t).view.emb (ix2 y q))
  refine (pay4 (iblk7 V c 4 t) (iblk7 V c 0 t) (iblk7 V c 3 t) (iblk7 V c 1 t) (iblk7 V c 2 t) y q).trans ?_
  have hE : ((cfg7.win 5).blk t).view.emb (ix2 y q) = ix2 (⟨t.val * 5000 + y.val, hP⟩ : Fin 50000) q := by
    funext a; apply Fin.ext
    match a with
    | ⟨0, _⟩ => show win7_5.index t (0 : Fin 2) * 5000 + 1 * y.val = t.val * 5000 + y.val; omega
    | ⟨1, _⟩ => show win7_5.index t (1 : Fin 2) * 64 + 1 * q.val = q.val; omega
  have h0 : ((cfg7.win 0).blk t).view.emb (ix2 y q) = ix2 (⟨t.val * 5000 + y.val, hP⟩ : Fin 50000) q := by
    funext a; apply Fin.ext
    match a with
    | ⟨0, _⟩ => show win7_0.index t (0 : Fin 2) * 5000 + 1 * y.val = t.val * 5000 + y.val; omega
    | ⟨1, _⟩ => show win7_0.index t (1 : Fin 2) * 64 + 1 * q.val = q.val; omega
  have h1 : ((cfg7.win 1).blk t).view.emb (ix2 (0 : Fin 1) q) = ix2 (0 : Fin 1) q := by
    funext a; apply Fin.ext
    match a with
    | ⟨0, _⟩ => show win7_1.index t (0 : Fin 2) * 1 + 1 * 0 = 0; omega
    | ⟨1, _⟩ => show win7_1.index t (1 : Fin 2) * 64 + 1 * q.val = q.val; omega
  have h2 : ((cfg7.win 2).blk t).view.emb (ix2 (0 : Fin 1) q) = ix2 (0 : Fin 1) q := by
    funext a; apply Fin.ext
    match a with
    | ⟨0, _⟩ => show win7_2.index t (0 : Fin 2) * 1 + 1 * 0 = 0; omega
    | ⟨1, _⟩ => show win7_2.index t (1 : Fin 2) * 64 + 1 * q.val = q.val; omega
  have h3 : ((cfg7.win 3).blk t).view.emb (ix2 (0 : Fin 1) q) = ix2 (0 : Fin 1) q := by
    funext a; apply Fin.ext
    match a with
    | ⟨0, _⟩ => show win7_3.index t (0 : Fin 2) * 1 + 1 * 0 = 0; omega
    | ⟨1, _⟩ => show win7_3.index t (1 : Fin 2) * 64 + 1 * q.val = q.val; omega
  have h4 : ((cfg7.win 4).blk t).view.emb (ix2 (0 : Fin 1) q) = ix2 (0 : Fin 1) q := by
    funext a; apply Fin.ext
    match a with
    | ⟨0, _⟩ => show win7_4.index t (0 : Fin 2) * 1 + 1 * 0 = 0; omega
    | ⟨1, _⟩ => show win7_4.index t (1 : Fin 2) * 64 + 1 * q.val = q.val; omega
  rw [hE]
  show Cert.Spec.relu ((pre7 V c (((cfg7.win 0).blk t).view.emb (ix2 y q)) - mu7 V c (((cfg7.win 3).blk t).view.emb (ix2 (0 : Fin 1) q)))
        * Ideal.rsqrt (var7 V c (((cfg7.win 4).blk t).view.emb (ix2 (0 : Fin 1) q)) + Cert.Spec.epsE)
        * gam7 V c (((cfg7.win 1).blk t).view.emb (ix2 (0 : Fin 1) q))
        + bet7 V c (((cfg7.win 2).blk t).view.emb (ix2 (0 : Fin 1) q)))
      = Cert.Spec.relu ((pre7 V c (ix2 (⟨t.val * 5000 + y.val, hP⟩ : Fin 50000) q) - mu7 V c (ix2 (0 : Fin 1) q))
        * Ideal.rsqrt (var7 V c (ix2 (0 : Fin 1) q) + Cert.Spec.epsE)
        * gam7 V c (ix2 (0 : Fin 1) q)
        + bet7 V c (ix2 (0 : Fin 1) q))
  rw [h0, h1, h2, h3, h4]

theorem mem_blk7 (t : Fin cfg7.N) (i : S50000x64.Idx) :
    i ∈ ((cfg7.win 5).blk t).view.set ↔ ∀ a : Fin 2, win7_5.index t a * S5000x64.size a ≤ (i a).val ∧ (i a).val < win7_5.index t a * S5000x64.size a + S5000x64.size a := by
  show i ∈ ((View.whole main_v141).slice (win7_5.rect t)).set ↔ _
  rw [View.set_slice_whole, Rect.mem_set_unit]
  exact Iff.rfl

theorem cover7 (i : S50000x64.Idx) :
    ∃ t : Fin cfg7.N, (cfg7.win 5).flush t = true ∧ i ∈ ((cfg7.win 5).blk t).view.set := by
  have hi0 : (i 0).val < 50000 := (i 0).isLt
  have hi1 : (i 1).val < 64 := (i 1).isLt
  obtain ⟨t, ht⟩ : ∃ t : Fin cfg7.N, t.val = (i 0).val / 5000 :=
    ⟨⟨(i 0).val / 5000, by rw [show cfg7.N = 10 from N_7]; omega⟩, rfl⟩
  obtain ⟨e00, e01, e10, e11, e20, e21, e30, e31, e40, e41, e50, e51⟩ := idx_facts7 t
  refine ⟨t, flush7_5 t, ?_⟩
  rw [mem_blk7]
  intro a
  match a with
  | ⟨0, _⟩ => show win7_5.index t (0 : Fin 2) * 5000 ≤ (i 0).val ∧ (i 0).val < win7_5.index t (0 : Fin 2) * 5000 + 5000; omega
  | ⟨1, _⟩ => show win7_5.index t (1 : Fin 2) * 64 ≤ (i 1).val ∧ (i 1).val < win7_5.index t (1 : Fin 2) * 64 + 64; omega

theorem final7 (c : Dev nD) (p : Fin 50000) (q : Fin 64) :
    (dat7 (F := Ideal) V c).arrAt 5 cfg7.N (ix2 p q)
      = Cert.Spec.bnRelu (V c main_v127) (V c main_v139) (V c main_v140) (V c main_v131) (V c main_v138) p q :=
  congrFun ((dat7 (F := Ideal) V c).arrAt_eq_of_cover 5 (G7 V c) (fun t _ => flushedEq7 V c t) cover7) (ix2 p q)

end Cert.KernelIdeal.Net
-- ==== Proof.KI.Val8.lean ====
import proofs.«420664_j68839735820523_2_alg».proof.Proof.KI.Reg8
import proofs.«420664_j68839735820523_2_alg».proof.Proof.KI.Val2
import proofs.«420664_j68839735820523_2_alg».proof.Proof.KI.PayMat
import proofs.«420664_j68839735820523_2_alg».proof.Proof.Spec
import Idealize.ShloMosaic.Lib.Pipeline.Value
import Idealize.ShloMosaic.Lib.ValueIdx

noncomputable section

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

theorem flushed_eq8 (c : Dev nD) (t : Fin cfg8.N) :
    (dat8 (F := Ideal) V c).flushed 2 t = ((cfg8.win 2).blk t).view.read (Elt Ideal) (G2 (V c main_v141) (V c main_v143)) := by
  show (cfg8.win 2).cut (grid8.coords t) ((dat8 V c).after 2 t) = _
  rw [after8_2]
  unfold out2_2
  rw [View.canon_unit_zero hz2]
  simp only [View.ld_unit_zero (S := S5000x64) hz2, View.ld_unit_zero (S := S64x64) hz2]
  obtain ⟨hxr, hxc, hwr, hwc, hyr, hyc⟩ := idx_facts8 t
  funext j
  show k2_pay1 (F := Ideal) (iblk8 V c 0 t) (iblk8 V c 1 t) j = G2 (V c main_v141) (V c main_v143) (((cfg8.win 2).blk t).view.emb j)
  refine tile_entry2 (iblk8 V c 0 t) (iblk8 V c 1 t) (V c main_v141) (V c main_v143) t.val ?_ ?_ j (((cfg8.win 2).blk t).view.emb j) ?_ ?_
  ·
    intro y r p hp
    show V c main_v141 (((cfg8.win 0).blk t).view.emb (ix2 y r)) = V c main_v141 (ix2 p r)
    refine congrArg (V c main_v141) (funext fun a => Fin.ext ?_)
    match a with
    | ⟨0, _⟩ => show win8_0.index t (0 : Fin 2) * 5000 + 1 * y.val = p.val; omega
    | ⟨1, _⟩ => show win8_0.index t (1 : Fin 2) * 64 + 1 * r.val = r.val; omega
  ·
    intro k
    show V c main_v143 (((cfg8.win 1).blk t).view.emb k) = V c main_v143 k
    refine congrArg (V c main_v143) (funext fun a => Fin.ext ?_)
    match a with
    | ⟨0, _⟩ => show win8_1.index t (0 : Fin 2) * 64 + 1 * (k 0).val = (k 0).val; omega
    | ⟨1, _⟩ => show win8_1.index t (1 : Fin 2) * 64 + 1 * (k 1).val = (k 1).val; omega
  · show win8_2.index t (0 : Fin 2) * 5000 + 1 * (j 0).val = t.val * 5000 + (j 0).val; omega
  · show win8_2.index t (1 : Fin 2) * 64 + 1 * (j 1).val = (j 1).val; omega

theorem mem_blk8 (t : Fin cfg8.N) (i : S50000x64.Idx) :
    i ∈ ((cfg8.win 2).blk t).view.set ↔ ∀ a : Fin 2, win8_2.index t a * S5000x64.size a ≤ (i a).val ∧ (i a).val < win8_2.index t a * S5000x64.size a + S5000x64.size a := by
  show i ∈ ((View.whole main_v146).slice (win8_2.rect t)).set ↔ _
  rw [View.set_slice_whole, Rect.mem_set_unit]
  exact Iff.rfl

theorem covered8 (i : S50000x64.Idx) : ∃ t : Fin cfg8.N, (cfg8.win 2).flush t = true ∧ i ∈ ((cfg8.win 2).blk t).view.set := by
  have hir : (i 0).val < 50000 := (i 0).isLt
  have hic : (i 1).val < 64 := (i 1).isLt
  have hN : cfg8.N = 10 := N_8
  obtain ⟨t, ht⟩ : ∃ t : Fin cfg8.N, t.val = (i 0).val / 5000 := ⟨⟨(i 0).val / 5000, by rw [hN]; omega⟩, rfl⟩
  obtain ⟨-, -, -, -, hyr, hyc⟩ := idx_facts8 t
  refine ⟨t, flush8_2 t, ?_⟩
  rw [mem_blk8]
  intro a
  match a with
  | ⟨0, _⟩ => show win8_2.index t (0 : Fin 2) * 5000 ≤ (i 0).val ∧ (i 0).val < win8_2.index t (0 : Fin 2) * 5000 + 5000; omega
  | ⟨1, _⟩ => show win8_2.index t (1 : Fin 2) * 64 ≤ (i 1).val ∧ (i 1).val < win8_2.index t (1 : Fin 2) * 64 + 64; omega

theorem final8 (c : Dev nD) (p : Fin 50000) (q : Fin 64) :
    (dat8 (F := Ideal) V c).arrAt 2 cfg8.N (ix2 p q) = Cert.Spec.mm (V c main_v141) (V c main_v143) p q :=
  congrFun ((dat8 (F := Ideal) V c).arrAt_eq_of_cover 2 (G2 (V c main_v141) (V c main_v143)) (fun t _ => flushed_eq8 V c t) covered8) (ix2 p q)

end Cert.KernelIdeal.Net
-- ==== Proof.KI.Val9.lean ====
import proofs.«420664_j68839735820523_2_alg».proof.Proof.KI.Reg9
import proofs.«420664_j68839735820523_2_alg».proof.Proof.KI.Val3
import proofs.«420664_j68839735820523_2_alg».proof.Proof.KI.PayElt
import proofs.«420664_j68839735820523_2_alg».proof.Proof.Spec
import Idealize.ShloMosaic.Lib.Pipeline.Value
import Idealize.ShloMosaic.Lib.ValueIdx

noncomputable section

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx_facts9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 :=
  (by decide +kernel : ∀ t : Fin grid9.N, _)

theorem flushed_eq9 (c : Dev nD) (t : Fin cfg9.N) :
    (dat9 (F := Ideal) V c).flushed 4 t
      = ((cfg9.win 4).blk t).view.read (Elt Ideal) (G3 (V c main_v174) (V c main_v146) (V c main_v12) (V c main_v175)) := by
  show (cfg9.win 4).cut (grid9.coords t) ((dat9 V c).after 4 t) = _
  rw [after9_4]
  unfold out3_4
  rw [View.canon_unit_zero hz3]
  simp only [View.ld_unit_zero (S := S5000x64) hz3, View.ld_unit_zero (S := S5000x1) hz3, View.ld_unit_zero (S := S1x64) hz3]
  obtain ⟨e0, e1, e2, e3, e4, e5, e6, e7, e8, e9⟩ := idx_facts9 t
  funext j
  show k3_pay1 (F := Ideal) (iblk9 V c 0 t) (iblk9 V c 1 t) (iblk9 V c 2 t) (iblk9 V c 3 t) j
    = G3 (V c main_v174) (V c main_v146) (V c main_v12) (V c main_v175) (((cfg9.win 4).blk t).view.emb j)
  refine tile_entry3 (iblk9 V c 0 t) (iblk9 V c 1 t) (iblk9 V c 2 t) (iblk9 V c 3 t)
    (V c main_v174) (V c main_v146) (V c main_v12) (V c main_v175) t.val ?_ ?_ ?_ ?_ j (((cfg9.win 4).blk t).view.emb j) ?_ ?_
  ·
    intro y q p hp
    show V c main_v174 (((cfg9.win 0).blk t).view.emb (ix2 y q)) = V c main_v174 (ix2 p q)
    refine congrArg (V c main_v174) (funext fun a => Fin.ext ?_)
    match a with
    | ⟨0, _⟩ => show win9_0.index t (0 : Fin 2) * 5000 + 1 * y.val = p.val; omega
    | ⟨1, _⟩ => show win9_0.index t (1 : Fin 2) * 64 + 1 * q.val = q.val; omega
  ·
    intro y q p hp
    show V c main_v146 (((cfg9.win 1).blk t).view.emb (ix2 y q)) = V c main_v146 (ix2 p q)
    refine congrArg (V c main_v146) (funext fun a => Fin.ext ?_)
    match a with
    | ⟨0, _⟩ => show win9_1.index t (0 : Fin 2) * 5000 + 1 * y.val = p.val; omega
    | ⟨1, _⟩ => show win9_1.index t (1 : Fin 2) * 64 + 1 * q.val = q.val; omega
  ·
    intro y p hp
    show V c main_v12 (((cfg9.win 2).blk t).view.emb (ix2 y 0)) = V c main_v12 (ix2 p 0)
    refine congrArg (V c main_v12) (funext fun a => Fin.ext ?_)
    match a with
    | ⟨0, _⟩ => show win9_2.index t (0 : Fin 2) * 5000 + 1 * y.val = p.val; omega
    | ⟨1, _⟩ => show win9_2.index t (1 : Fin 2) * 1 + 1 * 0 = 0; omega
  ·
    intro k
    show V c main_v175 (((cfg9.win 3).blk t).view.emb k) = V c main_v175 k
    refine congrArg (V c main_v175) (funext fun a => Fin.ext ?_)
    match a with
    | ⟨0, _⟩ => show win9_3.index t (0 : Fin 2) * 1 + 1 * (k 0).val = (k 0).val; omega
    | ⟨1, _⟩ => show win9_3.index t (1 : Fin 2) * 64 + 1 * (k 1).val = (k 1).val; omega
  · show win9_4.index t (0 : Fin 2) * 5000 + 1 * (j 0).val = t.val * 5000 + (j 0).val; omega
  · show win9_4.index t (1 : Fin 2) * 64 + 1 * (j 1).val = (j 1).val; omega

theorem mem_blk9 (t : Fin cfg9.N) (i : S50000x64.Idx) :
    i ∈ ((cfg9.win 4).blk t).view.set ↔ ∀ a : Fin 2, win9_4.index t a * S5000x64.size a ≤ (i a).val ∧ (i a).val < win9_4.index t a * S5000x64.size a + S5000x64.size a := by
  show i ∈ ((View.whole main_v176).slice (win9_4.rect t)).set ↔ _
  rw [View.set_slice_whole, Rect.mem_set_unit]
  exact Iff.rfl

theorem covered9 (i : S50000x64.Idx) : ∃ t : Fin cfg9.N, (cfg9.win 4).flush t = true ∧ i ∈ ((cfg9.win 4).blk t).view.set := by
  have hi0 : (i 0).val < 50000 := (i 0).isLt
  have hi1 : (i 1).val < 64 := (i 1).isLt
  have hN : cfg9.N = 10 := N_9
  obtain ⟨t, ht⟩ : ∃ t : Fin cfg9.N, t.val = (i 0).val / 5000 := ⟨⟨(i 0).val / 5000, by rw [hN]; omega⟩, rfl⟩
  obtain ⟨-, -, -, -, -, -, -, -, e8, e9⟩ := idx_facts9 t
  refine ⟨t, flush9_4 t, ?_⟩
  rw [mem_blk9]
  intro a
  match a with
  | ⟨0, _⟩ => show win9_4.index t (0 : Fin 2) * 5000 ≤ (i 0).val ∧ (i 0).val < win9_4.index t (0 : Fin 2) * 5000 + 5000; omega
  | ⟨1, _⟩ => show win9_4.index t (1 : Fin 2) * 64 ≤ (i 1).val ∧ (i 1).val < win9_4.index t (1 : Fin 2) * 64 + 64; omega

theorem final9 (c : Dev nD) (p : Fin 50000) (q : Fin 64) :
    (dat9 (F := Ideal) V c).arrAt 4 cfg9.N (ix2 p q)
      = Cert.Spec.comb (V c main_v174) (V c main_v146) (V c main_v12) (V c main_v175) p q :=
  congrFun ((dat9 (F := Ideal) V c).arrAt_eq_of_cover 4 (G3 (V c main_v174) (V c main_v146) (V c main_v12) (V c main_v175))
    (fun t _ => flushed_eq9 V c t) covered9) (ix2 p q)

end Cert.KernelIdeal.Net
-- ==== Proof.KI.Val10.lean ====
import proofs.«420664_j68839735820523_2_alg».proof.Proof.KI.Reg10
import proofs.«420664_j68839735820523_2_alg».proof.Proof.KI.Val4
import proofs.«420664_j68839735820523_2_alg».proof.Proof.KI.PayElt
import proofs.«420664_j68839735820523_2_alg».proof.Proof.Spec
import Idealize.ShloMosaic.Lib.Pipeline.Value
import Idealize.ShloMosaic.Lib.ValueIdx

noncomputable section

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

abbrev pre10 (c : Dev nD) : Cert.Spec.Mat 50000 64 := V c main_v176

abbrev gam10 (c : Dev nD) : Cert.Spec.Mat 1 64 := V c main_v188

abbrev bet10 (c : Dev nD) : Cert.Spec.Mat 1 64 := V c main_v189

abbrev mu10 (c : Dev nD) : Cert.Spec.Mat 1 64 := V c main_v180

abbrev var10 (c : Dev nD) : Cert.Spec.Mat 1 64 := V c main_v187

abbrev G10 (c : Dev nD) : S50000x64.Idx → Elt Ideal .f32 := fun j =>
  Cert.Spec.bnRelu (pre10 V c) (gam10 V c) (bet10 V c) (mu10 V c) (var10 V c) (j 0) (j 1)

theorem idx_facts10 : ∀ t : Fin cfg10.N,
      win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

theorem flushedEq10 (c : Dev nD) (t : Fin cfg10.N) :
    (dat10 (F := Ideal) V c).flushed 5 t = ((cfg10.win 5).blk t).view.read (Elt Ideal) (G10 V c) := by
  show (cfg10.win 5).cut (grid10.coords t) ((dat10 V c).after 5 t) = _
  rw [after10_5]
  unfold out4_5
  rw [View.canon_unit_zero hz4]
  simp only [View.ld_unit_zero (S := S5000x64) hz4, View.ld_unit_zero (S := S1x64) hz4]
  obtain ⟨e00, e01, e10, e11, e20, e21, e30, e31, e40, e41, e50, e51⟩ := idx_facts10 t
  have htN : t.val < 10 := Nat.lt_of_lt_of_eq t.isLt (N_10 : cfg10.N = 10)
  funext j
  obtain ⟨y, q, rfl⟩ : ∃ (y : Fin 5000) (q : Fin 64), j = ix2 y q := ⟨j 0, j 1, eq_ix2 j⟩
  have hP : t.val * 5000 + y.val < 50000 := by have := y.isLt; omega
  show k4_pay1 (F := Ideal) (iblk10 V c 4 t) (iblk10 V c 0 t) (iblk10 V c 3 t) (iblk10 V c 1 t) (iblk10 V c 2 t) (ix2 y q)
    = G10 V c (((cfg10.win 5).blk t).view.emb (ix2 y q))
  refine (pay4 (iblk10 V c 4 t) (iblk10 V c 0 t) (iblk10 V c 3 t) (iblk10 V c 1 t) (iblk10 V c 2 t) y q).trans ?_
  have hE : ((cfg10.win 5).blk t).view.emb (ix2 y q) = ix2 (⟨t.val * 5000 + y.val, hP⟩ : Fin 50000) q := by
    funext a; apply Fin.ext
    match a with
    | ⟨0, _⟩ => show win10_5.index t (0 : Fin 2) * 5000 + 1 * y.val = t.val * 5000 + y.val; omega
    | ⟨1, _⟩ => show win10_5.index t (1 : Fin 2) * 64 + 1 * q.val = q.val; omega
  have h0 : ((cfg10.win 0).blk t).view.emb (ix2 y q) = ix2 (⟨t.val * 5000 + y.val, hP⟩ : Fin 50000) q := by
    funext a; apply Fin.ext
    match a with
    | ⟨0, _⟩ => show win10_0.index t (0 : Fin 2) * 5000 + 1 * y.val = t.val * 5000 + y.val; omega
    | ⟨1, _⟩ => show win10_0.index t (1 : Fin 2) * 64 + 1 * q.val = q.val; omega
  have h1 : ((cfg10.win 1).blk t).view.emb (ix2 (0 : Fin 1) q) = ix2 (0 : Fin 1) q := by
    funext a; apply Fin.ext
    match a with
    | ⟨0, _⟩ => show win10_1.index t (0 : Fin 2) * 1 + 1 * 0 = 0; omega
    | ⟨1, _⟩ => show win10_1.index t (1 : Fin 2) * 64 + 1 * q.val = q.val; omega
  have h2 : ((cfg10.win 2).blk t).view.emb (ix2 (0 : Fin 1) q) = ix2 (0 : Fin 1) q := by
    funext a; apply Fin.ext
    match a with
    | ⟨0, _⟩ => show win10_2.index t (0 : Fin 2) * 1 + 1 * 0 = 0; omega
    | ⟨1, _⟩ => show win10_2.index t (1 : Fin 2) * 64 + 1 * q.val = q.val; omega
  have h3 : ((cfg10.win 3).blk t).view.emb (ix2 (0 : Fin 1) q) = ix2 (0 : Fin 1) q := by
    funext a; apply Fin.ext
    match a with
    | ⟨0, _⟩ => show win10_3.index t (0 : Fin 2) * 1 + 1 * 0 = 0; omega
    | ⟨1, _⟩ => show win10_3.index t (1 : Fin 2) * 64 + 1 * q.val = q.val; omega
  have h4 : ((cfg10.win 4).blk t).view.emb (ix2 (0 : Fin 1) q) = ix2 (0 : Fin 1) q := by
    funext a; apply Fin.ext
    match a with
    | ⟨0, _⟩ => show win10_4.index t (0 : Fin 2) * 1 + 1 * 0 = 0; omega
    | ⟨1, _⟩ => show win10_4.index t (1 : Fin 2) * 64 + 1 * q.val = q.val; omega
  rw [hE]
  show Cert.Spec.relu ((pre10 V c (((cfg10.win 0).blk t).view.emb (ix2 y q)) - mu10 V c (((cfg10.win 3).blk t).view.emb (ix2 (0 : Fin 1) q)))
        * Ideal.rsqrt (var10 V c (((cfg10.win 4).blk t).view.emb (ix2 (0 : Fin 1) q)) + Cert.Spec.epsE)
        * gam10 V c (((cfg10.win 1).blk t).view.emb (ix2 (0 : Fin 1) q))
        + bet10 V c (((cfg10.win 2).blk t).view.emb (ix2 (0 : Fin 1) q)))
      = Cert.Spec.relu ((pre10 V c (ix2 (⟨t.val * 5000 + y.val, hP⟩ : Fin 50000) q) - mu10 V c (ix2 (0 : Fin 1) q))
        * Ideal.rsqrt (var10 V c (ix2 (0 : Fin 1) q) + Cert.Spec.epsE)
        * gam10 V c (ix2 (0 : Fin 1) q)
        + bet10 V c (ix2 (0 : Fin 1) q))
  rw [h0, h1, h2, h3, h4]

theorem mem_blk10 (t : Fin cfg10.N) (i : S50000x64.Idx) :
    i ∈ ((cfg10.win 5).blk t).view.set ↔ ∀ a : Fin 2, win10_5.index t a * S5000x64.size a ≤ (i a).val ∧ (i a).val < win10_5.index t a * S5000x64.size a + S5000x64.size a := by
  show i ∈ ((View.whole main_v190).slice (win10_5.rect t)).set ↔ _
  rw [View.set_slice_whole, Rect.mem_set_unit]
  exact Iff.rfl

theorem cover10 (i : S50000x64.Idx) :
    ∃ t : Fin cfg10.N, (cfg10.win 5).flush t = true ∧ i ∈ ((cfg10.win 5).blk t).view.set := by
  have hi0 : (i 0).val < 50000 := (i 0).isLt
  have hi1 : (i 1).val < 64 := (i 1).isLt
  obtain ⟨t, ht⟩ : ∃ t : Fin cfg10.N, t.val = (i 0).val / 5000 :=
    ⟨⟨(i 0).val / 5000, by rw [show cfg10.N = 10 from N_10]; omega⟩, rfl⟩
  obtain ⟨e00, e01, e10, e11, e20, e21, e30, e31, e40, e41, e50, e51⟩ := idx_facts10 t
  refine ⟨t, flush10_5 t, ?_⟩
  rw [mem_blk10]
  intro a
  match a with
  | ⟨0, _⟩ => show win10_5.index t (0 : Fin 2) * 5000 ≤ (i 0).val ∧ (i 0).val < win10_5.index t (0 : Fin 2) * 5000 + 5000; omega
  | ⟨1, _⟩ => show win10_5.index t (1 : Fin 2) * 64 ≤ (i 1).val ∧ (i 1).val < win10_5.index t (1 : Fin 2) * 64 + 64; omega

theorem final10 (c : Dev nD) (p : Fin 50000) (q : Fin 64) :
    (dat10 (F := Ideal) V c).arrAt 5 cfg10.N (ix2 p q)
      = Cert.Spec.bnRelu (V c main_v176) (V c main_v188) (V c main_v189) (V c main_v180) (V c main_v187) p q :=
  congrFun ((dat10 (F := Ideal) V c).arrAt_eq_of_cover 5 (G10 V c) (fun t _ => flushedEq10 V c t) cover10) (ix2 p q)

end Cert.KernelIdeal.Net
-- ==== Proof.KI.PayPool.lean ====
import proofs.«420664_j68839735820523_2_alg».proof.Proof.Gen.KernelIdeal.Skeleton
import proofs.«420664_j68839735820523_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Net

open Cert.KernelIdeal Cert.KernelIdeal.Gen Idealize.ShloMosaic Idealize.ShloMosaic.ValueIdx Idealize.SL.Sem
open scoped BigOperators

theorem pay11_zero (g q : Fin 64) : k11_pay1 (F := Ideal) (ix2 g q) = 0 := by
  unfold k11_pay1
  simp only [shapeCast_self]
  exact Ideal.ofBits_zero_f32

private theorem pool_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

private theorem onehot_word (a b : BitVec 32) :
    FloatOps.sitofp (F := Ideal) .f32 ((IntOp.cmpi .eq a b).setWidth 32) = if a = b then (1 : EReal) else 0 := by
  by_cases h : a = b
  · have e : IntOp.cmpi .eq a b = 1#1 := by
      show BitVec.ofBool (a == b) = 1#1
      rw [beq_iff_eq.mpr h]
      rfl
    rw [if_pos h, e]
    show (((((1#1 : BitVec 1).setWidth 32).toInt : ℤ) : ℝ) : EReal) = 1
    have e1 : ((1#1 : BitVec 1).setWidth 32).toInt = 1 := by decide
    rw [e1, Int.cast_one, EReal.coe_one]
  · have e : IntOp.cmpi .eq a b = 0#1 := by
      show BitVec.ofBool (a == b) = 0#1
      rw [beq_eq_false_iff_ne.mpr h]
      rfl
    rw [if_neg h, e]
    show (((((0#1 : BitVec 1).setWidth 32).toInt : ℤ) : ℝ) : EReal) = 0
    have e0 : ((0#1 : BitVec 1).setWidth 32).toInt = 0 := by decide
    rw [e0, Int.cast_zero, EReal.coe_zero]

private theorem mask_apply (ids : Vec Ideal S5000x1 .i32) (y : Fin 5000) (g : Fin 64) :
    (sitofp .f32 (extui 32 (cmpi .eq
        (broadcastTo S5000x64 ids broadcasts_S5000x1_S5000x64)
        (broadcastTo S5000x64 (iota .tc S1x64 32 [1] iota_S1x64_d1_w32) broadcasts_S1x64_S5000x64)) natLt_1_32)
      : FVec Ideal S5000x64 .f32) (ix2 y g)
      = if ids (ix2 y 0) = BitVec.ofNat 32 g.val then (1 : EReal) else 0 := by
  rw [sitofp_apply, extui_apply]
  show FloatOps.sitofp (F := Ideal) .f32 ((IntOp.cmpi .eq
      (broadcastTo S5000x64 ids broadcasts_S5000x1_S5000x64 (ix2 y g))
      (broadcastTo S5000x64 (iota .tc S1x64 32 [1] iota_S1x64_d1_w32) broadcasts_S1x64_S5000x64 (ix2 y g))).setWidth 32) = _
  rw [pool_broadcastTo_a1_ab_apply, broadcastTo_1b_ab_apply, iota_single_apply]
  exact onehot_word _ _

private theorem pool_lhs_0 (i : S64x64.Idx) (k : dot_S5000x64_S5000x64_S64x64_0_0_1_1_n_n.contr.Idx) :
    (dot_S5000x64_S5000x64_S64x64_0_0_1_1_n_n.lhsIdx i k 0).val = (k ⟨0, by decide⟩).val :=
  dot_S5000x64_S5000x64_S64x64_0_0_1_1_n_n.lhsIdx_val_of_single rfl i k

private theorem pool_lhs_1 (i : S64x64.Idx) (k : dot_S5000x64_S5000x64_S64x64_0_0_1_1_n_n.contr.Idx) :
    (dot_S5000x64_S5000x64_S64x64_0_0_1_1_n_n.lhsIdx i k 1).val = (i 0).val := by
  unfold DotDims.lhsIdx
  rw [dif_neg (show ¬(1 : Fin S5000x64.rank) ∈ dot_S5000x64_S5000x64_S64x64_0_0_1_1_n_n.lhsBatch by decide), dif_pos (show (1 : Fin S5000x64.rank) ∈ dot_S5000x64_S5000x64_S64x64_0_0_1_1_n_n.lhsNonContracting by decide)]
  rfl

private theorem pool_rhs_0 (i : S64x64.Idx) (k : dot_S5000x64_S5000x64_S64x64_0_0_1_1_n_n.contr.Idx) :
    (dot_S5000x64_S5000x64_S64x64_0_0_1_1_n_n.rhsIdx i k 0).val = (k ⟨0, by decide⟩).val :=
  dot_S5000x64_S5000x64_S64x64_0_0_1_1_n_n.rhsIdx_val_of_single rfl i k

private theorem pool_rhs_1 (i : S64x64.Idx) (k : dot_S5000x64_S5000x64_S64x64_0_0_1_1_n_n.contr.Idx) :
    (dot_S5000x64_S5000x64_S64x64_0_0_1_1_n_n.rhsIdx i k 1).val = (i 1).val := by
  unfold DotDims.rhsIdx
  rw [dif_neg (show ¬(1 : Fin S5000x64.rank) ∈ dot_S5000x64_S5000x64_S64x64_0_0_1_1_n_n.rhsBatch by decide), dif_pos (show (1 : Fin S5000x64.rank) ∈ dot_S5000x64_S5000x64_S64x64_0_0_1_1_n_n.rhsNonContracting by decide)]
  rfl

private theorem pool_matmul_apply (m x : FVec Ideal S5000x64 .bf16) (g q : Fin 64) :
    matmul dot_S5000x64_S5000x64_S64x64_0_0_1_1_n_n none m x (constant (F := Ideal) S64x64 .f32 0x00000000#32) (ix2 g q)
      = ∑ y : Fin 5000, m (ix2 y g) * x (ix2 y q) := by
  simp only [matmul]
  rw [Ideal.matmul_constant_zero_apply, ← Equiv.sum_comp (ValueIdx.contrEquiv1 dot_S5000x64_S5000x64_S64x64_0_0_1_1_n_n 5000 rfl rfl).symm]
  refine Finset.sum_congr rfl fun k _ => ?_
  have hk := ValueIdx.contrEquiv1_symm_val dot_S5000x64_S5000x64_S64x64_0_0_1_1_n_n 5000 rfl rfl k
  have el : dot_S5000x64_S5000x64_S64x64_0_0_1_1_n_n.lhsIdx (ix2 g q) ((ValueIdx.contrEquiv1 dot_S5000x64_S5000x64_S64x64_0_0_1_1_n_n 5000 rfl rfl).symm k) = ix2 k g := funext fun a => Fin.ext (by
    match a with
    | ⟨0, _⟩ => exact (pool_lhs_0 _ _).trans hk
    | ⟨1, _⟩ => exact pool_lhs_1 _ _)
  have er : dot_S5000x64_S5000x64_S64x64_0_0_1_1_n_n.rhsIdx (ix2 g q) ((ValueIdx.contrEquiv1 dot_S5000x64_S5000x64_S64x64_0_0_1_1_n_n 5000 rfl rfl).symm k) = ix2 k q := funext fun a => Fin.ext (by
    match a with
    | ⟨0, _⟩ => exact (pool_rhs_0 _ _).trans hk
    | ⟨1, _⟩ => exact pool_rhs_1 _ _)
  rw [el, er]

theorem pay11_add (ids : Vec Ideal S5000x1 .i32) (hh : Vec Ideal S5000x64 .f32) (acc : Vec Ideal S64x64 .f32) (g q : Fin 64) :
    k11_pay2 (F := Ideal) ids hh acc (ix2 g q)
      = acc (ix2 g q) + ∑ y : Fin 5000, (if ids (ix2 y 0) = BitVec.ofNat 32 g.val then hh (ix2 y q) else 0) := by
  unfold k11_pay2
  simp only [shapeCast_self]
  rw [addf_apply, pool_matmul_apply]
  refine congrArg (acc (ix2 g q) + ·) (Finset.sum_congr rfl fun y _ => ?_)
  rw [truncf_apply, truncf_apply, mask_apply]
  split
  · exact one_mul _
  · exact zero_mul _

private theorem prefix_succ {M : Type*} [AddCommMonoid M] (S : Fin 10 → M) (n : ℕ) (h : n < 10) :
    (∑ t : Fin 10, if t.val < n + 1 then S t else 0) = (∑ t : Fin 10, if t.val < n then S t else 0) + S ⟨n, h⟩ := by
  have e : ∀ t : Fin 10, (if t.val < n + 1 then S t else 0)
      = (if t.val < n then S t else 0) + (if t = ⟨n, h⟩ then S t else 0) := by
    intro t
    by_cases h1 : t.val < n
    · have h2 : t ≠ ⟨n, h⟩ := fun e => by rw [e] at h1; exact Nat.lt_irrefl _ h1
      rw [if_pos (Nat.lt_succ_of_lt h1), if_pos h1, if_neg h2, add_zero]
    · by_cases h2 : t = ⟨n, h⟩
      · subst h2
        rw [if_pos (Nat.lt_succ_self _), if_neg h1, if_pos rfl, zero_add]
      · have h3 : ¬ t.val < n + 1 := fun h3 => h2 (Fin.ext (by show t.val = n; omega))
        rw [if_neg h3, if_neg h1, if_neg h2, add_zero]
  rw [Finset.sum_congr rfl (fun t _ => e t), Finset.sum_add_distrib, Finset.sum_ite_eq', if_pos (Finset.mem_univ _)]

theorem pool_prefix (ids : Fin 10 → Vec Ideal S5000x1 .i32) (hh : Fin 10 → Vec Ideal S5000x64 .f32)
    (A : ℕ → Vec Ideal S64x64 .f32)
    (hA : ∀ (n : ℕ) (h : n < 10), A (n + 1)
      = k11_pay2 (F := Ideal) (ids ⟨n, h⟩) (hh ⟨n, h⟩) (if n = 0 then k11_pay1 (F := Ideal) else A n))
    (g q : Fin 64) (n : ℕ) (hn : n ≤ 10) :
    (if n = 0 then k11_pay1 (F := Ideal) else A n) (ix2 g q)
      = ∑ t : Fin 10, if t.val < n then
          (∑ y : Fin 5000, (if ids t (ix2 y 0) = BitVec.ofNat 32 g.val then hh t (ix2 y q) else 0)) else 0 := by
  induction n with
  | zero =>
    rw [if_pos rfl, pay11_zero]
    exact (Finset.sum_eq_zero fun t _ => if_neg (Nat.not_lt_zero _)).symm
  | succ n ih =>
    have h : n < 10 := hn
    rw [if_neg (Nat.succ_ne_zero n), hA n h, pay11_add, ih (Nat.le_of_lt h)]
    exact (prefix_succ (fun t => ∑ y : Fin 5000, (if ids t (ix2 y 0) = BitVec.ofNat 32 g.val then hh t (ix2 y q) else 0)) n h).symm

theorem pool_fold (ids : Fin 10 → Vec Ideal S5000x1 .i32) (hh : Fin 10 → Vec Ideal S5000x64 .f32)
    (A : ℕ → Vec Ideal S64x64 .f32)
    (hA : ∀ (n : ℕ) (h : n < 10), A (n + 1)
      = k11_pay2 (F := Ideal) (ids ⟨n, h⟩) (hh ⟨n, h⟩) (if n = 0 then k11_pay1 (F := Ideal) else A n))
    (g q : Fin 64) :
    A 10 (ix2 g q)
      = ∑ t : Fin 10, ∑ y : Fin 5000, (if ids t (ix2 y 0) = BitVec.ofNat 32 g.val then hh t (ix2 y q) else 0) := by
  have e := pool_prefix ids hh A hA g q 10 (Nat.le_refl _)
  rw [if_neg (by decide)] at e
  rw [e]
  exact Finset.sum_congr rfl fun t _ => if_pos t.isLt

def tileRow (t : Fin 10) (y : Fin 5000) : Fin 50000 :=
  ⟨5000 * t.val + y.val, by have := t.isLt; have := y.isLt; omega⟩

theorem tileRow_val (t : Fin 10) (y : Fin 5000) : (tileRow t y).val = 5000 * t.val + y.val := rfl

theorem sum_tiles {M : Type*} [AddCommMonoid M] (f : Fin 50000 → M) :
    ∑ p : Fin 50000, f p = ∑ t : Fin 10, ∑ y : Fin 5000, f (tileRow t y) := by
  rw [← Fintype.sum_prod_type' (fun t y => f (tileRow t y))]
  refine (Fintype.sum_equiv (finProdFinEquiv (m := 10) (n := 5000)) (fun x => f (tileRow x.1 x.2)) f fun x => ?_).symm
  refine congrArg f (Fin.ext ?_)
  rw [finProdFinEquiv_apply_val, tileRow_val]
  omega

theorem pool_fold_spec (A_h : Cert.Spec.Mat 50000 64) (A_ids : Cert.Spec.ICol 50000)
    (ids : Fin 10 → Vec Ideal S5000x1 .i32) (hh : Fin 10 → Vec Ideal S5000x64 .f32)
    (hids : ∀ (t : Fin 10) (y : Fin 5000), ids t (ix2 y 0) = A_ids (ix2 (tileRow t y) 0))
    (hhh : ∀ (t : Fin 10) (y : Fin 5000) (q : Fin 64), hh t (ix2 y q) = A_h (ix2 (tileRow t y) q))
    (A : ℕ → Vec Ideal S64x64 .f32)
    (hA : ∀ (n : ℕ) (h : n < 10), A (n + 1)
      = k11_pay2 (F := Ideal) (ids ⟨n, h⟩) (hh ⟨n, h⟩) (if n = 0 then k11_pay1 (F := Ideal) else A n))
    (g q : Fin 64) :
    A 10 (ix2 g q) = Cert.Spec.pool A_h A_ids g q := by
  rw [pool_fold ids hh A hA g q]
  unfold Cert.Spec.pool
  rw [sum_tiles]
  exact Finset.sum_congr rfl fun t _ => Finset.sum_congr rfl fun y _ => by rw [hids t y, hhh t y q]

end Cert.KernelIdeal.Net

end
-- ==== Proof.KI.Val11.lean ====
import proofs.«420664_j68839735820523_2_alg».proof.Proof.KI.Reg11
import proofs.«420664_j68839735820523_2_alg».proof.Proof.KI.PayPool
import proofs.«420664_j68839735820523_2_alg».proof.Proof.Spec
import Idealize.ShloMosaic.Lib.Pipeline.Value
import Idealize.ShloMosaic.Lib.ValueIdx

noncomputable section

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

def hblk11 (c : Dev nD) (t : Fin cfg11.N) : Vec Ideal S5000x64 .f32 :=
  ((cfg11.win 0).blk t).view.read (Elt Ideal) (V c main_v190)

def idblk11 (c : Dev nD) (t : Fin cfg11.N) : Vec Ideal S5000x1 .i32 :=
  ((cfg11.win 1).blk t).view.read (Elt Ideal) (V c main_v191)

theorem idx_facts11 : ∀ t : Fin cfg11.N, win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0 :=
  (by decide +kernel : ∀ t : Fin grid11.N, _)

theorem hblk11_apply (c : Dev nD) (t : Fin cfg11.N) (y : Fin 5000) (q : Fin 64) :
    hblk11 V c t (ix2 y q) = V c main_v190 (ix2 (tileRow (Fin.cast N_11 t) y) q) := by
  obtain ⟨e0, e1, -, -, -, -⟩ := idx_facts11 t
  show V c main_v190 (((cfg11.win 0).blk t).view.emb (ix2 y q)) = V c main_v190 (ix2 (tileRow (Fin.cast N_11 t) y) q)
  refine congrArg (V c main_v190) (funext fun a => Fin.ext ?_)
  match a with
  | ⟨0, _⟩ => show win11_0.index t (0 : Fin 2) * 5000 + 1 * y.val = 5000 * t.val + y.val; omega
  | ⟨1, _⟩ => show win11_0.index t (1 : Fin 2) * 64 + 1 * q.val = q.val; omega

theorem idblk11_apply (c : Dev nD) (t : Fin cfg11.N) (y : Fin 5000) :
    idblk11 V c t (ix2 y 0) = V c main_v191 (ix2 (tileRow (Fin.cast N_11 t) y) 0) := by
  obtain ⟨-, -, e2, e3, -, -⟩ := idx_facts11 t
  show V c main_v191 (((cfg11.win 1).blk t).view.emb (ix2 y 0)) = V c main_v191 (ix2 (tileRow (Fin.cast N_11 t) y) 0)
  refine congrArg (V c main_v191) (funext fun a => Fin.ext ?_)
  match a with
  | ⟨0, _⟩ => show win11_1.index t (0 : Fin 2) * 5000 + 1 * y.val = 5000 * t.val + y.val; omega
  | ⟨1, _⟩ => show win11_1.index t (1 : Fin 2) * 1 + 1 * 0 = 0; omega

theorem arr11_of {c : Dev nD} (dat : Dat τ (Elt Ideal) Unit ℕ (UR sig nD τ) ℕ cfg11 c)
    (G : Vec Ideal S64x64 .f32) (hlast : dat.after 2 t11_9 = G) :
    dat.arrAt 2 cfg11.N = G := by
  obtain ⟨-, -, -, -, e4, e5⟩ := idx_facts11 t11_9
  refine dat.arrAt_eq_of_cover 2 G (fun t hf => ?_) (fun i => ?_)
  ·
    have h9 : t.val % 10 = 9 := (flush11_2 t).mp hf
    have hlt : t.val < 10 := lt_of_lt_of_eq t.isLt N_11
    obtain rfl : t = t11_9 := Fin.ext (by show t.val = 9; omega)
    show (cfg11.win 2).cut (grid11.coords t11_9) (dat.after 2 t11_9) = _
    rw [hlast]
    have hz' : (fun a => win11_2.index t11_9 a * main_v192.ty.shape.size a) = fun _ => 0 := funext fun a => by
      match a with
      | ⟨0, _⟩ => show win11_2.index t11_9 (0 : Fin 2) * 64 = 0; rw [e4]
      | ⟨1, _⟩ => show win11_2.index t11_9 (1 : Fin 2) * 64 = 0; rw [e5]
    exact (Memref.read_access_unit_zero (Elt Ideal) main_v192 hz' (fun a => by rw [congrFun hz' a]; simp) G).symm
  · refine ⟨t11_9, (flush11_2 t11_9).mpr rfl, ?_⟩
    show i ∈ ((View.whole main_v192).slice (win11_2.rect t11_9)).set
    rw [View.set_slice_whole, Rect.mem_set_unit]
    intro a
    have h0 : (i 0 : Nat) < 64 := (i 0).isLt
    have h1 : (i 1 : Nat) < 64 := (i 1).isLt
    match a with
    | ⟨0, _⟩ =>
      show win11_2.index t11_9 (0 : Fin 2) * 64 ≤ (i 0 : Nat) ∧ (i 0 : Nat) < win11_2.index t11_9 (0 : Fin 2) * 64 + 64
      omega
    | ⟨1, _⟩ =>
      show win11_2.index t11_9 (1 : Fin 2) * 64 ≤ (i 1 : Nat) ∧ (i 1 : Nat) < win11_2.index t11_9 (1 : Fin 2) * 64 + 64
      omega

theorem final11_of {c : Dev nD} (dat : Dat τ (Elt Ideal) Unit ℕ (UR sig nD τ) ℕ cfg11 c)
    (A : ℕ → Vec Ideal S64x64 .f32) (hlast : dat.after 2 t11_9 = A 10) (hA0 : A 0 = k11_pay1 (F := Ideal))
    (hA : ∀ t : Fin cfg11.N, A (t.val + 1) = k11_pay2 (F := Ideal) (idblk11 V c t) (hblk11 V c t) (A t.val))
    (g q : Fin 64) :
    dat.arrAt 2 cfg11.N (ix2 g q) = Cert.Spec.pool (V c main_v190) (V c main_v191) g q := by
  rw [arr11_of dat (A 10) hlast]
  refine pool_fold_spec (V c main_v190) (V c main_v191)
    (fun t => idblk11 V c (Fin.cast N_11.symm t)) (fun t => hblk11 V c (Fin.cast N_11.symm t))
    (fun t y => idblk11_apply V c (Fin.cast N_11.symm t) y)
    (fun t y q => hblk11_apply V c (Fin.cast N_11.symm t) y q) A (fun n h => ?_) g q
  have e := hA ⟨n, lt_of_lt_of_eq h N_11.symm⟩
  by_cases h0 : n = 0
  · subst h0
    rw [if_pos rfl]
    rw [← hA0]
    exact e
  · rw [if_neg h0]
    exact e

theorem final11 (c : Dev nD) (g q : Fin 64) :
    (dat11 (F := Ideal) V c).arrAt 2 cfg11.N (ix2 g q) = Cert.Spec.pool (V c main_v190) (V c main_v191) g q :=
  final11_of V (dat11 V c) (acc11 V c) (after11_2_last V c) (acc11_zero V c) (fun t => acc11_succ V c t) g q

end Cert.KernelIdeal.Net

end
-- ==== Proof.KI.Val12.lean ====
import proofs.«420664_j68839735820523_2_alg».proof.Proof.KI.Reg12
import proofs.«420664_j68839735820523_2_alg».proof.Proof.KI.PayMat
import proofs.«420664_j68839735820523_2_alg».proof.Proof.Spec
import Idealize.ShloMosaic.Lib.Pipeline.Value
import Idealize.ShloMosaic.Lib.ValueIdx

noncomputable section

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz12 : (![0, 0] : Fin 2 → Nat) = fun _ => 0 := funext fun a => by
  match a with
  | ⟨0, _⟩ => rfl
  | ⟨1, _⟩ => rfl

theorem idx_facts12 : ∀ t : Fin cfg12.N,
    win12_0.index t (0 : Fin 2) = 0 ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = 0 ∧ win12_5.index t (1 : Fin 2) = 0
    ∧ win12_6.index t (0 : Fin 2) = 0 ∧ win12_6.index t (1 : Fin 2) = 0
    ∧ win12_7.index t (0 : Fin 2) = 0 ∧ win12_7.index t (1 : Fin 2) = 0 :=
  (by decide +kernel : ∀ t : Fin grid12.N, _)

theorem iblk12_0_eq (c : Dev nD) (t : Fin cfg12.N) : (iblk12 V c 0 t : Vec Ideal S64x64 .f32) = (V c main_v201 : S64x64.Idx → Elt Ideal .f32) := by
  obtain ⟨e0, e1, -⟩ := idx_facts12 t
  unfold iblk12
  funext x
  show (V c main_v201 : S64x64.Idx → Elt Ideal .f32) (((cfg12.win 0).blk t).view.emb x) = (V c main_v201 : S64x64.Idx → Elt Ideal .f32) x
  congr 1
  funext a; apply Fin.ext
  match a with
  | ⟨0, _⟩ => show win12_0.index t (0 : Fin 2) * 64 + 1 * (x 0).val = (x 0).val; omega
  | ⟨1, _⟩ => show win12_0.index t (1 : Fin 2) * 64 + 1 * (x 1).val = (x 1).val; omega

theorem iblk12_1_eq (c : Dev nD) (t : Fin cfg12.N) : (iblk12 V c 1 t : Vec Ideal S64x32 .f32) = (V c main_arg9 : S64x32.Idx → Elt Ideal .f32) := by
  obtain ⟨-, -, e0, e1, -⟩ := idx_facts12 t
  unfold iblk12
  funext x
  show (V c main_arg9 : S64x32.Idx → Elt Ideal .f32) (((cfg12.win 1).blk t).view.emb x) = (V c main_arg9 : S64x32.Idx → Elt Ideal .f32) x
  congr 1
  funext a; apply Fin.ext
  match a with
  | ⟨0, _⟩ => show win12_1.index t (0 : Fin 2) * 64 + 1 * (x 0).val = (x 0).val; omega
  | ⟨1, _⟩ => show win12_1.index t (1 : Fin 2) * 32 + 1 * (x 1).val = (x 1).val; omega

theorem iblk12_2_eq (c : Dev nD) (t : Fin cfg12.N) : (iblk12 V c 2 t : Vec Ideal S1x32 .f32) = (V c main_v202 : S1x32.Idx → Elt Ideal .f32) := by
  obtain ⟨-, -, -, -, e0, e1, -⟩ := idx_facts12 t
  unfold iblk12
  funext x
  show (V c main_v202 : S1x32.Idx → Elt Ideal .f32) (((cfg12.win 2).blk t).view.emb x) = (V c main_v202 : S1x32.Idx → Elt Ideal .f32) x
  congr 1
  funext a; apply Fin.ext
  match a with
  | ⟨0, _⟩ => show win12_2.index t (0 : Fin 2) * 1 + 1 * (x 0).val = (x 0).val; omega
  | ⟨1, _⟩ => show win12_2.index t (1 : Fin 2) * 32 + 1 * (x 1).val = (x 1).val; omega

theorem iblk12_3_eq (c : Dev nD) (t : Fin cfg12.N) : (iblk12 V c 3 t : Vec Ideal S32x16 .f32) = (V c main_arg11 : S32x16.Idx → Elt Ideal .f32) := by
  obtain ⟨-, -, -, -, -, -, e0, e1, -⟩ := idx_facts12 t
  unfold iblk12
  funext x
  show (V c main_arg11 : S32x16.Idx → Elt Ideal .f32) (((cfg12.win 3).blk t).view.emb x) = (V c main_arg11 : S32x16.Idx → Elt Ideal .f32) x
  congr 1
  funext a; apply Fin.ext
  match a with
  | ⟨0, _⟩ => show win12_3.index t (0 : Fin 2) * 32 + 1 * (x 0).val = (x 0).val; omega
  | ⟨1, _⟩ => show win12_3.index t (1 : Fin 2) * 16 + 1 * (x 1).val = (x 1).val; omega

theorem iblk12_4_eq (c : Dev nD) (t : Fin cfg12.N) : (iblk12 V c 4 t : Vec Ideal S1x16 .f32) = (V c main_v203 : S1x16.Idx → Elt Ideal .f32) := by
  obtain ⟨-, -, -, -, -, -, -, -, e0, e1, -⟩ := idx_facts12 t
  unfold iblk12
  funext x
  show (V c main_v203 : S1x16.Idx → Elt Ideal .f32) (((cfg12.win 4).blk t).view.emb x) = (V c main_v203 : S1x16.Idx → Elt Ideal .f32) x
  congr 1
  funext a; apply Fin.ext
  match a with
  | ⟨0, _⟩ => show win12_4.index t (0 : Fin 2) * 1 + 1 * (x 0).val = (x 0).val; omega
  | ⟨1, _⟩ => show win12_4.index t (1 : Fin 2) * 16 + 1 * (x 1).val = (x 1).val; omega

theorem iblk12_5_eq (c : Dev nD) (t : Fin cfg12.N) : (iblk12 V c 5 t : Vec Ideal S16x10 .f32) = (V c main_arg13 : S16x10.Idx → Elt Ideal .f32) := by
  obtain ⟨-, -, -, -, -, -, -, -, -, -, e0, e1, -⟩ := idx_facts12 t
  unfold iblk12
  funext x
  show (V c main_arg13 : S16x10.Idx → Elt Ideal .f32) (((cfg12.win 5).blk t).view.emb x) = (V c main_arg13 : S16x10.Idx → Elt Ideal .f32) x
  congr 1
  funext a; apply Fin.ext
  match a with
  | ⟨0, _⟩ => show win12_5.index t (0 : Fin 2) * 16 + 1 * (x 0).val = (x 0).val; omega
  | ⟨1, _⟩ => show win12_5.index t (1 : Fin 2) * 10 + 1 * (x 1).val = (x 1).val; omega

theorem iblk12_6_eq (c : Dev nD) (t : Fin cfg12.N) : (iblk12 V c 6 t : Vec Ideal S1x10 .f32) = (V c main_v204 : S1x10.Idx → Elt Ideal .f32) := by
  obtain ⟨-, -, -, -, -, -, -, -, -, -, -, -, e0, e1, -⟩ := idx_facts12 t
  unfold iblk12
  funext x
  show (V c main_v204 : S1x10.Idx → Elt Ideal .f32) (((cfg12.win 6).blk t).view.emb x) = (V c main_v204 : S1x10.Idx → Elt Ideal .f32) x
  congr 1
  funext a; apply Fin.ext
  match a with
  | ⟨0, _⟩ => show win12_6.index t (0 : Fin 2) * 1 + 1 * (x 0).val = (x 0).val; omega
  | ⟨1, _⟩ => show win12_6.index t (1 : Fin 2) * 10 + 1 * (x 1).val = (x 1).val; omega

theorem pay12_fun (x : Vec Ideal S64x64 .f32) (w1 : Vec Ideal S64x32 .f32) (b1 : Vec Ideal S1x32 .f32) (w2 : Vec Ideal S32x16 .f32) (b2 : Vec Ideal S1x16 .f32)
    (w3 : Vec Ideal S16x10 .f32) (b3 : Vec Ideal S1x10 .f32) :
    k12_pay1 (F := Ideal) x w1 b1 w2 b2 w3 b3 = fun j : S64x10.Idx => Cert.Spec.mlp x w1 b1 w2 b2 w3 b3 (j 0) (j 1) := by
  funext j
  obtain ⟨p, q, rfl⟩ : ∃ (p : Fin 64) (q : Fin 10), j = ix2 p q := ⟨j 0, j 1, eq_ix2 j⟩
  exact pay12 x w1 b1 w2 b2 w3 b3 p q

abbrev G12 (c : Dev nD) : S64x10.Idx → Elt Ideal .f32 := fun j =>
  Cert.Spec.mlp (V c main_v201) (V c main_arg9) (V c main_v202) (V c main_arg11) (V c main_v203) (V c main_arg13) (V c main_v204) (j 0) (j 1)

theorem flushed12_7_eq (c : Dev nD) (t : Fin cfg12.N) :
    (dat12 V c).flushed 7 t = ((cfg12.win 7).blk t).view.read (Elt Ideal) (G12 V c) := by
  show (cfg12.win 7).cut (grid12.coords t) ((dat12 V c).after 7 t) = _
  rw [after12_7]
  unfold out12_7
  rw [View.canon_unit_zero hz12]
  simp only [View.ld_unit_zero (S := S64x64) hz12, View.ld_unit_zero (S := S64x32) hz12, View.ld_unit_zero (S := S1x32) hz12,
    View.ld_unit_zero (S := S32x16) hz12, View.ld_unit_zero (S := S1x16) hz12, View.ld_unit_zero (S := S16x10) hz12, View.ld_unit_zero (S := S1x10) hz12]
  rw [iblk12_0_eq, iblk12_1_eq, iblk12_2_eq, iblk12_3_eq, iblk12_4_eq, iblk12_5_eq, iblk12_6_eq, pay12_fun]
  obtain ⟨-, -, -, -, -, -, -, -, -, -, -, -, -, -, e0, e1⟩ := idx_facts12 t
  funext j
  show Cert.Spec.mlp (V c main_v201) (V c main_arg9) (V c main_v202) (V c main_arg11) (V c main_v203) (V c main_arg13) (V c main_v204) (j 0) (j 1)
    = Cert.Spec.mlp (V c main_v201) (V c main_arg9) (V c main_v202) (V c main_arg11) (V c main_v203) (V c main_arg13) (V c main_v204)
        ((((cfg12.win 7).blk t).view.emb j) 0) ((((cfg12.win 7).blk t).view.emb j) 1)
  congr 1 <;> apply Fin.ext
  · show (j 0).val = win12_7.index t (0 : Fin 2) * 64 + 1 * (j 0).val; omega
  · show (j 1).val = win12_7.index t (1 : Fin 2) * 10 + 1 * (j 1).val; omega

theorem cover12 (i : S64x10.Idx) : ∃ t : Fin cfg12.N, (cfg12.win 7).flush t = true ∧ i ∈ ((cfg12.win 7).blk t).view.set := by
  refine ⟨t12_0, flush12_7 t12_0, ?_⟩
  obtain ⟨-, -, -, -, -, -, -, -, -, -, -, -, -, -, e0, e1⟩ := idx_facts12 t12_0
  show i ∈ ((View.whole main_v205).slice (win12_7.rect t12_0)).set
  rw [View.set_slice_whole, Rect.mem_set_unit]
  intro a
  have h0 : (i 0).val < 64 := (i 0).isLt
  have h1 : (i 1).val < 10 := (i 1).isLt
  match a with
  | ⟨0, _⟩ => show win12_7.index t12_0 (0 : Fin 2) * 64 ≤ (i 0).val ∧ (i 0).val < win12_7.index t12_0 (0 : Fin 2) * 64 + 64; omega
  | ⟨1, _⟩ => show win12_7.index t12_0 (1 : Fin 2) * 10 ≤ (i 1).val ∧ (i 1).val < win12_7.index t12_0 (1 : Fin 2) * 10 + 10; omega

theorem final12_eq (c : Dev nD) : (dat12 V c).arrAt 7 cfg12.N = G12 V c :=
  (dat12 V c).arrAt_eq_of_cover 7 (G12 V c) (fun t _ => flushed12_7_eq V c t) (cover12)

theorem final12 (c : Dev nD) (p : Fin 64) (q : Fin 10) :
    (dat12 V c).arrAt 7 cfg12.N (ix2 p q)
      = Cert.Spec.mlp (V c main_v201) (V c main_arg9) (V c main_v202) (V c main_arg11) (V c main_v203) (V c main_arg13) (V c main_v204) p q := by
  rw [final12_eq]

end Cert.KernelIdeal.Net

end
-- ==== Proof.RefSpec.lean ====
import proofs.«420664_j68839735820523_2_alg».proof.Proof.RefRead
import proofs.«420664_j68839735820523_2_alg».proof.Proof.Spec

noncomputable section

namespace Cert.ReferenceIdeal.SpecP

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

variable (x0 : (⟨S50000x128, .f32⟩ : BufTy).Contents (Elt Ideal)) (x1 : (⟨S2x800000, .i32⟩ : BufTy).Contents (Elt Ideal))
  (x3 : (⟨S128x64, .f32⟩ : BufTy).Contents (Elt Ideal)) (x4 : (⟨S64, .f32⟩ : BufTy).Contents (Elt Ideal))
  (x5 : (⟨S3x64x64, .f32⟩ : BufTy).Contents (Elt Ideal)) (x6 : (⟨S3x64, .f32⟩ : BufTy).Contents (Elt Ideal))
  (x7 x8 : (⟨S64, .f32⟩ : BufTy).Contents (Elt Ideal))

theorem ref_v11 (p : Fin 50000) (q : Fin 64) :
    val_main_v11 (F := Ideal) x0 x3 (ix2 p q) = Cert.Spec.mm x0 x3 p q := by
  rw [val_main_v11_apply]
  unfold Cert.Spec.mm
  refine Finset.sum_congr rfl fun k _ => ?_
  have el : lidx_main_v11 (ix2 p q) k = ix2 p k :=
    funext fun a => Fin.ext (by match a with | ⟨0, _⟩ => rfl | ⟨1, _⟩ => rfl)
  have er : ridx_main_v11 (ix2 p q) k = ix2 k q :=
    funext fun a => Fin.ext (by match a with | ⟨0, _⟩ => rfl | ⟨1, _⟩ => rfl)
  rw [el, er]

theorem ref_v48 (p : Fin 50000) (q : Fin 64) :
    val_main_v48 (F := Ideal) x0 x1 x3 x4 (ix2 p q)
      = Cert.Spec.combRelu (val_main_v39 (F := Ideal) x0 x1 x3) (val_main_v11 (F := Ideal) x0 x3)
          (fun j => val_main_v40 (F := Ideal) x1 (ix1 (j 0))) (fun j => x4 (ix1 (j 1))) p q := by
  have ed : idx_main_v41 (idx_main_v42 (ix2 p q)) = ix1 p :=
    funext fun a => Fin.ext (by match a with | ⟨0, _⟩ => rfl)
  have eb : idx_main_v45 (idx_main_v46 (ix2 p q)) = ix1 q :=
    funext fun a => Fin.ext (by match a with | ⟨0, _⟩ => rfl)
  rw [val_main_v48_apply, val_main_v47_apply, val_main_v44_apply, val_main_v43_apply, val_main_v42_apply,
    val_main_v41_apply, val_main_v46_apply, val_main_v45_apply, val_main_call0_v0_apply, val_main_call0_cst_apply, ed, eb]
  simp only [Ideal.addf_def, Ideal.mulf_def, Ideal.maximumf_def, Ideal.ofBits_def]
  unfold Cert.Spec.combRelu Cert.Spec.relu Cert.Spec.comb
  rfl

theorem ref_v53 (p : Fin 50000) (q : Fin 64) :
    val_main_v53 (F := Ideal) x0 x1 x3 x4 x5 (ix2 p q)
      = Cert.Spec.mm (val_main_v48 (F := Ideal) x0 x1 x3 x4) (val_main_v50 (F := Ideal) x5) p q := by
  rw [val_main_v53_apply]
  unfold Cert.Spec.mm
  refine Finset.sum_congr rfl fun k _ => ?_
  have el : lidx_main_v53 (ix2 p q) k = ix2 p k :=
    funext fun a => Fin.ext (by match a with | ⟨0, _⟩ => rfl | ⟨1, _⟩ => rfl)
  have er : ridx_main_v53 (ix2 p q) k = ix2 k q :=
    funext fun a => Fin.ext (by match a with | ⟨0, _⟩ => rfl | ⟨1, _⟩ => rfl)
  rw [el, er]

theorem ref_v89 (p : Fin 50000) (q : Fin 64) :
    val_main_v89 (F := Ideal) x0 x1 x3 x4 x5 x6 (ix2 p q)
      = Cert.Spec.comb (val_main_v81 (F := Ideal) x0 x1 x3 x4 x5) (val_main_v53 (F := Ideal) x0 x1 x3 x4 x5)
          (fun j => val_main_v82 (F := Ideal) x1 (ix1 (j 0))) (fun j => val_main_v52 (F := Ideal) x6 (ix1 (j 1))) p q := by
  have ed : idx_main_v83 (idx_main_v84 (ix2 p q)) = ix1 p :=
    funext fun a => Fin.ext (by match a with | ⟨0, _⟩ => rfl)
  have eb : idx_main_v87 (idx_main_v88 (ix2 p q)) = ix1 q :=
    funext fun a => Fin.ext (by match a with | ⟨0, _⟩ => rfl)
  rw [val_main_v89_apply, val_main_v86_apply, val_main_v85_apply, val_main_v84_apply, val_main_v83_apply,
    val_main_v88_apply, val_main_v87_apply, ed, eb]
  simp only [Ideal.addf_def, Ideal.mulf_def]
  unfold Cert.Spec.comb
  rfl

theorem ref_v115 (p : Fin 50000) (q : Fin 64) :
    val_main_v115 (F := Ideal) x0 x1 x3 x4 x5 x6 x7 x8 (ix2 p q)
      = Cert.Spec.bnRelu (val_main_v89 (F := Ideal) x0 x1 x3 x4 x5 x6) (fun j => x7 (ix1 (j 1))) (fun j => x8 (ix1 (j 1)))
          (fun j => val_main_v92 (F := Ideal) x0 x1 x3 x4 x5 x6 (ix1 (j 1)))
          (fun j => val_main_v99 (F := Ideal) x0 x1 x3 x4 x5 x6 (ix1 (j 1))) p q := by
  have em : idx_main_v100 (idx_main_v101 (ix2 p q)) = ix1 q :=
    funext fun a => Fin.ext (by match a with | ⟨0, _⟩ => rfl)
  have es : idx_main_v106 (idx_main_v107 (ix2 p q)) = ix1 q :=
    funext fun a => Fin.ext (by match a with | ⟨0, _⟩ => rfl)
  have eg : idx_main_v109 (idx_main_v110 (ix2 p q)) = ix1 q :=
    funext fun a => Fin.ext (by match a with | ⟨0, _⟩ => rfl)
  have eb : idx_main_v112 (idx_main_v113 (ix2 p q)) = ix1 q :=
    funext fun a => Fin.ext (by match a with | ⟨0, _⟩ => rfl)
  rw [val_main_v115_apply, val_main_v114_apply, val_main_v111_apply, val_main_v108_apply, val_main_v102_apply,
    val_main_v101_apply, val_main_v100_apply, val_main_v107_apply, val_main_v106_apply, val_main_v105_apply,
    val_main_v104_apply, val_main_v103_apply, val_main_cst_19_apply, val_main_v110_apply, val_main_v109_apply,
    val_main_v113_apply, val_main_v112_apply, val_main_call1_v0_apply, val_main_call1_cst_apply, em, es, eg, eb]
  simp only [Ideal.addf_def, Ideal.subf_def, Ideal.mulf_def, Ideal.maximumf_def, Ideal.hostUnary_rsqrt_def, Ideal.ofBits_def]
  unfold Cert.Spec.bnRelu Cert.Spec.relu
  rfl

theorem ref_v120 (p : Fin 50000) (q : Fin 64) :
    val_main_v120 (F := Ideal) x0 x1 x3 x4 x5 x6 x7 x8 (ix2 p q)
      = Cert.Spec.mm (val_main_v115 (F := Ideal) x0 x1 x3 x4 x5 x6 x7 x8) (val_main_v117 (F := Ideal) x5) p q := by
  rw [val_main_v120_apply]
  unfold Cert.Spec.mm
  refine Finset.sum_congr rfl fun k _ => ?_
  have el : lidx_main_v120 (ix2 p q) k = ix2 p k :=
    funext fun a => Fin.ext (by match a with | ⟨0, _⟩ => rfl | ⟨1, _⟩ => rfl)
  have er : ridx_main_v120 (ix2 p q) k = ix2 k q :=
    funext fun a => Fin.ext (by match a with | ⟨0, _⟩ => rfl | ⟨1, _⟩ => rfl)
  rw [el, er]

theorem ref_v156 (p : Fin 50000) (q : Fin 64) :
    val_main_v156 (F := Ideal) x0 x1 x3 x4 x5 x6 x7 x8 (ix2 p q)
      = Cert.Spec.comb (val_main_v148 (F := Ideal) x0 x1 x3 x4 x5 x6 x7 x8) (val_main_v120 (F := Ideal) x0 x1 x3 x4 x5 x6 x7 x8)
          (fun j => val_main_v149 (F := Ideal) x1 (ix1 (j 0))) (fun j => val_main_v119 (F := Ideal) x6 (ix1 (j 1))) p q := by
  have ed : idx_main_v150 (idx_main_v151 (ix2 p q)) = ix1 p :=
    funext fun a => Fin.ext (by match a with | ⟨0, _⟩ => rfl)
  have eb : idx_main_v154 (idx_main_v155 (ix2 p q)) = ix1 q :=
    funext fun a => Fin.ext (by match a with | ⟨0, _⟩ => rfl)
  rw [val_main_v156_apply, val_main_v153_apply, val_main_v152_apply, val_main_v151_apply, val_main_v150_apply,
    val_main_v155_apply, val_main_v154_apply, ed, eb]
  simp only [Ideal.addf_def, Ideal.mulf_def]
  unfold Cert.Spec.comb
  rfl

theorem ref_v182 (p : Fin 50000) (q : Fin 64) :
    val_main_v182 (F := Ideal) x0 x1 x3 x4 x5 x6 x7 x8 (ix2 p q)
      = Cert.Spec.bnRelu (val_main_v156 (F := Ideal) x0 x1 x3 x4 x5 x6 x7 x8) (fun j => x7 (ix1 (j 1))) (fun j => x8 (ix1 (j 1)))
          (fun j => val_main_v159 (F := Ideal) x0 x1 x3 x4 x5 x6 x7 x8 (ix1 (j 1)))
          (fun j => val_main_v166 (F := Ideal) x0 x1 x3 x4 x5 x6 x7 x8 (ix1 (j 1))) p q := by
  have em : idx_main_v167 (idx_main_v168 (ix2 p q)) = ix1 q :=
    funext fun a => Fin.ext (by match a with | ⟨0, _⟩ => rfl)
  have es : idx_main_v173 (idx_main_v174 (ix2 p q)) = ix1 q :=
    funext fun a => Fin.ext (by match a with | ⟨0, _⟩ => rfl)
  have eg : idx_main_v176 (idx_main_v177 (ix2 p q)) = ix1 q :=
    funext fun a => Fin.ext (by match a with | ⟨0, _⟩ => rfl)
  have eb : idx_main_v179 (idx_main_v180 (ix2 p q)) = ix1 q :=
    funext fun a => Fin.ext (by match a with | ⟨0, _⟩ => rfl)
  rw [val_main_v182_apply, val_main_v181_apply, val_main_v178_apply, val_main_v175_apply, val_main_v169_apply,
    val_main_v168_apply, val_main_v167_apply, val_main_v174_apply, val_main_v173_apply, val_main_v172_apply,
    val_main_v171_apply, val_main_v170_apply, val_main_cst_31_apply, val_main_v177_apply, val_main_v176_apply,
    val_main_v180_apply, val_main_v179_apply, val_main_call2_v0_apply, val_main_call2_cst_apply, em, es, eg, eb]
  simp only [Ideal.addf_def, Ideal.subf_def, Ideal.mulf_def, Ideal.maximumf_def, Ideal.hostUnary_rsqrt_def, Ideal.ofBits_def]
  unfold Cert.Spec.bnRelu Cert.Spec.relu
  rfl

theorem ref_v187 (p : Fin 50000) (q : Fin 64) :
    val_main_v187 (F := Ideal) x0 x1 x3 x4 x5 x6 x7 x8 (ix2 p q)
      = Cert.Spec.mm (val_main_v182 (F := Ideal) x0 x1 x3 x4 x5 x6 x7 x8) (val_main_v184 (F := Ideal) x5) p q := by
  rw [val_main_v187_apply]
  unfold Cert.Spec.mm
  refine Finset.sum_congr rfl fun k _ => ?_
  have el : lidx_main_v187 (ix2 p q) k = ix2 p k :=
    funext fun a => Fin.ext (by match a with | ⟨0, _⟩ => rfl | ⟨1, _⟩ => rfl)
  have er : ridx_main_v187 (ix2 p q) k = ix2 k q :=
    funext fun a => Fin.ext (by match a with | ⟨0, _⟩ => rfl | ⟨1, _⟩ => rfl)
  rw [el, er]

theorem ref_v223 (p : Fin 50000) (q : Fin 64) :
    val_main_v223 (F := Ideal) x0 x1 x3 x4 x5 x6 x7 x8 (ix2 p q)
      = Cert.Spec.comb (val_main_v215 (F := Ideal) x0 x1 x3 x4 x5 x6 x7 x8) (val_main_v187 (F := Ideal) x0 x1 x3 x4 x5 x6 x7 x8)
          (fun j => val_main_v216 (F := Ideal) x1 (ix1 (j 0))) (fun j => val_main_v186 (F := Ideal) x6 (ix1 (j 1))) p q := by
  have ed : idx_main_v217 (idx_main_v218 (ix2 p q)) = ix1 p :=
    funext fun a => Fin.ext (by match a with | ⟨0, _⟩ => rfl)
  have eb : idx_main_v221 (idx_main_v222 (ix2 p q)) = ix1 q :=
    funext fun a => Fin.ext (by match a with | ⟨0, _⟩ => rfl)
  rw [val_main_v223_apply, val_main_v220_apply, val_main_v219_apply, val_main_v218_apply, val_main_v217_apply,
    val_main_v222_apply, val_main_v221_apply, ed, eb]
  simp only [Ideal.addf_def, Ideal.mulf_def]
  unfold Cert.Spec.comb
  rfl

theorem ref_v249 (p : Fin 50000) (q : Fin 64) :
    val_main_v249 (F := Ideal) x0 x1 x3 x4 x5 x6 x7 x8 (ix2 p q)
      = Cert.Spec.bnRelu (val_main_v223 (F := Ideal) x0 x1 x3 x4 x5 x6 x7 x8) (fun j => x7 (ix1 (j 1))) (fun j => x8 (ix1 (j 1)))
          (fun j => val_main_v226 (F := Ideal) x0 x1 x3 x4 x5 x6 x7 x8 (ix1 (j 1)))
          (fun j => val_main_v233 (F := Ideal) x0 x1 x3 x4 x5 x6 x7 x8 (ix1 (j 1))) p q := by
  have em : idx_main_v234 (idx_main_v235 (ix2 p q)) = ix1 q :=
    funext fun a => Fin.ext (by match a with | ⟨0, _⟩ => rfl)
  have es : idx_main_v240 (idx_main_v241 (ix2 p q)) = ix1 q :=
    funext fun a => Fin.ext (by match a with | ⟨0, _⟩ => rfl)
  have eg : idx_main_v243 (idx_main_v244 (ix2 p q)) = ix1 q :=
    funext fun a => Fin.ext (by match a with | ⟨0, _⟩ => rfl)
  have eb : idx_main_v246 (idx_main_v247 (ix2 p q)) = ix1 q :=
    funext fun a => Fin.ext (by match a with | ⟨0, _⟩ => rfl)
  rw [val_main_v249_apply, val_main_v248_apply, val_main_v245_apply, val_main_v242_apply, val_main_v236_apply,
    val_main_v235_apply, val_main_v234_apply, val_main_v241_apply, val_main_v240_apply, val_main_v239_apply,
    val_main_v238_apply, val_main_v237_apply, val_main_cst_43_apply, val_main_v244_apply, val_main_v243_apply,
    val_main_v247_apply, val_main_v246_apply, val_main_call3_v0_apply, val_main_call3_cst_apply, em, es, eg, eb]
  simp only [Ideal.addf_def, Ideal.subf_def, Ideal.mulf_def, Ideal.maximumf_def, Ideal.hostUnary_rsqrt_def, Ideal.ofBits_def]
  unfold Cert.Spec.bnRelu Cert.Spec.relu
  rfl

end Cert.ReferenceIdeal.SpecP

end
-- ==== Proof.RefSpec2.lean ====
import proofs.«420664_j68839735820523_2_alg».proof.Proof.RefRead
import proofs.«420664_j68839735820523_2_alg».proof.Proof.Spec

noncomputable section

namespace Cert.ReferenceIdeal.SpecP2

open Cert.ReferenceIdeal Cert.ReferenceIdeal.Gen Cert.ReferenceIdeal.ReadP Idealize.ShloMosaic Idealize.ShloMosaic.ValueIdx

abbrev dPool : ScatterDims S64x64 S50000x1 S50000x64 := scatter_S64x64_S50000x1_S50000x64_1_0_0_1

theorem mem0 : (0 : Fin S64x64.rank) ∈ dPool.scatterDimsToOperandDims := List.mem_singleton.mpr rfl

theorem nmem1 : ¬ (1 : Fin S64x64.rank) ∈ dPool.scatterDimsToOperandDims := by decide

theorem start0 (idx : IVec S50000x1 32) (p : Fin 50000) (q' : Fin 64) :
    dPool.start (ix2 p q') idx 0 = (idx (ix2 p 0)).toInt := by
  unfold ScatterDims.start
  rw [dif_pos mem0]
  have hsi : dPool.siIdx (ix2 p q') ⟨List.idxOf (0 : Fin S64x64.rank) dPool.scatterDimsToOperandDims,
      List.idxOf_lt_length_iff.2 mem0⟩ = ix2 p 0 := by
    funext b; refine Fin.ext ?_
    match b with
    | ⟨0, _⟩ => rfl
    | ⟨1, _⟩ => rfl
  rw [hsi]

theorem start1 (idx : IVec S50000x1 32) (p : Fin 50000) (q' : Fin 64) :
    dPool.start (ix2 p q') idx 1 = 0 := by
  unfold ScatterDims.start
  rw [dif_neg nmem1]

theorem window0 (p : Fin 50000) (q' : Fin 64) : dPool.window (ix2 p q') 0 = 0 := by
  unfold ScatterDims.window
  rw [dif_neg (by decide)]

theorem window1 (p : Fin 50000) (q' : Fin 64) : dPool.window (ix2 p q') 1 = q'.val := by
  unfold ScatterDims.window
  rw [dif_pos (by decide)]
  rfl

theorem toInt_eq_iff (b : BitVec 32) (g : Fin 64) : b.toInt = (g.val : Int) ↔ b = BitVec.ofNat 32 g.val := by
  have hg := g.isLt
  have hb := b.isLt
  have hc := BitVec.toInt_eq_toNat_cond b
  constructor
  · intro h
    apply BitVec.eq_of_toNat_eq
    rw [BitVec.toNat_ofNat]
    split at hc <;> omega
  · intro h
    have hn : b.toNat = g.val % 2 ^ 32 := by rw [h, BitVec.toNat_ofNat]
    split at hc <;> omega

theorem lands_iff (idx : IVec S50000x1 32) (p : Fin 50000) (q' : Fin 64) (g q : Fin 64) :
    dPool.resultIdx? (ix2 p q') idx = some (ix2 g q) ↔ (idx (ix2 p 0) = BitVec.ofNat 32 g.val ∧ q' = q) := by
  rw [← toInt_eq_iff]
  unfold ScatterDims.resultIdx?
  have hg := g.isLt
  have hq := q.isLt
  have hq' := q'.isLt
  constructor
  · intro h
    split at h
    · rename_i hr
      have e := Option.some.inj h
      have e0 := congrArg (fun f => (f 0).val) e
      have e1 := congrArg (fun f => (f 1).val) e
      have h0 := (hr 0).1
      have h1 := (hr 1).1
      simp only [start0, start1, window0, window1] at e0 e1 h0 h1
      change ((idx (ix2 p 0)).toInt + ((0 : Nat) : Int)).toNat = g.val at e0
      change ((0 : Int) + ((q'.val : Nat) : Int)).toNat = q.val at e1
      refine ⟨by omega, Fin.ext (by omega)⟩
    · exact absurd h (by simp)
  · rintro ⟨h0, rfl⟩
    have hr : ∀ a, 0 ≤ dPool.start (ix2 p q') idx a + dPool.window (ix2 p q') a ∧
        dPool.start (ix2 p q') idx a + dPool.window (ix2 p q') a < S64x64.size a := by
      intro a
      match a with
      | ⟨0, _⟩ =>
        show 0 ≤ dPool.start (ix2 p q') idx 0 + dPool.window (ix2 p q') 0 ∧ dPool.start (ix2 p q') idx 0 + dPool.window (ix2 p q') 0 < (64 : Nat)
        rw [start0, window0, h0]; omega
      | ⟨1, _⟩ =>
        show 0 ≤ dPool.start (ix2 p q') idx 1 + dPool.window (ix2 p q') 1 ∧ dPool.start (ix2 p q') idx 1 + dPool.window (ix2 p q') 1 < (64 : Nat)
        rw [start1, window1]; omega
    rw [dif_pos hr]
    refine congrArg some (funext fun a => Fin.ext ?_)
    match a with
    | ⟨0, _⟩ =>
      show (dPool.start (ix2 p q') idx 0 + dPool.window (ix2 p q') 0).toNat = g.val
      rw [start0, window0, h0]; omega
    | ⟨1, _⟩ =>
      show (dPool.start (ix2 p q') idx 1 + dPool.window (ix2 p q') 1).toNat = q'.val
      rw [start1, window1]; omega

theorem scatter_pool (z : S64x64.Idx → EReal) (hz : ∀ i, z i = 0) (idx : IVec S50000x1 32)
    (upd : S50000x64.Idx → EReal) (g q : Fin 64) :
    Ideal.hostScatterAdd dPool z idx upd (ix2 g q) =
      ∑ p : Fin 50000, (if idx (ix2 p 0) = BitVec.ofNat 32 g.val then upd (ix2 p q) else 0) := by
  unfold Ideal.hostScatterAdd
  rw [hz, zero_add, Finset.sum_filter, sum_idx2]
  refine Finset.sum_congr rfl fun p _ => ?_
  by_cases hp : idx (ix2 p 0) = BitVec.ofNat 32 g.val
  · rw [if_pos hp, Finset.sum_eq_single q]
    · rw [if_pos ((lands_iff idx p q g q).mpr ⟨hp, rfl⟩)]
    · intro q' _ hne
      rw [if_neg (fun h => hne ((lands_iff idx p q' g q).mp h).2)]
    · intro h; exact absurd (Finset.mem_univ q) h
  · rw [if_neg hp]
    refine Finset.sum_eq_zero fun q' _ => ?_
    rw [if_neg (fun h => hp ((lands_iff idx p q' g q).mp h).1)]

variable (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x64, .f32⟩ : BufTy).Contents (Elt Ideal)) (x4 : (⟨S64, .f32⟩ : BufTy).Contents (Elt Ideal)) (x5 : (⟨S3x64x64, .f32⟩ : BufTy).Contents (Elt Ideal)) (x6 : (⟨S3x64, .f32⟩ : BufTy).Contents (Elt Ideal)) (x7 x8 : (⟨S64, .f32⟩ : BufTy).Contents (Elt Ideal))

theorem bidx251 (p : Fin 50000) : idx_main_v251 (ix2 p 0) = ix1 p :=
  funext fun a => Fin.ext (by match a with | ⟨0, _⟩ => rfl)

theorem ref_v252 (g q : Fin 64) :
    val_main_v252 (F := Ideal) x0 x1 x2 x3 x4 x5 x6 x7 x8 (ix2 g q) =
      Cert.Spec.pool (val_main_v249 (F := Ideal) x0 x1 x3 x4 x5 x6 x7 x8) (fun j => x2 (ix1 (j 0))) g q := by
  unfold val_main_v252 Cert.Spec.pool
  refine (scatter_pool (val_main_v250 (F := Ideal)) (fun i => ?_) (val_main_v251 (F := Ideal) x2)
    (val_main_v249 (F := Ideal) x0 x1 x3 x4 x5 x6 x7 x8) g q).trans ?_
  · rw [val_main_v250_apply, val_main_cst_44_apply, Ideal.ofBits_def, Ideal.ofBits_zero_f32]
  · refine Finset.sum_congr rfl fun p _ => ?_
    rw [val_main_v251_apply, bidx251]

variable (x9 : (⟨S64x32, .f32⟩ : BufTy).Contents (Elt Ideal)) (x10 : (⟨S32, .f32⟩ : BufTy).Contents (Elt Ideal)) (x11 : (⟨S32x16, .f32⟩ : BufTy).Contents (Elt Ideal)) (x12 : (⟨S16, .f32⟩ : BufTy).Contents (Elt Ideal)) (x13 : (⟨S16x10, .f32⟩ : BufTy).Contents (Elt Ideal)) (x14 : (⟨S10, .f32⟩ : BufTy).Contents (Elt Ideal))

theorem lidx262 (p : Fin 64) (r : Fin 32) (k : Fin 64) : lidx_main_v262 (ix2 p r) k = ix2 p k :=
  funext fun a => Fin.ext (by match a with | ⟨0, _⟩ => rfl | ⟨1, _⟩ => rfl)

theorem ridx262 (p : Fin 64) (r : Fin 32) (k : Fin 64) : ridx_main_v262 (ix2 p r) k = ix2 k r :=
  funext fun a => Fin.ext (by match a with | ⟨0, _⟩ => rfl | ⟨1, _⟩ => rfl)

theorem bidx264 (p : Fin 64) (r : Fin 32) : idx_main_v263 (idx_main_v264 (ix2 p r)) = ix1 r :=
  funext fun a => Fin.ext (by match a with | ⟨0, _⟩ => rfl)

theorem lidx267 (p : Fin 64) (r : Fin 16) (k : Fin 32) : lidx_main_v267 (ix2 p r) k = ix2 p k :=
  funext fun a => Fin.ext (by match a with | ⟨0, _⟩ => rfl | ⟨1, _⟩ => rfl)

theorem ridx267 (p : Fin 64) (r : Fin 16) (k : Fin 32) : ridx_main_v267 (ix2 p r) k = ix2 k r :=
  funext fun a => Fin.ext (by match a with | ⟨0, _⟩ => rfl | ⟨1, _⟩ => rfl)

theorem bidx269 (p : Fin 64) (r : Fin 16) : idx_main_v268 (idx_main_v269 (ix2 p r)) = ix1 r :=
  funext fun a => Fin.ext (by match a with | ⟨0, _⟩ => rfl)

theorem lidx272 (p : Fin 64) (r : Fin 10) (k : Fin 16) : lidx_main_v272 (ix2 p r) k = ix2 p k :=
  funext fun a => Fin.ext (by match a with | ⟨0, _⟩ => rfl | ⟨1, _⟩ => rfl)

theorem ridx272 (p : Fin 64) (r : Fin 10) (k : Fin 16) : ridx_main_v272 (ix2 p r) k = ix2 k r :=
  funext fun a => Fin.ext (by match a with | ⟨0, _⟩ => rfl | ⟨1, _⟩ => rfl)

theorem bidx274 (p : Fin 64) (r : Fin 10) : idx_main_v273 (idx_main_v274 (ix2 p r)) = ix1 r :=
  funext fun a => Fin.ext (by match a with | ⟨0, _⟩ => rfl)

theorem ref_v266 :
    val_main_v266 (F := Ideal) x0 x1 x2 x3 x4 x5 x6 x7 x8 x9 x10 =
      Cert.Spec.hidden (val_main_v261 (F := Ideal) x0 x1 x2 x3 x4 x5 x6 x7 x8) x9 (fun j => x10 (ix1 (j 1))) := by
  funext i
  obtain ⟨p, r, rfl⟩ : ∃ (p : Fin 64) (r : Fin 32), i = ix2 p r := ⟨i 0, i 1, eq_ix2 i⟩
  rw [val_main_v266_apply, val_main_v265_apply, val_main_v262_apply, val_main_v264_apply, val_main_v263_apply,
    val_main_call4_v0_apply, val_main_call4_cst_apply]
  simp only [lidx262, ridx262, bidx264, Ideal.addf_def, Ideal.maximumf_def, Ideal.ofBits_def]
  rfl

theorem ref_v271 :
    val_main_v271 (F := Ideal) x0 x1 x2 x3 x4 x5 x6 x7 x8 x9 x10 x11 x12 =
      Cert.Spec.hidden (Cert.Spec.hidden (val_main_v261 (F := Ideal) x0 x1 x2 x3 x4 x5 x6 x7 x8) x9 (fun j => x10 (ix1 (j 1))))
        x11 (fun j => x12 (ix1 (j 1))) := by
  funext i
  obtain ⟨p, r, rfl⟩ : ∃ (p : Fin 64) (r : Fin 16), i = ix2 p r := ⟨i 0, i 1, eq_ix2 i⟩
  rw [val_main_v271_apply, val_main_v270_apply, val_main_v267_apply, val_main_v269_apply, val_main_v268_apply,
    val_main_call5_v0_apply, val_main_call5_cst_apply, ref_v266]
  simp only [lidx267, ridx267, bidx269, Ideal.addf_def, Ideal.maximumf_def, Ideal.ofBits_def]
  rfl

theorem ref_v275 (p : Fin 64) (q : Fin 10) :
    val_main_v275 (F := Ideal) x0 x1 x2 x3 x4 x5 x6 x7 x8 x9 x10 x11 x12 x13 x14 (ix2 p q) =
      Cert.Spec.mlp (val_main_v261 (F := Ideal) x0 x1 x2 x3 x4 x5 x6 x7 x8) x9 (fun j => x10 (ix1 (j 1)))
        x11 (fun j => x12 (ix1 (j 1))) x13 (fun j => x14 (ix1 (j 1))) p q := by
  rw [val_main_v275_apply, val_main_v272_apply, val_main_v274_apply, val_main_v273_apply, ref_v271]
  simp only [lidx272, ridx272, bidx274, Ideal.addf_def]
  rfl

end Cert.ReferenceIdeal.SpecP2

end
-- ==== Proof.KI.Steps.lean ====
import proofs.«420664_j68839735820523_2_alg».proof.Proof.KI.Val0
import proofs.«420664_j68839735820523_2_alg».proof.Proof.KI.Val1
import proofs.«420664_j68839735820523_2_alg».proof.Proof.KI.Val2
import proofs.«420664_j68839735820523_2_alg».proof.Proof.KI.Val3
import proofs.«420664_j68839735820523_2_alg».proof.Proof.KI.Val4
import proofs.«420664_j68839735820523_2_alg».proof.Proof.KI.Val5
import proofs.«420664_j68839735820523_2_alg».proof.Proof.KI.Val6
import proofs.«420664_j68839735820523_2_alg».proof.Proof.KI.Val7
import proofs.«420664_j68839735820523_2_alg».proof.Proof.KI.Val8
import proofs.«420664_j68839735820523_2_alg».proof.Proof.KI.Val9
import proofs.«420664_j68839735820523_2_alg».proof.Proof.KI.Val10
import proofs.«420664_j68839735820523_2_alg».proof.Proof.KI.Val11
import proofs.«420664_j68839735820523_2_alg».proof.Proof.KI.Val12
import proofs.«420664_j68839735820523_2_alg».proof.Proof.RefSpec
import proofs.«420664_j68839735820523_2_alg».proof.Proof.RefSpec2
import Idealize.ShloMosaic.Lib.ValueIdx

set_option maxRecDepth 16384

noncomputable section

namespace Cert.KernelIdeal.Net

open Cert.KernelIdeal Cert.KernelIdeal.Gen
open Idealize.ShloMosaic Idealize.ShloMosaic.TcCoe Idealize.SL.Sem
open Idealize.ShloMosaic.ValueIdx
open Idealize.ShloMosaic.Pipeline (Dat Cfg Window)
open Cert.ReferenceIdeal.ReadP

variable (V : (c : Dev nD) → (b : Ref sig .tc) → Buf (Elt Ideal) ((c : Thread nD τ).loc b)) (c : Dev nD)
variable (x0 : (⟨S50000x128, .f32⟩ : BufTy).Contents (Elt Ideal)) (x1 : (⟨S2x800000, .i32⟩ : BufTy).Contents (Elt Ideal))
  (x2 : (⟨S50000, .i32⟩ : BufTy).Contents (Elt Ideal)) (x3 : (⟨S128x64, .f32⟩ : BufTy).Contents (Elt Ideal))
  (x4 : (⟨S64, .f32⟩ : BufTy).Contents (Elt Ideal)) (x5 : (⟨S3x64x64, .f32⟩ : BufTy).Contents (Elt Ideal))
  (x6 : (⟨S3x64, .f32⟩ : BufTy).Contents (Elt Ideal)) (x7 x8 : (⟨S64, .f32⟩ : BufTy).Contents (Elt Ideal))
  (x9 : (⟨S64x32, .f32⟩ : BufTy).Contents (Elt Ideal)) (x10 : (⟨S32, .f32⟩ : BufTy).Contents (Elt Ideal))
  (x11 : (⟨S32x16, .f32⟩ : BufTy).Contents (Elt Ideal)) (x12 : (⟨S16, .f32⟩ : BufTy).Contents (Elt Ideal))
  (x13 : (⟨S16x10, .f32⟩ : BufTy).Contents (Elt Ideal)) (x14 : (⟨S10, .f32⟩ : BufTy).Contents (Elt Ideal))

open Cert.ReferenceIdeal.SpecP Cert.ReferenceIdeal.SpecP2

theorem step0 (h0 : V c main_arg0 = x0) (h3 : V c main_arg3 = x3) :
    (dat0 (F := Ideal) V c).arrAt 2 cfg0.N = val_main_v11 (F := Ideal) x0 x3 := by
  funext j
  obtain ⟨p, q, rfl⟩ : ∃ (p : Fin 50000) (q : Fin 64), j = ix2 p q := ⟨j 0, j 1, eq_ix2 j⟩
  rw [final0, ref_v11, h0, h3]

theorem step1 (hagg : V c main_v41 = val_main_v39 (F := Ideal) x0 x1 x3) (hh : V c main_v13 = val_main_v11 (F := Ideal) x0 x3)
    (hd : ∀ p : Fin 50000, V c main_v12 (ix2 p (0 : Fin 1)) = val_main_v40 (F := Ideal) x1 (ix1 p))
    (hb : ∀ q : Fin 64, V c main_v42 (ix2 (0 : Fin 1) q) = x4 (ix1 q)) :
    (dat1 (F := Ideal) V c).arrAt 4 cfg1.N = val_main_v48 (F := Ideal) x0 x1 x3 x4 := by
  funext j
  obtain ⟨p, q, rfl⟩ : ∃ (p : Fin 50000) (q : Fin 64), j = ix2 p q := ⟨j 0, j 1, eq_ix2 j⟩
  rw [final1, ref_v48, hagg, hh]
  unfold Cert.Spec.combRelu Cert.Spec.comb
  rw [hd p, hb q]

theorem step2 (h43 : V c main_v43 = val_main_v48 (F := Ideal) x0 x1 x3 x4) (h45 : V c main_v45 = val_main_v50 (F := Ideal) x5) :
    (dat2 (F := Ideal) V c).arrAt 2 cfg2.N = val_main_v53 (F := Ideal) x0 x1 x3 x4 x5 := by
  funext j
  obtain ⟨p, q, rfl⟩ : ∃ (p : Fin 50000) (q : Fin 64), j = ix2 p q := ⟨j 0, j 1, eq_ix2 j⟩
  rw [final2, ref_v53, h43, h45]

theorem step3 (hagg : V c main_v76 = val_main_v81 (F := Ideal) x0 x1 x3 x4 x5) (hh : V c main_v48 = val_main_v53 (F := Ideal) x0 x1 x3 x4 x5)
    (hd : ∀ p : Fin 50000, V c main_v12 (ix2 p (0 : Fin 1)) = val_main_v82 (F := Ideal) x1 (ix1 p))
    (hb : ∀ q : Fin 64, V c main_v77 (ix2 (0 : Fin 1) q) = val_main_v52 (F := Ideal) x6 (ix1 q)) :
    (dat3 (F := Ideal) V c).arrAt 4 cfg3.N = val_main_v89 (F := Ideal) x0 x1 x3 x4 x5 x6 := by
  funext j
  obtain ⟨p, q, rfl⟩ : ∃ (p : Fin 50000) (q : Fin 64), j = ix2 p q := ⟨j 0, j 1, eq_ix2 j⟩
  rw [final3, ref_v89, hagg, hh]
  unfold Cert.Spec.comb
  rw [hd p, hb q]

theorem step4 (hpre : V c main_v78 = val_main_v89 (F := Ideal) x0 x1 x3 x4 x5 x6)
    (hg : ∀ q : Fin 64, V c main_v90 (ix2 (0 : Fin 1) q) = x7 (ix1 q))
    (hbeta : ∀ q : Fin 64, V c main_v91 (ix2 (0 : Fin 1) q) = x8 (ix1 q))
    (hmu : ∀ q : Fin 64, V c main_v82 (ix2 (0 : Fin 1) q) = val_main_v92 (F := Ideal) x0 x1 x3 x4 x5 x6 (ix1 q))
    (hvar : ∀ q : Fin 64, V c main_v89 (ix2 (0 : Fin 1) q) = val_main_v99 (F := Ideal) x0 x1 x3 x4 x5 x6 (ix1 q)) :
    (dat4 (F := Ideal) V c).arrAt 5 cfg4.N = val_main_v115 (F := Ideal) x0 x1 x3 x4 x5 x6 x7 x8 := by
  funext j
  obtain ⟨p, q, rfl⟩ : ∃ (p : Fin 50000) (q : Fin 64), j = ix2 p q := ⟨j 0, j 1, eq_ix2 j⟩
  rw [final4, ref_v115, hpre]
  unfold Cert.Spec.bnRelu
  rw [hg q, hbeta q, hmu q, hvar q]

theorem step5 (h92 : V c main_v92 = val_main_v115 (F := Ideal) x0 x1 x3 x4 x5 x6 x7 x8) (h94 : V c main_v94 = val_main_v117 (F := Ideal) x5) :
    (dat5 (F := Ideal) V c).arrAt 2 cfg5.N = val_main_v120 (F := Ideal) x0 x1 x3 x4 x5 x6 x7 x8 := by
  funext j
  obtain ⟨p, q, rfl⟩ : ∃ (p : Fin 50000) (q : Fin 64), j = ix2 p q := ⟨j 0, j 1, eq_ix2 j⟩
  rw [final5, ref_v120, h92, h94]

theorem step6 (hagg : V c main_v125 = val_main_v148 (F := Ideal) x0 x1 x3 x4 x5 x6 x7 x8) (hh : V c main_v97 = val_main_v120 (F := Ideal) x0 x1 x3 x4 x5 x6 x7 x8)
    (hd : ∀ p : Fin 50000, V c main_v12 (ix2 p (0 : Fin 1)) = val_main_v149 (F := Ideal) x1 (ix1 p))
    (hb : ∀ q : Fin 64, V c main_v126 (ix2 (0 : Fin 1) q) = val_main_v119 (F := Ideal) x6 (ix1 q)) :
    (dat6 (F := Ideal) V c).arrAt 4 cfg6.N = val_main_v156 (F := Ideal) x0 x1 x3 x4 x5 x6 x7 x8 := by
  funext j
  obtain ⟨p, q, rfl⟩ : ∃ (p : Fin 50000) (q : Fin 64), j = ix2 p q := ⟨j 0, j 1, eq_ix2 j⟩
  rw [final6, ref_v156, hagg, hh]
  unfold Cert.Spec.comb
  rw [hd p, hb q]

theorem step7 (hpre : V c main_v127 = val_main_v156 (F := Ideal) x0 x1 x3 x4 x5 x6 x7 x8)
    (hg : ∀ q : Fin 64, V c main_v139 (ix2 (0 : Fin 1) q) = x7 (ix1 q))
    (hbeta : ∀ q : Fin 64, V c main_v140 (ix2 (0 : Fin 1) q) = x8 (ix1 q))
    (hmu : ∀ q : Fin 64, V c main_v131 (ix2 (0 : Fin 1) q) = val_main_v159 (F := Ideal) x0 x1 x3 x4 x5 x6 x7 x8 (ix1 q))
    (hvar : ∀ q : Fin 64, V c main_v138 (ix2 (0 : Fin 1) q) = val_main_v166 (F := Ideal) x0 x1 x3 x4 x5 x6 x7 x8 (ix1 q)) :
    (dat7 (F := Ideal) V c).arrAt 5 cfg7.N = val_main_v182 (F := Ideal) x0 x1 x3 x4 x5 x6 x7 x8 := by
  funext j
  obtain ⟨p, q, rfl⟩ : ∃ (p : Fin 50000) (q : Fin 64), j = ix2 p q := ⟨j 0, j 1, eq_ix2 j⟩
  rw [final7, ref_v182, hpre]
  unfold Cert.Spec.bnRelu
  rw [hg q, hbeta q, hmu q, hvar q]

theorem step8 (h141 : V c main_v141 = val_main_v182 (F := Ideal) x0 x1 x3 x4 x5 x6 x7 x8) (h143 : V c main_v143 = val_main_v184 (F := Ideal) x5) :
    (dat8 (F := Ideal) V c).arrAt 2 cfg8.N = val_main_v187 (F := Ideal) x0 x1 x3 x4 x5 x6 x7 x8 := by
  funext j
  obtain ⟨p, q, rfl⟩ : ∃ (p : Fin 50000) (q : Fin 64), j = ix2 p q := ⟨j 0, j 1, eq_ix2 j⟩
  rw [final8, ref_v187, h141, h143]

theorem step9 (hagg : V c main_v174 = val_main_v215 (F := Ideal) x0 x1 x3 x4 x5 x6 x7 x8) (hh : V c main_v146 = val_main_v187 (F := Ideal) x0 x1 x3 x4 x5 x6 x7 x8)
    (hd : ∀ p : Fin 50000, V c main_v12 (ix2 p (0 : Fin 1)) = val_main_v216 (F := Ideal) x1 (ix1 p))
    (hb : ∀ q : Fin 64, V c main_v175 (ix2 (0 : Fin 1) q) = val_main_v186 (F := Ideal) x6 (ix1 q)) :
    (dat9 (F := Ideal) V c).arrAt 4 cfg9.N = val_main_v223 (F := Ideal) x0 x1 x3 x4 x5 x6 x7 x8 := by
  funext j
  obtain ⟨p, q, rfl⟩ : ∃ (p : Fin 50000) (q : Fin 64), j = ix2 p q := ⟨j 0, j 1, eq_ix2 j⟩
  rw [final9, ref_v223, hagg, hh]
  unfold Cert.Spec.comb
  rw [hd p, hb q]

theorem step10 (hpre : V c main_v176 = val_main_v223 (F := Ideal) x0 x1 x3 x4 x5 x6 x7 x8)
    (hg : ∀ q : Fin 64, V c main_v188 (ix2 (0 : Fin 1) q) = x7 (ix1 q))
    (hbeta : ∀ q : Fin 64, V c main_v189 (ix2 (0 : Fin 1) q) = x8 (ix1 q))
    (hmu : ∀ q : Fin 64, V c main_v180 (ix2 (0 : Fin 1) q) = val_main_v226 (F := Ideal) x0 x1 x3 x4 x5 x6 x7 x8 (ix1 q))
    (hvar : ∀ q : Fin 64, V c main_v187 (ix2 (0 : Fin 1) q) = val_main_v233 (F := Ideal) x0 x1 x3 x4 x5 x6 x7 x8 (ix1 q)) :
    (dat10 (F := Ideal) V c).arrAt 5 cfg10.N = val_main_v249 (F := Ideal) x0 x1 x3 x4 x5 x6 x7 x8 := by
  funext j
  obtain ⟨p, q, rfl⟩ : ∃ (p : Fin 50000) (q : Fin 64), j = ix2 p q := ⟨j 0, j 1, eq_ix2 j⟩
  rw [final10, ref_v249, hpre]
  unfold Cert.Spec.bnRelu
  rw [hg q, hbeta q, hmu q, hvar q]

theorem icol_eq {n : Nat} (cl : Cert.Spec.ICol n) (v : (⟨1, ![n]⟩ : Shape).Idx → BitVec 32)
    (hc : ∀ p : Fin n, cl (ix2 p (0 : Fin 1)) = v (ix1 p)) : cl = fun j => v (ix1 (j 0)) := by
  funext j
  obtain ⟨p, a, rfl⟩ : ∃ (p : Fin n) (a : Fin 1), j = ix2 p a := ⟨j 0, j 1, eq_ix2 j⟩
  obtain rfl : a = 0 := Subsingleton.elim _ _
  exact hc p

theorem step11_ref (h190 : V c main_v190 = val_main_v249 (F := Ideal) x0 x1 x3 x4 x5 x6 x7 x8)
    (hid : ∀ p : Fin 50000, V c main_v191 (ix2 p (0 : Fin 1)) = x2 (ix1 p)) :
    (dat11 (F := Ideal) V c).arrAt 2 cfg11.N = val_main_v252 (F := Ideal) x0 x1 x2 x3 x4 x5 x6 x7 x8 := by
  funext j
  obtain ⟨g, q, rfl⟩ : ∃ (g : Fin 64) (q : Fin 64), j = ix2 g q := ⟨j 0, j 1, eq_ix2 j⟩
  rw [final11, ref_v252, h190, icol_eq (V c main_v191) x2 hid]

theorem row_eq {h : Nat} (r : Cert.Spec.Mat 1 h) (v : (⟨1, ![h]⟩ : Shape).Idx → EReal)
    (hr : ∀ q : Fin h, r (ix2 (0 : Fin 1) q) = v (ix1 q)) : r = fun j => v (ix1 (j 1)) := by
  funext j
  obtain ⟨a, q, rfl⟩ : ∃ (a : Fin 1) (q : Fin h), j = ix2 a q := ⟨j 0, j 1, eq_ix2 j⟩
  obtain rfl : a = 0 := Subsingleton.elim _ _
  exact hr q

theorem step12 (h201 : V c main_v201 = val_main_v261 (F := Ideal) x0 x1 x2 x3 x4 x5 x6 x7 x8) (h9 : V c main_arg9 = x9)
    (hb1 : ∀ q : Fin 32, V c main_v202 (ix2 (0 : Fin 1) q) = x10 (ix1 q)) (h11 : V c main_arg11 = x11)
    (hb2 : ∀ q : Fin 16, V c main_v203 (ix2 (0 : Fin 1) q) = x12 (ix1 q)) (h13 : V c main_arg13 = x13)
    (hb3 : ∀ q : Fin 10, V c main_v204 (ix2 (0 : Fin 1) q) = x14 (ix1 q)) :
    (dat12 (F := Ideal) V c).arrAt 7 cfg12.N = val_main_v275 (F := Ideal) x0 x1 x2 x3 x4 x5 x6 x7 x8 x9 x10 x11 x12 x13 x14 := by
  funext j
  obtain ⟨p, q, rfl⟩ : ∃ (p : Fin 64) (q : Fin 10), j = ix2 p q := ⟨j 0, j 1, eq_ix2 j⟩
  rw [final12, ref_v275, h201, h9, h11, h13, row_eq (V c main_v202) x10 hb1, row_eq (V c main_v203) x12 hb2,
    row_eq (V c main_v204) x14 hb3]

end Cert.KernelIdeal.Net

end
-- ==== Proof.KI.Stretch0.lean ====
import proofs.«420664_j68839735820523_2_alg».proof.Proof.Gen.KernelIdeal.Launch
import proofs.«420664_j68839735820523_2_alg».proof.Proof.RefRead
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.ReadP

variable {F : FTy → Type} [FloatOps F]

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem stretch0_v1 (X : Valuation τ sig (Elt F)) (x1)
    (hx1 : X (Proc.devRef .tc main_arg1) = x1) :
    StableHlo.after hostOps0 X (Proc.devRef .tc main_v1) = val_main_v1 (F := F) x1 := by
  show StableHlo.after hostOps0 X _ = _
  unfold hostOps0
  after_results
  rw [hx1]
  unfold val_main_v1 val_main_v0
  rfl

theorem stretch0_v3 (X : Valuation τ sig (Elt F)) (x1)
    (hx1 : X (Proc.devRef .tc main_arg1) = x1) :
    StableHlo.after hostOps0 X (Proc.devRef .tc main_v3) = val_main_v3 (F := F) x1 := by
  show StableHlo.after hostOps0 X _ = _
  unfold hostOps0
  after_results
  rw [hx1]
  unfold val_main_v3 val_main_v2
  rfl

theorem stretch0_v10 (X : Valuation τ sig (Elt F)) (x1)
    (hx1 : X (Proc.devRef .tc main_arg1) = x1) :
    StableHlo.after hostOps0 X (Proc.devRef .tc main_v10) = val_main_v10 (F := F) x1 := by
  show StableHlo.after hostOps0 X _ = _
  unfold hostOps0
  after_results
  rw [hx1]
  unfold val_main_v10 val_main_v9 val_main_v8 val_main_cst_1 val_main_v7 val_main_v6 val_main_v5 val_main_cst_0
    val_main_v4 val_main_cst val_main_v3 val_main_v2
  rfl

theorem stretch0_v12 (X : Valuation τ sig (Elt F)) (x1)
    (hx1 : X (Proc.devRef .tc main_arg1) = x1) :
    StableHlo.after hostOps0 X (Proc.devRef .tc main_v12)
      = shapeCast S50000x1 (val_main_v40 (F := F) x1) shapeCasts_S50000_S50000x1 := by
  show StableHlo.after hostOps0 X _ = _
  unfold hostOps0
  after_results
  rw [hx1]
  unfold val_main_v40 val_main_v10 val_main_v9 val_main_v8 val_main_cst_1 val_main_v7 val_main_v6 val_main_v5 val_main_cst_0
    val_main_v4 val_main_cst val_main_v3 val_main_v2
  rfl

theorem stretch0_v12_apply (X : Valuation τ sig (Elt F)) (x1)
    (hx1 : X (Proc.devRef .tc main_arg1) = x1) (p : Fin 50000) :
    (StableHlo.after hostOps0 X (Proc.devRef .tc main_v12) : (⟨S50000x1, .f32⟩ : BufTy).Contents (Elt F)) (ix2 p (0 : Fin 1))
      = val_main_v40 (F := F) x1 (ix1 p) := by
  rw [stretch0_v12 X x1 hx1]
  exact shapeCast_a_a1_apply (val_main_v40 (F := F) x1) shapeCasts_S50000_S50000x1 p 0

theorem stretch1_v41 (X : Valuation τ sig (Elt F)) (x0 x1 x3)
    (h13 : X (Proc.devRef .tc main_v13) = val_main_v11 (F := F) x0 x3)
    (h1 : X (Proc.devRef .tc main_v1) = val_main_v1 (F := F) x1)
    (h3 : X (Proc.devRef .tc main_v3) = val_main_v3 (F := F) x1)
    (h10 : X (Proc.devRef .tc main_v10) = val_main_v10 (F := F) x1) :
    StableHlo.after hostOps1 X (Proc.devRef .tc main_v41) = val_main_v39 (F := F) x0 x1 x3 := by
  show StableHlo.after hostOps1 X _ = _
  unfold hostOps1
  after_results_simp
  rw [h13, h1, h3, h10]
  unfold val_main_v39 val_main_v38 val_main_v37 val_main_cst_7 val_main_v36 val_main_v35 val_main_v34 val_main_v33
    val_main_v32 val_main_v31 val_main_v30 val_main_c_6 val_main_v29 val_main_v28 val_main_c_5 val_main_v27 val_main_v26
    val_main_v25 val_main_v24 val_main_v23 val_main_v22 val_main_v21 val_main_c_4 val_main_v20 val_main_v19 val_main_c_3
    val_main_v18 val_main_v17 val_main_v16 val_main_v15 val_main_v14 val_main_c_2 val_main_v13 val_main_v12 val_main_c
  rfl

theorem stretch1_v42 (X : Valuation τ sig (Elt F)) (x4)
    (hx4 : X (Proc.devRef .tc main_arg4) = x4) :
    StableHlo.after hostOps1 X (Proc.devRef .tc main_v42) = shapeCast S1x64 x4 shapeCasts_S64_S1x64 := by
  show StableHlo.after hostOps1 X _ = _
  unfold hostOps1
  after_results
  rw [hx4]
  rfl

theorem stretch1_v42_apply (X : Valuation τ sig (Elt F)) (x4 : (⟨S64, .f32⟩ : BufTy).Contents (Elt F))
    (hx4 : X (Proc.devRef .tc main_arg4) = x4) (q : Fin 64) :
    (StableHlo.after hostOps1 X (Proc.devRef .tc main_v42) : (⟨S1x64, .f32⟩ : BufTy).Contents (Elt F)) (ix2 (0 : Fin 1) q)
      = x4 (ix1 q) := by
  rw [stretch1_v42 X x4 hx4]
  exact shapeCast_a_1a_apply x4 shapeCasts_S64_S1x64 0 q

theorem stretch2_v45 (X : Valuation τ sig (Elt F)) (x5)
    (hx5 : X (Proc.devRef .tc main_arg5) = x5) :
    StableHlo.after hostOps2 X (Proc.devRef .tc main_v45) = val_main_v50 (F := F) x5 := by
  show StableHlo.after hostOps2 X _ = _
  unfold hostOps2
  after_results
  rw [hx5]
  unfold val_main_v50 val_main_v49
  rfl

theorem stretch2_v47 (X : Valuation τ sig (Elt F)) (x6)
    (hx6 : X (Proc.devRef .tc main_arg6) = x6) :
    StableHlo.after hostOps2 X (Proc.devRef .tc main_v47) = val_main_v52 (F := F) x6 := by
  show StableHlo.after hostOps2 X _ = _
  unfold hostOps2
  after_results
  rw [hx6]
  unfold val_main_v52 val_main_v51
  rfl

theorem stretch3_v76 (X : Valuation τ sig (Elt F)) (x0 x1 x3 x4 x5)
    (h48 : X (Proc.devRef .tc main_v48) = val_main_v53 (F := F) x0 x1 x3 x4 x5)
    (h1 : X (Proc.devRef .tc main_v1) = val_main_v1 (F := F) x1)
    (h3 : X (Proc.devRef .tc main_v3) = val_main_v3 (F := F) x1)
    (h10 : X (Proc.devRef .tc main_v10) = val_main_v10 (F := F) x1) :
    StableHlo.after hostOps3 X (Proc.devRef .tc main_v76) = val_main_v81 (F := F) x0 x1 x3 x4 x5 := by
  show StableHlo.after hostOps3 X _ = _
  unfold hostOps3
  after_results_simp
  rw [h48, h1, h3, h10]
  unfold val_main_v81 val_main_v80 val_main_v79 val_main_cst_14 val_main_v78 val_main_v77 val_main_v76 val_main_v75
    val_main_v74 val_main_v73 val_main_v72 val_main_c_13 val_main_v71 val_main_v70 val_main_c_12 val_main_v69 val_main_v68
    val_main_v67 val_main_v66 val_main_v65 val_main_v64 val_main_v63 val_main_c_11 val_main_v62 val_main_v61 val_main_c_10
    val_main_v60 val_main_v59 val_main_v58 val_main_v57 val_main_v56 val_main_c_9 val_main_v55 val_main_v54 val_main_c_8
  rfl

theorem stretch3_v77 (X : Valuation τ sig (Elt F)) (x6)
    (h47 : X (Proc.devRef .tc main_v47) = val_main_v52 (F := F) x6) :
    StableHlo.after hostOps3 X (Proc.devRef .tc main_v77)
      = shapeCast S1x64 (val_main_v52 (F := F) x6) shapeCasts_S64_S1x64 := by
  show StableHlo.after hostOps3 X _ = _
  unfold hostOps3
  after_results_simp
  rw [h47]
  rfl

theorem stretch3_v77_apply (X : Valuation τ sig (Elt F)) (x6)
    (h47 : X (Proc.devRef .tc main_v47) = val_main_v52 (F := F) x6) (q : Fin 64) :
    (StableHlo.after hostOps3 X (Proc.devRef .tc main_v77) : (⟨S1x64, .f32⟩ : BufTy).Contents (Elt F)) (ix2 (0 : Fin 1) q)
      = val_main_v52 (F := F) x6 (ix1 q) := by
  rw [stretch3_v77 X x6 h47]
  exact shapeCast_a_1a_apply (val_main_v52 (F := F) x6) shapeCasts_S64_S1x64 0 q

theorem stretch4_v82 (X : Valuation τ sig (Elt F)) (x0 x1 x3 x4 x5 x6)
    (h78 : X (Proc.devRef .tc main_v78) = val_main_v89 (F := F) x0 x1 x3 x4 x5 x6) :
    StableHlo.after hostOps4 X (Proc.devRef .tc main_v82) = val_main_v93 (F := F) x0 x1 x3 x4 x5 x6 := by
  show StableHlo.after hostOps4 X _ = _
  unfold hostOps4
  after_results
  rw [h78]
  unfold val_main_v93 val_main_v92 val_main_v91 val_main_cst_16 val_main_v90 val_main_cst_15
  rfl

theorem stretch4_v82_apply (X : Valuation τ sig (Elt F)) (x0 x1 x3 x4 x5 x6)
    (h78 : X (Proc.devRef .tc main_v78) = val_main_v89 (F := F) x0 x1 x3 x4 x5 x6) (q : Fin 64) :
    (StableHlo.after hostOps4 X (Proc.devRef .tc main_v82) : (⟨S1x64, .f32⟩ : BufTy).Contents (Elt F)) (ix2 (0 : Fin 1) q)
      = val_main_v92 (F := F) x0 x1 x3 x4 x5 x6 (ix1 q) := by
  rw [stretch4_v82 X x0 x1 x3 x4 x5 x6 h78, val_main_v93_apply]
  exact congrArg (val_main_v92 (F := F) x0 x1 x3 x4 x5 x6) (funext fun a => match a with | ⟨0, _⟩ => rfl)

theorem stretch4_v89 (X : Valuation τ sig (Elt F)) (x0 x1 x3 x4 x5 x6)
    (h78 : X (Proc.devRef .tc main_v78) = val_main_v89 (F := F) x0 x1 x3 x4 x5 x6) :
    StableHlo.after hostOps4 X (Proc.devRef .tc main_v89)
      = broadcastInDim S1x64 ![1] bcast_S64_S1x64_1 (val_main_v99 (F := F) x0 x1 x3 x4 x5 x6) := by
  show StableHlo.after hostOps4 X _ = _
  unfold hostOps4
  after_results
  rw [h78]
  unfold val_main_v99 val_main_v98 val_main_cst_18 val_main_v97 val_main_cst_17 val_main_v96 val_main_v95 val_main_v94
    val_main_v93 val_main_v92 val_main_v91 val_main_cst_16 val_main_v90 val_main_cst_15
  rfl

theorem stretch4_v89_apply (X : Valuation τ sig (Elt F)) (x0 x1 x3 x4 x5 x6)
    (h78 : X (Proc.devRef .tc main_v78) = val_main_v89 (F := F) x0 x1 x3 x4 x5 x6) (q : Fin 64) :
    (StableHlo.after hostOps4 X (Proc.devRef .tc main_v89) : (⟨S1x64, .f32⟩ : BufTy).Contents (Elt F)) (ix2 (0 : Fin 1) q)
      = val_main_v99 (F := F) x0 x1 x3 x4 x5 x6 (ix1 q) := by
  rw [stretch4_v89 X x0 x1 x3 x4 x5 x6 h78]
  generalize val_main_v99 (F := F) x0 x1 x3 x4 x5 x6 = y
  exact broadcastInDim_apply _ bcast_S64_S1x64_1 y (ix2 (0 : Fin 1) q) (ix1 q) (fun a => match a with
    | ⟨0, _⟩ => by show q.val = if (64 : Nat) = 1 then 0 else q.val; rw [if_neg (by decide)])

theorem stretch4_v90 (X : Valuation τ sig (Elt F)) (x7)
    (hx7 : X (Proc.devRef .tc main_arg7) = x7) :
    StableHlo.after hostOps4 X (Proc.devRef .tc main_v90) = shapeCast S1x64 x7 shapeCasts_S64_S1x64 := by
  show StableHlo.after hostOps4 X _ = _
  unfold hostOps4
  after_results
  rw [hx7]
  rfl

theorem stretch4_v90_apply (X : Valuation τ sig (Elt F)) (x7 : (⟨S64, .f32⟩ : BufTy).Contents (Elt F))
    (hx7 : X (Proc.devRef .tc main_arg7) = x7) (q : Fin 64) :
    (StableHlo.after hostOps4 X (Proc.devRef .tc main_v90) : (⟨S1x64, .f32⟩ : BufTy).Contents (Elt F)) (ix2 (0 : Fin 1) q)
      = x7 (ix1 q) := by
  rw [stretch4_v90 X x7 hx7]
  exact shapeCast_a_1a_apply x7 shapeCasts_S64_S1x64 0 q

theorem stretch4_v91 (X : Valuation τ sig (Elt F)) (x8)
    (hx8 : X (Proc.devRef .tc main_arg8) = x8) :
    StableHlo.after hostOps4 X (Proc.devRef .tc main_v91) = shapeCast S1x64 x8 shapeCasts_S64_S1x64 := by
  show StableHlo.after hostOps4 X _ = _
  unfold hostOps4
  after_results
  rw [hx8]
  rfl

theorem stretch4_v91_apply (X : Valuation τ sig (Elt F)) (x8 : (⟨S64, .f32⟩ : BufTy).Contents (Elt F))
    (hx8 : X (Proc.devRef .tc main_arg8) = x8) (q : Fin 64) :
    (StableHlo.after hostOps4 X (Proc.devRef .tc main_v91) : (⟨S1x64, .f32⟩ : BufTy).Contents (Elt F)) (ix2 (0 : Fin 1) q)
      = x8 (ix1 q) := by
  rw [stretch4_v91 X x8 hx8]
  exact shapeCast_a_1a_apply x8 shapeCasts_S64_S1x64 0 q

end Cert.KernelIdeal.Net
-- ==== Proof.KI.Chain0.lean ====
import proofs.«420664_j68839735820523_2_alg».proof.Proof.KI.Fold
import proofs.«420664_j68839735820523_2_alg».proof.Proof.KI.Stretch0
import proofs.«420664_j68839735820523_2_alg».proof.Proof.KI.Steps
import proofs.«420664_j68839735820523_2_alg».proof.Proof.RefRead
import Idealize.ShloMosaic.Lib.ValueIdx

set_option maxRecDepth 16384

noncomputable section

namespace Cert.KernelIdeal.Net

open Cert.KernelIdeal Cert.KernelIdeal.Gen
open Idealize.ShloMosaic Idealize.ShloMosaic.TcCoe
open Idealize.SL Idealize.SL.Sem
open Idealize.ShloMosaic.ValueIdx
open Cert.ReferenceIdeal.ReadP

variable (m : (ℓ : Loc nD τ sig) → Buf (Elt Ideal) ℓ) (c : Dev nD)

abbrev a0 := m ((c.tc : Thread nD τ).loc main_arg0)

abbrev a1 := m ((c.tc : Thread nD τ).loc main_arg1)

abbrev a2 := m ((c.tc : Thread nD τ).loc main_arg2)

abbrev a3 := m ((c.tc : Thread nD τ).loc main_arg3)

abbrev a4 := m ((c.tc : Thread nD τ).loc main_arg4)

abbrev a5 := m ((c.tc : Thread nD τ).loc main_arg5)

abbrev a6 := m ((c.tc : Thread nD τ).loc main_arg6)

abbrev a7 := m ((c.tc : Thread nD τ).loc main_arg7)

abbrev a8 := m ((c.tc : Thread nD τ).loc main_arg8)

abbrev a9 := m ((c.tc : Thread nD τ).loc main_arg9)

abbrev a10 := m ((c.tc : Thread nD τ).loc main_arg10)

abbrev a11 := m ((c.tc : Thread nD τ).loc main_arg11)

abbrev a12 := m ((c.tc : Thread nD τ).loc main_arg12)

abbrev a13 := m ((c.tc : Thread nD τ).loc main_arg13)

abbrev a14 := m ((c.tc : Thread nD τ).loc main_arg14)

theorem arg0_W1 : W1 m c (Proc.devRef .tc main_arg0) = a0 m c :=
  (W1_of m c main_arg0 (by decide)).trans rfl

theorem arg3_W1 : W1 m c (Proc.devRef .tc main_arg3) = a3 m c :=
  (W1_of m c main_arg3 (by decide)).trans rfl

theorem arg4_W2 : W2 m c (Proc.devRef .tc main_arg4) = a4 m c :=
  ((W2_of_ne m c main_arg4 (by decide)).trans (W1_of m c main_arg4 (by decide))).trans rfl

theorem c1_v1 : W1 m c (Proc.devRef .tc main_v1) = val_main_v1 (F := Ideal) (a1 m c) :=
  stretch0_v1 (W0 m c) (a1 m c) rfl

theorem c1_v3 : W1 m c (Proc.devRef .tc main_v3) = val_main_v3 (F := Ideal) (a1 m c) :=
  stretch0_v3 (W0 m c) (a1 m c) rfl

theorem c1_v10 : W1 m c (Proc.devRef .tc main_v10) = val_main_v10 (F := Ideal) (a1 m c) :=
  stretch0_v10 (W0 m c) (a1 m c) rfl

theorem c1_v12 (p : Fin 50000) : (W1 m c (Proc.devRef .tc main_v12) : (⟨S50000x1, .f32⟩ : BufTy).Contents (Elt Ideal)) (ix2 p (0 : Fin 1)) = val_main_v40 (F := Ideal) (a1 m c) (ix1 p) :=
  stretch0_v12_apply (W0 m c) (a1 m c) rfl p

theorem c2_v13 : W2 m c (Proc.devRef .tc main_v13) = val_main_v11 (F := Ideal) (a0 m c) (a3 m c) :=
  (W2_out m c).trans (step0 (E1 m) c (a0 m c) (a3 m c) (arg0_W1 m c) (arg3_W1 m c))

theorem c2_v1 : W2 m c (Proc.devRef .tc main_v1) = val_main_v1 (F := Ideal) (a1 m c) :=
  (W2_of_ne m c main_v1 (by decide)).trans (c1_v1 m c)

theorem c2_v3 : W2 m c (Proc.devRef .tc main_v3) = val_main_v3 (F := Ideal) (a1 m c) :=
  (W2_of_ne m c main_v3 (by decide)).trans (c1_v3 m c)

theorem c2_v10 : W2 m c (Proc.devRef .tc main_v10) = val_main_v10 (F := Ideal) (a1 m c) :=
  (W2_of_ne m c main_v10 (by decide)).trans (c1_v10 m c)

theorem c3_v41 : W3 m c (Proc.devRef .tc main_v41) = val_main_v39 (F := Ideal) (a0 m c) (a1 m c) (a3 m c) :=
  stretch1_v41 (W2 m c) (a0 m c) (a1 m c) (a3 m c) (c2_v13 m c) (c2_v1 m c) (c2_v3 m c) (c2_v10 m c)

theorem c3_v42 (q : Fin 64) : (W3 m c (Proc.devRef .tc main_v42) : (⟨S1x64, .f32⟩ : BufTy).Contents (Elt Ideal)) (ix2 (0 : Fin 1) q) = (a4 m c) (ix1 q) :=
  stretch1_v42_apply (W2 m c) (a4 m c) (arg4_W2 m c) q

theorem c3_v13 : W3 m c (Proc.devRef .tc main_v13) = val_main_v11 (F := Ideal) (a0 m c) (a3 m c) :=
  (W3_of m c main_v13 (by decide)).trans (c2_v13 m c)

theorem c3_v12 (p : Fin 50000) : (W3 m c (Proc.devRef .tc main_v12) : (⟨S50000x1, .f32⟩ : BufTy).Contents (Elt Ideal)) (ix2 p (0 : Fin 1)) = val_main_v40 (F := Ideal) (a1 m c) (ix1 p) := by
  rw [((W3_of m c main_v12 (by decide)).trans (W2_of_ne m c main_v12 (by decide)))]
  exact c1_v12 m c p

theorem c4_v43 : W4 m c (Proc.devRef .tc main_v43) = val_main_v48 (F := Ideal) (a0 m c) (a1 m c) (a3 m c) (a4 m c) :=
  (W4_out m c).trans (step1 (E3 m) c (a0 m c) (a1 m c) (a3 m c) (a4 m c) (c3_v41 m c) (c3_v13 m c) (c3_v12 m c) (c3_v42 m c))

theorem arg5_W4 : W4 m c (Proc.devRef .tc main_arg5) = a5 m c :=
  ((W4_of_ne m c main_arg5 (by decide)).trans ((W3_of m c main_arg5 (by decide)).trans ((W2_of_ne m c main_arg5 (by decide)).trans (W1_of m c main_arg5 (by decide))))).trans rfl

theorem arg6_W4 : W4 m c (Proc.devRef .tc main_arg6) = a6 m c :=
  ((W4_of_ne m c main_arg6 (by decide)).trans ((W3_of m c main_arg6 (by decide)).trans ((W2_of_ne m c main_arg6 (by decide)).trans (W1_of m c main_arg6 (by decide))))).trans rfl

theorem arg7_W8 : W8 m c (Proc.devRef .tc main_arg7) = a7 m c :=
  ((W8_of_ne m c main_arg7 (by decide)).trans ((W7_of m c main_arg7 (by decide)).trans ((W6_of_ne m c main_arg7 (by decide)).trans ((W5_of m c main_arg7 (by decide)).trans ((W4_of_ne m c main_arg7 (by decide)).trans ((W3_of m c main_arg7 (by decide)).trans ((W2_of_ne m c main_arg7 (by decide)).trans (W1_of m c main_arg7 (by decide))))))))).trans rfl

theorem arg8_W8 : W8 m c (Proc.devRef .tc main_arg8) = a8 m c :=
  ((W8_of_ne m c main_arg8 (by decide)).trans ((W7_of m c main_arg8 (by decide)).trans ((W6_of_ne m c main_arg8 (by decide)).trans ((W5_of m c main_arg8 (by decide)).trans ((W4_of_ne m c main_arg8 (by decide)).trans ((W3_of m c main_arg8 (by decide)).trans ((W2_of_ne m c main_arg8 (by decide)).trans (W1_of m c main_arg8 (by decide))))))))).trans rfl

theorem c5_v43 : W5 m c (Proc.devRef .tc main_v43) = val_main_v48 (F := Ideal) (a0 m c) (a1 m c) (a3 m c) (a4 m c) :=
  (W5_of m c main_v43 (by decide)).trans (c4_v43 m c)

theorem c5_v45 : W5 m c (Proc.devRef .tc main_v45) = val_main_v50 (F := Ideal) (a5 m c) :=
  stretch2_v45 (W4 m c) (a5 m c) (arg5_W4 m c)

theorem c5_v47 : W5 m c (Proc.devRef .tc main_v47) = val_main_v52 (F := Ideal) (a6 m c) :=
  stretch2_v47 (W4 m c) (a6 m c) (arg6_W4 m c)

theorem c6_v48 : W6 m c (Proc.devRef .tc main_v48) = val_main_v53 (F := Ideal) (a0 m c) (a1 m c) (a3 m c) (a4 m c) (a5 m c) :=
  (W6_out m c).trans (step2 (E5 m) c (a0 m c) (a1 m c) (a3 m c) (a4 m c) (a5 m c) (c5_v43 m c) (c5_v45 m c))

theorem c6_v1 : W6 m c (Proc.devRef .tc main_v1) = val_main_v1 (F := Ideal) (a1 m c) :=
  ((W6_of_ne m c main_v1 (by decide)).trans ((W5_of m c main_v1 (by decide)).trans ((W4_of_ne m c main_v1 (by decide)).trans ((W3_of m c main_v1 (by decide)).trans (W2_of_ne m c main_v1 (by decide)))))).trans (c1_v1 m c)

theorem c6_v3 : W6 m c (Proc.devRef .tc main_v3) = val_main_v3 (F := Ideal) (a1 m c) :=
  ((W6_of_ne m c main_v3 (by decide)).trans ((W5_of m c main_v3 (by decide)).trans ((W4_of_ne m c main_v3 (by decide)).trans ((W3_of m c main_v3 (by decide)).trans (W2_of_ne m c main_v3 (by decide)))))).trans (c1_v3 m c)

theorem c6_v10 : W6 m c (Proc.devRef .tc main_v10) = val_main_v10 (F := Ideal) (a1 m c) :=
  ((W6_of_ne m c main_v10 (by decide)).trans ((W5_of m c main_v10 (by decide)).trans ((W4_of_ne m c main_v10 (by decide)).trans ((W3_of m c main_v10 (by decide)).trans (W2_of_ne m c main_v10 (by decide)))))).trans (c1_v10 m c)

theorem c6_v47 : W6 m c (Proc.devRef .tc main_v47) = val_main_v52 (F := Ideal) (a6 m c) :=
  (W6_of_ne m c main_v47 (by decide)).trans (c5_v47 m c)

theorem c7_v76 : W7 m c (Proc.devRef .tc main_v76) = val_main_v81 (F := Ideal) (a0 m c) (a1 m c) (a3 m c) (a4 m c) (a5 m c) :=
  stretch3_v76 (W6 m c) (a0 m c) (a1 m c) (a3 m c) (a4 m c) (a5 m c) (c6_v48 m c) (c6_v1 m c) (c6_v3 m c) (c6_v10 m c)

theorem c7_v77 (q : Fin 64) : (W7 m c (Proc.devRef .tc main_v77) : (⟨S1x64, .f32⟩ : BufTy).Contents (Elt Ideal)) (ix2 (0 : Fin 1) q) = val_main_v52 (F := Ideal) (a6 m c) (ix1 q) :=
  stretch3_v77_apply (W6 m c) (a6 m c) (c6_v47 m c) q

theorem c7_v48 : W7 m c (Proc.devRef .tc main_v48) = val_main_v53 (F := Ideal) (a0 m c) (a1 m c) (a3 m c) (a4 m c) (a5 m c) :=
  (W7_of m c main_v48 (by decide)).trans (c6_v48 m c)

theorem c7_v12 (p : Fin 50000) : (W7 m c (Proc.devRef .tc main_v12) : (⟨S50000x1, .f32⟩ : BufTy).Contents (Elt Ideal)) (ix2 p (0 : Fin 1)) = val_main_v82 (F := Ideal) (a1 m c) (ix1 p) := by
  rw [((W7_of m c main_v12 (by decide)).trans ((W6_of_ne m c main_v12 (by decide)).trans ((W5_of m c main_v12 (by decide)).trans ((W4_in2 m c).trans ((W3_of m c main_v12 (by decide)).trans (W2_of_ne m c main_v12 (by decide)))))))]
  exact c1_v12 m c p

theorem c8_v78 : W8 m c (Proc.devRef .tc main_v78) = val_main_v89 (F := Ideal) (a0 m c) (a1 m c) (a3 m c) (a4 m c) (a5 m c) (a6 m c) :=
  (W8_out m c).trans (step3 (E7 m) c (a0 m c) (a1 m c) (a3 m c) (a4 m c) (a5 m c) (a6 m c) (c7_v76 m c) (c7_v48 m c) (c7_v12 m c) (c7_v77 m c))

theorem c9_v78 : W9 m c (Proc.devRef .tc main_v78) = val_main_v89 (F := Ideal) (a0 m c) (a1 m c) (a3 m c) (a4 m c) (a5 m c) (a6 m c) :=
  (W9_of m c main_v78 (by decide)).trans (c8_v78 m c)

theorem c9_v82 (q : Fin 64) : (W9 m c (Proc.devRef .tc main_v82) : (⟨S1x64, .f32⟩ : BufTy).Contents (Elt Ideal)) (ix2 (0 : Fin 1) q) = val_main_v92 (F := Ideal) (a0 m c) (a1 m c) (a3 m c) (a4 m c) (a5 m c) (a6 m c) (ix1 q) :=
  stretch4_v82_apply (W8 m c) (a0 m c) (a1 m c) (a3 m c) (a4 m c) (a5 m c) (a6 m c) (c8_v78 m c) q

theorem c9_v89 (q : Fin 64) : (W9 m c (Proc.devRef .tc main_v89) : (⟨S1x64, .f32⟩ : BufTy).Contents (Elt Ideal)) (ix2 (0 : Fin 1) q) = val_main_v99 (F := Ideal) (a0 m c) (a1 m c) (a3 m c) (a4 m c) (a5 m c) (a6 m c) (ix1 q) :=
  stretch4_v89_apply (W8 m c) (a0 m c) (a1 m c) (a3 m c) (a4 m c) (a5 m c) (a6 m c) (c8_v78 m c) q

theorem c9_v90 (q : Fin 64) : (W9 m c (Proc.devRef .tc main_v90) : (⟨S1x64, .f32⟩ : BufTy).Contents (Elt Ideal)) (ix2 (0 : Fin 1) q) = (a7 m c) (ix1 q) :=
  stretch4_v90_apply (W8 m c) (a7 m c) (arg7_W8 m c) q

theorem c9_v91 (q : Fin 64) : (W9 m c (Proc.devRef .tc main_v91) : (⟨S1x64, .f32⟩ : BufTy).Contents (Elt Ideal)) (ix2 (0 : Fin 1) q) = (a8 m c) (ix1 q) :=
  stretch4_v91_apply (W8 m c) (a8 m c) (arg8_W8 m c) q

theorem c10_v92 : W10 m c (Proc.devRef .tc main_v92) = val_main_v115 (F := Ideal) (a0 m c) (a1 m c) (a3 m c) (a4 m c) (a5 m c) (a6 m c) (a7 m c) (a8 m c) :=
  (W10_out m c).trans (step4 (E9 m) c (a0 m c) (a1 m c) (a3 m c) (a4 m c) (a5 m c) (a6 m c) (a7 m c) (a8 m c) (c9_v78 m c) (c9_v90 m c) (c9_v91 m c) (c9_v82 m c) (c9_v89 m c))

end Cert.KernelIdeal.Net
-- ==== Proof.KI.Chain1.lean ====
import proofs.«420664_j68839735820523_2_alg».proof.Proof.KI.Chain0
import proofs.«420664_j68839735820523_2_alg».proof.Proof.KI.Steps
import proofs.«420664_j68839735820523_2_alg».proof.Proof.KI.Stretch5
import Idealize.ShloMosaic.Lib.ValueIdx

set_option maxRecDepth 16384

noncomputable section

namespace Cert.KernelIdeal.Net

open Cert.KernelIdeal Cert.KernelIdeal.Gen
open Idealize.ShloMosaic Idealize.ShloMosaic.TcCoe Idealize.SL.Sem
open Idealize.ShloMosaic.ValueIdx
open Cert.ReferenceIdeal.ReadP

variable (m : (ℓ : Loc nD τ sig) → Buf (Elt Ideal) ℓ) (c : Dev nD)

theorem arg5_W10 : W10 m c (Proc.devRef .tc main_arg5) = a5 m c :=
  calc W10 m c (Proc.devRef .tc main_arg5)
    _ = W9 m c (Proc.devRef .tc main_arg5) := W10_of_ne m c main_arg5 (by decide)
    _ = W8 m c (Proc.devRef .tc main_arg5) := W9_of m c main_arg5 (by decide)
    _ = W7 m c (Proc.devRef .tc main_arg5) := W8_of_ne m c main_arg5 (by decide)
    _ = W6 m c (Proc.devRef .tc main_arg5) := W7_of m c main_arg5 (by decide)
    _ = W5 m c (Proc.devRef .tc main_arg5) := W6_of_ne m c main_arg5 (by decide)
    _ = W4 m c (Proc.devRef .tc main_arg5) := W5_of m c main_arg5 (by decide)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = a5 m c := rfl

theorem arg6_W10 : W10 m c (Proc.devRef .tc main_arg6) = a6 m c :=
  calc W10 m c (Proc.devRef .tc main_arg6)
    _ = W9 m c (Proc.devRef .tc main_arg6) := W10_of_ne m c main_arg6 (by decide)
    _ = W8 m c (Proc.devRef .tc main_arg6) := W9_of m c main_arg6 (by decide)
    _ = W7 m c (Proc.devRef .tc main_arg6) := W8_of_ne m c main_arg6 (by decide)
    _ = W6 m c (Proc.devRef .tc main_arg6) := W7_of m c main_arg6 (by decide)
    _ = W5 m c (Proc.devRef .tc main_arg6) := W6_of_ne m c main_arg6 (by decide)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = a6 m c := rfl

theorem arg7_W14 : W14 m c (Proc.devRef .tc main_arg7) = a7 m c :=
  calc W14 m c (Proc.devRef .tc main_arg7)
    _ = W13 m c (Proc.devRef .tc main_arg7) := W14_of_ne m c main_arg7 (by decide)
    _ = W12 m c (Proc.devRef .tc main_arg7) := W13_of m c main_arg7 (by decide)
    _ = W11 m c (Proc.devRef .tc main_arg7) := W12_of_ne m c main_arg7 (by decide)
    _ = W10 m c (Proc.devRef .tc main_arg7) := W11_of m c main_arg7 (by decide)
    _ = W9 m c (Proc.devRef .tc main_arg7) := W10_of_ne m c main_arg7 (by decide)
    _ = W8 m c (Proc.devRef .tc main_arg7) := W9_of m c main_arg7 (by decide)
    _ = W7 m c (Proc.devRef .tc main_arg7) := W8_of_ne m c main_arg7 (by decide)
    _ = W6 m c (Proc.devRef .tc main_arg7) := W7_of m c main_arg7 (by decide)
    _ = W5 m c (Proc.devRef .tc main_arg7) := W6_of_ne m c main_arg7 (by decide)
    _ = W4 m c (Proc.devRef .tc main_arg7) := W5_of m c main_arg7 (by decide)
    _ = W3 m c (Proc.devRef .tc main_arg7) := W4_of_ne m c main_arg7 (by decide)
    _ = W2 m c (Proc.devRef .tc main_arg7) := W3_of m c main_arg7 (by decide)
    _ = W1 m c (Proc.devRef .tc main_arg7) := W2_of_ne m c main_arg7 (by decide)
    _ = W0 m c (Proc.devRef .tc main_arg7) := W1_of m c main_arg7 (by decide)
    _ = a7 m c := rfl

theorem arg8_W14 : W14 m c (Proc.devRef .tc main_arg8) = a8 m c :=
  calc W14 m c (Proc.devRef .tc main_arg8)
    _ = W13 m c (Proc.devRef .tc main_arg8) := W14_of_ne m c main_arg8 (by decide)
    _ = W12 m c (Proc.devRef .tc main_arg8) := W13_of m c main_arg8 (by decide)
    _ = W11 m c (Proc.devRef .tc main_arg8) := W12_of_ne m c main_arg8 (by decide)
    _ = W10 m c (Proc.devRef .tc main_arg8) := W11_of m c main_arg8 (by decide)
    _ = W9 m c (Proc.devRef .tc main_arg8) := W10_of_ne m c main_arg8 (by decide)
    _ = W8 m c (Proc.devRef .tc main_arg8) := W9_of m c main_arg8 (by decide)
    _ = W7 m c (Proc.devRef .tc main_arg8) := W8_of_ne m c main_arg8 (by decide)
    _ = W6 m c (Proc.devRef .tc main_arg8) := W7_of m c main_arg8 (by decide)
    _ = W5 m c (Proc.devRef .tc main_arg8) := W6_of_ne m c main_arg8 (by decide)
    _ = W4 m c (Proc.devRef .tc main_arg8) := W5_of m c main_arg8 (by decide)
    _ = W3 m c (Proc.devRef .tc main_arg8) := W4_of_ne m c main_arg8 (by decide)
    _ = W2 m c (Proc.devRef .tc main_arg8) := W3_of m c main_arg8 (by decide)
    _ = W1 m c (Proc.devRef .tc main_arg8) := W2_of_ne m c main_arg8 (by decide)
    _ = W0 m c (Proc.devRef .tc main_arg8) := W1_of m c main_arg8 (by decide)
    _ = a8 m c := rfl

theorem c11_v92 : W11 m c (Proc.devRef .tc main_v92) = val_main_v115 (F := Ideal) (a0 m c) (a1 m c) (a3 m c) (a4 m c) (a5 m c) (a6 m c) (a7 m c) (a8 m c) :=
  (W11_of m c main_v92 (by decide)).trans (c10_v92 m c)

theorem c11_v94 : W11 m c (Proc.devRef .tc main_v94) = val_main_v117 (F := Ideal) (a5 m c) :=
  stretch5_v94 (F := Ideal) (W10 m c) (a5 m c) (arg5_W10 m c)

theorem c11_v96 : W11 m c (Proc.devRef .tc main_v96) = val_main_v119 (F := Ideal) (a6 m c) :=
  stretch5_v96 (F := Ideal) (W10 m c) (a6 m c) (arg6_W10 m c)

theorem c12_v97 : W12 m c (Proc.devRef .tc main_v97) = val_main_v120 (F := Ideal) (a0 m c) (a1 m c) (a3 m c) (a4 m c) (a5 m c) (a6 m c) (a7 m c) (a8 m c) :=
  (W12_out m c).trans (step5 (V := E11 m) (c := c) (h92 := c11_v92 m c) (h94 := c11_v94 m c))

theorem c12_v96 : W12 m c (Proc.devRef .tc main_v96) = val_main_v119 (F := Ideal) (a6 m c) :=
  (W12_of_ne m c main_v96 (by decide)).trans (c11_v96 m c)

theorem c12_v1 : W12 m c (Proc.devRef .tc main_v1) = val_main_v1 (F := Ideal) (a1 m c) :=
  calc W12 m c (Proc.devRef .tc main_v1)
    _ = W11 m c (Proc.devRef .tc main_v1) := W12_of_ne m c main_v1 (by decide)
    _ = W10 m c (Proc.devRef .tc main_v1) := W11_of m c main_v1 (by decide)
    _ = W9 m c (Proc.devRef .tc main_v1) := W10_of_ne m c main_v1 (by decide)
    _ = W8 m c (Proc.devRef .tc main_v1) := W9_of m c main_v1 (by decide)
    _ = W7 m c (Proc.devRef .tc main_v1) := W8_of_ne m c main_v1 (by decide)
    _ = W6 m c (Proc.devRef .tc main_v1) := W7_of m c main_v1 (by decide)
    _ = val_main_v1 (F := Ideal) (a1 m c) := c6_v1 m c

theorem c12_v3 : W12 m c (Proc.devRef .tc main_v3) = val_main_v3 (F := Ideal) (a1 m c) :=
  calc W12 m c (Proc.devRef .tc main_v3)
    _ = W11 m c (Proc.devRef .tc main_v3) := W12_of_ne m c main_v3 (by decide)
    _ = W10 m c (Proc.devRef .tc main_v3) := W11_of m c main_v3 (by decide)
    _ = W9 m c (Proc.devRef .tc main_v3) := W10_of_ne m c main_v3 (by decide)
    _ = W8 m c (Proc.devRef .tc main_v3) := W9_of m c main_v3 (by decide)
    _ = W7 m c (Proc.devRef .tc main_v3) := W8_of_ne m c main_v3 (by decide)
    _ = W6 m c (Proc.devRef .tc main_v3) := W7_of m c main_v3 (by decide)
    _ = val_main_v3 (F := Ideal) (a1 m c) := c6_v3 m c

theorem c12_v10 : W12 m c (Proc.devRef .tc main_v10) = val_main_v10 (F := Ideal) (a1 m c) :=
  calc W12 m c (Proc.devRef .tc main_v10)
    _ = W11 m c (Proc.devRef .tc main_v10) := W12_of_ne m c main_v10 (by decide)
    _ = W10 m c (Proc.devRef .tc main_v10) := W11_of m c main_v10 (by decide)
    _ = W9 m c (Proc.devRef .tc main_v10) := W10_of_ne m c main_v10 (by decide)
    _ = W8 m c (Proc.devRef .tc main_v10) := W9_of m c main_v10 (by decide)
    _ = W7 m c (Proc.devRef .tc main_v10) := W8_of_ne m c main_v10 (by decide)
    _ = W6 m c (Proc.devRef .tc main_v10) := W7_of m c main_v10 (by decide)
    _ = val_main_v10 (F := Ideal) (a1 m c) := c6_v10 m c

theorem c13_v125 : W13 m c (Proc.devRef .tc main_v125) = val_main_v148 (F := Ideal) (a0 m c) (a1 m c) (a3 m c) (a4 m c) (a5 m c) (a6 m c) (a7 m c) (a8 m c) :=
  stretch6_v125 (F := Ideal) (W12 m c) (a0 m c) (a1 m c) (a3 m c) (a4 m c) (a5 m c) (a6 m c) (a7 m c) (a8 m c)
    (c12_v97 m c) (c12_v1 m c) (c12_v3 m c) (c12_v10 m c)

theorem c13_v126 (q : Fin 64) :
    (W13 m c (Proc.devRef .tc main_v126) : (⟨S1x64, .f32⟩ : BufTy).Contents (Elt Ideal)) (ix2 (0 : Fin 1) q)
      = val_main_v119 (F := Ideal) (a6 m c) (ix1 q) :=
  (congrFun (stretch6_v126 (F := Ideal) (W12 m c) (a6 m c) (c12_v96 m c)) (ix2 (0 : Fin 1) q)).trans
    (row64_apply _ (0 : Fin 1) q)

theorem c13_v97 : W13 m c (Proc.devRef .tc main_v97) = val_main_v120 (F := Ideal) (a0 m c) (a1 m c) (a3 m c) (a4 m c) (a5 m c) (a6 m c) (a7 m c) (a8 m c) :=
  (W13_of m c main_v97 (by decide)).trans (c12_v97 m c)

theorem c13_v12 (p : Fin 50000) :
    (W13 m c (Proc.devRef .tc main_v12) : (⟨S50000x1, .f32⟩ : BufTy).Contents (Elt Ideal)) (ix2 p (0 : Fin 1))
      = val_main_v149 (F := Ideal) (a1 m c) (ix1 p) := by
  have e : W13 m c (Proc.devRef .tc main_v12) = W7 m c (Proc.devRef .tc main_v12) :=
    calc W13 m c (Proc.devRef .tc main_v12)
      _ = W12 m c (Proc.devRef .tc main_v12) := W13_of m c main_v12 (by decide)
      _ = W11 m c (Proc.devRef .tc main_v12) := W12_of_ne m c main_v12 (by decide)
      _ = W10 m c (Proc.devRef .tc main_v12) := W11_of m c main_v12 (by decide)
      _ = W9 m c (Proc.devRef .tc main_v12) := W10_of_ne m c main_v12 (by decide)
      _ = W8 m c (Proc.devRef .tc main_v12) := W9_of m c main_v12 (by decide)
      _ = W7 m c (Proc.devRef .tc main_v12) := W8_in2 m c
  rw [e]
  exact c7_v12 m c p

theorem c14_v127 : W14 m c (Proc.devRef .tc main_v127) = val_main_v156 (F := Ideal) (a0 m c) (a1 m c) (a3 m c) (a4 m c) (a5 m c) (a6 m c) (a7 m c) (a8 m c) :=
  (W14_out m c).trans (step6 (V := E13 m) (c := c) (hagg := c13_v125 m c) (hh := c13_v97 m c)
    (hd := c13_v12 m c) (hb := c13_v126 m c))

theorem c15_v131 (q : Fin 64) :
    (W15 m c (Proc.devRef .tc main_v131) : (⟨S1x64, .f32⟩ : BufTy).Contents (Elt Ideal)) (ix2 (0 : Fin 1) q)
      = val_main_v159 (F := Ideal) (a0 m c) (a1 m c) (a3 m c) (a4 m c) (a5 m c) (a6 m c) (a7 m c) (a8 m c) (ix1 q) :=
  (congrFun (stretch7_v131 (F := Ideal) (W14 m c) (a0 m c) (a1 m c) (a3 m c) (a4 m c) (a5 m c) (a6 m c) (a7 m c) (a8 m c) (c14_v127 m c)) (ix2 (0 : Fin 1) q)).trans
    (rowDiv_v157 (F := Ideal) (a0 m c) (a1 m c) (a3 m c) (a4 m c) (a5 m c) (a6 m c) (a7 m c) (a8 m c) (0 : Fin 1) q)

theorem c15_v138 (q : Fin 64) :
    (W15 m c (Proc.devRef .tc main_v138) : (⟨S1x64, .f32⟩ : BufTy).Contents (Elt Ideal)) (ix2 (0 : Fin 1) q)
      = val_main_v166 (F := Ideal) (a0 m c) (a1 m c) (a3 m c) (a4 m c) (a5 m c) (a6 m c) (a7 m c) (a8 m c) (ix1 q) :=
  (congrFun (stretch7_v138 (F := Ideal) (W14 m c) (a0 m c) (a1 m c) (a3 m c) (a4 m c) (a5 m c) (a6 m c) (a7 m c) (a8 m c) (c14_v127 m c)) (ix2 (0 : Fin 1) q)).trans
    (rowDiv_v164 (F := Ideal) (a0 m c) (a1 m c) (a3 m c) (a4 m c) (a5 m c) (a6 m c) (a7 m c) (a8 m c) (0 : Fin 1) q)

theorem c15_v139 (q : Fin 64) :
    (W15 m c (Proc.devRef .tc main_v139) : (⟨S1x64, .f32⟩ : BufTy).Contents (Elt Ideal)) (ix2 (0 : Fin 1) q)
      = a7 m c (ix1 q) :=
  (congrFun (stretch7_v139 (F := Ideal) (W14 m c) (a7 m c) (arg7_W14 m c)) (ix2 (0 : Fin 1) q)).trans
    (row64_apply _ (0 : Fin 1) q)

theorem c15_v140 (q : Fin 64) :
    (W15 m c (Proc.devRef .tc main_v140) : (⟨S1x64, .f32⟩ : BufTy).Contents (Elt Ideal)) (ix2 (0 : Fin 1) q)
      = a8 m c (ix1 q) :=
  (congrFun (stretch7_v140 (F := Ideal) (W14 m c) (a8 m c) (arg8_W14 m c)) (ix2 (0 : Fin 1) q)).trans
    (row64_apply _ (0 : Fin 1) q)

theorem c15_v127 : W15 m c (Proc.devRef .tc main_v127) = val_main_v156 (F := Ideal) (a0 m c) (a1 m c) (a3 m c) (a4 m c) (a5 m c) (a6 m c) (a7 m c) (a8 m c) :=
  (W15_of m c main_v127 (by decide)).trans (c14_v127 m c)

theorem c16_v141 : W16 m c (Proc.devRef .tc main_v141) = val_main_v182 (F := Ideal) (a0 m c) (a1 m c) (a3 m c) (a4 m c) (a5 m c) (a6 m c) (a7 m c) (a8 m c) :=
  (W16_out m c).trans (step7 (V := E15 m) (c := c) (hpre := c15_v127 m c) (hg := c15_v139 m c)
    (hbeta := c15_v140 m c) (hmu := c15_v131 m c) (hvar := c15_v138 m c))

end Cert.KernelIdeal.Net
-- ==== Proof.KI.Chain2.lean ====
import proofs.«420664_j68839735820523_2_alg».proof.Proof.KI.Fold
import proofs.«420664_j68839735820523_2_alg».proof.Proof.KI.Stretch5
import proofs.«420664_j68839735820523_2_alg».proof.Proof.KI.Steps
import proofs.«420664_j68839735820523_2_alg».proof.Proof.KI.Chain0
import proofs.«420664_j68839735820523_2_alg».proof.Proof.KI.Chain1
import proofs.«420664_j68839735820523_2_alg».proof.Proof.RefRead
import Idealize.ShloMosaic.Lib.ValueIdx

set_option maxRecDepth 16384

noncomputable section

namespace Cert.KernelIdeal.Net

open Cert.KernelIdeal Cert.KernelIdeal.Gen
open Idealize.ShloMosaic Idealize.ShloMosaic.TcCoe
open Idealize.SL Idealize.SL.Sem
open Idealize.ShloMosaic.ValueIdx
open Cert.ReferenceIdeal.ReadP

variable (m : (ℓ : Loc nD τ sig) → Buf (Elt Ideal) ℓ) (c : Dev nD)

theorem arg5_W16 : W16 m c (Proc.devRef .tc main_arg5) = a5 m c :=
  calc W16 m c (Proc.devRef .tc main_arg5)
    _ = W15 m c (Proc.devRef .tc main_arg5) := W16_of_ne m c main_arg5 (by decide)
    _ = W14 m c (Proc.devRef .tc main_arg5) := W15_of m c main_arg5 (by decide)
    _ = W13 m c (Proc.devRef .tc main_arg5) := W14_of_ne m c main_arg5 (by decide)
    _ = W12 m c (Proc.devRef .tc main_arg5) := W13_of m c main_arg5 (by decide)
    _ = W11 m c (Proc.devRef .tc main_arg5) := W12_of_ne m c main_arg5 (by decide)
    _ = W10 m c (Proc.devRef .tc main_arg5) := W11_of m c main_arg5 (by decide)
    _ = W9 m c (Proc.devRef .tc main_arg5) := W10_of_ne m c main_arg5 (by decide)
    _ = W8 m c (Proc.devRef .tc main_arg5) := W9_of m c main_arg5 (by decide)
    _ = W7 m c (Proc.devRef .tc main_arg5) := W8_of_ne m c main_arg5 (by decide)
    _ = W6 m c (Proc.devRef .tc main_arg5) := W7_of m c main_arg5 (by decide)
    _ = W5 m c (Proc.devRef .tc main_arg5) := W6_of_ne m c main_arg5 (by decide)
    _ = W4 m c (Proc.devRef .tc main_arg5) := W5_of m c main_arg5 (by decide)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = a5 m c := rfl

theorem arg6_W16 : W16 m c (Proc.devRef .tc main_arg6) = a6 m c :=
  calc W16 m c (Proc.devRef .tc main_arg6)
    _ = W15 m c (Proc.devRef .tc main_arg6) := W16_of_ne m c main_arg6 (by decide)
    _ = W14 m c (Proc.devRef .tc main_arg6) := W15_of m c main_arg6 (by decide)
    _ = W13 m c (Proc.devRef .tc main_arg6) := W14_of_ne m c main_arg6 (by decide)
    _ = W12 m c (Proc.devRef .tc main_arg6) := W13_of m c main_arg6 (by decide)
    _ = W11 m c (Proc.devRef .tc main_arg6) := W12_of_ne m c main_arg6 (by decide)
    _ = W10 m c (Proc.devRef .tc main_arg6) := W11_of m c main_arg6 (by decide)
    _ = W9 m c (Proc.devRef .tc main_arg6) := W10_of_ne m c main_arg6 (by decide)
    _ = W8 m c (Proc.devRef .tc main_arg6) := W9_of m c main_arg6 (by decide)
    _ = W7 m c (Proc.devRef .tc main_arg6) := W8_of_ne m c main_arg6 (by decide)
    _ = W6 m c (Proc.devRef .tc main_arg6) := W7_of m c main_arg6 (by decide)
    _ = W5 m c (Proc.devRef .tc main_arg6) := W6_of_ne m c main_arg6 (by decide)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = a6 m c := rfl

theorem arg7_W20 : W20 m c (Proc.devRef .tc main_arg7) = a7 m c :=
  calc W20 m c (Proc.devRef .tc main_arg7)
    _ = W19 m c (Proc.devRef .tc main_arg7) := W20_of_ne m c main_arg7 (by decide)
    _ = W18 m c (Proc.devRef .tc main_arg7) := W19_of m c main_arg7 (by decide)
    _ = W17 m c (Proc.devRef .tc main_arg7) := W18_of_ne m c main_arg7 (by decide)
    _ = W16 m c (Proc.devRef .tc main_arg7) := W17_of m c main_arg7 (by decide)
    _ = W15 m c (Proc.devRef .tc main_arg7) := W16_of_ne m c main_arg7 (by decide)
    _ = W14 m c (Proc.devRef .tc main_arg7) := W15_of m c main_arg7 (by decide)
    _ = W13 m c (Proc.devRef .tc main_arg7) := W14_of_ne m c main_arg7 (by decide)
    _ = W12 m c (Proc.devRef .tc main_arg7) := W13_of m c main_arg7 (by decide)
    _ = W11 m c (Proc.devRef .tc main_arg7) := W12_of_ne m c main_arg7 (by decide)
    _ = W10 m c (Proc.devRef .tc main_arg7) := W11_of m c main_arg7 (by decide)
    _ = W9 m c (Proc.devRef .tc main_arg7) := W10_of_ne m c main_arg7 (by decide)
    _ = W8 m c (Proc.devRef .tc main_arg7) := W9_of m c main_arg7 (by decide)
    _ = W7 m c (Proc.devRef .tc main_arg7) := W8_of_ne m c main_arg7 (by decide)
    _ = W6 m c (Proc.devRef .tc main_arg7) := W7_of m c main_arg7 (by decide)
    _ = W5 m c (Proc.devRef .tc main_arg7) := W6_of_ne m c main_arg7 (by decide)
    _ = W4 m c (Proc.devRef .tc main_arg7) := W5_of m c main_arg7 (by decide)
    _ = W3 m c (Proc.devRef .tc main_arg7) := W4_of_ne m c main_arg7 (by decide)
    _ = W2 m c (Proc.devRef .tc main_arg7) := W3_of m c main_arg7 (by decide)
    _ = W1 m c (Proc.devRef .tc main_arg7) := W2_of_ne m c main_arg7 (by decide)
    _ = W0 m c (Proc.devRef .tc main_arg7) := W1_of m c main_arg7 (by decide)
    _ = a7 m c := rfl

theorem arg8_W20 : W20 m c (Proc.devRef .tc main_arg8) = a8 m c :=
  calc W20 m c (Proc.devRef .tc main_arg8)
    _ = W19 m c (Proc.devRef .tc main_arg8) := W20_of_ne m c main_arg8 (by decide)
    _ = W18 m c (Proc.devRef .tc main_arg8) := W19_of m c main_arg8 (by decide)
    _ = W17 m c (Proc.devRef .tc main_arg8) := W18_of_ne m c main_arg8 (by decide)
    _ = W16 m c (Proc.devRef .tc main_arg8) := W17_of m c main_arg8 (by decide)
    _ = W15 m c (Proc.devRef .tc main_arg8) := W16_of_ne m c main_arg8 (by decide)
    _ = W14 m c (Proc.devRef .tc main_arg8) := W15_of m c main_arg8 (by decide)
    _ = W13 m c (Proc.devRef .tc main_arg8) := W14_of_ne m c main_arg8 (by decide)
    _ = W12 m c (Proc.devRef .tc main_arg8) := W13_of m c main_arg8 (by decide)
    _ = W11 m c (Proc.devRef .tc main_arg8) := W12_of_ne m c main_arg8 (by decide)
    _ = W10 m c (Proc.devRef .tc main_arg8) := W11_of m c main_arg8 (by decide)
    _ = W9 m c (Proc.devRef .tc main_arg8) := W10_of_ne m c main_arg8 (by decide)
    _ = W8 m c (Proc.devRef .tc main_arg8) := W9_of m c main_arg8 (by decide)
    _ = W7 m c (Proc.devRef .tc main_arg8) := W8_of_ne m c main_arg8 (by decide)
    _ = W6 m c (Proc.devRef .tc main_arg8) := W7_of m c main_arg8 (by decide)
    _ = W5 m c (Proc.devRef .tc main_arg8) := W6_of_ne m c main_arg8 (by decide)
    _ = W4 m c (Proc.devRef .tc main_arg8) := W5_of m c main_arg8 (by decide)
    _ = W3 m c (Proc.devRef .tc main_arg8) := W4_of_ne m c main_arg8 (by decide)
    _ = W2 m c (Proc.devRef .tc main_arg8) := W3_of m c main_arg8 (by decide)
    _ = W1 m c (Proc.devRef .tc main_arg8) := W2_of_ne m c main_arg8 (by decide)
    _ = W0 m c (Proc.devRef .tc main_arg8) := W1_of m c main_arg8 (by decide)
    _ = a8 m c := rfl

theorem c18_v1 : W18 m c (Proc.devRef .tc main_v1) = val_main_v1 (F := Ideal) (a1 m c) :=
  calc W18 m c (Proc.devRef .tc main_v1)
    _ = W17 m c (Proc.devRef .tc main_v1) := W18_of_ne m c main_v1 (by decide)
    _ = W16 m c (Proc.devRef .tc main_v1) := W17_of m c main_v1 (by decide)
    _ = W15 m c (Proc.devRef .tc main_v1) := W16_of_ne m c main_v1 (by decide)
    _ = W14 m c (Proc.devRef .tc main_v1) := W15_of m c main_v1 (by decide)
    _ = W13 m c (Proc.devRef .tc main_v1) := W14_of_ne m c main_v1 (by decide)
    _ = W12 m c (Proc.devRef .tc main_v1) := W13_of m c main_v1 (by decide)
    _ = W11 m c (Proc.devRef .tc main_v1) := W12_of_ne m c main_v1 (by decide)
    _ = W10 m c (Proc.devRef .tc main_v1) := W11_of m c main_v1 (by decide)
    _ = W9 m c (Proc.devRef .tc main_v1) := W10_of_ne m c main_v1 (by decide)
    _ = W8 m c (Proc.devRef .tc main_v1) := W9_of m c main_v1 (by decide)
    _ = W7 m c (Proc.devRef .tc main_v1) := W8_of_ne m c main_v1 (by decide)
    _ = W6 m c (Proc.devRef .tc main_v1) := W7_of m c main_v1 (by decide)
    _ = W5 m c (Proc.devRef .tc main_v1) := W6_of_ne m c main_v1 (by decide)
    _ = W4 m c (Proc.devRef .tc main_v1) := W5_of m c main_v1 (by decide)
    _ = W3 m c (Proc.devRef .tc main_v1) := W4_of_ne m c main_v1 (by decide)
    _ = W2 m c (Proc.devRef .tc main_v1) := W3_of m c main_v1 (by decide)
    _ = W1 m c (Proc.devRef .tc main_v1) := W2_of_ne m c main_v1 (by decide)
    _ = val_main_v1 (F := Ideal) (a1 m c) := c1_v1 m c

theorem c18_v3 : W18 m c (Proc.devRef .tc main_v3) = val_main_v3 (F := Ideal) (a1 m c) :=
  calc W18 m c (Proc.devRef .tc main_v3)
    _ = W17 m c (Proc.devRef .tc main_v3) := W18_of_ne m c main_v3 (by decide)
    _ = W16 m c (Proc.devRef .tc main_v3) := W17_of m c main_v3 (by decide)
    _ = W15 m c (Proc.devRef .tc main_v3) := W16_of_ne m c main_v3 (by decide)
    _ = W14 m c (Proc.devRef .tc main_v3) := W15_of m c main_v3 (by decide)
    _ = W13 m c (Proc.devRef .tc main_v3) := W14_of_ne m c main_v3 (by decide)
    _ = W12 m c (Proc.devRef .tc main_v3) := W13_of m c main_v3 (by decide)
    _ = W11 m c (Proc.devRef .tc main_v3) := W12_of_ne m c main_v3 (by decide)
    _ = W10 m c (Proc.devRef .tc main_v3) := W11_of m c main_v3 (by decide)
    _ = W9 m c (Proc.devRef .tc main_v3) := W10_of_ne m c main_v3 (by decide)
    _ = W8 m c (Proc.devRef .tc main_v3) := W9_of m c main_v3 (by decide)
    _ = W7 m c (Proc.devRef .tc main_v3) := W8_of_ne m c main_v3 (by decide)
    _ = W6 m c (Proc.devRef .tc main_v3) := W7_of m c main_v3 (by decide)
    _ = W5 m c (Proc.devRef .tc main_v3) := W6_of_ne m c main_v3 (by decide)
    _ = W4 m c (Proc.devRef .tc main_v3) := W5_of m c main_v3 (by decide)
    _ = W3 m c (Proc.devRef .tc main_v3) := W4_of_ne m c main_v3 (by decide)
    _ = W2 m c (Proc.devRef .tc main_v3) := W3_of m c main_v3 (by decide)
    _ = W1 m c (Proc.devRef .tc main_v3) := W2_of_ne m c main_v3 (by decide)
    _ = val_main_v3 (F := Ideal) (a1 m c) := c1_v3 m c

theorem c18_v10 : W18 m c (Proc.devRef .tc main_v10) = val_main_v10 (F := Ideal) (a1 m c) :=
  calc W18 m c (Proc.devRef .tc main_v10)
    _ = W17 m c (Proc.devRef .tc main_v10) := W18_of_ne m c main_v10 (by decide)
    _ = W16 m c (Proc.devRef .tc main_v10) := W17_of m c main_v10 (by decide)
    _ = W15 m c (Proc.devRef .tc main_v10) := W16_of_ne m c main_v10 (by decide)
    _ = W14 m c (Proc.devRef .tc main_v10) := W15_of m c main_v10 (by decide)
    _ = W13 m c (Proc.devRef .tc main_v10) := W14_of_ne m c main_v10 (by decide)
    _ = W12 m c (Proc.devRef .tc main_v10) := W13_of m c main_v10 (by decide)
    _ = W11 m c (Proc.devRef .tc main_v10) := W12_of_ne m c main_v10 (by decide)
    _ = W10 m c (Proc.devRef .tc main_v10) := W11_of m c main_v10 (by decide)
    _ = W9 m c (Proc.devRef .tc main_v10) := W10_of_ne m c main_v10 (by decide)
    _ = W8 m c (Proc.devRef .tc main_v10) := W9_of m c main_v10 (by decide)
    _ = W7 m c (Proc.devRef .tc main_v10) := W8_of_ne m c main_v10 (by decide)
    _ = W6 m c (Proc.devRef .tc main_v10) := W7_of m c main_v10 (by decide)
    _ = W5 m c (Proc.devRef .tc main_v10) := W6_of_ne m c main_v10 (by decide)
    _ = W4 m c (Proc.devRef .tc main_v10) := W5_of m c main_v10 (by decide)
    _ = W3 m c (Proc.devRef .tc main_v10) := W4_of_ne m c main_v10 (by decide)
    _ = W2 m c (Proc.devRef .tc main_v10) := W3_of m c main_v10 (by decide)
    _ = W1 m c (Proc.devRef .tc main_v10) := W2_of_ne m c main_v10 (by decide)
    _ = val_main_v10 (F := Ideal) (a1 m c) := c1_v10 m c

theorem v12_W19 : W19 m c (Proc.devRef .tc main_v12) = W1 m c (Proc.devRef .tc main_v12) :=
  calc W19 m c (Proc.devRef .tc main_v12)
    _ = W18 m c (Proc.devRef .tc main_v12) := W19_of m c main_v12 (by decide)
    _ = W17 m c (Proc.devRef .tc main_v12) := W18_of_ne m c main_v12 (by decide)
    _ = W16 m c (Proc.devRef .tc main_v12) := W17_of m c main_v12 (by decide)
    _ = W15 m c (Proc.devRef .tc main_v12) := W16_of_ne m c main_v12 (by decide)
    _ = W14 m c (Proc.devRef .tc main_v12) := W15_of m c main_v12 (by decide)
    _ = W13 m c (Proc.devRef .tc main_v12) := W14_in2 m c
    _ = W12 m c (Proc.devRef .tc main_v12) := W13_of m c main_v12 (by decide)
    _ = W11 m c (Proc.devRef .tc main_v12) := W12_of_ne m c main_v12 (by decide)
    _ = W10 m c (Proc.devRef .tc main_v12) := W11_of m c main_v12 (by decide)
    _ = W9 m c (Proc.devRef .tc main_v12) := W10_of_ne m c main_v12 (by decide)
    _ = W8 m c (Proc.devRef .tc main_v12) := W9_of m c main_v12 (by decide)
    _ = W7 m c (Proc.devRef .tc main_v12) := W8_in2 m c
    _ = W6 m c (Proc.devRef .tc main_v12) := W7_of m c main_v12 (by decide)
    _ = W5 m c (Proc.devRef .tc main_v12) := W6_of_ne m c main_v12 (by decide)
    _ = W4 m c (Proc.devRef .tc main_v12) := W5_of m c main_v12 (by decide)
    _ = W3 m c (Proc.devRef .tc main_v12) := W4_in2 m c
    _ = W2 m c (Proc.devRef .tc main_v12) := W3_of m c main_v12 (by decide)
    _ = W1 m c (Proc.devRef .tc main_v12) := W2_of_ne m c main_v12 (by decide)

theorem c19_v12 (p : Fin 50000) :
    (W19 m c (Proc.devRef .tc main_v12) : (⟨S50000x1, .f32⟩ : BufTy).Contents (Elt Ideal)) (ix2 p (0 : Fin 1))
      = val_main_v40 (F := Ideal) (a1 m c) (ix1 p) := by
  rw [v12_W19]; exact c1_v12 m c p

theorem c17_v141 : W17 m c (Proc.devRef .tc main_v141) = val_main_v182 (F := Ideal) (a0 m c) (a1 m c) (a3 m c) (a4 m c) (a5 m c) (a6 m c) (a7 m c) (a8 m c) :=
  (W17_of m c main_v141 (by decide)).trans (c16_v141 m c)

theorem c17_v143 : W17 m c (Proc.devRef .tc main_v143) = val_main_v184 (F := Ideal) (a5 m c) :=
  stretch8_v143 (W16 m c) (a5 m c) (arg5_W16 m c)

theorem c17_v145 : W17 m c (Proc.devRef .tc main_v145) = val_main_v186 (F := Ideal) (a6 m c) :=
  stretch8_v145 (W16 m c) (a6 m c) (arg6_W16 m c)

theorem c18_v146 : W18 m c (Proc.devRef .tc main_v146) = val_main_v187 (F := Ideal) (a0 m c) (a1 m c) (a3 m c) (a4 m c) (a5 m c) (a6 m c) (a7 m c) (a8 m c) :=
  (W18_out m c).trans (step8 (E17 m) c (a0 m c) (a1 m c) (a3 m c) (a4 m c) (a5 m c) (a6 m c) (a7 m c) (a8 m c) (c17_v141 m c) (c17_v143 m c))

theorem c18_v145 : W18 m c (Proc.devRef .tc main_v145) = val_main_v186 (F := Ideal) (a6 m c) :=
  (W18_of_ne m c main_v145 (by decide)).trans (c17_v145 m c)

theorem c19_v174 : W19 m c (Proc.devRef .tc main_v174) = val_main_v215 (F := Ideal) (a0 m c) (a1 m c) (a3 m c) (a4 m c) (a5 m c) (a6 m c) (a7 m c) (a8 m c) :=
  stretch9_v174 (W18 m c) (a0 m c) (a1 m c) (a3 m c) (a4 m c) (a5 m c) (a6 m c) (a7 m c) (a8 m c) (c18_v146 m c) (c18_v1 m c) (c18_v3 m c) (c18_v10 m c)

theorem c19_v175 (q : Fin 64) :
    (W19 m c (Proc.devRef .tc main_v175) : (⟨S1x64, .f32⟩ : BufTy).Contents (Elt Ideal)) (ix2 (0 : Fin 1) q) = val_main_v186 (F := Ideal) (a6 m c) (ix1 q) := by
  rw [show W19 m c (Proc.devRef .tc main_v175) = _ from stretch9_v175 (W18 m c) (a6 m c) (c18_v145 m c)]
  exact row64_apply _ 0 q

theorem c19_v146 : W19 m c (Proc.devRef .tc main_v146) = val_main_v187 (F := Ideal) (a0 m c) (a1 m c) (a3 m c) (a4 m c) (a5 m c) (a6 m c) (a7 m c) (a8 m c) :=
  (W19_of m c main_v146 (by decide)).trans (c18_v146 m c)

theorem c20_v176 : W20 m c (Proc.devRef .tc main_v176) = val_main_v223 (F := Ideal) (a0 m c) (a1 m c) (a3 m c) (a4 m c) (a5 m c) (a6 m c) (a7 m c) (a8 m c) :=
  (W20_out m c).trans (step9 (E19 m) c (a0 m c) (a1 m c) (a3 m c) (a4 m c) (a5 m c) (a6 m c) (a7 m c) (a8 m c) (c19_v174 m c) (c19_v146 m c)
    (fun p => (c19_v12 m c p).trans rfl) (c19_v175 m c))

theorem c21_v176 : W21 m c (Proc.devRef .tc main_v176) = val_main_v223 (F := Ideal) (a0 m c) (a1 m c) (a3 m c) (a4 m c) (a5 m c) (a6 m c) (a7 m c) (a8 m c) :=
  (W21_of m c main_v176 (by decide)).trans (c20_v176 m c)

theorem c21_v180 (q : Fin 64) :
    (W21 m c (Proc.devRef .tc main_v180) : (⟨S1x64, .f32⟩ : BufTy).Contents (Elt Ideal)) (ix2 (0 : Fin 1) q) = val_main_v226 (F := Ideal) (a0 m c) (a1 m c) (a3 m c) (a4 m c) (a5 m c) (a6 m c) (a7 m c) (a8 m c) (ix1 q) := by
  rw [show W21 m c (Proc.devRef .tc main_v180) = _ from stretch10_v180 (W20 m c) (a0 m c) (a1 m c) (a3 m c) (a4 m c) (a5 m c) (a6 m c) (a7 m c) (a8 m c) (c20_v176 m c)]
  exact rowDiv_v224 (a0 m c) (a1 m c) (a3 m c) (a4 m c) (a5 m c) (a6 m c) (a7 m c) (a8 m c) 0 q

theorem c21_v187 (q : Fin 64) :
    (W21 m c (Proc.devRef .tc main_v187) : (⟨S1x64, .f32⟩ : BufTy).Contents (Elt Ideal)) (ix2 (0 : Fin 1) q) = val_main_v233 (F := Ideal) (a0 m c) (a1 m c) (a3 m c) (a4 m c) (a5 m c) (a6 m c) (a7 m c) (a8 m c) (ix1 q) := by
  rw [show W21 m c (Proc.devRef .tc main_v187) = _ from stretch10_v187 (W20 m c) (a0 m c) (a1 m c) (a3 m c) (a4 m c) (a5 m c) (a6 m c) (a7 m c) (a8 m c) (c20_v176 m c)]
  exact rowDiv_v231 (a0 m c) (a1 m c) (a3 m c) (a4 m c) (a5 m c) (a6 m c) (a7 m c) (a8 m c) 0 q

theorem c21_v188 (q : Fin 64) :
    (W21 m c (Proc.devRef .tc main_v188) : (⟨S1x64, .f32⟩ : BufTy).Contents (Elt Ideal)) (ix2 (0 : Fin 1) q) = a7 m c (ix1 q) := by
  rw [show W21 m c (Proc.devRef .tc main_v188) = _ from stretch10_v188 (W20 m c) (a7 m c) (arg7_W20 m c)]
  exact row64_apply _ 0 q

theorem c21_v189 (q : Fin 64) :
    (W21 m c (Proc.devRef .tc main_v189) : (⟨S1x64, .f32⟩ : BufTy).Contents (Elt Ideal)) (ix2 (0 : Fin 1) q) = a8 m c (ix1 q) := by
  rw [show W21 m c (Proc.devRef .tc main_v189) = _ from stretch10_v189 (W20 m c) (a8 m c) (arg8_W20 m c)]
  exact row64_apply _ 0 q

theorem c22_v190 : W22 m c (Proc.devRef .tc main_v190) = val_main_v249 (F := Ideal) (a0 m c) (a1 m c) (a3 m c) (a4 m c) (a5 m c) (a6 m c) (a7 m c) (a8 m c) :=
  (W22_out m c).trans (step10 (E21 m) c (a0 m c) (a1 m c) (a3 m c) (a4 m c) (a5 m c) (a6 m c) (a7 m c) (a8 m c) (c21_v176 m c) (c21_v188 m c) (c21_v189 m c) (c21_v180 m c) (c21_v187 m c))

end Cert.KernelIdeal.Net

end
-- ==== Proof.KI.Chain3.lean ====
import proofs.«420664_j68839735820523_2_alg».proof.Proof.KI.Fold
import proofs.«420664_j68839735820523_2_alg».proof.Proof.KI.Stretch5
import proofs.«420664_j68839735820523_2_alg».proof.Proof.KI.Steps
import proofs.«420664_j68839735820523_2_alg».proof.Proof.KI.Chain2
import proofs.«420664_j68839735820523_2_alg».proof.Proof.RefRead
import Idealize.ShloMosaic.Lib.ValueIdx

set_option maxRecDepth 16384

noncomputable section

namespace Cert.KernelIdeal.Net

open Cert.KernelIdeal Cert.KernelIdeal.Gen
open Idealize.ShloMosaic Idealize.ShloMosaic.TcCoe
open Idealize.SL Idealize.SL.Sem
open Idealize.ShloMosaic.ValueIdx
open Cert.ReferenceIdeal.ReadP

variable (m : (ℓ : Loc nD τ sig) → Buf (Elt Ideal) ℓ) (c : Dev nD)

theorem arg2_W25 : W25 m c (Proc.devRef .tc main_arg2) = a2 m c :=
  (W26_of_ne m c main_arg2 (by decide)).symm.trans (W26_main_arg2 m c)

theorem arg2_W24 : W24 m c (Proc.devRef .tc main_arg2) = a2 m c :=
  (W25_of m c main_arg2 (by decide)).symm.trans (arg2_W25 m c)

theorem arg2_W23 : W23 m c (Proc.devRef .tc main_arg2) = a2 m c :=
  (W24_of_ne m c main_arg2 (by decide)).symm.trans (arg2_W24 m c)

theorem arg2_W22 : W22 m c (Proc.devRef .tc main_arg2) = a2 m c :=
  (W23_of m c main_arg2 (by decide)).symm.trans (arg2_W23 m c)

theorem arg9_W25 : W25 m c (Proc.devRef .tc main_arg9) = a9 m c :=
  (W26_in1 m c).symm.trans (W26_main_arg9 m c)

theorem arg11_W25 : W25 m c (Proc.devRef .tc main_arg11) = a11 m c :=
  (W26_in3 m c).symm.trans (W26_main_arg11 m c)

theorem arg13_W25 : W25 m c (Proc.devRef .tc main_arg13) = a13 m c :=
  (W26_in5 m c).symm.trans (W26_main_arg13 m c)

theorem arg10_W24 : W24 m c (Proc.devRef .tc main_arg10) = a10 m c :=
  (W25_of m c main_arg10 (by decide)).symm.trans ((W26_of_ne m c main_arg10 (by decide)).symm.trans (W26_main_arg10 m c))

theorem arg12_W24 : W24 m c (Proc.devRef .tc main_arg12) = a12 m c :=
  (W25_of m c main_arg12 (by decide)).symm.trans ((W26_of_ne m c main_arg12 (by decide)).symm.trans (W26_main_arg12 m c))

theorem arg14_W24 : W24 m c (Proc.devRef .tc main_arg14) = a14 m c :=
  (W25_of m c main_arg14 (by decide)).symm.trans ((W26_of_ne m c main_arg14 (by decide)).symm.trans (W26_main_arg14 m c))

theorem c23_v190 : W23 m c (Proc.devRef .tc main_v190) = val_main_v249 (F := Ideal) (a0 m c) (a1 m c) (a3 m c) (a4 m c) (a5 m c) (a6 m c) (a7 m c) (a8 m c) :=
  (W23_of m c main_v190 (by decide)).trans (c22_v190 m c)

theorem c23_v191 (p : Fin 50000) :
    (W23 m c (Proc.devRef .tc main_v191) : (⟨S50000x1, .i32⟩ : BufTy).Contents (Elt Ideal)) (ix2 p (0 : Fin 1)) = a2 m c (ix1 p) :=
  (congrFun (stretch11_v191 (W22 m c) (a2 m c) (arg2_W22 m c)) (ix2 p (0 : Fin 1))).trans (col50000_apply (a2 m c) p 0)

theorem c24_v192 : W24 m c (Proc.devRef .tc main_v192) = val_main_v252 (F := Ideal) (a0 m c) (a1 m c) (a2 m c) (a3 m c) (a4 m c) (a5 m c) (a6 m c) (a7 m c) (a8 m c) :=
  (W24_out m c).trans (step11_ref (E23 m) c (a0 m c) (a1 m c) (a2 m c) (a3 m c) (a4 m c) (a5 m c) (a6 m c) (a7 m c) (a8 m c) (c23_v190 m c) (c23_v191 m c))

theorem c25_v201 : W25 m c (Proc.devRef .tc main_v201) = val_main_v261 (F := Ideal) (a0 m c) (a1 m c) (a2 m c) (a3 m c) (a4 m c) (a5 m c) (a6 m c) (a7 m c) (a8 m c) :=
  stretch12_v201 (W24 m c) (a0 m c) (a1 m c) (a2 m c) (a3 m c) (a4 m c) (a5 m c) (a6 m c) (a7 m c) (a8 m c) (c24_v192 m c) (arg2_W24 m c)

theorem c25_v202 (q : Fin 32) :
    (W25 m c (Proc.devRef .tc main_v202) : (⟨S1x32, .f32⟩ : BufTy).Contents (Elt Ideal)) (ix2 (0 : Fin 1) q) = a10 m c (ix1 q) :=
  (congrFun (stretch12_v202 (W24 m c) (a10 m c) (arg10_W24 m c)) (ix2 (0 : Fin 1) q)).trans (row32_apply (a10 m c) 0 q)

theorem c25_v203 (q : Fin 16) :
    (W25 m c (Proc.devRef .tc main_v203) : (⟨S1x16, .f32⟩ : BufTy).Contents (Elt Ideal)) (ix2 (0 : Fin 1) q) = a12 m c (ix1 q) :=
  (congrFun (stretch12_v203 (W24 m c) (a12 m c) (arg12_W24 m c)) (ix2 (0 : Fin 1) q)).trans (row16_apply (a12 m c) 0 q)

theorem c25_v204 (q : Fin 10) :
    (W25 m c (Proc.devRef .tc main_v204) : (⟨S1x10, .f32⟩ : BufTy).Contents (Elt Ideal)) (ix2 (0 : Fin 1) q) = a14 m c (ix1 q) :=
  (congrFun (stretch12_v204 (W24 m c) (a14 m c) (arg14_W24 m c)) (ix2 (0 : Fin 1) q)).trans (row10_apply (a14 m c) 0 q)

theorem kernel_value : W26 m c (Proc.devRef .tc main_v205) = val_main_v275 (F := Ideal) (a0 m c) (a1 m c) (a2 m c) (a3 m c) (a4 m c) (a5 m c) (a6 m c) (a7 m c) (a8 m c) (a9 m c) (a10 m c) (a11 m c) (a12 m c) (a13 m c) (a14 m c) :=
  (W26_out m c).trans (step12 (E25 m) c (a0 m c) (a1 m c) (a2 m c) (a3 m c) (a4 m c) (a5 m c) (a6 m c) (a7 m c) (a8 m c) (a9 m c) (a10 m c) (a11 m c) (a12 m c) (a13 m c) (a14 m c)
    (c25_v201 m c) (arg9_W25 m c) (c25_v202 m c) (arg11_W25 m c) (c25_v203 m c) (arg13_W25 m c) (c25_v204 m c))

end Cert.KernelIdeal.Net
-- ==== Proof.RefOps.lean ====
import proofs.«420664_j68839735820523_2_alg».proof.Proof.Gen.ReferenceIdeal
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (addf : (⟨S50000, .f32⟩ : BufTy).Contents (Elt F) → (⟨S50000, .f32⟩ : BufTy).Contents (Elt F) → (⟨S50000, .f32⟩ : BufTy).Contents (Elt F)),
    unary main_v9 main_v10 (Host.rsqrt : (⟨S50000, .f32⟩ : BufTy).Contents (Elt F) → (⟨S50000, .f32⟩ : BufTy).Contents (Elt F)),
    binary main_arg0 main_arg3 main_v11 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c (constantI S_ 32 0#32),
    unary main_c main_v12 (broadcastInDim S800000 ![] bcast_S_S800000 : (⟨S_, .i32⟩ : BufTy).Contents (Elt F) → (⟨S800000, .i32⟩ : BufTy).Contents (Elt F)),
    binary main_v1 main_v12 main_v13 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v14 (broadcastInDim S800000 ![] bcast_S_S800000 : (⟨S_, .i32⟩ : BufTy).Contents (Elt F) → (⟨S800000, .i32⟩ : BufTy).Contents (Elt F)),
    binary main_v1 main_v14 main_v15 (addi : (⟨S800000, .i32⟩ : BufTy).Contents (Elt F) → (⟨S800000, .i32⟩ : BufTy).Contents (Elt F) → (⟨S800000, .i32⟩ : BufTy).Contents (Elt F)),
    ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v16 main_v17 (broadcastInDim S800000x1 ![0] bcast_S800000_S800000x1_0 : (⟨S800000, .i32⟩ : BufTy).Contents (Elt F) → (⟨S800000x1, .i32⟩ : BufTy).Contents (Elt F)),
    binary main_v10 main_v17 main_v18 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_3 (constantI S_ 32 0#32),
    unary main_c_3 main_v19 (broadcastInDim S800000 ![] bcast_S_S800000 : (⟨S_, .i32⟩ : BufTy).Contents (Elt F) → (⟨S800000, .i32⟩ : BufTy).Contents (Elt F)),
    binary main_v3 main_v19 main_v20 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v21 (broadcastInDim S800000 ![] bcast_S_S800000 : (⟨S_, .i32⟩ : BufTy).Contents (Elt F) → (⟨S800000, .i32⟩ : BufTy).Contents (Elt F)),
    binary main_v3 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_v3 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v10 main_v24 main_v25 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v18 main_v25 main_v26 (mulf : (⟨S800000, .f32⟩ : BufTy).Contents (Elt F) → (⟨S800000, .f32⟩ : BufTy).Contents (Elt F) → (⟨S800000, .f32⟩ : BufTy).Contents (Elt F)),
    unary main_v26 main_v27 (broadcastInDim S800000x1 ![0] bcast_S800000_S800000x1_0 : (⟨S800000, .f32⟩ : BufTy).Contents (Elt F) → (⟨S800000x1, .f32⟩ : BufTy).Contents (Elt F)),
    nullary main_c_5 (constantI S_ 32 0#32),
    unary main_c_5 main_v28 (broadcastInDim S800000 ![] bcast_S_S800000 : (⟨S_, .i32⟩ : BufTy).Contents (Elt F) → (⟨S800000, .i32⟩ : BufTy).Contents (Elt F)),
    binary main_v1 main_v28 main_v29 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v30 (broadcastInDim S800000 ![] bcast_S_S800000 : (⟨S_, .i32⟩ : BufTy).Contents (Elt F) → (⟨S800000, .i32⟩ : BufTy).Contents (Elt F)),
    binary main_v1 main_v30 main_v31 (addi : (⟨S800000, .i32⟩ : BufTy).Contents (Elt F) → (⟨S800000, .i32⟩ : BufTy).Contents (Elt F) → (⟨S800000, .i32⟩ : BufTy).Contents (Elt F)),
    ternary main_v29 main_v31 main_v1 main_v32 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v32 main_v33 (broadcastInDim S800000x1 ![0] bcast_S800000_S800000x1_0 : (⟨S800000, .i32⟩ : BufTy).Contents (Elt F) → (⟨S800000x1, .i32⟩ : BufTy).Contents (Elt F)),
    binary main_v11 main_v33 main_v34 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v27 main_v35 (broadcastInDim S800000x64 ![0, 1] bcast_S800000x1_S800000x64_0_1 : (⟨S800000x1, .f32⟩ : BufTy).Contents (Elt F) → (⟨S800000x64, .f32⟩ : BufTy).Contents (Elt F)),
    binary main_v34 main_v35 main_v36 (mulf : (⟨S800000x64, .f32⟩ : BufTy).Contents (Elt F) → (⟨S800000x64, .f32⟩ : BufTy).Contents (Elt F) → (⟨S800000x64, .f32⟩ : BufTy).Contents (Elt F)),
    nullary main_cst_7 (constant S_ .f32 0x00000000#32),
    unary main_cst_7 main_v37 (broadcastInDim S50000x64 ![] bcast_S_S50000x64 : (⟨S_, .f32⟩ : BufTy).Contents (Elt F) → (⟨S50000x64, .f32⟩ : BufTy).Contents (Elt F)),
    unary main_v3 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v10 main_v10 main_v40 (mulf : (⟨S50000, .f32⟩ : BufTy).Contents (Elt F) → (⟨S50000, .f32⟩ : BufTy).Contents (Elt F) → (⟨S50000, .f32⟩ : BufTy).Contents (Elt F)),
    unary main_v40 main_v41 (broadcastInDim S50000x1 ![0] bcast_S50000_S50000x1_0 : (⟨S50000, .f32⟩ : BufTy).Contents (Elt F) → (⟨S50000x1, .f32⟩ : BufTy).Contents (Elt F)),
    unary main_v41 main_v42 (broadcastInDim S50000x64 ![0, 1] bcast_S50000x1_S50000x64_0_1 : (⟨S50000x1, .f32⟩ : BufTy).Contents (Elt F) → (⟨S50000x64, .f32⟩ : BufTy).Contents (Elt F)),
    binary main_v11 main_v42 main_v43 (mulf : (⟨S50000x64, .f32⟩ : BufTy).Contents (Elt F) → (⟨S50000x64, .f32⟩ : BufTy).Contents (Elt F) → (⟨S50000x64, .f32⟩ : BufTy).Contents (Elt F)),
    binary main_v39 main_v43 main_v44 (addf : (⟨S50000x64, .f32⟩ : BufTy).Contents (Elt F) → (⟨S50000x64, .f32⟩ : BufTy).Contents (Elt F) → (⟨S50000x64, .f32⟩ : BufTy).Contents (Elt F)),
    unary main_arg4 main_v45 (broadcastInDim S1x64 ![1] bcast_S64_S1x64_1 : (⟨S64, .f32⟩ : BufTy).Contents (Elt F) → (⟨S1x64, .f32⟩ : BufTy).Contents (Elt F)),
    unary main_v45 main_v46 (broadcastInDim S50000x64 ![0, 1] bcast_S1x64_S50000x64_0_1 : (⟨S1x64, .f32⟩ : BufTy).Contents (Elt F) → (⟨S50000x64, .f32⟩ : BufTy).Contents (Elt F)),
    binary main_v44 main_v46 main_v47 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v47) (TRef.of (T := ⟨S50000x64, .f32⟩) main_call0_v0) (TRef.of (T := ⟨S50000x64, .f32⟩) main_v48) maximumf,
    unary main_arg5 main_v49 ((extractStridedSlice S1x64x64 ![0, 0, 0] · slices_S3x64x64_S1x64x64_0_0_0) : (⟨S3x64x64, .f32⟩ : BufTy).Contents (Elt F) → (⟨S1x64x64, .f32⟩ : BufTy).Contents (Elt F)) ]

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub ..⟩

theorem ops0_fresh : (ops0 : List (HloOp τ sig (Elt F))).Forall fun op => op.fresh = ∅ := by
  simp only [List.Forall]; repeat' constructor

abbrev ops0_W : List (Ref sig .tc) :=
  [main_v0, main_v1, main_v2, main_v3, main_cst, main_v4, main_cst_0, main_v5, main_v6, main_v7, main_cst_1, main_v8, main_v9, main_v10, main_v11, main_c, main_v12, main_v13, main_c_2, main_v14, main_v15, main_v16, main_v17, main_v18, main_c_3, main_v19, main_v20, main_c_4, main_v21, main_v22, main_v23, main_v24, main_v25, main_v26, main_v27, main_c_5, main_v28, main_v29, main_c_6, main_v30, main_v31, main_v32, main_v33, main_v34, main_v35, main_v36, main_cst_7, main_v37, main_v38, main_v39, main_v40, main_v41, main_v42, main_v43, main_v44, main_v45, main_v46, main_v47, main_call0_cst, main_call0_v0, main_v48, main_v49]

theorem ops0_writes : (ops0 : List (HloOp τ sig (Elt F))).Forall fun op => op.writes ⊆ (ops0_W.map (Proc.devRef (τ := τ) .tc)).toFinset := by
  simp only [List.Forall]
  repeat' apply And.intro
  all_goals (simp only [TRef.nullary, TRef.unary, TRef.binary, nullary_writes, unary_writes, binary_writes, ternary_writes, reshape_writes, Finset.singleton_subset_iff, List.mem_toFinset]; exact List.mem_map_of_mem (by decide))

abbrev ops1 : List (HloOp τ sig (Elt F)) :=
  [ reshape main_v49 main_v50 rfl shapeCasts_S1x64x64_S64x64,
    unary main_arg6 main_v51 ((extractStridedSlice S1x64 ![0, 0] · slices_S3x64_S1x64_0_0) : (⟨S3x64, .f32⟩ : BufTy).Contents (Elt F) → (⟨S1x64, .f32⟩ : BufTy).Contents (Elt F)),
    reshape main_v51 main_v52 rfl shapeCasts_S1x64_S64,
    binary main_v48 main_v50 main_v53 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_8 (constantI S_ 32 0#32),
    unary main_c_8 main_v54 (broadcastInDim S800000 ![] bcast_S_S800000 : (⟨S_, .i32⟩ : BufTy).Contents (Elt F) → (⟨S800000, .i32⟩ : BufTy).Contents (Elt F)),
    binary main_v1 main_v54 main_v55 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v56 (broadcastInDim S800000 ![] bcast_S_S800000 : (⟨S_, .i32⟩ : BufTy).Contents (Elt F) → (⟨S800000, .i32⟩ : BufTy).Contents (Elt F)),
    binary main_v1 main_v56 main_v57 (addi : (⟨S800000, .i32⟩ : BufTy).Contents (Elt F) → (⟨S800000, .i32⟩ : BufTy).Contents (Elt F) → (⟨S800000, .i32⟩ : BufTy).Contents (Elt F)),
    ternary main_v55 main_v57 main_v1 main_v58 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v58 main_v59 (broadcastInDim S800000x1 ![0] bcast_S800000_S800000x1_0 : (⟨S800000, .i32⟩ : BufTy).Contents (Elt F) → (⟨S800000x1, .i32⟩ : BufTy).Contents (Elt F)),
    binary main_v10 main_v59 main_v60 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_10 (constantI S_ 32 0#32),
    unary main_c_10 main_v61 (broadcastInDim S800000 ![] bcast_S_S800000 : (⟨S_, .i32⟩ : BufTy).Contents (Elt F) → (⟨S800000, .i32⟩ : BufTy).Contents (Elt F)),
    binary main_v3 main_v61 main_v62 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v63 (broadcastInDim S800000 ![] bcast_S_S800000 : (⟨S_, .i32⟩ : BufTy).Contents (Elt F) → (⟨S800000, .i32⟩ : BufTy).Contents (Elt F)),
    binary main_v3 main_v63 main_v64 (addi : (⟨S800000, .i32⟩ : BufTy).Contents (Elt F) → (⟨S800000, .i32⟩ : BufTy).Contents (Elt F) → (⟨S800000, .i32⟩ : BufTy).Contents (Elt F)),
    ternary main_v62 main_v64 main_v3 main_v65 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v65 main_v66 (broadcastInDim S800000x1 ![0] bcast_S800000_S800000x1_0 : (⟨S800000, .i32⟩ : BufTy).Contents (Elt F) → (⟨S800000x1, .i32⟩ : BufTy).Contents (Elt F)),
    binary main_v10 main_v66 main_v67 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v60 main_v67 main_v68 (mulf : (⟨S800000, .f32⟩ : BufTy).Contents (Elt F) → (⟨S800000, .f32⟩ : BufTy).Contents (Elt F) → (⟨S800000, .f32⟩ : BufTy).Contents (Elt F)),
    unary main_v68 main_v69 (broadcastInDim S800000x1 ![0] bcast_S800000_S800000x1_0 : (⟨S800000, .f32⟩ : BufTy).Contents (Elt F) → (⟨S800000x1, .f32⟩ : BufTy).Contents (Elt F)),
    nullary main_c_12 (constantI S_ 32 0#32),
    unary main_c_12 main_v70 (broadcastInDim S800000 ![] bcast_S_S800000 : (⟨S_, .i32⟩ : BufTy).Contents (Elt F) → (⟨S800000, .i32⟩ : BufTy).Contents (Elt F)),
    binary main_v1 main_v70 main_v71 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v72 (broadcastInDim S800000 ![] bcast_S_S800000 : (⟨S_, .i32⟩ : BufTy).Contents (Elt F) → (⟨S800000, .i32⟩ : BufTy).Contents (Elt F)),
    binary main_v1 main_v72 main_v73 (addi : (⟨S800000, .i32⟩ : BufTy).Contents (Elt F) → (⟨S800000, .i32⟩ : BufTy).Contents (Elt F) → (⟨S800000, .i32⟩ : BufTy).Contents (Elt F)),
    ternary main_v71 main_v73 main_v1 main_v74 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v74 main_v75 (broadcastInDim S800000x1 ![0] bcast_S800000_S800000x1_0 : (⟨S800000, .i32⟩ : BufTy).Contents (Elt F) → (⟨S800000x1, .i32⟩ : BufTy).Contents (Elt F)),
    binary main_v53 main_v75 main_v76 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v69 main_v77 (broadcastInDim S800000x64 ![0, 1] bcast_S800000x1_S800000x64_0_1 : (⟨S800000x1, .f32⟩ : BufTy).Contents (Elt F) → (⟨S800000x64, .f32⟩ : BufTy).Contents (Elt F)),
    binary main_v76 main_v77 main_v78 (mulf : (⟨S800000x64, .f32⟩ : BufTy).Contents (Elt F) → (⟨S800000x64, .f32⟩ : BufTy).Contents (Elt F) → (⟨S800000x64, .f32⟩ : BufTy).Contents (Elt F)),
    nullary main_cst_14 (constant S_ .f32 0x00000000#32),
    unary main_cst_14 main_v79 (broadcastInDim S50000x64 ![] bcast_S_S50000x64 : (⟨S_, .f32⟩ : BufTy).Contents (Elt F) → (⟨S50000x64, .f32⟩ : BufTy).Contents (Elt F)),
    unary main_v3 main_v80 (broadcastInDim S800000x1 ![0] bcast_S800000_S800000x1_0 : (⟨S800000, .i32⟩ : BufTy).Contents (Elt F) → (⟨S800000x1, .i32⟩ : BufTy).Contents (Elt F)),
    ternary main_v79 main_v80 main_v78 main_v81 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v10 main_v10 main_v82 (mulf : (⟨S50000, .f32⟩ : BufTy).Contents (Elt F) → (⟨S50000, .f32⟩ : BufTy).Contents (Elt F) → (⟨S50000, .f32⟩ : BufTy).Contents (Elt F)),
    unary main_v82 main_v83 (broadcastInDim S50000x1 ![0] bcast_S50000_S50000x1_0 : (⟨S50000, .f32⟩ : BufTy).Contents (Elt F) → (⟨S50000x1, .f32⟩ : BufTy).Contents (Elt F)),
    unary main_v83 main_v84 (broadcastInDim S50000x64 ![0, 1] bcast_S50000x1_S50000x64_0_1 : (⟨S50000x1, .f32⟩ : BufTy).Contents (Elt F) → (⟨S50000x64, .f32⟩ : BufTy).Contents (Elt F)),
    binary main_v53 main_v84 main_v85 (mulf : (⟨S50000x64, .f32⟩ : BufTy).Contents (Elt F) → (⟨S50000x64, .f32⟩ : BufTy).Contents (Elt F) → (⟨S50000x64, .f32⟩ : BufTy).Contents (Elt F)),
    binary main_v81 main_v85 main_v86 (addf : (⟨S50000x64, .f32⟩ : BufTy).Contents (Elt F) → (⟨S50000x64, .f32⟩ : BufTy).Contents (Elt F) → (⟨S50000x64, .f32⟩ : BufTy).Contents (Elt F)),
    unary main_v52 main_v87 (broadcastInDim S1x64 ![1] bcast_S64_S1x64_1 : (⟨S64, .f32⟩ : BufTy).Contents (Elt F) → (⟨S1x64, .f32⟩ : BufTy).Contents (Elt F)),
    unary main_v87 main_v88 (broadcastInDim S50000x64 ![0, 1] bcast_S1x64_S50000x64_0_1 : (⟨S1x64, .f32⟩ : BufTy).Contents (Elt F) → (⟨S50000x64, .f32⟩ : BufTy).Contents (Elt F)),
    binary main_v86 main_v88 main_v89 (addf : (⟨S50000x64, .f32⟩ : BufTy).Contents (Elt F) → (⟨S50000x64, .f32⟩ : BufTy).Contents (Elt F) → (⟨S50000x64, .f32⟩ : BufTy).Contents (Elt F)),
    nullary main_cst_15 (constant S_ .f32 0x00000000#32),
    binary main_v89 main_cst_15 main_v90 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_16 (constant S_ .f32 0x47435000#32),
    unary main_cst_16 main_v91 (broadcastInDim S64 ![] bcast_S_S64 : (⟨S_, .f32⟩ : BufTy).Contents (Elt F) → (⟨S64, .f32⟩ : BufTy).Contents (Elt F)),
    binary main_v90 main_v91 main_v92 (Host.divf : (⟨S64, .f32⟩ : BufTy).Contents (Elt F) → (⟨S64, .f32⟩ : BufTy).Contents (Elt F) → (⟨S64, .f32⟩ : BufTy).Contents (Elt F)),
    unary main_v92 main_v93 (broadcastInDim S1x64 ![1] bcast_S64_S1x64_1 : (⟨S64, .f32⟩ : BufTy).Contents (Elt F) → (⟨S1x64, .f32⟩ : BufTy).Contents (Elt F)),
    unary main_v93 main_v94 (broadcastInDim S50000x64 ![0, 1] bcast_S1x64_S50000x64_0_1 : (⟨S1x64, .f32⟩ : BufTy).Contents (Elt F) → (⟨S50000x64, .f32⟩ : BufTy).Contents (Elt F)),
    binary main_v89 main_v94 main_v95 (subf : (⟨S50000x64, .f32⟩ : BufTy).Contents (Elt F) → (⟨S50000x64, .f32⟩ : BufTy).Contents (Elt F) → (⟨S50000x64, .f32⟩ : BufTy).Contents (Elt F)),
    binary main_v95 main_v95 main_v96 (mulf : (⟨S50000x64, .f32⟩ : BufTy).Contents (Elt F) → (⟨S50000x64, .f32⟩ : BufTy).Contents (Elt F) → (⟨S50000x64, .f32⟩ : BufTy).Contents (Elt F)),
    nullary main_cst_17 (constant S_ .f32 0x00000000#32),
    binary main_v96 main_cst_17 main_v97 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_18 (constant S_ .f32 0x47435000#32),
    unary main_cst_18 main_v98 (broadcastInDim S64 ![] bcast_S_S64 : (⟨S_, .f32⟩ : BufTy).Contents (Elt F) → (⟨S64, .f32⟩ : BufTy).Contents (Elt F)) ]

theorem ops1_sub : (ops1 : List (HloOp τ sig (Elt F))).Forall fun op => op.bufs ⊆ tcRefs τ sig :=
  ⟨reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub ..⟩

theorem ops1_fresh : (ops1 : List (HloOp τ sig (Elt F))).Forall fun op => op.fresh = ∅ := by
  simp only [List.Forall]; repeat' constructor

abbrev ops1_W : List (Ref sig .tc) :=
  [main_v50, main_v51, main_v52, main_v53, main_c_8, main_v54, main_v55, main_c_9, main_v56, main_v57, main_v58, main_v59, main_v60, main_c_10, main_v61, main_v62, main_c_11, main_v63, main_v64, main_v65, main_v66, main_v67, main_v68, main_v69, main_c_12, main_v70, main_v71, main_c_13, main_v72, main_v73, main_v74, main_v75, main_v76, main_v77, main_v78, main_cst_14, main_v79, main_v80, main_v81, main_v82, main_v83, main_v84, main_v85, main_v86, main_v87, main_v88, main_v89, main_cst_15, main_v90, main_cst_16, main_v91, main_v92, main_v93, main_v94, main_v95, main_v96, main_cst_17, main_v97, main_cst_18, main_v98]

theorem ops1_writes : (ops1 : List (HloOp τ sig (Elt F))).Forall fun op => op.writes ⊆ (ops1_W.map (Proc.devRef (τ := τ) .tc)).toFinset := by
  simp only [List.Forall]
  repeat' apply And.intro
  all_goals (simp only [TRef.nullary, TRef.unary, TRef.binary, nullary_writes, unary_writes, binary_writes, ternary_writes, reshape_writes, Finset.singleton_subset_iff, List.mem_toFinset]; exact List.mem_map_of_mem (by decide))

abbrev ops2 : List (HloOp τ sig (Elt F)) :=
  [ binary main_v97 main_v98 main_v99 (Host.divf : (⟨S64, .f32⟩ : BufTy).Contents (Elt F) → (⟨S64, .f32⟩ : BufTy).Contents (Elt F) → (⟨S64, .f32⟩ : BufTy).Contents (Elt F)),
    unary main_v92 main_v100 (broadcastInDim S1x64 ![1] bcast_S64_S1x64_1 : (⟨S64, .f32⟩ : BufTy).Contents (Elt F) → (⟨S1x64, .f32⟩ : BufTy).Contents (Elt F)),
    unary main_v100 main_v101 (broadcastInDim S50000x64 ![0, 1] bcast_S1x64_S50000x64_0_1 : (⟨S1x64, .f32⟩ : BufTy).Contents (Elt F) → (⟨S50000x64, .f32⟩ : BufTy).Contents (Elt F)),
    binary main_v89 main_v101 main_v102 (subf : (⟨S50000x64, .f32⟩ : BufTy).Contents (Elt F) → (⟨S50000x64, .f32⟩ : BufTy).Contents (Elt F) → (⟨S50000x64, .f32⟩ : BufTy).Contents (Elt F)),
    nullary main_cst_19 (constant S_ .f32 0x3727C5AC#32),
    unary main_cst_19 main_v103 (broadcastInDim S64 ![] bcast_S_S64 : (⟨S_, .f32⟩ : BufTy).Contents (Elt F) → (⟨S64, .f32⟩ : BufTy).Contents (Elt F)),
    binary main_v99 main_v103 main_v104 (addf : (⟨S64, .f32⟩ : BufTy).Contents (Elt F) → (⟨S64, .f32⟩ : BufTy).Contents (Elt F) → (⟨S64, .f32⟩ : BufTy).Contents (Elt F)),
    unary main_v104 main_v105 (Host.rsqrt : (⟨S64, .f32⟩ : BufTy).Contents (Elt F) → (⟨S64, .f32⟩ : BufTy).Contents (Elt F)),
    unary main_v105 main_v106 (broadcastInDim S1x64 ![1] bcast_S64_S1x64_1 : (⟨S64, .f32⟩ : BufTy).Contents (Elt F) → (⟨S1x64, .f32⟩ : BufTy).Contents (Elt F)),
    unary main_v106 main_v107 (broadcastInDim S50000x64 ![0, 1] bcast_S1x64_S50000x64_0_1 : (⟨S1x64, .f32⟩ : BufTy).Contents (Elt F) → (⟨S50000x64, .f32⟩ : BufTy).Contents (Elt F)),
    binary main_v102 main_v107 main_v108 (mulf : (⟨S50000x64, .f32⟩ : BufTy).Contents (Elt F) → (⟨S50000x64, .f32⟩ : BufTy).Contents (Elt F) → (⟨S50000x64, .f32⟩ : BufTy).Contents (Elt F)),
    unary main_arg7 main_v109 (broadcastInDim S1x64 ![1] bcast_S64_S1x64_1 : (⟨S64, .f32⟩ : BufTy).Contents (Elt F) → (⟨S1x64, .f32⟩ : BufTy).Contents (Elt F)),
    unary main_v109 main_v110 (broadcastInDim S50000x64 ![0, 1] bcast_S1x64_S50000x64_0_1 : (⟨S1x64, .f32⟩ : BufTy).Contents (Elt F) → (⟨S50000x64, .f32⟩ : BufTy).Contents (Elt F)),
    binary main_v108 main_v110 main_v111 (mulf : (⟨S50000x64, .f32⟩ : BufTy).Contents (Elt F) → (⟨S50000x64, .f32⟩ : BufTy).Contents (Elt F) → (⟨S50000x64, .f32⟩ : BufTy).Contents (Elt F)),
    unary main_arg8 main_v112 (broadcastInDim S1x64 ![1] bcast_S64_S1x64_1 : (⟨S64, .f32⟩ : BufTy).Contents (Elt F) → (⟨S1x64, .f32⟩ : BufTy).Contents (Elt F)),
    unary main_v112 main_v113 (broadcastInDim S50000x64 ![0, 1] bcast_S1x64_S50000x64_0_1 : (⟨S1x64, .f32⟩ : BufTy).Contents (Elt F) → (⟨S50000x64, .f32⟩ : BufTy).Contents (Elt F)),
    binary main_v111 main_v113 main_v114 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v114) (TRef.of (T := ⟨S50000x64, .f32⟩) main_call1_v0) (TRef.of (T := ⟨S50000x64, .f32⟩) main_v115) maximumf,
    unary main_arg5 main_v116 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v116 main_v117 rfl shapeCasts_S1x64x64_S64x64,
    unary main_arg6 main_v118 ((extractStridedSlice S1x64 ![1, 0] · slices_S3x64_S1x64_1_0) : (⟨S3x64, .f32⟩ : BufTy).Contents (Elt F) → (⟨S1x64, .f32⟩ : BufTy).Contents (Elt F)),
    reshape main_v118 main_v119 rfl shapeCasts_S1x64_S64,
    binary main_v115 main_v117 main_v120 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_20 (constantI S_ 32 0#32),
    unary main_c_20 main_v121 (broadcastInDim S800000 ![] bcast_S_S800000 : (⟨S_, .i32⟩ : BufTy).Contents (Elt F) → (⟨S800000, .i32⟩ : BufTy).Contents (Elt F)),
    binary main_v1 main_v121 main_v122 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v123 (broadcastInDim S800000 ![] bcast_S_S800000 : (⟨S_, .i32⟩ : BufTy).Contents (Elt F) → (⟨S800000, .i32⟩ : BufTy).Contents (Elt F)),
    binary main_v1 main_v123 main_v124 (addi : (⟨S800000, .i32⟩ : BufTy).Contents (Elt F) → (⟨S800000, .i32⟩ : BufTy).Contents (Elt F) → (⟨S800000, .i32⟩ : BufTy).Contents (Elt F)),
    ternary main_v122 main_v124 main_v1 main_v125 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v125 main_v126 (broadcastInDim S800000x1 ![0] bcast_S800000_S800000x1_0 : (⟨S800000, .i32⟩ : BufTy).Contents (Elt F) → (⟨S800000x1, .i32⟩ : BufTy).Contents (Elt F)),
    binary main_v10 main_v126 main_v127 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_22 (constantI S_ 32 0#32),
    unary main_c_22 main_v128 (broadcastInDim S800000 ![] bcast_S_S800000 : (⟨S_, .i32⟩ : BufTy).Contents (Elt F) → (⟨S800000, .i32⟩ : BufTy).Contents (Elt F)),
    binary main_v3 main_v128 main_v129 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v130 (broadcastInDim S800000 ![] bcast_S_S800000 : (⟨S_, .i32⟩ : BufTy).Contents (Elt F) → (⟨S800000, .i32⟩ : BufTy).Contents (Elt F)),
    binary main_v3 main_v130 main_v131 (addi : (⟨S800000, .i32⟩ : BufTy).Contents (Elt F) → (⟨S800000, .i32⟩ : BufTy).Contents (Elt F) → (⟨S800000, .i32⟩ : BufTy).Contents (Elt F)),
    ternary main_v129 main_v131 main_v3 main_v132 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v132 main_v133 (broadcastInDim S800000x1 ![0] bcast_S800000_S800000x1_0 : (⟨S800000, .i32⟩ : BufTy).Contents (Elt F) → (⟨S800000x1, .i32⟩ : BufTy).Contents (Elt F)),
    binary main_v10 main_v133 main_v134 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v127 main_v134 main_v135 (mulf : (⟨S800000, .f32⟩ : BufTy).Contents (Elt F) → (⟨S800000, .f32⟩ : BufTy).Contents (Elt F) → (⟨S800000, .f32⟩ : BufTy).Contents (Elt F)),
    unary main_v135 main_v136 (broadcastInDim S800000x1 ![0] bcast_S800000_S800000x1_0 : (⟨S800000, .f32⟩ : BufTy).Contents (Elt F) → (⟨S800000x1, .f32⟩ : BufTy).Contents (Elt F)),
    nullary main_c_24 (constantI S_ 32 0#32),
    unary main_c_24 main_v137 (broadcastInDim S800000 ![] bcast_S_S800000 : (⟨S_, .i32⟩ : BufTy).Contents (Elt F) → (⟨S800000, .i32⟩ : BufTy).Contents (Elt F)),
    binary main_v1 main_v137 main_v138 (cmpi .slt : (⟨S800000, .i32⟩ : BufTy).Contents (Elt F) → (⟨S800000, .i32⟩ : BufTy).Contents (Elt F) → (⟨S800000, .i1⟩ : BufTy).Contents (Elt F)),
    nullary main_c_25 (constantI S_ 32 50000#32),
    unary main_c_25 main_v139 (broadcastInDim S800000 ![] bcast_S_S800000 : (⟨S_, .i32⟩ : BufTy).Contents (Elt F) → (⟨S800000, .i32⟩ : BufTy).Contents (Elt F)),
    binary main_v1 main_v139 main_v140 (addi : (⟨S800000, .i32⟩ : BufTy).Contents (Elt F) → (⟨S800000, .i32⟩ : BufTy).Contents (Elt F) → (⟨S800000, .i32⟩ : BufTy).Contents (Elt F)),
    ternary main_v138 main_v140 main_v1 main_v141 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v141 main_v142 (broadcastInDim S800000x1 ![0] bcast_S800000_S800000x1_0 : (⟨S800000, .i32⟩ : BufTy).Contents (Elt F) → (⟨S800000x1, .i32⟩ : BufTy).Contents (Elt F)),
    binary main_v120 main_v142 main_v143 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v136 main_v144 (broadcastInDim S800000x64 ![0, 1] bcast_S800000x1_S800000x64_0_1 : (⟨S800000x1, .f32⟩ : BufTy).Contents (Elt F) → (⟨S800000x64, .f32⟩ : BufTy).Contents (Elt F)),
    binary main_v143 main_v144 main_v145 (mulf : (⟨S800000x64, .f32⟩ : BufTy).Contents (Elt F) → (⟨S800000x64, .f32⟩ : BufTy).Contents (Elt F) → (⟨S800000x64, .f32⟩ : BufTy).Contents (Elt F)),
    nullary main_cst_26 (constant S_ .f32 0x00000000#32),
    unary main_cst_26 main_v146 (broadcastInDim S50000x64 ![] bcast_S_S50000x64 : (⟨S_, .f32⟩ : BufTy).Contents (Elt F) → (⟨S50000x64, .f32⟩ : BufTy).Contents (Elt F)),
    unary main_v3 main_v147 (broadcastInDim S800000x1 ![0] bcast_S800000_S800000x1_0 : (⟨S800000, .i32⟩ : BufTy).Contents (Elt F) → (⟨S800000x1, .i32⟩ : BufTy).Contents (Elt F)),
    ternary main_v146 main_v147 main_v145 main_v148 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v10 main_v10 main_v149 (mulf : (⟨S50000, .f32⟩ : BufTy).Contents (Elt F) → (⟨S50000, .f32⟩ : BufTy).Contents (Elt F) → (⟨S50000, .f32⟩ : BufTy).Contents (Elt F)),
    unary main_v149 main_v150 (broadcastInDim S50000x1 ![0] bcast_S50000_S50000x1_0 : (⟨S50000, .f32⟩ : BufTy).Contents (Elt F) → (⟨S50000x1, .f32⟩ : BufTy).Contents (Elt F)) ]

theorem ops2_sub : (ops2 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub ..⟩

theorem ops2_fresh : (ops2 : List (HloOp τ sig (Elt F))).Forall fun op => op.fresh = ∅ := by
  simp only [List.Forall]; repeat' constructor

abbrev ops2_W : List (Ref sig .tc) :=
  [main_v99, main_v100, main_v101, main_v102, main_cst_19, main_v103, main_v104, main_v105, main_v106, main_v107, main_v108, main_v109, main_v110, main_v111, main_v112, main_v113, main_v114, main_call1_cst, main_call1_v0, main_v115, main_v116, main_v117, main_v118, main_v119, main_v120, main_c_20, main_v121, main_v122, main_c_21, main_v123, main_v124, main_v125, main_v126, main_v127, main_c_22, main_v128, main_v129, main_c_23, main_v130, main_v131, main_v132, main_v133, main_v134, main_v135, main_v136, main_c_24, main_v137, main_v138, main_c_25, main_v139, main_v140, main_v141, main_v142, main_v143, main_v144, main_v145, main_cst_26, main_v146, main_v147, main_v148, main_v149, main_v150]

theorem ops2_writes : (ops2 : List (HloOp τ sig (Elt F))).Forall fun op => op.writes ⊆ (ops2_W.map (Proc.devRef (τ := τ) .tc)).toFinset := by
  simp only [List.Forall]
  repeat' apply And.intro
  all_goals (simp only [TRef.nullary, TRef.unary, TRef.binary, nullary_writes, unary_writes, binary_writes, ternary_writes, reshape_writes, Finset.singleton_subset_iff, List.mem_toFinset]; exact List.mem_map_of_mem (by decide))

abbrev ops3 : List (HloOp τ sig (Elt F)) :=
  [ unary main_v150 main_v151 (broadcastInDim S50000x64 ![0, 1] bcast_S50000x1_S50000x64_0_1 : (⟨S50000x1, .f32⟩ : BufTy).Contents (Elt F) → (⟨S50000x64, .f32⟩ : BufTy).Contents (Elt F)),
    binary main_v120 main_v151 main_v152 (mulf : (⟨S50000x64, .f32⟩ : BufTy).Contents (Elt F) → (⟨S50000x64, .f32⟩ : BufTy).Contents (Elt F) → (⟨S50000x64, .f32⟩ : BufTy).Contents (Elt F)),
    binary main_v148 main_v152 main_v153 (addf : (⟨S50000x64, .f32⟩ : BufTy).Contents (Elt F) → (⟨S50000x64, .f32⟩ : BufTy).Contents (Elt F) → (⟨S50000x64, .f32⟩ : BufTy).Contents (Elt F)),
    unary main_v119 main_v154 (broadcastInDim S1x64 ![1] bcast_S64_S1x64_1 : (⟨S64, .f32⟩ : BufTy).Contents (Elt F) → (⟨S1x64, .f32⟩ : BufTy).Contents (Elt F)),
    unary main_v154 main_v155 (broadcastInDim S50000x64 ![0, 1] bcast_S1x64_S50000x64_0_1 : (⟨S1x64, .f32⟩ : BufTy).Contents (Elt F) → (⟨S50000x64, .f32⟩ : BufTy).Contents (Elt F)),
    binary main_v153 main_v155 main_v156 (addf : (⟨S50000x64, .f32⟩ : BufTy).Contents (Elt F) → (⟨S50000x64, .f32⟩ : BufTy).Contents (Elt F) → (⟨S50000x64, .f32⟩ : BufTy).Contents (Elt F)),
    nullary main_cst_27 (constant S_ .f32 0x00000000#32),
    binary main_v156 main_cst_27 main_v157 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_28 (constant S_ .f32 0x47435000#32),
    unary main_cst_28 main_v158 (broadcastInDim S64 ![] bcast_S_S64 : (⟨S_, .f32⟩ : BufTy).Contents (Elt F) → (⟨S64, .f32⟩ : BufTy).Contents (Elt F)),
    binary main_v157 main_v158 main_v159 (Host.divf : (⟨S64, .f32⟩ : BufTy).Contents (Elt F) → (⟨S64, .f32⟩ : BufTy).Contents (Elt F) → (⟨S64, .f32⟩ : BufTy).Contents (Elt F)),
    unary main_v159 main_v160 (broadcastInDim S1x64 ![1] bcast_S64_S1x64_1 : (⟨S64, .f32⟩ : BufTy).Contents (Elt F) → (⟨S1x64, .f32⟩ : BufTy).Contents (Elt F)),
    unary main_v160 main_v161 (broadcastInDim S50000x64 ![0, 1] bcast_S1x64_S50000x64_0_1 : (⟨S1x64, .f32⟩ : BufTy).Contents (Elt F) → (⟨S50000x64, .f32⟩ : BufTy).Contents (Elt F)),
    binary main_v156 main_v161 main_v162 (subf : (⟨S50000x64, .f32⟩ : BufTy).Contents (Elt F) → (⟨S50000x64, .f32⟩ : BufTy).Contents (Elt F) → (⟨S50000x64, .f32⟩ : BufTy).Contents (Elt F)),
    binary main_v162 main_v162 main_v163 (mulf : (⟨S50000x64, .f32⟩ : BufTy).Contents (Elt F) → (⟨S50000x64, .f32⟩ : BufTy).Contents (Elt F) → (⟨S50000x64, .f32⟩ : BufTy).Contents (Elt F)),
    nullary main_cst_29 (constant S_ .f32 0x00000000#32),
    binary main_v163 main_cst_29 main_v164 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_30 (constant S_ .f32 0x47435000#32),
    unary main_cst_30 main_v165 (broadcastInDim S64 ![] bcast_S_S64 : (⟨S_, .f32⟩ : BufTy).Contents (Elt F) → (⟨S64, .f32⟩ : BufTy).Contents (Elt F)),
    binary main_v164 main_v165 main_v166 (Host.divf : (⟨S64, .f32⟩ : BufTy).Contents (Elt F) → (⟨S64, .f32⟩ : BufTy).Contents (Elt F) → (⟨S64, .f32⟩ : BufTy).Contents (Elt F)),
    unary main_v159 main_v167 (broadcastInDim S1x64 ![1] bcast_S64_S1x64_1 : (⟨S64, .f32⟩ : BufTy).Contents (Elt F) → (⟨S1x64, .f32⟩ : BufTy).Contents (Elt F)),
    unary main_v167 main_v168 (broadcastInDim S50000x64 ![0, 1] bcast_S1x64_S50000x64_0_1 : (⟨S1x64, .f32⟩ : BufTy).Contents (Elt F) → (⟨S50000x64, .f32⟩ : BufTy).Contents (Elt F)),
    binary main_v156 main_v168 main_v169 (subf : (⟨S50000x64, .f32⟩ : BufTy).Contents (Elt F) → (⟨S50000x64, .f32⟩ : BufTy).Contents (Elt F) → (⟨S50000x64, .f32⟩ : BufTy).Contents (Elt F)),
    nullary main_cst_31 (constant S_ .f32 0x3727C5AC#32),
    unary main_cst_31 main_v170 (broadcastInDim S64 ![] bcast_S_S64 : (⟨S_, .f32⟩ : BufTy).Contents (Elt F) → (⟨S64, .f32⟩ : BufTy).Contents (Elt F)),
    binary main_v166 main_v170 main_v171 (addf : (⟨S64, .f32⟩ : BufTy).Contents (Elt F) → (⟨S64, .f32⟩ : BufTy).Contents (Elt F) → (⟨S64, .f32⟩ : BufTy).Contents (Elt F)),
    unary main_v171 main_v172 (Host.rsqrt : (⟨S64, .f32⟩ : BufTy).Contents (Elt F) → (⟨S64, .f32⟩ : BufTy).Contents (Elt F)),
    unary main_v172 main_v173 (broadcastInDim S1x64 ![1] bcast_S64_S1x64_1 : (⟨S64, .f32⟩ : BufTy).Contents (Elt F) → (⟨S1x64, .f32⟩ : BufTy).Contents (Elt F)),
    unary main_v173 main_v174 (broadcastInDim S50000x64 ![0, 1] bcast_S1x64_S50000x64_0_1 : (⟨S1x64, .f32⟩ : BufTy).Contents (Elt F) → (⟨S50000x64, .f32⟩ : BufTy).Contents (Elt F)),
    binary main_v169 main_v174 main_v175 (mulf : (⟨S50000x64, .f32⟩ : BufTy).Contents (Elt F) → (⟨S50000x64, .f32⟩ : BufTy).Contents (Elt F) → (⟨S50000x64, .f32⟩ : BufTy).Contents (Elt F)),
    unary main_arg7 main_v176 (broadcastInDim S1x64 ![1] bcast_S64_S1x64_1 : (⟨S64, .f32⟩ : BufTy).Contents (Elt F) → (⟨S1x64, .f32⟩ : BufTy).Contents (Elt F)),
    unary main_v176 main_v177 (broadcastInDim S50000x64 ![0, 1] bcast_S1x64_S50000x64_0_1 : (⟨S1x64, .f32⟩ : BufTy).Contents (Elt F) → (⟨S50000x64, .f32⟩ : BufTy).Contents (Elt F)),
    binary main_v175 main_v177 main_v178 (mulf : (⟨S50000x64, .f32⟩ : BufTy).Contents (Elt F) → (⟨S50000x64, .f32⟩ : BufTy).Contents (Elt F) → (⟨S50000x64, .f32⟩ : BufTy).Contents (Elt F)),
    unary main_arg8 main_v179 (broadcastInDim S1x64 ![1] bcast_S64_S1x64_1 : (⟨S64, .f32⟩ : BufTy).Contents (Elt F) → (⟨S1x64, .f32⟩ : BufTy).Contents (Elt F)),
    unary main_v179 main_v180 (broadcastInDim S50000x64 ![0, 1] bcast_S1x64_S50000x64_0_1 : (⟨S1x64, .f32⟩ : BufTy).Contents (Elt F) → (⟨S50000x64, .f32⟩ : BufTy).Contents (Elt F)),
    binary main_v178 main_v180 main_v181 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v181) (TRef.of (T := ⟨S50000x64, .f32⟩) main_call2_v0) (TRef.of (T := ⟨S50000x64, .f32⟩) main_v182) maximumf,
    unary main_arg5 main_v183 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v183 main_v184 rfl shapeCasts_S1x64x64_S64x64,
    unary main_arg6 main_v185 ((extractStridedSlice S1x64 ![2, 0] · slices_S3x64_S1x64_2_0) : (⟨S3x64, .f32⟩ : BufTy).Contents (Elt F) → (⟨S1x64, .f32⟩ : BufTy).Contents (Elt F)),
    reshape main_v185 main_v186 rfl shapeCasts_S1x64_S64,
    binary main_v182 main_v184 main_v187 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_32 (constantI S_ 32 0#32),
    unary main_c_32 main_v188 (broadcastInDim S800000 ![] bcast_S_S800000 : (⟨S_, .i32⟩ : BufTy).Contents (Elt F) → (⟨S800000, .i32⟩ : BufTy).Contents (Elt F)),
    binary main_v1 main_v188 main_v189 (cmpi .slt : (⟨S800000, .i32⟩ : BufTy).Contents (Elt F) → (⟨S800000, .i32⟩ : BufTy).Contents (Elt F) → (⟨S800000, .i1⟩ : BufTy).Contents (Elt F)),
    nullary main_c_33 (constantI S_ 32 50000#32),
    unary main_c_33 main_v190 (broadcastInDim S800000 ![] bcast_S_S800000 : (⟨S_, .i32⟩ : BufTy).Contents (Elt F) → (⟨S800000, .i32⟩ : BufTy).Contents (Elt F)),
    binary main_v1 main_v190 main_v191 (addi : (⟨S800000, .i32⟩ : BufTy).Contents (Elt F) → (⟨S800000, .i32⟩ : BufTy).Contents (Elt F) → (⟨S800000, .i32⟩ : BufTy).Contents (Elt F)),
    ternary main_v189 main_v191 main_v1 main_v192 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v192 main_v193 (broadcastInDim S800000x1 ![0] bcast_S800000_S800000x1_0 : (⟨S800000, .i32⟩ : BufTy).Contents (Elt F) → (⟨S800000x1, .i32⟩ : BufTy).Contents (Elt F)),
    binary main_v10 main_v193 main_v194 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_34 (constantI S_ 32 0#32),
    unary main_c_34 main_v195 (broadcastInDim S800000 ![] bcast_S_S800000 : (⟨S_, .i32⟩ : BufTy).Contents (Elt F) → (⟨S800000, .i32⟩ : BufTy).Contents (Elt F)),
    binary main_v3 main_v195 main_v196 (cmpi .slt : (⟨S800000, .i32⟩ : BufTy).Contents (Elt F) → (⟨S800000, .i32⟩ : BufTy).Contents (Elt F) → (⟨S800000, .i1⟩ : BufTy).Contents (Elt F)),
    nullary main_c_35 (constantI S_ 32 50000#32),
    unary main_c_35 main_v197 (broadcastInDim S800000 ![] bcast_S_S800000 : (⟨S_, .i32⟩ : BufTy).Contents (Elt F) → (⟨S800000, .i32⟩ : BufTy).Contents (Elt F)),
    binary main_v3 main_v197 main_v198 (addi : (⟨S800000, .i32⟩ : BufTy).Contents (Elt F) → (⟨S800000, .i32⟩ : BufTy).Contents (Elt F) → (⟨S800000, .i32⟩ : BufTy).Contents (Elt F)),
    ternary main_v196 main_v198 main_v3 main_v199 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v199 main_v200 (broadcastInDim S800000x1 ![0] bcast_S800000_S800000x1_0 : (⟨S800000, .i32⟩ : BufTy).Contents (Elt F) → (⟨S800000x1, .i32⟩ : BufTy).Contents (Elt F)),
    binary main_v10 main_v200 main_v201 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) ]

theorem ops3_sub : (ops3 : List (HloOp τ sig (Elt F))).Forall fun op => op.bufs ⊆ tcRefs τ sig :=
  ⟨unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem ops3_fresh : (ops3 : List (HloOp τ sig (Elt F))).Forall fun op => op.fresh = ∅ := by
  simp only [List.Forall]; repeat' constructor

abbrev ops3_W : List (Ref sig .tc) :=
  [main_v151, main_v152, main_v153, main_v154, main_v155, main_v156, main_cst_27, main_v157, main_cst_28, main_v158, main_v159, main_v160, main_v161, main_v162, main_v163, main_cst_29, main_v164, main_cst_30, main_v165, main_v166, main_v167, main_v168, main_v169, main_cst_31, main_v170, main_v171, main_v172, main_v173, main_v174, main_v175, main_v176, main_v177, main_v178, main_v179, main_v180, main_v181, main_call2_cst, main_call2_v0, main_v182, main_v183, main_v184, main_v185, main_v186, main_v187, main_c_32, main_v188, main_v189, main_c_33, main_v190, main_v191, main_v192, main_v193, main_v194, main_c_34, main_v195, main_v196, main_c_35, main_v197, main_v198, main_v199, main_v200, main_v201]

theorem ops3_writes : (ops3 : List (HloOp τ sig (Elt F))).Forall fun op => op.writes ⊆ (ops3_W.map (Proc.devRef (τ := τ) .tc)).toFinset := by
  simp only [List.Forall]
  repeat' apply And.intro
  all_goals (simp only [TRef.nullary, TRef.unary, TRef.binary, nullary_writes, unary_writes, binary_writes, ternary_writes, reshape_writes, Finset.singleton_subset_iff, List.mem_toFinset]; exact List.mem_map_of_mem (by decide))

abbrev ops4 : List (HloOp τ sig (Elt F)) :=
  [ binary main_v194 main_v201 main_v202 (mulf : (⟨S800000, .f32⟩ : BufTy).Contents (Elt F) → (⟨S800000, .f32⟩ : BufTy).Contents (Elt F) → (⟨S800000, .f32⟩ : BufTy).Contents (Elt F)),
    unary main_v202 main_v203 (broadcastInDim S800000x1 ![0] bcast_S800000_S800000x1_0 : (⟨S800000, .f32⟩ : BufTy).Contents (Elt F) → (⟨S800000x1, .f32⟩ : BufTy).Contents (Elt F)),
    nullary main_c_36 (constantI S_ 32 0#32),
    unary main_c_36 main_v204 (broadcastInDim S800000 ![] bcast_S_S800000 : (⟨S_, .i32⟩ : BufTy).Contents (Elt F) → (⟨S800000, .i32⟩ : BufTy).Contents (Elt F)),
    binary main_v1 main_v204 main_v205 (cmpi .slt : (⟨S800000, .i32⟩ : BufTy).Contents (Elt F) → (⟨S800000, .i32⟩ : BufTy).Contents (Elt F) → (⟨S800000, .i1⟩ : BufTy).Contents (Elt F)),
    nullary main_c_37 (constantI S_ 32 50000#32),
    unary main_c_37 main_v206 (broadcastInDim S800000 ![] bcast_S_S800000 : (⟨S_, .i32⟩ : BufTy).Contents (Elt F) → (⟨S800000, .i32⟩ : BufTy).Contents (Elt F)),
    binary main_v1 main_v206 main_v207 (addi : (⟨S800000, .i32⟩ : BufTy).Contents (Elt F) → (⟨S800000, .i32⟩ : BufTy).Contents (Elt F) → (⟨S800000, .i32⟩ : BufTy).Contents (Elt F)),
    ternary main_v205 main_v207 main_v1 main_v208 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v208 main_v209 (broadcastInDim S800000x1 ![0] bcast_S800000_S800000x1_0 : (⟨S800000, .i32⟩ : BufTy).Contents (Elt F) → (⟨S800000x1, .i32⟩ : BufTy).Contents (Elt F)),
    binary main_v187 main_v209 main_v210 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v203 main_v211 (broadcastInDim S800000x64 ![0, 1] bcast_S800000x1_S800000x64_0_1 : (⟨S800000x1, .f32⟩ : BufTy).Contents (Elt F) → (⟨S800000x64, .f32⟩ : BufTy).Contents (Elt F)),
    binary main_v210 main_v211 main_v212 (mulf : (⟨S800000x64, .f32⟩ : BufTy).Contents (Elt F) → (⟨S800000x64, .f32⟩ : BufTy).Contents (Elt F) → (⟨S800000x64, .f32⟩ : BufTy).Contents (Elt F)),
    nullary main_cst_38 (constant S_ .f32 0x00000000#32),
    unary main_cst_38 main_v213 (broadcastInDim S50000x64 ![] bcast_S_S50000x64 : (⟨S_, .f32⟩ : BufTy).Contents (Elt F) → (⟨S50000x64, .f32⟩ : BufTy).Contents (Elt F)),
    unary main_v3 main_v214 (broadcastInDim S800000x1 ![0] bcast_S800000_S800000x1_0 : (⟨S800000, .i32⟩ : BufTy).Contents (Elt F) → (⟨S800000x1, .i32⟩ : BufTy).Contents (Elt F)),
    ternary main_v213 main_v214 main_v212 main_v215 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v10 main_v10 main_v216 (mulf : (⟨S50000, .f32⟩ : BufTy).Contents (Elt F) → (⟨S50000, .f32⟩ : BufTy).Contents (Elt F) → (⟨S50000, .f32⟩ : BufTy).Contents (Elt F)),
    unary main_v216 main_v217 (broadcastInDim S50000x1 ![0] bcast_S50000_S50000x1_0 : (⟨S50000, .f32⟩ : BufTy).Contents (Elt F) → (⟨S50000x1, .f32⟩ : BufTy).Contents (Elt F)),
    unary main_v217 main_v218 (broadcastInDim S50000x64 ![0, 1] bcast_S50000x1_S50000x64_0_1 : (⟨S50000x1, .f32⟩ : BufTy).Contents (Elt F) → (⟨S50000x64, .f32⟩ : BufTy).Contents (Elt F)),
    binary main_v187 main_v218 main_v219 (mulf : (⟨S50000x64, .f32⟩ : BufTy).Contents (Elt F) → (⟨S50000x64, .f32⟩ : BufTy).Contents (Elt F) → (⟨S50000x64, .f32⟩ : BufTy).Contents (Elt F)),
    binary main_v215 main_v219 main_v220 (addf : (⟨S50000x64, .f32⟩ : BufTy).Contents (Elt F) → (⟨S50000x64, .f32⟩ : BufTy).Contents (Elt F) → (⟨S50000x64, .f32⟩ : BufTy).Contents (Elt F)),
    unary main_v186 main_v221 (broadcastInDim S1x64 ![1] bcast_S64_S1x64_1 : (⟨S64, .f32⟩ : BufTy).Contents (Elt F) → (⟨S1x64, .f32⟩ : BufTy).Contents (Elt F)),
    unary main_v221 main_v222 (broadcastInDim S50000x64 ![0, 1] bcast_S1x64_S50000x64_0_1 : (⟨S1x64, .f32⟩ : BufTy).Contents (Elt F) → (⟨S50000x64, .f32⟩ : BufTy).Contents (Elt F)),
    binary main_v220 main_v222 main_v223 (addf : (⟨S50000x64, .f32⟩ : BufTy).Contents (Elt F) → (⟨S50000x64, .f32⟩ : BufTy).Contents (Elt F) → (⟨S50000x64, .f32⟩ : BufTy).Contents (Elt F)),
    nullary main_cst_39 (constant S_ .f32 0x00000000#32),
    binary main_v223 main_cst_39 main_v224 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_40 (constant S_ .f32 0x47435000#32),
    unary main_cst_40 main_v225 (broadcastInDim S64 ![] bcast_S_S64 : (⟨S_, .f32⟩ : BufTy).Contents (Elt F) → (⟨S64, .f32⟩ : BufTy).Contents (Elt F)),
    binary main_v224 main_v225 main_v226 (Host.divf : (⟨S64, .f32⟩ : BufTy).Contents (Elt F) → (⟨S64, .f32⟩ : BufTy).Contents (Elt F) → (⟨S64, .f32⟩ : BufTy).Contents (Elt F)),
    unary main_v226 main_v227 (broadcastInDim S1x64 ![1] bcast_S64_S1x64_1 : (⟨S64, .f32⟩ : BufTy).Contents (Elt F) → (⟨S1x64, .f32⟩ : BufTy).Contents (Elt F)),
    unary main_v227 main_v228 (broadcastInDim S50000x64 ![0, 1] bcast_S1x64_S50000x64_0_1 : (⟨S1x64, .f32⟩ : BufTy).Contents (Elt F) → (⟨S50000x64, .f32⟩ : BufTy).Contents (Elt F)),
    binary main_v223 main_v228 main_v229 (subf : (⟨S50000x64, .f32⟩ : BufTy).Contents (Elt F) → (⟨S50000x64, .f32⟩ : BufTy).Contents (Elt F) → (⟨S50000x64, .f32⟩ : BufTy).Contents (Elt F)),
    binary main_v229 main_v229 main_v230 (mulf : (⟨S50000x64, .f32⟩ : BufTy).Contents (Elt F) → (⟨S50000x64, .f32⟩ : BufTy).Contents (Elt F) → (⟨S50000x64, .f32⟩ : BufTy).Contents (Elt F)),
    nullary main_cst_41 (constant S_ .f32 0x00000000#32),
    binary main_v230 main_cst_41 main_v231 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_42 (constant S_ .f32 0x47435000#32),
    unary main_cst_42 main_v232 (broadcastInDim S64 ![] bcast_S_S64 : (⟨S_, .f32⟩ : BufTy).Contents (Elt F) → (⟨S64, .f32⟩ : BufTy).Contents (Elt F)),
    binary main_v231 main_v232 main_v233 (Host.divf : (⟨S64, .f32⟩ : BufTy).Contents (Elt F) → (⟨S64, .f32⟩ : BufTy).Contents (Elt F) → (⟨S64, .f32⟩ : BufTy).Contents (Elt F)),
    unary main_v226 main_v234 (broadcastInDim S1x64 ![1] bcast_S64_S1x64_1 : (⟨S64, .f32⟩ : BufTy).Contents (Elt F) → (⟨S1x64, .f32⟩ : BufTy).Contents (Elt F)),
    unary main_v234 main_v235 (broadcastInDim S50000x64 ![0, 1] bcast_S1x64_S50000x64_0_1 : (⟨S1x64, .f32⟩ : BufTy).Contents (Elt F) → (⟨S50000x64, .f32⟩ : BufTy).Contents (Elt F)),
    binary main_v223 main_v235 main_v236 (subf : (⟨S50000x64, .f32⟩ : BufTy).Contents (Elt F) → (⟨S50000x64, .f32⟩ : BufTy).Contents (Elt F) → (⟨S50000x64, .f32⟩ : BufTy).Contents (Elt F)),
    nullary main_cst_43 (constant S_ .f32 0x3727C5AC#32),
    unary main_cst_43 main_v237 (broadcastInDim S64 ![] bcast_S_S64 : (⟨S_, .f32⟩ : BufTy).Contents (Elt F) → (⟨S64, .f32⟩ : BufTy).Contents (Elt F)),
    binary main_v233 main_v237 main_v238 (addf : (⟨S64, .f32⟩ : BufTy).Contents (Elt F) → (⟨S64, .f32⟩ : BufTy).Contents (Elt F) → (⟨S64, .f32⟩ : BufTy).Contents (Elt F)),
    unary main_v238 main_v239 (Host.rsqrt : (⟨S64, .f32⟩ : BufTy).Contents (Elt F) → (⟨S64, .f32⟩ : BufTy).Contents (Elt F)),
    unary main_v239 main_v240 (broadcastInDim S1x64 ![1] bcast_S64_S1x64_1 : (⟨S64, .f32⟩ : BufTy).Contents (Elt F) → (⟨S1x64, .f32⟩ : BufTy).Contents (Elt F)),
    unary main_v240 main_v241 (broadcastInDim S50000x64 ![0, 1] bcast_S1x64_S50000x64_0_1 : (⟨S1x64, .f32⟩ : BufTy).Contents (Elt F) → (⟨S50000x64, .f32⟩ : BufTy).Contents (Elt F)),
    binary main_v236 main_v241 main_v242 (mulf : (⟨S50000x64, .f32⟩ : BufTy).Contents (Elt F) → (⟨S50000x64, .f32⟩ : BufTy).Contents (Elt F) → (⟨S50000x64, .f32⟩ : BufTy).Contents (Elt F)),
    unary main_arg7 main_v243 (broadcastInDim S1x64 ![1] bcast_S64_S1x64_1 : (⟨S64, .f32⟩ : BufTy).Contents (Elt F) → (⟨S1x64, .f32⟩ : BufTy).Contents (Elt F)),
    unary main_v243 main_v244 (broadcastInDim S50000x64 ![0, 1] bcast_S1x64_S50000x64_0_1 : (⟨S1x64, .f32⟩ : BufTy).Contents (Elt F) → (⟨S50000x64, .f32⟩ : BufTy).Contents (Elt F)),
    binary main_v242 main_v244 main_v245 (mulf : (⟨S50000x64, .f32⟩ : BufTy).Contents (Elt F) → (⟨S50000x64, .f32⟩ : BufTy).Contents (Elt F) → (⟨S50000x64, .f32⟩ : BufTy).Contents (Elt F)),
    unary main_arg8 main_v246 (broadcastInDim S1x64 ![1] bcast_S64_S1x64_1 : (⟨S64, .f32⟩ : BufTy).Contents (Elt F) → (⟨S1x64, .f32⟩ : BufTy).Contents (Elt F)),
    unary main_v246 main_v247 (broadcastInDim S50000x64 ![0, 1] bcast_S1x64_S50000x64_0_1 : (⟨S1x64, .f32⟩ : BufTy).Contents (Elt F) → (⟨S50000x64, .f32⟩ : BufTy).Contents (Elt F)),
    binary main_v245 main_v247 main_v248 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v248) (TRef.of (T := ⟨S50000x64, .f32⟩) main_call3_v0) (TRef.of (T := ⟨S50000x64, .f32⟩) main_v249) maximumf,
    nullary main_cst_44 (constant S_ .f32 0x00000000#32),
    unary main_cst_44 main_v250 (broadcastInDim S64x64 ![] bcast_S_S64x64 : (⟨S_, .f32⟩ : BufTy).Contents (Elt F) → (⟨S64x64, .f32⟩ : BufTy).Contents (Elt F)),
    unary main_arg2 main_v251 (broadcastInDim S50000x1 ![0] bcast_S50000_S50000x1_0 : (⟨S50000, .i32⟩ : BufTy).Contents (Elt F) → (⟨S50000x1, .i32⟩ : BufTy).Contents (Elt F)),
    ternary main_v250 main_v251 main_v249 main_v252 ((fun x i u => Host.scatterAdd scatter_S64x64_S50000x1_S50000x64_1_0_0_1 x i u) : (⟨S64x64, .f32⟩ : BufTy).Contents (Elt F) → (⟨S50000x1, .i32⟩ : BufTy).Contents (Elt F) → (⟨S50000x64, .f32⟩ : BufTy).Contents (Elt F) → (⟨S64x64, .f32⟩ : BufTy).Contents (Elt F)) ]

theorem ops4_sub : (ops4 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub ..⟩

theorem ops4_fresh : (ops4 : List (HloOp τ sig (Elt F))).Forall fun op => op.fresh = ∅ := by
  simp only [List.Forall]; repeat' constructor

abbrev ops4_W : List (Ref sig .tc) :=
  [main_v202, main_v203, main_c_36, main_v204, main_v205, main_c_37, main_v206, main_v207, main_v208, main_v209, main_v210, main_v211, main_v212, main_cst_38, main_v213, main_v214, main_v215, main_v216, main_v217, main_v218, main_v219, main_v220, main_v221, main_v222, main_v223, main_cst_39, main_v224, main_cst_40, main_v225, main_v226, main_v227, main_v228, main_v229, main_v230, main_cst_41, main_v231, main_cst_42, main_v232, main_v233, main_v234, main_v235, main_v236, main_cst_43, main_v237, main_v238, main_v239, main_v240, main_v241, main_v242, main_v243, main_v244, main_v245, main_v246, main_v247, main_v248, main_call3_cst, main_call3_v0, main_v249, main_cst_44, main_v250, main_v251, main_v252]

theorem ops4_writes : (ops4 : List (HloOp τ sig (Elt F))).Forall fun op => op.writes ⊆ (ops4_W.map (Proc.devRef (τ := τ) .tc)).toFinset := by
  simp only [List.Forall]
  repeat' apply And.intro
  all_goals (simp only [TRef.nullary, TRef.unary, TRef.binary, nullary_writes, unary_writes, binary_writes, ternary_writes, reshape_writes, Finset.singleton_subset_iff, List.mem_toFinset]; exact List.mem_map_of_mem (by decide))

abbrev ops5 : List (HloOp τ sig (Elt F)) :=
  [ nullary main_cst_45 (constant S_ .f32 0x3F800000#32),
    unary main_cst_45 main_v253 (broadcastInDim S50000 ![] bcast_S_S50000 : (⟨S_, .f32⟩ : BufTy).Contents (Elt F) → (⟨S50000, .f32⟩ : BufTy).Contents (Elt F)),
    nullary main_cst_46 (constant S_ .f32 0x00000000#32),
    unary main_cst_46 main_v254 (broadcastInDim S64 ![] bcast_S_S64 : (⟨S_, .f32⟩ : BufTy).Contents (Elt F) → (⟨S64, .f32⟩ : BufTy).Contents (Elt F)),
    unary main_arg2 main_v255 (broadcastInDim S50000x1 ![0] bcast_S50000_S50000x1_0 : (⟨S50000, .i32⟩ : BufTy).Contents (Elt F) → (⟨S50000x1, .i32⟩ : BufTy).Contents (Elt F)),
    ternary main_v254 main_v255 main_v253 main_v256 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    nullary main_cst_47 (constant S_ .f32 0x3F800000#32),
    unary main_cst_47 main_v257 (broadcastInDim S64 ![] bcast_S_S64 : (⟨S_, .f32⟩ : BufTy).Contents (Elt F) → (⟨S64, .f32⟩ : BufTy).Contents (Elt F)),
    binary main_v256 main_v257 main_v258 (maximumf : (⟨S64, .f32⟩ : BufTy).Contents (Elt F) → (⟨S64, .f32⟩ : BufTy).Contents (Elt F) → (⟨S64, .f32⟩ : BufTy).Contents (Elt F)),
    unary main_v258 main_v259 (broadcastInDim S64x1 ![0] bcast_S64_S64x1_0 : (⟨S64, .f32⟩ : BufTy).Contents (Elt F) → (⟨S64x1, .f32⟩ : BufTy).Contents (Elt F)),
    unary main_v259 main_v260 (broadcastInDim S64x64 ![0, 1] bcast_S64x1_S64x64_0_1 : (⟨S64x1, .f32⟩ : BufTy).Contents (Elt F) → (⟨S64x64, .f32⟩ : BufTy).Contents (Elt F)),
    binary main_v252 main_v260 main_v261 (Host.divf : (⟨S64x64, .f32⟩ : BufTy).Contents (Elt F) → (⟨S64x64, .f32⟩ : BufTy).Contents (Elt F) → (⟨S64x64, .f32⟩ : BufTy).Contents (Elt F)),
    binary main_v261 main_arg9 main_v262 ((fun l r => Host.dotGeneral dot_S64x64_S64x32_S64x32_1_0_0_1_n_n none l r) : (⟨S64x64, .f32⟩ : BufTy).Contents (Elt F) → (⟨S64x32, .f32⟩ : BufTy).Contents (Elt F) → (⟨S64x32, .f32⟩ : BufTy).Contents (Elt F)),
    unary main_arg10 main_v263 (broadcastInDim S1x32 ![1] bcast_S32_S1x32_1 : (⟨S32, .f32⟩ : BufTy).Contents (Elt F) → (⟨S1x32, .f32⟩ : BufTy).Contents (Elt F)),
    unary main_v263 main_v264 (broadcastInDim S64x32 ![0, 1] bcast_S1x32_S64x32_0_1 : (⟨S1x32, .f32⟩ : BufTy).Contents (Elt F) → (⟨S64x32, .f32⟩ : BufTy).Contents (Elt F)),
    binary main_v262 main_v264 main_v265 (addf : (⟨S64x32, .f32⟩ : BufTy).Contents (Elt F) → (⟨S64x32, .f32⟩ : BufTy).Contents (Elt F) → (⟨S64x32, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S64x32, .f32⟩) main_call4_v0) (broadcastInDim S64x32 ![] bcast_S_S64x32),
    TRef.binary (TRef.of (T := ⟨S64x32, .f32⟩) main_v265) (TRef.of (T := ⟨S64x32, .f32⟩) main_call4_v0) (TRef.of (T := ⟨S64x32, .f32⟩) main_v266) maximumf,
    binary main_v266 main_arg11 main_v267 ((fun l r => Host.dotGeneral dot_S64x32_S32x16_S64x16_1_0_0_1_n_n none l r) : (⟨S64x32, .f32⟩ : BufTy).Contents (Elt F) → (⟨S32x16, .f32⟩ : BufTy).Contents (Elt F) → (⟨S64x16, .f32⟩ : BufTy).Contents (Elt F)),
    unary main_arg12 main_v268 (broadcastInDim S1x16 ![1] bcast_S16_S1x16_1 : (⟨S16, .f32⟩ : BufTy).Contents (Elt F) → (⟨S1x16, .f32⟩ : BufTy).Contents (Elt F)),
    unary main_v268 main_v269 (broadcastInDim S64x16 ![0, 1] bcast_S1x16_S64x16_0_1 : (⟨S1x16, .f32⟩ : BufTy).Contents (Elt F) → (⟨S64x16, .f32⟩ : BufTy).Contents (Elt F)),
    binary main_v267 main_v269 main_v270 (addf : (⟨S64x16, .f32⟩ : BufTy).Contents (Elt F) → (⟨S64x16, .f32⟩ : BufTy).Contents (Elt F) → (⟨S64x16, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S64x16, .f32⟩) main_call5_v0) (broadcastInDim S64x16 ![] bcast_S_S64x16),
    TRef.binary (TRef.of (T := ⟨S64x16, .f32⟩) main_v270) (TRef.of (T := ⟨S64x16, .f32⟩) main_call5_v0) (TRef.of (T := ⟨S64x16, .f32⟩) main_v271) maximumf,
    binary main_v271 main_arg13 main_v272 ((fun l r => Host.dotGeneral dot_S64x16_S16x10_S64x10_1_0_0_1_n_n none l r) : (⟨S64x16, .f32⟩ : BufTy).Contents (Elt F) → (⟨S16x10, .f32⟩ : BufTy).Contents (Elt F) → (⟨S64x10, .f32⟩ : BufTy).Contents (Elt F)),
    unary main_arg14 main_v273 (broadcastInDim S1x10 ![1] bcast_S10_S1x10_1 : (⟨S10, .f32⟩ : BufTy).Contents (Elt F) → (⟨S1x10, .f32⟩ : BufTy).Contents (Elt F)),
    unary main_v273 main_v274 (broadcastInDim S64x10 ![0, 1] bcast_S1x10_S64x10_0_1 : (⟨S1x10, .f32⟩ : BufTy).Contents (Elt F) → (⟨S64x10, .f32⟩ : BufTy).Contents (Elt F)),
    binary main_v272 main_v274 main_v275 (addf : (⟨S64x10, .f32⟩ : BufTy).Contents (Elt F) → (⟨S64x10, .f32⟩ : BufTy).Contents (Elt F) → (⟨S64x10, .f32⟩ : BufTy).Contents (Elt F)) ]

theorem ops5_sub : (ops5 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem ops5_fresh : (ops5 : List (HloOp τ sig (Elt F))).Forall fun op => op.fresh = ∅ := by
  simp only [List.Forall]; repeat' constructor

abbrev ops5_W : List (Ref sig .tc) :=
  [main_cst_45, main_v253, main_cst_46, main_v254, main_v255, main_v256, main_cst_47, main_v257, main_v258, main_v259, main_v260, main_v261, main_v262, main_v263, main_v264, main_v265, main_call4_cst, main_call4_v0, main_v266, main_v267, main_v268, main_v269, main_v270, main_call5_cst, main_call5_v0, main_v271, main_v272, main_v273, main_v274, main_v275]

theorem ops5_writes : (ops5 : List (HloOp τ sig (Elt F))).Forall fun op => op.writes ⊆ (ops5_W.map (Proc.devRef (τ := τ) .tc)).toFinset := by
  simp only [List.Forall]
  repeat' apply And.intro
  all_goals (simp only [TRef.nullary, TRef.unary, TRef.binary, nullary_writes, unary_writes, binary_writes, ternary_writes, reshape_writes, Finset.singleton_subset_iff, List.mem_toFinset]; exact List.mem_map_of_mem (by decide))

end Cert.ReferenceIdeal.RunP

end
-- ==== Proof.RefRun.lean ====
import proofs.«420664_j68839735820523_2_alg».proof.Proof.RefOps
import proofs.«420664_j68839735820523_2_alg».proof.Proof.RefRead
import Idealize.ShloMosaic.Lib.Pipeline.Frame

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

theorem main_part0_eq (c : Dev nD) : main_part0 (F := F) c = seq ops0 := by chain_rfl

theorem main_part1_eq (c : Dev nD) : main_part1 (F := F) c = seq ops1 := by chain_rfl

theorem main_part2_eq (c : Dev nD) : main_part2 (F := F) c = seq ops2 := by chain_rfl

theorem main_part3_eq (c : Dev nD) : main_part3 (F := F) c = seq ops3 := by chain_rfl

theorem main_part4_eq (c : Dev nD) : main_part4 (F := F) c = seq ops4 := by chain_rfl

theorem main_part5_eq (c : Dev nD) : main_part5 (F := F) c = seq ops5 := by chain_rfl

abbrev ops : List (HloOp τ sig (Elt F)) := ops0 ++ (ops1 ++ (ops2 ++ (ops3 ++ (ops4 ++ ops5))))

theorem main_eq (c : Dev nD) : main (F := F) c = seq ops := by
  simp only [ops, seq_append, ← main_part0_eq c, ← main_part1_eq c, ← main_part2_eq c, ← main_part3_eq c,
    ← main_part4_eq c, ← main_part5_eq c]
  rfl

theorem scopedRefs_eq : (Finset.univ.filter fun b : Ref sig .tc => b.isScoped) = ∅ := by decide

theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h, List.forall_iff_forall_mem.mp ops5_sub op h]

theorem ops_fresh : ∀ op ∈ (ops : List (HloOp τ sig (Elt F))), op.fresh = ∅ := fun op h => by
  simp only [ops, List.mem_append] at h
  rcases h with h | h | h | h | h | h
  exacts [List.forall_iff_forall_mem.mp ops0_fresh op h, List.forall_iff_forall_mem.mp ops1_fresh op h,
    List.forall_iff_forall_mem.mp ops2_fresh op h, List.forall_iff_forall_mem.mp ops3_fresh op h,
    List.forall_iff_forall_mem.mp ops4_fresh op h, List.forall_iff_forall_mem.mp ops5_fresh op h]

theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)
section Stages

variable (V0 : Valuation τ sig (Elt F))

abbrev arg0 : (⟨S50000x128, .f32⟩ : BufTy).Contents (Elt F) := V0 (Proc.devRef .tc main_arg0)

abbrev arg1 : (⟨S2x800000, .i32⟩ : BufTy).Contents (Elt F) := V0 (Proc.devRef .tc main_arg1)

abbrev arg2 : (⟨S50000, .i32⟩ : BufTy).Contents (Elt F) := V0 (Proc.devRef .tc main_arg2)

abbrev arg3 : (⟨S128x64, .f32⟩ : BufTy).Contents (Elt F) := V0 (Proc.devRef .tc main_arg3)

abbrev arg4 : (⟨S64, .f32⟩ : BufTy).Contents (Elt F) := V0 (Proc.devRef .tc main_arg4)

abbrev arg5 : (⟨S3x64x64, .f32⟩ : BufTy).Contents (Elt F) := V0 (Proc.devRef .tc main_arg5)

abbrev arg6 : (⟨S3x64, .f32⟩ : BufTy).Contents (Elt F) := V0 (Proc.devRef .tc main_arg6)

abbrev arg7 : (⟨S64, .f32⟩ : BufTy).Contents (Elt F) := V0 (Proc.devRef .tc main_arg7)

abbrev arg8 : (⟨S64, .f32⟩ : BufTy).Contents (Elt F) := V0 (Proc.devRef .tc main_arg8)

abbrev arg9 : (⟨S64x32, .f32⟩ : BufTy).Contents (Elt F) := V0 (Proc.devRef .tc main_arg9)

abbrev arg10 : (⟨S32, .f32⟩ : BufTy).Contents (Elt F) := V0 (Proc.devRef .tc main_arg10)

abbrev arg11 : (⟨S32x16, .f32⟩ : BufTy).Contents (Elt F) := V0 (Proc.devRef .tc main_arg11)

abbrev arg12 : (⟨S16, .f32⟩ : BufTy).Contents (Elt F) := V0 (Proc.devRef .tc main_arg12)

abbrev arg13 : (⟨S16x10, .f32⟩ : BufTy).Contents (Elt F) := V0 (Proc.devRef .tc main_arg13)

abbrev arg14 : (⟨S10, .f32⟩ : BufTy).Contents (Elt F) := V0 (Proc.devRef .tc main_arg14)

def R1 : Valuation τ sig (Elt F) := after ops0 V0

def R2 : Valuation τ sig (Elt F) := after ops1 (R1 V0)

def R3 : Valuation τ sig (Elt F) := after ops2 (R2 V0)

def R4 : Valuation τ sig (Elt F) := after ops3 (R3 V0)

def R5 : Valuation τ sig (Elt F) := after ops4 (R4 V0)

def R6 : Valuation τ sig (Elt F) := after ops5 (R5 V0)

theorem after_ops : after ops V0 = R6 V0 := by
  simp only [ops, after_append]
  rfl

theorem R1_keep {r : Ref sig .tc} (h : r ∉ ops0_W) : R1 V0 (Proc.devRef .tc r) = V0 (Proc.devRef .tc r) :=
  after_of_writes_sub ops0 V0 ops0_writes h

theorem R2_keep {r : Ref sig .tc} (h : r ∉ ops1_W) : R2 V0 (Proc.devRef .tc r) = R1 V0 (Proc.devRef .tc r) :=
  after_of_writes_sub ops1 (R1 V0) ops1_writes h

theorem R3_keep {r : Ref sig .tc} (h : r ∉ ops2_W) : R3 V0 (Proc.devRef .tc r) = R2 V0 (Proc.devRef .tc r) :=
  after_of_writes_sub ops2 (R2 V0) ops2_writes h

theorem R4_keep {r : Ref sig .tc} (h : r ∉ ops3_W) : R4 V0 (Proc.devRef .tc r) = R3 V0 (Proc.devRef .tc r) :=
  after_of_writes_sub ops3 (R3 V0) ops3_writes h

theorem R5_keep {r : Ref sig .tc} (h : r ∉ ops4_W) : R5 V0 (Proc.devRef .tc r) = R4 V0 (Proc.devRef .tc r) :=
  after_of_writes_sub ops4 (R4 V0) ops4_writes h

theorem R6_keep {r : Ref sig .tc} (h : r ∉ ops5_W) : R6 V0 (Proc.devRef .tc r) = R5 V0 (Proc.devRef .tc r) :=
  after_of_writes_sub ops5 (R5 V0) ops5_writes h

theorem R2_kept {r : Ref sig .tc} (h0 : r ∉ ops0_W) (h1 : r ∉ ops1_W) :
    R2 V0 (Proc.devRef .tc r) = V0 (Proc.devRef .tc r) := (R2_keep V0 h1).trans (R1_keep V0 h0)

theorem R3_kept {r : Ref sig .tc} (h0 : r ∉ ops0_W) (h1 : r ∉ ops1_W) (h2 : r ∉ ops2_W) :
    R3 V0 (Proc.devRef .tc r) = V0 (Proc.devRef .tc r) := (R3_keep V0 h2).trans (R2_kept V0 h0 h1)

theorem R4_kept {r : Ref sig .tc} (h0 : r ∉ ops0_W) (h1 : r ∉ ops1_W) (h2 : r ∉ ops2_W) (h3 : r ∉ ops3_W) :
    R4 V0 (Proc.devRef .tc r) = V0 (Proc.devRef .tc r) := (R4_keep V0 h3).trans (R3_kept V0 h0 h1 h2)

theorem R5_kept {r : Ref sig .tc} (h0 : r ∉ ops0_W) (h1 : r ∉ ops1_W) (h2 : r ∉ ops2_W) (h3 : r ∉ ops3_W)
    (h4 : r ∉ ops4_W) : R5 V0 (Proc.devRef .tc r) = V0 (Proc.devRef .tc r) :=
  (R5_keep V0 h4).trans (R4_kept V0 h0 h1 h2 h3)

theorem R6_kept {r : Ref sig .tc} (h0 : r ∉ ops0_W) (h1 : r ∉ ops1_W) (h2 : r ∉ ops2_W) (h3 : r ∉ ops3_W)
    (h4 : r ∉ ops4_W) (h5 : r ∉ ops5_W) : R6 V0 (Proc.devRef .tc r) = V0 (Proc.devRef .tc r) :=
  (R6_keep V0 h5).trans (R5_kept V0 h0 h1 h2 h3 h4)

set_option maxRecDepth 8192 in
set_option maxHeartbeats 4000000 in
theorem R1_main_v1 : R1 V0 (no_index (Proc.devRef .tc main_v1)) = val_main_v1 (F := F) (arg1 V0) := by
  unfold R1
  simp only [ops0]
  after_results_simp
  rfl

set_option maxRecDepth 8192 in
set_option maxHeartbeats 4000000 in
theorem R1_main_v3 : R1 V0 (no_index (Proc.devRef .tc main_v3)) = val_main_v3 (F := F) (arg1 V0) := by
  unfold R1
  simp only [ops0]
  after_results_simp
  rfl

set_option maxRecDepth 8192 in
set_option maxHeartbeats 4000000 in
theorem R1_main_v10 : R1 V0 (no_index (Proc.devRef .tc main_v10)) = val_main_v10 (F := F) (arg1 V0) := by
  unfold R1
  simp only [ops0]
  after_results_simp
  rfl

set_option maxRecDepth 8192 in
set_option maxHeartbeats 4000000 in
theorem R1_main_v48 : R1 V0 (no_index (Proc.devRef .tc main_v48))
    = val_main_v48 (F := F) (arg0 V0) (arg1 V0) (arg3 V0) (arg4 V0) := by
  unfold R1
  simp only [ops0]
  after_results_simp
  try simp only [TRef.ofBuf, TRef.toBuf, cast_eq]
  rfl

set_option maxRecDepth 8192 in
set_option maxHeartbeats 4000000 in
theorem R1_main_v49 : R1 V0 (no_index (Proc.devRef .tc main_v49)) = val_main_v49 (F := F) (arg5 V0) := by
  unfold R1
  simp only [ops0]
  after_results_simp
  rfl

theorem R1_main_arg6 : R1 V0 (no_index (Proc.devRef .tc main_arg6)) = arg6 V0 := R1_keep V0 (by decide)

theorem R2_main_v1 : R2 V0 (no_index (Proc.devRef .tc main_v1)) = val_main_v1 (F := F) (arg1 V0) :=
  (R2_keep V0 (by decide)).trans (R1_main_v1 V0)

theorem R2_main_v3 : R2 V0 (no_index (Proc.devRef .tc main_v3)) = val_main_v3 (F := F) (arg1 V0) :=
  (R2_keep V0 (by decide)).trans (R1_main_v3 V0)

theorem R2_main_v10 : R2 V0 (no_index (Proc.devRef .tc main_v10)) = val_main_v10 (F := F) (arg1 V0) :=
  (R2_keep V0 (by decide)).trans (R1_main_v10 V0)

set_option maxRecDepth 8192 in
set_option maxHeartbeats 4000000 in
theorem R2_main_v89 : R2 V0 (no_index (Proc.devRef .tc main_v89))
    = val_main_v89 (F := F) (arg0 V0) (arg1 V0) (arg3 V0) (arg4 V0) (arg5 V0) (arg6 V0) := by
  unfold R2
  simp only [ops1]
  after_results_simp
  simp only [R1_main_arg6, R1_main_v10, R1_main_v49, R1_main_v48, R1_main_v3, R1_main_v1]
  rfl

set_option maxRecDepth 8192 in
set_option maxHeartbeats 4000000 in
theorem R2_main_v92 : R2 V0 (no_index (Proc.devRef .tc main_v92))
    = val_main_v92 (F := F) (arg0 V0) (arg1 V0) (arg3 V0) (arg4 V0) (arg5 V0) (arg6 V0) := by
  unfold R2
  simp only [ops1]
  after_results_simp
  simp only [R1_main_arg6, R1_main_v10, R1_main_v49, R1_main_v48, R1_main_v3, R1_main_v1]
  rfl

set_option maxRecDepth 8192 in
set_option maxHeartbeats 4000000 in
theorem R2_main_v97 : R2 V0 (no_index (Proc.devRef .tc main_v97))
    = val_main_v97 (F := F) (arg0 V0) (arg1 V0) (arg3 V0) (arg4 V0) (arg5 V0) (arg6 V0) := by
  unfold R2
  simp only [ops1]
  after_results_simp
  simp only [R1_main_arg6, R1_main_v10, R1_main_v49, R1_main_v48, R1_main_v3, R1_main_v1]
  rfl

set_option maxRecDepth 8192 in
set_option maxHeartbeats 4000000 in
theorem R2_main_v98 : R2 V0 (no_index (Proc.devRef .tc main_v98)) = val_main_v98 (F := F) := by
  unfold R2
  simp only [ops1]
  after_results_simp
  rfl

theorem R2_main_arg5 : R2 V0 (no_index (Proc.devRef .tc main_arg5)) = arg5 V0 := R2_kept V0 (by decide) (by decide)

theorem R2_main_arg6 : R2 V0 (no_index (Proc.devRef .tc main_arg6)) = arg6 V0 := R2_kept V0 (by decide) (by decide)

theorem R2_main_arg7 : R2 V0 (no_index (Proc.devRef .tc main_arg7)) = arg7 V0 := R2_kept V0 (by decide) (by decide)

theorem R2_main_arg8 : R2 V0 (no_index (Proc.devRef .tc main_arg8)) = arg8 V0 := R2_kept V0 (by decide) (by decide)

theorem R3_main_v1 : R3 V0 (no_index (Proc.devRef .tc main_v1)) = val_main_v1 (F := F) (arg1 V0) :=
  (R3_keep V0 (by decide)).trans (R2_main_v1 V0)

theorem R3_main_v3 : R3 V0 (no_index (Proc.devRef .tc main_v3)) = val_main_v3 (F := F) (arg1 V0) :=
  (R3_keep V0 (by decide)).trans (R2_main_v3 V0)

theorem R3_main_v10 : R3 V0 (no_index (Proc.devRef .tc main_v10)) = val_main_v10 (F := F) (arg1 V0) :=
  (R3_keep V0 (by decide)).trans (R2_main_v10 V0)

set_option maxRecDepth 8192 in
set_option maxHeartbeats 4000000 in
theorem R3_main_v119 : R3 V0 (no_index (Proc.devRef .tc main_v119)) = val_main_v119 (F := F) (arg6 V0) := by
  unfold R3
  simp only [ops2]
  after_results_simp
  simp only [R2_main_arg6]
  rfl

set_option maxRecDepth 8192 in
set_option maxHeartbeats 4000000 in
theorem R3_main_v120 : R3 V0 (no_index (Proc.devRef .tc main_v120))
    = val_main_v120 (F := F) (arg0 V0) (arg1 V0) (arg3 V0) (arg4 V0) (arg5 V0) (arg6 V0) (arg7 V0) (arg8 V0) := by
  unfold R3
  simp only [ops2]
  after_results_simp
  try simp only [TRef.ofBuf, TRef.toBuf, cast_eq]
  simp only [R2_main_arg5, R2_main_arg8, R2_main_arg7, R2_main_v98, R2_main_v97, R2_main_v92, R2_main_v89]
  rfl

set_option maxRecDepth 8192 in
set_option maxHeartbeats 4000000 in
theorem R3_main_v148 : R3 V0 (no_index (Proc.devRef .tc main_v148))
    = val_main_v148 (F := F) (arg0 V0) (arg1 V0) (arg3 V0) (arg4 V0) (arg5 V0) (arg6 V0) (arg7 V0) (arg8 V0) := by
  unfold R3
  simp only [ops2]
  after_results_simp
  try simp only [TRef.ofBuf, TRef.toBuf, cast_eq]
  simp only [R2_main_v3, R2_main_v10, R2_main_v1, R2_main_arg5, R2_main_arg8, R2_main_arg7, R2_main_v98, R2_main_v97,
    R2_main_v92, R2_main_v89]
  rfl

set_option maxRecDepth 8192 in
set_option maxHeartbeats 4000000 in
theorem R3_main_v150 : R3 V0 (no_index (Proc.devRef .tc main_v150)) = val_main_v150 (F := F) (arg1 V0) := by
  unfold R3
  simp only [ops2]
  after_results_simp
  simp only [R2_main_v10]
  rfl

theorem R3_main_arg5 : R3 V0 (no_index (Proc.devRef .tc main_arg5)) = arg5 V0 :=
  R3_kept V0 (by decide) (by decide) (by decide)

theorem R3_main_arg6 : R3 V0 (no_index (Proc.devRef .tc main_arg6)) = arg6 V0 :=
  R3_kept V0 (by decide) (by decide) (by decide)

theorem R3_main_arg7 : R3 V0 (no_index (Proc.devRef .tc main_arg7)) = arg7 V0 :=
  R3_kept V0 (by decide) (by decide) (by decide)

theorem R3_main_arg8 : R3 V0 (no_index (Proc.devRef .tc main_arg8)) = arg8 V0 :=
  R3_kept V0 (by decide) (by decide) (by decide)

theorem R4_main_v1 : R4 V0 (no_index (Proc.devRef .tc main_v1)) = val_main_v1 (F := F) (arg1 V0) :=
  (R4_keep V0 (by decide)).trans (R3_main_v1 V0)

theorem R4_main_v3 : R4 V0 (no_index (Proc.devRef .tc main_v3)) = val_main_v3 (F := F) (arg1 V0) :=
  (R4_keep V0 (by decide)).trans (R3_main_v3 V0)

theorem R4_main_v10 : R4 V0 (no_index (Proc.devRef .tc main_v10)) = val_main_v10 (F := F) (arg1 V0) :=
  (R4_keep V0 (by decide)).trans (R3_main_v10 V0)

set_option maxRecDepth 8192 in
set_option maxHeartbeats 4000000 in
theorem R4_main_v186 : R4 V0 (no_index (Proc.devRef .tc main_v186)) = val_main_v186 (F := F) (arg6 V0) := by
  unfold R4
  simp only [ops3]
  after_results_simp
  simp only [R3_main_arg6]
  rfl

set_option maxRecDepth 8192 in
set_option maxHeartbeats 4000000 in
theorem R4_main_v187 : R4 V0 (no_index (Proc.devRef .tc main_v187))
    = val_main_v187 (F := F) (arg0 V0) (arg1 V0) (arg3 V0) (arg4 V0) (arg5 V0) (arg6 V0) (arg7 V0) (arg8 V0) := by
  unfold R4
  simp only [ops3]
  after_results_simp
  try simp only [TRef.ofBuf, TRef.toBuf, cast_eq]
  simp only [R3_main_arg5, R3_main_arg8, R3_main_arg7, R3_main_v119, R3_main_v150, R3_main_v120, R3_main_v148]
  rfl

set_option maxRecDepth 8192 in
set_option maxHeartbeats 4000000 in
theorem R4_main_v194 : R4 V0 (no_index (Proc.devRef .tc main_v194)) = val_main_v194 (F := F) (arg1 V0) := by
  unfold R4
  simp only [ops3]
  after_results_simp
  simp only [R3_main_v1, R3_main_v10]
  rfl

set_option maxRecDepth 8192 in
set_option maxHeartbeats 4000000 in
theorem R4_main_v201 : R4 V0 (no_index (Proc.devRef .tc main_v201)) = val_main_v201 (F := F) (arg1 V0) := by
  unfold R4
  simp only [ops3]
  after_results_simp
  simp only [R3_main_v3, R3_main_v10]
  rfl

theorem R4_main_arg2 : R4 V0 (no_index (Proc.devRef .tc main_arg2)) = arg2 V0 :=
  R4_kept V0 (by decide) (by decide) (by decide) (by decide)

theorem R4_main_arg7 : R4 V0 (no_index (Proc.devRef .tc main_arg7)) = arg7 V0 :=
  R4_kept V0 (by decide) (by decide) (by decide) (by decide)

theorem R4_main_arg8 : R4 V0 (no_index (Proc.devRef .tc main_arg8)) = arg8 V0 :=
  R4_kept V0 (by decide) (by decide) (by decide) (by decide)

set_option maxRecDepth 8192 in
set_option maxHeartbeats 4000000 in
theorem R5_main_v252 : R5 V0 (no_index (Proc.devRef .tc main_v252))
    = val_main_v252 (F := F) (arg0 V0) (arg1 V0) (arg2 V0) (arg3 V0) (arg4 V0) (arg5 V0) (arg6 V0) (arg7 V0)
        (arg8 V0) := by
  unfold R5
  simp only [ops4]
  after_results_simp
  try simp only [TRef.ofBuf, TRef.toBuf, cast_eq]
  simp only [R4_main_arg8, R4_main_arg7, R4_main_v186, R4_main_v10, R4_main_v187, R4_main_v201, R4_main_v194,
    R4_main_v1, R4_main_v3, R4_main_arg2]
  rfl

theorem R5_main_arg2 : R5 V0 (no_index (Proc.devRef .tc main_arg2)) = arg2 V0 :=
  R5_kept V0 (by decide) (by decide) (by decide) (by decide) (by decide)

theorem R5_main_arg9 : R5 V0 (no_index (Proc.devRef .tc main_arg9)) = arg9 V0 :=
  R5_kept V0 (by decide) (by decide) (by decide) (by decide) (by decide)

theorem R5_main_arg10 : R5 V0 (no_index (Proc.devRef .tc main_arg10)) = arg10 V0 :=
  R5_kept V0 (by decide) (by decide) (by decide) (by decide) (by decide)

theorem R5_main_arg11 : R5 V0 (no_index (Proc.devRef .tc main_arg11)) = arg11 V0 :=
  R5_kept V0 (by decide) (by decide) (by decide) (by decide) (by decide)

theorem R5_main_arg12 : R5 V0 (no_index (Proc.devRef .tc main_arg12)) = arg12 V0 :=
  R5_kept V0 (by decide) (by decide) (by decide) (by decide) (by decide)

theorem R5_main_arg13 : R5 V0 (no_index (Proc.devRef .tc main_arg13)) = arg13 V0 :=
  R5_kept V0 (by decide) (by decide) (by decide) (by decide) (by decide)

theorem R5_main_arg14 : R5 V0 (no_index (Proc.devRef .tc main_arg14)) = arg14 V0 :=
  R5_kept V0 (by decide) (by decide) (by decide) (by decide) (by decide)

set_option maxRecDepth 8192 in
set_option maxHeartbeats 4000000 in
theorem R6_main_v275 : R6 V0 (no_index (Proc.devRef .tc main_v275))
    = val_main_v275 (F := F) (arg0 V0) (arg1 V0) (arg2 V0) (arg3 V0) (arg4 V0) (arg5 V0) (arg6 V0) (arg7 V0)
        (arg8 V0) (arg9 V0) (arg10 V0) (arg11 V0) (arg12 V0) (arg13 V0) (arg14 V0) := by
  unfold R6
  simp only [ops5]
  after_results_simp
  try simp only [TRef.ofBuf, TRef.toBuf, cast_eq]
  simp only [R5_main_arg14, R5_main_arg13, R5_main_arg12, R5_main_arg11, R5_main_arg10, R5_main_arg9, R5_main_arg2,
    R5_main_v252]
  rfl

theorem R6_arg {r : Ref sig .tc} (h0 : r ∉ ops0_W) (h1 : r ∉ ops1_W) (h2 : r ∉ ops2_W) (h3 : r ∉ ops3_W)
    (h4 : r ∉ ops4_W) (h5 : r ∉ ops5_W) : after ops V0 (Proc.devRef .tc r) = V0 (Proc.devRef .tc r) :=
  (congrFun (after_ops V0) _).trans (R6_kept V0 h0 h1 h2 h3 h4 h5)

end Stages

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v275) = Cert.ReferenceIdeal.ReadP.val_main_v275 (F := F)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c =>
    ⟨(h c main_v275).trans ((congrFun (after_ops (launchContents m c)) _).trans (R6_main_v275 (launchContents m c))),
      (h c main_arg0).trans (R6_arg (launchContents m c) (by decide) (by decide) (by decide) (by decide) (by decide) (by decide)),
      (h c main_arg1).trans (R6_arg (launchContents m c) (by decide) (by decide) (by decide) (by decide) (by decide) (by decide)),
      (h c main_arg2).trans (R6_arg (launchContents m c) (by decide) (by decide) (by decide) (by decide) (by decide) (by decide)),
      (h c main_arg3).trans (R6_arg (launchContents m c) (by decide) (by decide) (by decide) (by decide) (by decide) (by decide)),
      (h c main_arg4).trans (R6_arg (launchContents m c) (by decide) (by decide) (by decide) (by decide) (by decide) (by decide)),
      (h c main_arg5).trans (R6_arg (launchContents m c) (by decide) (by decide) (by decide) (by decide) (by decide) (by decide)),
      (h c main_arg6).trans (R6_arg (launchContents m c) (by decide) (by decide) (by decide) (by decide) (by decide) (by decide)),
      (h c main_arg7).trans (R6_arg (launchContents m c) (by decide) (by decide) (by decide) (by decide) (by decide) (by decide)),
      (h c main_arg8).trans (R6_arg (launchContents m c) (by decide) (by decide) (by decide) (by decide) (by decide) (by decide)),
      (h c main_arg9).trans (R6_arg (launchContents m c) (by decide) (by decide) (by decide) (by decide) (by decide) (by decide)),
      (h c main_arg10).trans (R6_arg (launchContents m c) (by decide) (by decide) (by decide) (by decide) (by decide) (by decide)),
      (h c main_arg11).trans (R6_arg (launchContents m c) (by decide) (by decide) (by decide) (by decide) (by decide) (by decide)),
      (h c main_arg12).trans (R6_arg (launchContents m c) (by decide) (by decide) (by decide) (by decide) (by decide) (by decide)),
      (h c main_arg13).trans (R6_arg (launchContents m c) (by decide) (by decide) (by decide) (by decide) (by decide) (by decide)),
      (h c main_arg14).trans (R6_arg (launchContents m c) (by decide) (by decide) (by decide) (by decide) (by decide) (by decide))⟩)
    (run_after m ρ)

end Cert.ReferenceIdeal.RunP

end
-- ==== Proof.lean ====
/-
  Thirteen tiled kernels with host gather and scatter-add between them against the plain array program of a
  four-layer graph convolution network with a mean pool and a three-layer read-out. Each kernel region leaves in
  its output array the array program's stage it replaces (a matrix product, an entrywise combine or normalisation,
  a segment sum, the read-out), and the host operations between the regions are the array program's own, so the
  last region's output is the array program's result. Only associativity and commutativity of finite sums are used.
-/
import proofs.«420664_j68839735820523_2_alg».proof.Defs
import proofs.«420664_j68839735820523_2_alg».proof.Proof.Gen.Kernel
import proofs.«420664_j68839735820523_2_alg».proof.Proof.Gen.KernelIdeal
import proofs.«420664_j68839735820523_2_alg».proof.Proof.Gen.ReferenceIdeal
import proofs.«420664_j68839735820523_2_alg».proof.Proof.Gen.Pre_finite_inputs
import proofs.«420664_j68839735820523_2_alg».proof.Proof.K.Run
import proofs.«420664_j68839735820523_2_alg».proof.Proof.KI.Run
import proofs.«420664_j68839735820523_2_alg».proof.Proof.KI.Chain3
import proofs.«420664_j68839735820523_2_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ =>
  (θ_run Cert.Kernel.defs _ _).mono (fun _ h c => (h c).2) (Cert.Kernel.Net.run m ρ)

theorem frame_kernelIdeal : Cert.frame_KernelIdeal := fun m ρ _ =>
  (θ_run Cert.KernelIdeal.defs _ _).mono (fun _ h c => (h c).2) (Cert.KernelIdeal.Net.run m ρ)

theorem frame_reference : Cert.frame_ReferenceIdeal := fun m ρ _ =>
  (θ_run Cert.ReferenceIdeal.defs _ _).mono (fun _ h c => (h c).2) (Cert.ReferenceIdeal.RunP.run (F := Ideal) m ρ)

theorem algebraic : Cert.algebraic_KernelIdeal_ReferenceIdeal := by
  intro m ρ m' ρ' _ hagree
  refine ⟨fun c => Cert.KernelIdeal.Net.W26 m c (Proc.devRef .tc Cert.KernelIdeal.main_v205), Cert.KernelIdeal.Net.run m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4, h5, h6, h7, h8, h9, h10, h11, h12, h13, h14⟩ := hagree c
  rw [h0, h1, h2, h3, h4, h5, h6, h7, h8, h9, h10, h11, h12, h13, h14]
  exact (Cert.KernelIdeal.Net.kernel_value m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
